-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x16384 : Shape := ⟨2, ![16384, 16384]⟩
abbrev S512x256 : Shape := ⟨2, ![512, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S256x64 .f32) (main_arg5 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S16384x512 .f32) (main_arg1 : FVec F S16384x16384 .f32) (main_arg2 : FVec F S512x256 .f32) (main_arg3 : FVec F S256 .f32) (main_arg4 : FVec F S256x64 .f32) (main_arg5 : FVec F S64 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S16384x512 : Shape := ⟨2, ![16384, 512]⟩
abbrev S16384x16384 : Shape := ⟨2, ![16384, 16384]⟩
abbrev S512x256 : Shape := ⟨2, ![512, 256]⟩
abbrev S256 : Shape := ⟨1, ![256]⟩
abbrev S256x64 : Shape := ⟨2, ![256, 64]⟩
abbrev S64 : Shape := ⟨1, ![64]⟩
abbrev S1x256 : Shape := ⟨2, ![1, 256]⟩
abbrev S1x64 : Shape := ⟨2, ![1, 64]⟩
abbrev S16384x64 : Shape := ⟨2, ![16384, 64]⟩
abbrev S2048x512 : Shape := ⟨2, ![2048, 512]⟩
abbrev S2048x64 : Shape := ⟨2, ![2048, 64]⟩
abbrev S2048x256 : Shape := ⟨2, ![2048, 256]⟩
abbrev S2048x1024 : Shape := ⟨2, ![2048, 1024]⟩
abbrev S1024x64 : Shape := ⟨2, ![1024, 64]⟩
abbrev S_ : Shape := ⟨0, ![]⟩
abbrev S16384 : Shape := ⟨1, ![16384]⟩
abbrev S16384x1 : Shape := ⟨2, ![16384, 1]⟩

abbrev nBuf : Space → Nat
  | .hbm => 34
  | .vmem => 98
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S512x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S1x256, .f32⟩
  | .hbm, ⟨7, _⟩ => ⟨S1x64, .f32⟩
  | .hbm, ⟨8, _⟩ => ⟨S16384x64, .f32⟩
  | .hbm, ⟨9, _⟩ => ⟨S16384x64, .f32⟩
  | .hbm, ⟨10, _⟩ => ⟨S16384x64, .f32⟩
  | .hbm, ⟨11, _⟩ => ⟨S16384x64, .f32⟩
  | .hbm, ⟨12, _⟩ => ⟨S16384x64, .f32⟩
  | .hbm, ⟨13, _⟩ => ⟨S16384x64, .f32⟩
  | .hbm, ⟨14, _⟩ => ⟨S16384x64, .f32⟩
  | .hbm, ⟨15, _⟩ => ⟨S16384x64, .f32⟩
  | .hbm, ⟨16, _⟩ => ⟨S16384x64, .f32⟩
  | .hbm, ⟨17, _⟩ => ⟨S16384x64, .f32⟩
  | .hbm, ⟨18, _⟩ => ⟨S16384x64, .f32⟩
  | .hbm, ⟨19, _⟩ => ⟨S_, .f32⟩
  | .hbm, ⟨20, _⟩ => ⟨S16384, .f32⟩
  | .hbm, ⟨21, _⟩ => ⟨S_, .f32⟩
  | .hbm, ⟨22, _⟩ => ⟨S16384, .f32⟩
  | .hbm, ⟨23, _⟩ => ⟨S16384, .f32⟩
  | .hbm, ⟨24, _⟩ => ⟨S16384x1, .f32⟩
  | .hbm, ⟨25, _⟩ => ⟨S16384x64, .f32⟩
  | .hbm, ⟨26, _⟩ => ⟨S16384x64, .f32⟩
  | .hbm, ⟨27, _⟩ => ⟨S16384x64, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S16384x1, .f32⟩
  | .hbm, ⟨32, _⟩ => ⟨S16384x64, .f32⟩
  | .hbm, ⟨33, _⟩ => ⟨S16384x64, .f32⟩
  | .local _ .vmem, ⟨0, _⟩ => ⟨S2048x512, .f32⟩
  | .local _ .vmem, ⟨1, _⟩ => ⟨S2048x512, .f32⟩
  | .local _ .vmem, ⟨2, _⟩ => ⟨S512x256, .f32⟩
  | .local _ .vmem, ⟨3, _⟩ => ⟨S1x256, .f32⟩
  | .local _ .vmem, ⟨4, _⟩ => ⟨S256x64, .f32⟩
  | .local _ .vmem, ⟨5, _⟩ => ⟨S1x64, .f32⟩
  | .local _ .vmem, ⟨6, _⟩ => ⟨S2048x64, .f32⟩
  | .local _ .vmem, ⟨7, _⟩ => ⟨S2048x64, .f32⟩
  | .local _ .vmem, ⟨8, _⟩ => ⟨S2048x1024, .f32⟩
  | .local _ .vmem, ⟨9, _⟩ => ⟨S2048x1024, .f32⟩
  | .local _ .vmem, ⟨10, _⟩ => ⟨S1024x64, .f32⟩
  | .local _ .vmem, ⟨11, _⟩ => ⟨S1024x64, .f32⟩
  | .local _ .vmem, ⟨12, _⟩ => ⟨S2048x64, .f32⟩
  | .local _ .vmem, ⟨13, _⟩ => ⟨S2048x64, .f32⟩
  | .local _ .vmem, ⟨14, _⟩ => ⟨S2048x64, .f32⟩
  | .local _ .vmem, ⟨15, _⟩ => ⟨S2048x64, .f32⟩
  | .local _ .vmem, ⟨16, _⟩ => ⟨S2048x64, .f32⟩
  | .local _ .vmem, ⟨17, _⟩ => ⟨S2048x1024, .f32⟩
  | .local _ .vmem, ⟨18, _⟩ => ⟨S2048x1024, .f32⟩
  | .local _ .vmem, ⟨19, _⟩ => ⟨S1024x64, .f32⟩
  | .local _ .vmem, ⟨20, _⟩ => ⟨S1024x64, .f32⟩
  | .local _ .vmem, ⟨21, _⟩ => ⟨S2048x64, .f32⟩
  | .local _ .vmem, ⟨22, _⟩ => ⟨S2048x64, .f32⟩
  | .local _ .vmem, ⟨23, _⟩ => ⟨S2048x64, .f32⟩
  | .local _ .vmem, ⟨24, _⟩ => ⟨S2048x64, .f32⟩
  | .local _ .vmem, ⟨25, _⟩ => ⟨S2048x64, .f32⟩
  | .local _ .vmem, ⟨26, _⟩ => ⟨S2048x1024, .f32⟩
  | .local _ .vmem, ⟨27, _⟩ => ⟨S2048x1024, .f32⟩
  | .local _ .vmem, ⟨28, _⟩ => ⟨S1024x64, .f32⟩
  | .local _ .vmem, ⟨29, _⟩ => ⟨S1024x64, .f32⟩
  | .local _ .vmem, ⟨30, _⟩ => ⟨S2048x64, .f32⟩
  | .local _ .vmem, ⟨31, _⟩ => ⟨S2048x64, .f32⟩
  | .local _ .vmem, ⟨32, _⟩ => ⟨S2048x64, .f32⟩
  | .local _ .vmem, ⟨33, _⟩ => ⟨S2048x64, .f32⟩
  | .local _ .vmem, ⟨34, _⟩ => ⟨S2048x64, .f32⟩
  | .local _ .vmem, ⟨35, _⟩ => ⟨S2048x1024, .f32⟩
  | .local _ .vmem, ⟨36, _⟩ => ⟨S2048x1024, .f32⟩
  | .local _ .vmem, ⟨37, _⟩ => ⟨S1024x64, .f32⟩
  | .local _ .vmem, ⟨38, _⟩ => ⟨S1024x64, .f32⟩
  | .local _ .vmem, ⟨39, _⟩ => ⟨S2048x64, .f32⟩
  | .local _ .vmem, ⟨40, _⟩ => ⟨S2048x64, .f32⟩
  | .local _ .vmem, ⟨41, _⟩ => ⟨S2048x64, .f32⟩
  | .local _ .vmem, ⟨42, _⟩ => ⟨S2048x64, .f32⟩
  | .local _ .vmem, ⟨43, _⟩ => ⟨S2048x64, .f32⟩
  | .local _ .vmem, ⟨44, _⟩ => ⟨S2048x1024, .f32⟩
  | .local _ .vmem, ⟨45, _⟩ => ⟨S2048x1024, .f32⟩
  | .local _ .vmem, ⟨46, _⟩ => ⟨S1024x64, .f32⟩
  | .local _ .vmem, ⟨47, _⟩ => ⟨S1024x64, .f32⟩
  | .local _ .vmem, ⟨48, _⟩ => ⟨S2048x64, .f32⟩
  | .local _ .vmem, ⟨49, _⟩ => ⟨S2048x64, .f32⟩
  | .local _ .vmem, ⟨50, _⟩ => ⟨S2048x64, .f32⟩
  | .local _ .vmem, ⟨51, _⟩ => ⟨S2048x64, .f32⟩
  | .local _ .vmem, ⟨52, _⟩ => ⟨S2048x64, .f32⟩
  | .local _ .vmem, ⟨53, _⟩ => ⟨S2048x1024, .f32⟩
  | .local _ .vmem, ⟨54, _⟩ => ⟨S2048x1024, .f32⟩
  | .local _ .vmem, ⟨55, _⟩ => ⟨S1024x64, .f32⟩
  | .local _ .vmem, ⟨56, _⟩ => ⟨S1024x64, .f32⟩
  | .local _ .vmem, ⟨57, _⟩ => ⟨S2048x64, .f32⟩
  | .local _ .vmem, ⟨58, _⟩ => ⟨S2048x64, .f32⟩
  | .local _ .vmem, ⟨59, _⟩ => ⟨S2048x64, .f32⟩
  | .local _ .vmem, ⟨60, _⟩ => ⟨S2048x64, .f32⟩
  | .local _ .vmem, ⟨61, _⟩ => ⟨S2048x64, .f32⟩
  | .local _ .vmem, ⟨62, _⟩ => ⟨S2048x1024, .f32⟩
  | .local _ .vmem, ⟨63, _⟩ => ⟨S2048x1024, .f32⟩
  | .local _ .vmem, ⟨64, _⟩ => ⟨S1024x64, .f32⟩
  | .local _ .vmem, ⟨65, _⟩ => ⟨S1024x64, .f32⟩
  | .local _ .vmem, ⟨66, _⟩ => ⟨S2048x64, .f32⟩
  | .local _ .vmem, ⟨67, _⟩ => ⟨S2048x64, .f32⟩
  | .local _ .vmem, ⟨68, _⟩ => ⟨S2048x64, .f32⟩
  | .local _ .vmem, ⟨69, _⟩ => ⟨S2048x64, .f32⟩
  | .local _ .vmem, ⟨70, _⟩ => ⟨S2048x64, .f32⟩
  | .local _ .vmem, ⟨71, _⟩ => ⟨S2048x1024, .f32⟩
  | .local _ .vmem, ⟨72, _⟩ => ⟨S2048x1024, .f32⟩
  | .local _ .vmem, ⟨73, _⟩ => ⟨S1024x64, .f32⟩
  | .local _ .vmem, ⟨74, _⟩ => ⟨S1024x64, .f32⟩
  | .local _ .vmem, ⟨75, _⟩ => ⟨S2048x64, .f32⟩
  | .local _ .vmem, ⟨76, _⟩ => ⟨S2048x64, .f32⟩
  | .local _ .vmem, ⟨77, _⟩ => ⟨S2048x64, .f32⟩
  | .local _ .vmem, ⟨78, _⟩ => ⟨S2048x64, .f32⟩
  | .local _ .vmem, ⟨79, _⟩ => ⟨S2048x64, .f32⟩
  | .local _ .vmem, ⟨80, _⟩ => ⟨S2048x1024, .f32⟩
  | .local _ .vmem, ⟨81, _⟩ => ⟨S2048x1024, .f32⟩
  | .local _ .vmem, ⟨82, _⟩ => ⟨S1024x64, .f32⟩
  | .local _ .vmem, ⟨83, _⟩ => ⟨S1024x64, .f32⟩
  | .local _ .vmem, ⟨84, _⟩ => ⟨S2048x64, .f32⟩
  | .local _ .vmem, ⟨85, _⟩ => ⟨S2048x64, .f32⟩
  | .local _ .vmem, ⟨86, _⟩ => ⟨S2048x64, .f32⟩
  | .local _ .vmem, ⟨87, _⟩ => ⟨S2048x64, .f32⟩
  | .local _ .vmem, ⟨88, _⟩ => ⟨S2048x64, .f32⟩
  | .local _ .vmem, ⟨89, _⟩ => ⟨S2048x1024, .f32⟩
  | .local _ .vmem, ⟨90, _⟩ => ⟨S2048x1024, .f32⟩
  | .local _ .vmem, ⟨91, _⟩ => ⟨S1024x64, .f32⟩
  | .local _ .vmem, ⟨92, _⟩ => ⟨S1024x64, .f32⟩
  | .local _ .vmem, ⟨93, _⟩ => ⟨S2048x64, .f32⟩
  | .local _ .vmem, ⟨94, _⟩ => ⟨S2048x64, .f32⟩
  | .local _ .vmem, ⟨95, _⟩ => ⟨S2048x64, .f32⟩
  | .local _ .vmem, ⟨96, _⟩ => ⟨S2048x64, .f32⟩
  | .local _ .vmem, ⟨97, _⟩ => ⟨S2048x64, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | _, _ => false

abbrev semScoped : Fin 0 → Bool
  | ⟨_, h⟩ => absurd h (Nat.not_lt_zero _)

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTc nBuf bufTy 0 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_cst : Ref sig .tc := ⟨.hbm, 19, rfl⟩
abbrev main_call0_v0 : Ref sig .tc := ⟨.hbm, 20, rfl⟩
abbrev main_call0_cst_0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_cst_1 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_v13 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_scratch0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc3_scratch0 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg2_1 : Ref sig .tc := ⟨.vmem, 40, rfl⟩
abbrev cc4_stg3_0 : Ref sig .tc := ⟨.vmem, 41, rfl⟩
abbrev cc4_stg3_1 : Ref sig .tc := ⟨.vmem, 42, rfl⟩
abbrev cc4_scratch0 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg2_1 : Ref sig .tc := ⟨.vmem, 49, rfl⟩
abbrev cc5_stg3_0 : Ref sig .tc := ⟨.vmem, 50, rfl⟩
abbrev cc5_stg3_1 : Ref sig .tc := ⟨.vmem, 51, rfl⟩
abbrev cc5_scratch0 : Ref sig .tc := ⟨.vmem, 52, rfl⟩
abbrev cc6_stg0_0 : Ref sig .tc := ⟨.vmem, 53, rfl⟩
abbrev cc6_stg0_1 : Ref sig .tc := ⟨.vmem, 54, rfl⟩
abbrev cc6_stg1_0 : Ref sig .tc := ⟨.vmem, 55, rfl⟩
abbrev cc6_stg1_1 : Ref sig .tc := ⟨.vmem, 56, rfl⟩
abbrev cc6_stg2_0 : Ref sig .tc := ⟨.vmem, 57, rfl⟩
abbrev cc6_stg2_1 : Ref sig .tc := ⟨.vmem, 58, rfl⟩
abbrev cc6_stg3_0 : Ref sig .tc := ⟨.vmem, 59, rfl⟩
abbrev cc6_stg3_1 : Ref sig .tc := ⟨.vmem, 60, rfl⟩
abbrev cc6_scratch0 : Ref sig .tc := ⟨.vmem, 61, rfl⟩
abbrev cc7_stg0_0 : Ref sig .tc := ⟨.vmem, 62, rfl⟩
abbrev cc7_stg0_1 : Ref sig .tc := ⟨.vmem, 63, rfl⟩
abbrev cc7_stg1_0 : Ref sig .tc := ⟨.vmem, 64, rfl⟩
abbrev cc7_stg1_1 : Ref sig .tc := ⟨.vmem, 65, rfl⟩
abbrev cc7_stg2_0 : Ref sig .tc := ⟨.vmem, 66, rfl⟩
abbrev cc7_stg2_1 : Ref sig .tc := ⟨.vmem, 67, rfl⟩
abbrev cc7_stg3_0 : Ref sig .tc := ⟨.vmem, 68, rfl⟩
abbrev cc7_stg3_1 : Ref sig .tc := ⟨.vmem, 69, rfl⟩
abbrev cc7_scratch0 : Ref sig .tc := ⟨.vmem, 70, rfl⟩
abbrev cc8_stg0_0 : Ref sig .tc := ⟨.vmem, 71, rfl⟩
abbrev cc8_stg0_1 : Ref sig .tc := ⟨.vmem, 72, rfl⟩
abbrev cc8_stg1_0 : Ref sig .tc := ⟨.vmem, 73, rfl⟩
abbrev cc8_stg1_1 : Ref sig .tc := ⟨.vmem, 74, rfl⟩
abbrev cc8_stg2_0 : Ref sig .tc := ⟨.vmem, 75, rfl⟩
abbrev cc8_stg2_1 : Ref sig .tc := ⟨.vmem, 76, rfl⟩
abbrev cc8_stg3_0 : Ref sig .tc := ⟨.vmem, 77, rfl⟩
abbrev cc8_stg3_1 : Ref sig .tc := ⟨.vmem, 78, rfl⟩
abbrev cc8_scratch0 : Ref sig .tc := ⟨.vmem, 79, rfl⟩
abbrev cc9_stg0_0 : Ref sig .tc := ⟨.vmem, 80, rfl⟩
abbrev cc9_stg0_1 : Ref sig .tc := ⟨.vmem, 81, rfl⟩
abbrev cc9_stg1_0 : Ref sig .tc := ⟨.vmem, 82, rfl⟩
abbrev cc9_stg1_1 : Ref sig .tc := ⟨.vmem, 83, rfl⟩
abbrev cc9_stg2_0 : Ref sig .tc := ⟨.vmem, 84, rfl⟩
abbrev cc9_stg2_1 : Ref sig .tc := ⟨.vmem, 85, rfl⟩
abbrev cc9_stg3_0 : Ref sig .tc := ⟨.vmem, 86, rfl⟩
abbrev cc9_stg3_1 : Ref sig .tc := ⟨.vmem, 87, rfl⟩
abbrev cc9_scratch0 : Ref sig .tc := ⟨.vmem, 88, rfl⟩
abbrev cc10_stg0_0 : Ref sig .tc := ⟨.vmem, 89, rfl⟩
abbrev cc10_stg0_1 : Ref sig .tc := ⟨.vmem, 90, rfl⟩
abbrev cc10_stg1_0 : Ref sig .tc := ⟨.vmem, 91, rfl⟩
abbrev cc10_stg1_1 : Ref sig .tc := ⟨.vmem, 92, rfl⟩
abbrev cc10_stg2_0 : Ref sig .tc := ⟨.vmem, 93, rfl⟩
abbrev cc10_stg2_1 : Ref sig .tc := ⟨.vmem, 94, rfl⟩
abbrev cc10_stg3_0 : Ref sig .tc := ⟨.vmem, 95, rfl⟩
abbrev cc10_stg3_1 : Ref sig .tc := ⟨.vmem, 96, rfl⟩
abbrev cc10_scratch0 : Ref sig .tc := ⟨.vmem, 97, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem2_1 : DmaSem sig := 45
abbrev cc5_sem3_0 : DmaSem sig := 46
abbrev cc5_sem3_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem2_1 : DmaSem sig := 53
abbrev cc6_sem3_0 : DmaSem sig := 54
abbrev cc6_sem3_1 : DmaSem sig := 55
abbrev cc7_sem0_0 : DmaSem sig := 56
abbrev cc7_sem0_1 : DmaSem sig := 57
abbrev cc7_sem1_0 : DmaSem sig := 58
abbrev cc7_sem1_1 : DmaSem sig := 59
abbrev cc7_sem2_0 : DmaSem sig := 60
abbrev cc7_sem2_1 : DmaSem sig := 61
abbrev cc7_sem3_0 : DmaSem sig := 62
abbrev cc7_sem3_1 : DmaSem sig := 63
abbrev cc8_sem0_0 : DmaSem sig := 64
abbrev cc8_sem0_1 : DmaSem sig := 65
abbrev cc8_sem1_0 : DmaSem sig := 66
abbrev cc8_sem1_1 : DmaSem sig := 67
abbrev cc8_sem2_0 : DmaSem sig := 68
abbrev cc8_sem2_1 : DmaSem sig := 69
abbrev cc8_sem3_0 : DmaSem sig := 70
abbrev cc8_sem3_1 : DmaSem sig := 71
abbrev cc9_sem0_0 : DmaSem sig := 72
abbrev cc9_sem0_1 : DmaSem sig := 73
abbrev cc9_sem1_0 : DmaSem sig := 74
abbrev cc9_sem1_1 : DmaSem sig := 75
abbrev cc9_sem2_0 : DmaSem sig := 76
abbrev cc9_sem2_1 : DmaSem sig := 77
abbrev cc9_sem3_0 : DmaSem sig := 78
abbrev cc9_sem3_1 : DmaSem sig := 79
abbrev cc10_sem0_0 : DmaSem sig := 80
abbrev cc10_sem0_1 : DmaSem sig := 81
abbrev cc10_sem1_0 : DmaSem sig := 82
abbrev cc10_sem1_1 : DmaSem sig := 83
abbrev cc10_sem2_0 : DmaSem sig := 84
abbrev cc10_sem2_1 : DmaSem sig := 85
abbrev cc10_sem3_0 : DmaSem sig := 86
abbrev cc10_sem3_1 : DmaSem sig := 87

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 16], ![false, false]⟩

def k2_cond2 (i : grid2.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S2048x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![8, 16], ![false, false]⟩

def k3_cond2 (i : grid3.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S2048x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![8, 16], ![false, false]⟩

def k4_cond2 (i : grid4.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2048x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1024x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2048x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S2048x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![8, 16], ![false, false]⟩

def k5_cond2 (i : grid5.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S2048x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1024x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S2048x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S2048x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev grid6 : Pipeline.Grid := ⟨2, ![8, 16], ![false, false]⟩

def k6_cond2 (i : grid6.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S2048x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1024x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S2048x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev stage6_3 : Fin 2 → Memref sig .tc .vmem S2048x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev grid7 : Pipeline.Grid := ⟨2, ![8, 16], ![false, false]⟩

def k7_cond2 (i : grid7.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S2048x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S1024x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S2048x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev stage7_3 : Fin 2 → Memref sig .tc .vmem S2048x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

abbrev grid8 : Pipeline.Grid := ⟨2, ![8, 16], ![false, false]⟩

def k8_cond2 (i : grid8.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S2048x1024 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S1024x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S2048x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, false]

abbrev stage8_3 : Fin 2 → Memref sig .tc .vmem S2048x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, false]

abbrev grid9 : Pipeline.Grid := ⟨2, ![8, 16], ![false, false]⟩

def k9_cond2 (i : grid9.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage9_0 : Fin 2 → Memref sig .tc .vmem S2048x1024 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 2 → Memref sig .tc .vmem S1024x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true]

abbrev stage9_2 : Fin 2 → Memref sig .tc .vmem S2048x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, false]

abbrev stage9_3 : Fin 2 → Memref sig .tc .vmem S2048x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, false]

abbrev grid10 : Pipeline.Grid := ⟨2, ![8, 16], ![false, false]⟩

def k10_cond2 (i : grid10.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage10_0 : Fin 2 → Memref sig .tc .vmem S2048x1024 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, true]

abbrev stage10_1 : Fin 2 → Memref sig .tc .vmem S1024x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S2048x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, false]

abbrev stage10_3 : Fin 2 → Memref sig .tc .vmem S2048x64 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, false]

class Facts₀ : Prop where
  shapeCasts_S256_S1x256 : S256.ShapeCasts S1x256
  shapeCasts_S64_S1x64 : S64.ShapeCasts S1x64
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x1024_S2048x1024_0_0 : ∀ a, (![0, 0] : Fin 2 → Nat) a + S2048x1024.size a ≤ S2048x1024.size a
  h_S2048x1024 : 0 < S2048x1024.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  reducesTo_S16384x64_S16384_d1 : S16384x64.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  dot_S2048x512_S512x256_S2048x256_1_0_0_1_n_n_wf : DotDims.WF S2048x512 S512x256 S2048x256 [1] [0] [0] [1] [] []
  dot_S2048x256_S256x64_S2048x64_1_0_0_1_n_n_wf : DotDims.WF S2048x256 S256x64 S2048x64 [1] [0] [0] [1] [] []
  dot_S2048x1024_S1024x64_S2048x64_1_0_0_1_n_n_wf : DotDims.WF S2048x1024 S1024x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x64.size a ≤ S16384x64.size a
  hwx0_5 : ∀ i : grid0.Coords, EltTy.bits .f32 = 32 ∨ (Rect.block (s := S16384x64) S2048x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S16384x16384.size a
  hwx1_0 : ∀ i : grid1.Coords, EltTy.bits .f32 = 32 ∨ (Rect.block (s := S16384x16384) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S16384x64.size a
  hwx1_1 : ∀ i : grid1.Coords, EltTy.bits .f32 = 32 ∨ (Rect.block (s := S16384x64) S1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S16384x64.size a
  hwx1_2 : ∀ i : grid1.Coords, EltTy.bits .f32 = 32 ∨ (Rect.block (s := S16384x64) S2048x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x64.size a ≤ S16384x64.size a
  hwx1_3 : ∀ i : grid1.Coords, EltTy.bits .f32 = 32 ∨ (Rect.block (s := S16384x64) S2048x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S16384x16384.size a
  hwx2_0 : ∀ i : grid2.Coords, EltTy.bits .f32 = 32 ∨ (Rect.block (s := S16384x16384) S2048x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x64.size a ≤ S16384x64.size a
  hwx2_1 : ∀ i : grid2.Coords, EltTy.bits .f32 = 32 ∨ (Rect.block (s := S16384x64) S1024x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x64.size a ≤ S16384x64.size a
  hwx2_2 : ∀ i : grid2.Coords, EltTy.bits .f32 = 32 ∨ (Rect.block (s := S16384x64) S2048x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x64.size a ≤ S16384x64.size a
  hwx2_3 : ∀ i : grid2.Coords, EltTy.bits .f32 = 32 ∨ (Rect.block (s := S16384x64) S2048x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x1024.size a ≤ S16384x16384.size a
  hwx3_0 : ∀ i : grid3.Coords, EltTy.bits .f32 = 32 ∨ (Rect.block (s := S16384x16384) S2048x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x64.size a ≤ S16384x64.size a
  hwx3_1 : ∀ i : grid3.Coords, EltTy.bits .f32 = 32 ∨ (Rect.block (s := S16384x64) S1024x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x64.size a ≤ S16384x64.size a
  hwx3_2 : ∀ i : grid3.Coords, EltTy.bits .f32 = 32 ∨ (Rect.block (s := S16384x64) S2048x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x64.size a ≤ S16384x64.size a
  hwx3_3 : ∀ i : grid3.Coords, EltTy.bits .f32 = 32 ∨ (Rect.block (s := S16384x64) S2048x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x1024.size a ≤ S16384x16384.size a
  hwx4_0 : ∀ i : grid4.Coords, EltTy.bits .f32 = 32 ∨ (Rect.block (s := S16384x16384) S2048x1024.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x64.size a ≤ S16384x64.size a
  hwx4_1 : ∀ i : grid4.Coords, EltTy.bits .f32 = 32 ∨ (Rect.block (s := S16384x64) S1024x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x64.size a ≤ S16384x64.size a
  hwx4_2 : ∀ i : grid4.Coords, EltTy.bits .f32 = 32 ∨ (Rect.block (s := S16384x64) S2048x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x64.size a ≤ S16384x64.size a
  hwx4_3 : ∀ i : grid4.Coords, EltTy.bits .f32 = 32 ∨ (Rect.block (s := S16384x64) S2048x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x1024.size a ≤ S16384x16384.size a
  hwx5_0 : ∀ i : grid5.Coords, EltTy.bits .f32 = 32 ∨ (Rect.block (s := S16384x16384) S2048x1024.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x64.size a ≤ S16384x64.size a
  hwx5_1 : ∀ i : grid5.Coords, EltTy.bits .f32 = 32 ∨ (Rect.block (s := S16384x64) S1024x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x64.size a ≤ S16384x64.size a
  hwx5_2 : ∀ i : grid5.Coords, EltTy.bits .f32 = 32 ∨ (Rect.block (s := S16384x64) S2048x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2048x64.size a ≤ S16384x64.size a
  hwx5_3 : ∀ i : grid5.Coords, EltTy.bits .f32 = 32 ∨ (Rect.block (s := S16384x64) S2048x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x1024.size a ≤ S16384x16384.size a
  hwx6_0 : ∀ i : grid6.Coords, EltTy.bits .f32 = 32 ∨ (Rect.block (s := S16384x16384) S2048x1024.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1024x64.size a ≤ S16384x64.size a
  hwx6_1 : ∀ i : grid6.Coords, EltTy.bits .f32 = 32 ∨ (Rect.block (s := S16384x64) S1024x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2048x64.size a ≤ S16384x64.size a
  hwx6_2 : ∀ i : grid6.Coords, EltTy.bits .f32 = 32 ∨ (Rect.block (s := S16384x64) S2048x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2048x64.size a ≤ S16384x64.size a
  hwx6_3 : ∀ i : grid6.Coords, EltTy.bits .f32 = 32 ∨ (Rect.block (s := S16384x64) S2048x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2048x1024.size a ≤ S16384x16384.size a
  hwx7_0 : ∀ i : grid7.Coords, EltTy.bits .f32 = 32 ∨ (Rect.block (s := S16384x16384) S2048x1024.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1024x64.size a ≤ S16384x64.size a
  hwx7_1 : ∀ i : grid7.Coords, EltTy.bits .f32 = 32 ∨ (Rect.block (s := S16384x64) S1024x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2048x64.size a ≤ S16384x64.size a
  hwx7_2 : ∀ i : grid7.Coords, EltTy.bits .f32 = 32 ∨ (Rect.block (s := S16384x64) S2048x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2048x64.size a ≤ S16384x64.size a
  hwx7_3 : ∀ i : grid7.Coords, EltTy.bits .f32 = 32 ∨ (Rect.block (s := S16384x64) S2048x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2048x1024.size a ≤ S16384x16384.size a
  hwx8_0 : ∀ i : grid8.Coords, EltTy.bits .f32 = 32 ∨ (Rect.block (s := S16384x16384) S2048x1024.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1024x64.size a ≤ S16384x64.size a
  hwx8_1 : ∀ i : grid8.Coords, EltTy.bits .f32 = 32 ∨ (Rect.block (s := S16384x64) S1024x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2048x64.size a ≤ S16384x64.size a
  hwx8_2 : ∀ i : grid8.Coords, EltTy.bits .f32 = 32 ∨ (Rect.block (s := S16384x64) S2048x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2048x64.size a ≤ S16384x64.size a
  hwx8_3 : ∀ i : grid8.Coords, EltTy.bits .f32 = 32 ∨ (Rect.block (s := S16384x64) S2048x64.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2048x1024.size a ≤ S16384x16384.size a
  hwx9_0 : ∀ i : grid9.Coords, EltTy.bits .f32 = 32 ∨ (Rect.block (s := S16384x16384) S2048x1024.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S1024x64.size a ≤ S16384x64.size a
  hwx9_1 : ∀ i : grid9.Coords, EltTy.bits .f32 = 32 ∨ (Rect.block (s := S16384x64) S1024x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2048x64.size a ≤ S16384x64.size a
  hwx9_2 : ∀ i : grid9.Coords, EltTy.bits .f32 = 32 ∨ (Rect.block (s := S16384x64) S2048x64.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S2048x64.size a ≤ S16384x64.size a
  hwx9_3 : ∀ i : grid9.Coords, EltTy.bits .f32 = 32 ∨ (Rect.block (s := S16384x64) S2048x64.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2048x1024.size a ≤ S16384x16384.size a
  hwx10_0 : ∀ i : grid10.Coords, EltTy.bits .f32 = 32 ∨ (Rect.block (s := S16384x16384) S2048x1024.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S1024x64.size a ≤ S16384x64.size a
  hwx10_1 : ∀ i : grid10.Coords, EltTy.bits .f32 = 32 ∨ (Rect.block (s := S16384x64) S1024x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2048x64.size a ≤ S16384x64.size a
  hwx10_2 : ∀ i : grid10.Coords, EltTy.bits .f32 = 32 ∨ (Rect.block (s := S16384x64) S2048x64.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S2048x64.size a ≤ S16384x64.size a
  hwx10_3 : ∀ i : grid10.Coords, EltTy.bits .f32 = 32 ∨ (Rect.block (s := S16384x64) S2048x64.size (cc10_transform_3 i) (hinb10_3 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2048x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2048x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg1) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S2048x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S2048x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_arg1) S2048x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S1024x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v2) S2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v5) S2048x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_arg1) S2048x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v5) S1024x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v2) S2048x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v6) S2048x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_arg1) S2048x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v6) S1024x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v2) S2048x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v7) S2048x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_arg1) S2048x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v7) S1024x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v2) S2048x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v8) S2048x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev idle6 : Fin 4 → grid6.Coords → Bool := fun | 0 => fun _ => false | 1 => fun _ => false | 2 => fun _ => false | 3 => fun i => !(k6_cond2 i == 1#1) | ⟨_ + 4, h⟩ => absurd h (Nat.not_lt.2 (Nat.le_add_left _ _))

abbrev win7_0 : Pipeline.Window sig grid7 :=
  Pipeline.Window.ofSpec (Memref.whole main_arg1) S2048x1024.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v8) S1024x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v2) S2048x64.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v9) S2048x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun _ => false | 3 => fun i => !(k7_cond2 i == 1#1) | ⟨_ + 4, h⟩ => absurd h (Nat.not_lt.2 (Nat.le_add_left _ _))

abbrev win8_0 : Pipeline.Window sig grid8 :=
  Pipeline.Window.ofSpec (Memref.whole main_arg1) S2048x1024.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v9) S1024x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v2) S2048x64.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v10) S2048x64.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev idle8 : Fin 4 → grid8.Coords → Bool := fun | 0 => fun _ => false | 1 => fun _ => false | 2 => fun _ => false | 3 => fun i => !(k8_cond2 i == 1#1) | ⟨_ + 4, h⟩ => absurd h (Nat.not_lt.2 (Nat.le_add_left _ _))

abbrev win9_0 : Pipeline.Window sig grid9 :=
  Pipeline.Window.ofSpec (Memref.whole main_arg1) S2048x1024.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v10) S1024x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v2) S2048x64.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v11) S2048x64.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev idle9 : Fin 4 → grid9.Coords → Bool := fun | 0 => fun _ => false | 1 => fun _ => false | 2 => fun _ => false | 3 => fun i => !(k9_cond2 i == 1#1) | ⟨_ + 4, h⟩ => absurd h (Nat.not_lt.2 (Nat.le_add_left _ _))

abbrev win10_0 : Pipeline.Window sig grid10 :=
  Pipeline.Window.ofSpec (Memref.whole main_arg1) S2048x1024.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v11) S1024x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v2) S2048x64.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v12) S2048x64.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev idle10 : Fin 4 → grid10.Coords → Bool := fun | 0 => fun _ => false | 1 => fun _ => false | 2 => fun _ => false | 3 => fun i => !(k10_cond2 i == 1#1) | ⟨_ + 4, h⟩ => absurd h (Nat.not_lt.2 (Nat.le_add_left _ _))

class Facts : Prop extends Facts₀ where

variable [Facts]
-- ==== ReferenceIdeal.lean ====
abbrev S16384x512 : Shape := ⟨2, ![16384, 512]⟩
abbrev S16384x16384 : Shape := ⟨2, ![16384, 16384]⟩
abbrev S512x256 : Shape := ⟨2, ![512, 256]⟩
abbrev S256 : Shape := ⟨1, ![256]⟩
abbrev S256x64 : Shape := ⟨2, ![256, 64]⟩
abbrev S64 : Shape := ⟨1, ![64]⟩
abbrev S16384x256 : Shape := ⟨2, ![16384, 256]⟩
abbrev S1x256 : Shape := ⟨2, ![1, 256]⟩
abbrev S16384x64 : Shape := ⟨2, ![16384, 64]⟩
abbrev S1x64 : Shape := ⟨2, ![1, 64]⟩
abbrev S_ : Shape := ⟨0, ![]⟩
abbrev S16384 : Shape := ⟨1, ![16384]⟩
abbrev S16384x1 : Shape := ⟨2, ![16384, 1]⟩

abbrev nBuf : Space → Nat
  | .hbm => 109
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S512x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S16384x256, .f32⟩
  | .hbm, ⟨7, _⟩ => ⟨S1x256, .f32⟩
  | .hbm, ⟨8, _⟩ => ⟨S16384x256, .f32⟩
  | .hbm, ⟨9, _⟩ => ⟨S16384x256, .f32⟩
  | .hbm, ⟨10, _⟩ => ⟨S16384x64, .f32⟩
  | .hbm, ⟨11, _⟩ => ⟨S1x64, .f32⟩
  | .hbm, ⟨12, _⟩ => ⟨S16384x64, .f32⟩
  | .hbm, ⟨13, _⟩ => ⟨S16384x64, .f32⟩
  | .hbm, ⟨14, _⟩ => ⟨S16384x64, .f32⟩
  | .hbm, ⟨15, _⟩ => ⟨S_, .f32⟩
  | .hbm, ⟨16, _⟩ => ⟨S16384x64, .f32⟩
  | .hbm, ⟨17, _⟩ => ⟨S16384x64, .f32⟩
  | .hbm, ⟨18, _⟩ => ⟨S_, .f32⟩
  | .hbm, ⟨19, _⟩ => ⟨S16384x64, .f32⟩
  | .hbm, ⟨20, _⟩ => ⟨S16384x64, .f32⟩
  | .hbm, ⟨21, _⟩ => ⟨S16384x64, .f32⟩
  | .hbm, ⟨22, _⟩ => ⟨S16384x64, .f32⟩
  | .hbm, ⟨23, _⟩ => ⟨S_, .f32⟩
  | .hbm, ⟨24, _⟩ => ⟨S16384x64, .f32⟩
  | .hbm, ⟨25, _⟩ => ⟨S16384x64, .f32⟩
  | .hbm, ⟨26, _⟩ => ⟨S_, .f32⟩
  | .hbm, ⟨27, _⟩ => ⟨S16384x64, .f32⟩
  | .hbm, ⟨28, _⟩ => ⟨S16384x64, .f32⟩
  | .hbm, ⟨29, _⟩ => ⟨S16384x64, .f32⟩
  | .hbm, ⟨30, _⟩ => ⟨S16384x64, .f32⟩
  | .hbm, ⟨31, _⟩ => ⟨S_, .f32⟩
  | .hbm, ⟨32, _⟩ => ⟨S16384x64, .f32⟩
  | .hbm, ⟨33, _⟩ => ⟨S16384x64, .f32⟩
  | .hbm, ⟨34, _⟩ => ⟨S_, .f32⟩
  | .hbm, ⟨35, _⟩ => ⟨S16384x64, .f32⟩
  | .hbm, ⟨36, _⟩ => ⟨S16384x64, .f32⟩
  | .hbm, ⟨37, _⟩ => ⟨S16384x64, .f32⟩
  | .hbm, ⟨38, _⟩ => ⟨S16384x64, .f32⟩
  | .hbm, ⟨39, _⟩ => ⟨S_, .f32⟩
  | .hbm, ⟨40, _⟩ => ⟨S16384x64, .f32⟩
  | .hbm, ⟨41, _⟩ => ⟨S16384x64, .f32⟩
  | .hbm, ⟨42, _⟩ => ⟨S_, .f32⟩
  | .hbm, ⟨43, _⟩ => ⟨S16384x64, .f32⟩
  | .hbm, ⟨44, _⟩ => ⟨S16384x64, .f32⟩
  | .hbm, ⟨45, _⟩ => ⟨S16384x64, .f32⟩
  | .hbm, ⟨46, _⟩ => ⟨S16384x64, .f32⟩
  | .hbm, ⟨47, _⟩ => ⟨S_, .f32⟩
  | .hbm, ⟨48, _⟩ => ⟨S16384x64, .f32⟩
  | .hbm, ⟨49, _⟩ => ⟨S16384x64, .f32⟩
  | .hbm, ⟨50, _⟩ => ⟨S_, .f32⟩
  | .hbm, ⟨51, _⟩ => ⟨S16384x64, .f32⟩
  | .hbm, ⟨52, _⟩ => ⟨S16384x64, .f32⟩
  | .hbm, ⟨53, _⟩ => ⟨S16384x64, .f32⟩
  | .hbm, ⟨54, _⟩ => ⟨S16384x64, .f32⟩
  | .hbm, ⟨55, _⟩ => ⟨S_, .f32⟩
  | .hbm, ⟨56, _⟩ => ⟨S16384x64, .f32⟩
  | .hbm, ⟨57, _⟩ => ⟨S16384x64, .f32⟩
  | .hbm, ⟨58, _⟩ => ⟨S_, .f32⟩
  | .hbm, ⟨59, _⟩ => ⟨S16384x64, .f32⟩
  | .hbm, ⟨60, _⟩ => ⟨S16384x64, .f32⟩
  | .hbm, ⟨61, _⟩ => ⟨S16384x64, .f32⟩
  | .hbm, ⟨62, _⟩ => ⟨S16384x64, .f32⟩
  | .hbm, ⟨63, _⟩ => ⟨S_, .f32⟩
  | .hbm, ⟨64, _⟩ => ⟨S16384x64, .f32⟩
  | .hbm, ⟨65, _⟩ => ⟨S16384x64, .f32⟩
  | .hbm, ⟨66, _⟩ => ⟨S_, .f32⟩
  | .hbm, ⟨67, _⟩ => ⟨S16384x64, .f32⟩
  | .hbm, ⟨68, _⟩ => ⟨S16384x64, .f32⟩
  | .hbm, ⟨69, _⟩ => ⟨S16384x64, .f32⟩
  | .hbm, ⟨70, _⟩ => ⟨S16384x64, .f32⟩
  | .hbm, ⟨71, _⟩ => ⟨S_, .f32⟩
  | .hbm, ⟨72, _⟩ => ⟨S16384x64, .f32⟩
  | .hbm, ⟨73, _⟩ => ⟨S16384x64, .f32⟩
  | .hbm, ⟨74, _⟩ => ⟨S_, .f32⟩
  | .hbm, ⟨75, _⟩ => ⟨S16384x64, .f32⟩
  | .hbm, ⟨76, _⟩ => ⟨S16384x64, .f32⟩
  | .hbm, ⟨77, _⟩ => ⟨S16384x64, .f32⟩
  | .hbm, ⟨78, _⟩ => ⟨S16384x64, .f32⟩
  | .hbm, ⟨79, _⟩ => ⟨S_, .f32⟩
  | .hbm, ⟨80, _⟩ => ⟨S16384x64, .f32⟩
  | .hbm, ⟨81, _⟩ => ⟨S16384x64, .f32⟩
  | .hbm, ⟨82, _⟩ => ⟨S_, .f32⟩
  | .hbm, ⟨83, _⟩ => ⟨S16384x64, .f32⟩
  | .hbm, ⟨84, _⟩ => ⟨S16384x64, .f32⟩
  | .hbm, ⟨85, _⟩ => ⟨S16384x64, .f32⟩
  | .hbm, ⟨86, _⟩ => ⟨S16384x64, .f32⟩
  | .hbm, ⟨87, _⟩ => ⟨S_, .f32⟩
  | .hbm, ⟨88, _⟩ => ⟨S16384x64, .f32⟩
  | .hbm, ⟨89, _⟩ => ⟨S16384x64, .f32⟩
  | .hbm, ⟨90, _⟩ => ⟨S_, .f32⟩
  | .hbm, ⟨91, _⟩ => ⟨S16384x64, .f32⟩
  | .hbm, ⟨92, _⟩ => ⟨S16384x64, .f32⟩
  | .hbm, ⟨93, _⟩ => ⟨S16384x64, .f32⟩
  | .hbm, ⟨94, _⟩ => ⟨S_, .f32⟩
  | .hbm, ⟨95, _⟩ => ⟨S16384, .f32⟩
  | .hbm, ⟨96, _⟩ => ⟨S_, .f32⟩
  | .hbm, ⟨97, _⟩ => ⟨S16384, .f32⟩
  | .hbm, ⟨98, _⟩ => ⟨S16384, .f32⟩
  | .hbm, ⟨99, _⟩ => ⟨S16384x1, .f32⟩
  | .hbm, ⟨100, _⟩ => ⟨S16384x64, .f32⟩
  | .hbm, ⟨101, _⟩ => ⟨S16384x64, .f32⟩
  | .hbm, ⟨102, _⟩ => ⟨S16384x64, .f32⟩
  | .hbm, ⟨103, _⟩ => ⟨S_, .f32⟩
  | .hbm, ⟨104, _⟩ => ⟨S16384, .f32⟩
  | .hbm, ⟨105, _⟩ => ⟨S16384x1, .f32⟩
  | .hbm, ⟨106, _⟩ => ⟨S16384x1, .f32⟩
  | .hbm, ⟨107, _⟩ => ⟨S16384x64, .f32⟩
  | .hbm, ⟨108, _⟩ => ⟨S16384x64, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_11 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_cst_14 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_15 : Ref sig .tc := ⟨.hbm, 79, rfl⟩
abbrev main_v57 : Ref sig .tc := ⟨.hbm, 80, rfl⟩
abbrev main_v58 : Ref sig .tc := ⟨.hbm, 81, rfl⟩
abbrev main_cst_16 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_17 : Ref sig .tc := ⟨.hbm, 87, rfl⟩
abbrev main_v63 : Ref sig .tc := ⟨.hbm, 88, rfl⟩
abbrev main_v64 : Ref sig .tc := ⟨.hbm, 89, rfl⟩
abbrev main_cst_18 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_call0_cst : Ref sig .tc := ⟨.hbm, 94, rfl⟩
abbrev main_call0_v0 : Ref sig .tc := ⟨.hbm, 95, rfl⟩
abbrev main_call0_cst_0 : Ref sig .tc := ⟨.hbm, 96, rfl⟩
abbrev main_call0_v1 : Ref sig .tc := ⟨.hbm, 97, rfl⟩
abbrev main_call0_v2 : Ref sig .tc := ⟨.hbm, 98, rfl⟩
abbrev main_call0_v3 : Ref sig .tc := ⟨.hbm, 99, rfl⟩
abbrev main_call0_v4 : Ref sig .tc := ⟨.hbm, 100, rfl⟩
abbrev main_call0_v5 : Ref sig .tc := ⟨.hbm, 101, rfl⟩
abbrev main_call0_v6 : Ref sig .tc := ⟨.hbm, 102, rfl⟩
abbrev main_call0_cst_1 : Ref sig .tc := ⟨.hbm, 103, rfl⟩
abbrev main_call0_v7 : Ref sig .tc := ⟨.hbm, 104, rfl⟩
abbrev main_call0_v8 : Ref sig .tc := ⟨.hbm, 105, rfl⟩
abbrev main_call0_v9 : Ref sig .tc := ⟨.hbm, 106, rfl⟩
abbrev main_call0_v10 : Ref sig .tc := ⟨.hbm, 107, rfl⟩
abbrev main_v68 : Ref sig .tc := ⟨.hbm, 108, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  reducesTo_S16384x64_S16384_d1 : S16384x64.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  dot_S16384x512_S512x256_S16384x256_1_0_0_1_n_n_wf : DotDims.WF S16384x512 S512x256 S16384x256 [1] [0] [0] [1] [] []
  dot_S16384x256_S256x64_S16384x64_1_0_0_1_n_n_wf : DotDims.WF S16384x256 S256x64 S16384x64 [1] [0] [0] [1] [] []
  dot_S16384x16384_S16384x64_S16384x64_1_0_0_1_n_n_wf : DotDims.WF S16384x16384 S16384x64 S16384x64 [1] [0] [0] [1] [] []

variable [Facts₀]

def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x256_S256x64_S16384x64_1_0_0_1_n_n : DotDims S16384x256 S256x64 S16384x64 where
  lhsContracting := [1]
  rhsContracting := [0]
  lhsNonContracting := [0]
  rhsNonContracting := [1]
  lhsBatch := []
  rhsBatch := []
  wf := dot_S16384x256_S256x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf

class Facts : Prop extends Facts₀ where

variable [Facts]
-- ==== Proof.KI.Base.lean ====
import proofs.«109160_j26783416057954_1_alg».proof.Proof.Gen.KernelIdeal.Launch
import proofs.«109160_j26783416057954_1_alg».proof.Proof.Gen.KernelIdeal.Skeleton
import proofs.«109160_j26783416057954_1_alg».proof.Proof.Gen.KernelIdeal.Points
import proofs.«109160_j26783416057954_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Fr

end
-- ==== Proof.KI.RunCond.lean ====
import proofs.«109160_j26783416057954_1_alg».proof.Proof.KI.Base

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

theorem launch_split {Ix : Type} [DecidableEq Ix] {U : Type} [URA U] {Lvl : Type} [Preorder Lvl]
    (m : (ℓ : Loc nD τ sig) → Buf (Elt F) ℓ) (Φ : Dev nD → sProp (MT nD τ sig Ix (Elt F) ℕ U Lvl)) :
    (bigSep Finset.univ fun c : Dev nD => iprop(unscopedBufs c (fun b => m ((c.tc : Thread nD τ).loc b)) ∗ Φ c))
      ⊢ (iprop((bigSep Finset.univ fun c : Dev nD => StableHlo.held (c : Thread nD τ) (Pipeline.ucRefs τ sig) (V0 m c))
          ∗ bigSep Finset.univ Φ) : sProp (MT nD τ sig Ix (Elt F) ℕ U Lvl)) := by
  rw [← bigSep_sep']
  refine bigSep_mono fun c _ => ?_
  rw [← Pipeline.unscopedBufs_held (Ix := Ix) (Name := ℕ) (U := U) (Lvl := Lvl) c (V0 m c)]
  exact BI.Entails.refl _

set_option backward.isDefEq.respectTransparency.types false in

theorem run_cond (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 11) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 12 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE11 : ∀ c : Dev nD, E 11 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V3 m outs c) ∗ E 2 c) ⊢ R2.pre c)
    (hpost2 : ∀ c : Dev nD, R2.post c ⊢ iprop(StableHlo.held (c : Thread nD τ) (Pipeline.ucRefs τ sig) (V4 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V4 m outs c) ∗ E 3 c) ⊢ R3.pre c)
    (hpost3 : ∀ c : Dev nD, R3.post c ⊢ iprop(StableHlo.held (c : Thread nD τ) (Pipeline.ucRefs τ sig) (V5 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V5 m outs c) ∗ E 4 c) ⊢ R4.pre c)
    (hpost4 : ∀ c : Dev nD, R4.post c ⊢ iprop(StableHlo.held (c : Thread nD τ) (Pipeline.ucRefs τ sig) (V6 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V6 m outs c) ∗ E 5 c) ⊢ R5.pre c)
    (hpost5 : ∀ c : Dev nD, R5.post c ⊢ iprop(StableHlo.held (c : Thread nD τ) (Pipeline.ucRefs τ sig) (V7 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V7 m outs c) ∗ E 6 c) ⊢ R6.pre c)
    (hpost6 : ∀ c : Dev nD, R6.post c ⊢ iprop(StableHlo.held (c : Thread nD τ) (Pipeline.ucRefs τ sig) (V8 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V8 m outs c) ∗ E 7 c) ⊢ R7.pre c)
    (hpost7 : ∀ c : Dev nD, R7.post c ⊢ iprop(StableHlo.held (c : Thread nD τ) (Pipeline.ucRefs τ sig) (V9 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V9 m outs c) ∗ E 8 c) ⊢ R8.pre c)
    (hpost8 : ∀ c : Dev nD, R8.post c ⊢ iprop(StableHlo.held (c : Thread nD τ) (Pipeline.ucRefs τ sig) (V10 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V10 m outs c) ∗ E 9 c) ⊢ R9.pre c)
    (hpost9 : ∀ c : Dev nD, R9.post c ⊢ iprop(StableHlo.held (c : Thread nD τ) (Pipeline.ucRefs τ sig) (V11 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V11 m outs c) ∗ E 10 c) ⊢ R10.pre c)
    (hpost10 : ∀ c : Dev nD, R10.post c ⊢ iprop(StableHlo.held (c : Thread nD τ) (Pipeline.ucRefs τ sig) (V12 m outs c) ∗ E 11 c)) :
    θ_run defs (onTc (τ := τ) (main (F := F))) ⟨m, fun _ => 0, ρ⟩ (fun r => ∀ c : Dev nD,
      ∀ b ∈ Pipeline.ucRefs τ sig, r.2.mem ((c : Thread nD τ).1, b) = V13 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10)
    (fun c Q => by

      rewrite [main_chain c, Seg.run_eq_chain,
        show (segs m outs 𝒱₀ L lv E ι pdats R0 R1 R2 R3 R4 R5 R6 R7 R8 R9 R10 c).map Seg.prog = [
          StableHlo.seq hostOps0,
          Prog.lift (.customCall (Pipeline.entry 0) ()),
          Prog.lift (.customCall (Pipeline.entry 1) ()),
          Prog.lift (.customCall (Pipeline.entry 2) ()),
          Prog.lift (.customCall (Pipeline.entry 3) ()),
          Prog.lift (.customCall (Pipeline.entry 4) ()),
          Prog.lift (.customCall (Pipeline.entry 5) ()),
          Prog.lift (.customCall (Pipeline.entry 6) ()),
          Prog.lift (.customCall (Pipeline.entry 7) ()),
          Prog.lift (.customCall (Pipeline.entry 8) ()),
          Prog.lift (.customCall (Pipeline.entry 9) ()),
          Prog.lift (.customCall (Pipeline.entry 10) ()),
          StableHlo.seq hostOps11 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V13 m outs c))
    (hch := fun c => ⟨.rfl,
      hpre0 c,
      (hpost0 c).trans (hpre1 c),
      (hpost1 c).trans (hpre2 c),
      (hpost2 c).trans (hpre3 c),
      (hpost3 c).trans (hpre4 c),
      (hpost4 c).trans (hpre5 c),
      (hpost5 c).trans (hpre6 c),
      (hpost6 c).trans (hpre7 c),
      (hpost7 c).trans (hpre8 c),
      (hpost8 c).trans (hpre9 c),
      (hpost9 c).trans (hpre10 c),
      hpost10 c,
      sep_mono .rfl (hE11 c)⟩)
    (hinit := ?_)
    (QY := fun c s => ∀ b ∈ Pipeline.ucRefs τ sig, s.mem ((c : Thread nD τ).1, b) = V13 m outs c b)
    (hfin := fun c s' => ?_) (hQ := fun _ h => h)
  ·
    iintro ⟨H, Hla⟩
    ihave H' := (launch_split m fun c : Dev nD => iprop(unscopedSems0 c ∗ owes (c : Thread nD τ) (O₀ c) ∅ ∗ Pipeline.launchCred O₀ c ∗ prngReg c (ρ c) ∗ G c)) $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    imodintro
    iapply (pointsTo_read_all (Pipeline.ucRefs τ sig) (fun b => ((c : Thread nD τ).1, b)) (V13 m outs c) s')
    isplitl [Hh] <;> iassumption

end Cert.KernelIdeal.Fr

end
-- ==== Proof.KI.RunInst.lean ====
import proofs.«109160_j26783416057954_1_alg».proof.Proof.KI.RunCond

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

theorem launch_rest (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (iprop(emp) : sProp 𝕄)) c)) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]
  · iexists _; iexact Hp
  · iexists ∅; iexact HO

theorem rest_owes (c : Dev nD) :
    R (F := F) c ⊢ (iprop(∃ W, owes (c : Thread nD τ) (0 : CellTallies nD τ sig Unit) W) : sProp 𝕄) := by
  iintro ⟨-, HO⟩
  iexact HO

theorem launch_elt :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (iprop(emp) : sProp 𝕄))) := by
  iintro Hu
  imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  · iapply (show (BI.emp : sProp 𝕄) ⊢ bigSep Finset.univ (fun _ : Dev nD => (BI.emp : sProp 𝕄)) from by rw [BI.bigSep_emp_const])
    iempintro

theorem run_inst (m : (ℓ : Loc nD τ sig) → Buf (Elt F) ℓ) (ρ : Dev nD → PrngReg) (outs : Outs (F := F))
    (pdats : (p : Fin 11) → (c : Dev nD) → Dat τ (Elt F) Unit ℕ (UR sig nD τ) ℕ (cfgs p) c)
    (R0 : RegionSeg (pcfgs (F := F)) adm pdats () defs₀ Variants.none L lv 0)
    (hpre0 : ∀ c : Dev nD, iprop(StableHlo.held (c : Thread nD τ) (Pipeline.ucRefs τ sig) (V1 m c) ∗ R c) ⊢ R0.pre c)
    (hpost0 : ∀ c : Dev nD, R0.post c ⊢ iprop(StableHlo.held (c : Thread nD τ) (Pipeline.ucRefs τ sig) (V2 m outs c) ∗ R c))
    (R1 : RegionSeg (pcfgs (F := F)) adm pdats () defs₀ Variants.none L lv 1)
    (hpre1 : ∀ c : Dev nD, iprop(StableHlo.held (c : Thread nD τ) (Pipeline.ucRefs τ sig) (V2 m outs c) ∗ R c) ⊢ R1.pre c)
    (hpost1 : ∀ c : Dev nD, R1.post c ⊢ iprop(StableHlo.held (c : Thread nD τ) (Pipeline.ucRefs τ sig) (V3 m outs c) ∗ R c))
    (R2 : RegionSeg (pcfgs (F := F)) adm pdats () defs₀ Variants.none L lv 2)
    (hpre2 : ∀ c : Dev nD, iprop(StableHlo.held (c : Thread nD τ) (Pipeline.ucRefs τ sig) (V3 m outs c) ∗ R c) ⊢ R2.pre c)
    (hpost2 : ∀ c : Dev nD, R2.post c ⊢ iprop(StableHlo.held (c : Thread nD τ) (Pipeline.ucRefs τ sig) (V4 m outs c) ∗ R c))
    (R3 : RegionSeg (pcfgs (F := F)) adm pdats () defs₀ Variants.none L lv 3)
    (hpre3 : ∀ c : Dev nD, iprop(StableHlo.held (c : Thread nD τ) (Pipeline.ucRefs τ sig) (V4 m outs c) ∗ R c) ⊢ R3.pre c)
    (hpost3 : ∀ c : Dev nD, R3.post c ⊢ iprop(StableHlo.held (c : Thread nD τ) (Pipeline.ucRefs τ sig) (V5 m outs c) ∗ R c))
    (R4 : RegionSeg (pcfgs (F := F)) adm pdats () defs₀ Variants.none L lv 4)
    (hpre4 : ∀ c : Dev nD, iprop(StableHlo.held (c : Thread nD τ) (Pipeline.ucRefs τ sig) (V5 m outs c) ∗ R c) ⊢ R4.pre c)
    (hpost4 : ∀ c : Dev nD, R4.post c ⊢ iprop(StableHlo.held (c : Thread nD τ) (Pipeline.ucRefs τ sig) (V6 m outs c) ∗ R c))
    (R5 : RegionSeg (pcfgs (F := F)) adm pdats () defs₀ Variants.none L lv 5)
    (hpre5 : ∀ c : Dev nD, iprop(StableHlo.held (c : Thread nD τ) (Pipeline.ucRefs τ sig) (V6 m outs c) ∗ R c) ⊢ R5.pre c)
    (hpost5 : ∀ c : Dev nD, R5.post c ⊢ iprop(StableHlo.held (c : Thread nD τ) (Pipeline.ucRefs τ sig) (V7 m outs c) ∗ R c))
    (R6 : RegionSeg (pcfgs (F := F)) adm pdats () defs₀ Variants.none L lv 6)
    (hpre6 : ∀ c : Dev nD, iprop(StableHlo.held (c : Thread nD τ) (Pipeline.ucRefs τ sig) (V7 m outs c) ∗ R c) ⊢ R6.pre c)
    (hpost6 : ∀ c : Dev nD, R6.post c ⊢ iprop(StableHlo.held (c : Thread nD τ) (Pipeline.ucRefs τ sig) (V8 m outs c) ∗ R c))
    (R7 : RegionSeg (pcfgs (F := F)) adm pdats () defs₀ Variants.none L lv 7)
    (hpre7 : ∀ c : Dev nD, iprop(StableHlo.held (c : Thread nD τ) (Pipeline.ucRefs τ sig) (V8 m outs c) ∗ R c) ⊢ R7.pre c)
    (hpost7 : ∀ c : Dev nD, R7.post c ⊢ iprop(StableHlo.held (c : Thread nD τ) (Pipeline.ucRefs τ sig) (V9 m outs c) ∗ R c))
    (R8 : RegionSeg (pcfgs (F := F)) adm pdats () defs₀ Variants.none L lv 8)
    (hpre8 : ∀ c : Dev nD, iprop(StableHlo.held (c : Thread nD τ) (Pipeline.ucRefs τ sig) (V9 m outs c) ∗ R c) ⊢ R8.pre c)
    (hpost8 : ∀ c : Dev nD, R8.post c ⊢ iprop(StableHlo.held (c : Thread nD τ) (Pipeline.ucRefs τ sig) (V10 m outs c) ∗ R c))
    (R9 : RegionSeg (pcfgs (F := F)) adm pdats () defs₀ Variants.none L lv 9)
    (hpre9 : ∀ c : Dev nD, iprop(StableHlo.held (c : Thread nD τ) (Pipeline.ucRefs τ sig) (V10 m outs c) ∗ R c) ⊢ R9.pre c)
    (hpost9 : ∀ c : Dev nD, R9.post c ⊢ iprop(StableHlo.held (c : Thread nD τ) (Pipeline.ucRefs τ sig) (V11 m outs c) ∗ R c))
    (R10 : RegionSeg (pcfgs (F := F)) adm pdats () defs₀ Variants.none L lv 10)
    (hpre10 : ∀ c : Dev nD, iprop(StableHlo.held (c : Thread nD τ) (Pipeline.ucRefs τ sig) (V11 m outs c) ∗ R c) ⊢ R10.pre c)
    (hpost10 : ∀ c : Dev nD, R10.post c ⊢ iprop(StableHlo.held (c : Thread nD τ) (Pipeline.ucRefs τ sig) (V12 m outs c) ∗ R c)) :
    θ_run defs (onTc (τ := τ) (main (F := F))) ⟨m, fun _ => 0, ρ⟩ (fun r => ∀ c : Dev nD,
      ∀ b ∈ Pipeline.ucRefs τ sig, r.2.mem ((c : Thread nD τ).1, b) = V13 m outs c b) :=
  run_cond m emb₁ () Variants.none L lv (fun _ _ => rfl) ρ outs pdats 0 (fun _ => iprop(emp))
    (initOf (Pipeline.cells cfgs cellOf_inj) (Pipeline.launchToks cfgs cellOf_inj)) launch_elt
    (fun _ c => R c) (launch_rest ρ) rest_owes
    R0 hpre0 hpost0
    R1 hpre1 hpost1
    R2 hpre2 hpost2
    R3 hpre3 hpost3
    R4 hpre4 hpost4
    R5 hpre5 hpost5
    R6 hpre6 hpost6
    R7 hpre7 hpost7
    R8 hpre8 hpost8
    R9 hpre9 hpost9
    R10 hpre10 hpost10

end Cert.KernelIdeal.Fr

end
-- ==== Proof.KI.R0.lean ====
import proofs.«109160_j26783416057954_1_alg».proof.Proof.Gen.KernelIdeal.Launch
import proofs.«109160_j26783416057954_1_alg».proof.Proof.Gen.KernelIdeal.Skeleton
import proofs.«109160_j26783416057954_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2048x512 := Rect.unit (s := S2048x512) ![0, 0] S2048x512.size inb_S2048x512_S2048x512_0_0
abbrev r0_1 : Rect S512x256 := Rect.unit (s := S512x256) ![0, 0] S512x256.size inb_S512x256_S512x256_0_0
abbrev r0_2 : Rect S1x256 := Rect.unit (s := S1x256) ![0, 0] S1x256.size inb_S1x256_S1x256_0_0
abbrev r0_3 : Rect S256x64 := Rect.unit (s := S256x64) ![0, 0] S256x64.size inb_S256x64_S256x64_0_0
abbrev r0_4 : Rect S1x64 := Rect.unit (s := S1x64) ![0, 0] S1x64.size inb_S1x64_S1x64_0_0
abbrev r0_5 : Rect S2048x64 := Rect.unit (s := S2048x64) ![0, 0] S2048x64.size inb_S2048x64_S2048x64_0_0

theorem zeros2 : (![0, 0] : Fin 2 → Nat) = fun _ => 0 := funext fun a => by fin_cases a <;> rfl

def out0_5 (x0 : Vec F S2048x512 .f32) (x1 : Vec F S512x256 .f32) (x2 : Vec F S1x256 .f32) (x3 : Vec F S256x64 .f32) (x4 : Vec F S1x64 .f32) :
    Vec F S2048x64 .f32 :=
  k0_pay1 x0 x1 x2 x3 x4

theorem cover0_5 (p : Vec F S2048x64 .f32) (y : S2048x64.Idx) :
    ∃ pc ∈ ([⟨r0_5, p⟩] : List (View.Piece (Elt F) S2048x64 .f32)), y ∈ pc.1.set :=
  ⟨⟨r0_5, p⟩, List.mem_singleton_self _, (View.mem_set_unit_zero (S := S2048x64) zeros2 inb_S2048x64_S2048x64_0_0 y : y ∈ r0_5.set)⟩

theorem store_whole0 {κ : Kind} {sp : Space} (v : View sig κ sp S2048x64 .f32) (f : v.ty.Contents (Elt F)) (p : Vec F S2048x64 .f32) :
    v.read (Elt F) (v.writes (Elt F) f [⟨r0_5, p⟩]) = p :=
  (View.read_writes_eq_canon v f [⟨r0_5, p⟩] (cover0_5 p)).trans
    (View.canon_unit_zero (S := S2048x64) zeros2 inb_S2048x64_S2048x64_0_0 p)

theorem load_whole0_0 {κ : Kind} {sp : Space} (v : View sig κ sp S2048x512 .f32) (f : v.ty.Contents (Elt F)) :
    v.readAt (Elt F) r0_0.toLoadRect f = v.read (Elt F) f :=
  (View.readAt_eq_ld v f r0_0).trans (View.ld_unit_zero (S := S2048x512) zeros2 inb_S2048x512_S2048x512_0_0 _)
theorem load_whole0_1 {κ : Kind} {sp : Space} (v : View sig κ sp S512x256 .f32) (f : v.ty.Contents (Elt F)) :
    v.readAt (Elt F) r0_1.toLoadRect f = v.read (Elt F) f :=
  (View.readAt_eq_ld v f r0_1).trans (View.ld_unit_zero (S := S512x256) zeros2 inb_S512x256_S512x256_0_0 _)
theorem load_whole0_2 {κ : Kind} {sp : Space} (v : View sig κ sp S1x256 .f32) (f : v.ty.Contents (Elt F)) :
    v.readAt (Elt F) r0_2.toLoadRect f = v.read (Elt F) f :=
  (View.readAt_eq_ld v f r0_2).trans (View.ld_unit_zero (S := S1x256) zeros2 inb_S1x256_S1x256_0_0 _)
theorem load_whole0_3 {κ : Kind} {sp : Space} (v : View sig κ sp S256x64 .f32) (f : v.ty.Contents (Elt F)) :
    v.readAt (Elt F) r0_3.toLoadRect f = v.read (Elt F) f :=
  (View.readAt_eq_ld v f r0_3).trans (View.ld_unit_zero (S := S256x64) zeros2 inb_S256x64_S256x64_0_0 _)
theorem load_whole0_4 {κ : Kind} {sp : Space} (v : View sig κ sp S1x64 .f32) (f : v.ty.Contents (Elt F)) :
    v.readAt (Elt F) r0_4.toLoadRect f = v.read (Elt F) f :=
  (View.readAt_eq_ld v f r0_4).trans (View.ld_unit_zero (S := S1x64) zeros2 inb_S1x64_S1x64_0_0 _)

set_option maxHeartbeats 400000 in

theorem sound_kernel0 (c : Dev nD) (E : Set ℕ) (i : grid0.Coords)
    (arg1 : Memref sig .tc .vmem S2048x512 .f32) (harg1 : arg1.IsWhole) (arg2 : Memref sig .tc .vmem S512x256 .f32) (harg2 : arg2.IsWhole)
    (arg3 : Memref sig .tc .vmem S1x256 .f32) (harg3 : arg3.IsWhole) (arg4 : Memref sig .tc .vmem S256x64 .f32) (harg4 : arg4.IsWhole)
    (arg5 : Memref sig .tc .vmem S1x64 .f32) (harg5 : arg5.IsWhole) (arg6 : Memref sig .tc .vmem S2048x64 .f32) (harg6 : arg6.IsWhole)
    (x0 : Vec F S2048x512 .f32) (x1 : Vec F S512x256 .f32) (x2 : Vec F S1x256 .f32) (x3 : Vec F S256x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [store_whole0, load_whole0_0, load_whole0_1, load_whole0_2, load_whole0_3, load_whole0_4]
  rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem Phi0 (c : Dev nD) (t : Fin (cfg0.N + 1)) : (dat0 V c).Φ t = (Pipeline.ΦA spec0 c : sProp 𝕄) := by
  dsimp only [dat0]

theorem share0 (c : Dev nD) (w : Fin cfg0.W) : (dat0 V c).q w = fullShare := by
  dsimp only [dat0]

theorem owed0 (c : Dev nD) (t) : (dat0 V c).owed t = 0 := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.KernelIdeal.Fr
-- ==== Proof.KI.StepRuns.lean ====
import proofs.«109160_j26783416057954_1_alg».proof.Proof.Gen.KernelIdeal.Launch
import proofs.«109160_j26783416057954_1_alg».proof.Proof.Gen.KernelIdeal.Skeleton
import proofs.«109160_j26783416057954_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

-- All ten propagation steps run one body on one 8 × 16 grid: its two branch tests depend on the column block only.
abbrev condFirst (i : grid1.Coords) : Prop := (Scalar.cmpi .ne (Scalar.extui (Scalar.cmpi .eq (BitVec.ofNat 32 (i 1).val) 0#32)) 0#32) = 1#1
theorem hcondFirst : ∀ t : Fin grid1.N, condFirst (grid1.coords t) ↔ t.val % 16 = 0 := by decide +kernel

abbrev condLast (i : grid1.Coords) : Prop := k1_cond2 i = 1#1
theorem hcondLast : ∀ t : Fin grid1.N, condLast (grid1.coords t) ↔ t.val % 16 = 15 := by decide +kernel

end Cert.KernelIdeal.Fr

end
-- ==== Proof.KI.StepRunA.lean ====
import proofs.«109160_j26783416057954_1_alg».proof.Proof.KI.StepRuns

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def stepRunA (c : Dev nD) (i : grid1.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (hca : condFirst i) (hcb : ¬condLast i)
    (xa : Vec F S2048x1024 .f32) (xb : Vec F S1024x64 .f32) (xc : Vec F S2048x64 .f32) :
    Σ' (LO : List (View.Piece (Elt F) S2048x64 .f32)), { LS : List (View.Piece (Elt F) S2048x64 .f32) //
      ∀ (xo : Vec F S2048x64 .f32) (E : Set ℕ) (K : PUnit → sProp 𝕄),
        iprop(owns (c : Thread nD τ) arg2 fullShare xa ∗ owns (c : Thread nD τ) arg3 fullShare xb ∗ owns (c : Thread nD τ) arg4 fullShare xc
            ∗ owns (c : Thread nD τ) arg5 fullShare xo ∗ (∃ d, owns (c : Thread nD τ) arg6 fullShare d)
            ∗ (iprop(owns (c : Thread nD τ) arg2 fullShare xa ∗ owns (c : Thread nD τ) arg3 fullShare xb ∗ owns (c : Thread nD τ) arg4 fullShare xc
                ∗ owns (c : Thread nD τ) arg5 fullShare xo
                ∗ (∃ f, arg6.view.loc (c : Thread nD τ) ↦[arg6.view.set]{fullShare} arg6.view.writes (Elt F) f LS)) -∗ K ⟨⟩))
          ⊢ wp frame (wpE (defs₀ (F := F)) Variants.none c none) E (cc1__appnp_kernel i arg2 harg2 arg3 harg3 arg4 harg4 arg5 harg5 arg6 harg6) K } := by
  refine ⟨[], ?_, fun xo E K => ?run⟩
  case run =>
    simp only [cc1__appnp_kernel_eq_skeleton]; unfold cc1__appnp_kernel_skel
    unfold owns
    iintro ⟨⟨%fa, %hfa, Ha⟩, ⟨%fb, %hfb, Hb⟩, ⟨%fc, %hfc, Hc⟩, ⟨%fo, %hfo, Ho⟩, ⟨%ds, %fs, -, Hs⟩, Hk⟩
    obtain rfl := harg2.eq_unread hfa; obtain rfl := harg3.eq_unread hfb; obtain rfl := harg4.eq_unread hfc
    obtain rfl := harg5.eq_unread hfo
    sl_exec (disch := first | exact hca | exact hcb)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Ho]
    · iexists _; isplitr; · ipureintro; exact harg5.read_unread _
      iexact Ho
    iexists _; iexact Hs

end Cert.KernelIdeal.Fr

end
-- ==== Proof.KI.StepRunB.lean ====
import proofs.«109160_j26783416057954_1_alg».proof.Proof.KI.StepRunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def stepRunB (c : Dev nD) (i : grid1.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (hca : ¬condFirst i) (hcb : ¬condLast i)
    (xa : Vec F S2048x1024 .f32) (xb : Vec F S1024x64 .f32) (xc : Vec F S2048x64 .f32) (xs : Vec F S2048x64 .f32) :
    Σ' (LO : List (View.Piece (Elt F) S2048x64 .f32)), { LS : List (View.Piece (Elt F) S2048x64 .f32) //
      ∀ (xo : Vec F S2048x64 .f32) (E : Set ℕ) (K : PUnit → sProp 𝕄),
        iprop(owns (c : Thread nD τ) arg2 fullShare xa ∗ owns (c : Thread nD τ) arg3 fullShare xb ∗ owns (c : Thread nD τ) arg4 fullShare xc
            ∗ owns (c : Thread nD τ) arg5 fullShare xo ∗ owns (c : Thread nD τ) arg6 fullShare xs
            ∗ (iprop(owns (c : Thread nD τ) arg2 fullShare xa ∗ owns (c : Thread nD τ) arg3 fullShare xb ∗ owns (c : Thread nD τ) arg4 fullShare xc
                ∗ owns (c : Thread nD τ) arg5 fullShare xo
                ∗ (∃ f, arg6.view.loc (c : Thread nD τ) ↦[arg6.view.set]{fullShare} arg6.view.writes (Elt F) f LS)) -∗ K ⟨⟩))
          ⊢ wp frame (wpE (defs₀ (F := F)) Variants.none c none) E (cc1__appnp_kernel i arg2 harg2 arg3 harg3 arg4 harg4 arg5 harg5 arg6 harg6) K } := by
  refine ⟨[], ?_, fun xo E K => ?run⟩
  case run =>
    simp only [cc1__appnp_kernel_eq_skeleton]; unfold cc1__appnp_kernel_skel
    unfold owns
    iintro ⟨⟨%fa, %hfa, Ha⟩, ⟨%fb, %hfb, Hb⟩, ⟨%fc, %hfc, Hc⟩, ⟨%fo, %hfo, Ho⟩, ⟨%fs, %hfs, Hs⟩, Hk⟩
    obtain rfl := harg2.eq_unread hfa; obtain rfl := harg3.eq_unread hfb; obtain rfl := harg4.eq_unread hfc
    obtain rfl := harg5.eq_unread hfo; obtain rfl := harg6.eq_unread hfs
    sl_exec (disch := first | exact hca | exact hcb)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Ho]
    · iexists _; isplitr; · ipureintro; exact harg5.read_unread _
      iexact Ho
    iexists _; iexact Hs

end Cert.KernelIdeal.Fr

end
-- ==== Proof.KI.StepRunC.lean ====
import proofs.«109160_j26783416057954_1_alg».proof.Proof.KI.StepRunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def stepRunC (c : Dev nD) (i : grid1.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (hca : ¬condFirst i) (hcb : condLast i)
    (xa : Vec F S2048x1024 .f32) (xb : Vec F S1024x64 .f32) (xc : Vec F S2048x64 .f32) (xs : Vec F S2048x64 .f32) :
    Σ' (LO : List (View.Piece (Elt F) S2048x64 .f32)), { LS : List (View.Piece (Elt F) S2048x64 .f32) //
      ∀ (E : Set ℕ) (K : PUnit → sProp 𝕄),
        iprop(owns (c : Thread nD τ) arg2 fullShare xa ∗ owns (c : Thread nD τ) arg3 fullShare xb ∗ owns (c : Thread nD τ) arg4 fullShare xc
            ∗ (∃ d, owns (c : Thread nD τ) arg5 fullShare d) ∗ owns (c : Thread nD τ) arg6 fullShare xs
            ∗ (iprop(owns (c : Thread nD τ) arg2 fullShare xa ∗ owns (c : Thread nD τ) arg3 fullShare xb ∗ owns (c : Thread nD τ) arg4 fullShare xc
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc1__appnp_kernel i arg2 harg2 arg3 harg3 arg4 harg4 arg5 harg5 arg6 harg6) K } := by
  refine ⟨?_, ?_, fun E K => ?run⟩
  case run =>
    simp only [cc1__appnp_kernel_eq_skeleton]; unfold cc1__appnp_kernel_skel
    unfold owns
    iintro ⟨⟨%fa, %hfa, Ha⟩, ⟨%fb, %hfb, Hb⟩, ⟨%fc, %hfc, Hc⟩, ⟨%dz, %fo, -, Ho⟩, ⟨%fs, %hfs, Hs⟩, Hk⟩
    obtain rfl := harg2.eq_unread hfa; obtain rfl := harg3.eq_unread hfb; obtain rfl := harg4.eq_unread hfc
    obtain rfl := harg6.eq_unread hfs
    sl_exec (disch := first | exact hca | exact hcb)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Ho]; · iexists _; iexact Ho
    iexists _; iexact Hs

end Cert.KernelIdeal.Fr

end
-- ==== Proof.KI.StepCases.lean ====
import proofs.«109160_j26783416057954_1_alg».proof.Proof.KI.StepRunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (VO VS : View sig .tc .vmem S2048x64 .f32) (c : Dev nD) (i : grid1.Coords)
  (arg2 : Memref sig .tc .vmem S2048x1024 .f32) (harg2 : arg2.IsWhole) (arg3 : Memref sig .tc .vmem S1024x64 .f32) (harg3 : arg3.IsWhole)
  (arg4 : Memref sig .tc .vmem S2048x64 .f32) (harg4 : arg4.IsWhole) (arg5 : Memref sig .tc .vmem S2048x64 .f32) (harg5 : arg5.IsWhole)
  (arg6 : Memref sig .tc .vmem S2048x64 .f32) (harg6 : arg6.IsWhole)

-- The pair a case ends with: the output block (only the last column block forms one) and the running sum.
def leavesA (hca : condFirst i) (hcb : ¬condLast i) (xa : Vec F S2048x1024 .f32) (xb : Vec F S1024x64 .f32) (xc : Vec F S2048x64 .f32) : Vec F S2048x64 .f32 × Vec F S2048x64 .f32 :=
  (VO.read (Elt F) (VO.writes (Elt F) VO.junk (stepRunA c i arg2 harg2 arg3 harg3 arg4 harg4 arg5 harg5 arg6 harg6 hca hcb xa xb xc).1), VS.read (Elt F) (VS.writes (Elt F) VS.junk (stepRunA c i arg2 harg2 arg3 harg3 arg4 harg4 arg5 harg5 arg6 harg6 hca hcb xa xb xc).2.1))

theorem accCoverA (hca : condFirst i) (hcb : ¬condLast i) (xa : Vec F S2048x1024 .f32) (xb : Vec F S1024x64 .f32) (xc : Vec F S2048x64 .f32) (y : S2048x64.Idx) :
    ∃ pc ∈ (stepRunA c i arg2 harg2 arg3 harg3 arg4 harg4 arg5 harg5 arg6 harg6 hca hcb xa xb xc).2.1, y ∈ pc.1.set :=
  View.cover_of_tiledL (stepRunA c i arg2 harg2 arg3 harg3 arg4 harg4 arg5 harg5 arg6 harg6 hca hcb xa xb xc).2.1 S2048x64.size (by sl_kernel_rfl) y

def leavesB (hca : ¬condFirst i) (hcb : ¬condLast i) (xa : Vec F S2048x1024 .f32) (xb : Vec F S1024x64 .f32) (xc : Vec F S2048x64 .f32) (xs : Vec F S2048x64 .f32) : Vec F S2048x64 .f32 × Vec F S2048x64 .f32 :=
  (VO.read (Elt F) (VO.writes (Elt F) VO.junk (stepRunB c i arg2 harg2 arg3 harg3 arg4 harg4 arg5 harg5 arg6 harg6 hca hcb xa xb xc xs).1), VS.read (Elt F) (VS.writes (Elt F) VS.junk (stepRunB c i arg2 harg2 arg3 harg3 arg4 harg4 arg5 harg5 arg6 harg6 hca hcb xa xb xc xs).2.1))

theorem accCoverB (hca : ¬condFirst i) (hcb : ¬condLast i) (xa : Vec F S2048x1024 .f32) (xb : Vec F S1024x64 .f32) (xc : Vec F S2048x64 .f32) (xs : Vec F S2048x64 .f32) (y : S2048x64.Idx) :
    ∃ pc ∈ (stepRunB c i arg2 harg2 arg3 harg3 arg4 harg4 arg5 harg5 arg6 harg6 hca hcb xa xb xc xs).2.1, y ∈ pc.1.set :=
  View.cover_of_tiledL (stepRunB c i arg2 harg2 arg3 harg3 arg4 harg4 arg5 harg5 arg6 harg6 hca hcb xa xb xc xs).2.1 S2048x64.size (by sl_kernel_rfl) y

def leavesC (hca : ¬condFirst i) (hcb : condLast i) (xa : Vec F S2048x1024 .f32) (xb : Vec F S1024x64 .f32) (xc : Vec F S2048x64 .f32) (xs : Vec F S2048x64 .f32) : Vec F S2048x64 .f32 × Vec F S2048x64 .f32 :=
  (VO.read (Elt F) (VO.writes (Elt F) VO.junk (stepRunC c i arg2 harg2 arg3 harg3 arg4 harg4 arg5 harg5 arg6 harg6 hca hcb xa xb xc xs).1), VS.read (Elt F) (VS.writes (Elt F) VS.junk (stepRunC c i arg2 harg2 arg3 harg3 arg4 harg4 arg5 harg5 arg6 harg6 hca hcb xa xb xc xs).2.1))

theorem accCoverC (hca : ¬condFirst i) (hcb : condLast i) (xa : Vec F S2048x1024 .f32) (xb : Vec F S1024x64 .f32) (xc : Vec F S2048x64 .f32) (xs : Vec F S2048x64 .f32) (y : S2048x64.Idx) :
    ∃ pc ∈ (stepRunC c i arg2 harg2 arg3 harg3 arg4 harg4 arg5 harg5 arg6 harg6 hca hcb xa xb xc xs).2.1, y ∈ pc.1.set :=
  View.cover_of_tiledL (stepRunC c i arg2 harg2 arg3 harg3 arg4 harg4 arg5 harg5 arg6 harg6 hca hcb xa xb xc xs).2.1 S2048x64.size (by sl_kernel_rfl) y

theorem outCoverC (hca : ¬condFirst i) (hcb : condLast i) (xa : Vec F S2048x1024 .f32) (xb : Vec F S1024x64 .f32) (xc : Vec F S2048x64 .f32) (xs : Vec F S2048x64 .f32) (y : S2048x64.Idx) :
    ∃ pc ∈ (stepRunC c i arg2 harg2 arg3 harg3 arg4 harg4 arg5 harg5 arg6 harg6 hca hcb xa xb xc xs).1, y ∈ pc.1.set :=
  View.cover_of_tiledL (stepRunC c i arg2 harg2 arg3 harg3 arg4 harg4 arg5 harg5 arg6 harg6 hca hcb xa xb xc xs).1 S2048x64.size (by sl_kernel_rfl) y

end Cert.KernelIdeal.Fr

end
-- ==== Proof.KI.Ap1Runs.lean ====
import proofs.«109160_j26783416057954_1_alg».proof.Proof.KI.StepCases

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl

theorem idleAt1_3_A : ∀ t : Fin cfg1.N, condFirst (grid1.coords t) → ¬condLast (grid1.coords t) → cfg1.idle 3 (grid1.coords t) = true := by decide +kernel
theorem noFlush1_3_A : ∀ t : Fin cfg1.N, condFirst (grid1.coords t) → ¬condLast (grid1.coords t) → (cfg1.win 3).flush t = false := by decide +kernel

theorem idleAt1_3_B : ∀ t : Fin cfg1.N, ¬condFirst (grid1.coords t) → ¬condLast (grid1.coords t) → cfg1.idle 3 (grid1.coords t) = true := by decide +kernel
theorem noFlush1_3_B : ∀ t : Fin cfg1.N, ¬condFirst (grid1.coords t) → ¬condLast (grid1.coords t) → (cfg1.win 3).flush t = false := by decide +kernel

theorem liveAt1_3_C : ∀ t : Fin cfg1.N, ¬condFirst (grid1.coords t) → condLast (grid1.coords t) → cfg1.idle 3 (grid1.coords t) = false := by decide +kernel

abbrev VO1_3 : View sig .tc .vmem S2048x64 .f32 := (Memref.whole cc1_stg3_0 : Memref sig .tc .vmem S2048x64 .f32).view

abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x64 .f32 := win1_3.stage (cfg1.slots t 3)
abbrev hs1_3 (t : Fin cfg1.N) : (ms1_3 t).IsWhole := hstage1_3 ((cfg1.slots t 3).cast nbuf1_3)

abbrev scM1_0 : Memref sig .tc .vmem S2048x64 .f32 := Memref.whole cc1_scratch0

abbrev VS1_0 : View sig .tc .vmem S2048x64 .f32 := scM1_0.view

theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.KernelIdeal.Fr

end
-- ==== Proof.KI.Ap1.lean ====
import proofs.«109160_j26783416057954_1_alg».proof.Proof.KI.Ap1Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The three cases at point `t`, on the point's input blocks.
def leaves1A (c : Dev nD) (t : Fin cfg1.N) (ha : t.val % 16 = 0) (hb : ¬t.val % 16 = 15) : Vec F S2048x64 .f32 × Vec F S2048x64 .f32 :=
  leavesA VO1_3 VS1_0 c (grid1.coords t) (ms1_0 t) (hs1_0 t) (ms1_1 t) (hs1_1 t) (ms1_2 t) (hs1_2 t) (ms1_3 t) (hs1_3 t) scM1_0 (Memref.isWhole_whole _) ((hcondFirst t).mpr ha) (fun h => hb ((hcondLast t).mp h)) (iblk1 V c 0 t) (iblk1 V c 1 t) (iblk1 V c 2 t)
def leaves1B (c : Dev nD) (t : Fin cfg1.N) (ha : ¬t.val % 16 = 0) (hb : ¬t.val % 16 = 15) (xs : Vec F S2048x64 .f32) : Vec F S2048x64 .f32 × Vec F S2048x64 .f32 :=
  leavesB VO1_3 VS1_0 c (grid1.coords t) (ms1_0 t) (hs1_0 t) (ms1_1 t) (hs1_1 t) (ms1_2 t) (hs1_2 t) (ms1_3 t) (hs1_3 t) scM1_0 (Memref.isWhole_whole _) (fun h => ha ((hcondFirst t).mp h)) (fun h => hb ((hcondLast t).mp h)) (iblk1 V c 0 t) (iblk1 V c 1 t) (iblk1 V c 2 t) xs
def leaves1C (c : Dev nD) (t : Fin cfg1.N) (ha : ¬t.val % 16 = 0) (hb : t.val % 16 = 15) (xs : Vec F S2048x64 .f32) : Vec F S2048x64 .f32 × Vec F S2048x64 .f32 :=
  leavesC VO1_3 VS1_0 c (grid1.coords t) (ms1_0 t) (hs1_0 t) (ms1_1 t) (hs1_1 t) (ms1_2 t) (hs1_2 t) (ms1_3 t) (hs1_3 t) scM1_0 (Memref.isWhole_whole _) (fun h => ha ((hcondFirst t).mp h)) ((hcondLast t).mpr hb) (iblk1 V c 0 t) (iblk1 V c 1 t) (iblk1 V c 2 t) xs

-- The accumulation along a row block: the first column block resets, each later one adds to what the point before left.
def outsAt1 (c : Dev nD) : (n : ℕ) → n < cfg1.N → Vec F S2048x64 .f32 × Vec F S2048x64 .f32
  | 0, hn => leaves1A V c ⟨0, hn⟩ (Nat.zero_mod _) (by show ¬0 % 16 = 15; omega)
  | n + 1, hn =>
    if ha : (n + 1) % 16 = 0 then
      if hb : (n + 1) % 16 = 15 then False.elim (by omega) else leaves1A V c ⟨n + 1, hn⟩ ha hb
    else
      if hb : (n + 1) % 16 = 15 then leaves1C V c ⟨n + 1, hn⟩ ha hb (outsAt1 c n (Nat.lt_of_succ_lt hn)).2
      else leaves1B V c ⟨n + 1, hn⟩ ha hb (outsAt1 c n (Nat.lt_of_succ_lt hn)).2

theorem outsAt1_A (c : Dev nD) (t : Fin cfg1.N) (ha : t.val % 16 = 0) (hb : ¬t.val % 16 = 15) :
    outsAt1 V c t.val t.isLt = leaves1A V c t ha hb := by
  obtain ⟨n, hn⟩ := t
  cases n with
  | zero => exact rfl
  | succ n => exact (dif_pos ha).trans ((dif_neg hb).trans rfl)

theorem outsAt1_B (c : Dev nD) (t : Fin cfg1.N) (ha : ¬t.val % 16 = 0) (hb : ¬t.val % 16 = 15) :
    outsAt1 V c t.val t.isLt = leaves1B V c t ha hb (outsAt1 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_neg hb).trans rfl)

theorem outsAt1_C (c : Dev nD) (t : Fin cfg1.N) (ha : ¬t.val % 16 = 0) (hb : t.val % 16 = 15) :
    outsAt1 V c t.val t.isLt = leaves1C V c t ha hb (outsAt1 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_pos hb).trans rfl)

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hp : n = 0) : PhiS1 V c n h = Pipeline.ΦA spec1 c := by
  subst hp; rfl

theorem PhiS1_succ (c : Dev nD) (n : ℕ) (hn : n < cfg1.N) :
    PhiS1 V c (n + 1) hn = iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hp : n ≠ 0) :
    PhiS1 V c n h = iprop(iprop(owns (c : Thread nD τ) scM1_0 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hp
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 128 := lt_of_lt_of_eq t.isLt (show cfg1.N = 128 from N_1)
  by_cases ha : t.val % 16 = 0
  · by_cases hb : t.val % 16 = 15
    · exfalso; omega
    · rw [Dat.leavesExact_idle (dat1 V c) 3 t (idleAt1_3_A t ((hcondFirst t).mpr ha) (fun h => hb ((hcondLast t).mp h))) (noFlush1_3_A t ((hcondFirst t).mpr ha) (fun h => hb ((hcondLast t).mp h)))]
      rw [outsAt1_A V c t ha hb]
      unfold leaves1A leavesA; (try dsimp only)
      by_cases hp : t.val = 0
      · rw [PhiS1_castSucc V c t, PhiS1_zero V c _ _ hp, PhiA1_eq]
        iintro ⟨⟨⟨Hs, Hr⟩, Hg⟩, Hw, ⟨%da, Ha⟩, ⟨%db, Hb⟩, ⟨%dc, Hc⟩, ⟨%dd, Hd⟩⟩
        iapply ((stepRunA c (grid1.coords t) _ (hs1_0 t) _ (hs1_1 t) _ (hs1_2 t) _ (hs1_3 t) _ (Memref.isWhole_whole _) ((hcondFirst t).mpr ha) (fun h => hb ((hcondLast t).mp h)) (iblk1 V c 0 t) (iblk1 V c 1 t) (iblk1 V c 2 t)).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
      · rw [PhiS1_castSucc V c t, PhiS1_pos V c _ _ hp]
        iintro ⟨⟨⟨Hs, Hr⟩, Hg⟩, Hw, ⟨%da, Ha⟩, ⟨%db, Hb⟩, ⟨%dc, Hc⟩, ⟨%dd, Hd⟩⟩
        iapply ((stepRunA c (grid1.coords t) _ (hs1_0 t) _ (hs1_1 t) _ (hs1_2 t) _ (hs1_3 t) _ (Memref.isWhole_whole _) ((hcondFirst t).mpr ha) (fun h => hb ((hcondLast t).mp h)) (iblk1 V c 0 t) (iblk1 V c 1 t) (iblk1 V c 2 t)).2.2 _ Set.univ _)
        isplitl [Ha]; · iexact Ha
        isplitl [Hb]; · iexact Hb
        isplitl [Hc]; · iexact Hc
        isplitl [Hd]; · iexact Hd
        isplitl [Hs]; · iexists _; iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
  · by_cases hb : t.val % 16 = 15
    · rw [show (dat1 V c).leavesExact 3 t = owns (c : Thread nD τ) (ms1_3 t) fullShare ((dat1 V c).after 3 t) from by
        unfold Dat.leavesExact; rw [liveAt1_3_C t (fun h => ha ((hcondFirst t).mp h)) ((hcondLast t).mpr hb)], after1_3]
      rw [outsAt1_C V c t ha hb]
      unfold leaves1C leavesC; (try dsimp only)
      by_cases hp : t.val = 0
      · exfalso; omega
      · rw [PhiS1_castSucc V c t, PhiS1_pos V c _ _ hp]
        iintro ⟨⟨⟨Hs, Hr⟩, Hg⟩, Hw, ⟨%da, Ha⟩, ⟨%db, Hb⟩, ⟨%dc, Hc⟩, ⟨%dd, Hd⟩⟩
        iapply ((stepRunC c (grid1.coords t) _ (hs1_0 t) _ (hs1_1 t) _ (hs1_2 t) _ (hs1_3 t) _ (Memref.isWhole_whole _) (fun h => ha ((hcondFirst t).mp h)) ((hcondLast t).mpr hb) (iblk1 V c 0 t) (iblk1 V c 1 t) (iblk1 V c 2 t) _).2.2 Set.univ _)
        isplitl [Ha]; · iexact Ha
        isplitl [Hb]; · iexact Hb
        isplitl [Hc]; · iexact Hc
        isplitl [Hd]; · iexists _; iexact Hd
        isplitl [Hs]; · iexact Hs
        iintro ⟨Ha, Hb, Hc, ⟨%ed, Hd⟩, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverC c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        unfold owns; iexists _; isplitr
        swap; · iexact Hd
        ipureintro; exact View.read_writes_of_cover _ _ _ _ _ (outCoverC c _ _ _ _ _ _ _ _ _ _ _ _ _ _ _ _ _)
    · rw [Dat.leavesExact_idle (dat1 V c) 3 t (idleAt1_3_B t (fun h => ha ((hcondFirst t).mp h)) (fun h => hb ((hcondLast t).mp h))) (noFlush1_3_B t (fun h => ha ((hcondFirst t).mp h)) (fun h => hb ((hcondLast t).mp h)))]
      rw [outsAt1_B V c t ha hb]
      unfold leaves1B leavesB; (try dsimp only)
      by_cases hp : t.val = 0
      · exfalso; omega
      · rw [PhiS1_castSucc V c t, PhiS1_pos V c _ _ hp]
        iintro ⟨⟨⟨Hs, Hr⟩, Hg⟩, Hw, ⟨%da, Ha⟩, ⟨%db, Hb⟩, ⟨%dc, Hc⟩, ⟨%dd, Hd⟩⟩
        iapply ((stepRunB c (grid1.coords t) _ (hs1_0 t) _ (hs1_1 t) _ (hs1_2 t) _ (hs1_3 t) _ (Memref.isWhole_whole _) (fun h => ha ((hcondFirst t).mp h)) (fun h => hb ((hcondLast t).mp h)) (iblk1 V c 0 t) (iblk1 V c 1 t) (iblk1 V c 2 t) _).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverB c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨Hs, Hr⟩, Hg⟩
  isplitl [Hs Hr]
  · isplitl [Hs]
    · iexists _; iexact Hs
    iexact Hr
  iexact Hg

theorem hout1 (c : Dev nD) : (dat1 V c).Φ (Fin.last cfg1.N) ⊢ (Pipeline.ΦA spec1 c : sProp 𝕄) :=
  Phi_out1 V c _ (by rw [Fin.val_last]; have : cfg1.N = 128 := N_1; omega)

theorem share1 (c : Dev nD) (w : Fin cfg1.W) : (dat1 V c).q w = fullShare := by dsimp only [dat1]
theorem owed1 (c : Dev nD) (t) : (dat1 V c).owed t = 0 := by dsimp only [dat1]

end Cert.KernelIdeal.Fr

end
-- ==== Proof.KI.Ap1s.lean ====
import proofs.«109160_j26783416057954_1_alg».proof.Proof.KI.Ap1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

def q1s : Fin cfg1.W → PosShare TreeShare
  | ⟨0, _⟩ => fullShare
  | ⟨1, _⟩ => fullShare.left
  | ⟨2, _⟩ => fullShare.right
  | ⟨3, _⟩ => fullShare

section Reshare

variable {c : Dev nD} (d : Dat τ (Elt F) Unit ℕ (UR sig nD τ) ℕ cfg1 c) (q' : Fin cfg1.W → PosShare TreeShare)

def reshare : Dat τ (Elt F) Unit ℕ (UR sig nD τ) ℕ cfg1 c := { d with q := q' }

theorem reshare_q : (reshare d q').q = q' := rfl
theorem reshare_A (w : Fin cfg1.W) : (reshare d q').A w = d.A w := rfl
theorem reshare_after (w : Fin cfg1.W) (t : Fin cfg1.N) : (reshare d q').after w t = d.after w t := rfl
theorem reshare_Φ (t : Fin (cfg1.N + 1)) : (reshare d q').Φ t = d.Φ t := rfl
theorem reshare_owed (t : Fin (cfg1.N + 1)) : (reshare d q').owed t = d.owed t := rfl

theorem reshare_found (w : Fin cfg1.W) :
    ∀ (n : ℕ) (t : Fin cfg1.N), t.val = n → ∀ x, (reshare d q').found w t x = d.found w t x := by
  intro n
  induction n using Nat.strong_induction_on with
  | _ n ih =>
    intro t ht x
    subst ht
    rw [Dat.found.eq_1, Dat.found.eq_1 (dat := d)]
    by_cases h0 : t.val = 0
    · rw [if_pos h0, if_pos h0]; rfl
    · rw [if_neg h0, if_neg h0]
      have hrec := fun h => ih (t.val - 1) (by omega) ⟨t.val - 1, h⟩ rfl x
      dsimp only
      simp only [hrec]
      rfl

theorem reshare_before (w : Fin cfg1.W) (t : Fin cfg1.N) (x) : (reshare d q').before w t x = d.before w t x := by
  rw [← Dat.found_eq_before, ← Dat.found_eq_before]
  exact reshare_found d q' w t.val t rfl x

theorem reshare_arrAt (w : Fin cfg1.W) (n : ℕ) : (reshare d q').arrAt w n = d.arrAt w n := by
  induction n with
  | zero => rfl
  | succ n ih =>
    simp only [Dat.arrAt, ih]
    rfl

theorem reshare_body (h : BodyObligation d (defs₀ (F := F)) Variants.none () Set.univ) :
    BodyObligation (reshare d q') (defs₀ (F := F)) Variants.none () Set.univ := fun t => by
  have ht := h t
  simp only [reshare_before]
  exact ht

end Reshare

variable (V : (c : Dev nD) → (b : Ref sig .tc) → Buf (Elt F) ((c : Thread nD τ).loc b))

def dat1s (c : Dev nD) : Dat τ (Elt F) Unit ℕ (UR sig nD τ) ℕ cfg1 c := reshare (dat1 V c) q1s

theorem q_eq1s (c : Dev nD) : (dat1s V c).q = q1s := rfl

theorem A_eq1s (c : Dev nD) (w : Fin cfg1.W) : (dat1s V c).A w = V c (Pipeline.arrRef spec1 w) := A_eq1 V c w

theorem arrAt1s (c : Dev nD) (w : Fin cfg1.W) (n : ℕ) : (dat1s V c).arrAt w n = (dat1 V c).arrAt w n :=
  reshare_arrAt (dat1 V c) q1s w n

theorem body_obligation1s (c : Dev nD) : BodyObligation (dat1s (F := F) V c) (defs₀ (F := F)) Variants.none () Set.univ :=
  reshare_body (dat1 V c) q1s (body_obligation1 V c)

theorem hin1s (c : Dev nD) : (Pipeline.ΦA spec1 c : sProp 𝕄) ⊢ (dat1s V c).Φ 0 := hin1 V c
theorem hout1s (c : Dev nD) : (dat1s V c).Φ (Fin.last cfg1.N) ⊢ (Pipeline.ΦA spec1 c : sProp 𝕄) := hout1 V c

theorem owed1s (c : Dev nD) (t) : (dat1s V c).owed t = 0 := owed1 V c t

theorem share1s_0 (c : Dev nD) : (dat1s V c).share 0 = fullShare := rfl
theorem share1s_1 (c : Dev nD) : (dat1s V c).share 1 = fullShare.left := rfl
theorem share1s_2 (c : Dev nD) : (dat1s V c).share 2 = fullShare.right := rfl
theorem share1s_3 (c : Dev nD) : (dat1s V c).share 3 = fullShare := rfl

end Cert.KernelIdeal.Fr

end
-- ==== Proof.KI.Ap2Runs.lean ====
/- (proof/Proof/KI/Ap1Runs.lean with region 2's names put for region 1's; nothing else changed) -/
import proofs.«109160_j26783416057954_1_alg».proof.Proof.KI.StepCases

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl

theorem idleAt2_3_A : ∀ t : Fin cfg2.N, condFirst (grid2.coords t) → ¬condLast (grid2.coords t) → cfg2.idle 3 (grid2.coords t) = true := by decide +kernel
theorem noFlush2_3_A : ∀ t : Fin cfg2.N, condFirst (grid2.coords t) → ¬condLast (grid2.coords t) → (cfg2.win 3).flush t = false := by decide +kernel

theorem idleAt2_3_B : ∀ t : Fin cfg2.N, ¬condFirst (grid2.coords t) → ¬condLast (grid2.coords t) → cfg2.idle 3 (grid2.coords t) = true := by decide +kernel
theorem noFlush2_3_B : ∀ t : Fin cfg2.N, ¬condFirst (grid2.coords t) → ¬condLast (grid2.coords t) → (cfg2.win 3).flush t = false := by decide +kernel

theorem liveAt2_3_C : ∀ t : Fin cfg2.N, ¬condFirst (grid2.coords t) → condLast (grid2.coords t) → cfg2.idle 3 (grid2.coords t) = false := by decide +kernel

abbrev VO2_3 : View sig .tc .vmem S2048x64 .f32 := (Memref.whole cc2_stg3_0 : Memref sig .tc .vmem S2048x64 .f32).view

abbrev ms2_0 (t : Fin cfg2.N) : Memref sig .tc .vmem S2048x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x64 .f32 := win2_3.stage (cfg2.slots t 3)
abbrev hs2_3 (t : Fin cfg2.N) : (ms2_3 t).IsWhole := hstage2_3 ((cfg2.slots t 3).cast nbuf2_3)

abbrev scM2_0 : Memref sig .tc .vmem S2048x64 .f32 := Memref.whole cc2_scratch0

abbrev VS2_0 : View sig .tc .vmem S2048x64 .f32 := scM2_0.view

theorem PhiA2_eq (c : Dev nD) :
    (Pipeline.ΦA spec2 c : sProp 𝕄)
      = iprop(iprop(iprop((∃ d, owns (c : Thread nD τ) scM2_0 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

end Cert.KernelIdeal.Fr

end
-- ==== Proof.KI.Ap2.lean ====
/- (proof/Proof/KI/Ap1.lean with region 2's names put for region 1's; nothing else changed) -/
import proofs.«109160_j26783416057954_1_alg».proof.Proof.KI.Ap2Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The three cases at point `t`, on the point's input blocks.
def leaves2A (c : Dev nD) (t : Fin cfg2.N) (ha : t.val % 16 = 0) (hb : ¬t.val % 16 = 15) : Vec F S2048x64 .f32 × Vec F S2048x64 .f32 :=
  leavesA VO2_3 VS2_0 c (grid2.coords t) (ms2_0 t) (hs2_0 t) (ms2_1 t) (hs2_1 t) (ms2_2 t) (hs2_2 t) (ms2_3 t) (hs2_3 t) scM2_0 (Memref.isWhole_whole _) ((hcondFirst t).mpr ha) (fun h => hb ((hcondLast t).mp h)) (iblk2 V c 0 t) (iblk2 V c 1 t) (iblk2 V c 2 t)
def leaves2B (c : Dev nD) (t : Fin cfg2.N) (ha : ¬t.val % 16 = 0) (hb : ¬t.val % 16 = 15) (xs : Vec F S2048x64 .f32) : Vec F S2048x64 .f32 × Vec F S2048x64 .f32 :=
  leavesB VO2_3 VS2_0 c (grid2.coords t) (ms2_0 t) (hs2_0 t) (ms2_1 t) (hs2_1 t) (ms2_2 t) (hs2_2 t) (ms2_3 t) (hs2_3 t) scM2_0 (Memref.isWhole_whole _) (fun h => ha ((hcondFirst t).mp h)) (fun h => hb ((hcondLast t).mp h)) (iblk2 V c 0 t) (iblk2 V c 1 t) (iblk2 V c 2 t) xs
def leaves2C (c : Dev nD) (t : Fin cfg2.N) (ha : ¬t.val % 16 = 0) (hb : t.val % 16 = 15) (xs : Vec F S2048x64 .f32) : Vec F S2048x64 .f32 × Vec F S2048x64 .f32 :=
  leavesC VO2_3 VS2_0 c (grid2.coords t) (ms2_0 t) (hs2_0 t) (ms2_1 t) (hs2_1 t) (ms2_2 t) (hs2_2 t) (ms2_3 t) (hs2_3 t) scM2_0 (Memref.isWhole_whole _) (fun h => ha ((hcondFirst t).mp h)) ((hcondLast t).mpr hb) (iblk2 V c 0 t) (iblk2 V c 1 t) (iblk2 V c 2 t) xs

-- The accumulation along a row block: the first column block resets, each later one adds to what the point before left.
def outsAt2 (c : Dev nD) : (n : ℕ) → n < cfg2.N → Vec F S2048x64 .f32 × Vec F S2048x64 .f32
  | 0, hn => leaves2A V c ⟨0, hn⟩ (Nat.zero_mod _) (by show ¬0 % 16 = 15; omega)
  | n + 1, hn =>
    if ha : (n + 1) % 16 = 0 then
      if hb : (n + 1) % 16 = 15 then False.elim (by omega) else leaves2A V c ⟨n + 1, hn⟩ ha hb
    else
      if hb : (n + 1) % 16 = 15 then leaves2C V c ⟨n + 1, hn⟩ ha hb (outsAt2 c n (Nat.lt_of_succ_lt hn)).2
      else leaves2B V c ⟨n + 1, hn⟩ ha hb (outsAt2 c n (Nat.lt_of_succ_lt hn)).2

theorem outsAt2_A (c : Dev nD) (t : Fin cfg2.N) (ha : t.val % 16 = 0) (hb : ¬t.val % 16 = 15) :
    outsAt2 V c t.val t.isLt = leaves2A V c t ha hb := by
  obtain ⟨n, hn⟩ := t
  cases n with
  | zero => exact rfl
  | succ n => exact (dif_pos ha).trans ((dif_neg hb).trans rfl)

theorem outsAt2_B (c : Dev nD) (t : Fin cfg2.N) (ha : ¬t.val % 16 = 0) (hb : ¬t.val % 16 = 15) :
    outsAt2 V c t.val t.isLt = leaves2B V c t ha hb (outsAt2 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_neg hb).trans rfl)

theorem outsAt2_C (c : Dev nD) (t : Fin cfg2.N) (ha : ¬t.val % 16 = 0) (hb : t.val % 16 = 15) :
    outsAt2 V c t.val t.isLt = leaves2C V c t ha hb (outsAt2 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_pos hb).trans rfl)

def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hp : n = 0) : PhiS2 V c n h = Pipeline.ΦA spec2 c := by
  subst hp; rfl

theorem PhiS2_succ (c : Dev nD) (n : ℕ) (hn : n < cfg2.N) :
    PhiS2 V c (n + 1) hn = iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hp : n ≠ 0) :
    PhiS2 V c n h = iprop(iprop(owns (c : Thread nD τ) scM2_0 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hp
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  have hN : t.val < 128 := lt_of_lt_of_eq t.isLt (show cfg2.N = 128 from N_2)
  by_cases ha : t.val % 16 = 0
  · by_cases hb : t.val % 16 = 15
    · exfalso; omega
    · rw [Dat.leavesExact_idle (dat2 V c) 3 t (idleAt2_3_A t ((hcondFirst t).mpr ha) (fun h => hb ((hcondLast t).mp h))) (noFlush2_3_A t ((hcondFirst t).mpr ha) (fun h => hb ((hcondLast t).mp h)))]
      rw [outsAt2_A V c t ha hb]
      unfold leaves2A leavesA; (try dsimp only)
      by_cases hp : t.val = 0
      · rw [PhiS2_castSucc V c t, PhiS2_zero V c _ _ hp, PhiA2_eq]
        iintro ⟨⟨⟨Hs, Hr⟩, Hg⟩, Hw, ⟨%da, Ha⟩, ⟨%db, Hb⟩, ⟨%dc, Hc⟩, ⟨%dd, Hd⟩⟩
        iapply ((stepRunA c (grid2.coords t) _ (hs2_0 t) _ (hs2_1 t) _ (hs2_2 t) _ (hs2_3 t) _ (Memref.isWhole_whole _) ((hcondFirst t).mpr ha) (fun h => hb ((hcondLast t).mp h)) (iblk2 V c 0 t) (iblk2 V c 1 t) (iblk2 V c 2 t)).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
      · rw [PhiS2_castSucc V c t, PhiS2_pos V c _ _ hp]
        iintro ⟨⟨⟨Hs, Hr⟩, Hg⟩, Hw, ⟨%da, Ha⟩, ⟨%db, Hb⟩, ⟨%dc, Hc⟩, ⟨%dd, Hd⟩⟩
        iapply ((stepRunA c (grid2.coords t) _ (hs2_0 t) _ (hs2_1 t) _ (hs2_2 t) _ (hs2_3 t) _ (Memref.isWhole_whole _) ((hcondFirst t).mpr ha) (fun h => hb ((hcondLast t).mp h)) (iblk2 V c 0 t) (iblk2 V c 1 t) (iblk2 V c 2 t)).2.2 _ Set.univ _)
        isplitl [Ha]; · iexact Ha
        isplitl [Hb]; · iexact Hb
        isplitl [Hc]; · iexact Hc
        isplitl [Hd]; · iexact Hd
        isplitl [Hs]; · iexists _; iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
  · by_cases hb : t.val % 16 = 15
    · rw [show (dat2 V c).leavesExact 3 t = owns (c : Thread nD τ) (ms2_3 t) fullShare ((dat2 V c).after 3 t) from by
        unfold Dat.leavesExact; rw [liveAt2_3_C t (fun h => ha ((hcondFirst t).mp h)) ((hcondLast t).mpr hb)], after2_3]
      rw [outsAt2_C V c t ha hb]
      unfold leaves2C leavesC; (try dsimp only)
      by_cases hp : t.val = 0
      · exfalso; omega
      · rw [PhiS2_castSucc V c t, PhiS2_pos V c _ _ hp]
        iintro ⟨⟨⟨Hs, Hr⟩, Hg⟩, Hw, ⟨%da, Ha⟩, ⟨%db, Hb⟩, ⟨%dc, Hc⟩, ⟨%dd, Hd⟩⟩
        iapply ((stepRunC c (grid2.coords t) _ (hs2_0 t) _ (hs2_1 t) _ (hs2_2 t) _ (hs2_3 t) _ (Memref.isWhole_whole _) (fun h => ha ((hcondFirst t).mp h)) ((hcondLast t).mpr hb) (iblk2 V c 0 t) (iblk2 V c 1 t) (iblk2 V c 2 t) _).2.2 Set.univ _)
        isplitl [Ha]; · iexact Ha
        isplitl [Hb]; · iexact Hb
        isplitl [Hc]; · iexact Hc
        isplitl [Hd]; · iexists _; iexact Hd
        isplitl [Hs]; · iexact Hs
        iintro ⟨Ha, Hb, Hc, ⟨%ed, Hd⟩, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverC c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        unfold owns; iexists _; isplitr
        swap; · iexact Hd
        ipureintro; exact View.read_writes_of_cover _ _ _ _ _ (outCoverC c _ _ _ _ _ _ _ _ _ _ _ _ _ _ _ _ _)
    · rw [Dat.leavesExact_idle (dat2 V c) 3 t (idleAt2_3_B t (fun h => ha ((hcondFirst t).mp h)) (fun h => hb ((hcondLast t).mp h))) (noFlush2_3_B t (fun h => ha ((hcondFirst t).mp h)) (fun h => hb ((hcondLast t).mp h)))]
      rw [outsAt2_B V c t ha hb]
      unfold leaves2B leavesB; (try dsimp only)
      by_cases hp : t.val = 0
      · exfalso; omega
      · rw [PhiS2_castSucc V c t, PhiS2_pos V c _ _ hp]
        iintro ⟨⟨⟨Hs, Hr⟩, Hg⟩, Hw, ⟨%da, Ha⟩, ⟨%db, Hb⟩, ⟨%dc, Hc⟩, ⟨%dd, Hd⟩⟩
        iapply ((stepRunB c (grid2.coords t) _ (hs2_0 t) _ (hs2_1 t) _ (hs2_2 t) _ (hs2_3 t) _ (Memref.isWhole_whole _) (fun h => ha ((hcondFirst t).mp h)) (fun h => hb ((hcondLast t).mp h)) (iblk2 V c 0 t) (iblk2 V c 1 t) (iblk2 V c 2 t) _).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverB c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨Hs, Hr⟩, Hg⟩
  isplitl [Hs Hr]
  · isplitl [Hs]
    · iexists _; iexact Hs
    iexact Hr
  iexact Hg

theorem hout2 (c : Dev nD) : (dat2 V c).Φ (Fin.last cfg2.N) ⊢ (Pipeline.ΦA spec2 c : sProp 𝕄) :=
  Phi_out2 V c _ (by rw [Fin.val_last]; have : cfg2.N = 128 := N_2; omega)

theorem share2 (c : Dev nD) (w : Fin cfg2.W) : (dat2 V c).q w = fullShare := by dsimp only [dat2]
theorem owed2 (c : Dev nD) (t) : (dat2 V c).owed t = 0 := by dsimp only [dat2]

end Cert.KernelIdeal.Fr

end
-- ==== Proof.KI.Ap3Runs.lean ====
/- (proof/Proof/KI/Ap1Runs.lean with region 3's names put for region 1's; nothing else changed) -/
import proofs.«109160_j26783416057954_1_alg».proof.Proof.KI.StepCases

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl

theorem idleAt3_3_A : ∀ t : Fin cfg3.N, condFirst (grid3.coords t) → ¬condLast (grid3.coords t) → cfg3.idle 3 (grid3.coords t) = true := by decide +kernel
theorem noFlush3_3_A : ∀ t : Fin cfg3.N, condFirst (grid3.coords t) → ¬condLast (grid3.coords t) → (cfg3.win 3).flush t = false := by decide +kernel

theorem idleAt3_3_B : ∀ t : Fin cfg3.N, ¬condFirst (grid3.coords t) → ¬condLast (grid3.coords t) → cfg3.idle 3 (grid3.coords t) = true := by decide +kernel
theorem noFlush3_3_B : ∀ t : Fin cfg3.N, ¬condFirst (grid3.coords t) → ¬condLast (grid3.coords t) → (cfg3.win 3).flush t = false := by decide +kernel

theorem liveAt3_3_C : ∀ t : Fin cfg3.N, ¬condFirst (grid3.coords t) → condLast (grid3.coords t) → cfg3.idle 3 (grid3.coords t) = false := by decide +kernel

abbrev VO3_3 : View sig .tc .vmem S2048x64 .f32 := (Memref.whole cc3_stg3_0 : Memref sig .tc .vmem S2048x64 .f32).view

abbrev ms3_0 (t : Fin cfg3.N) : Memref sig .tc .vmem S2048x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x64 .f32 := win3_3.stage (cfg3.slots t 3)
abbrev hs3_3 (t : Fin cfg3.N) : (ms3_3 t).IsWhole := hstage3_3 ((cfg3.slots t 3).cast nbuf3_3)

abbrev scM3_0 : Memref sig .tc .vmem S2048x64 .f32 := Memref.whole cc3_scratch0

abbrev VS3_0 : View sig .tc .vmem S2048x64 .f32 := scM3_0.view

theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

end Cert.KernelIdeal.Fr

end
-- ==== Proof.KI.Ap3.lean ====
/- (proof/Proof/KI/Ap1.lean with region 3's names put for region 1's; nothing else changed) -/
import proofs.«109160_j26783416057954_1_alg».proof.Proof.KI.Ap3Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The three cases at point `t`, on the point's input blocks.
def leaves3A (c : Dev nD) (t : Fin cfg3.N) (ha : t.val % 16 = 0) (hb : ¬t.val % 16 = 15) : Vec F S2048x64 .f32 × Vec F S2048x64 .f32 :=
  leavesA VO3_3 VS3_0 c (grid3.coords t) (ms3_0 t) (hs3_0 t) (ms3_1 t) (hs3_1 t) (ms3_2 t) (hs3_2 t) (ms3_3 t) (hs3_3 t) scM3_0 (Memref.isWhole_whole _) ((hcondFirst t).mpr ha) (fun h => hb ((hcondLast t).mp h)) (iblk3 V c 0 t) (iblk3 V c 1 t) (iblk3 V c 2 t)
def leaves3B (c : Dev nD) (t : Fin cfg3.N) (ha : ¬t.val % 16 = 0) (hb : ¬t.val % 16 = 15) (xs : Vec F S2048x64 .f32) : Vec F S2048x64 .f32 × Vec F S2048x64 .f32 :=
  leavesB VO3_3 VS3_0 c (grid3.coords t) (ms3_0 t) (hs3_0 t) (ms3_1 t) (hs3_1 t) (ms3_2 t) (hs3_2 t) (ms3_3 t) (hs3_3 t) scM3_0 (Memref.isWhole_whole _) (fun h => ha ((hcondFirst t).mp h)) (fun h => hb ((hcondLast t).mp h)) (iblk3 V c 0 t) (iblk3 V c 1 t) (iblk3 V c 2 t) xs
def leaves3C (c : Dev nD) (t : Fin cfg3.N) (ha : ¬t.val % 16 = 0) (hb : t.val % 16 = 15) (xs : Vec F S2048x64 .f32) : Vec F S2048x64 .f32 × Vec F S2048x64 .f32 :=
  leavesC VO3_3 VS3_0 c (grid3.coords t) (ms3_0 t) (hs3_0 t) (ms3_1 t) (hs3_1 t) (ms3_2 t) (hs3_2 t) (ms3_3 t) (hs3_3 t) scM3_0 (Memref.isWhole_whole _) (fun h => ha ((hcondFirst t).mp h)) ((hcondLast t).mpr hb) (iblk3 V c 0 t) (iblk3 V c 1 t) (iblk3 V c 2 t) xs

-- The accumulation along a row block: the first column block resets, each later one adds to what the point before left.
def outsAt3 (c : Dev nD) : (n : ℕ) → n < cfg3.N → Vec F S2048x64 .f32 × Vec F S2048x64 .f32
  | 0, hn => leaves3A V c ⟨0, hn⟩ (Nat.zero_mod _) (by show ¬0 % 16 = 15; omega)
  | n + 1, hn =>
    if ha : (n + 1) % 16 = 0 then
      if hb : (n + 1) % 16 = 15 then False.elim (by omega) else leaves3A V c ⟨n + 1, hn⟩ ha hb
    else
      if hb : (n + 1) % 16 = 15 then leaves3C V c ⟨n + 1, hn⟩ ha hb (outsAt3 c n (Nat.lt_of_succ_lt hn)).2
      else leaves3B V c ⟨n + 1, hn⟩ ha hb (outsAt3 c n (Nat.lt_of_succ_lt hn)).2

theorem outsAt3_A (c : Dev nD) (t : Fin cfg3.N) (ha : t.val % 16 = 0) (hb : ¬t.val % 16 = 15) :
    outsAt3 V c t.val t.isLt = leaves3A V c t ha hb := by
  obtain ⟨n, hn⟩ := t
  cases n with
  | zero => exact rfl
  | succ n => exact (dif_pos ha).trans ((dif_neg hb).trans rfl)

theorem outsAt3_B (c : Dev nD) (t : Fin cfg3.N) (ha : ¬t.val % 16 = 0) (hb : ¬t.val % 16 = 15) :
    outsAt3 V c t.val t.isLt = leaves3B V c t ha hb (outsAt3 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_neg hb).trans rfl)

theorem outsAt3_C (c : Dev nD) (t : Fin cfg3.N) (ha : ¬t.val % 16 = 0) (hb : t.val % 16 = 15) :
    outsAt3 V c t.val t.isLt = leaves3C V c t ha hb (outsAt3 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_pos hb).trans rfl)

def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hp : n = 0) : PhiS3 V c n h = Pipeline.ΦA spec3 c := by
  subst hp; rfl

theorem PhiS3_succ (c : Dev nD) (n : ℕ) (hn : n < cfg3.N) :
    PhiS3 V c (n + 1) hn = iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hp : n ≠ 0) :
    PhiS3 V c n h = iprop(iprop(owns (c : Thread nD τ) scM3_0 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hp
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  have hN : t.val < 128 := lt_of_lt_of_eq t.isLt (show cfg3.N = 128 from N_3)
  by_cases ha : t.val % 16 = 0
  · by_cases hb : t.val % 16 = 15
    · exfalso; omega
    · rw [Dat.leavesExact_idle (dat3 V c) 3 t (idleAt3_3_A t ((hcondFirst t).mpr ha) (fun h => hb ((hcondLast t).mp h))) (noFlush3_3_A t ((hcondFirst t).mpr ha) (fun h => hb ((hcondLast t).mp h)))]
      rw [outsAt3_A V c t ha hb]
      unfold leaves3A leavesA; (try dsimp only)
      by_cases hp : t.val = 0
      · rw [PhiS3_castSucc V c t, PhiS3_zero V c _ _ hp, PhiA3_eq]
        iintro ⟨⟨⟨Hs, Hr⟩, Hg⟩, Hw, ⟨%da, Ha⟩, ⟨%db, Hb⟩, ⟨%dc, Hc⟩, ⟨%dd, Hd⟩⟩
        iapply ((stepRunA c (grid3.coords t) _ (hs3_0 t) _ (hs3_1 t) _ (hs3_2 t) _ (hs3_3 t) _ (Memref.isWhole_whole _) ((hcondFirst t).mpr ha) (fun h => hb ((hcondLast t).mp h)) (iblk3 V c 0 t) (iblk3 V c 1 t) (iblk3 V c 2 t)).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
      · rw [PhiS3_castSucc V c t, PhiS3_pos V c _ _ hp]
        iintro ⟨⟨⟨Hs, Hr⟩, Hg⟩, Hw, ⟨%da, Ha⟩, ⟨%db, Hb⟩, ⟨%dc, Hc⟩, ⟨%dd, Hd⟩⟩
        iapply ((stepRunA c (grid3.coords t) _ (hs3_0 t) _ (hs3_1 t) _ (hs3_2 t) _ (hs3_3 t) _ (Memref.isWhole_whole _) ((hcondFirst t).mpr ha) (fun h => hb ((hcondLast t).mp h)) (iblk3 V c 0 t) (iblk3 V c 1 t) (iblk3 V c 2 t)).2.2 _ Set.univ _)
        isplitl [Ha]; · iexact Ha
        isplitl [Hb]; · iexact Hb
        isplitl [Hc]; · iexact Hc
        isplitl [Hd]; · iexact Hd
        isplitl [Hs]; · iexists _; iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
  · by_cases hb : t.val % 16 = 15
    · rw [show (dat3 V c).leavesExact 3 t = owns (c : Thread nD τ) (ms3_3 t) fullShare ((dat3 V c).after 3 t) from by
        unfold Dat.leavesExact; rw [liveAt3_3_C t (fun h => ha ((hcondFirst t).mp h)) ((hcondLast t).mpr hb)], after3_3]
      rw [outsAt3_C V c t ha hb]
      unfold leaves3C leavesC; (try dsimp only)
      by_cases hp : t.val = 0
      · exfalso; omega
      · rw [PhiS3_castSucc V c t, PhiS3_pos V c _ _ hp]
        iintro ⟨⟨⟨Hs, Hr⟩, Hg⟩, Hw, ⟨%da, Ha⟩, ⟨%db, Hb⟩, ⟨%dc, Hc⟩, ⟨%dd, Hd⟩⟩
        iapply ((stepRunC c (grid3.coords t) _ (hs3_0 t) _ (hs3_1 t) _ (hs3_2 t) _ (hs3_3 t) _ (Memref.isWhole_whole _) (fun h => ha ((hcondFirst t).mp h)) ((hcondLast t).mpr hb) (iblk3 V c 0 t) (iblk3 V c 1 t) (iblk3 V c 2 t) _).2.2 Set.univ _)
        isplitl [Ha]; · iexact Ha
        isplitl [Hb]; · iexact Hb
        isplitl [Hc]; · iexact Hc
        isplitl [Hd]; · iexists _; iexact Hd
        isplitl [Hs]; · iexact Hs
        iintro ⟨Ha, Hb, Hc, ⟨%ed, Hd⟩, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverC c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        unfold owns; iexists _; isplitr
        swap; · iexact Hd
        ipureintro; exact View.read_writes_of_cover _ _ _ _ _ (outCoverC c _ _ _ _ _ _ _ _ _ _ _ _ _ _ _ _ _)
    · rw [Dat.leavesExact_idle (dat3 V c) 3 t (idleAt3_3_B t (fun h => ha ((hcondFirst t).mp h)) (fun h => hb ((hcondLast t).mp h))) (noFlush3_3_B t (fun h => ha ((hcondFirst t).mp h)) (fun h => hb ((hcondLast t).mp h)))]
      rw [outsAt3_B V c t ha hb]
      unfold leaves3B leavesB; (try dsimp only)
      by_cases hp : t.val = 0
      · exfalso; omega
      · rw [PhiS3_castSucc V c t, PhiS3_pos V c _ _ hp]
        iintro ⟨⟨⟨Hs, Hr⟩, Hg⟩, Hw, ⟨%da, Ha⟩, ⟨%db, Hb⟩, ⟨%dc, Hc⟩, ⟨%dd, Hd⟩⟩
        iapply ((stepRunB c (grid3.coords t) _ (hs3_0 t) _ (hs3_1 t) _ (hs3_2 t) _ (hs3_3 t) _ (Memref.isWhole_whole _) (fun h => ha ((hcondFirst t).mp h)) (fun h => hb ((hcondLast t).mp h)) (iblk3 V c 0 t) (iblk3 V c 1 t) (iblk3 V c 2 t) _).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverB c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) (ht : t.val ≠ 0) : (dat3 V c).Φ t ⊢ (Pipeline.ΦA spec3 c : sProp 𝕄) := by
  rw [show (dat3 V c).Φ t = PhiS3 V c t.val (Nat.le_of_lt_succ t.isLt) from rfl, PhiS3_pos V c _ _ ht, PhiA3_eq]
  iintro ⟨⟨Hs, Hr⟩, Hg⟩
  isplitl [Hs Hr]
  · isplitl [Hs]
    · iexists _; iexact Hs
    iexact Hr
  iexact Hg

theorem hout3 (c : Dev nD) : (dat3 V c).Φ (Fin.last cfg3.N) ⊢ (Pipeline.ΦA spec3 c : sProp 𝕄) :=
  Phi_out3 V c _ (by rw [Fin.val_last]; have : cfg3.N = 128 := N_3; omega)

theorem share3 (c : Dev nD) (w : Fin cfg3.W) : (dat3 V c).q w = fullShare := by dsimp only [dat3]
theorem owed3 (c : Dev nD) (t) : (dat3 V c).owed t = 0 := by dsimp only [dat3]

end Cert.KernelIdeal.Fr

end
-- ==== Proof.KI.Ap4Runs.lean ====
/- (proof/Proof/KI/Ap1Runs.lean with region 4's names put for region 1's; nothing else changed) -/
import proofs.«109160_j26783416057954_1_alg».proof.Proof.KI.StepCases

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl

theorem idleAt4_3_A : ∀ t : Fin cfg4.N, condFirst (grid4.coords t) → ¬condLast (grid4.coords t) → cfg4.idle 3 (grid4.coords t) = true := by decide +kernel
theorem noFlush4_3_A : ∀ t : Fin cfg4.N, condFirst (grid4.coords t) → ¬condLast (grid4.coords t) → (cfg4.win 3).flush t = false := by decide +kernel

theorem idleAt4_3_B : ∀ t : Fin cfg4.N, ¬condFirst (grid4.coords t) → ¬condLast (grid4.coords t) → cfg4.idle 3 (grid4.coords t) = true := by decide +kernel
theorem noFlush4_3_B : ∀ t : Fin cfg4.N, ¬condFirst (grid4.coords t) → ¬condLast (grid4.coords t) → (cfg4.win 3).flush t = false := by decide +kernel

theorem liveAt4_3_C : ∀ t : Fin cfg4.N, ¬condFirst (grid4.coords t) → condLast (grid4.coords t) → cfg4.idle 3 (grid4.coords t) = false := by decide +kernel

abbrev VO4_3 : View sig .tc .vmem S2048x64 .f32 := (Memref.whole cc4_stg3_0 : Memref sig .tc .vmem S2048x64 .f32).view

abbrev ms4_0 (t : Fin cfg4.N) : Memref sig .tc .vmem S2048x1024 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2048x64 .f32 := win4_3.stage (cfg4.slots t 3)
abbrev hs4_3 (t : Fin cfg4.N) : (ms4_3 t).IsWhole := hstage4_3 ((cfg4.slots t 3).cast nbuf4_3)

abbrev scM4_0 : Memref sig .tc .vmem S2048x64 .f32 := Memref.whole cc4_scratch0

abbrev VS4_0 : View sig .tc .vmem S2048x64 .f32 := scM4_0.view

theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

end Cert.KernelIdeal.Fr

end
-- ==== Proof.KI.Ap4.lean ====
/- (proof/Proof/KI/Ap1.lean with region 4's names put for region 1's; nothing else changed) -/
import proofs.«109160_j26783416057954_1_alg».proof.Proof.KI.Ap4Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The three cases at point `t`, on the point's input blocks.
def leaves4A (c : Dev nD) (t : Fin cfg4.N) (ha : t.val % 16 = 0) (hb : ¬t.val % 16 = 15) : Vec F S2048x64 .f32 × Vec F S2048x64 .f32 :=
  leavesA VO4_3 VS4_0 c (grid4.coords t) (ms4_0 t) (hs4_0 t) (ms4_1 t) (hs4_1 t) (ms4_2 t) (hs4_2 t) (ms4_3 t) (hs4_3 t) scM4_0 (Memref.isWhole_whole _) ((hcondFirst t).mpr ha) (fun h => hb ((hcondLast t).mp h)) (iblk4 V c 0 t) (iblk4 V c 1 t) (iblk4 V c 2 t)
def leaves4B (c : Dev nD) (t : Fin cfg4.N) (ha : ¬t.val % 16 = 0) (hb : ¬t.val % 16 = 15) (xs : Vec F S2048x64 .f32) : Vec F S2048x64 .f32 × Vec F S2048x64 .f32 :=
  leavesB VO4_3 VS4_0 c (grid4.coords t) (ms4_0 t) (hs4_0 t) (ms4_1 t) (hs4_1 t) (ms4_2 t) (hs4_2 t) (ms4_3 t) (hs4_3 t) scM4_0 (Memref.isWhole_whole _) (fun h => ha ((hcondFirst t).mp h)) (fun h => hb ((hcondLast t).mp h)) (iblk4 V c 0 t) (iblk4 V c 1 t) (iblk4 V c 2 t) xs
def leaves4C (c : Dev nD) (t : Fin cfg4.N) (ha : ¬t.val % 16 = 0) (hb : t.val % 16 = 15) (xs : Vec F S2048x64 .f32) : Vec F S2048x64 .f32 × Vec F S2048x64 .f32 :=
  leavesC VO4_3 VS4_0 c (grid4.coords t) (ms4_0 t) (hs4_0 t) (ms4_1 t) (hs4_1 t) (ms4_2 t) (hs4_2 t) (ms4_3 t) (hs4_3 t) scM4_0 (Memref.isWhole_whole _) (fun h => ha ((hcondFirst t).mp h)) ((hcondLast t).mpr hb) (iblk4 V c 0 t) (iblk4 V c 1 t) (iblk4 V c 2 t) xs

-- The accumulation along a row block: the first column block resets, each later one adds to what the point before left.
def outsAt4 (c : Dev nD) : (n : ℕ) → n < cfg4.N → Vec F S2048x64 .f32 × Vec F S2048x64 .f32
  | 0, hn => leaves4A V c ⟨0, hn⟩ (Nat.zero_mod _) (by show ¬0 % 16 = 15; omega)
  | n + 1, hn =>
    if ha : (n + 1) % 16 = 0 then
      if hb : (n + 1) % 16 = 15 then False.elim (by omega) else leaves4A V c ⟨n + 1, hn⟩ ha hb
    else
      if hb : (n + 1) % 16 = 15 then leaves4C V c ⟨n + 1, hn⟩ ha hb (outsAt4 c n (Nat.lt_of_succ_lt hn)).2
      else leaves4B V c ⟨n + 1, hn⟩ ha hb (outsAt4 c n (Nat.lt_of_succ_lt hn)).2

theorem outsAt4_A (c : Dev nD) (t : Fin cfg4.N) (ha : t.val % 16 = 0) (hb : ¬t.val % 16 = 15) :
    outsAt4 V c t.val t.isLt = leaves4A V c t ha hb := by
  obtain ⟨n, hn⟩ := t
  cases n with
  | zero => exact rfl
  | succ n => exact (dif_pos ha).trans ((dif_neg hb).trans rfl)

theorem outsAt4_B (c : Dev nD) (t : Fin cfg4.N) (ha : ¬t.val % 16 = 0) (hb : ¬t.val % 16 = 15) :
    outsAt4 V c t.val t.isLt = leaves4B V c t ha hb (outsAt4 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_neg hb).trans rfl)

theorem outsAt4_C (c : Dev nD) (t : Fin cfg4.N) (ha : ¬t.val % 16 = 0) (hb : t.val % 16 = 15) :
    outsAt4 V c t.val t.isLt = leaves4C V c t ha hb (outsAt4 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_pos hb).trans rfl)

def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hp : n = 0) : PhiS4 V c n h = Pipeline.ΦA spec4 c := by
  subst hp; rfl

theorem PhiS4_succ (c : Dev nD) (n : ℕ) (hn : n < cfg4.N) :
    PhiS4 V c (n + 1) hn = iprop(iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hp : n ≠ 0) :
    PhiS4 V c n h = iprop(iprop(owns (c : Thread nD τ) scM4_0 fullShare ((outsAt4 V c (n - 1) (by omega)).2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hp
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  have hN : t.val < 128 := lt_of_lt_of_eq t.isLt (show cfg4.N = 128 from N_4)
  by_cases ha : t.val % 16 = 0
  · by_cases hb : t.val % 16 = 15
    · exfalso; omega
    · rw [Dat.leavesExact_idle (dat4 V c) 3 t (idleAt4_3_A t ((hcondFirst t).mpr ha) (fun h => hb ((hcondLast t).mp h))) (noFlush4_3_A t ((hcondFirst t).mpr ha) (fun h => hb ((hcondLast t).mp h)))]
      rw [outsAt4_A V c t ha hb]
      unfold leaves4A leavesA; (try dsimp only)
      by_cases hp : t.val = 0
      · rw [PhiS4_castSucc V c t, PhiS4_zero V c _ _ hp, PhiA4_eq]
        iintro ⟨⟨⟨Hs, Hr⟩, Hg⟩, Hw, ⟨%da, Ha⟩, ⟨%db, Hb⟩, ⟨%dc, Hc⟩, ⟨%dd, Hd⟩⟩
        iapply ((stepRunA c (grid4.coords t) _ (hs4_0 t) _ (hs4_1 t) _ (hs4_2 t) _ (hs4_3 t) _ (Memref.isWhole_whole _) ((hcondFirst t).mpr ha) (fun h => hb ((hcondLast t).mp h)) (iblk4 V c 0 t) (iblk4 V c 1 t) (iblk4 V c 2 t)).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
      · rw [PhiS4_castSucc V c t, PhiS4_pos V c _ _ hp]
        iintro ⟨⟨⟨Hs, Hr⟩, Hg⟩, Hw, ⟨%da, Ha⟩, ⟨%db, Hb⟩, ⟨%dc, Hc⟩, ⟨%dd, Hd⟩⟩
        iapply ((stepRunA c (grid4.coords t) _ (hs4_0 t) _ (hs4_1 t) _ (hs4_2 t) _ (hs4_3 t) _ (Memref.isWhole_whole _) ((hcondFirst t).mpr ha) (fun h => hb ((hcondLast t).mp h)) (iblk4 V c 0 t) (iblk4 V c 1 t) (iblk4 V c 2 t)).2.2 _ Set.univ _)
        isplitl [Ha]; · iexact Ha
        isplitl [Hb]; · iexact Hb
        isplitl [Hc]; · iexact Hc
        isplitl [Hd]; · iexact Hd
        isplitl [Hs]; · iexists _; iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
  · by_cases hb : t.val % 16 = 15
    · rw [show (dat4 V c).leavesExact 3 t = owns (c : Thread nD τ) (ms4_3 t) fullShare ((dat4 V c).after 3 t) from by
        unfold Dat.leavesExact; rw [liveAt4_3_C t (fun h => ha ((hcondFirst t).mp h)) ((hcondLast t).mpr hb)], after4_3]
      rw [outsAt4_C V c t ha hb]
      unfold leaves4C leavesC; (try dsimp only)
      by_cases hp : t.val = 0
      · exfalso; omega
      · rw [PhiS4_castSucc V c t, PhiS4_pos V c _ _ hp]
        iintro ⟨⟨⟨Hs, Hr⟩, Hg⟩, Hw, ⟨%da, Ha⟩, ⟨%db, Hb⟩, ⟨%dc, Hc⟩, ⟨%dd, Hd⟩⟩
        iapply ((stepRunC c (grid4.coords t) _ (hs4_0 t) _ (hs4_1 t) _ (hs4_2 t) _ (hs4_3 t) _ (Memref.isWhole_whole _) (fun h => ha ((hcondFirst t).mp h)) ((hcondLast t).mpr hb) (iblk4 V c 0 t) (iblk4 V c 1 t) (iblk4 V c 2 t) _).2.2 Set.univ _)
        isplitl [Ha]; · iexact Ha
        isplitl [Hb]; · iexact Hb
        isplitl [Hc]; · iexact Hc
        isplitl [Hd]; · iexists _; iexact Hd
        isplitl [Hs]; · iexact Hs
        iintro ⟨Ha, Hb, Hc, ⟨%ed, Hd⟩, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverC c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        unfold owns; iexists _; isplitr
        swap; · iexact Hd
        ipureintro; exact View.read_writes_of_cover _ _ _ _ _ (outCoverC c _ _ _ _ _ _ _ _ _ _ _ _ _ _ _ _ _)
    · rw [Dat.leavesExact_idle (dat4 V c) 3 t (idleAt4_3_B t (fun h => ha ((hcondFirst t).mp h)) (fun h => hb ((hcondLast t).mp h))) (noFlush4_3_B t (fun h => ha ((hcondFirst t).mp h)) (fun h => hb ((hcondLast t).mp h)))]
      rw [outsAt4_B V c t ha hb]
      unfold leaves4B leavesB; (try dsimp only)
      by_cases hp : t.val = 0
      · exfalso; omega
      · rw [PhiS4_castSucc V c t, PhiS4_pos V c _ _ hp]
        iintro ⟨⟨⟨Hs, Hr⟩, Hg⟩, Hw, ⟨%da, Ha⟩, ⟨%db, Hb⟩, ⟨%dc, Hc⟩, ⟨%dd, Hd⟩⟩
        iapply ((stepRunB c (grid4.coords t) _ (hs4_0 t) _ (hs4_1 t) _ (hs4_2 t) _ (hs4_3 t) _ (Memref.isWhole_whole _) (fun h => ha ((hcondFirst t).mp h)) (fun h => hb ((hcondLast t).mp h)) (iblk4 V c 0 t) (iblk4 V c 1 t) (iblk4 V c 2 t) _).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverB c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd

theorem body_obligation4 (c : Dev nD) : BodyObligation (dat4 (F := F) V c) (defs₀ (F := F)) Variants.none () Set.univ := fun t => by
  rw [bigSep_W4, bigSep_W4]
  exact sound_body4 V c t

theorem hin4 (c : Dev nD) : (Pipeline.ΦA spec4 c : sProp 𝕄) ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ (Pipeline.ΦA spec4 c : sProp 𝕄) := by
  rw [show (dat4 V c).Φ t = PhiS4 V c t.val (Nat.le_of_lt_succ t.isLt) from rfl, PhiS4_pos V c _ _ ht, PhiA4_eq]
  iintro ⟨⟨Hs, Hr⟩, Hg⟩
  isplitl [Hs Hr]
  · isplitl [Hs]
    · iexists _; iexact Hs
    iexact Hr
  iexact Hg

theorem hout4 (c : Dev nD) : (dat4 V c).Φ (Fin.last cfg4.N) ⊢ (Pipeline.ΦA spec4 c : sProp 𝕄) :=
  Phi_out4 V c _ (by rw [Fin.val_last]; have : cfg4.N = 128 := N_4; omega)

theorem share4 (c : Dev nD) (w : Fin cfg4.W) : (dat4 V c).q w = fullShare := by dsimp only [dat4]
theorem owed4 (c : Dev nD) (t) : (dat4 V c).owed t = 0 := by dsimp only [dat4]

end Cert.KernelIdeal.Fr

end
-- ==== Proof.KI.Ap5Runs.lean ====
/- (proof/Proof/KI/Ap1Runs.lean with region 5's names put for region 1's; nothing else changed) -/
import proofs.«109160_j26783416057954_1_alg».proof.Proof.KI.StepCases

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem liveAt5_0 : ∀ t : Fin cfg5.N, cfg5.idle 0 (grid5.coords t) = false := fun _ => rfl
theorem liveAt5_1 : ∀ t : Fin cfg5.N, cfg5.idle 1 (grid5.coords t) = false := fun _ => rfl
theorem liveAt5_2 : ∀ t : Fin cfg5.N, cfg5.idle 2 (grid5.coords t) = false := fun _ => rfl

theorem idleAt5_3_A : ∀ t : Fin cfg5.N, condFirst (grid5.coords t) → ¬condLast (grid5.coords t) → cfg5.idle 3 (grid5.coords t) = true := by decide +kernel
theorem noFlush5_3_A : ∀ t : Fin cfg5.N, condFirst (grid5.coords t) → ¬condLast (grid5.coords t) → (cfg5.win 3).flush t = false := by decide +kernel

theorem idleAt5_3_B : ∀ t : Fin cfg5.N, ¬condFirst (grid5.coords t) → ¬condLast (grid5.coords t) → cfg5.idle 3 (grid5.coords t) = true := by decide +kernel
theorem noFlush5_3_B : ∀ t : Fin cfg5.N, ¬condFirst (grid5.coords t) → ¬condLast (grid5.coords t) → (cfg5.win 3).flush t = false := by decide +kernel

theorem liveAt5_3_C : ∀ t : Fin cfg5.N, ¬condFirst (grid5.coords t) → condLast (grid5.coords t) → cfg5.idle 3 (grid5.coords t) = false := by decide +kernel

abbrev VO5_3 : View sig .tc .vmem S2048x64 .f32 := (Memref.whole cc5_stg3_0 : Memref sig .tc .vmem S2048x64 .f32).view

abbrev ms5_0 (t : Fin cfg5.N) : Memref sig .tc .vmem S2048x1024 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1024x64 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S2048x64 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S2048x64 .f32 := win5_3.stage (cfg5.slots t 3)
abbrev hs5_3 (t : Fin cfg5.N) : (ms5_3 t).IsWhole := hstage5_3 ((cfg5.slots t 3).cast nbuf5_3)

abbrev scM5_0 : Memref sig .tc .vmem S2048x64 .f32 := Memref.whole cc5_scratch0

abbrev VS5_0 : View sig .tc .vmem S2048x64 .f32 := scM5_0.view

theorem PhiA5_eq (c : Dev nD) :
    (Pipeline.ΦA spec5 c : sProp 𝕄)
      = iprop(iprop(iprop((∃ d, owns (c : Thread nD τ) scM5_0 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

end Cert.KernelIdeal.Fr

end
-- ==== Proof.KI.Ap5.lean ====
/- (proof/Proof/KI/Ap1.lean with region 5's names put for region 1's; nothing else changed) -/
import proofs.«109160_j26783416057954_1_alg».proof.Proof.KI.Ap5Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The three cases at point `t`, on the point's input blocks.
def leaves5A (c : Dev nD) (t : Fin cfg5.N) (ha : t.val % 16 = 0) (hb : ¬t.val % 16 = 15) : Vec F S2048x64 .f32 × Vec F S2048x64 .f32 :=
  leavesA VO5_3 VS5_0 c (grid5.coords t) (ms5_0 t) (hs5_0 t) (ms5_1 t) (hs5_1 t) (ms5_2 t) (hs5_2 t) (ms5_3 t) (hs5_3 t) scM5_0 (Memref.isWhole_whole _) ((hcondFirst t).mpr ha) (fun h => hb ((hcondLast t).mp h)) (iblk5 V c 0 t) (iblk5 V c 1 t) (iblk5 V c 2 t)
def leaves5B (c : Dev nD) (t : Fin cfg5.N) (ha : ¬t.val % 16 = 0) (hb : ¬t.val % 16 = 15) (xs : Vec F S2048x64 .f32) : Vec F S2048x64 .f32 × Vec F S2048x64 .f32 :=
  leavesB VO5_3 VS5_0 c (grid5.coords t) (ms5_0 t) (hs5_0 t) (ms5_1 t) (hs5_1 t) (ms5_2 t) (hs5_2 t) (ms5_3 t) (hs5_3 t) scM5_0 (Memref.isWhole_whole _) (fun h => ha ((hcondFirst t).mp h)) (fun h => hb ((hcondLast t).mp h)) (iblk5 V c 0 t) (iblk5 V c 1 t) (iblk5 V c 2 t) xs
def leaves5C (c : Dev nD) (t : Fin cfg5.N) (ha : ¬t.val % 16 = 0) (hb : t.val % 16 = 15) (xs : Vec F S2048x64 .f32) : Vec F S2048x64 .f32 × Vec F S2048x64 .f32 :=
  leavesC VO5_3 VS5_0 c (grid5.coords t) (ms5_0 t) (hs5_0 t) (ms5_1 t) (hs5_1 t) (ms5_2 t) (hs5_2 t) (ms5_3 t) (hs5_3 t) scM5_0 (Memref.isWhole_whole _) (fun h => ha ((hcondFirst t).mp h)) ((hcondLast t).mpr hb) (iblk5 V c 0 t) (iblk5 V c 1 t) (iblk5 V c 2 t) xs

-- The accumulation along a row block: the first column block resets, each later one adds to what the point before left.
def outsAt5 (c : Dev nD) : (n : ℕ) → n < cfg5.N → Vec F S2048x64 .f32 × Vec F S2048x64 .f32
  | 0, hn => leaves5A V c ⟨0, hn⟩ (Nat.zero_mod _) (by show ¬0 % 16 = 15; omega)
  | n + 1, hn =>
    if ha : (n + 1) % 16 = 0 then
      if hb : (n + 1) % 16 = 15 then False.elim (by omega) else leaves5A V c ⟨n + 1, hn⟩ ha hb
    else
      if hb : (n + 1) % 16 = 15 then leaves5C V c ⟨n + 1, hn⟩ ha hb (outsAt5 c n (Nat.lt_of_succ_lt hn)).2
      else leaves5B V c ⟨n + 1, hn⟩ ha hb (outsAt5 c n (Nat.lt_of_succ_lt hn)).2

theorem outsAt5_A (c : Dev nD) (t : Fin cfg5.N) (ha : t.val % 16 = 0) (hb : ¬t.val % 16 = 15) :
    outsAt5 V c t.val t.isLt = leaves5A V c t ha hb := by
  obtain ⟨n, hn⟩ := t
  cases n with
  | zero => exact rfl
  | succ n => exact (dif_pos ha).trans ((dif_neg hb).trans rfl)

theorem outsAt5_B (c : Dev nD) (t : Fin cfg5.N) (ha : ¬t.val % 16 = 0) (hb : ¬t.val % 16 = 15) :
    outsAt5 V c t.val t.isLt = leaves5B V c t ha hb (outsAt5 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_neg hb).trans rfl)

theorem outsAt5_C (c : Dev nD) (t : Fin cfg5.N) (ha : ¬t.val % 16 = 0) (hb : t.val % 16 = 15) :
    outsAt5 V c t.val t.isLt = leaves5C V c t ha hb (outsAt5 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_pos hb).trans rfl)

def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hp : n = 0) : PhiS5 V c n h = Pipeline.ΦA spec5 c := by
  subst hp; rfl

theorem PhiS5_succ (c : Dev nD) (n : ℕ) (hn : n < cfg5.N) :
    PhiS5 V c (n + 1) hn = iprop(iprop(owns (c : Thread nD τ) scM5_0 fullShare ((outsAt5 V c n hn).2) ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hp : n ≠ 0) :
    PhiS5 V c n h = iprop(iprop(owns (c : Thread nD τ) scM5_0 fullShare ((outsAt5 V c (n - 1) (by omega)).2) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hp
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  have hN : t.val < 128 := lt_of_lt_of_eq t.isLt (show cfg5.N = 128 from N_5)
  by_cases ha : t.val % 16 = 0
  · by_cases hb : t.val % 16 = 15
    · exfalso; omega
    · rw [Dat.leavesExact_idle (dat5 V c) 3 t (idleAt5_3_A t ((hcondFirst t).mpr ha) (fun h => hb ((hcondLast t).mp h))) (noFlush5_3_A t ((hcondFirst t).mpr ha) (fun h => hb ((hcondLast t).mp h)))]
      rw [outsAt5_A V c t ha hb]
      unfold leaves5A leavesA; (try dsimp only)
      by_cases hp : t.val = 0
      · rw [PhiS5_castSucc V c t, PhiS5_zero V c _ _ hp, PhiA5_eq]
        iintro ⟨⟨⟨Hs, Hr⟩, Hg⟩, Hw, ⟨%da, Ha⟩, ⟨%db, Hb⟩, ⟨%dc, Hc⟩, ⟨%dd, Hd⟩⟩
        iapply ((stepRunA c (grid5.coords t) _ (hs5_0 t) _ (hs5_1 t) _ (hs5_2 t) _ (hs5_3 t) _ (Memref.isWhole_whole _) ((hcondFirst t).mpr ha) (fun h => hb ((hcondLast t).mp h)) (iblk5 V c 0 t) (iblk5 V c 1 t) (iblk5 V c 2 t)).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
      · rw [PhiS5_castSucc V c t, PhiS5_pos V c _ _ hp]
        iintro ⟨⟨⟨Hs, Hr⟩, Hg⟩, Hw, ⟨%da, Ha⟩, ⟨%db, Hb⟩, ⟨%dc, Hc⟩, ⟨%dd, Hd⟩⟩
        iapply ((stepRunA c (grid5.coords t) _ (hs5_0 t) _ (hs5_1 t) _ (hs5_2 t) _ (hs5_3 t) _ (Memref.isWhole_whole _) ((hcondFirst t).mpr ha) (fun h => hb ((hcondLast t).mp h)) (iblk5 V c 0 t) (iblk5 V c 1 t) (iblk5 V c 2 t)).2.2 _ Set.univ _)
        isplitl [Ha]; · iexact Ha
        isplitl [Hb]; · iexact Hb
        isplitl [Hc]; · iexact Hc
        isplitl [Hd]; · iexact Hd
        isplitl [Hs]; · iexists _; iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
  · by_cases hb : t.val % 16 = 15
    · rw [show (dat5 V c).leavesExact 3 t = owns (c : Thread nD τ) (ms5_3 t) fullShare ((dat5 V c).after 3 t) from by
        unfold Dat.leavesExact; rw [liveAt5_3_C t (fun h => ha ((hcondFirst t).mp h)) ((hcondLast t).mpr hb)], after5_3]
      rw [outsAt5_C V c t ha hb]
      unfold leaves5C leavesC; (try dsimp only)
      by_cases hp : t.val = 0
      · exfalso; omega
      · rw [PhiS5_castSucc V c t, PhiS5_pos V c _ _ hp]
        iintro ⟨⟨⟨Hs, Hr⟩, Hg⟩, Hw, ⟨%da, Ha⟩, ⟨%db, Hb⟩, ⟨%dc, Hc⟩, ⟨%dd, Hd⟩⟩
        iapply ((stepRunC c (grid5.coords t) _ (hs5_0 t) _ (hs5_1 t) _ (hs5_2 t) _ (hs5_3 t) _ (Memref.isWhole_whole _) (fun h => ha ((hcondFirst t).mp h)) ((hcondLast t).mpr hb) (iblk5 V c 0 t) (iblk5 V c 1 t) (iblk5 V c 2 t) _).2.2 Set.univ _)
        isplitl [Ha]; · iexact Ha
        isplitl [Hb]; · iexact Hb
        isplitl [Hc]; · iexact Hc
        isplitl [Hd]; · iexists _; iexact Hd
        isplitl [Hs]; · iexact Hs
        iintro ⟨Ha, Hb, Hc, ⟨%ed, Hd⟩, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverC c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        unfold owns; iexists _; isplitr
        swap; · iexact Hd
        ipureintro; exact View.read_writes_of_cover _ _ _ _ _ (outCoverC c _ _ _ _ _ _ _ _ _ _ _ _ _ _ _ _ _)
    · rw [Dat.leavesExact_idle (dat5 V c) 3 t (idleAt5_3_B t (fun h => ha ((hcondFirst t).mp h)) (fun h => hb ((hcondLast t).mp h))) (noFlush5_3_B t (fun h => ha ((hcondFirst t).mp h)) (fun h => hb ((hcondLast t).mp h)))]
      rw [outsAt5_B V c t ha hb]
      unfold leaves5B leavesB; (try dsimp only)
      by_cases hp : t.val = 0
      · exfalso; omega
      · rw [PhiS5_castSucc V c t, PhiS5_pos V c _ _ hp]
        iintro ⟨⟨⟨Hs, Hr⟩, Hg⟩, Hw, ⟨%da, Ha⟩, ⟨%db, Hb⟩, ⟨%dc, Hc⟩, ⟨%dd, Hd⟩⟩
        iapply ((stepRunB c (grid5.coords t) _ (hs5_0 t) _ (hs5_1 t) _ (hs5_2 t) _ (hs5_3 t) _ (Memref.isWhole_whole _) (fun h => ha ((hcondFirst t).mp h)) (fun h => hb ((hcondLast t).mp h)) (iblk5 V c 0 t) (iblk5 V c 1 t) (iblk5 V c 2 t) _).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverB c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd

theorem body_obligation5 (c : Dev nD) : BodyObligation (dat5 (F := F) V c) (defs₀ (F := F)) Variants.none () Set.univ := fun t => by
  rw [bigSep_W5, bigSep_W5]
  exact sound_body5 V c t

theorem hin5 (c : Dev nD) : (Pipeline.ΦA spec5 c : sProp 𝕄) ⊢ (dat5 V c).Φ 0 := by
  rw [show (dat5 V c).Φ 0 = PhiS5 V c 0 (Nat.zero_le _) from rfl, PhiS5_zero V c 0 _ rfl]
  try exact Idealize.SL.BI.Entails.refl _

theorem Phi_out5 (c : Dev nD) (t : Fin (cfg5.N + 1)) (ht : t.val ≠ 0) : (dat5 V c).Φ t ⊢ (Pipeline.ΦA spec5 c : sProp 𝕄) := by
  rw [show (dat5 V c).Φ t = PhiS5 V c t.val (Nat.le_of_lt_succ t.isLt) from rfl, PhiS5_pos V c _ _ ht, PhiA5_eq]
  iintro ⟨⟨Hs, Hr⟩, Hg⟩
  isplitl [Hs Hr]
  · isplitl [Hs]
    · iexists _; iexact Hs
    iexact Hr
  iexact Hg

theorem hout5 (c : Dev nD) : (dat5 V c).Φ (Fin.last cfg5.N) ⊢ (Pipeline.ΦA spec5 c : sProp 𝕄) :=
  Phi_out5 V c _ (by rw [Fin.val_last]; have : cfg5.N = 128 := N_5; omega)

theorem share5 (c : Dev nD) (w : Fin cfg5.W) : (dat5 V c).q w = fullShare := by dsimp only [dat5]
theorem owed5 (c : Dev nD) (t) : (dat5 V c).owed t = 0 := by dsimp only [dat5]

end Cert.KernelIdeal.Fr

end
-- ==== Proof.KI.Ap6Runs.lean ====
/- (proof/Proof/KI/Ap1Runs.lean with region 6's names put for region 1's; nothing else changed) -/
import proofs.«109160_j26783416057954_1_alg».proof.Proof.KI.StepCases

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem liveAt6_0 : ∀ t : Fin cfg6.N, cfg6.idle 0 (grid6.coords t) = false := fun _ => rfl
theorem liveAt6_1 : ∀ t : Fin cfg6.N, cfg6.idle 1 (grid6.coords t) = false := fun _ => rfl
theorem liveAt6_2 : ∀ t : Fin cfg6.N, cfg6.idle 2 (grid6.coords t) = false := fun _ => rfl

theorem idleAt6_3_A : ∀ t : Fin cfg6.N, condFirst (grid6.coords t) → ¬condLast (grid6.coords t) → cfg6.idle 3 (grid6.coords t) = true := by decide +kernel
theorem noFlush6_3_A : ∀ t : Fin cfg6.N, condFirst (grid6.coords t) → ¬condLast (grid6.coords t) → (cfg6.win 3).flush t = false := by decide +kernel

theorem idleAt6_3_B : ∀ t : Fin cfg6.N, ¬condFirst (grid6.coords t) → ¬condLast (grid6.coords t) → cfg6.idle 3 (grid6.coords t) = true := by decide +kernel
theorem noFlush6_3_B : ∀ t : Fin cfg6.N, ¬condFirst (grid6.coords t) → ¬condLast (grid6.coords t) → (cfg6.win 3).flush t = false := by decide +kernel

theorem liveAt6_3_C : ∀ t : Fin cfg6.N, ¬condFirst (grid6.coords t) → condLast (grid6.coords t) → cfg6.idle 3 (grid6.coords t) = false := by decide +kernel

abbrev VO6_3 : View sig .tc .vmem S2048x64 .f32 := (Memref.whole cc6_stg3_0 : Memref sig .tc .vmem S2048x64 .f32).view

abbrev ms6_0 (t : Fin cfg6.N) : Memref sig .tc .vmem S2048x1024 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1024x64 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S2048x64 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S2048x64 .f32 := win6_3.stage (cfg6.slots t 3)
abbrev hs6_3 (t : Fin cfg6.N) : (ms6_3 t).IsWhole := hstage6_3 ((cfg6.slots t 3).cast nbuf6_3)

abbrev scM6_0 : Memref sig .tc .vmem S2048x64 .f32 := Memref.whole cc6_scratch0

abbrev VS6_0 : View sig .tc .vmem S2048x64 .f32 := scM6_0.view

theorem PhiA6_eq (c : Dev nD) :
    (Pipeline.ΦA spec6 c : sProp 𝕄)
      = iprop(iprop(iprop((∃ d, owns (c : Thread nD τ) scM6_0 fullShare d))
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6_0, owns_whole]; try rfl

end Cert.KernelIdeal.Fr

end
-- ==== Proof.KI.Ap6.lean ====
/- (proof/Proof/KI/Ap1.lean with region 6's names put for region 1's; nothing else changed) -/
import proofs.«109160_j26783416057954_1_alg».proof.Proof.KI.Ap6Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The three cases at point `t`, on the point's input blocks.
def leaves6A (c : Dev nD) (t : Fin cfg6.N) (ha : t.val % 16 = 0) (hb : ¬t.val % 16 = 15) : Vec F S2048x64 .f32 × Vec F S2048x64 .f32 :=
  leavesA VO6_3 VS6_0 c (grid6.coords t) (ms6_0 t) (hs6_0 t) (ms6_1 t) (hs6_1 t) (ms6_2 t) (hs6_2 t) (ms6_3 t) (hs6_3 t) scM6_0 (Memref.isWhole_whole _) ((hcondFirst t).mpr ha) (fun h => hb ((hcondLast t).mp h)) (iblk6 V c 0 t) (iblk6 V c 1 t) (iblk6 V c 2 t)
def leaves6B (c : Dev nD) (t : Fin cfg6.N) (ha : ¬t.val % 16 = 0) (hb : ¬t.val % 16 = 15) (xs : Vec F S2048x64 .f32) : Vec F S2048x64 .f32 × Vec F S2048x64 .f32 :=
  leavesB VO6_3 VS6_0 c (grid6.coords t) (ms6_0 t) (hs6_0 t) (ms6_1 t) (hs6_1 t) (ms6_2 t) (hs6_2 t) (ms6_3 t) (hs6_3 t) scM6_0 (Memref.isWhole_whole _) (fun h => ha ((hcondFirst t).mp h)) (fun h => hb ((hcondLast t).mp h)) (iblk6 V c 0 t) (iblk6 V c 1 t) (iblk6 V c 2 t) xs
def leaves6C (c : Dev nD) (t : Fin cfg6.N) (ha : ¬t.val % 16 = 0) (hb : t.val % 16 = 15) (xs : Vec F S2048x64 .f32) : Vec F S2048x64 .f32 × Vec F S2048x64 .f32 :=
  leavesC VO6_3 VS6_0 c (grid6.coords t) (ms6_0 t) (hs6_0 t) (ms6_1 t) (hs6_1 t) (ms6_2 t) (hs6_2 t) (ms6_3 t) (hs6_3 t) scM6_0 (Memref.isWhole_whole _) (fun h => ha ((hcondFirst t).mp h)) ((hcondLast t).mpr hb) (iblk6 V c 0 t) (iblk6 V c 1 t) (iblk6 V c 2 t) xs

-- The accumulation along a row block: the first column block resets, each later one adds to what the point before left.
def outsAt6 (c : Dev nD) : (n : ℕ) → n < cfg6.N → Vec F S2048x64 .f32 × Vec F S2048x64 .f32
  | 0, hn => leaves6A V c ⟨0, hn⟩ (Nat.zero_mod _) (by show ¬0 % 16 = 15; omega)
  | n + 1, hn =>
    if ha : (n + 1) % 16 = 0 then
      if hb : (n + 1) % 16 = 15 then False.elim (by omega) else leaves6A V c ⟨n + 1, hn⟩ ha hb
    else
      if hb : (n + 1) % 16 = 15 then leaves6C V c ⟨n + 1, hn⟩ ha hb (outsAt6 c n (Nat.lt_of_succ_lt hn)).2
      else leaves6B V c ⟨n + 1, hn⟩ ha hb (outsAt6 c n (Nat.lt_of_succ_lt hn)).2

theorem outsAt6_A (c : Dev nD) (t : Fin cfg6.N) (ha : t.val % 16 = 0) (hb : ¬t.val % 16 = 15) :
    outsAt6 V c t.val t.isLt = leaves6A V c t ha hb := by
  obtain ⟨n, hn⟩ := t
  cases n with
  | zero => exact rfl
  | succ n => exact (dif_pos ha).trans ((dif_neg hb).trans rfl)

theorem outsAt6_B (c : Dev nD) (t : Fin cfg6.N) (ha : ¬t.val % 16 = 0) (hb : ¬t.val % 16 = 15) :
    outsAt6 V c t.val t.isLt = leaves6B V c t ha hb (outsAt6 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_neg hb).trans rfl)

theorem outsAt6_C (c : Dev nD) (t : Fin cfg6.N) (ha : ¬t.val % 16 = 0) (hb : t.val % 16 = 15) :
    outsAt6 V c t.val t.isLt = leaves6C V c t ha hb (outsAt6 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_pos hb).trans rfl)

def PhiS6 (c : Dev nD) : (n : ℕ) → n ≤ cfg6.N → sProp 𝕄
  | 0, _ => Pipeline.ΦA spec6 c
  | n + 1, hn => iprop(iprop(owns (c : Thread nD τ) scM6_0 fullShare ((outsAt6 V c n hn).2) ∗ Pipeline.scopedRestBut (Ix := Unit) (Name := ℕ) (U := UR sig nD τ) (Lvl := ℕ) (Val := Elt F) spec6 c [cc6_scratch0]) ∗ (∃ r, prngReg c r))

theorem PhiS6_zero (c : Dev nD) (n : ℕ) (h : n ≤ cfg6.N) (hp : n = 0) : PhiS6 V c n h = Pipeline.ΦA spec6 c := by
  subst hp; rfl

theorem PhiS6_succ (c : Dev nD) (n : ℕ) (hn : n < cfg6.N) :
    PhiS6 V c (n + 1) hn = iprop(iprop(owns (c : Thread nD τ) scM6_0 fullShare ((outsAt6 V c n hn).2) ∗ Pipeline.scopedRestBut (Ix := Unit) (Name := ℕ) (U := UR sig nD τ) (Lvl := ℕ) (Val := Elt F) spec6 c [cc6_scratch0]) ∗ (∃ r, prngReg c r)) := rfl

theorem PhiS6_pos (c : Dev nD) (n : ℕ) (h : n ≤ cfg6.N) (hp : n ≠ 0) :
    PhiS6 V c n h = iprop(iprop(owns (c : Thread nD τ) scM6_0 fullShare ((outsAt6 V c (n - 1) (by omega)).2) ∗ Pipeline.scopedRestBut (Ix := Unit) (Name := ℕ) (U := UR sig nD τ) (Lvl := ℕ) (Val := Elt F) spec6 c [cc6_scratch0]) ∗ (∃ r, prngReg c r)) := by
  cases n with
  | zero => exact absurd rfl hp
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = (outsAt6 V c t.val t.isLt).1 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t)

set_option maxHeartbeats 4800000 in

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  have hN : t.val < 128 := lt_of_lt_of_eq t.isLt (show cfg6.N = 128 from N_6)
  by_cases ha : t.val % 16 = 0
  · by_cases hb : t.val % 16 = 15
    · exfalso; omega
    · rw [Dat.leavesExact_idle (dat6 V c) 3 t (idleAt6_3_A t ((hcondFirst t).mpr ha) (fun h => hb ((hcondLast t).mp h))) (noFlush6_3_A t ((hcondFirst t).mpr ha) (fun h => hb ((hcondLast t).mp h)))]
      rw [outsAt6_A V c t ha hb]
      unfold leaves6A leavesA; (try dsimp only)
      by_cases hp : t.val = 0
      · rw [PhiS6_castSucc V c t, PhiS6_zero V c _ _ hp, PhiA6_eq]
        iintro ⟨⟨⟨Hs, Hr⟩, Hg⟩, Hw, ⟨%da, Ha⟩, ⟨%db, Hb⟩, ⟨%dc, Hc⟩, ⟨%dd, Hd⟩⟩
        iapply ((stepRunA c (grid6.coords t) _ (hs6_0 t) _ (hs6_1 t) _ (hs6_2 t) _ (hs6_3 t) _ (Memref.isWhole_whole _) ((hcondFirst t).mpr ha) (fun h => hb ((hcondLast t).mp h)) (iblk6 V c 0 t) (iblk6 V c 1 t) (iblk6 V c 2 t)).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
      · rw [PhiS6_castSucc V c t, PhiS6_pos V c _ _ hp]
        iintro ⟨⟨⟨Hs, Hr⟩, Hg⟩, Hw, ⟨%da, Ha⟩, ⟨%db, Hb⟩, ⟨%dc, Hc⟩, ⟨%dd, Hd⟩⟩
        iapply ((stepRunA c (grid6.coords t) _ (hs6_0 t) _ (hs6_1 t) _ (hs6_2 t) _ (hs6_3 t) _ (Memref.isWhole_whole _) ((hcondFirst t).mpr ha) (fun h => hb ((hcondLast t).mp h)) (iblk6 V c 0 t) (iblk6 V c 1 t) (iblk6 V c 2 t)).2.2 _ Set.univ _)
        isplitl [Ha]; · iexact Ha
        isplitl [Hb]; · iexact Hb
        isplitl [Hc]; · iexact Hc
        isplitl [Hd]; · iexact Hd
        isplitl [Hs]; · iexists _; iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
  · by_cases hb : t.val % 16 = 15
    · rw [show (dat6 V c).leavesExact 3 t = owns (c : Thread nD τ) (ms6_3 t) fullShare ((dat6 V c).after 3 t) from by
        unfold Dat.leavesExact; rw [liveAt6_3_C t (fun h => ha ((hcondFirst t).mp h)) ((hcondLast t).mpr hb)], after6_3]
      rw [outsAt6_C V c t ha hb]
      unfold leaves6C leavesC; (try dsimp only)
      by_cases hp : t.val = 0
      · exfalso; omega
      · rw [PhiS6_castSucc V c t, PhiS6_pos V c _ _ hp]
        iintro ⟨⟨⟨Hs, Hr⟩, Hg⟩, Hw, ⟨%da, Ha⟩, ⟨%db, Hb⟩, ⟨%dc, Hc⟩, ⟨%dd, Hd⟩⟩
        iapply ((stepRunC c (grid6.coords t) _ (hs6_0 t) _ (hs6_1 t) _ (hs6_2 t) _ (hs6_3 t) _ (Memref.isWhole_whole _) (fun h => ha ((hcondFirst t).mp h)) ((hcondLast t).mpr hb) (iblk6 V c 0 t) (iblk6 V c 1 t) (iblk6 V c 2 t) _).2.2 Set.univ _)
        isplitl [Ha]; · iexact Ha
        isplitl [Hb]; · iexact Hb
        isplitl [Hc]; · iexact Hc
        isplitl [Hd]; · iexists _; iexact Hd
        isplitl [Hs]; · iexact Hs
        iintro ⟨Ha, Hb, Hc, ⟨%ed, Hd⟩, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverC c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        unfold owns; iexists _; isplitr
        swap; · iexact Hd
        ipureintro; exact View.read_writes_of_cover _ _ _ _ _ (outCoverC c _ _ _ _ _ _ _ _ _ _ _ _ _ _ _ _ _)
    · rw [Dat.leavesExact_idle (dat6 V c) 3 t (idleAt6_3_B t (fun h => ha ((hcondFirst t).mp h)) (fun h => hb ((hcondLast t).mp h))) (noFlush6_3_B t (fun h => ha ((hcondFirst t).mp h)) (fun h => hb ((hcondLast t).mp h)))]
      rw [outsAt6_B V c t ha hb]
      unfold leaves6B leavesB; (try dsimp only)
      by_cases hp : t.val = 0
      · exfalso; omega
      · rw [PhiS6_castSucc V c t, PhiS6_pos V c _ _ hp]
        iintro ⟨⟨⟨Hs, Hr⟩, Hg⟩, Hw, ⟨%da, Ha⟩, ⟨%db, Hb⟩, ⟨%dc, Hc⟩, ⟨%dd, Hd⟩⟩
        iapply ((stepRunB c (grid6.coords t) _ (hs6_0 t) _ (hs6_1 t) _ (hs6_2 t) _ (hs6_3 t) _ (Memref.isWhole_whole _) (fun h => ha ((hcondFirst t).mp h)) (fun h => hb ((hcondLast t).mp h)) (iblk6 V c 0 t) (iblk6 V c 1 t) (iblk6 V c 2 t) _).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverB c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd

theorem body_obligation6 (c : Dev nD) : BodyObligation (dat6 (F := F) V c) (defs₀ (F := F)) Variants.none () Set.univ := fun t => by
  rw [bigSep_W6, bigSep_W6]
  exact sound_body6 V c t

theorem hin6 (c : Dev nD) : (Pipeline.ΦA spec6 c : sProp 𝕄) ⊢ (dat6 V c).Φ 0 := by
  rw [show (dat6 V c).Φ 0 = PhiS6 V c 0 (Nat.zero_le _) from rfl, PhiS6_zero V c 0 _ rfl]
  try exact Idealize.SL.BI.Entails.refl _

theorem Phi_out6 (c : Dev nD) (t : Fin (cfg6.N + 1)) (ht : t.val ≠ 0) : (dat6 V c).Φ t ⊢ (Pipeline.ΦA spec6 c : sProp 𝕄) := by
  rw [show (dat6 V c).Φ t = PhiS6 V c t.val (Nat.le_of_lt_succ t.isLt) from rfl, PhiS6_pos V c _ _ ht, PhiA6_eq]
  iintro ⟨⟨Hs, Hr⟩, Hg⟩
  isplitl [Hs Hr]
  · isplitl [Hs]
    · iexists _; iexact Hs
    iexact Hr
  iexact Hg

theorem hout6 (c : Dev nD) : (dat6 V c).Φ (Fin.last cfg6.N) ⊢ (Pipeline.ΦA spec6 c : sProp 𝕄) :=
  Phi_out6 V c _ (by rw [Fin.val_last]; have : cfg6.N = 128 := N_6; omega)

theorem share6 (c : Dev nD) (w : Fin cfg6.W) : (dat6 V c).q w = fullShare := by dsimp only [dat6]
theorem owed6 (c : Dev nD) (t) : (dat6 V c).owed t = 0 := by dsimp only [dat6]

end Cert.KernelIdeal.Fr

end
-- ==== Proof.KI.Ap7Runs.lean ====
/- (proof/Proof/KI/Ap1Runs.lean with region 7's names put for region 1's; nothing else changed) -/
import proofs.«109160_j26783416057954_1_alg».proof.Proof.KI.StepCases

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem liveAt7_0 : ∀ t : Fin cfg7.N, cfg7.idle 0 (grid7.coords t) = false := fun _ => rfl
theorem liveAt7_1 : ∀ t : Fin cfg7.N, cfg7.idle 1 (grid7.coords t) = false := fun _ => rfl
theorem liveAt7_2 : ∀ t : Fin cfg7.N, cfg7.idle 2 (grid7.coords t) = false := fun _ => rfl

theorem idleAt7_3_A : ∀ t : Fin cfg7.N, condFirst (grid7.coords t) → ¬condLast (grid7.coords t) → cfg7.idle 3 (grid7.coords t) = true := by decide +kernel
theorem noFlush7_3_A : ∀ t : Fin cfg7.N, condFirst (grid7.coords t) → ¬condLast (grid7.coords t) → (cfg7.win 3).flush t = false := by decide +kernel

theorem idleAt7_3_B : ∀ t : Fin cfg7.N, ¬condFirst (grid7.coords t) → ¬condLast (grid7.coords t) → cfg7.idle 3 (grid7.coords t) = true := by decide +kernel
theorem noFlush7_3_B : ∀ t : Fin cfg7.N, ¬condFirst (grid7.coords t) → ¬condLast (grid7.coords t) → (cfg7.win 3).flush t = false := by decide +kernel

theorem liveAt7_3_C : ∀ t : Fin cfg7.N, ¬condFirst (grid7.coords t) → condLast (grid7.coords t) → cfg7.idle 3 (grid7.coords t) = false := by decide +kernel

abbrev VO7_3 : View sig .tc .vmem S2048x64 .f32 := (Memref.whole cc7_stg3_0 : Memref sig .tc .vmem S2048x64 .f32).view

abbrev ms7_0 (t : Fin cfg7.N) : Memref sig .tc .vmem S2048x1024 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1024x64 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S2048x64 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S2048x64 .f32 := win7_3.stage (cfg7.slots t 3)
abbrev hs7_3 (t : Fin cfg7.N) : (ms7_3 t).IsWhole := hstage7_3 ((cfg7.slots t 3).cast nbuf7_3)

abbrev scM7_0 : Memref sig .tc .vmem S2048x64 .f32 := Memref.whole cc7_scratch0

abbrev VS7_0 : View sig .tc .vmem S2048x64 .f32 := scM7_0.view

theorem PhiA7_eq (c : Dev nD) :
    (Pipeline.ΦA spec7 c : sProp 𝕄)
      = iprop(iprop(iprop((∃ d, owns (c : Thread nD τ) scM7_0 fullShare d))
          ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7_0, owns_whole]; try rfl

end Cert.KernelIdeal.Fr

end
-- ==== Proof.KI.Ap7.lean ====
/- (proof/Proof/KI/Ap1.lean with region 7's names put for region 1's; nothing else changed) -/
import proofs.«109160_j26783416057954_1_alg».proof.Proof.KI.Ap7Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The three cases at point `t`, on the point's input blocks.
def leaves7A (c : Dev nD) (t : Fin cfg7.N) (ha : t.val % 16 = 0) (hb : ¬t.val % 16 = 15) : Vec F S2048x64 .f32 × Vec F S2048x64 .f32 :=
  leavesA VO7_3 VS7_0 c (grid7.coords t) (ms7_0 t) (hs7_0 t) (ms7_1 t) (hs7_1 t) (ms7_2 t) (hs7_2 t) (ms7_3 t) (hs7_3 t) scM7_0 (Memref.isWhole_whole _) ((hcondFirst t).mpr ha) (fun h => hb ((hcondLast t).mp h)) (iblk7 V c 0 t) (iblk7 V c 1 t) (iblk7 V c 2 t)
def leaves7B (c : Dev nD) (t : Fin cfg7.N) (ha : ¬t.val % 16 = 0) (hb : ¬t.val % 16 = 15) (xs : Vec F S2048x64 .f32) : Vec F S2048x64 .f32 × Vec F S2048x64 .f32 :=
  leavesB VO7_3 VS7_0 c (grid7.coords t) (ms7_0 t) (hs7_0 t) (ms7_1 t) (hs7_1 t) (ms7_2 t) (hs7_2 t) (ms7_3 t) (hs7_3 t) scM7_0 (Memref.isWhole_whole _) (fun h => ha ((hcondFirst t).mp h)) (fun h => hb ((hcondLast t).mp h)) (iblk7 V c 0 t) (iblk7 V c 1 t) (iblk7 V c 2 t) xs
def leaves7C (c : Dev nD) (t : Fin cfg7.N) (ha : ¬t.val % 16 = 0) (hb : t.val % 16 = 15) (xs : Vec F S2048x64 .f32) : Vec F S2048x64 .f32 × Vec F S2048x64 .f32 :=
  leavesC VO7_3 VS7_0 c (grid7.coords t) (ms7_0 t) (hs7_0 t) (ms7_1 t) (hs7_1 t) (ms7_2 t) (hs7_2 t) (ms7_3 t) (hs7_3 t) scM7_0 (Memref.isWhole_whole _) (fun h => ha ((hcondFirst t).mp h)) ((hcondLast t).mpr hb) (iblk7 V c 0 t) (iblk7 V c 1 t) (iblk7 V c 2 t) xs

-- The accumulation along a row block: the first column block resets, each later one adds to what the point before left.
def outsAt7 (c : Dev nD) : (n : ℕ) → n < cfg7.N → Vec F S2048x64 .f32 × Vec F S2048x64 .f32
  | 0, hn => leaves7A V c ⟨0, hn⟩ (Nat.zero_mod _) (by show ¬0 % 16 = 15; omega)
  | n + 1, hn =>
    if ha : (n + 1) % 16 = 0 then
      if hb : (n + 1) % 16 = 15 then False.elim (by omega) else leaves7A V c ⟨n + 1, hn⟩ ha hb
    else
      if hb : (n + 1) % 16 = 15 then leaves7C V c ⟨n + 1, hn⟩ ha hb (outsAt7 c n (Nat.lt_of_succ_lt hn)).2
      else leaves7B V c ⟨n + 1, hn⟩ ha hb (outsAt7 c n (Nat.lt_of_succ_lt hn)).2

theorem outsAt7_A (c : Dev nD) (t : Fin cfg7.N) (ha : t.val % 16 = 0) (hb : ¬t.val % 16 = 15) :
    outsAt7 V c t.val t.isLt = leaves7A V c t ha hb := by
  obtain ⟨n, hn⟩ := t
  cases n with
  | zero => exact rfl
  | succ n => exact (dif_pos ha).trans ((dif_neg hb).trans rfl)

theorem outsAt7_B (c : Dev nD) (t : Fin cfg7.N) (ha : ¬t.val % 16 = 0) (hb : ¬t.val % 16 = 15) :
    outsAt7 V c t.val t.isLt = leaves7B V c t ha hb (outsAt7 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_neg hb).trans rfl)

theorem outsAt7_C (c : Dev nD) (t : Fin cfg7.N) (ha : ¬t.val % 16 = 0) (hb : t.val % 16 = 15) :
    outsAt7 V c t.val t.isLt = leaves7C V c t ha hb (outsAt7 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_pos hb).trans rfl)

def PhiS7 (c : Dev nD) : (n : ℕ) → n ≤ cfg7.N → sProp 𝕄
  | 0, _ => Pipeline.ΦA spec7 c
  | n + 1, hn => iprop(iprop(owns (c : Thread nD τ) scM7_0 fullShare ((outsAt7 V c n hn).2) ∗ Pipeline.scopedRestBut (Ix := Unit) (Name := ℕ) (U := UR sig nD τ) (Lvl := ℕ) (Val := Elt F) spec7 c [cc7_scratch0]) ∗ (∃ r, prngReg c r))

theorem PhiS7_zero (c : Dev nD) (n : ℕ) (h : n ≤ cfg7.N) (hp : n = 0) : PhiS7 V c n h = Pipeline.ΦA spec7 c := by
  subst hp; rfl

theorem PhiS7_succ (c : Dev nD) (n : ℕ) (hn : n < cfg7.N) :
    PhiS7 V c (n + 1) hn = iprop(iprop(owns (c : Thread nD τ) scM7_0 fullShare ((outsAt7 V c n hn).2) ∗ Pipeline.scopedRestBut (Ix := Unit) (Name := ℕ) (U := UR sig nD τ) (Lvl := ℕ) (Val := Elt F) spec7 c [cc7_scratch0]) ∗ (∃ r, prngReg c r)) := rfl

theorem PhiS7_pos (c : Dev nD) (n : ℕ) (h : n ≤ cfg7.N) (hp : n ≠ 0) :
    PhiS7 V c n h = iprop(iprop(owns (c : Thread nD τ) scM7_0 fullShare ((outsAt7 V c (n - 1) (by omega)).2) ∗ Pipeline.scopedRestBut (Ix := Unit) (Name := ℕ) (U := UR sig nD τ) (Lvl := ℕ) (Val := Elt F) spec7 c [cc7_scratch0]) ∗ (∃ r, prngReg c r)) := by
  cases n with
  | zero => exact absurd rfl hp
  | succ n => rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => (outsAt7 V c t.val t.isLt).1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = (outsAt7 V c t.val t.isLt).1 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

set_option maxHeartbeats 4800000 in

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [show (dat7 V c).leavesExact 2 t = owns (c : Thread nD τ) (ms7_2 t) fullShare ((dat7 V c).after 2 t) from by
    unfold Dat.leavesExact; rw [liveAt7_2 t], after7_2]
  have hN : t.val < 128 := lt_of_lt_of_eq t.isLt (show cfg7.N = 128 from N_7)
  by_cases ha : t.val % 16 = 0
  · by_cases hb : t.val % 16 = 15
    · exfalso; omega
    · rw [Dat.leavesExact_idle (dat7 V c) 3 t (idleAt7_3_A t ((hcondFirst t).mpr ha) (fun h => hb ((hcondLast t).mp h))) (noFlush7_3_A t ((hcondFirst t).mpr ha) (fun h => hb ((hcondLast t).mp h)))]
      rw [outsAt7_A V c t ha hb]
      unfold leaves7A leavesA; (try dsimp only)
      by_cases hp : t.val = 0
      · rw [PhiS7_castSucc V c t, PhiS7_zero V c _ _ hp, PhiA7_eq]
        iintro ⟨⟨⟨Hs, Hr⟩, Hg⟩, Hw, ⟨%da, Ha⟩, ⟨%db, Hb⟩, ⟨%dc, Hc⟩, ⟨%dd, Hd⟩⟩
        iapply ((stepRunA c (grid7.coords t) _ (hs7_0 t) _ (hs7_1 t) _ (hs7_2 t) _ (hs7_3 t) _ (Memref.isWhole_whole _) ((hcondFirst t).mpr ha) (fun h => hb ((hcondLast t).mp h)) (iblk7 V c 0 t) (iblk7 V c 1 t) (iblk7 V c 2 t)).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
      · rw [PhiS7_castSucc V c t, PhiS7_pos V c _ _ hp]
        iintro ⟨⟨⟨Hs, Hr⟩, Hg⟩, Hw, ⟨%da, Ha⟩, ⟨%db, Hb⟩, ⟨%dc, Hc⟩, ⟨%dd, Hd⟩⟩
        iapply ((stepRunA c (grid7.coords t) _ (hs7_0 t) _ (hs7_1 t) _ (hs7_2 t) _ (hs7_3 t) _ (Memref.isWhole_whole _) ((hcondFirst t).mpr ha) (fun h => hb ((hcondLast t).mp h)) (iblk7 V c 0 t) (iblk7 V c 1 t) (iblk7 V c 2 t)).2.2 _ Set.univ _)
        isplitl [Ha]; · iexact Ha
        isplitl [Hb]; · iexact Hb
        isplitl [Hc]; · iexact Hc
        isplitl [Hd]; · iexact Hd
        isplitl [Hs]; · iexists _; iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
  · by_cases hb : t.val % 16 = 15
    · rw [show (dat7 V c).leavesExact 3 t = owns (c : Thread nD τ) (ms7_3 t) fullShare ((dat7 V c).after 3 t) from by
        unfold Dat.leavesExact; rw [liveAt7_3_C t (fun h => ha ((hcondFirst t).mp h)) ((hcondLast t).mpr hb)], after7_3]
      rw [outsAt7_C V c t ha hb]
      unfold leaves7C leavesC; (try dsimp only)
      by_cases hp : t.val = 0
      · exfalso; omega
      · rw [PhiS7_castSucc V c t, PhiS7_pos V c _ _ hp]
        iintro ⟨⟨⟨Hs, Hr⟩, Hg⟩, Hw, ⟨%da, Ha⟩, ⟨%db, Hb⟩, ⟨%dc, Hc⟩, ⟨%dd, Hd⟩⟩
        iapply ((stepRunC c (grid7.coords t) _ (hs7_0 t) _ (hs7_1 t) _ (hs7_2 t) _ (hs7_3 t) _ (Memref.isWhole_whole _) (fun h => ha ((hcondFirst t).mp h)) ((hcondLast t).mpr hb) (iblk7 V c 0 t) (iblk7 V c 1 t) (iblk7 V c 2 t) _).2.2 Set.univ _)
        isplitl [Ha]; · iexact Ha
        isplitl [Hb]; · iexact Hb
        isplitl [Hc]; · iexact Hc
        isplitl [Hd]; · iexists _; iexact Hd
        isplitl [Hs]; · iexact Hs
        iintro ⟨Ha, Hb, Hc, ⟨%ed, Hd⟩, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverC c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        unfold owns; iexists _; isplitr
        swap; · iexact Hd
        ipureintro; exact View.read_writes_of_cover _ _ _ _ _ (outCoverC c _ _ _ _ _ _ _ _ _ _ _ _ _ _ _ _ _)
    · rw [Dat.leavesExact_idle (dat7 V c) 3 t (idleAt7_3_B t (fun h => ha ((hcondFirst t).mp h)) (fun h => hb ((hcondLast t).mp h))) (noFlush7_3_B t (fun h => ha ((hcondFirst t).mp h)) (fun h => hb ((hcondLast t).mp h)))]
      rw [outsAt7_B V c t ha hb]
      unfold leaves7B leavesB; (try dsimp only)
      by_cases hp : t.val = 0
      · exfalso; omega
      · rw [PhiS7_castSucc V c t, PhiS7_pos V c _ _ hp]
        iintro ⟨⟨⟨Hs, Hr⟩, Hg⟩, Hw, ⟨%da, Ha⟩, ⟨%db, Hb⟩, ⟨%dc, Hc⟩, ⟨%dd, Hd⟩⟩
        iapply ((stepRunB c (grid7.coords t) _ (hs7_0 t) _ (hs7_1 t) _ (hs7_2 t) _ (hs7_3 t) _ (Memref.isWhole_whole _) (fun h => ha ((hcondFirst t).mp h)) (fun h => hb ((hcondLast t).mp h)) (iblk7 V c 0 t) (iblk7 V c 1 t) (iblk7 V c 2 t) _).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverB c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd

theorem body_obligation7 (c : Dev nD) : BodyObligation (dat7 (F := F) V c) (defs₀ (F := F)) Variants.none () Set.univ := fun t => by
  rw [bigSep_W7, bigSep_W7]
  exact sound_body7 V c t

theorem hin7 (c : Dev nD) : (Pipeline.ΦA spec7 c : sProp 𝕄) ⊢ (dat7 V c).Φ 0 := by
  rw [show (dat7 V c).Φ 0 = PhiS7 V c 0 (Nat.zero_le _) from rfl, PhiS7_zero V c 0 _ rfl]
  try exact Idealize.SL.BI.Entails.refl _

theorem Phi_out7 (c : Dev nD) (t : Fin (cfg7.N + 1)) (ht : t.val ≠ 0) : (dat7 V c).Φ t ⊢ (Pipeline.ΦA spec7 c : sProp 𝕄) := by
  rw [show (dat7 V c).Φ t = PhiS7 V c t.val (Nat.le_of_lt_succ t.isLt) from rfl, PhiS7_pos V c _ _ ht, PhiA7_eq]
  iintro ⟨⟨Hs, Hr⟩, Hg⟩
  isplitl [Hs Hr]
  · isplitl [Hs]
    · iexists _; iexact Hs
    iexact Hr
  iexact Hg

theorem hout7 (c : Dev nD) : (dat7 V c).Φ (Fin.last cfg7.N) ⊢ (Pipeline.ΦA spec7 c : sProp 𝕄) :=
  Phi_out7 V c _ (by rw [Fin.val_last]; have : cfg7.N = 128 := N_7; omega)

theorem share7 (c : Dev nD) (w : Fin cfg7.W) : (dat7 V c).q w = fullShare := by dsimp only [dat7]
theorem owed7 (c : Dev nD) (t) : (dat7 V c).owed t = 0 := by dsimp only [dat7]

end Cert.KernelIdeal.Fr

end
-- ==== Proof.KI.Ap8Runs.lean ====
/- (proof/Proof/KI/Ap1Runs.lean with region 8's names put for region 1's; nothing else changed) -/
import proofs.«109160_j26783416057954_1_alg».proof.Proof.KI.StepCases

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem liveAt8_0 : ∀ t : Fin cfg8.N, cfg8.idle 0 (grid8.coords t) = false := fun _ => rfl
theorem liveAt8_1 : ∀ t : Fin cfg8.N, cfg8.idle 1 (grid8.coords t) = false := fun _ => rfl
theorem liveAt8_2 : ∀ t : Fin cfg8.N, cfg8.idle 2 (grid8.coords t) = false := fun _ => rfl

theorem idleAt8_3_A : ∀ t : Fin cfg8.N, condFirst (grid8.coords t) → ¬condLast (grid8.coords t) → cfg8.idle 3 (grid8.coords t) = true := by decide +kernel
theorem noFlush8_3_A : ∀ t : Fin cfg8.N, condFirst (grid8.coords t) → ¬condLast (grid8.coords t) → (cfg8.win 3).flush t = false := by decide +kernel

theorem idleAt8_3_B : ∀ t : Fin cfg8.N, ¬condFirst (grid8.coords t) → ¬condLast (grid8.coords t) → cfg8.idle 3 (grid8.coords t) = true := by decide +kernel
theorem noFlush8_3_B : ∀ t : Fin cfg8.N, ¬condFirst (grid8.coords t) → ¬condLast (grid8.coords t) → (cfg8.win 3).flush t = false := by decide +kernel

theorem liveAt8_3_C : ∀ t : Fin cfg8.N, ¬condFirst (grid8.coords t) → condLast (grid8.coords t) → cfg8.idle 3 (grid8.coords t) = false := by decide +kernel

abbrev VO8_3 : View sig .tc .vmem S2048x64 .f32 := (Memref.whole cc8_stg3_0 : Memref sig .tc .vmem S2048x64 .f32).view

abbrev ms8_0 (t : Fin cfg8.N) : Memref sig .tc .vmem S2048x1024 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S1024x64 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S2048x64 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S2048x64 .f32 := win8_3.stage (cfg8.slots t 3)
abbrev hs8_3 (t : Fin cfg8.N) : (ms8_3 t).IsWhole := hstage8_3 ((cfg8.slots t 3).cast nbuf8_3)

abbrev scM8_0 : Memref sig .tc .vmem S2048x64 .f32 := Memref.whole cc8_scratch0

abbrev VS8_0 : View sig .tc .vmem S2048x64 .f32 := scM8_0.view

theorem PhiA8_eq (c : Dev nD) :
    (Pipeline.ΦA spec8 c : sProp 𝕄)
      = iprop(iprop(iprop((∃ d, owns (c : Thread nD τ) scM8_0 fullShare d))
          ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM8_0, owns_whole]; try rfl

end Cert.KernelIdeal.Fr

end
-- ==== Proof.KI.Ap8.lean ====
/- (proof/Proof/KI/Ap1.lean with region 8's names put for region 1's; nothing else changed) -/
import proofs.«109160_j26783416057954_1_alg».proof.Proof.KI.Ap8Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The three cases at point `t`, on the point's input blocks.
def leaves8A (c : Dev nD) (t : Fin cfg8.N) (ha : t.val % 16 = 0) (hb : ¬t.val % 16 = 15) : Vec F S2048x64 .f32 × Vec F S2048x64 .f32 :=
  leavesA VO8_3 VS8_0 c (grid8.coords t) (ms8_0 t) (hs8_0 t) (ms8_1 t) (hs8_1 t) (ms8_2 t) (hs8_2 t) (ms8_3 t) (hs8_3 t) scM8_0 (Memref.isWhole_whole _) ((hcondFirst t).mpr ha) (fun h => hb ((hcondLast t).mp h)) (iblk8 V c 0 t) (iblk8 V c 1 t) (iblk8 V c 2 t)
def leaves8B (c : Dev nD) (t : Fin cfg8.N) (ha : ¬t.val % 16 = 0) (hb : ¬t.val % 16 = 15) (xs : Vec F S2048x64 .f32) : Vec F S2048x64 .f32 × Vec F S2048x64 .f32 :=
  leavesB VO8_3 VS8_0 c (grid8.coords t) (ms8_0 t) (hs8_0 t) (ms8_1 t) (hs8_1 t) (ms8_2 t) (hs8_2 t) (ms8_3 t) (hs8_3 t) scM8_0 (Memref.isWhole_whole _) (fun h => ha ((hcondFirst t).mp h)) (fun h => hb ((hcondLast t).mp h)) (iblk8 V c 0 t) (iblk8 V c 1 t) (iblk8 V c 2 t) xs
def leaves8C (c : Dev nD) (t : Fin cfg8.N) (ha : ¬t.val % 16 = 0) (hb : t.val % 16 = 15) (xs : Vec F S2048x64 .f32) : Vec F S2048x64 .f32 × Vec F S2048x64 .f32 :=
  leavesC VO8_3 VS8_0 c (grid8.coords t) (ms8_0 t) (hs8_0 t) (ms8_1 t) (hs8_1 t) (ms8_2 t) (hs8_2 t) (ms8_3 t) (hs8_3 t) scM8_0 (Memref.isWhole_whole _) (fun h => ha ((hcondFirst t).mp h)) ((hcondLast t).mpr hb) (iblk8 V c 0 t) (iblk8 V c 1 t) (iblk8 V c 2 t) xs

-- The accumulation along a row block: the first column block resets, each later one adds to what the point before left.
def outsAt8 (c : Dev nD) : (n : ℕ) → n < cfg8.N → Vec F S2048x64 .f32 × Vec F S2048x64 .f32
  | 0, hn => leaves8A V c ⟨0, hn⟩ (Nat.zero_mod _) (by show ¬0 % 16 = 15; omega)
  | n + 1, hn =>
    if ha : (n + 1) % 16 = 0 then
      if hb : (n + 1) % 16 = 15 then False.elim (by omega) else leaves8A V c ⟨n + 1, hn⟩ ha hb
    else
      if hb : (n + 1) % 16 = 15 then leaves8C V c ⟨n + 1, hn⟩ ha hb (outsAt8 c n (Nat.lt_of_succ_lt hn)).2
      else leaves8B V c ⟨n + 1, hn⟩ ha hb (outsAt8 c n (Nat.lt_of_succ_lt hn)).2

theorem outsAt8_A (c : Dev nD) (t : Fin cfg8.N) (ha : t.val % 16 = 0) (hb : ¬t.val % 16 = 15) :
    outsAt8 V c t.val t.isLt = leaves8A V c t ha hb := by
  obtain ⟨n, hn⟩ := t
  cases n with
  | zero => exact rfl
  | succ n => exact (dif_pos ha).trans ((dif_neg hb).trans rfl)

theorem outsAt8_B (c : Dev nD) (t : Fin cfg8.N) (ha : ¬t.val % 16 = 0) (hb : ¬t.val % 16 = 15) :
    outsAt8 V c t.val t.isLt = leaves8B V c t ha hb (outsAt8 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_neg hb).trans rfl)

theorem outsAt8_C (c : Dev nD) (t : Fin cfg8.N) (ha : ¬t.val % 16 = 0) (hb : t.val % 16 = 15) :
    outsAt8 V c t.val t.isLt = leaves8C V c t ha hb (outsAt8 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_pos hb).trans rfl)

def PhiS8 (c : Dev nD) : (n : ℕ) → n ≤ cfg8.N → sProp 𝕄
  | 0, _ => Pipeline.ΦA spec8 c
  | n + 1, hn => iprop(iprop(owns (c : Thread nD τ) scM8_0 fullShare ((outsAt8 V c n hn).2) ∗ Pipeline.scopedRestBut (Ix := Unit) (Name := ℕ) (U := UR sig nD τ) (Lvl := ℕ) (Val := Elt F) spec8 c [cc8_scratch0]) ∗ (∃ r, prngReg c r))

theorem PhiS8_zero (c : Dev nD) (n : ℕ) (h : n ≤ cfg8.N) (hp : n = 0) : PhiS8 V c n h = Pipeline.ΦA spec8 c := by
  subst hp; rfl

theorem PhiS8_succ (c : Dev nD) (n : ℕ) (hn : n < cfg8.N) :
    PhiS8 V c (n + 1) hn = iprop(iprop(owns (c : Thread nD τ) scM8_0 fullShare ((outsAt8 V c n hn).2) ∗ Pipeline.scopedRestBut (Ix := Unit) (Name := ℕ) (U := UR sig nD τ) (Lvl := ℕ) (Val := Elt F) spec8 c [cc8_scratch0]) ∗ (∃ r, prngReg c r)) := rfl

theorem PhiS8_pos (c : Dev nD) (n : ℕ) (h : n ≤ cfg8.N) (hp : n ≠ 0) :
    PhiS8 V c n h = iprop(iprop(owns (c : Thread nD τ) scM8_0 fullShare ((outsAt8 V c (n - 1) (by omega)).2) ∗ Pipeline.scopedRestBut (Ix := Unit) (Name := ℕ) (U := UR sig nD τ) (Lvl := ℕ) (Val := Elt F) spec8 c [cc8_scratch0]) ∗ (∃ r, prngReg c r)) := by
  cases n with
  | zero => exact absurd rfl hp
  | succ n => rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => (outsAt8 V c t.val t.isLt).1
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem PhiS8_castSucc (c : Dev nD) (t : Fin cfg8.N) :
    (dat8 V c).Φ t.castSucc = PhiS8 V c t.val (Nat.le_of_lt t.isLt) := by
  dsimp only [dat8]; simp only [Fin.coe_castSucc]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = (outsAt8 V c t.val t.isLt).1 := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t)

set_option maxHeartbeats 4800000 in

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).owesAt () t.succ = (dat8 V c).owesAt () t.castSucc from rfl]
  rw [show (dat8 V c).Φ t.succ = PhiS8 V c (t.val + 1) t.isLt from rfl, PhiS8_succ]
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  rw [show (dat8 V c).leavesExact 2 t = owns (c : Thread nD τ) (ms8_2 t) fullShare ((dat8 V c).after 2 t) from by
    unfold Dat.leavesExact; rw [liveAt8_2 t], after8_2]
  have hN : t.val < 128 := lt_of_lt_of_eq t.isLt (show cfg8.N = 128 from N_8)
  by_cases ha : t.val % 16 = 0
  · by_cases hb : t.val % 16 = 15
    · exfalso; omega
    · rw [Dat.leavesExact_idle (dat8 V c) 3 t (idleAt8_3_A t ((hcondFirst t).mpr ha) (fun h => hb ((hcondLast t).mp h))) (noFlush8_3_A t ((hcondFirst t).mpr ha) (fun h => hb ((hcondLast t).mp h)))]
      rw [outsAt8_A V c t ha hb]
      unfold leaves8A leavesA; (try dsimp only)
      by_cases hp : t.val = 0
      · rw [PhiS8_castSucc V c t, PhiS8_zero V c _ _ hp, PhiA8_eq]
        iintro ⟨⟨⟨Hs, Hr⟩, Hg⟩, Hw, ⟨%da, Ha⟩, ⟨%db, Hb⟩, ⟨%dc, Hc⟩, ⟨%dd, Hd⟩⟩
        iapply ((stepRunA c (grid8.coords t) _ (hs8_0 t) _ (hs8_1 t) _ (hs8_2 t) _ (hs8_3 t) _ (Memref.isWhole_whole _) ((hcondFirst t).mpr ha) (fun h => hb ((hcondLast t).mp h)) (iblk8 V c 0 t) (iblk8 V c 1 t) (iblk8 V c 2 t)).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
      · rw [PhiS8_castSucc V c t, PhiS8_pos V c _ _ hp]
        iintro ⟨⟨⟨Hs, Hr⟩, Hg⟩, Hw, ⟨%da, Ha⟩, ⟨%db, Hb⟩, ⟨%dc, Hc⟩, ⟨%dd, Hd⟩⟩
        iapply ((stepRunA c (grid8.coords t) _ (hs8_0 t) _ (hs8_1 t) _ (hs8_2 t) _ (hs8_3 t) _ (Memref.isWhole_whole _) ((hcondFirst t).mpr ha) (fun h => hb ((hcondLast t).mp h)) (iblk8 V c 0 t) (iblk8 V c 1 t) (iblk8 V c 2 t)).2.2 _ Set.univ _)
        isplitl [Ha]; · iexact Ha
        isplitl [Hb]; · iexact Hb
        isplitl [Hc]; · iexact Hc
        isplitl [Hd]; · iexact Hd
        isplitl [Hs]; · iexists _; iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
  · by_cases hb : t.val % 16 = 15
    · rw [show (dat8 V c).leavesExact 3 t = owns (c : Thread nD τ) (ms8_3 t) fullShare ((dat8 V c).after 3 t) from by
        unfold Dat.leavesExact; rw [liveAt8_3_C t (fun h => ha ((hcondFirst t).mp h)) ((hcondLast t).mpr hb)], after8_3]
      rw [outsAt8_C V c t ha hb]
      unfold leaves8C leavesC; (try dsimp only)
      by_cases hp : t.val = 0
      · exfalso; omega
      · rw [PhiS8_castSucc V c t, PhiS8_pos V c _ _ hp]
        iintro ⟨⟨⟨Hs, Hr⟩, Hg⟩, Hw, ⟨%da, Ha⟩, ⟨%db, Hb⟩, ⟨%dc, Hc⟩, ⟨%dd, Hd⟩⟩
        iapply ((stepRunC c (grid8.coords t) _ (hs8_0 t) _ (hs8_1 t) _ (hs8_2 t) _ (hs8_3 t) _ (Memref.isWhole_whole _) (fun h => ha ((hcondFirst t).mp h)) ((hcondLast t).mpr hb) (iblk8 V c 0 t) (iblk8 V c 1 t) (iblk8 V c 2 t) _).2.2 Set.univ _)
        isplitl [Ha]; · iexact Ha
        isplitl [Hb]; · iexact Hb
        isplitl [Hc]; · iexact Hc
        isplitl [Hd]; · iexists _; iexact Hd
        isplitl [Hs]; · iexact Hs
        iintro ⟨Ha, Hb, Hc, ⟨%ed, Hd⟩, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverC c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        unfold owns; iexists _; isplitr
        swap; · iexact Hd
        ipureintro; exact View.read_writes_of_cover _ _ _ _ _ (outCoverC c _ _ _ _ _ _ _ _ _ _ _ _ _ _ _ _ _)
    · rw [Dat.leavesExact_idle (dat8 V c) 3 t (idleAt8_3_B t (fun h => ha ((hcondFirst t).mp h)) (fun h => hb ((hcondLast t).mp h))) (noFlush8_3_B t (fun h => ha ((hcondFirst t).mp h)) (fun h => hb ((hcondLast t).mp h)))]
      rw [outsAt8_B V c t ha hb]
      unfold leaves8B leavesB; (try dsimp only)
      by_cases hp : t.val = 0
      · exfalso; omega
      · rw [PhiS8_castSucc V c t, PhiS8_pos V c _ _ hp]
        iintro ⟨⟨⟨Hs, Hr⟩, Hg⟩, Hw, ⟨%da, Ha⟩, ⟨%db, Hb⟩, ⟨%dc, Hc⟩, ⟨%dd, Hd⟩⟩
        iapply ((stepRunB c (grid8.coords t) _ (hs8_0 t) _ (hs8_1 t) _ (hs8_2 t) _ (hs8_3 t) _ (Memref.isWhole_whole _) (fun h => ha ((hcondFirst t).mp h)) (fun h => hb ((hcondLast t).mp h)) (iblk8 V c 0 t) (iblk8 V c 1 t) (iblk8 V c 2 t) _).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverB c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd

theorem body_obligation8 (c : Dev nD) : BodyObligation (dat8 (F := F) V c) (defs₀ (F := F)) Variants.none () Set.univ := fun t => by
  rw [bigSep_W8, bigSep_W8]
  exact sound_body8 V c t

theorem hin8 (c : Dev nD) : (Pipeline.ΦA spec8 c : sProp 𝕄) ⊢ (dat8 V c).Φ 0 := by
  rw [show (dat8 V c).Φ 0 = PhiS8 V c 0 (Nat.zero_le _) from rfl, PhiS8_zero V c 0 _ rfl]
  try exact Idealize.SL.BI.Entails.refl _

theorem Phi_out8 (c : Dev nD) (t : Fin (cfg8.N + 1)) (ht : t.val ≠ 0) : (dat8 V c).Φ t ⊢ (Pipeline.ΦA spec8 c : sProp 𝕄) := by
  rw [show (dat8 V c).Φ t = PhiS8 V c t.val (Nat.le_of_lt_succ t.isLt) from rfl, PhiS8_pos V c _ _ ht, PhiA8_eq]
  iintro ⟨⟨Hs, Hr⟩, Hg⟩
  isplitl [Hs Hr]
  · isplitl [Hs]
    · iexists _; iexact Hs
    iexact Hr
  iexact Hg

theorem hout8 (c : Dev nD) : (dat8 V c).Φ (Fin.last cfg8.N) ⊢ (Pipeline.ΦA spec8 c : sProp 𝕄) :=
  Phi_out8 V c _ (by rw [Fin.val_last]; have : cfg8.N = 128 := N_8; omega)

theorem share8 (c : Dev nD) (w : Fin cfg8.W) : (dat8 V c).q w = fullShare := by dsimp only [dat8]
theorem owed8 (c : Dev nD) (t) : (dat8 V c).owed t = 0 := by dsimp only [dat8]

end Cert.KernelIdeal.Fr

end
-- ==== Proof.KI.Ap9Runs.lean ====
/- (proof/Proof/KI/Ap1Runs.lean with region 9's names put for region 1's; nothing else changed) -/
import proofs.«109160_j26783416057954_1_alg».proof.Proof.KI.StepCases

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

theorem liveAt9_0 : ∀ t : Fin cfg9.N, cfg9.idle 0 (grid9.coords t) = false := fun _ => rfl
theorem liveAt9_1 : ∀ t : Fin cfg9.N, cfg9.idle 1 (grid9.coords t) = false := fun _ => rfl
theorem liveAt9_2 : ∀ t : Fin cfg9.N, cfg9.idle 2 (grid9.coords t) = false := fun _ => rfl

theorem idleAt9_3_A : ∀ t : Fin cfg9.N, condFirst (grid9.coords t) → ¬condLast (grid9.coords t) → cfg9.idle 3 (grid9.coords t) = true := by decide +kernel
theorem noFlush9_3_A : ∀ t : Fin cfg9.N, condFirst (grid9.coords t) → ¬condLast (grid9.coords t) → (cfg9.win 3).flush t = false := by decide +kernel

theorem idleAt9_3_B : ∀ t : Fin cfg9.N, ¬condFirst (grid9.coords t) → ¬condLast (grid9.coords t) → cfg9.idle 3 (grid9.coords t) = true := by decide +kernel
theorem noFlush9_3_B : ∀ t : Fin cfg9.N, ¬condFirst (grid9.coords t) → ¬condLast (grid9.coords t) → (cfg9.win 3).flush t = false := by decide +kernel

theorem liveAt9_3_C : ∀ t : Fin cfg9.N, ¬condFirst (grid9.coords t) → condLast (grid9.coords t) → cfg9.idle 3 (grid9.coords t) = false := by decide +kernel

abbrev VO9_3 : View sig .tc .vmem S2048x64 .f32 := (Memref.whole cc9_stg3_0 : Memref sig .tc .vmem S2048x64 .f32).view

abbrev ms9_0 (t : Fin cfg9.N) : Memref sig .tc .vmem S2048x1024 .f32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S1024x64 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S2048x64 .f32 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S2048x64 .f32 := win9_3.stage (cfg9.slots t 3)
abbrev hs9_3 (t : Fin cfg9.N) : (ms9_3 t).IsWhole := hstage9_3 ((cfg9.slots t 3).cast nbuf9_3)

abbrev scM9_0 : Memref sig .tc .vmem S2048x64 .f32 := Memref.whole cc9_scratch0

abbrev VS9_0 : View sig .tc .vmem S2048x64 .f32 := scM9_0.view

theorem PhiA9_eq (c : Dev nD) :
    (Pipeline.ΦA spec9 c : sProp 𝕄)
      = iprop(iprop(iprop((∃ d, owns (c : Thread nD τ) scM9_0 fullShare d))
          ∗ Pipeline.scopedRestBut (Ix := Unit) (Name := ℕ) (U := UR sig nD τ) (Lvl := ℕ) (Val := Elt F) spec9 c [cc9_scratch0]) ∗ (∃ r, prngReg c r)) := by
  unfold Pipeline.ΦA; rw [scopedRest9_split]; simp only [scM9_0, owns_whole]; try rfl

end Cert.KernelIdeal.Fr

end
-- ==== Proof.KI.Ap9.lean ====
/- (proof/Proof/KI/Ap1.lean with region 9's names put for region 1's; nothing else changed) -/
import proofs.«109160_j26783416057954_1_alg».proof.Proof.KI.Ap9Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The three cases at point `t`, on the point's input blocks.
def leaves9A (c : Dev nD) (t : Fin cfg9.N) (ha : t.val % 16 = 0) (hb : ¬t.val % 16 = 15) : Vec F S2048x64 .f32 × Vec F S2048x64 .f32 :=
  leavesA VO9_3 VS9_0 c (grid9.coords t) (ms9_0 t) (hs9_0 t) (ms9_1 t) (hs9_1 t) (ms9_2 t) (hs9_2 t) (ms9_3 t) (hs9_3 t) scM9_0 (Memref.isWhole_whole _) ((hcondFirst t).mpr ha) (fun h => hb ((hcondLast t).mp h)) (iblk9 V c 0 t) (iblk9 V c 1 t) (iblk9 V c 2 t)
def leaves9B (c : Dev nD) (t : Fin cfg9.N) (ha : ¬t.val % 16 = 0) (hb : ¬t.val % 16 = 15) (xs : Vec F S2048x64 .f32) : Vec F S2048x64 .f32 × Vec F S2048x64 .f32 :=
  leavesB VO9_3 VS9_0 c (grid9.coords t) (ms9_0 t) (hs9_0 t) (ms9_1 t) (hs9_1 t) (ms9_2 t) (hs9_2 t) (ms9_3 t) (hs9_3 t) scM9_0 (Memref.isWhole_whole _) (fun h => ha ((hcondFirst t).mp h)) (fun h => hb ((hcondLast t).mp h)) (iblk9 V c 0 t) (iblk9 V c 1 t) (iblk9 V c 2 t) xs
def leaves9C (c : Dev nD) (t : Fin cfg9.N) (ha : ¬t.val % 16 = 0) (hb : t.val % 16 = 15) (xs : Vec F S2048x64 .f32) : Vec F S2048x64 .f32 × Vec F S2048x64 .f32 :=
  leavesC VO9_3 VS9_0 c (grid9.coords t) (ms9_0 t) (hs9_0 t) (ms9_1 t) (hs9_1 t) (ms9_2 t) (hs9_2 t) (ms9_3 t) (hs9_3 t) scM9_0 (Memref.isWhole_whole _) (fun h => ha ((hcondFirst t).mp h)) ((hcondLast t).mpr hb) (iblk9 V c 0 t) (iblk9 V c 1 t) (iblk9 V c 2 t) xs

-- The accumulation along a row block: the first column block resets, each later one adds to what the point before left.
def outsAt9 (c : Dev nD) : (n : ℕ) → n < cfg9.N → Vec F S2048x64 .f32 × Vec F S2048x64 .f32
  | 0, hn => leaves9A V c ⟨0, hn⟩ (Nat.zero_mod _) (by show ¬0 % 16 = 15; omega)
  | n + 1, hn =>
    if ha : (n + 1) % 16 = 0 then
      if hb : (n + 1) % 16 = 15 then False.elim (by omega) else leaves9A V c ⟨n + 1, hn⟩ ha hb
    else
      if hb : (n + 1) % 16 = 15 then leaves9C V c ⟨n + 1, hn⟩ ha hb (outsAt9 c n (Nat.lt_of_succ_lt hn)).2
      else leaves9B V c ⟨n + 1, hn⟩ ha hb (outsAt9 c n (Nat.lt_of_succ_lt hn)).2

theorem outsAt9_A (c : Dev nD) (t : Fin cfg9.N) (ha : t.val % 16 = 0) (hb : ¬t.val % 16 = 15) :
    outsAt9 V c t.val t.isLt = leaves9A V c t ha hb := by
  obtain ⟨n, hn⟩ := t
  cases n with
  | zero => exact rfl
  | succ n => exact (dif_pos ha).trans ((dif_neg hb).trans rfl)

theorem outsAt9_B (c : Dev nD) (t : Fin cfg9.N) (ha : ¬t.val % 16 = 0) (hb : ¬t.val % 16 = 15) :
    outsAt9 V c t.val t.isLt = leaves9B V c t ha hb (outsAt9 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_neg hb).trans rfl)

theorem outsAt9_C (c : Dev nD) (t : Fin cfg9.N) (ha : ¬t.val % 16 = 0) (hb : t.val % 16 = 15) :
    outsAt9 V c t.val t.isLt = leaves9C V c t ha hb (outsAt9 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_pos hb).trans rfl)

def PhiS9 (c : Dev nD) : (n : ℕ) → n ≤ cfg9.N → sProp 𝕄
  | 0, _ => Pipeline.ΦA spec9 c
  | n + 1, hn => iprop(iprop(owns (c : Thread nD τ) scM9_0 fullShare ((outsAt9 V c n hn).2) ∗ Pipeline.scopedRestBut (Ix := Unit) (Name := ℕ) (U := UR sig nD τ) (Lvl := ℕ) (Val := Elt F) spec9 c [cc9_scratch0]) ∗ (∃ r, prngReg c r))

theorem PhiS9_zero (c : Dev nD) (n : ℕ) (h : n ≤ cfg9.N) (hp : n = 0) : PhiS9 V c n h = Pipeline.ΦA spec9 c := by
  subst hp; rfl

theorem PhiS9_succ (c : Dev nD) (n : ℕ) (hn : n < cfg9.N) :
    PhiS9 V c (n + 1) hn = iprop(iprop(owns (c : Thread nD τ) scM9_0 fullShare ((outsAt9 V c n hn).2) ∗ Pipeline.scopedRestBut (Ix := Unit) (Name := ℕ) (U := UR sig nD τ) (Lvl := ℕ) (Val := Elt F) spec9 c [cc9_scratch0]) ∗ (∃ r, prngReg c r)) := rfl

theorem PhiS9_pos (c : Dev nD) (n : ℕ) (h : n ≤ cfg9.N) (hp : n ≠ 0) :
    PhiS9 V c n h = iprop(iprop(owns (c : Thread nD τ) scM9_0 fullShare ((outsAt9 V c (n - 1) (by omega)).2) ∗ Pipeline.scopedRestBut (Ix := Unit) (Name := ℕ) (U := UR sig nD τ) (Lvl := ℕ) (Val := Elt F) spec9 c [cc9_scratch0]) ∗ (∃ r, prngReg c r)) := by
  cases n with
  | zero => exact absurd rfl hp
  | succ n => rfl

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => (outsAt9 V c t.val t.isLt).1
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]

theorem PhiS9_castSucc (c : Dev nD) (t : Fin cfg9.N) :
    (dat9 V c).Φ t.castSucc = PhiS9 V c t.val (Nat.le_of_lt t.isLt) := by
  dsimp only [dat9]; simp only [Fin.coe_castSucc]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = (outsAt9 V c t.val t.isLt).1 := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d)))

def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t)

set_option maxHeartbeats 4800000 in

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).owesAt () t.succ = (dat9 V c).owesAt () t.castSucc from rfl]
  rw [show (dat9 V c).Φ t.succ = PhiS9 V c (t.val + 1) t.isLt from rfl, PhiS9_succ]
  rw [show (dat9 V c).leavesExact 0 t = owns (c : Thread nD τ) (ms9_0 t) fullShare ((dat9 V c).after 0 t) from by
    unfold Dat.leavesExact; rw [liveAt9_0 t], after9_0]
  rw [show (dat9 V c).leavesExact 1 t = owns (c : Thread nD τ) (ms9_1 t) fullShare ((dat9 V c).after 1 t) from by
    unfold Dat.leavesExact; rw [liveAt9_1 t], after9_1]
  rw [show (dat9 V c).leavesExact 2 t = owns (c : Thread nD τ) (ms9_2 t) fullShare ((dat9 V c).after 2 t) from by
    unfold Dat.leavesExact; rw [liveAt9_2 t], after9_2]
  have hN : t.val < 128 := lt_of_lt_of_eq t.isLt (show cfg9.N = 128 from N_9)
  by_cases ha : t.val % 16 = 0
  · by_cases hb : t.val % 16 = 15
    · exfalso; omega
    · rw [Dat.leavesExact_idle (dat9 V c) 3 t (idleAt9_3_A t ((hcondFirst t).mpr ha) (fun h => hb ((hcondLast t).mp h))) (noFlush9_3_A t ((hcondFirst t).mpr ha) (fun h => hb ((hcondLast t).mp h)))]
      rw [outsAt9_A V c t ha hb]
      unfold leaves9A leavesA; (try dsimp only)
      by_cases hp : t.val = 0
      · rw [PhiS9_castSucc V c t, PhiS9_zero V c _ _ hp, PhiA9_eq]
        iintro ⟨⟨⟨Hs, Hr⟩, Hg⟩, Hw, ⟨%da, Ha⟩, ⟨%db, Hb⟩, ⟨%dc, Hc⟩, ⟨%dd, Hd⟩⟩
        iapply ((stepRunA c (grid9.coords t) _ (hs9_0 t) _ (hs9_1 t) _ (hs9_2 t) _ (hs9_3 t) _ (Memref.isWhole_whole _) ((hcondFirst t).mpr ha) (fun h => hb ((hcondLast t).mp h)) (iblk9 V c 0 t) (iblk9 V c 1 t) (iblk9 V c 2 t)).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
      · rw [PhiS9_castSucc V c t, PhiS9_pos V c _ _ hp]
        iintro ⟨⟨⟨Hs, Hr⟩, Hg⟩, Hw, ⟨%da, Ha⟩, ⟨%db, Hb⟩, ⟨%dc, Hc⟩, ⟨%dd, Hd⟩⟩
        iapply ((stepRunA c (grid9.coords t) _ (hs9_0 t) _ (hs9_1 t) _ (hs9_2 t) _ (hs9_3 t) _ (Memref.isWhole_whole _) ((hcondFirst t).mpr ha) (fun h => hb ((hcondLast t).mp h)) (iblk9 V c 0 t) (iblk9 V c 1 t) (iblk9 V c 2 t)).2.2 _ Set.univ _)
        isplitl [Ha]; · iexact Ha
        isplitl [Hb]; · iexact Hb
        isplitl [Hc]; · iexact Hc
        isplitl [Hd]; · iexact Hd
        isplitl [Hs]; · iexists _; iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
  · by_cases hb : t.val % 16 = 15
    · rw [show (dat9 V c).leavesExact 3 t = owns (c : Thread nD τ) (ms9_3 t) fullShare ((dat9 V c).after 3 t) from by
        unfold Dat.leavesExact; rw [liveAt9_3_C t (fun h => ha ((hcondFirst t).mp h)) ((hcondLast t).mpr hb)], after9_3]
      rw [outsAt9_C V c t ha hb]
      unfold leaves9C leavesC; (try dsimp only)
      by_cases hp : t.val = 0
      · exfalso; omega
      · rw [PhiS9_castSucc V c t, PhiS9_pos V c _ _ hp]
        iintro ⟨⟨⟨Hs, Hr⟩, Hg⟩, Hw, ⟨%da, Ha⟩, ⟨%db, Hb⟩, ⟨%dc, Hc⟩, ⟨%dd, Hd⟩⟩
        iapply ((stepRunC c (grid9.coords t) _ (hs9_0 t) _ (hs9_1 t) _ (hs9_2 t) _ (hs9_3 t) _ (Memref.isWhole_whole _) (fun h => ha ((hcondFirst t).mp h)) ((hcondLast t).mpr hb) (iblk9 V c 0 t) (iblk9 V c 1 t) (iblk9 V c 2 t) _).2.2 Set.univ _)
        isplitl [Ha]; · iexact Ha
        isplitl [Hb]; · iexact Hb
        isplitl [Hc]; · iexact Hc
        isplitl [Hd]; · iexists _; iexact Hd
        isplitl [Hs]; · iexact Hs
        iintro ⟨Ha, Hb, Hc, ⟨%ed, Hd⟩, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverC c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        unfold owns; iexists _; isplitr
        swap; · iexact Hd
        ipureintro; exact View.read_writes_of_cover _ _ _ _ _ (outCoverC c _ _ _ _ _ _ _ _ _ _ _ _ _ _ _ _ _)
    · rw [Dat.leavesExact_idle (dat9 V c) 3 t (idleAt9_3_B t (fun h => ha ((hcondFirst t).mp h)) (fun h => hb ((hcondLast t).mp h))) (noFlush9_3_B t (fun h => ha ((hcondFirst t).mp h)) (fun h => hb ((hcondLast t).mp h)))]
      rw [outsAt9_B V c t ha hb]
      unfold leaves9B leavesB; (try dsimp only)
      by_cases hp : t.val = 0
      · exfalso; omega
      · rw [PhiS9_castSucc V c t, PhiS9_pos V c _ _ hp]
        iintro ⟨⟨⟨Hs, Hr⟩, Hg⟩, Hw, ⟨%da, Ha⟩, ⟨%db, Hb⟩, ⟨%dc, Hc⟩, ⟨%dd, Hd⟩⟩
        iapply ((stepRunB c (grid9.coords t) _ (hs9_0 t) _ (hs9_1 t) _ (hs9_2 t) _ (hs9_3 t) _ (Memref.isWhole_whole _) (fun h => ha ((hcondFirst t).mp h)) (fun h => hb ((hcondLast t).mp h)) (iblk9 V c 0 t) (iblk9 V c 1 t) (iblk9 V c 2 t) _).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverB c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd

theorem body_obligation9 (c : Dev nD) : BodyObligation (dat9 (F := F) V c) (defs₀ (F := F)) Variants.none () Set.univ := fun t => by
  rw [bigSep_W9, bigSep_W9]
  exact sound_body9 V c t

theorem hin9 (c : Dev nD) : (Pipeline.ΦA spec9 c : sProp 𝕄) ⊢ (dat9 V c).Φ 0 := by
  rw [show (dat9 V c).Φ 0 = PhiS9 V c 0 (Nat.zero_le _) from rfl, PhiS9_zero V c 0 _ rfl]
  try exact Idealize.SL.BI.Entails.refl _

theorem Phi_out9 (c : Dev nD) (t : Fin (cfg9.N + 1)) (ht : t.val ≠ 0) : (dat9 V c).Φ t ⊢ (Pipeline.ΦA spec9 c : sProp 𝕄) := by
  rw [show (dat9 V c).Φ t = PhiS9 V c t.val (Nat.le_of_lt_succ t.isLt) from rfl, PhiS9_pos V c _ _ ht, PhiA9_eq]
  iintro ⟨⟨Hs, Hr⟩, Hg⟩
  isplitl [Hs Hr]
  · isplitl [Hs]
    · iexists _; iexact Hs
    iexact Hr
  iexact Hg

theorem hout9 (c : Dev nD) : (dat9 V c).Φ (Fin.last cfg9.N) ⊢ (Pipeline.ΦA spec9 c : sProp 𝕄) :=
  Phi_out9 V c _ (by rw [Fin.val_last]; have : cfg9.N = 128 := N_9; omega)

theorem share9 (c : Dev nD) (w : Fin cfg9.W) : (dat9 V c).q w = fullShare := by dsimp only [dat9]
theorem owed9 (c : Dev nD) (t) : (dat9 V c).owed t = 0 := by dsimp only [dat9]

end Cert.KernelIdeal.Fr

end
-- ==== Proof.KI.Ap10Runs.lean ====
/- (proof/Proof/KI/Ap1Runs.lean with region 10's names put for region 1's; nothing else changed) -/
import proofs.«109160_j26783416057954_1_alg».proof.Proof.KI.StepCases

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

theorem liveAt10_0 : ∀ t : Fin cfg10.N, cfg10.idle 0 (grid10.coords t) = false := fun _ => rfl
theorem liveAt10_1 : ∀ t : Fin cfg10.N, cfg10.idle 1 (grid10.coords t) = false := fun _ => rfl
theorem liveAt10_2 : ∀ t : Fin cfg10.N, cfg10.idle 2 (grid10.coords t) = false := fun _ => rfl

theorem idleAt10_3_A : ∀ t : Fin cfg10.N, condFirst (grid10.coords t) → ¬condLast (grid10.coords t) → cfg10.idle 3 (grid10.coords t) = true := by decide +kernel
theorem noFlush10_3_A : ∀ t : Fin cfg10.N, condFirst (grid10.coords t) → ¬condLast (grid10.coords t) → (cfg10.win 3).flush t = false := by decide +kernel

theorem idleAt10_3_B : ∀ t : Fin cfg10.N, ¬condFirst (grid10.coords t) → ¬condLast (grid10.coords t) → cfg10.idle 3 (grid10.coords t) = true := by decide +kernel
theorem noFlush10_3_B : ∀ t : Fin cfg10.N, ¬condFirst (grid10.coords t) → ¬condLast (grid10.coords t) → (cfg10.win 3).flush t = false := by decide +kernel

theorem liveAt10_3_C : ∀ t : Fin cfg10.N, ¬condFirst (grid10.coords t) → condLast (grid10.coords t) → cfg10.idle 3 (grid10.coords t) = false := by decide +kernel

abbrev VO10_3 : View sig .tc .vmem S2048x64 .f32 := (Memref.whole cc10_stg3_0 : Memref sig .tc .vmem S2048x64 .f32).view

abbrev ms10_0 (t : Fin cfg10.N) : Memref sig .tc .vmem S2048x1024 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S1024x64 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S2048x64 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S2048x64 .f32 := win10_3.stage (cfg10.slots t 3)
abbrev hs10_3 (t : Fin cfg10.N) : (ms10_3 t).IsWhole := hstage10_3 ((cfg10.slots t 3).cast nbuf10_3)

abbrev scM10_0 : Memref sig .tc .vmem S2048x64 .f32 := Memref.whole cc10_scratch0

abbrev VS10_0 : View sig .tc .vmem S2048x64 .f32 := scM10_0.view

theorem PhiA10_eq (c : Dev nD) :
    (Pipeline.ΦA spec10 c : sProp 𝕄)
      = iprop(iprop(iprop((∃ d, owns (c : Thread nD τ) scM10_0 fullShare d))
          ∗ Pipeline.scopedRestBut (Ix := Unit) (Name := ℕ) (U := UR sig nD τ) (Lvl := ℕ) (Val := Elt F) spec10 c [cc10_scratch0]) ∗ (∃ r, prngReg c r)) := by
  unfold Pipeline.ΦA; rw [scopedRest10_split]; simp only [scM10_0, owns_whole]; try rfl

end Cert.KernelIdeal.Fr

end
-- ==== Proof.KI.Ap10.lean ====
/- (proof/Proof/KI/Ap1.lean with region 10's names put for region 1's; nothing else changed) -/
import proofs.«109160_j26783416057954_1_alg».proof.Proof.KI.Ap10Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The three cases at point `t`, on the point's input blocks.
def leaves10A (c : Dev nD) (t : Fin cfg10.N) (ha : t.val % 16 = 0) (hb : ¬t.val % 16 = 15) : Vec F S2048x64 .f32 × Vec F S2048x64 .f32 :=
  leavesA VO10_3 VS10_0 c (grid10.coords t) (ms10_0 t) (hs10_0 t) (ms10_1 t) (hs10_1 t) (ms10_2 t) (hs10_2 t) (ms10_3 t) (hs10_3 t) scM10_0 (Memref.isWhole_whole _) ((hcondFirst t).mpr ha) (fun h => hb ((hcondLast t).mp h)) (iblk10 V c 0 t) (iblk10 V c 1 t) (iblk10 V c 2 t)
def leaves10B (c : Dev nD) (t : Fin cfg10.N) (ha : ¬t.val % 16 = 0) (hb : ¬t.val % 16 = 15) (xs : Vec F S2048x64 .f32) : Vec F S2048x64 .f32 × Vec F S2048x64 .f32 :=
  leavesB VO10_3 VS10_0 c (grid10.coords t) (ms10_0 t) (hs10_0 t) (ms10_1 t) (hs10_1 t) (ms10_2 t) (hs10_2 t) (ms10_3 t) (hs10_3 t) scM10_0 (Memref.isWhole_whole _) (fun h => ha ((hcondFirst t).mp h)) (fun h => hb ((hcondLast t).mp h)) (iblk10 V c 0 t) (iblk10 V c 1 t) (iblk10 V c 2 t) xs
def leaves10C (c : Dev nD) (t : Fin cfg10.N) (ha : ¬t.val % 16 = 0) (hb : t.val % 16 = 15) (xs : Vec F S2048x64 .f32) : Vec F S2048x64 .f32 × Vec F S2048x64 .f32 :=
  leavesC VO10_3 VS10_0 c (grid10.coords t) (ms10_0 t) (hs10_0 t) (ms10_1 t) (hs10_1 t) (ms10_2 t) (hs10_2 t) (ms10_3 t) (hs10_3 t) scM10_0 (Memref.isWhole_whole _) (fun h => ha ((hcondFirst t).mp h)) ((hcondLast t).mpr hb) (iblk10 V c 0 t) (iblk10 V c 1 t) (iblk10 V c 2 t) xs

-- The accumulation along a row block: the first column block resets, each later one adds to what the point before left.
def outsAt10 (c : Dev nD) : (n : ℕ) → n < cfg10.N → Vec F S2048x64 .f32 × Vec F S2048x64 .f32
  | 0, hn => leaves10A V c ⟨0, hn⟩ (Nat.zero_mod _) (by show ¬0 % 16 = 15; omega)
  | n + 1, hn =>
    if ha : (n + 1) % 16 = 0 then
      if hb : (n + 1) % 16 = 15 then False.elim (by omega) else leaves10A V c ⟨n + 1, hn⟩ ha hb
    else
      if hb : (n + 1) % 16 = 15 then leaves10C V c ⟨n + 1, hn⟩ ha hb (outsAt10 c n (Nat.lt_of_succ_lt hn)).2
      else leaves10B V c ⟨n + 1, hn⟩ ha hb (outsAt10 c n (Nat.lt_of_succ_lt hn)).2

theorem outsAt10_A (c : Dev nD) (t : Fin cfg10.N) (ha : t.val % 16 = 0) (hb : ¬t.val % 16 = 15) :
    outsAt10 V c t.val t.isLt = leaves10A V c t ha hb := by
  obtain ⟨n, hn⟩ := t
  cases n with
  | zero => exact rfl
  | succ n => exact (dif_pos ha).trans ((dif_neg hb).trans rfl)

theorem outsAt10_B (c : Dev nD) (t : Fin cfg10.N) (ha : ¬t.val % 16 = 0) (hb : ¬t.val % 16 = 15) :
    outsAt10 V c t.val t.isLt = leaves10B V c t ha hb (outsAt10 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_neg hb).trans rfl)

theorem outsAt10_C (c : Dev nD) (t : Fin cfg10.N) (ha : ¬t.val % 16 = 0) (hb : t.val % 16 = 15) :
    outsAt10 V c t.val t.isLt = leaves10C V c t ha hb (outsAt10 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_pos hb).trans rfl)

def PhiS10 (c : Dev nD) : (n : ℕ) → n ≤ cfg10.N → sProp 𝕄
  | 0, _ => Pipeline.ΦA spec10 c
  | n + 1, hn => iprop(iprop(owns (c : Thread nD τ) scM10_0 fullShare ((outsAt10 V c n hn).2) ∗ Pipeline.scopedRestBut (Ix := Unit) (Name := ℕ) (U := UR sig nD τ) (Lvl := ℕ) (Val := Elt F) spec10 c [cc10_scratch0]) ∗ (∃ r, prngReg c r))

theorem PhiS10_zero (c : Dev nD) (n : ℕ) (h : n ≤ cfg10.N) (hp : n = 0) : PhiS10 V c n h = Pipeline.ΦA spec10 c := by
  subst hp; rfl

theorem PhiS10_succ (c : Dev nD) (n : ℕ) (hn : n < cfg10.N) :
    PhiS10 V c (n + 1) hn = iprop(iprop(owns (c : Thread nD τ) scM10_0 fullShare ((outsAt10 V c n hn).2) ∗ Pipeline.scopedRestBut (Ix := Unit) (Name := ℕ) (U := UR sig nD τ) (Lvl := ℕ) (Val := Elt F) spec10 c [cc10_scratch0]) ∗ (∃ r, prngReg c r)) := rfl

theorem PhiS10_pos (c : Dev nD) (n : ℕ) (h : n ≤ cfg10.N) (hp : n ≠ 0) :
    PhiS10 V c n h = iprop(iprop(owns (c : Thread nD τ) scM10_0 fullShare ((outsAt10 V c (n - 1) (by omega)).2) ∗ Pipeline.scopedRestBut (Ix := Unit) (Name := ℕ) (U := UR sig nD τ) (Lvl := ℕ) (Val := Elt F) spec10 c [cc10_scratch0]) ∗ (∃ r, prngReg c r)) := by
  cases n with
  | zero => exact absurd rfl hp
  | succ n => rfl

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => (outsAt10 V c t.val t.isLt).1
  Φ t := PhiS10 V c t.val (Nat.le_of_lt_succ t.isLt)
  q _ := fullShare
  owed _ := 0

theorem A_eq10 (c : Dev nD) (w : Fin cfg10.W) : (dat10 V c).A w = V c (Pipeline.arrRef spec10 w) := by
  dsimp only [dat10]

theorem PhiS10_castSucc (c : Dev nD) (t : Fin cfg10.N) :
    (dat10 V c).Φ t.castSucc = PhiS10 V c t.val (Nat.le_of_lt t.isLt) := by
  dsimp only [dat10]; simp only [Fin.coe_castSucc]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = (outsAt10 V c t.val t.isLt).1 := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d)))

def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t)

set_option maxHeartbeats 4800000 in

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).owesAt () t.succ = (dat10 V c).owesAt () t.castSucc from rfl]
  rw [show (dat10 V c).Φ t.succ = PhiS10 V c (t.val + 1) t.isLt from rfl, PhiS10_succ]
  rw [show (dat10 V c).leavesExact 0 t = owns (c : Thread nD τ) (ms10_0 t) fullShare ((dat10 V c).after 0 t) from by
    unfold Dat.leavesExact; rw [liveAt10_0 t], after10_0]
  rw [show (dat10 V c).leavesExact 1 t = owns (c : Thread nD τ) (ms10_1 t) fullShare ((dat10 V c).after 1 t) from by
    unfold Dat.leavesExact; rw [liveAt10_1 t], after10_1]
  rw [show (dat10 V c).leavesExact 2 t = owns (c : Thread nD τ) (ms10_2 t) fullShare ((dat10 V c).after 2 t) from by
    unfold Dat.leavesExact; rw [liveAt10_2 t], after10_2]
  have hN : t.val < 128 := lt_of_lt_of_eq t.isLt (show cfg10.N = 128 from N_10)
  by_cases ha : t.val % 16 = 0
  · by_cases hb : t.val % 16 = 15
    · exfalso; omega
    · rw [Dat.leavesExact_idle (dat10 V c) 3 t (idleAt10_3_A t ((hcondFirst t).mpr ha) (fun h => hb ((hcondLast t).mp h))) (noFlush10_3_A t ((hcondFirst t).mpr ha) (fun h => hb ((hcondLast t).mp h)))]
      rw [outsAt10_A V c t ha hb]
      unfold leaves10A leavesA; (try dsimp only)
      by_cases hp : t.val = 0
      · rw [PhiS10_castSucc V c t, PhiS10_zero V c _ _ hp, PhiA10_eq]
        iintro ⟨⟨⟨Hs, Hr⟩, Hg⟩, Hw, ⟨%da, Ha⟩, ⟨%db, Hb⟩, ⟨%dc, Hc⟩, ⟨%dd, Hd⟩⟩
        iapply ((stepRunA c (grid10.coords t) _ (hs10_0 t) _ (hs10_1 t) _ (hs10_2 t) _ (hs10_3 t) _ (Memref.isWhole_whole _) ((hcondFirst t).mpr ha) (fun h => hb ((hcondLast t).mp h)) (iblk10 V c 0 t) (iblk10 V c 1 t) (iblk10 V c 2 t)).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
      · rw [PhiS10_castSucc V c t, PhiS10_pos V c _ _ hp]
        iintro ⟨⟨⟨Hs, Hr⟩, Hg⟩, Hw, ⟨%da, Ha⟩, ⟨%db, Hb⟩, ⟨%dc, Hc⟩, ⟨%dd, Hd⟩⟩
        iapply ((stepRunA c (grid10.coords t) _ (hs10_0 t) _ (hs10_1 t) _ (hs10_2 t) _ (hs10_3 t) _ (Memref.isWhole_whole _) ((hcondFirst t).mpr ha) (fun h => hb ((hcondLast t).mp h)) (iblk10 V c 0 t) (iblk10 V c 1 t) (iblk10 V c 2 t)).2.2 _ Set.univ _)
        isplitl [Ha]; · iexact Ha
        isplitl [Hb]; · iexact Hb
        isplitl [Hc]; · iexact Hc
        isplitl [Hd]; · iexact Hd
        isplitl [Hs]; · iexists _; iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
  · by_cases hb : t.val % 16 = 15
    · rw [show (dat10 V c).leavesExact 3 t = owns (c : Thread nD τ) (ms10_3 t) fullShare ((dat10 V c).after 3 t) from by
        unfold Dat.leavesExact; rw [liveAt10_3_C t (fun h => ha ((hcondFirst t).mp h)) ((hcondLast t).mpr hb)], after10_3]
      rw [outsAt10_C V c t ha hb]
      unfold leaves10C leavesC; (try dsimp only)
      by_cases hp : t.val = 0
      · exfalso; omega
      · rw [PhiS10_castSucc V c t, PhiS10_pos V c _ _ hp]
        iintro ⟨⟨⟨Hs, Hr⟩, Hg⟩, Hw, ⟨%da, Ha⟩, ⟨%db, Hb⟩, ⟨%dc, Hc⟩, ⟨%dd, Hd⟩⟩
        iapply ((stepRunC c (grid10.coords t) _ (hs10_0 t) _ (hs10_1 t) _ (hs10_2 t) _ (hs10_3 t) _ (Memref.isWhole_whole _) (fun h => ha ((hcondFirst t).mp h)) ((hcondLast t).mpr hb) (iblk10 V c 0 t) (iblk10 V c 1 t) (iblk10 V c 2 t) _).2.2 Set.univ _)
        isplitl [Ha]; · iexact Ha
        isplitl [Hb]; · iexact Hb
        isplitl [Hc]; · iexact Hc
        isplitl [Hd]; · iexists _; iexact Hd
        isplitl [Hs]; · iexact Hs
        iintro ⟨Ha, Hb, Hc, ⟨%ed, Hd⟩, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverC c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        unfold owns; iexists _; isplitr
        swap; · iexact Hd
        ipureintro; exact View.read_writes_of_cover _ _ _ _ _ (outCoverC c _ _ _ _ _ _ _ _ _ _ _ _ _ _ _ _ _)
    · rw [Dat.leavesExact_idle (dat10 V c) 3 t (idleAt10_3_B t (fun h => ha ((hcondFirst t).mp h)) (fun h => hb ((hcondLast t).mp h))) (noFlush10_3_B t (fun h => ha ((hcondFirst t).mp h)) (fun h => hb ((hcondLast t).mp h)))]
      rw [outsAt10_B V c t ha hb]
      unfold leaves10B leavesB; (try dsimp only)
      by_cases hp : t.val = 0
      · exfalso; omega
      · rw [PhiS10_castSucc V c t, PhiS10_pos V c _ _ hp]
        iintro ⟨⟨⟨Hs, Hr⟩, Hg⟩, Hw, ⟨%da, Ha⟩, ⟨%db, Hb⟩, ⟨%dc, Hc⟩, ⟨%dd, Hd⟩⟩
        iapply ((stepRunB c (grid10.coords t) _ (hs10_0 t) _ (hs10_1 t) _ (hs10_2 t) _ (hs10_3 t) _ (Memref.isWhole_whole _) (fun h => ha ((hcondFirst t).mp h)) (fun h => hb ((hcondLast t).mp h)) (iblk10 V c 0 t) (iblk10 V c 1 t) (iblk10 V c 2 t) _).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverB c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd

theorem body_obligation10 (c : Dev nD) : BodyObligation (dat10 (F := F) V c) (defs₀ (F := F)) Variants.none () Set.univ := fun t => by
  rw [bigSep_W10, bigSep_W10]
  exact sound_body10 V c t

theorem hin10 (c : Dev nD) : (Pipeline.ΦA spec10 c : sProp 𝕄) ⊢ (dat10 V c).Φ 0 := by
  rw [show (dat10 V c).Φ 0 = PhiS10 V c 0 (Nat.zero_le _) from rfl, PhiS10_zero V c 0 _ rfl]
  try exact Idealize.SL.BI.Entails.refl _

theorem Phi_out10 (c : Dev nD) (t : Fin (cfg10.N + 1)) (ht : t.val ≠ 0) : (dat10 V c).Φ t ⊢ (Pipeline.ΦA spec10 c : sProp 𝕄) := by
  rw [show (dat10 V c).Φ t = PhiS10 V c t.val (Nat.le_of_lt_succ t.isLt) from rfl, PhiS10_pos V c _ _ ht, PhiA10_eq]
  iintro ⟨⟨Hs, Hr⟩, Hg⟩
  isplitl [Hs Hr]
  · isplitl [Hs]
    · iexists _; iexact Hs
    iexact Hr
  iexact Hg

theorem hout10 (c : Dev nD) : (dat10 V c).Φ (Fin.last cfg10.N) ⊢ (Pipeline.ΦA spec10 c : sProp 𝕄) :=
  Phi_out10 V c _ (by rw [Fin.val_last]; have : cfg10.N = 128 := N_10; omega)

theorem share10 (c : Dev nD) (w : Fin cfg10.W) : (dat10 V c).q w = fullShare := by dsimp only [dat10]
theorem owed10 (c : Dev nD) (t) : (dat10 V c).owed t = 0 := by dsimp only [dat10]

end Cert.KernelIdeal.Fr

end
-- ==== Proof.KI.Pdats.lean ====
import proofs.«109160_j26783416057954_1_alg».proof.Proof.KI.Base
import proofs.«109160_j26783416057954_1_alg».proof.Proof.KI.R0
import proofs.«109160_j26783416057954_1_alg».proof.Proof.KI.Ap1s
import proofs.«109160_j26783416057954_1_alg».proof.Proof.KI.Ap2
import proofs.«109160_j26783416057954_1_alg».proof.Proof.KI.Ap3
import proofs.«109160_j26783416057954_1_alg».proof.Proof.KI.Ap4
import proofs.«109160_j26783416057954_1_alg».proof.Proof.KI.Ap5
import proofs.«109160_j26783416057954_1_alg».proof.Proof.KI.Ap6
import proofs.«109160_j26783416057954_1_alg».proof.Proof.KI.Ap7
import proofs.«109160_j26783416057954_1_alg».proof.Proof.KI.Ap8
import proofs.«109160_j26783416057954_1_alg».proof.Proof.KI.Ap9
import proofs.«109160_j26783416057954_1_alg».proof.Proof.KI.Ap10

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

noncomputable def X2 (c : Dev nD) : Valuation τ sig (Elt F) :=
  Function.update (V1 m c) main_v2 ((dat0 (fun c b => V1 m c b) c).arrAt (5 : Fin 6) cfg0.N)

noncomputable def X3 (c : Dev nD) : Valuation τ sig (Elt F) :=
  Function.update (X2 m c) main_v3 ((dat1s (fun c b => X2 m c b) c).arrAt (3 : Fin 4) cfg1.N)

noncomputable def X4 (c : Dev nD) : Valuation τ sig (Elt F) :=
  Function.update (X3 m c) main_v4 ((dat2 (fun c b => X3 m c b) c).arrAt (3 : Fin 4) cfg2.N)

noncomputable def X5 (c : Dev nD) : Valuation τ sig (Elt F) :=
  Function.update (X4 m c) main_v5 ((dat3 (fun c b => X4 m c b) c).arrAt (3 : Fin 4) cfg3.N)

noncomputable def X6 (c : Dev nD) : Valuation τ sig (Elt F) :=
  Function.update (X5 m c) main_v6 ((dat4 (fun c b => X5 m c b) c).arrAt (3 : Fin 4) cfg4.N)

noncomputable def X7 (c : Dev nD) : Valuation τ sig (Elt F) :=
  Function.update (X6 m c) main_v7 ((dat5 (fun c b => X6 m c b) c).arrAt (3 : Fin 4) cfg5.N)

noncomputable def X8 (c : Dev nD) : Valuation τ sig (Elt F) :=
  Function.update (X7 m c) main_v8 ((dat6 (fun c b => X7 m c b) c).arrAt (3 : Fin 4) cfg6.N)

noncomputable def X9 (c : Dev nD) : Valuation τ sig (Elt F) :=
  Function.update (X8 m c) main_v9 ((dat7 (fun c b => X8 m c b) c).arrAt (3 : Fin 4) cfg7.N)

noncomputable def X10 (c : Dev nD) : Valuation τ sig (Elt F) :=
  Function.update (X9 m c) main_v10 ((dat8 (fun c b => X9 m c b) c).arrAt (3 : Fin 4) cfg8.N)

noncomputable def X11 (c : Dev nD) : Valuation τ sig (Elt F) :=
  Function.update (X10 m c) main_v11 ((dat9 (fun c b => X10 m c b) c).arrAt (3 : Fin 4) cfg9.N)

noncomputable def X12 (c : Dev nD) : Valuation τ sig (Elt F) :=
  Function.update (X11 m c) main_v12 ((dat10 (fun c b => X11 m c b) c).arrAt (3 : Fin 4) cfg10.N)

noncomputable def outsM : Outs (F := F) := fun J r c =>
  match J with
  | 2 => X2 m c r
  | 3 => X3 m c r
  | 4 => X4 m c r
  | 5 => X5 m c r
  | 6 => X6 m c r
  | 7 => X7 m c r
  | 8 => X8 m c r
  | 9 => X9 m c r
  | 10 => X10 m c r
  | 11 => X11 m c r
  | 12 => X12 m c r
  | _ => V1 m c r

theorem VX2 (c : Dev nD) : V2 m (outsM m) c = X2 m c := by
  show Function.update (V1 m c) main_v2 (X2 m c main_v2) = X2 m c
  unfold X2; rw [Function.update_self]
theorem VX3 (c : Dev nD) : V3 m (outsM m) c = X3 m c := by
  show Function.update (V2 m (outsM m) c) main_v3 (X3 m c main_v3) = X3 m c
  rw [VX2]; unfold X3; rw [Function.update_self]
theorem VX4 (c : Dev nD) : V4 m (outsM m) c = X4 m c := by
  show Function.update (V3 m (outsM m) c) main_v4 (X4 m c main_v4) = X4 m c
  rw [VX3]; unfold X4; rw [Function.update_self]
theorem VX5 (c : Dev nD) : V5 m (outsM m) c = X5 m c := by
  show Function.update (V4 m (outsM m) c) main_v5 (X5 m c main_v5) = X5 m c
  rw [VX4]; unfold X5; rw [Function.update_self]
theorem VX6 (c : Dev nD) : V6 m (outsM m) c = X6 m c := by
  show Function.update (V5 m (outsM m) c) main_v6 (X6 m c main_v6) = X6 m c
  rw [VX5]; unfold X6; rw [Function.update_self]
theorem VX7 (c : Dev nD) : V7 m (outsM m) c = X7 m c := by
  show Function.update (V6 m (outsM m) c) main_v7 (X7 m c main_v7) = X7 m c
  rw [VX6]; unfold X7; rw [Function.update_self]
theorem VX8 (c : Dev nD) : V8 m (outsM m) c = X8 m c := by
  show Function.update (V7 m (outsM m) c) main_v8 (X8 m c main_v8) = X8 m c
  rw [VX7]; unfold X8; rw [Function.update_self]
theorem VX9 (c : Dev nD) : V9 m (outsM m) c = X9 m c := by
  show Function.update (V8 m (outsM m) c) main_v9 (X9 m c main_v9) = X9 m c
  rw [VX8]; unfold X9; rw [Function.update_self]
theorem VX10 (c : Dev nD) : V10 m (outsM m) c = X10 m c := by
  show Function.update (V9 m (outsM m) c) main_v10 (X10 m c main_v10) = X10 m c
  rw [VX9]; unfold X10; rw [Function.update_self]
theorem VX11 (c : Dev nD) : V11 m (outsM m) c = X11 m c := by
  show Function.update (V10 m (outsM m) c) main_v11 (X11 m c main_v11) = X11 m c
  rw [VX10]; unfold X11; rw [Function.update_self]
theorem VX12 (c : Dev nD) : V12 m (outsM m) c = X12 m c := by
  show Function.update (V11 m (outsM m) c) main_v12 (X12 m c main_v12) = X12 m c
  rw [VX11]; unfold X12; rw [Function.update_self]

theorem tcX2 : @Eq ((c : Dev nD) → (b : Ref sig .tc) → Buf (Elt F) ((c : Thread nD τ).loc b)) (fun c b => X2 m c b) (fun c b => V2 m (outsM m) c b) :=
  funext fun c => funext fun b => by rw [VX2]
theorem tcX3 : @Eq ((c : Dev nD) → (b : Ref sig .tc) → Buf (Elt F) ((c : Thread nD τ).loc b)) (fun c b => X3 m c b) (fun c b => V3 m (outsM m) c b) :=
  funext fun c => funext fun b => by rw [VX3]
theorem tcX4 : @Eq ((c : Dev nD) → (b : Ref sig .tc) → Buf (Elt F) ((c : Thread nD τ).loc b)) (fun c b => X4 m c b) (fun c b => V4 m (outsM m) c b) :=
  funext fun c => funext fun b => by rw [VX4]
theorem tcX5 : @Eq ((c : Dev nD) → (b : Ref sig .tc) → Buf (Elt F) ((c : Thread nD τ).loc b)) (fun c b => X5 m c b) (fun c b => V5 m (outsM m) c b) :=
  funext fun c => funext fun b => by rw [VX5]
theorem tcX6 : @Eq ((c : Dev nD) → (b : Ref sig .tc) → Buf (Elt F) ((c : Thread nD τ).loc b)) (fun c b => X6 m c b) (fun c b => V6 m (outsM m) c b) :=
  funext fun c => funext fun b => by rw [VX6]
theorem tcX7 : @Eq ((c : Dev nD) → (b : Ref sig .tc) → Buf (Elt F) ((c : Thread nD τ).loc b)) (fun c b => X7 m c b) (fun c b => V7 m (outsM m) c b) :=
  funext fun c => funext fun b => by rw [VX7]
theorem tcX8 : @Eq ((c : Dev nD) → (b : Ref sig .tc) → Buf (Elt F) ((c : Thread nD τ).loc b)) (fun c b => X8 m c b) (fun c b => V8 m (outsM m) c b) :=
  funext fun c => funext fun b => by rw [VX8]
theorem tcX9 : @Eq ((c : Dev nD) → (b : Ref sig .tc) → Buf (Elt F) ((c : Thread nD τ).loc b)) (fun c b => X9 m c b) (fun c b => V9 m (outsM m) c b) :=
  funext fun c => funext fun b => by rw [VX9]
theorem tcX10 : @Eq ((c : Dev nD) → (b : Ref sig .tc) → Buf (Elt F) ((c : Thread nD τ).loc b)) (fun c b => X10 m c b) (fun c b => V10 m (outsM m) c b) :=
  funext fun c => funext fun b => by rw [VX10]
theorem tcX11 : @Eq ((c : Dev nD) → (b : Ref sig .tc) → Buf (Elt F) ((c : Thread nD τ).loc b)) (fun c b => X11 m c b) (fun c b => V11 m (outsM m) c b) :=
  funext fun c => funext fun b => by rw [VX11]

noncomputable def pdatsM : (p : Fin 11) → (c : Dev nD) → Dat τ (Elt F) Unit ℕ (UR sig nD τ) ℕ (cfgs p) c
  | ⟨0, _⟩ => fun c => dat0 (fun c b => V1 m c b) c
  | ⟨1, _⟩ => fun c => dat1s (fun c b => V2 m (outsM m) c b) c
  | ⟨2, _⟩ => fun c => dat2 (fun c b => V3 m (outsM m) c b) c
  | ⟨3, _⟩ => fun c => dat3 (fun c b => V4 m (outsM m) c b) c
  | ⟨4, _⟩ => fun c => dat4 (fun c b => V5 m (outsM m) c b) c
  | ⟨5, _⟩ => fun c => dat5 (fun c b => V6 m (outsM m) c b) c
  | ⟨6, _⟩ => fun c => dat6 (fun c b => V7 m (outsM m) c b) c
  | ⟨7, _⟩ => fun c => dat7 (fun c b => V8 m (outsM m) c b) c
  | ⟨8, _⟩ => fun c => dat8 (fun c b => V9 m (outsM m) c b) c
  | ⟨9, _⟩ => fun c => dat9 (fun c b => V10 m (outsM m) c b) c
  | ⟨10, _⟩ => fun c => dat10 (fun c b => V11 m (outsM m) c b) c

theorem out_eq0 (c : Dev nD) : outsM m 2 main_v2 c = (pdatsM m 0 c).arrAt (5 : Fin 6) cfg0.N := by
  show X2 m c main_v2 = (dat0 (fun c b => V1 m c b) c).arrAt (5 : Fin 6) cfg0.N
  unfold X2; rw [Function.update_self]

theorem out_eq1 (c : Dev nD) : outsM m 3 main_v3 c = (pdatsM m 1 c).arrAt (3 : Fin 4) cfg1.N := by
  show X3 m c main_v3 = (dat1s (fun c b => V2 m (outsM m) c b) c).arrAt (3 : Fin 4) cfg1.N
  unfold X3; rw [Function.update_self]
  exact congrArg (fun W : (c : Dev nD) → (b : Ref sig .tc) → Buf (Elt F) ((c : Thread nD τ).loc b) => (dat1s W c).arrAt (3 : Fin 4) cfg1.N) (tcX2 m)

theorem out_eq2 (c : Dev nD) : outsM m 4 main_v4 c = (pdatsM m 2 c).arrAt (3 : Fin 4) cfg2.N := by
  show X4 m c main_v4 = (dat2 (fun c b => V3 m (outsM m) c b) c).arrAt (3 : Fin 4) cfg2.N
  unfold X4; rw [Function.update_self]
  exact congrArg (fun W : (c : Dev nD) → (b : Ref sig .tc) → Buf (Elt F) ((c : Thread nD τ).loc b) => (dat2 W c).arrAt (3 : Fin 4) cfg2.N) (tcX3 m)

theorem out_eq3 (c : Dev nD) : outsM m 5 main_v5 c = (pdatsM m 3 c).arrAt (3 : Fin 4) cfg3.N := by
  show X5 m c main_v5 = (dat3 (fun c b => V4 m (outsM m) c b) c).arrAt (3 : Fin 4) cfg3.N
  unfold X5; rw [Function.update_self]
  exact congrArg (fun W : (c : Dev nD) → (b : Ref sig .tc) → Buf (Elt F) ((c : Thread nD τ).loc b) => (dat3 W c).arrAt (3 : Fin 4) cfg3.N) (tcX4 m)

theorem out_eq4 (c : Dev nD) : outsM m 6 main_v6 c = (pdatsM m 4 c).arrAt (3 : Fin 4) cfg4.N := by
  show X6 m c main_v6 = (dat4 (fun c b => V5 m (outsM m) c b) c).arrAt (3 : Fin 4) cfg4.N
  unfold X6; rw [Function.update_self]
  exact congrArg (fun W : (c : Dev nD) → (b : Ref sig .tc) → Buf (Elt F) ((c : Thread nD τ).loc b) => (dat4 W c).arrAt (3 : Fin 4) cfg4.N) (tcX5 m)

theorem out_eq5 (c : Dev nD) : outsM m 7 main_v7 c = (pdatsM m 5 c).arrAt (3 : Fin 4) cfg5.N := by
  show X7 m c main_v7 = (dat5 (fun c b => V6 m (outsM m) c b) c).arrAt (3 : Fin 4) cfg5.N
  unfold X7; rw [Function.update_self]
  exact congrArg (fun W : (c : Dev nD) → (b : Ref sig .tc) → Buf (Elt F) ((c : Thread nD τ).loc b) => (dat5 W c).arrAt (3 : Fin 4) cfg5.N) (tcX6 m)

theorem out_eq6 (c : Dev nD) : outsM m 8 main_v8 c = (pdatsM m 6 c).arrAt (3 : Fin 4) cfg6.N := by
  show X8 m c main_v8 = (dat6 (fun c b => V7 m (outsM m) c b) c).arrAt (3 : Fin 4) cfg6.N
  unfold X8; rw [Function.update_self]
  exact congrArg (fun W : (c : Dev nD) → (b : Ref sig .tc) → Buf (Elt F) ((c : Thread nD τ).loc b) => (dat6 W c).arrAt (3 : Fin 4) cfg6.N) (tcX7 m)

theorem out_eq7 (c : Dev nD) : outsM m 9 main_v9 c = (pdatsM m 7 c).arrAt (3 : Fin 4) cfg7.N := by
  show X9 m c main_v9 = (dat7 (fun c b => V8 m (outsM m) c b) c).arrAt (3 : Fin 4) cfg7.N
  unfold X9; rw [Function.update_self]
  exact congrArg (fun W : (c : Dev nD) → (b : Ref sig .tc) → Buf (Elt F) ((c : Thread nD τ).loc b) => (dat7 W c).arrAt (3 : Fin 4) cfg7.N) (tcX8 m)

theorem out_eq8 (c : Dev nD) : outsM m 10 main_v10 c = (pdatsM m 8 c).arrAt (3 : Fin 4) cfg8.N := by
  show X10 m c main_v10 = (dat8 (fun c b => V9 m (outsM m) c b) c).arrAt (3 : Fin 4) cfg8.N
  unfold X10; rw [Function.update_self]
  exact congrArg (fun W : (c : Dev nD) → (b : Ref sig .tc) → Buf (Elt F) ((c : Thread nD τ).loc b) => (dat8 W c).arrAt (3 : Fin 4) cfg8.N) (tcX9 m)

theorem out_eq9 (c : Dev nD) : outsM m 11 main_v11 c = (pdatsM m 9 c).arrAt (3 : Fin 4) cfg9.N := by
  show X11 m c main_v11 = (dat9 (fun c b => V10 m (outsM m) c b) c).arrAt (3 : Fin 4) cfg9.N
  unfold X11; rw [Function.update_self]
  exact congrArg (fun W : (c : Dev nD) → (b : Ref sig .tc) → Buf (Elt F) ((c : Thread nD τ).loc b) => (dat9 W c).arrAt (3 : Fin 4) cfg9.N) (tcX10 m)

theorem out_eq10 (c : Dev nD) : outsM m 12 main_v12 c = (pdatsM m 10 c).arrAt (3 : Fin 4) cfg10.N := by
  show X12 m c main_v12 = (dat10 (fun c b => V11 m (outsM m) c b) c).arrAt (3 : Fin 4) cfg10.N
  unfold X12; rw [Function.update_self]
  exact congrArg (fun W : (c : Dev nD) → (b : Ref sig .tc) → Buf (Elt F) ((c : Thread nD τ).loc b) => (dat10 W c).arrAt (3 : Fin 4) cfg10.N) (tcX11 m)

theorem hF0 (c : Dev nD) : ∀ w : Fin 6, (pdatsM m 0 c).arrAt w cfg0.N = V2 m (outsM m) c (Pipeline.arrRef spec0 w)
  | 0 => (((pdatsM m 0 c).arrAt_in 0 rfl _).trans (A_eq0 (fun c b => V1 m c b) c 0)).trans (V2_of m (outsM m) c main_arg0 (by decide)).symm
  | 1 => (((pdatsM m 0 c).arrAt_in 1 rfl _).trans (A_eq0 (fun c b => V1 m c b) c 1)).trans (V2_of m (outsM m) c main_arg2 (by decide)).symm
  | 2 => (((pdatsM m 0 c).arrAt_in 2 rfl _).trans (A_eq0 (fun c b => V1 m c b) c 2)).trans (V2_of m (outsM m) c main_v0 (by decide)).symm
  | 3 => (((pdatsM m 0 c).arrAt_in 3 rfl _).trans (A_eq0 (fun c b => V1 m c b) c 3)).trans (V2_of m (outsM m) c main_arg4 (by decide)).symm
  | 4 => (((pdatsM m 0 c).arrAt_in 4 rfl _).trans (A_eq0 (fun c b => V1 m c b) c 4)).trans (V2_of m (outsM m) c main_v1 (by decide)).symm
  | 5 => (out_eq0 m c).symm.trans (Function.update_self (Proc.devRef .tc main_v2 : DevRef τ sig) (outsM m 2 main_v2 c) (V1 m c)).symm
  | ⟨_ + 6, h⟩ => absurd h (Nat.not_lt.2 (Nat.le_add_left _ _))

theorem hrest0 (c : Dev nD) : ∀ b : Ref sig .tc, b ∉ Finset.univ.image (Pipeline.arrRef spec0) → V2 m (outsM m) c b = V1 m c b :=
  fun b hb => V2_of m (outsM m) c b fun h => hb (by rw [List.mem_singleton.mp h]; exact Finset.mem_image.mpr ⟨(5 : Fin 6), Finset.mem_univ _, rfl⟩)

theorem hF1 (c : Dev nD) : ∀ w : Fin 4, (pdatsM m 1 c).arrAt w cfg1.N = V3 m (outsM m) c (Pipeline.arrRef spec1 w)
  | 0 => (((pdatsM m 1 c).arrAt_in 0 rfl _).trans (A_eq1s (fun c b => V2 m (outsM m) c b) c 0)).trans (V3_of m (outsM m) c main_arg1 (by decide)).symm
  | 1 => (((pdatsM m 1 c).arrAt_in 1 rfl _).trans (A_eq1s (fun c b => V2 m (outsM m) c b) c 1)).trans (V3_of m (outsM m) c main_v2 (by decide)).symm
  | 2 => (((pdatsM m 1 c).arrAt_in 2 rfl _).trans (A_eq1s (fun c b => V2 m (outsM m) c b) c 2)).trans (V3_of m (outsM m) c main_v2 (by decide)).symm
  | 3 => (out_eq1 m c).symm.trans (Function.update_self (Proc.devRef .tc main_v3 : DevRef τ sig) (outsM m 3 main_v3 c) (V2 m (outsM m) c)).symm
  | ⟨_ + 4, h⟩ => absurd h (Nat.not_lt.2 (Nat.le_add_left _ _))

theorem hrest1 (c : Dev nD) : ∀ b : Ref sig .tc, b ∉ Finset.univ.image (Pipeline.arrRef spec1) → V3 m (outsM m) c b = V2 m (outsM m) c b :=
  fun b hb => V3_of m (outsM m) c b fun h => hb (by rw [List.mem_singleton.mp h]; exact Finset.mem_image.mpr ⟨(3 : Fin 4), Finset.mem_univ _, rfl⟩)

theorem hF2 (c : Dev nD) : ∀ w : Fin 4, (pdatsM m 2 c).arrAt w cfg2.N = V4 m (outsM m) c (Pipeline.arrRef spec2 w)
  | 0 => (((pdatsM m 2 c).arrAt_in 0 rfl _).trans (A_eq2 (fun c b => V3 m (outsM m) c b) c 0)).trans (V4_of m (outsM m) c main_arg1 (by decide)).symm
  | 1 => (((pdatsM m 2 c).arrAt_in 1 rfl _).trans (A_eq2 (fun c b => V3 m (outsM m) c b) c 1)).trans (V4_of m (outsM m) c main_v3 (by decide)).symm
  | 2 => (((pdatsM m 2 c).arrAt_in 2 rfl _).trans (A_eq2 (fun c b => V3 m (outsM m) c b) c 2)).trans (V4_of m (outsM m) c main_v2 (by decide)).symm
  | 3 => (out_eq2 m c).symm.trans (Function.update_self (Proc.devRef .tc main_v4 : DevRef τ sig) (outsM m 4 main_v4 c) (V3 m (outsM m) c)).symm
  | ⟨_ + 4, h⟩ => absurd h (Nat.not_lt.2 (Nat.le_add_left _ _))

theorem hrest2 (c : Dev nD) : ∀ b : Ref sig .tc, b ∉ Finset.univ.image (Pipeline.arrRef spec2) → V4 m (outsM m) c b = V3 m (outsM m) c b :=
  fun b hb => V4_of m (outsM m) c b fun h => hb (by rw [List.mem_singleton.mp h]; exact Finset.mem_image.mpr ⟨(3 : Fin 4), Finset.mem_univ _, rfl⟩)

theorem hF3 (c : Dev nD) : ∀ w : Fin 4, (pdatsM m 3 c).arrAt w cfg3.N = V5 m (outsM m) c (Pipeline.arrRef spec3 w)
  | 0 => (((pdatsM m 3 c).arrAt_in 0 rfl _).trans (A_eq3 (fun c b => V4 m (outsM m) c b) c 0)).trans (V5_of m (outsM m) c main_arg1 (by decide)).symm
  | 1 => (((pdatsM m 3 c).arrAt_in 1 rfl _).trans (A_eq3 (fun c b => V4 m (outsM m) c b) c 1)).trans (V5_of m (outsM m) c main_v4 (by decide)).symm
  | 2 => (((pdatsM m 3 c).arrAt_in 2 rfl _).trans (A_eq3 (fun c b => V4 m (outsM m) c b) c 2)).trans (V5_of m (outsM m) c main_v2 (by decide)).symm
  | 3 => (out_eq3 m c).symm.trans (Function.update_self (Proc.devRef .tc main_v5 : DevRef τ sig) (outsM m 5 main_v5 c) (V4 m (outsM m) c)).symm
  | ⟨_ + 4, h⟩ => absurd h (Nat.not_lt.2 (Nat.le_add_left _ _))

theorem hrest3 (c : Dev nD) : ∀ b : Ref sig .tc, b ∉ Finset.univ.image (Pipeline.arrRef spec3) → V5 m (outsM m) c b = V4 m (outsM m) c b :=
  fun b hb => V5_of m (outsM m) c b fun h => hb (by rw [List.mem_singleton.mp h]; exact Finset.mem_image.mpr ⟨(3 : Fin 4), Finset.mem_univ _, rfl⟩)

theorem hF4 (c : Dev nD) : ∀ w : Fin 4, (pdatsM m 4 c).arrAt w cfg4.N = V6 m (outsM m) c (Pipeline.arrRef spec4 w)
  | 0 => (((pdatsM m 4 c).arrAt_in 0 rfl _).trans (A_eq4 (fun c b => V5 m (outsM m) c b) c 0)).trans (V6_of m (outsM m) c main_arg1 (by decide)).symm
  | 1 => (((pdatsM m 4 c).arrAt_in 1 rfl _).trans (A_eq4 (fun c b => V5 m (outsM m) c b) c 1)).trans (V6_of m (outsM m) c main_v5 (by decide)).symm
  | 2 => (((pdatsM m 4 c).arrAt_in 2 rfl _).trans (A_eq4 (fun c b => V5 m (outsM m) c b) c 2)).trans (V6_of m (outsM m) c main_v2 (by decide)).symm
  | 3 => (out_eq4 m c).symm.trans (Function.update_self (Proc.devRef .tc main_v6 : DevRef τ sig) (outsM m 6 main_v6 c) (V5 m (outsM m) c)).symm
  | ⟨_ + 4, h⟩ => absurd h (Nat.not_lt.2 (Nat.le_add_left _ _))

theorem hrest4 (c : Dev nD) : ∀ b : Ref sig .tc, b ∉ Finset.univ.image (Pipeline.arrRef spec4) → V6 m (outsM m) c b = V5 m (outsM m) c b :=
  fun b hb => V6_of m (outsM m) c b fun h => hb (by rw [List.mem_singleton.mp h]; exact Finset.mem_image.mpr ⟨(3 : Fin 4), Finset.mem_univ _, rfl⟩)

theorem hF5 (c : Dev nD) : ∀ w : Fin 4, (pdatsM m 5 c).arrAt w cfg5.N = V7 m (outsM m) c (Pipeline.arrRef spec5 w)
  | 0 => (((pdatsM m 5 c).arrAt_in 0 rfl _).trans (A_eq5 (fun c b => V6 m (outsM m) c b) c 0)).trans (V7_of m (outsM m) c main_arg1 (by decide)).symm
  | 1 => (((pdatsM m 5 c).arrAt_in 1 rfl _).trans (A_eq5 (fun c b => V6 m (outsM m) c b) c 1)).trans (V7_of m (outsM m) c main_v6 (by decide)).symm
  | 2 => (((pdatsM m 5 c).arrAt_in 2 rfl _).trans (A_eq5 (fun c b => V6 m (outsM m) c b) c 2)).trans (V7_of m (outsM m) c main_v2 (by decide)).symm
  | 3 => (out_eq5 m c).symm.trans (Function.update_self (Proc.devRef .tc main_v7 : DevRef τ sig) (outsM m 7 main_v7 c) (V6 m (outsM m) c)).symm
  | ⟨_ + 4, h⟩ => absurd h (Nat.not_lt.2 (Nat.le_add_left _ _))

theorem hrest5 (c : Dev nD) : ∀ b : Ref sig .tc, b ∉ Finset.univ.image (Pipeline.arrRef spec5) → V7 m (outsM m) c b = V6 m (outsM m) c b :=
  fun b hb => V7_of m (outsM m) c b fun h => hb (by rw [List.mem_singleton.mp h]; exact Finset.mem_image.mpr ⟨(3 : Fin 4), Finset.mem_univ _, rfl⟩)

theorem hF6 (c : Dev nD) : ∀ w : Fin 4, (pdatsM m 6 c).arrAt w cfg6.N = V8 m (outsM m) c (Pipeline.arrRef spec6 w)
  | 0 => (((pdatsM m 6 c).arrAt_in 0 rfl _).trans (A_eq6 (fun c b => V7 m (outsM m) c b) c 0)).trans (V8_of m (outsM m) c main_arg1 (by decide)).symm
  | 1 => (((pdatsM m 6 c).arrAt_in 1 rfl _).trans (A_eq6 (fun c b => V7 m (outsM m) c b) c 1)).trans (V8_of m (outsM m) c main_v7 (by decide)).symm
  | 2 => (((pdatsM m 6 c).arrAt_in 2 rfl _).trans (A_eq6 (fun c b => V7 m (outsM m) c b) c 2)).trans (V8_of m (outsM m) c main_v2 (by decide)).symm
  | 3 => (out_eq6 m c).symm.trans (Function.update_self (Proc.devRef .tc main_v8 : DevRef τ sig) (outsM m 8 main_v8 c) (V7 m (outsM m) c)).symm
  | ⟨_ + 4, h⟩ => absurd h (Nat.not_lt.2 (Nat.le_add_left _ _))

theorem hrest6 (c : Dev nD) : ∀ b : Ref sig .tc, b ∉ Finset.univ.image (Pipeline.arrRef spec6) → V8 m (outsM m) c b = V7 m (outsM m) c b :=
  fun b hb => V8_of m (outsM m) c b fun h => hb (by rw [List.mem_singleton.mp h]; exact Finset.mem_image.mpr ⟨(3 : Fin 4), Finset.mem_univ _, rfl⟩)

theorem hF7 (c : Dev nD) : ∀ w : Fin 4, (pdatsM m 7 c).arrAt w cfg7.N = V9 m (outsM m) c (Pipeline.arrRef spec7 w)
  | 0 => (((pdatsM m 7 c).arrAt_in 0 rfl _).trans (A_eq7 (fun c b => V8 m (outsM m) c b) c 0)).trans (V9_of m (outsM m) c main_arg1 (by decide)).symm
  | 1 => (((pdatsM m 7 c).arrAt_in 1 rfl _).trans (A_eq7 (fun c b => V8 m (outsM m) c b) c 1)).trans (V9_of m (outsM m) c main_v8 (by decide)).symm
  | 2 => (((pdatsM m 7 c).arrAt_in 2 rfl _).trans (A_eq7 (fun c b => V8 m (outsM m) c b) c 2)).trans (V9_of m (outsM m) c main_v2 (by decide)).symm
  | 3 => (out_eq7 m c).symm.trans (Function.update_self (Proc.devRef .tc main_v9 : DevRef τ sig) (outsM m 9 main_v9 c) (V8 m (outsM m) c)).symm
  | ⟨_ + 4, h⟩ => absurd h (Nat.not_lt.2 (Nat.le_add_left _ _))

theorem hrest7 (c : Dev nD) : ∀ b : Ref sig .tc, b ∉ Finset.univ.image (Pipeline.arrRef spec7) → V9 m (outsM m) c b = V8 m (outsM m) c b :=
  fun b hb => V9_of m (outsM m) c b fun h => hb (by rw [List.mem_singleton.mp h]; exact Finset.mem_image.mpr ⟨(3 : Fin 4), Finset.mem_univ _, rfl⟩)

theorem hF8 (c : Dev nD) : ∀ w : Fin 4, (pdatsM m 8 c).arrAt w cfg8.N = V10 m (outsM m) c (Pipeline.arrRef spec8 w)
  | 0 => (((pdatsM m 8 c).arrAt_in 0 rfl _).trans (A_eq8 (fun c b => V9 m (outsM m) c b) c 0)).trans (V10_of m (outsM m) c main_arg1 (by decide)).symm
  | 1 => (((pdatsM m 8 c).arrAt_in 1 rfl _).trans (A_eq8 (fun c b => V9 m (outsM m) c b) c 1)).trans (V10_of m (outsM m) c main_v9 (by decide)).symm
  | 2 => (((pdatsM m 8 c).arrAt_in 2 rfl _).trans (A_eq8 (fun c b => V9 m (outsM m) c b) c 2)).trans (V10_of m (outsM m) c main_v2 (by decide)).symm
  | 3 => (out_eq8 m c).symm.trans (Function.update_self (Proc.devRef .tc main_v10 : DevRef τ sig) (outsM m 10 main_v10 c) (V9 m (outsM m) c)).symm
  | ⟨_ + 4, h⟩ => absurd h (Nat.not_lt.2 (Nat.le_add_left _ _))

theorem hrest8 (c : Dev nD) : ∀ b : Ref sig .tc, b ∉ Finset.univ.image (Pipeline.arrRef spec8) → V10 m (outsM m) c b = V9 m (outsM m) c b :=
  fun b hb => V10_of m (outsM m) c b fun h => hb (by rw [List.mem_singleton.mp h]; exact Finset.mem_image.mpr ⟨(3 : Fin 4), Finset.mem_univ _, rfl⟩)

theorem hF9 (c : Dev nD) : ∀ w : Fin 4, (pdatsM m 9 c).arrAt w cfg9.N = V11 m (outsM m) c (Pipeline.arrRef spec9 w)
  | 0 => (((pdatsM m 9 c).arrAt_in 0 rfl _).trans (A_eq9 (fun c b => V10 m (outsM m) c b) c 0)).trans (V11_of m (outsM m) c main_arg1 (by decide)).symm
  | 1 => (((pdatsM m 9 c).arrAt_in 1 rfl _).trans (A_eq9 (fun c b => V10 m (outsM m) c b) c 1)).trans (V11_of m (outsM m) c main_v10 (by decide)).symm
  | 2 => (((pdatsM m 9 c).arrAt_in 2 rfl _).trans (A_eq9 (fun c b => V10 m (outsM m) c b) c 2)).trans (V11_of m (outsM m) c main_v2 (by decide)).symm
  | 3 => (out_eq9 m c).symm.trans (Function.update_self (Proc.devRef .tc main_v11 : DevRef τ sig) (outsM m 11 main_v11 c) (V10 m (outsM m) c)).symm
  | ⟨_ + 4, h⟩ => absurd h (Nat.not_lt.2 (Nat.le_add_left _ _))

theorem hrest9 (c : Dev nD) : ∀ b : Ref sig .tc, b ∉ Finset.univ.image (Pipeline.arrRef spec9) → V11 m (outsM m) c b = V10 m (outsM m) c b :=
  fun b hb => V11_of m (outsM m) c b fun h => hb (by rw [List.mem_singleton.mp h]; exact Finset.mem_image.mpr ⟨(3 : Fin 4), Finset.mem_univ _, rfl⟩)

theorem hF10 (c : Dev nD) : ∀ w : Fin 4, (pdatsM m 10 c).arrAt w cfg10.N = V12 m (outsM m) c (Pipeline.arrRef spec10 w)
  | 0 => (((pdatsM m 10 c).arrAt_in 0 rfl _).trans (A_eq10 (fun c b => V11 m (outsM m) c b) c 0)).trans (V12_of m (outsM m) c main_arg1 (by decide)).symm
  | 1 => (((pdatsM m 10 c).arrAt_in 1 rfl _).trans (A_eq10 (fun c b => V11 m (outsM m) c b) c 1)).trans (V12_of m (outsM m) c main_v11 (by decide)).symm
  | 2 => (((pdatsM m 10 c).arrAt_in 2 rfl _).trans (A_eq10 (fun c b => V11 m (outsM m) c b) c 2)).trans (V12_of m (outsM m) c main_v2 (by decide)).symm
  | 3 => (out_eq10 m c).symm.trans (Function.update_self (Proc.devRef .tc main_v12 : DevRef τ sig) (outsM m 12 main_v12 c) (V11 m (outsM m) c)).symm
  | ⟨_ + 4, h⟩ => absurd h (Nat.not_lt.2 (Nat.le_add_left _ _))

theorem hrest10 (c : Dev nD) : ∀ b : Ref sig .tc, b ∉ Finset.univ.image (Pipeline.arrRef spec10) → V12 m (outsM m) c b = V11 m (outsM m) c b :=
  fun b hb => V12_of m (outsM m) c b fun h => hb (by rw [List.mem_singleton.mp h]; exact Finset.mem_image.mpr ⟨(3 : Fin 4), Finset.mem_univ _, rfl⟩)

end Cert.KernelIdeal.Fr

end
-- ==== Proof.KI.Reg0.lean ====
import proofs.«109160_j26783416057954_1_alg».proof.Proof.KI.Pdats

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
noncomputable def reg0 : Pipeline.RegionSeg (pcfgs (F := F)) adm (pdatsM m) () defs₀ Variants.none L lv (0 : Fin 11) where
  win := launch0.win.to₀
  block_pos := launch0.block_pos
  stage_whole := launch0.stage_whole
  K := PEmpty
  osem k := k.elim
  ho := Pipeline.OwnSemFacts.none _
  hbody c := (body_obligation0 (fun c b => V1 m c b) c).loose
  hwaits := Pipeline.hwaits_of_owed_zero _ _ _ _ L lv (0 : Fin 11) fun c t => owed0 (fun c b => V1 m c b) c t
  pre c := iprop(StableHlo.held (c : Thread nD τ) (Pipeline.ucRefs τ sig) (V1 m c) ∗ R c)
  post c := iprop(StableHlo.held (c : Thread nD τ) (Pipeline.ucRefs τ sig) (V2 m (outsM m) c) ∗ R c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := (0 : Fin 11)) (pcfgs (F := F)) adm (pdatsM m) launch0.win launch0.arr_whole c
      ((pdatsM m (0 : Fin 11) c).share_full fun w => share0 (fun c b => V1 m c b) c w) (fun b => V1 m c b)
      fun w => A_eq0 (fun c b => V1 m c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Entails.of_eq (Phi0 (fun c b => V1 m c b) c 0).symm)
    unfold Pipeline.ΦA
    iintro ⟨Hp, -, Hr⟩
    isplitl [Hr]; · iexact Hr
    iexact Hp
  hout c := by
    rw [Pipeline.ownSems0_none]
    refine BIBase.Entails.trans (Entails.of_eq (Phi0 (fun c b => V1 m c b) c (Fin.last cfg0.N))) ?_
    unfold Pipeline.ΦA
    iintro ⟨Hr, Hp⟩
    isplitl [Hp]; · iexact Hp
    isplitr; · iempintro
    iexact Hr
  hexit c := by
    have hjoin := Pipeline.unscopedBufs_of_arrays (p := (0 : Fin 11)) (pcfgs (F := F)) adm (Ix := Unit) (Name := ℕ) (U := UR sig nD τ) (Lvl := ℕ)
      launch0.win launch0.arr_whole c (pdatsM m) ((pdatsM m (0 : Fin 11) c).share_full fun w => share0 (fun c b => V1 m c b) c w)
      (fun b => V1 m c b) (fun b => V2 m (outsM m) c b) ((pdatsM m (0 : Fin 11) c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg0_pre (c : Dev nD) : (reg0 m).pre c = iprop(StableHlo.held (c : Thread nD τ) (Pipeline.ucRefs τ sig) (V1 m c) ∗ R c) := rfl

theorem reg0_post (c : Dev nD) : (reg0 m).post c = iprop(StableHlo.held (c : Thread nD τ) (Pipeline.ucRefs τ sig) (V2 m (outsM m) c) ∗ R c) := rfl

end Cert.KernelIdeal.Fr

end
-- ==== Proof.KI.Reg1.lean ====
import proofs.«109160_j26783416057954_1_alg».proof.Proof.KI.Base
import proofs.«109160_j26783416057954_1_alg».proof.Proof.KI.Ap1s

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem arrImage1 : Finset.univ.image (Pipeline.arrRef spec1) = {main_arg1, main_v2, main_v3} := by decide

theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_v2) ↦{fullShare} V main_v2)
          ∗ (((c : Thread nD τ).loc main_v3) ↦{fullShare} V main_v3)) := by
  unfold Pipeline.arrBufs
  rw [arrImage1, bigSep_insert (by decide), bigSep_insert (by decide), bigSep_singleton]
  rfl

theorem arrays1s_eq (c : Dev nD) (d : Dat τ (Elt F) Unit ℕ (UR sig nD τ) ℕ cfg1 c) (hq : d.q = q1s)
    (G : (w : Fin cfg1.W) → Buf (Elt F) ((cfg1.win w).arr.view.loc (c : Thread nD τ))) :
    (d.arrays G : sProp 𝕄)
      = iprop((((c : Thread nD τ).loc main_arg1) ↦{fullShare} G 0) ∗ (((c : Thread nD τ).loc main_v2) ↦{fullShare.left} G 1)
          ∗ (((c : Thread nD τ).loc main_v2) ↦{fullShare.right} G 2) ∗ (((c : Thread nD τ).loc main_v3) ↦{fullShare} G 3)) := by
  unfold Dat.arrays
  rw [bigSep_W1]
  have h0 : d.share 0 = fullShare := by unfold Dat.share; rw [hq]; rfl
  have h1 : d.share 1 = fullShare.left := by unfold Dat.share; rw [hq]; rfl
  have h2 : d.share 2 = fullShare.right := by unfold Dat.share; rw [hq]; rfl
  have h3 : d.share 3 = fullShare := by unfold Dat.share; rfl
  have e : ∀ w, (cfg1.win w).arr.view.set = Finset.univ := fun w => (arr_whole1 w).set_eq_univ
  rw [h0, h1, h2, h3, e 0, e 1, e 3]

theorem arrays1s_of_unscopedBufs (c : Dev nD) (d : Dat τ (Elt F) Unit ℕ (UR sig nD τ) ℕ cfg1 c) (hq : d.q = q1s)
    (V : (b : Ref sig .tc) → Buf (Elt F) ((c : Thread nD τ).loc b)) (hA : ∀ w, d.A w = V (Pipeline.arrRef spec1 w)) :
    (unscopedBufs (Ix := Unit) (Name := ℕ) (U := UR sig nD τ) (Lvl := ℕ) c V : sProp 𝕄)
      ⊢ iprop(d.arrays (d.arrAt · 0) ∗ Pipeline.unscopedRest (Ix := Unit) (Name := ℕ) (U := UR sig nD τ) (Lvl := ℕ) spec1 c V) := by
  rw [show (unscopedBufs (Ix := Unit) (Name := ℕ) (U := UR sig nD τ) (Lvl := ℕ) c V : sProp 𝕄) = iprop(Pipeline.arrBufs spec1 c V ∗ Pipeline.unscopedRest spec1 c V)
      from Pipeline.unscopedBufs_split₀ cfgs 1 winFacts₀1.arr_unscoped c V, arrBufs1_eq, arrays1s_eq c d hq,
    show d.arrAt 0 0 = V main_arg1 from hA 0, show d.arrAt 1 0 = V main_v2 from hA 1, show d.arrAt 2 0 = V main_v2 from hA 2,
    show d.arrAt 3 0 = V main_v3 from hA 3]
  iintro ⟨⟨Ha, Hv, Ho⟩, Hr⟩
  ihave Hs := (pointsTo_share (PosShare.mem_left_op_right fullShare)).1 $$ Hv
  icases Hs with ⟨Hl, Hrt⟩
  isplitr [Hr]
  · isplitl [Ha]; · iexact Ha
    isplitl [Hl]; · iexact Hl
    isplitl [Hrt]; · iexact Hrt
    iexact Ho
  iexact Hr

theorem unscopedBufs_of_arrays1s (c : Dev nD) (d : Dat τ (Elt F) Unit ℕ (UR sig nD τ) ℕ cfg1 c) (hq : d.q = q1s)
    (V V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w))
    (hrest : ∀ b, b ∉ Finset.univ.image (Pipeline.arrRef spec1) → V' b = V b) :
    iprop(d.arrays G ∗ Pipeline.unscopedRest (Ix := Unit) (Name := ℕ) (U := UR sig nD τ) (Lvl := ℕ) spec1 c V)
      ⊢ (unscopedBufs (Ix := Unit) (Name := ℕ) (U := UR sig nD τ) (Lvl := ℕ) c V' : sProp 𝕄) := by
  have hr : (Pipeline.unscopedRest (Ix := Unit) (Name := ℕ) (U := UR sig nD τ) (Lvl := ℕ) spec1 c V : sProp 𝕄)
      = Pipeline.unscopedRest (Ix := Unit) (Name := ℕ) (U := UR sig nD τ) (Lvl := ℕ) spec1 c V' := by
    unfold Pipeline.unscopedRest
    exact bigSep_congr fun b hb => by rw [hrest b (Finset.mem_sdiff.mp hb).2]
  rw [show (unscopedBufs (Ix := Unit) (Name := ℕ) (U := UR sig nD τ) (Lvl := ℕ) c V' : sProp 𝕄) = iprop(Pipeline.arrBufs spec1 c V' ∗ Pipeline.unscopedRest spec1 c V')
      from Pipeline.unscopedBufs_split₀ cfgs 1 winFacts₀1.arr_unscoped c V', arrBufs1_eq, arrays1s_eq c d hq, hr,
    show G 0 = V' main_arg1 from hG 0, show G 1 = V' main_v2 from hG 1, show G 2 = V' main_v2 from hG 2, show G 3 = V' main_v3 from hG 3]
  iintro ⟨⟨Ha, Hl, Hrt, Ho⟩, Hr⟩
  ihave Hv := (pointsTo_share (PosShare.mem_left_op_right fullShare)).2 $$ [Hl Hrt]
  · isplitl [Hl] <;> iassumption
  isplitr [Hr]
  · isplitl [Ha]; · iexact Ha
    isplitl [Hv]; · iexact Hv
    iexact Ho
  iexact Hr

variable (m : (ℓ : Loc nD τ sig) → Buf (Elt F) ℓ) (outs : Gen.Outs (F := F))

set_option backward.isDefEq.respectTransparency.types false in

def reg1 (pdats : (p : Fin 11) → (c : Dev nD) → Dat τ (Elt F) Unit ℕ (UR sig nD τ) ℕ (cfgs p) c)
    (hp : ∀ c, pdats 1 c = dat1s (fun c b => V2 m outs c b) c)
    (ho : ∀ c, outs 3 main_v3 c = (pdats 1 c).arrAt 3 cfg1.N) :
    Pipeline.RegionSeg (pcfgs (F := F)) adm pdats () defs₀ Variants.none L lv 1 where
  win := winFacts₀1
  block_pos := block_pos1
  stage_whole := stage_whole1
  K := PEmpty
  osem k := k.elim
  ho := Pipeline.OwnSemFacts.none _
  hbody c := by rw [hp c]; exact (body_obligation1s _ c).loose
  hwaits := Pipeline.hwaits_of_owed_zero _ _ _ _ L lv 1 fun c t => by rw [hp c]; exact owed1s _ c t
  pre c := iprop(StableHlo.held (c : Thread nD τ) (Pipeline.ucRefs τ sig) (V2 m outs c) ∗ R c)
  post c := iprop(StableHlo.held (c : Thread nD τ) (Pipeline.ucRefs τ sig) (V3 m outs c) ∗ R c)
  X c := iprop(∃ r, prngReg c r)
  Y c := iprop(∃ r, prngReg c r)
  Z c := Pipeline.unscopedRest (Ix := Unit) (Name := ℕ) (U := UR sig nD τ) (Lvl := ℕ) spec1 c (fun b => V2 m outs c b)
  hentry c := by
    rw [Pipeline.ownSems0_none, hp c]
    have hsplit := arrays1s_of_unscopedBufs c (dat1s (fun c b => V2 m outs c b) c) rfl (fun b => V2 m outs c b)
      (fun w => A_eq1s (fun c b => V2 m outs c b) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hp c]
    refine BIBase.Entails.trans ?_ (hin1s (fun c b => V2 m outs c b) c)
    unfold Pipeline.ΦA
    iintro ⟨Hp, -, Hr⟩
    isplitl [Hr]; · iexact Hr
    iexact Hp
  hout c := by
    rw [Pipeline.ownSems0_none, hp c]
    refine BIBase.Entails.trans (hout1s (fun c b => V2 m outs c b) c) ?_
    unfold Pipeline.ΦA
    iintro ⟨Hr, Hp⟩
    isplitl [Hp]; · iexact Hp
    isplitr; · iempintro
    iexact Hr
  hexit c := by
    have ho' := ho c
    rw [hp c] at ho' ⊢
    have hG : ∀ w : Fin cfg1.W, (dat1s (fun c b => V2 m outs c b) c).arrAt w cfg1.N = V3 m outs c (Pipeline.arrRef spec1 w) := fun
      | 0 => (Dat.arrAt_in (dat1s (fun c b => V2 m outs c b) c) 0 rfl cfg1.N).trans
          ((A_eq1s (fun c b => V2 m outs c b) c 0).trans (V3_of m outs c main_arg1 (by decide)).symm)
      | 1 => (Dat.arrAt_in (dat1s (fun c b => V2 m outs c b) c) 1 rfl cfg1.N).trans
          ((A_eq1s (fun c b => V2 m outs c b) c 1).trans (V3_of m outs c main_v2 (by decide)).symm)
      | 2 => (Dat.arrAt_in (dat1s (fun c b => V2 m outs c b) c) 2 rfl cfg1.N).trans
          ((A_eq1s (fun c b => V2 m outs c b) c 2).trans (V3_of m outs c main_v2 (by decide)).symm)
      | 3 => ho'.symm.trans (Function.update_self (β := fun b : DevRef τ sig => b.ty.Contents (Elt F)) _ _ _).symm
      | ⟨_ + 4, h⟩ => absurd h (Nat.not_lt.2 (Nat.le_add_left _ _))
    have hrest : ∀ b, b ∉ Finset.univ.image (Pipeline.arrRef spec1) → V3 m outs c b = V2 m outs c b := fun b hb =>
      V3_of m outs c b fun h => hb (by
        rw [List.mem_singleton.mp h]; exact Finset.mem_image.mpr ⟨3, Finset.mem_univ _, rfl⟩)
    have hjoin := unscopedBufs_of_arrays1s c (dat1s (fun c b => V2 m outs c b) c) rfl (fun b => V2 m outs c b) (fun b => V3 m outs c b)
      ((dat1s (fun c b => V2 m outs c b) c).arrAt · cfg1.N) hG hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg1_pre (pdats : (p : Fin 11) → (c : Dev nD) → Dat τ (Elt F) Unit ℕ (UR sig nD τ) ℕ (cfgs p) c)
    (hp : ∀ c, pdats 1 c = dat1s (fun c b => V2 m outs c b) c) (ho : ∀ c, outs 3 main_v3 c = (pdats 1 c).arrAt 3 cfg1.N) (c : Dev nD) :
    (reg1 m outs pdats hp ho).pre c = iprop(StableHlo.held (c : Thread nD τ) (Pipeline.ucRefs τ sig) (V2 m outs c) ∗ R c) := rfl
theorem reg1_post (pdats : (p : Fin 11) → (c : Dev nD) → Dat τ (Elt F) Unit ℕ (UR sig nD τ) ℕ (cfgs p) c)
    (hp : ∀ c, pdats 1 c = dat1s (fun c b => V2 m outs c b) c) (ho : ∀ c, outs 3 main_v3 c = (pdats 1 c).arrAt 3 cfg1.N) (c : Dev nD) :
    (reg1 m outs pdats hp ho).post c = iprop(StableHlo.held (c : Thread nD τ) (Pipeline.ucRefs τ sig) (V3 m outs c) ∗ R c) := rfl

end Cert.KernelIdeal.Fr

end
-- ==== Proof.KI.Reg2.lean ====
import proofs.«109160_j26783416057954_1_alg».proof.Proof.KI.Pdats

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
noncomputable def reg2 : Pipeline.RegionSeg (pcfgs (F := F)) adm (pdatsM m) () defs₀ Variants.none L lv (2 : Fin 11) where
  win := launch2.win.to₀
  block_pos := launch2.block_pos
  stage_whole := launch2.stage_whole
  K := PEmpty
  osem k := k.elim
  ho := Pipeline.OwnSemFacts.none _
  hbody c := (body_obligation2 (fun c b => V3 m (outsM m) c b) c).loose
  hwaits := Pipeline.hwaits_of_owed_zero _ _ _ _ L lv (2 : Fin 11) fun c t => owed2 (fun c b => V3 m (outsM m) c b) c t
  pre c := iprop(StableHlo.held (c : Thread nD τ) (Pipeline.ucRefs τ sig) (V3 m (outsM m) c) ∗ R c)
  post c := iprop(StableHlo.held (c : Thread nD τ) (Pipeline.ucRefs τ sig) (V4 m (outsM m) c) ∗ R c)
  X c := iprop(∃ r, prngReg c r)
  Y c := iprop(∃ r, prngReg c r)
  Z c := Pipeline.unscopedRest (Ix := Unit) (Name := ℕ) (U := UR sig nD τ) (Lvl := ℕ) spec2 c (fun b => V3 m (outsM m) c b)
  hentry c := by
    rw [Pipeline.ownSems0_none]
    have hsplit := Pipeline.arrays_of_unscopedBufs (p := (2 : Fin 11)) (pcfgs (F := F)) adm (pdatsM m) launch2.win launch2.arr_whole c
      ((pdatsM m (2 : Fin 11) c).share_full fun w => share2 (fun c b => V3 m (outsM m) c b) c w) (fun b => V3 m (outsM m) c b)
      fun w => A_eq2 (fun c b => V3 m (outsM m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (fun c b => V3 m (outsM m) c b) c)
    unfold Pipeline.ΦA
    iintro ⟨Hp, -, Hr⟩
    isplitl [Hr]; · iexact Hr
    iexact Hp
  hout c := by
    rw [Pipeline.ownSems0_none]
    refine BIBase.Entails.trans (hout2 (fun c b => V3 m (outsM m) c b) c) ?_
    unfold Pipeline.ΦA
    iintro ⟨Hr, Hp⟩
    isplitl [Hp]; · iexact Hp
    isplitr; · iempintro
    iexact Hr
  hexit c := by
    have hjoin := Pipeline.unscopedBufs_of_arrays (p := (2 : Fin 11)) (pcfgs (F := F)) adm (Ix := Unit) (Name := ℕ) (U := UR sig nD τ) (Lvl := ℕ)
      launch2.win launch2.arr_whole c (pdatsM m) ((pdatsM m (2 : Fin 11) c).share_full fun w => share2 (fun c b => V3 m (outsM m) c b) c w)
      (fun b => V3 m (outsM m) c b) (fun b => V4 m (outsM m) c b) ((pdatsM m (2 : Fin 11) c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg2_pre (c : Dev nD) : (reg2 m).pre c = iprop(StableHlo.held (c : Thread nD τ) (Pipeline.ucRefs τ sig) (V3 m (outsM m) c) ∗ R c) := rfl

theorem reg2_post (c : Dev nD) : (reg2 m).post c = iprop(StableHlo.held (c : Thread nD τ) (Pipeline.ucRefs τ sig) (V4 m (outsM m) c) ∗ R c) := rfl

end Cert.KernelIdeal.Fr

end
-- ==== Proof.KI.Reg3.lean ====
/- (proof/Proof/KI/Reg2.lean with region 3's names put for region 2's; nothing else changed) -/
import proofs.«109160_j26783416057954_1_alg».proof.Proof.KI.Pdats

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
noncomputable def reg3 : Pipeline.RegionSeg (pcfgs (F := F)) adm (pdatsM m) () defs₀ Variants.none L lv (3 : Fin 11) where
  win := launch3.win.to₀
  block_pos := launch3.block_pos
  stage_whole := launch3.stage_whole
  K := PEmpty
  osem k := k.elim
  ho := Pipeline.OwnSemFacts.none _
  hbody c := (body_obligation3 (fun c b => V4 m (outsM m) c b) c).loose
  hwaits := Pipeline.hwaits_of_owed_zero _ _ _ _ L lv (3 : Fin 11) fun c t => owed3 (fun c b => V4 m (outsM m) c b) c t
  pre c := iprop(StableHlo.held (c : Thread nD τ) (Pipeline.ucRefs τ sig) (V4 m (outsM m) c) ∗ R c)
  post c := iprop(StableHlo.held (c : Thread nD τ) (Pipeline.ucRefs τ sig) (V5 m (outsM m) c) ∗ R c)
  X c := iprop(∃ r, prngReg c r)
  Y c := iprop(∃ r, prngReg c r)
  Z c := Pipeline.unscopedRest (Ix := Unit) (Name := ℕ) (U := UR sig nD τ) (Lvl := ℕ) spec3 c (fun b => V4 m (outsM m) c b)
  hentry c := by
    rw [Pipeline.ownSems0_none]
    have hsplit := Pipeline.arrays_of_unscopedBufs (p := (3 : Fin 11)) (pcfgs (F := F)) adm (pdatsM m) launch3.win launch3.arr_whole c
      ((pdatsM m (3 : Fin 11) c).share_full fun w => share3 (fun c b => V4 m (outsM m) c b) c w) (fun b => V4 m (outsM m) c b)
      fun w => A_eq3 (fun c b => V4 m (outsM m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (fun c b => V4 m (outsM m) c b) c)
    unfold Pipeline.ΦA
    iintro ⟨Hp, -, Hr⟩
    isplitl [Hr]; · iexact Hr
    iexact Hp
  hout c := by
    rw [Pipeline.ownSems0_none]
    refine BIBase.Entails.trans (hout3 (fun c b => V4 m (outsM m) c b) c) ?_
    unfold Pipeline.ΦA
    iintro ⟨Hr, Hp⟩
    isplitl [Hp]; · iexact Hp
    isplitr; · iempintro
    iexact Hr
  hexit c := by
    have hjoin := Pipeline.unscopedBufs_of_arrays (p := (3 : Fin 11)) (pcfgs (F := F)) adm (Ix := Unit) (Name := ℕ) (U := UR sig nD τ) (Lvl := ℕ)
      launch3.win launch3.arr_whole c (pdatsM m) ((pdatsM m (3 : Fin 11) c).share_full fun w => share3 (fun c b => V4 m (outsM m) c b) c w)
      (fun b => V4 m (outsM m) c b) (fun b => V5 m (outsM m) c b) ((pdatsM m (3 : Fin 11) c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg3_pre (c : Dev nD) : (reg3 m).pre c = iprop(StableHlo.held (c : Thread nD τ) (Pipeline.ucRefs τ sig) (V4 m (outsM m) c) ∗ R c) := rfl

theorem reg3_post (c : Dev nD) : (reg3 m).post c = iprop(StableHlo.held (c : Thread nD τ) (Pipeline.ucRefs τ sig) (V5 m (outsM m) c) ∗ R c) := rfl

end Cert.KernelIdeal.Fr

end
-- ==== Proof.KI.Reg4.lean ====
/- (proof/Proof/KI/Reg2.lean with region 4's names put for region 2's; nothing else changed) -/
import proofs.«109160_j26783416057954_1_alg».proof.Proof.KI.Pdats

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
noncomputable def reg4 : Pipeline.RegionSeg (pcfgs (F := F)) adm (pdatsM m) () defs₀ Variants.none L lv (4 : Fin 11) where
  win := launch4.win.to₀
  block_pos := launch4.block_pos
  stage_whole := launch4.stage_whole
  K := PEmpty
  osem k := k.elim
  ho := Pipeline.OwnSemFacts.none _
  hbody c := (body_obligation4 (fun c b => V5 m (outsM m) c b) c).loose
  hwaits := Pipeline.hwaits_of_owed_zero _ _ _ _ L lv (4 : Fin 11) fun c t => owed4 (fun c b => V5 m (outsM m) c b) c t
  pre c := iprop(StableHlo.held (c : Thread nD τ) (Pipeline.ucRefs τ sig) (V5 m (outsM m) c) ∗ R c)
  post c := iprop(StableHlo.held (c : Thread nD τ) (Pipeline.ucRefs τ sig) (V6 m (outsM m) c) ∗ R c)
  X c := iprop(∃ r, prngReg c r)
  Y c := iprop(∃ r, prngReg c r)
  Z c := Pipeline.unscopedRest (Ix := Unit) (Name := ℕ) (U := UR sig nD τ) (Lvl := ℕ) spec4 c (fun b => V5 m (outsM m) c b)
  hentry c := by
    rw [Pipeline.ownSems0_none]
    have hsplit := Pipeline.arrays_of_unscopedBufs (p := (4 : Fin 11)) (pcfgs (F := F)) adm (pdatsM m) launch4.win launch4.arr_whole c
      ((pdatsM m (4 : Fin 11) c).share_full fun w => share4 (fun c b => V5 m (outsM m) c b) c w) (fun b => V5 m (outsM m) c b)
      fun w => A_eq4 (fun c b => V5 m (outsM m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (fun c b => V5 m (outsM m) c b) c)
    unfold Pipeline.ΦA
    iintro ⟨Hp, -, Hr⟩
    isplitl [Hr]; · iexact Hr
    iexact Hp
  hout c := by
    rw [Pipeline.ownSems0_none]
    refine BIBase.Entails.trans (hout4 (fun c b => V5 m (outsM m) c b) c) ?_
    unfold Pipeline.ΦA
    iintro ⟨Hr, Hp⟩
    isplitl [Hp]; · iexact Hp
    isplitr; · iempintro
    iexact Hr
  hexit c := by
    have hjoin := Pipeline.unscopedBufs_of_arrays (p := (4 : Fin 11)) (pcfgs (F := F)) adm (Ix := Unit) (Name := ℕ) (U := UR sig nD τ) (Lvl := ℕ)
      launch4.win launch4.arr_whole c (pdatsM m) ((pdatsM m (4 : Fin 11) c).share_full fun w => share4 (fun c b => V5 m (outsM m) c b) c w)
      (fun b => V5 m (outsM m) c b) (fun b => V6 m (outsM m) c b) ((pdatsM m (4 : Fin 11) c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg4_pre (c : Dev nD) : (reg4 m).pre c = iprop(StableHlo.held (c : Thread nD τ) (Pipeline.ucRefs τ sig) (V5 m (outsM m) c) ∗ R c) := rfl

theorem reg4_post (c : Dev nD) : (reg4 m).post c = iprop(StableHlo.held (c : Thread nD τ) (Pipeline.ucRefs τ sig) (V6 m (outsM m) c) ∗ R c) := rfl

end Cert.KernelIdeal.Fr

end
-- ==== Proof.KI.Reg5.lean ====
/- (proof/Proof/KI/Reg2.lean with region 5's names put for region 2's; nothing else changed) -/
import proofs.«109160_j26783416057954_1_alg».proof.Proof.KI.Pdats

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
noncomputable def reg5 : Pipeline.RegionSeg (pcfgs (F := F)) adm (pdatsM m) () defs₀ Variants.none L lv (5 : Fin 11) where
  win := launch5.win.to₀
  block_pos := launch5.block_pos
  stage_whole := launch5.stage_whole
  K := PEmpty
  osem k := k.elim
  ho := Pipeline.OwnSemFacts.none _
  hbody c := (body_obligation5 (fun c b => V6 m (outsM m) c b) c).loose
  hwaits := Pipeline.hwaits_of_owed_zero _ _ _ _ L lv (5 : Fin 11) fun c t => owed5 (fun c b => V6 m (outsM m) c b) c t
  pre c := iprop(StableHlo.held (c : Thread nD τ) (Pipeline.ucRefs τ sig) (V6 m (outsM m) c) ∗ R c)
  post c := iprop(StableHlo.held (c : Thread nD τ) (Pipeline.ucRefs τ sig) (V7 m (outsM m) c) ∗ R c)
  X c := iprop(∃ r, prngReg c r)
  Y c := iprop(∃ r, prngReg c r)
  Z c := Pipeline.unscopedRest (Ix := Unit) (Name := ℕ) (U := UR sig nD τ) (Lvl := ℕ) spec5 c (fun b => V6 m (outsM m) c b)
  hentry c := by
    rw [Pipeline.ownSems0_none]
    have hsplit := Pipeline.arrays_of_unscopedBufs (p := (5 : Fin 11)) (pcfgs (F := F)) adm (pdatsM m) launch5.win launch5.arr_whole c
      ((pdatsM m (5 : Fin 11) c).share_full fun w => share5 (fun c b => V6 m (outsM m) c b) c w) (fun b => V6 m (outsM m) c b)
      fun w => A_eq5 (fun c b => V6 m (outsM m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (fun c b => V6 m (outsM m) c b) c)
    unfold Pipeline.ΦA
    iintro ⟨Hp, -, Hr⟩
    isplitl [Hr]; · iexact Hr
    iexact Hp
  hout c := by
    rw [Pipeline.ownSems0_none]
    refine BIBase.Entails.trans (hout5 (fun c b => V6 m (outsM m) c b) c) ?_
    unfold Pipeline.ΦA
    iintro ⟨Hr, Hp⟩
    isplitl [Hp]; · iexact Hp
    isplitr; · iempintro
    iexact Hr
  hexit c := by
    have hjoin := Pipeline.unscopedBufs_of_arrays (p := (5 : Fin 11)) (pcfgs (F := F)) adm (Ix := Unit) (Name := ℕ) (U := UR sig nD τ) (Lvl := ℕ)
      launch5.win launch5.arr_whole c (pdatsM m) ((pdatsM m (5 : Fin 11) c).share_full fun w => share5 (fun c b => V6 m (outsM m) c b) c w)
      (fun b => V6 m (outsM m) c b) (fun b => V7 m (outsM m) c b) ((pdatsM m (5 : Fin 11) c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg5_pre (c : Dev nD) : (reg5 m).pre c = iprop(StableHlo.held (c : Thread nD τ) (Pipeline.ucRefs τ sig) (V6 m (outsM m) c) ∗ R c) := rfl

theorem reg5_post (c : Dev nD) : (reg5 m).post c = iprop(StableHlo.held (c : Thread nD τ) (Pipeline.ucRefs τ sig) (V7 m (outsM m) c) ∗ R c) := rfl

end Cert.KernelIdeal.Fr

end
-- ==== Proof.KI.Reg6.lean ====
/- (proof/Proof/KI/Reg2.lean with region 6's names put for region 2's; nothing else changed) -/
import proofs.«109160_j26783416057954_1_alg».proof.Proof.KI.Pdats

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
noncomputable def reg6 : Pipeline.RegionSeg (pcfgs (F := F)) adm (pdatsM m) () defs₀ Variants.none L lv (6 : Fin 11) where
  win := launch6.win.to₀
  block_pos := launch6.block_pos
  stage_whole := launch6.stage_whole
  K := PEmpty
  osem k := k.elim
  ho := Pipeline.OwnSemFacts.none _
  hbody c := (body_obligation6 (fun c b => V7 m (outsM m) c b) c).loose
  hwaits := Pipeline.hwaits_of_owed_zero _ _ _ _ L lv (6 : Fin 11) fun c t => owed6 (fun c b => V7 m (outsM m) c b) c t
  pre c := iprop(StableHlo.held (c : Thread nD τ) (Pipeline.ucRefs τ sig) (V7 m (outsM m) c) ∗ R c)
  post c := iprop(StableHlo.held (c : Thread nD τ) (Pipeline.ucRefs τ sig) (V8 m (outsM m) c) ∗ R c)
  X c := iprop(∃ r, prngReg c r)
  Y c := iprop(∃ r, prngReg c r)
  Z c := Pipeline.unscopedRest (Ix := Unit) (Name := ℕ) (U := UR sig nD τ) (Lvl := ℕ) spec6 c (fun b => V7 m (outsM m) c b)
  hentry c := by
    rw [Pipeline.ownSems0_none]
    have hsplit := Pipeline.arrays_of_unscopedBufs (p := (6 : Fin 11)) (pcfgs (F := F)) adm (pdatsM m) launch6.win launch6.arr_whole c
      ((pdatsM m (6 : Fin 11) c).share_full fun w => share6 (fun c b => V7 m (outsM m) c b) c w) (fun b => V7 m (outsM m) c b)
      fun w => A_eq6 (fun c b => V7 m (outsM m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin6 (fun c b => V7 m (outsM m) c b) c)
    unfold Pipeline.ΦA
    iintro ⟨Hp, -, Hr⟩
    isplitl [Hr]; · iexact Hr
    iexact Hp
  hout c := by
    rw [Pipeline.ownSems0_none]
    refine BIBase.Entails.trans (hout6 (fun c b => V7 m (outsM m) c b) c) ?_
    unfold Pipeline.ΦA
    iintro ⟨Hr, Hp⟩
    isplitl [Hp]; · iexact Hp
    isplitr; · iempintro
    iexact Hr
  hexit c := by
    have hjoin := Pipeline.unscopedBufs_of_arrays (p := (6 : Fin 11)) (pcfgs (F := F)) adm (Ix := Unit) (Name := ℕ) (U := UR sig nD τ) (Lvl := ℕ)
      launch6.win launch6.arr_whole c (pdatsM m) ((pdatsM m (6 : Fin 11) c).share_full fun w => share6 (fun c b => V7 m (outsM m) c b) c w)
      (fun b => V7 m (outsM m) c b) (fun b => V8 m (outsM m) c b) ((pdatsM m (6 : Fin 11) c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg6_pre (c : Dev nD) : (reg6 m).pre c = iprop(StableHlo.held (c : Thread nD τ) (Pipeline.ucRefs τ sig) (V7 m (outsM m) c) ∗ R c) := rfl

theorem reg6_post (c : Dev nD) : (reg6 m).post c = iprop(StableHlo.held (c : Thread nD τ) (Pipeline.ucRefs τ sig) (V8 m (outsM m) c) ∗ R c) := rfl

end Cert.KernelIdeal.Fr

end
-- ==== Proof.KI.Reg7.lean ====
/- (proof/Proof/KI/Reg2.lean with region 7's names put for region 2's; nothing else changed) -/
import proofs.«109160_j26783416057954_1_alg».proof.Proof.KI.Pdats

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
noncomputable def reg7 : Pipeline.RegionSeg (pcfgs (F := F)) adm (pdatsM m) () defs₀ Variants.none L lv (7 : Fin 11) where
  win := launch7.win.to₀
  block_pos := launch7.block_pos
  stage_whole := launch7.stage_whole
  K := PEmpty
  osem k := k.elim
  ho := Pipeline.OwnSemFacts.none _
  hbody c := (body_obligation7 (fun c b => V8 m (outsM m) c b) c).loose
  hwaits := Pipeline.hwaits_of_owed_zero _ _ _ _ L lv (7 : Fin 11) fun c t => owed7 (fun c b => V8 m (outsM m) c b) c t
  pre c := iprop(StableHlo.held (c : Thread nD τ) (Pipeline.ucRefs τ sig) (V8 m (outsM m) c) ∗ R c)
  post c := iprop(StableHlo.held (c : Thread nD τ) (Pipeline.ucRefs τ sig) (V9 m (outsM m) c) ∗ R c)
  X c := iprop(∃ r, prngReg c r)
  Y c := iprop(∃ r, prngReg c r)
  Z c := Pipeline.unscopedRest (Ix := Unit) (Name := ℕ) (U := UR sig nD τ) (Lvl := ℕ) spec7 c (fun b => V8 m (outsM m) c b)
  hentry c := by
    rw [Pipeline.ownSems0_none]
    have hsplit := Pipeline.arrays_of_unscopedBufs (p := (7 : Fin 11)) (pcfgs (F := F)) adm (pdatsM m) launch7.win launch7.arr_whole c
      ((pdatsM m (7 : Fin 11) c).share_full fun w => share7 (fun c b => V8 m (outsM m) c b) c w) (fun b => V8 m (outsM m) c b)
      fun w => A_eq7 (fun c b => V8 m (outsM m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin7 (fun c b => V8 m (outsM m) c b) c)
    unfold Pipeline.ΦA
    iintro ⟨Hp, -, Hr⟩
    isplitl [Hr]; · iexact Hr
    iexact Hp
  hout c := by
    rw [Pipeline.ownSems0_none]
    refine BIBase.Entails.trans (hout7 (fun c b => V8 m (outsM m) c b) c) ?_
    unfold Pipeline.ΦA
    iintro ⟨Hr, Hp⟩
    isplitl [Hp]; · iexact Hp
    isplitr; · iempintro
    iexact Hr
  hexit c := by
    have hjoin := Pipeline.unscopedBufs_of_arrays (p := (7 : Fin 11)) (pcfgs (F := F)) adm (Ix := Unit) (Name := ℕ) (U := UR sig nD τ) (Lvl := ℕ)
      launch7.win launch7.arr_whole c (pdatsM m) ((pdatsM m (7 : Fin 11) c).share_full fun w => share7 (fun c b => V8 m (outsM m) c b) c w)
      (fun b => V8 m (outsM m) c b) (fun b => V9 m (outsM m) c b) ((pdatsM m (7 : Fin 11) c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg7_pre (c : Dev nD) : (reg7 m).pre c = iprop(StableHlo.held (c : Thread nD τ) (Pipeline.ucRefs τ sig) (V8 m (outsM m) c) ∗ R c) := rfl

theorem reg7_post (c : Dev nD) : (reg7 m).post c = iprop(StableHlo.held (c : Thread nD τ) (Pipeline.ucRefs τ sig) (V9 m (outsM m) c) ∗ R c) := rfl

end Cert.KernelIdeal.Fr

end
-- ==== Proof.KI.Reg8.lean ====
/- (proof/Proof/KI/Reg2.lean with region 8's names put for region 2's; nothing else changed) -/
import proofs.«109160_j26783416057954_1_alg».proof.Proof.KI.Pdats

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
noncomputable def reg8 : Pipeline.RegionSeg (pcfgs (F := F)) adm (pdatsM m) () defs₀ Variants.none L lv (8 : Fin 11) where
  win := launch8.win.to₀
  block_pos := launch8.block_pos
  stage_whole := launch8.stage_whole
  K := PEmpty
  osem k := k.elim
  ho := Pipeline.OwnSemFacts.none _
  hbody c := (body_obligation8 (fun c b => V9 m (outsM m) c b) c).loose
  hwaits := Pipeline.hwaits_of_owed_zero _ _ _ _ L lv (8 : Fin 11) fun c t => owed8 (fun c b => V9 m (outsM m) c b) c t
  pre c := iprop(StableHlo.held (c : Thread nD τ) (Pipeline.ucRefs τ sig) (V9 m (outsM m) c) ∗ R c)
  post c := iprop(StableHlo.held (c : Thread nD τ) (Pipeline.ucRefs τ sig) (V10 m (outsM m) c) ∗ R c)
  X c := iprop(∃ r, prngReg c r)
  Y c := iprop(∃ r, prngReg c r)
  Z c := Pipeline.unscopedRest (Ix := Unit) (Name := ℕ) (U := UR sig nD τ) (Lvl := ℕ) spec8 c (fun b => V9 m (outsM m) c b)
  hentry c := by
    rw [Pipeline.ownSems0_none]
    have hsplit := Pipeline.arrays_of_unscopedBufs (p := (8 : Fin 11)) (pcfgs (F := F)) adm (pdatsM m) launch8.win launch8.arr_whole c
      ((pdatsM m (8 : Fin 11) c).share_full fun w => share8 (fun c b => V9 m (outsM m) c b) c w) (fun b => V9 m (outsM m) c b)
      fun w => A_eq8 (fun c b => V9 m (outsM m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin8 (fun c b => V9 m (outsM m) c b) c)
    unfold Pipeline.ΦA
    iintro ⟨Hp, -, Hr⟩
    isplitl [Hr]; · iexact Hr
    iexact Hp
  hout c := by
    rw [Pipeline.ownSems0_none]
    refine BIBase.Entails.trans (hout8 (fun c b => V9 m (outsM m) c b) c) ?_
    unfold Pipeline.ΦA
    iintro ⟨Hr, Hp⟩
    isplitl [Hp]; · iexact Hp
    isplitr; · iempintro
    iexact Hr
  hexit c := by
    have hjoin := Pipeline.unscopedBufs_of_arrays (p := (8 : Fin 11)) (pcfgs (F := F)) adm (Ix := Unit) (Name := ℕ) (U := UR sig nD τ) (Lvl := ℕ)
      launch8.win launch8.arr_whole c (pdatsM m) ((pdatsM m (8 : Fin 11) c).share_full fun w => share8 (fun c b => V9 m (outsM m) c b) c w)
      (fun b => V9 m (outsM m) c b) (fun b => V10 m (outsM m) c b) ((pdatsM m (8 : Fin 11) c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg8_pre (c : Dev nD) : (reg8 m).pre c = iprop(StableHlo.held (c : Thread nD τ) (Pipeline.ucRefs τ sig) (V9 m (outsM m) c) ∗ R c) := rfl

theorem reg8_post (c : Dev nD) : (reg8 m).post c = iprop(StableHlo.held (c : Thread nD τ) (Pipeline.ucRefs τ sig) (V10 m (outsM m) c) ∗ R c) := rfl

end Cert.KernelIdeal.Fr

end
-- ==== Proof.KI.Reg9.lean ====
/- (proof/Proof/KI/Reg2.lean with region 9's names put for region 2's; nothing else changed) -/
import proofs.«109160_j26783416057954_1_alg».proof.Proof.KI.Pdats

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
noncomputable def reg9 : Pipeline.RegionSeg (pcfgs (F := F)) adm (pdatsM m) () defs₀ Variants.none L lv (9 : Fin 11) where
  win := launch9.win.to₀
  block_pos := launch9.block_pos
  stage_whole := launch9.stage_whole
  K := PEmpty
  osem k := k.elim
  ho := Pipeline.OwnSemFacts.none _
  hbody c := (body_obligation9 (fun c b => V10 m (outsM m) c b) c).loose
  hwaits := Pipeline.hwaits_of_owed_zero _ _ _ _ L lv (9 : Fin 11) fun c t => owed9 (fun c b => V10 m (outsM m) c b) c t
  pre c := iprop(StableHlo.held (c : Thread nD τ) (Pipeline.ucRefs τ sig) (V10 m (outsM m) c) ∗ R c)
  post c := iprop(StableHlo.held (c : Thread nD τ) (Pipeline.ucRefs τ sig) (V11 m (outsM m) c) ∗ R c)
  X c := iprop(∃ r, prngReg c r)
  Y c := iprop(∃ r, prngReg c r)
  Z c := Pipeline.unscopedRest (Ix := Unit) (Name := ℕ) (U := UR sig nD τ) (Lvl := ℕ) spec9 c (fun b => V10 m (outsM m) c b)
  hentry c := by
    rw [Pipeline.ownSems0_none]
    have hsplit := Pipeline.arrays_of_unscopedBufs (p := (9 : Fin 11)) (pcfgs (F := F)) adm (pdatsM m) launch9.win launch9.arr_whole c
      ((pdatsM m (9 : Fin 11) c).share_full fun w => share9 (fun c b => V10 m (outsM m) c b) c w) (fun b => V10 m (outsM m) c b)
      fun w => A_eq9 (fun c b => V10 m (outsM m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin9 (fun c b => V10 m (outsM m) c b) c)
    unfold Pipeline.ΦA
    iintro ⟨Hp, -, Hr⟩
    isplitl [Hr]; · iexact Hr
    iexact Hp
  hout c := by
    rw [Pipeline.ownSems0_none]
    refine BIBase.Entails.trans (hout9 (fun c b => V10 m (outsM m) c b) c) ?_
    unfold Pipeline.ΦA
    iintro ⟨Hr, Hp⟩
    isplitl [Hp]; · iexact Hp
    isplitr; · iempintro
    iexact Hr
  hexit c := by
    have hjoin := Pipeline.unscopedBufs_of_arrays (p := (9 : Fin 11)) (pcfgs (F := F)) adm (Ix := Unit) (Name := ℕ) (U := UR sig nD τ) (Lvl := ℕ)
      launch9.win launch9.arr_whole c (pdatsM m) ((pdatsM m (9 : Fin 11) c).share_full fun w => share9 (fun c b => V10 m (outsM m) c b) c w)
      (fun b => V10 m (outsM m) c b) (fun b => V11 m (outsM m) c b) ((pdatsM m (9 : Fin 11) c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg9_pre (c : Dev nD) : (reg9 m).pre c = iprop(StableHlo.held (c : Thread nD τ) (Pipeline.ucRefs τ sig) (V10 m (outsM m) c) ∗ R c) := rfl

theorem reg9_post (c : Dev nD) : (reg9 m).post c = iprop(StableHlo.held (c : Thread nD τ) (Pipeline.ucRefs τ sig) (V11 m (outsM m) c) ∗ R c) := rfl

end Cert.KernelIdeal.Fr

end
-- ==== Proof.KI.Reg10.lean ====
/- (proof/Proof/KI/Reg2.lean with region 10's names put for region 2's; nothing else changed) -/
import proofs.«109160_j26783416057954_1_alg».proof.Proof.KI.Pdats

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
noncomputable def reg10 : Pipeline.RegionSeg (pcfgs (F := F)) adm (pdatsM m) () defs₀ Variants.none L lv (10 : Fin 11) where
  win := launch10.win.to₀
  block_pos := launch10.block_pos
  stage_whole := launch10.stage_whole
  K := PEmpty
  osem k := k.elim
  ho := Pipeline.OwnSemFacts.none _
  hbody c := (body_obligation10 (fun c b => V11 m (outsM m) c b) c).loose
  hwaits := Pipeline.hwaits_of_owed_zero _ _ _ _ L lv (10 : Fin 11) fun c t => owed10 (fun c b => V11 m (outsM m) c b) c t
  pre c := iprop(StableHlo.held (c : Thread nD τ) (Pipeline.ucRefs τ sig) (V11 m (outsM m) c) ∗ R c)
  post c := iprop(StableHlo.held (c : Thread nD τ) (Pipeline.ucRefs τ sig) (V12 m (outsM m) c) ∗ R c)
  X c := iprop(∃ r, prngReg c r)
  Y c := iprop(∃ r, prngReg c r)
  Z c := Pipeline.unscopedRest (Ix := Unit) (Name := ℕ) (U := UR sig nD τ) (Lvl := ℕ) spec10 c (fun b => V11 m (outsM m) c b)
  hentry c := by
    rw [Pipeline.ownSems0_none]
    have hsplit := Pipeline.arrays_of_unscopedBufs (p := (10 : Fin 11)) (pcfgs (F := F)) adm (pdatsM m) launch10.win launch10.arr_whole c
      ((pdatsM m (10 : Fin 11) c).share_full fun w => share10 (fun c b => V11 m (outsM m) c b) c w) (fun b => V11 m (outsM m) c b)
      fun w => A_eq10 (fun c b => V11 m (outsM m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin10 (fun c b => V11 m (outsM m) c b) c)
    unfold Pipeline.ΦA
    iintro ⟨Hp, -, Hr⟩
    isplitl [Hr]; · iexact Hr
    iexact Hp
  hout c := by
    rw [Pipeline.ownSems0_none]
    refine BIBase.Entails.trans (hout10 (fun c b => V11 m (outsM m) c b) c) ?_
    unfold Pipeline.ΦA
    iintro ⟨Hr, Hp⟩
    isplitl [Hp]; · iexact Hp
    isplitr; · iempintro
    iexact Hr
  hexit c := by
    have hjoin := Pipeline.unscopedBufs_of_arrays (p := (10 : Fin 11)) (pcfgs (F := F)) adm (Ix := Unit) (Name := ℕ) (U := UR sig nD τ) (Lvl := ℕ)
      launch10.win launch10.arr_whole c (pdatsM m) ((pdatsM m (10 : Fin 11) c).share_full fun w => share10 (fun c b => V11 m (outsM m) c b) c w)
      (fun b => V11 m (outsM m) c b) (fun b => V12 m (outsM m) c b) ((pdatsM m (10 : Fin 11) c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg10_pre (c : Dev nD) : (reg10 m).pre c = iprop(StableHlo.held (c : Thread nD τ) (Pipeline.ucRefs τ sig) (V11 m (outsM m) c) ∗ R c) := rfl

theorem reg10_post (c : Dev nD) : (reg10 m).post c = iprop(StableHlo.held (c : Thread nD τ) (Pipeline.ucRefs τ sig) (V12 m (outsM m) c) ∗ R c) := rfl

end Cert.KernelIdeal.Fr

end
-- ==== Proof.KI.Run.lean ====
import proofs.«109160_j26783416057954_1_alg».proof.Proof.KI.RunInst
import proofs.«109160_j26783416057954_1_alg».proof.Proof.KI.Pdats
import proofs.«109160_j26783416057954_1_alg».proof.Proof.KI.Reg0
import proofs.«109160_j26783416057954_1_alg».proof.Proof.KI.Reg1
import proofs.«109160_j26783416057954_1_alg».proof.Proof.KI.Reg2
import proofs.«109160_j26783416057954_1_alg».proof.Proof.KI.Reg3
import proofs.«109160_j26783416057954_1_alg».proof.Proof.KI.Reg4
import proofs.«109160_j26783416057954_1_alg».proof.Proof.KI.Reg5
import proofs.«109160_j26783416057954_1_alg».proof.Proof.KI.Reg6
import proofs.«109160_j26783416057954_1_alg».proof.Proof.KI.Reg7
import proofs.«109160_j26783416057954_1_alg».proof.Proof.KI.Reg8
import proofs.«109160_j26783416057954_1_alg».proof.Proof.KI.Reg9
import proofs.«109160_j26783416057954_1_alg».proof.Proof.KI.Reg10

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

theorem run_main (m : (ℓ : Loc nD τ sig) → Buf (Elt F) ℓ) (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V13 m (outsM m) c b) :=
  run_inst m ρ (outsM m) (pdatsM m)
    (reg0 m) (fun _ => .rfl) (fun _ => .rfl)
    (reg1 m (outsM m) (pdatsM m) (fun _ => rfl) (out_eq1 m)) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)
    (reg7 m) (fun _ => .rfl) (fun _ => .rfl)
    (reg8 m) (fun _ => .rfl) (fun _ => .rfl)
    (reg9 m) (fun _ => .rfl) (fun _ => .rfl)
    (reg10 m) (fun _ => .rfl) (fun _ => .rfl)

theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (V13_main_arg0 m _ c),
      (h c _ (mem_uc main_arg1 (by decide))).trans (V13_main_arg1 m _ c),
      (h c _ (mem_uc main_arg2 (by decide))).trans (V13_main_arg2 m _ c),
      (h c _ (mem_uc main_arg3 (by decide))).trans (V13_main_arg3 m _ c),
      (h c _ (mem_uc main_arg4 (by decide))).trans (V13_main_arg4 m _ c),
      (h c _ (mem_uc main_arg5 (by decide))).trans (V13_main_arg5 m _ c)⟩) (run_main m ρ)

end Cert.KernelIdeal.Fr

end
-- ==== Proof.KB.Base.lean ====
/- (proof/Proof/KI/Base.lean with the word-level program's namespace and module names put for the idealized program's; nothing else changed) -/
import proofs.«109160_j26783416057954_1_alg».proof.Proof.Gen.Kernel.Launch
import proofs.«109160_j26783416057954_1_alg».proof.Proof.Gen.Kernel.Skeleton
import proofs.«109160_j26783416057954_1_alg».proof.Proof.Gen.Kernel.Points
import proofs.«109160_j26783416057954_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Fr

end
-- ==== Proof.KB.RunCond.lean ====
/- (proof/Proof/KI/RunCond.lean with the word-level program's namespace and module names put for the idealized program's; nothing else changed) -/
import proofs.«109160_j26783416057954_1_alg».proof.Proof.KB.Base

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

theorem launch_split {Ix : Type} [DecidableEq Ix] {U : Type} [URA U] {Lvl : Type} [Preorder Lvl]
    (m : (ℓ : Loc nD τ sig) → Buf (Elt F) ℓ) (Φ : Dev nD → sProp (MT nD τ sig Ix (Elt F) ℕ U Lvl)) :
    (bigSep Finset.univ fun c : Dev nD => iprop(unscopedBufs c (fun b => m ((c.tc : Thread nD τ).loc b)) ∗ Φ c))
      ⊢ (iprop((bigSep Finset.univ fun c : Dev nD => StableHlo.held (c : Thread nD τ) (Pipeline.ucRefs τ sig) (V0 m c))
          ∗ bigSep Finset.univ Φ) : sProp (MT nD τ sig Ix (Elt F) ℕ U Lvl)) := by
  rw [← bigSep_sep']
  refine bigSep_mono fun c _ => ?_
  rw [← Pipeline.unscopedBufs_held (Ix := Ix) (Name := ℕ) (U := U) (Lvl := Lvl) c (V0 m c)]
  exact BI.Entails.refl _

set_option backward.isDefEq.respectTransparency.types false in

theorem run_cond (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 11) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 12 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE11 : ∀ c : Dev nD, E 11 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V3 m outs c) ∗ E 2 c) ⊢ R2.pre c)
    (hpost2 : ∀ c : Dev nD, R2.post c ⊢ iprop(StableHlo.held (c : Thread nD τ) (Pipeline.ucRefs τ sig) (V4 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V4 m outs c) ∗ E 3 c) ⊢ R3.pre c)
    (hpost3 : ∀ c : Dev nD, R3.post c ⊢ iprop(StableHlo.held (c : Thread nD τ) (Pipeline.ucRefs τ sig) (V5 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V5 m outs c) ∗ E 4 c) ⊢ R4.pre c)
    (hpost4 : ∀ c : Dev nD, R4.post c ⊢ iprop(StableHlo.held (c : Thread nD τ) (Pipeline.ucRefs τ sig) (V6 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V6 m outs c) ∗ E 5 c) ⊢ R5.pre c)
    (hpost5 : ∀ c : Dev nD, R5.post c ⊢ iprop(StableHlo.held (c : Thread nD τ) (Pipeline.ucRefs τ sig) (V7 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V7 m outs c) ∗ E 6 c) ⊢ R6.pre c)
    (hpost6 : ∀ c : Dev nD, R6.post c ⊢ iprop(StableHlo.held (c : Thread nD τ) (Pipeline.ucRefs τ sig) (V8 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V8 m outs c) ∗ E 7 c) ⊢ R7.pre c)
    (hpost7 : ∀ c : Dev nD, R7.post c ⊢ iprop(StableHlo.held (c : Thread nD τ) (Pipeline.ucRefs τ sig) (V9 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V9 m outs c) ∗ E 8 c) ⊢ R8.pre c)
    (hpost8 : ∀ c : Dev nD, R8.post c ⊢ iprop(StableHlo.held (c : Thread nD τ) (Pipeline.ucRefs τ sig) (V10 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V10 m outs c) ∗ E 9 c) ⊢ R9.pre c)
    (hpost9 : ∀ c : Dev nD, R9.post c ⊢ iprop(StableHlo.held (c : Thread nD τ) (Pipeline.ucRefs τ sig) (V11 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V11 m outs c) ∗ E 10 c) ⊢ R10.pre c)
    (hpost10 : ∀ c : Dev nD, R10.post c ⊢ iprop(StableHlo.held (c : Thread nD τ) (Pipeline.ucRefs τ sig) (V12 m outs c) ∗ E 11 c)) :
    θ_run defs (onTc (τ := τ) (main (F := F))) ⟨m, fun _ => 0, ρ⟩ (fun r => ∀ c : Dev nD,
      ∀ b ∈ Pipeline.ucRefs τ sig, r.2.mem ((c : Thread nD τ).1, b) = V13 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10)
    (fun c Q => by

      rewrite [main_chain c, Seg.run_eq_chain,
        show (segs m outs 𝒱₀ L lv E ι pdats R0 R1 R2 R3 R4 R5 R6 R7 R8 R9 R10 c).map Seg.prog = [
          StableHlo.seq hostOps0,
          Prog.lift (.customCall (Pipeline.entry 0) ()),
          Prog.lift (.customCall (Pipeline.entry 1) ()),
          Prog.lift (.customCall (Pipeline.entry 2) ()),
          Prog.lift (.customCall (Pipeline.entry 3) ()),
          Prog.lift (.customCall (Pipeline.entry 4) ()),
          Prog.lift (.customCall (Pipeline.entry 5) ()),
          Prog.lift (.customCall (Pipeline.entry 6) ()),
          Prog.lift (.customCall (Pipeline.entry 7) ()),
          Prog.lift (.customCall (Pipeline.entry 8) ()),
          Prog.lift (.customCall (Pipeline.entry 9) ()),
          Prog.lift (.customCall (Pipeline.entry 10) ()),
          StableHlo.seq hostOps11 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V13 m outs c))
    (hch := fun c => ⟨.rfl,
      hpre0 c,
      (hpost0 c).trans (hpre1 c),
      (hpost1 c).trans (hpre2 c),
      (hpost2 c).trans (hpre3 c),
      (hpost3 c).trans (hpre4 c),
      (hpost4 c).trans (hpre5 c),
      (hpost5 c).trans (hpre6 c),
      (hpost6 c).trans (hpre7 c),
      (hpost7 c).trans (hpre8 c),
      (hpost8 c).trans (hpre9 c),
      (hpost9 c).trans (hpre10 c),
      hpost10 c,
      sep_mono .rfl (hE11 c)⟩)
    (hinit := ?_)
    (QY := fun c s => ∀ b ∈ Pipeline.ucRefs τ sig, s.mem ((c : Thread nD τ).1, b) = V13 m outs c b)
    (hfin := fun c s' => ?_) (hQ := fun _ h => h)
  ·
    iintro ⟨H, Hla⟩
    ihave H' := (launch_split m fun c : Dev nD => iprop(unscopedSems0 c ∗ owes (c : Thread nD τ) (O₀ c) ∅ ∗ Pipeline.launchCred O₀ c ∗ prngReg c (ρ c) ∗ G c)) $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    imodintro
    iapply (pointsTo_read_all (Pipeline.ucRefs τ sig) (fun b => ((c : Thread nD τ).1, b)) (V13 m outs c) s')
    isplitl [Hh] <;> iassumption

end Cert.Kernel.Fr

end
-- ==== Proof.KB.RunInst.lean ====
/- (proof/Proof/KI/RunInst.lean with the word-level program's namespace and module names put for the idealized program's; nothing else changed) -/
import proofs.«109160_j26783416057954_1_alg».proof.Proof.KB.RunCond

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

theorem launch_rest (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (iprop(emp) : sProp 𝕄)) c)) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]
  · iexists _; iexact Hp
  · iexists ∅; iexact HO

theorem rest_owes (c : Dev nD) :
    R (F := F) c ⊢ (iprop(∃ W, owes (c : Thread nD τ) (0 : CellTallies nD τ sig Unit) W) : sProp 𝕄) := by
  iintro ⟨-, HO⟩
  iexact HO

theorem launch_elt :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (iprop(emp) : sProp 𝕄))) := by
  iintro Hu
  imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  · iapply (show (BI.emp : sProp 𝕄) ⊢ bigSep Finset.univ (fun _ : Dev nD => (BI.emp : sProp 𝕄)) from by rw [BI.bigSep_emp_const])
    iempintro

theorem run_inst (m : (ℓ : Loc nD τ sig) → Buf (Elt F) ℓ) (ρ : Dev nD → PrngReg) (outs : Outs (F := F))
    (pdats : (p : Fin 11) → (c : Dev nD) → Dat τ (Elt F) Unit ℕ (UR sig nD τ) ℕ (cfgs p) c)
    (R0 : RegionSeg (pcfgs (F := F)) adm pdats () defs₀ Variants.none L lv 0)
    (hpre0 : ∀ c : Dev nD, iprop(StableHlo.held (c : Thread nD τ) (Pipeline.ucRefs τ sig) (V1 m c) ∗ R c) ⊢ R0.pre c)
    (hpost0 : ∀ c : Dev nD, R0.post c ⊢ iprop(StableHlo.held (c : Thread nD τ) (Pipeline.ucRefs τ sig) (V2 m outs c) ∗ R c))
    (R1 : RegionSeg (pcfgs (F := F)) adm pdats () defs₀ Variants.none L lv 1)
    (hpre1 : ∀ c : Dev nD, iprop(StableHlo.held (c : Thread nD τ) (Pipeline.ucRefs τ sig) (V2 m outs c) ∗ R c) ⊢ R1.pre c)
    (hpost1 : ∀ c : Dev nD, R1.post c ⊢ iprop(StableHlo.held (c : Thread nD τ) (Pipeline.ucRefs τ sig) (V3 m outs c) ∗ R c))
    (R2 : RegionSeg (pcfgs (F := F)) adm pdats () defs₀ Variants.none L lv 2)
    (hpre2 : ∀ c : Dev nD, iprop(StableHlo.held (c : Thread nD τ) (Pipeline.ucRefs τ sig) (V3 m outs c) ∗ R c) ⊢ R2.pre c)
    (hpost2 : ∀ c : Dev nD, R2.post c ⊢ iprop(StableHlo.held (c : Thread nD τ) (Pipeline.ucRefs τ sig) (V4 m outs c) ∗ R c))
    (R3 : RegionSeg (pcfgs (F := F)) adm pdats () defs₀ Variants.none L lv 3)
    (hpre3 : ∀ c : Dev nD, iprop(StableHlo.held (c : Thread nD τ) (Pipeline.ucRefs τ sig) (V4 m outs c) ∗ R c) ⊢ R3.pre c)
    (hpost3 : ∀ c : Dev nD, R3.post c ⊢ iprop(StableHlo.held (c : Thread nD τ) (Pipeline.ucRefs τ sig) (V5 m outs c) ∗ R c))
    (R4 : RegionSeg (pcfgs (F := F)) adm pdats () defs₀ Variants.none L lv 4)
    (hpre4 : ∀ c : Dev nD, iprop(StableHlo.held (c : Thread nD τ) (Pipeline.ucRefs τ sig) (V5 m outs c) ∗ R c) ⊢ R4.pre c)
    (hpost4 : ∀ c : Dev nD, R4.post c ⊢ iprop(StableHlo.held (c : Thread nD τ) (Pipeline.ucRefs τ sig) (V6 m outs c) ∗ R c))
    (R5 : RegionSeg (pcfgs (F := F)) adm pdats () defs₀ Variants.none L lv 5)
    (hpre5 : ∀ c : Dev nD, iprop(StableHlo.held (c : Thread nD τ) (Pipeline.ucRefs τ sig) (V6 m outs c) ∗ R c) ⊢ R5.pre c)
    (hpost5 : ∀ c : Dev nD, R5.post c ⊢ iprop(StableHlo.held (c : Thread nD τ) (Pipeline.ucRefs τ sig) (V7 m outs c) ∗ R c))
    (R6 : RegionSeg (pcfgs (F := F)) adm pdats () defs₀ Variants.none L lv 6)
    (hpre6 : ∀ c : Dev nD, iprop(StableHlo.held (c : Thread nD τ) (Pipeline.ucRefs τ sig) (V7 m outs c) ∗ R c) ⊢ R6.pre c)
    (hpost6 : ∀ c : Dev nD, R6.post c ⊢ iprop(StableHlo.held (c : Thread nD τ) (Pipeline.ucRefs τ sig) (V8 m outs c) ∗ R c))
    (R7 : RegionSeg (pcfgs (F := F)) adm pdats () defs₀ Variants.none L lv 7)
    (hpre7 : ∀ c : Dev nD, iprop(StableHlo.held (c : Thread nD τ) (Pipeline.ucRefs τ sig) (V8 m outs c) ∗ R c) ⊢ R7.pre c)
    (hpost7 : ∀ c : Dev nD, R7.post c ⊢ iprop(StableHlo.held (c : Thread nD τ) (Pipeline.ucRefs τ sig) (V9 m outs c) ∗ R c))
    (R8 : RegionSeg (pcfgs (F := F)) adm pdats () defs₀ Variants.none L lv 8)
    (hpre8 : ∀ c : Dev nD, iprop(StableHlo.held (c : Thread nD τ) (Pipeline.ucRefs τ sig) (V9 m outs c) ∗ R c) ⊢ R8.pre c)
    (hpost8 : ∀ c : Dev nD, R8.post c ⊢ iprop(StableHlo.held (c : Thread nD τ) (Pipeline.ucRefs τ sig) (V10 m outs c) ∗ R c))
    (R9 : RegionSeg (pcfgs (F := F)) adm pdats () defs₀ Variants.none L lv 9)
    (hpre9 : ∀ c : Dev nD, iprop(StableHlo.held (c : Thread nD τ) (Pipeline.ucRefs τ sig) (V10 m outs c) ∗ R c) ⊢ R9.pre c)
    (hpost9 : ∀ c : Dev nD, R9.post c ⊢ iprop(StableHlo.held (c : Thread nD τ) (Pipeline.ucRefs τ sig) (V11 m outs c) ∗ R c))
    (R10 : RegionSeg (pcfgs (F := F)) adm pdats () defs₀ Variants.none L lv 10)
    (hpre10 : ∀ c : Dev nD, iprop(StableHlo.held (c : Thread nD τ) (Pipeline.ucRefs τ sig) (V11 m outs c) ∗ R c) ⊢ R10.pre c)
    (hpost10 : ∀ c : Dev nD, R10.post c ⊢ iprop(StableHlo.held (c : Thread nD τ) (Pipeline.ucRefs τ sig) (V12 m outs c) ∗ R c)) :
    θ_run defs (onTc (τ := τ) (main (F := F))) ⟨m, fun _ => 0, ρ⟩ (fun r => ∀ c : Dev nD,
      ∀ b ∈ Pipeline.ucRefs τ sig, r.2.mem ((c : Thread nD τ).1, b) = V13 m outs c b) :=
  run_cond m emb₁ () Variants.none L lv (fun _ _ => rfl) ρ outs pdats 0 (fun _ => iprop(emp))
    (initOf (Pipeline.cells cfgs cellOf_inj) (Pipeline.launchToks cfgs cellOf_inj)) launch_elt
    (fun _ c => R c) (launch_rest ρ) rest_owes
    R0 hpre0 hpost0
    R1 hpre1 hpost1
    R2 hpre2 hpost2
    R3 hpre3 hpost3
    R4 hpre4 hpost4
    R5 hpre5 hpost5
    R6 hpre6 hpost6
    R7 hpre7 hpost7
    R8 hpre8 hpost8
    R9 hpre9 hpost9
    R10 hpre10 hpost10

end Cert.Kernel.Fr

end
-- ==== Proof.KB.R0.lean ====
/- (proof/Proof/KI/R0.lean with the word-level program's namespace and module names put for the idealized program's; nothing else changed) -/
import proofs.«109160_j26783416057954_1_alg».proof.Proof.Gen.Kernel.Launch
import proofs.«109160_j26783416057954_1_alg».proof.Proof.Gen.Kernel.Skeleton
import proofs.«109160_j26783416057954_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2048x512 := Rect.unit (s := S2048x512) ![0, 0] S2048x512.size inb_S2048x512_S2048x512_0_0
abbrev r0_1 : Rect S512x256 := Rect.unit (s := S512x256) ![0, 0] S512x256.size inb_S512x256_S512x256_0_0
abbrev r0_2 : Rect S1x256 := Rect.unit (s := S1x256) ![0, 0] S1x256.size inb_S1x256_S1x256_0_0
abbrev r0_3 : Rect S256x64 := Rect.unit (s := S256x64) ![0, 0] S256x64.size inb_S256x64_S256x64_0_0
abbrev r0_4 : Rect S1x64 := Rect.unit (s := S1x64) ![0, 0] S1x64.size inb_S1x64_S1x64_0_0
abbrev r0_5 : Rect S2048x64 := Rect.unit (s := S2048x64) ![0, 0] S2048x64.size inb_S2048x64_S2048x64_0_0

theorem zeros2 : (![0, 0] : Fin 2 → Nat) = fun _ => 0 := funext fun a => by fin_cases a <;> rfl

def out0_5 (x0 : Vec F S2048x512 .f32) (x1 : Vec F S512x256 .f32) (x2 : Vec F S1x256 .f32) (x3 : Vec F S256x64 .f32) (x4 : Vec F S1x64 .f32) :
    Vec F S2048x64 .f32 :=
  k0_pay1 x0 x1 x2 x3 x4

theorem cover0_5 (p : Vec F S2048x64 .f32) (y : S2048x64.Idx) :
    ∃ pc ∈ ([⟨r0_5, p⟩] : List (View.Piece (Elt F) S2048x64 .f32)), y ∈ pc.1.set :=
  ⟨⟨r0_5, p⟩, List.mem_singleton_self _, (View.mem_set_unit_zero (S := S2048x64) zeros2 inb_S2048x64_S2048x64_0_0 y : y ∈ r0_5.set)⟩

theorem store_whole0 {κ : Kind} {sp : Space} (v : View sig κ sp S2048x64 .f32) (f : v.ty.Contents (Elt F)) (p : Vec F S2048x64 .f32) :
    v.read (Elt F) (v.writes (Elt F) f [⟨r0_5, p⟩]) = p :=
  (View.read_writes_eq_canon v f [⟨r0_5, p⟩] (cover0_5 p)).trans
    (View.canon_unit_zero (S := S2048x64) zeros2 inb_S2048x64_S2048x64_0_0 p)

theorem load_whole0_0 {κ : Kind} {sp : Space} (v : View sig κ sp S2048x512 .f32) (f : v.ty.Contents (Elt F)) :
    v.readAt (Elt F) r0_0.toLoadRect f = v.read (Elt F) f :=
  (View.readAt_eq_ld v f r0_0).trans (View.ld_unit_zero (S := S2048x512) zeros2 inb_S2048x512_S2048x512_0_0 _)
theorem load_whole0_1 {κ : Kind} {sp : Space} (v : View sig κ sp S512x256 .f32) (f : v.ty.Contents (Elt F)) :
    v.readAt (Elt F) r0_1.toLoadRect f = v.read (Elt F) f :=
  (View.readAt_eq_ld v f r0_1).trans (View.ld_unit_zero (S := S512x256) zeros2 inb_S512x256_S512x256_0_0 _)
theorem load_whole0_2 {κ : Kind} {sp : Space} (v : View sig κ sp S1x256 .f32) (f : v.ty.Contents (Elt F)) :
    v.readAt (Elt F) r0_2.toLoadRect f = v.read (Elt F) f :=
  (View.readAt_eq_ld v f r0_2).trans (View.ld_unit_zero (S := S1x256) zeros2 inb_S1x256_S1x256_0_0 _)
theorem load_whole0_3 {κ : Kind} {sp : Space} (v : View sig κ sp S256x64 .f32) (f : v.ty.Contents (Elt F)) :
    v.readAt (Elt F) r0_3.toLoadRect f = v.read (Elt F) f :=
  (View.readAt_eq_ld v f r0_3).trans (View.ld_unit_zero (S := S256x64) zeros2 inb_S256x64_S256x64_0_0 _)
theorem load_whole0_4 {κ : Kind} {sp : Space} (v : View sig κ sp S1x64 .f32) (f : v.ty.Contents (Elt F)) :
    v.readAt (Elt F) r0_4.toLoadRect f = v.read (Elt F) f :=
  (View.readAt_eq_ld v f r0_4).trans (View.ld_unit_zero (S := S1x64) zeros2 inb_S1x64_S1x64_0_0 _)

set_option maxHeartbeats 400000 in

theorem sound_kernel0 (c : Dev nD) (E : Set ℕ) (i : grid0.Coords)
    (arg1 : Memref sig .tc .vmem S2048x512 .f32) (harg1 : arg1.IsWhole) (arg2 : Memref sig .tc .vmem S512x256 .f32) (harg2 : arg2.IsWhole)
    (arg3 : Memref sig .tc .vmem S1x256 .f32) (harg3 : arg3.IsWhole) (arg4 : Memref sig .tc .vmem S256x64 .f32) (harg4 : arg4.IsWhole)
    (arg5 : Memref sig .tc .vmem S1x64 .f32) (harg5 : arg5.IsWhole) (arg6 : Memref sig .tc .vmem S2048x64 .f32) (harg6 : arg6.IsWhole)
    (x0 : Vec F S2048x512 .f32) (x1 : Vec F S512x256 .f32) (x2 : Vec F S1x256 .f32) (x3 : Vec F S256x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [store_whole0, load_whole0_0, load_whole0_1, load_whole0_2, load_whole0_3, load_whole0_4]
  rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem Phi0 (c : Dev nD) (t : Fin (cfg0.N + 1)) : (dat0 V c).Φ t = (Pipeline.ΦA spec0 c : sProp 𝕄) := by
  dsimp only [dat0]

theorem share0 (c : Dev nD) (w : Fin cfg0.W) : (dat0 V c).q w = fullShare := by
  dsimp only [dat0]

theorem owed0 (c : Dev nD) (t) : (dat0 V c).owed t = 0 := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.Kernel.Fr
-- ==== Proof.KB.StepRuns.lean ====
/- (proof/Proof/KI/StepRuns.lean with the word-level program's namespace and module names put for the idealized program's; nothing else changed) -/
import proofs.«109160_j26783416057954_1_alg».proof.Proof.Gen.Kernel.Launch
import proofs.«109160_j26783416057954_1_alg».proof.Proof.Gen.Kernel.Skeleton
import proofs.«109160_j26783416057954_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

-- All ten propagation steps run one body on one 8 × 16 grid: its two branch tests depend on the column block only.
abbrev condFirst (i : grid1.Coords) : Prop := (Scalar.cmpi .ne (Scalar.extui (Scalar.cmpi .eq (BitVec.ofNat 32 (i 1).val) 0#32)) 0#32) = 1#1
theorem hcondFirst : ∀ t : Fin grid1.N, condFirst (grid1.coords t) ↔ t.val % 16 = 0 := by decide +kernel

abbrev condLast (i : grid1.Coords) : Prop := k1_cond2 i = 1#1
theorem hcondLast : ∀ t : Fin grid1.N, condLast (grid1.coords t) ↔ t.val % 16 = 15 := by decide +kernel

end Cert.Kernel.Fr

end
-- ==== Proof.KB.StepRunA.lean ====
/- (proof/Proof/KI/StepRunA.lean with the word-level program's namespace and module names put for the idealized program's; nothing else changed) -/
import proofs.«109160_j26783416057954_1_alg».proof.Proof.KB.StepRuns

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def stepRunA (c : Dev nD) (i : grid1.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (hca : condFirst i) (hcb : ¬condLast i)
    (xa : Vec F S2048x1024 .f32) (xb : Vec F S1024x64 .f32) (xc : Vec F S2048x64 .f32) :
    Σ' (LO : List (View.Piece (Elt F) S2048x64 .f32)), { LS : List (View.Piece (Elt F) S2048x64 .f32) //
      ∀ (xo : Vec F S2048x64 .f32) (E : Set ℕ) (K : PUnit → sProp 𝕄),
        iprop(owns (c : Thread nD τ) arg2 fullShare xa ∗ owns (c : Thread nD τ) arg3 fullShare xb ∗ owns (c : Thread nD τ) arg4 fullShare xc
            ∗ owns (c : Thread nD τ) arg5 fullShare xo ∗ (∃ d, owns (c : Thread nD τ) arg6 fullShare d)
            ∗ (iprop(owns (c : Thread nD τ) arg2 fullShare xa ∗ owns (c : Thread nD τ) arg3 fullShare xb ∗ owns (c : Thread nD τ) arg4 fullShare xc
                ∗ owns (c : Thread nD τ) arg5 fullShare xo
                ∗ (∃ f, arg6.view.loc (c : Thread nD τ) ↦[arg6.view.set]{fullShare} arg6.view.writes (Elt F) f LS)) -∗ K ⟨⟩))
          ⊢ wp frame (wpE (defs₀ (F := F)) Variants.none c none) E (cc1__appnp_kernel i arg2 harg2 arg3 harg3 arg4 harg4 arg5 harg5 arg6 harg6) K } := by
  refine ⟨[], ?_, fun xo E K => ?run⟩
  case run =>
    simp only [cc1__appnp_kernel_eq_skeleton]; unfold cc1__appnp_kernel_skel
    unfold owns
    iintro ⟨⟨%fa, %hfa, Ha⟩, ⟨%fb, %hfb, Hb⟩, ⟨%fc, %hfc, Hc⟩, ⟨%fo, %hfo, Ho⟩, ⟨%ds, %fs, -, Hs⟩, Hk⟩
    obtain rfl := harg2.eq_unread hfa; obtain rfl := harg3.eq_unread hfb; obtain rfl := harg4.eq_unread hfc
    obtain rfl := harg5.eq_unread hfo
    sl_exec (disch := first | exact hca | exact hcb)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Ho]
    · iexists _; isplitr; · ipureintro; exact harg5.read_unread _
      iexact Ho
    iexists _; iexact Hs

end Cert.Kernel.Fr

end
-- ==== Proof.KB.StepRunB.lean ====
/- (proof/Proof/KI/StepRunB.lean with the word-level program's namespace and module names put for the idealized program's; nothing else changed) -/
import proofs.«109160_j26783416057954_1_alg».proof.Proof.KB.StepRunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def stepRunB (c : Dev nD) (i : grid1.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (hca : ¬condFirst i) (hcb : ¬condLast i)
    (xa : Vec F S2048x1024 .f32) (xb : Vec F S1024x64 .f32) (xc : Vec F S2048x64 .f32) (xs : Vec F S2048x64 .f32) :
    Σ' (LO : List (View.Piece (Elt F) S2048x64 .f32)), { LS : List (View.Piece (Elt F) S2048x64 .f32) //
      ∀ (xo : Vec F S2048x64 .f32) (E : Set ℕ) (K : PUnit → sProp 𝕄),
        iprop(owns (c : Thread nD τ) arg2 fullShare xa ∗ owns (c : Thread nD τ) arg3 fullShare xb ∗ owns (c : Thread nD τ) arg4 fullShare xc
            ∗ owns (c : Thread nD τ) arg5 fullShare xo ∗ owns (c : Thread nD τ) arg6 fullShare xs
            ∗ (iprop(owns (c : Thread nD τ) arg2 fullShare xa ∗ owns (c : Thread nD τ) arg3 fullShare xb ∗ owns (c : Thread nD τ) arg4 fullShare xc
                ∗ owns (c : Thread nD τ) arg5 fullShare xo
                ∗ (∃ f, arg6.view.loc (c : Thread nD τ) ↦[arg6.view.set]{fullShare} arg6.view.writes (Elt F) f LS)) -∗ K ⟨⟩))
          ⊢ wp frame (wpE (defs₀ (F := F)) Variants.none c none) E (cc1__appnp_kernel i arg2 harg2 arg3 harg3 arg4 harg4 arg5 harg5 arg6 harg6) K } := by
  refine ⟨[], ?_, fun xo E K => ?run⟩
  case run =>
    simp only [cc1__appnp_kernel_eq_skeleton]; unfold cc1__appnp_kernel_skel
    unfold owns
    iintro ⟨⟨%fa, %hfa, Ha⟩, ⟨%fb, %hfb, Hb⟩, ⟨%fc, %hfc, Hc⟩, ⟨%fo, %hfo, Ho⟩, ⟨%fs, %hfs, Hs⟩, Hk⟩
    obtain rfl := harg2.eq_unread hfa; obtain rfl := harg3.eq_unread hfb; obtain rfl := harg4.eq_unread hfc
    obtain rfl := harg5.eq_unread hfo; obtain rfl := harg6.eq_unread hfs
    sl_exec (disch := first | exact hca | exact hcb)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Ho]
    · iexists _; isplitr; · ipureintro; exact harg5.read_unread _
      iexact Ho
    iexists _; iexact Hs

end Cert.Kernel.Fr

end
-- ==== Proof.KB.StepRunC.lean ====
/- (proof/Proof/KI/StepRunC.lean with the word-level program's namespace and module names put for the idealized program's; nothing else changed) -/
import proofs.«109160_j26783416057954_1_alg».proof.Proof.KB.StepRunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def stepRunC (c : Dev nD) (i : grid1.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (hca : ¬condFirst i) (hcb : condLast i)
    (xa : Vec F S2048x1024 .f32) (xb : Vec F S1024x64 .f32) (xc : Vec F S2048x64 .f32) (xs : Vec F S2048x64 .f32) :
    Σ' (LO : List (View.Piece (Elt F) S2048x64 .f32)), { LS : List (View.Piece (Elt F) S2048x64 .f32) //
      ∀ (E : Set ℕ) (K : PUnit → sProp 𝕄),
        iprop(owns (c : Thread nD τ) arg2 fullShare xa ∗ owns (c : Thread nD τ) arg3 fullShare xb ∗ owns (c : Thread nD τ) arg4 fullShare xc
            ∗ (∃ d, owns (c : Thread nD τ) arg5 fullShare d) ∗ owns (c : Thread nD τ) arg6 fullShare xs
            ∗ (iprop(owns (c : Thread nD τ) arg2 fullShare xa ∗ owns (c : Thread nD τ) arg3 fullShare xb ∗ owns (c : Thread nD τ) arg4 fullShare xc
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc1__appnp_kernel i arg2 harg2 arg3 harg3 arg4 harg4 arg5 harg5 arg6 harg6) K } := by
  refine ⟨?_, ?_, fun E K => ?run⟩
  case run =>
    simp only [cc1__appnp_kernel_eq_skeleton]; unfold cc1__appnp_kernel_skel
    unfold owns
    iintro ⟨⟨%fa, %hfa, Ha⟩, ⟨%fb, %hfb, Hb⟩, ⟨%fc, %hfc, Hc⟩, ⟨%dz, %fo, -, Ho⟩, ⟨%fs, %hfs, Hs⟩, Hk⟩
    obtain rfl := harg2.eq_unread hfa; obtain rfl := harg3.eq_unread hfb; obtain rfl := harg4.eq_unread hfc
    obtain rfl := harg6.eq_unread hfs
    sl_exec (disch := first | exact hca | exact hcb)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Ho]; · iexists _; iexact Ho
    iexists _; iexact Hs

end Cert.Kernel.Fr

end
-- ==== Proof.KB.StepCases.lean ====
/- (proof/Proof/KI/StepCases.lean with the word-level program's namespace and module names put for the idealized program's; nothing else changed) -/
import proofs.«109160_j26783416057954_1_alg».proof.Proof.KB.StepRunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (VO VS : View sig .tc .vmem S2048x64 .f32) (c : Dev nD) (i : grid1.Coords)
  (arg2 : Memref sig .tc .vmem S2048x1024 .f32) (harg2 : arg2.IsWhole) (arg3 : Memref sig .tc .vmem S1024x64 .f32) (harg3 : arg3.IsWhole)
  (arg4 : Memref sig .tc .vmem S2048x64 .f32) (harg4 : arg4.IsWhole) (arg5 : Memref sig .tc .vmem S2048x64 .f32) (harg5 : arg5.IsWhole)
  (arg6 : Memref sig .tc .vmem S2048x64 .f32) (harg6 : arg6.IsWhole)

-- The pair a case ends with: the output block (only the last column block forms one) and the running sum.
def leavesA (hca : condFirst i) (hcb : ¬condLast i) (xa : Vec F S2048x1024 .f32) (xb : Vec F S1024x64 .f32) (xc : Vec F S2048x64 .f32) : Vec F S2048x64 .f32 × Vec F S2048x64 .f32 :=
  (VO.read (Elt F) (VO.writes (Elt F) VO.junk (stepRunA c i arg2 harg2 arg3 harg3 arg4 harg4 arg5 harg5 arg6 harg6 hca hcb xa xb xc).1), VS.read (Elt F) (VS.writes (Elt F) VS.junk (stepRunA c i arg2 harg2 arg3 harg3 arg4 harg4 arg5 harg5 arg6 harg6 hca hcb xa xb xc).2.1))

theorem accCoverA (hca : condFirst i) (hcb : ¬condLast i) (xa : Vec F S2048x1024 .f32) (xb : Vec F S1024x64 .f32) (xc : Vec F S2048x64 .f32) (y : S2048x64.Idx) :
    ∃ pc ∈ (stepRunA c i arg2 harg2 arg3 harg3 arg4 harg4 arg5 harg5 arg6 harg6 hca hcb xa xb xc).2.1, y ∈ pc.1.set :=
  View.cover_of_tiledL (stepRunA c i arg2 harg2 arg3 harg3 arg4 harg4 arg5 harg5 arg6 harg6 hca hcb xa xb xc).2.1 S2048x64.size (by sl_kernel_rfl) y

def leavesB (hca : ¬condFirst i) (hcb : ¬condLast i) (xa : Vec F S2048x1024 .f32) (xb : Vec F S1024x64 .f32) (xc : Vec F S2048x64 .f32) (xs : Vec F S2048x64 .f32) : Vec F S2048x64 .f32 × Vec F S2048x64 .f32 :=
  (VO.read (Elt F) (VO.writes (Elt F) VO.junk (stepRunB c i arg2 harg2 arg3 harg3 arg4 harg4 arg5 harg5 arg6 harg6 hca hcb xa xb xc xs).1), VS.read (Elt F) (VS.writes (Elt F) VS.junk (stepRunB c i arg2 harg2 arg3 harg3 arg4 harg4 arg5 harg5 arg6 harg6 hca hcb xa xb xc xs).2.1))

theorem accCoverB (hca : ¬condFirst i) (hcb : ¬condLast i) (xa : Vec F S2048x1024 .f32) (xb : Vec F S1024x64 .f32) (xc : Vec F S2048x64 .f32) (xs : Vec F S2048x64 .f32) (y : S2048x64.Idx) :
    ∃ pc ∈ (stepRunB c i arg2 harg2 arg3 harg3 arg4 harg4 arg5 harg5 arg6 harg6 hca hcb xa xb xc xs).2.1, y ∈ pc.1.set :=
  View.cover_of_tiledL (stepRunB c i arg2 harg2 arg3 harg3 arg4 harg4 arg5 harg5 arg6 harg6 hca hcb xa xb xc xs).2.1 S2048x64.size (by sl_kernel_rfl) y

def leavesC (hca : ¬condFirst i) (hcb : condLast i) (xa : Vec F S2048x1024 .f32) (xb : Vec F S1024x64 .f32) (xc : Vec F S2048x64 .f32) (xs : Vec F S2048x64 .f32) : Vec F S2048x64 .f32 × Vec F S2048x64 .f32 :=
  (VO.read (Elt F) (VO.writes (Elt F) VO.junk (stepRunC c i arg2 harg2 arg3 harg3 arg4 harg4 arg5 harg5 arg6 harg6 hca hcb xa xb xc xs).1), VS.read (Elt F) (VS.writes (Elt F) VS.junk (stepRunC c i arg2 harg2 arg3 harg3 arg4 harg4 arg5 harg5 arg6 harg6 hca hcb xa xb xc xs).2.1))

theorem accCoverC (hca : ¬condFirst i) (hcb : condLast i) (xa : Vec F S2048x1024 .f32) (xb : Vec F S1024x64 .f32) (xc : Vec F S2048x64 .f32) (xs : Vec F S2048x64 .f32) (y : S2048x64.Idx) :
    ∃ pc ∈ (stepRunC c i arg2 harg2 arg3 harg3 arg4 harg4 arg5 harg5 arg6 harg6 hca hcb xa xb xc xs).2.1, y ∈ pc.1.set :=
  View.cover_of_tiledL (stepRunC c i arg2 harg2 arg3 harg3 arg4 harg4 arg5 harg5 arg6 harg6 hca hcb xa xb xc xs).2.1 S2048x64.size (by sl_kernel_rfl) y

theorem outCoverC (hca : ¬condFirst i) (hcb : condLast i) (xa : Vec F S2048x1024 .f32) (xb : Vec F S1024x64 .f32) (xc : Vec F S2048x64 .f32) (xs : Vec F S2048x64 .f32) (y : S2048x64.Idx) :
    ∃ pc ∈ (stepRunC c i arg2 harg2 arg3 harg3 arg4 harg4 arg5 harg5 arg6 harg6 hca hcb xa xb xc xs).1, y ∈ pc.1.set :=
  View.cover_of_tiledL (stepRunC c i arg2 harg2 arg3 harg3 arg4 harg4 arg5 harg5 arg6 harg6 hca hcb xa xb xc xs).1 S2048x64.size (by sl_kernel_rfl) y

end Cert.Kernel.Fr

end
-- ==== Proof.KB.Ap1Runs.lean ====
/- (proof/Proof/KI/Ap1Runs.lean with the word-level program's namespace and module names put for the idealized program's; nothing else changed) -/
import proofs.«109160_j26783416057954_1_alg».proof.Proof.KB.StepCases

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl

theorem idleAt1_3_A : ∀ t : Fin cfg1.N, condFirst (grid1.coords t) → ¬condLast (grid1.coords t) → cfg1.idle 3 (grid1.coords t) = true := by decide +kernel
theorem noFlush1_3_A : ∀ t : Fin cfg1.N, condFirst (grid1.coords t) → ¬condLast (grid1.coords t) → (cfg1.win 3).flush t = false := by decide +kernel

theorem idleAt1_3_B : ∀ t : Fin cfg1.N, ¬condFirst (grid1.coords t) → ¬condLast (grid1.coords t) → cfg1.idle 3 (grid1.coords t) = true := by decide +kernel
theorem noFlush1_3_B : ∀ t : Fin cfg1.N, ¬condFirst (grid1.coords t) → ¬condLast (grid1.coords t) → (cfg1.win 3).flush t = false := by decide +kernel

theorem liveAt1_3_C : ∀ t : Fin cfg1.N, ¬condFirst (grid1.coords t) → condLast (grid1.coords t) → cfg1.idle 3 (grid1.coords t) = false := by decide +kernel

abbrev VO1_3 : View sig .tc .vmem S2048x64 .f32 := (Memref.whole cc1_stg3_0 : Memref sig .tc .vmem S2048x64 .f32).view

abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x64 .f32 := win1_3.stage (cfg1.slots t 3)
abbrev hs1_3 (t : Fin cfg1.N) : (ms1_3 t).IsWhole := hstage1_3 ((cfg1.slots t 3).cast nbuf1_3)

abbrev scM1_0 : Memref sig .tc .vmem S2048x64 .f32 := Memref.whole cc1_scratch0

abbrev VS1_0 : View sig .tc .vmem S2048x64 .f32 := scM1_0.view

theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.Kernel.Fr

end
-- ==== Proof.KB.Ap1.lean ====
/- (proof/Proof/KI/Ap1.lean with the word-level program's namespace and module names put for the idealized program's; nothing else changed) -/
import proofs.«109160_j26783416057954_1_alg».proof.Proof.KB.Ap1Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The three cases at point `t`, on the point's input blocks.
def leaves1A (c : Dev nD) (t : Fin cfg1.N) (ha : t.val % 16 = 0) (hb : ¬t.val % 16 = 15) : Vec F S2048x64 .f32 × Vec F S2048x64 .f32 :=
  leavesA VO1_3 VS1_0 c (grid1.coords t) (ms1_0 t) (hs1_0 t) (ms1_1 t) (hs1_1 t) (ms1_2 t) (hs1_2 t) (ms1_3 t) (hs1_3 t) scM1_0 (Memref.isWhole_whole _) ((hcondFirst t).mpr ha) (fun h => hb ((hcondLast t).mp h)) (iblk1 V c 0 t) (iblk1 V c 1 t) (iblk1 V c 2 t)
def leaves1B (c : Dev nD) (t : Fin cfg1.N) (ha : ¬t.val % 16 = 0) (hb : ¬t.val % 16 = 15) (xs : Vec F S2048x64 .f32) : Vec F S2048x64 .f32 × Vec F S2048x64 .f32 :=
  leavesB VO1_3 VS1_0 c (grid1.coords t) (ms1_0 t) (hs1_0 t) (ms1_1 t) (hs1_1 t) (ms1_2 t) (hs1_2 t) (ms1_3 t) (hs1_3 t) scM1_0 (Memref.isWhole_whole _) (fun h => ha ((hcondFirst t).mp h)) (fun h => hb ((hcondLast t).mp h)) (iblk1 V c 0 t) (iblk1 V c 1 t) (iblk1 V c 2 t) xs
def leaves1C (c : Dev nD) (t : Fin cfg1.N) (ha : ¬t.val % 16 = 0) (hb : t.val % 16 = 15) (xs : Vec F S2048x64 .f32) : Vec F S2048x64 .f32 × Vec F S2048x64 .f32 :=
  leavesC VO1_3 VS1_0 c (grid1.coords t) (ms1_0 t) (hs1_0 t) (ms1_1 t) (hs1_1 t) (ms1_2 t) (hs1_2 t) (ms1_3 t) (hs1_3 t) scM1_0 (Memref.isWhole_whole _) (fun h => ha ((hcondFirst t).mp h)) ((hcondLast t).mpr hb) (iblk1 V c 0 t) (iblk1 V c 1 t) (iblk1 V c 2 t) xs

-- The accumulation along a row block: the first column block resets, each later one adds to what the point before left.
def outsAt1 (c : Dev nD) : (n : ℕ) → n < cfg1.N → Vec F S2048x64 .f32 × Vec F S2048x64 .f32
  | 0, hn => leaves1A V c ⟨0, hn⟩ (Nat.zero_mod _) (by show ¬0 % 16 = 15; omega)
  | n + 1, hn =>
    if ha : (n + 1) % 16 = 0 then
      if hb : (n + 1) % 16 = 15 then False.elim (by omega) else leaves1A V c ⟨n + 1, hn⟩ ha hb
    else
      if hb : (n + 1) % 16 = 15 then leaves1C V c ⟨n + 1, hn⟩ ha hb (outsAt1 c n (Nat.lt_of_succ_lt hn)).2
      else leaves1B V c ⟨n + 1, hn⟩ ha hb (outsAt1 c n (Nat.lt_of_succ_lt hn)).2

theorem outsAt1_A (c : Dev nD) (t : Fin cfg1.N) (ha : t.val % 16 = 0) (hb : ¬t.val % 16 = 15) :
    outsAt1 V c t.val t.isLt = leaves1A V c t ha hb := by
  obtain ⟨n, hn⟩ := t
  cases n with
  | zero => exact rfl
  | succ n => exact (dif_pos ha).trans ((dif_neg hb).trans rfl)

theorem outsAt1_B (c : Dev nD) (t : Fin cfg1.N) (ha : ¬t.val % 16 = 0) (hb : ¬t.val % 16 = 15) :
    outsAt1 V c t.val t.isLt = leaves1B V c t ha hb (outsAt1 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_neg hb).trans rfl)

theorem outsAt1_C (c : Dev nD) (t : Fin cfg1.N) (ha : ¬t.val % 16 = 0) (hb : t.val % 16 = 15) :
    outsAt1 V c t.val t.isLt = leaves1C V c t ha hb (outsAt1 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_pos hb).trans rfl)

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hp : n = 0) : PhiS1 V c n h = Pipeline.ΦA spec1 c := by
  subst hp; rfl

theorem PhiS1_succ (c : Dev nD) (n : ℕ) (hn : n < cfg1.N) :
    PhiS1 V c (n + 1) hn = iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hp : n ≠ 0) :
    PhiS1 V c n h = iprop(iprop(owns (c : Thread nD τ) scM1_0 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hp
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 128 := lt_of_lt_of_eq t.isLt (show cfg1.N = 128 from N_1)
  by_cases ha : t.val % 16 = 0
  · by_cases hb : t.val % 16 = 15
    · exfalso; omega
    · rw [Dat.leavesExact_idle (dat1 V c) 3 t (idleAt1_3_A t ((hcondFirst t).mpr ha) (fun h => hb ((hcondLast t).mp h))) (noFlush1_3_A t ((hcondFirst t).mpr ha) (fun h => hb ((hcondLast t).mp h)))]
      rw [outsAt1_A V c t ha hb]
      unfold leaves1A leavesA; (try dsimp only)
      by_cases hp : t.val = 0
      · rw [PhiS1_castSucc V c t, PhiS1_zero V c _ _ hp, PhiA1_eq]
        iintro ⟨⟨⟨Hs, Hr⟩, Hg⟩, Hw, ⟨%da, Ha⟩, ⟨%db, Hb⟩, ⟨%dc, Hc⟩, ⟨%dd, Hd⟩⟩
        iapply ((stepRunA c (grid1.coords t) _ (hs1_0 t) _ (hs1_1 t) _ (hs1_2 t) _ (hs1_3 t) _ (Memref.isWhole_whole _) ((hcondFirst t).mpr ha) (fun h => hb ((hcondLast t).mp h)) (iblk1 V c 0 t) (iblk1 V c 1 t) (iblk1 V c 2 t)).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
      · rw [PhiS1_castSucc V c t, PhiS1_pos V c _ _ hp]
        iintro ⟨⟨⟨Hs, Hr⟩, Hg⟩, Hw, ⟨%da, Ha⟩, ⟨%db, Hb⟩, ⟨%dc, Hc⟩, ⟨%dd, Hd⟩⟩
        iapply ((stepRunA c (grid1.coords t) _ (hs1_0 t) _ (hs1_1 t) _ (hs1_2 t) _ (hs1_3 t) _ (Memref.isWhole_whole _) ((hcondFirst t).mpr ha) (fun h => hb ((hcondLast t).mp h)) (iblk1 V c 0 t) (iblk1 V c 1 t) (iblk1 V c 2 t)).2.2 _ Set.univ _)
        isplitl [Ha]; · iexact Ha
        isplitl [Hb]; · iexact Hb
        isplitl [Hc]; · iexact Hc
        isplitl [Hd]; · iexact Hd
        isplitl [Hs]; · iexists _; iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
  · by_cases hb : t.val % 16 = 15
    · rw [show (dat1 V c).leavesExact 3 t = owns (c : Thread nD τ) (ms1_3 t) fullShare ((dat1 V c).after 3 t) from by
        unfold Dat.leavesExact; rw [liveAt1_3_C t (fun h => ha ((hcondFirst t).mp h)) ((hcondLast t).mpr hb)], after1_3]
      rw [outsAt1_C V c t ha hb]
      unfold leaves1C leavesC; (try dsimp only)
      by_cases hp : t.val = 0
      · exfalso; omega
      · rw [PhiS1_castSucc V c t, PhiS1_pos V c _ _ hp]
        iintro ⟨⟨⟨Hs, Hr⟩, Hg⟩, Hw, ⟨%da, Ha⟩, ⟨%db, Hb⟩, ⟨%dc, Hc⟩, ⟨%dd, Hd⟩⟩
        iapply ((stepRunC c (grid1.coords t) _ (hs1_0 t) _ (hs1_1 t) _ (hs1_2 t) _ (hs1_3 t) _ (Memref.isWhole_whole _) (fun h => ha ((hcondFirst t).mp h)) ((hcondLast t).mpr hb) (iblk1 V c 0 t) (iblk1 V c 1 t) (iblk1 V c 2 t) _).2.2 Set.univ _)
        isplitl [Ha]; · iexact Ha
        isplitl [Hb]; · iexact Hb
        isplitl [Hc]; · iexact Hc
        isplitl [Hd]; · iexists _; iexact Hd
        isplitl [Hs]; · iexact Hs
        iintro ⟨Ha, Hb, Hc, ⟨%ed, Hd⟩, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverC c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        unfold owns; iexists _; isplitr
        swap; · iexact Hd
        ipureintro; exact View.read_writes_of_cover _ _ _ _ _ (outCoverC c _ _ _ _ _ _ _ _ _ _ _ _ _ _ _ _ _)
    · rw [Dat.leavesExact_idle (dat1 V c) 3 t (idleAt1_3_B t (fun h => ha ((hcondFirst t).mp h)) (fun h => hb ((hcondLast t).mp h))) (noFlush1_3_B t (fun h => ha ((hcondFirst t).mp h)) (fun h => hb ((hcondLast t).mp h)))]
      rw [outsAt1_B V c t ha hb]
      unfold leaves1B leavesB; (try dsimp only)
      by_cases hp : t.val = 0
      · exfalso; omega
      · rw [PhiS1_castSucc V c t, PhiS1_pos V c _ _ hp]
        iintro ⟨⟨⟨Hs, Hr⟩, Hg⟩, Hw, ⟨%da, Ha⟩, ⟨%db, Hb⟩, ⟨%dc, Hc⟩, ⟨%dd, Hd⟩⟩
        iapply ((stepRunB c (grid1.coords t) _ (hs1_0 t) _ (hs1_1 t) _ (hs1_2 t) _ (hs1_3 t) _ (Memref.isWhole_whole _) (fun h => ha ((hcondFirst t).mp h)) (fun h => hb ((hcondLast t).mp h)) (iblk1 V c 0 t) (iblk1 V c 1 t) (iblk1 V c 2 t) _).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverB c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨Hs, Hr⟩, Hg⟩
  isplitl [Hs Hr]
  · isplitl [Hs]
    · iexists _; iexact Hs
    iexact Hr
  iexact Hg

theorem hout1 (c : Dev nD) : (dat1 V c).Φ (Fin.last cfg1.N) ⊢ (Pipeline.ΦA spec1 c : sProp 𝕄) :=
  Phi_out1 V c _ (by rw [Fin.val_last]; have : cfg1.N = 128 := N_1; omega)

theorem share1 (c : Dev nD) (w : Fin cfg1.W) : (dat1 V c).q w = fullShare := by dsimp only [dat1]
theorem owed1 (c : Dev nD) (t) : (dat1 V c).owed t = 0 := by dsimp only [dat1]

end Cert.Kernel.Fr

end
-- ==== Proof.KB.Ap1s.lean ====
/- (proof/Proof/KI/Ap1s.lean with the word-level program's namespace and module names put for the idealized program's; nothing else changed) -/
import proofs.«109160_j26783416057954_1_alg».proof.Proof.KB.Ap1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

def q1s : Fin cfg1.W → PosShare TreeShare
  | ⟨0, _⟩ => fullShare
  | ⟨1, _⟩ => fullShare.left
  | ⟨2, _⟩ => fullShare.right
  | ⟨3, _⟩ => fullShare

section Reshare

variable {c : Dev nD} (d : Dat τ (Elt F) Unit ℕ (UR sig nD τ) ℕ cfg1 c) (q' : Fin cfg1.W → PosShare TreeShare)

def reshare : Dat τ (Elt F) Unit ℕ (UR sig nD τ) ℕ cfg1 c := { d with q := q' }

theorem reshare_q : (reshare d q').q = q' := rfl
theorem reshare_A (w : Fin cfg1.W) : (reshare d q').A w = d.A w := rfl
theorem reshare_after (w : Fin cfg1.W) (t : Fin cfg1.N) : (reshare d q').after w t = d.after w t := rfl
theorem reshare_Φ (t : Fin (cfg1.N + 1)) : (reshare d q').Φ t = d.Φ t := rfl
theorem reshare_owed (t : Fin (cfg1.N + 1)) : (reshare d q').owed t = d.owed t := rfl

theorem reshare_found (w : Fin cfg1.W) :
    ∀ (n : ℕ) (t : Fin cfg1.N), t.val = n → ∀ x, (reshare d q').found w t x = d.found w t x := by
  intro n
  induction n using Nat.strong_induction_on with
  | _ n ih =>
    intro t ht x
    subst ht
    rw [Dat.found.eq_1, Dat.found.eq_1 (dat := d)]
    by_cases h0 : t.val = 0
    · rw [if_pos h0, if_pos h0]; rfl
    · rw [if_neg h0, if_neg h0]
      have hrec := fun h => ih (t.val - 1) (by omega) ⟨t.val - 1, h⟩ rfl x
      dsimp only
      simp only [hrec]
      rfl

theorem reshare_before (w : Fin cfg1.W) (t : Fin cfg1.N) (x) : (reshare d q').before w t x = d.before w t x := by
  rw [← Dat.found_eq_before, ← Dat.found_eq_before]
  exact reshare_found d q' w t.val t rfl x

theorem reshare_arrAt (w : Fin cfg1.W) (n : ℕ) : (reshare d q').arrAt w n = d.arrAt w n := by
  induction n with
  | zero => rfl
  | succ n ih =>
    simp only [Dat.arrAt, ih]
    rfl

theorem reshare_body (h : BodyObligation d (defs₀ (F := F)) Variants.none () Set.univ) :
    BodyObligation (reshare d q') (defs₀ (F := F)) Variants.none () Set.univ := fun t => by
  have ht := h t
  simp only [reshare_before]
  exact ht

end Reshare

variable (V : (c : Dev nD) → (b : Ref sig .tc) → Buf (Elt F) ((c : Thread nD τ).loc b))

def dat1s (c : Dev nD) : Dat τ (Elt F) Unit ℕ (UR sig nD τ) ℕ cfg1 c := reshare (dat1 V c) q1s

theorem q_eq1s (c : Dev nD) : (dat1s V c).q = q1s := rfl

theorem A_eq1s (c : Dev nD) (w : Fin cfg1.W) : (dat1s V c).A w = V c (Pipeline.arrRef spec1 w) := A_eq1 V c w

theorem arrAt1s (c : Dev nD) (w : Fin cfg1.W) (n : ℕ) : (dat1s V c).arrAt w n = (dat1 V c).arrAt w n :=
  reshare_arrAt (dat1 V c) q1s w n

theorem body_obligation1s (c : Dev nD) : BodyObligation (dat1s (F := F) V c) (defs₀ (F := F)) Variants.none () Set.univ :=
  reshare_body (dat1 V c) q1s (body_obligation1 V c)

theorem hin1s (c : Dev nD) : (Pipeline.ΦA spec1 c : sProp 𝕄) ⊢ (dat1s V c).Φ 0 := hin1 V c
theorem hout1s (c : Dev nD) : (dat1s V c).Φ (Fin.last cfg1.N) ⊢ (Pipeline.ΦA spec1 c : sProp 𝕄) := hout1 V c

theorem owed1s (c : Dev nD) (t) : (dat1s V c).owed t = 0 := owed1 V c t

theorem share1s_0 (c : Dev nD) : (dat1s V c).share 0 = fullShare := rfl
theorem share1s_1 (c : Dev nD) : (dat1s V c).share 1 = fullShare.left := rfl
theorem share1s_2 (c : Dev nD) : (dat1s V c).share 2 = fullShare.right := rfl
theorem share1s_3 (c : Dev nD) : (dat1s V c).share 3 = fullShare := rfl

end Cert.Kernel.Fr

end
-- ==== Proof.KB.Ap2Runs.lean ====
/- (proof/Proof/KI/Ap2Runs.lean with the word-level program's namespace and module names put for the idealized program's; nothing else changed) -/
import proofs.«109160_j26783416057954_1_alg».proof.Proof.KB.StepCases

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl

theorem idleAt2_3_A : ∀ t : Fin cfg2.N, condFirst (grid2.coords t) → ¬condLast (grid2.coords t) → cfg2.idle 3 (grid2.coords t) = true := by decide +kernel
theorem noFlush2_3_A : ∀ t : Fin cfg2.N, condFirst (grid2.coords t) → ¬condLast (grid2.coords t) → (cfg2.win 3).flush t = false := by decide +kernel

theorem idleAt2_3_B : ∀ t : Fin cfg2.N, ¬condFirst (grid2.coords t) → ¬condLast (grid2.coords t) → cfg2.idle 3 (grid2.coords t) = true := by decide +kernel
theorem noFlush2_3_B : ∀ t : Fin cfg2.N, ¬condFirst (grid2.coords t) → ¬condLast (grid2.coords t) → (cfg2.win 3).flush t = false := by decide +kernel

theorem liveAt2_3_C : ∀ t : Fin cfg2.N, ¬condFirst (grid2.coords t) → condLast (grid2.coords t) → cfg2.idle 3 (grid2.coords t) = false := by decide +kernel

abbrev VO2_3 : View sig .tc .vmem S2048x64 .f32 := (Memref.whole cc2_stg3_0 : Memref sig .tc .vmem S2048x64 .f32).view

abbrev ms2_0 (t : Fin cfg2.N) : Memref sig .tc .vmem S2048x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x64 .f32 := win2_3.stage (cfg2.slots t 3)
abbrev hs2_3 (t : Fin cfg2.N) : (ms2_3 t).IsWhole := hstage2_3 ((cfg2.slots t 3).cast nbuf2_3)

abbrev scM2_0 : Memref sig .tc .vmem S2048x64 .f32 := Memref.whole cc2_scratch0

abbrev VS2_0 : View sig .tc .vmem S2048x64 .f32 := scM2_0.view

theorem PhiA2_eq (c : Dev nD) :
    (Pipeline.ΦA spec2 c : sProp 𝕄)
      = iprop(iprop(iprop((∃ d, owns (c : Thread nD τ) scM2_0 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

end Cert.Kernel.Fr

end
-- ==== Proof.KB.Ap2.lean ====
/- (proof/Proof/KI/Ap2.lean with the word-level program's namespace and module names put for the idealized program's; nothing else changed) -/
import proofs.«109160_j26783416057954_1_alg».proof.Proof.KB.Ap2Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The three cases at point `t`, on the point's input blocks.
def leaves2A (c : Dev nD) (t : Fin cfg2.N) (ha : t.val % 16 = 0) (hb : ¬t.val % 16 = 15) : Vec F S2048x64 .f32 × Vec F S2048x64 .f32 :=
  leavesA VO2_3 VS2_0 c (grid2.coords t) (ms2_0 t) (hs2_0 t) (ms2_1 t) (hs2_1 t) (ms2_2 t) (hs2_2 t) (ms2_3 t) (hs2_3 t) scM2_0 (Memref.isWhole_whole _) ((hcondFirst t).mpr ha) (fun h => hb ((hcondLast t).mp h)) (iblk2 V c 0 t) (iblk2 V c 1 t) (iblk2 V c 2 t)
def leaves2B (c : Dev nD) (t : Fin cfg2.N) (ha : ¬t.val % 16 = 0) (hb : ¬t.val % 16 = 15) (xs : Vec F S2048x64 .f32) : Vec F S2048x64 .f32 × Vec F S2048x64 .f32 :=
  leavesB VO2_3 VS2_0 c (grid2.coords t) (ms2_0 t) (hs2_0 t) (ms2_1 t) (hs2_1 t) (ms2_2 t) (hs2_2 t) (ms2_3 t) (hs2_3 t) scM2_0 (Memref.isWhole_whole _) (fun h => ha ((hcondFirst t).mp h)) (fun h => hb ((hcondLast t).mp h)) (iblk2 V c 0 t) (iblk2 V c 1 t) (iblk2 V c 2 t) xs
def leaves2C (c : Dev nD) (t : Fin cfg2.N) (ha : ¬t.val % 16 = 0) (hb : t.val % 16 = 15) (xs : Vec F S2048x64 .f32) : Vec F S2048x64 .f32 × Vec F S2048x64 .f32 :=
  leavesC VO2_3 VS2_0 c (grid2.coords t) (ms2_0 t) (hs2_0 t) (ms2_1 t) (hs2_1 t) (ms2_2 t) (hs2_2 t) (ms2_3 t) (hs2_3 t) scM2_0 (Memref.isWhole_whole _) (fun h => ha ((hcondFirst t).mp h)) ((hcondLast t).mpr hb) (iblk2 V c 0 t) (iblk2 V c 1 t) (iblk2 V c 2 t) xs

-- The accumulation along a row block: the first column block resets, each later one adds to what the point before left.
def outsAt2 (c : Dev nD) : (n : ℕ) → n < cfg2.N → Vec F S2048x64 .f32 × Vec F S2048x64 .f32
  | 0, hn => leaves2A V c ⟨0, hn⟩ (Nat.zero_mod _) (by show ¬0 % 16 = 15; omega)
  | n + 1, hn =>
    if ha : (n + 1) % 16 = 0 then
      if hb : (n + 1) % 16 = 15 then False.elim (by omega) else leaves2A V c ⟨n + 1, hn⟩ ha hb
    else
      if hb : (n + 1) % 16 = 15 then leaves2C V c ⟨n + 1, hn⟩ ha hb (outsAt2 c n (Nat.lt_of_succ_lt hn)).2
      else leaves2B V c ⟨n + 1, hn⟩ ha hb (outsAt2 c n (Nat.lt_of_succ_lt hn)).2

theorem outsAt2_A (c : Dev nD) (t : Fin cfg2.N) (ha : t.val % 16 = 0) (hb : ¬t.val % 16 = 15) :
    outsAt2 V c t.val t.isLt = leaves2A V c t ha hb := by
  obtain ⟨n, hn⟩ := t
  cases n with
  | zero => exact rfl
  | succ n => exact (dif_pos ha).trans ((dif_neg hb).trans rfl)

theorem outsAt2_B (c : Dev nD) (t : Fin cfg2.N) (ha : ¬t.val % 16 = 0) (hb : ¬t.val % 16 = 15) :
    outsAt2 V c t.val t.isLt = leaves2B V c t ha hb (outsAt2 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_neg hb).trans rfl)

theorem outsAt2_C (c : Dev nD) (t : Fin cfg2.N) (ha : ¬t.val % 16 = 0) (hb : t.val % 16 = 15) :
    outsAt2 V c t.val t.isLt = leaves2C V c t ha hb (outsAt2 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_pos hb).trans rfl)

def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hp : n = 0) : PhiS2 V c n h = Pipeline.ΦA spec2 c := by
  subst hp; rfl

theorem PhiS2_succ (c : Dev nD) (n : ℕ) (hn : n < cfg2.N) :
    PhiS2 V c (n + 1) hn = iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hp : n ≠ 0) :
    PhiS2 V c n h = iprop(iprop(owns (c : Thread nD τ) scM2_0 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hp
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  have hN : t.val < 128 := lt_of_lt_of_eq t.isLt (show cfg2.N = 128 from N_2)
  by_cases ha : t.val % 16 = 0
  · by_cases hb : t.val % 16 = 15
    · exfalso; omega
    · rw [Dat.leavesExact_idle (dat2 V c) 3 t (idleAt2_3_A t ((hcondFirst t).mpr ha) (fun h => hb ((hcondLast t).mp h))) (noFlush2_3_A t ((hcondFirst t).mpr ha) (fun h => hb ((hcondLast t).mp h)))]
      rw [outsAt2_A V c t ha hb]
      unfold leaves2A leavesA; (try dsimp only)
      by_cases hp : t.val = 0
      · rw [PhiS2_castSucc V c t, PhiS2_zero V c _ _ hp, PhiA2_eq]
        iintro ⟨⟨⟨Hs, Hr⟩, Hg⟩, Hw, ⟨%da, Ha⟩, ⟨%db, Hb⟩, ⟨%dc, Hc⟩, ⟨%dd, Hd⟩⟩
        iapply ((stepRunA c (grid2.coords t) _ (hs2_0 t) _ (hs2_1 t) _ (hs2_2 t) _ (hs2_3 t) _ (Memref.isWhole_whole _) ((hcondFirst t).mpr ha) (fun h => hb ((hcondLast t).mp h)) (iblk2 V c 0 t) (iblk2 V c 1 t) (iblk2 V c 2 t)).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
      · rw [PhiS2_castSucc V c t, PhiS2_pos V c _ _ hp]
        iintro ⟨⟨⟨Hs, Hr⟩, Hg⟩, Hw, ⟨%da, Ha⟩, ⟨%db, Hb⟩, ⟨%dc, Hc⟩, ⟨%dd, Hd⟩⟩
        iapply ((stepRunA c (grid2.coords t) _ (hs2_0 t) _ (hs2_1 t) _ (hs2_2 t) _ (hs2_3 t) _ (Memref.isWhole_whole _) ((hcondFirst t).mpr ha) (fun h => hb ((hcondLast t).mp h)) (iblk2 V c 0 t) (iblk2 V c 1 t) (iblk2 V c 2 t)).2.2 _ Set.univ _)
        isplitl [Ha]; · iexact Ha
        isplitl [Hb]; · iexact Hb
        isplitl [Hc]; · iexact Hc
        isplitl [Hd]; · iexact Hd
        isplitl [Hs]; · iexists _; iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
  · by_cases hb : t.val % 16 = 15
    · rw [show (dat2 V c).leavesExact 3 t = owns (c : Thread nD τ) (ms2_3 t) fullShare ((dat2 V c).after 3 t) from by
        unfold Dat.leavesExact; rw [liveAt2_3_C t (fun h => ha ((hcondFirst t).mp h)) ((hcondLast t).mpr hb)], after2_3]
      rw [outsAt2_C V c t ha hb]
      unfold leaves2C leavesC; (try dsimp only)
      by_cases hp : t.val = 0
      · exfalso; omega
      · rw [PhiS2_castSucc V c t, PhiS2_pos V c _ _ hp]
        iintro ⟨⟨⟨Hs, Hr⟩, Hg⟩, Hw, ⟨%da, Ha⟩, ⟨%db, Hb⟩, ⟨%dc, Hc⟩, ⟨%dd, Hd⟩⟩
        iapply ((stepRunC c (grid2.coords t) _ (hs2_0 t) _ (hs2_1 t) _ (hs2_2 t) _ (hs2_3 t) _ (Memref.isWhole_whole _) (fun h => ha ((hcondFirst t).mp h)) ((hcondLast t).mpr hb) (iblk2 V c 0 t) (iblk2 V c 1 t) (iblk2 V c 2 t) _).2.2 Set.univ _)
        isplitl [Ha]; · iexact Ha
        isplitl [Hb]; · iexact Hb
        isplitl [Hc]; · iexact Hc
        isplitl [Hd]; · iexists _; iexact Hd
        isplitl [Hs]; · iexact Hs
        iintro ⟨Ha, Hb, Hc, ⟨%ed, Hd⟩, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverC c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        unfold owns; iexists _; isplitr
        swap; · iexact Hd
        ipureintro; exact View.read_writes_of_cover _ _ _ _ _ (outCoverC c _ _ _ _ _ _ _ _ _ _ _ _ _ _ _ _ _)
    · rw [Dat.leavesExact_idle (dat2 V c) 3 t (idleAt2_3_B t (fun h => ha ((hcondFirst t).mp h)) (fun h => hb ((hcondLast t).mp h))) (noFlush2_3_B t (fun h => ha ((hcondFirst t).mp h)) (fun h => hb ((hcondLast t).mp h)))]
      rw [outsAt2_B V c t ha hb]
      unfold leaves2B leavesB; (try dsimp only)
      by_cases hp : t.val = 0
      · exfalso; omega
      · rw [PhiS2_castSucc V c t, PhiS2_pos V c _ _ hp]
        iintro ⟨⟨⟨Hs, Hr⟩, Hg⟩, Hw, ⟨%da, Ha⟩, ⟨%db, Hb⟩, ⟨%dc, Hc⟩, ⟨%dd, Hd⟩⟩
        iapply ((stepRunB c (grid2.coords t) _ (hs2_0 t) _ (hs2_1 t) _ (hs2_2 t) _ (hs2_3 t) _ (Memref.isWhole_whole _) (fun h => ha ((hcondFirst t).mp h)) (fun h => hb ((hcondLast t).mp h)) (iblk2 V c 0 t) (iblk2 V c 1 t) (iblk2 V c 2 t) _).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverB c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨Hs, Hr⟩, Hg⟩
  isplitl [Hs Hr]
  · isplitl [Hs]
    · iexists _; iexact Hs
    iexact Hr
  iexact Hg

theorem hout2 (c : Dev nD) : (dat2 V c).Φ (Fin.last cfg2.N) ⊢ (Pipeline.ΦA spec2 c : sProp 𝕄) :=
  Phi_out2 V c _ (by rw [Fin.val_last]; have : cfg2.N = 128 := N_2; omega)

theorem share2 (c : Dev nD) (w : Fin cfg2.W) : (dat2 V c).q w = fullShare := by dsimp only [dat2]
theorem owed2 (c : Dev nD) (t) : (dat2 V c).owed t = 0 := by dsimp only [dat2]

end Cert.Kernel.Fr

end
-- ==== Proof.KB.Ap3Runs.lean ====
/- (proof/Proof/KI/Ap3Runs.lean with the word-level program's namespace and module names put for the idealized program's; nothing else changed) -/
import proofs.«109160_j26783416057954_1_alg».proof.Proof.KB.StepCases

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl

theorem idleAt3_3_A : ∀ t : Fin cfg3.N, condFirst (grid3.coords t) → ¬condLast (grid3.coords t) → cfg3.idle 3 (grid3.coords t) = true := by decide +kernel
theorem noFlush3_3_A : ∀ t : Fin cfg3.N, condFirst (grid3.coords t) → ¬condLast (grid3.coords t) → (cfg3.win 3).flush t = false := by decide +kernel

theorem idleAt3_3_B : ∀ t : Fin cfg3.N, ¬condFirst (grid3.coords t) → ¬condLast (grid3.coords t) → cfg3.idle 3 (grid3.coords t) = true := by decide +kernel
theorem noFlush3_3_B : ∀ t : Fin cfg3.N, ¬condFirst (grid3.coords t) → ¬condLast (grid3.coords t) → (cfg3.win 3).flush t = false := by decide +kernel

theorem liveAt3_3_C : ∀ t : Fin cfg3.N, ¬condFirst (grid3.coords t) → condLast (grid3.coords t) → cfg3.idle 3 (grid3.coords t) = false := by decide +kernel

abbrev VO3_3 : View sig .tc .vmem S2048x64 .f32 := (Memref.whole cc3_stg3_0 : Memref sig .tc .vmem S2048x64 .f32).view

abbrev ms3_0 (t : Fin cfg3.N) : Memref sig .tc .vmem S2048x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x64 .f32 := win3_3.stage (cfg3.slots t 3)
abbrev hs3_3 (t : Fin cfg3.N) : (ms3_3 t).IsWhole := hstage3_3 ((cfg3.slots t 3).cast nbuf3_3)

abbrev scM3_0 : Memref sig .tc .vmem S2048x64 .f32 := Memref.whole cc3_scratch0

abbrev VS3_0 : View sig .tc .vmem S2048x64 .f32 := scM3_0.view

theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

end Cert.Kernel.Fr

end
-- ==== Proof.KB.Ap3.lean ====
/- (proof/Proof/KI/Ap3.lean with the word-level program's namespace and module names put for the idealized program's; nothing else changed) -/
import proofs.«109160_j26783416057954_1_alg».proof.Proof.KB.Ap3Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The three cases at point `t`, on the point's input blocks.
def leaves3A (c : Dev nD) (t : Fin cfg3.N) (ha : t.val % 16 = 0) (hb : ¬t.val % 16 = 15) : Vec F S2048x64 .f32 × Vec F S2048x64 .f32 :=
  leavesA VO3_3 VS3_0 c (grid3.coords t) (ms3_0 t) (hs3_0 t) (ms3_1 t) (hs3_1 t) (ms3_2 t) (hs3_2 t) (ms3_3 t) (hs3_3 t) scM3_0 (Memref.isWhole_whole _) ((hcondFirst t).mpr ha) (fun h => hb ((hcondLast t).mp h)) (iblk3 V c 0 t) (iblk3 V c 1 t) (iblk3 V c 2 t)
def leaves3B (c : Dev nD) (t : Fin cfg3.N) (ha : ¬t.val % 16 = 0) (hb : ¬t.val % 16 = 15) (xs : Vec F S2048x64 .f32) : Vec F S2048x64 .f32 × Vec F S2048x64 .f32 :=
  leavesB VO3_3 VS3_0 c (grid3.coords t) (ms3_0 t) (hs3_0 t) (ms3_1 t) (hs3_1 t) (ms3_2 t) (hs3_2 t) (ms3_3 t) (hs3_3 t) scM3_0 (Memref.isWhole_whole _) (fun h => ha ((hcondFirst t).mp h)) (fun h => hb ((hcondLast t).mp h)) (iblk3 V c 0 t) (iblk3 V c 1 t) (iblk3 V c 2 t) xs
def leaves3C (c : Dev nD) (t : Fin cfg3.N) (ha : ¬t.val % 16 = 0) (hb : t.val % 16 = 15) (xs : Vec F S2048x64 .f32) : Vec F S2048x64 .f32 × Vec F S2048x64 .f32 :=
  leavesC VO3_3 VS3_0 c (grid3.coords t) (ms3_0 t) (hs3_0 t) (ms3_1 t) (hs3_1 t) (ms3_2 t) (hs3_2 t) (ms3_3 t) (hs3_3 t) scM3_0 (Memref.isWhole_whole _) (fun h => ha ((hcondFirst t).mp h)) ((hcondLast t).mpr hb) (iblk3 V c 0 t) (iblk3 V c 1 t) (iblk3 V c 2 t) xs

-- The accumulation along a row block: the first column block resets, each later one adds to what the point before left.
def outsAt3 (c : Dev nD) : (n : ℕ) → n < cfg3.N → Vec F S2048x64 .f32 × Vec F S2048x64 .f32
  | 0, hn => leaves3A V c ⟨0, hn⟩ (Nat.zero_mod _) (by show ¬0 % 16 = 15; omega)
  | n + 1, hn =>
    if ha : (n + 1) % 16 = 0 then
      if hb : (n + 1) % 16 = 15 then False.elim (by omega) else leaves3A V c ⟨n + 1, hn⟩ ha hb
    else
      if hb : (n + 1) % 16 = 15 then leaves3C V c ⟨n + 1, hn⟩ ha hb (outsAt3 c n (Nat.lt_of_succ_lt hn)).2
      else leaves3B V c ⟨n + 1, hn⟩ ha hb (outsAt3 c n (Nat.lt_of_succ_lt hn)).2

theorem outsAt3_A (c : Dev nD) (t : Fin cfg3.N) (ha : t.val % 16 = 0) (hb : ¬t.val % 16 = 15) :
    outsAt3 V c t.val t.isLt = leaves3A V c t ha hb := by
  obtain ⟨n, hn⟩ := t
  cases n with
  | zero => exact rfl
  | succ n => exact (dif_pos ha).trans ((dif_neg hb).trans rfl)

theorem outsAt3_B (c : Dev nD) (t : Fin cfg3.N) (ha : ¬t.val % 16 = 0) (hb : ¬t.val % 16 = 15) :
    outsAt3 V c t.val t.isLt = leaves3B V c t ha hb (outsAt3 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_neg hb).trans rfl)

theorem outsAt3_C (c : Dev nD) (t : Fin cfg3.N) (ha : ¬t.val % 16 = 0) (hb : t.val % 16 = 15) :
    outsAt3 V c t.val t.isLt = leaves3C V c t ha hb (outsAt3 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_pos hb).trans rfl)

def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hp : n = 0) : PhiS3 V c n h = Pipeline.ΦA spec3 c := by
  subst hp; rfl

theorem PhiS3_succ (c : Dev nD) (n : ℕ) (hn : n < cfg3.N) :
    PhiS3 V c (n + 1) hn = iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hp : n ≠ 0) :
    PhiS3 V c n h = iprop(iprop(owns (c : Thread nD τ) scM3_0 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hp
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  have hN : t.val < 128 := lt_of_lt_of_eq t.isLt (show cfg3.N = 128 from N_3)
  by_cases ha : t.val % 16 = 0
  · by_cases hb : t.val % 16 = 15
    · exfalso; omega
    · rw [Dat.leavesExact_idle (dat3 V c) 3 t (idleAt3_3_A t ((hcondFirst t).mpr ha) (fun h => hb ((hcondLast t).mp h))) (noFlush3_3_A t ((hcondFirst t).mpr ha) (fun h => hb ((hcondLast t).mp h)))]
      rw [outsAt3_A V c t ha hb]
      unfold leaves3A leavesA; (try dsimp only)
      by_cases hp : t.val = 0
      · rw [PhiS3_castSucc V c t, PhiS3_zero V c _ _ hp, PhiA3_eq]
        iintro ⟨⟨⟨Hs, Hr⟩, Hg⟩, Hw, ⟨%da, Ha⟩, ⟨%db, Hb⟩, ⟨%dc, Hc⟩, ⟨%dd, Hd⟩⟩
        iapply ((stepRunA c (grid3.coords t) _ (hs3_0 t) _ (hs3_1 t) _ (hs3_2 t) _ (hs3_3 t) _ (Memref.isWhole_whole _) ((hcondFirst t).mpr ha) (fun h => hb ((hcondLast t).mp h)) (iblk3 V c 0 t) (iblk3 V c 1 t) (iblk3 V c 2 t)).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
      · rw [PhiS3_castSucc V c t, PhiS3_pos V c _ _ hp]
        iintro ⟨⟨⟨Hs, Hr⟩, Hg⟩, Hw, ⟨%da, Ha⟩, ⟨%db, Hb⟩, ⟨%dc, Hc⟩, ⟨%dd, Hd⟩⟩
        iapply ((stepRunA c (grid3.coords t) _ (hs3_0 t) _ (hs3_1 t) _ (hs3_2 t) _ (hs3_3 t) _ (Memref.isWhole_whole _) ((hcondFirst t).mpr ha) (fun h => hb ((hcondLast t).mp h)) (iblk3 V c 0 t) (iblk3 V c 1 t) (iblk3 V c 2 t)).2.2 _ Set.univ _)
        isplitl [Ha]; · iexact Ha
        isplitl [Hb]; · iexact Hb
        isplitl [Hc]; · iexact Hc
        isplitl [Hd]; · iexact Hd
        isplitl [Hs]; · iexists _; iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
  · by_cases hb : t.val % 16 = 15
    · rw [show (dat3 V c).leavesExact 3 t = owns (c : Thread nD τ) (ms3_3 t) fullShare ((dat3 V c).after 3 t) from by
        unfold Dat.leavesExact; rw [liveAt3_3_C t (fun h => ha ((hcondFirst t).mp h)) ((hcondLast t).mpr hb)], after3_3]
      rw [outsAt3_C V c t ha hb]
      unfold leaves3C leavesC; (try dsimp only)
      by_cases hp : t.val = 0
      · exfalso; omega
      · rw [PhiS3_castSucc V c t, PhiS3_pos V c _ _ hp]
        iintro ⟨⟨⟨Hs, Hr⟩, Hg⟩, Hw, ⟨%da, Ha⟩, ⟨%db, Hb⟩, ⟨%dc, Hc⟩, ⟨%dd, Hd⟩⟩
        iapply ((stepRunC c (grid3.coords t) _ (hs3_0 t) _ (hs3_1 t) _ (hs3_2 t) _ (hs3_3 t) _ (Memref.isWhole_whole _) (fun h => ha ((hcondFirst t).mp h)) ((hcondLast t).mpr hb) (iblk3 V c 0 t) (iblk3 V c 1 t) (iblk3 V c 2 t) _).2.2 Set.univ _)
        isplitl [Ha]; · iexact Ha
        isplitl [Hb]; · iexact Hb
        isplitl [Hc]; · iexact Hc
        isplitl [Hd]; · iexists _; iexact Hd
        isplitl [Hs]; · iexact Hs
        iintro ⟨Ha, Hb, Hc, ⟨%ed, Hd⟩, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverC c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        unfold owns; iexists _; isplitr
        swap; · iexact Hd
        ipureintro; exact View.read_writes_of_cover _ _ _ _ _ (outCoverC c _ _ _ _ _ _ _ _ _ _ _ _ _ _ _ _ _)
    · rw [Dat.leavesExact_idle (dat3 V c) 3 t (idleAt3_3_B t (fun h => ha ((hcondFirst t).mp h)) (fun h => hb ((hcondLast t).mp h))) (noFlush3_3_B t (fun h => ha ((hcondFirst t).mp h)) (fun h => hb ((hcondLast t).mp h)))]
      rw [outsAt3_B V c t ha hb]
      unfold leaves3B leavesB; (try dsimp only)
      by_cases hp : t.val = 0
      · exfalso; omega
      · rw [PhiS3_castSucc V c t, PhiS3_pos V c _ _ hp]
        iintro ⟨⟨⟨Hs, Hr⟩, Hg⟩, Hw, ⟨%da, Ha⟩, ⟨%db, Hb⟩, ⟨%dc, Hc⟩, ⟨%dd, Hd⟩⟩
        iapply ((stepRunB c (grid3.coords t) _ (hs3_0 t) _ (hs3_1 t) _ (hs3_2 t) _ (hs3_3 t) _ (Memref.isWhole_whole _) (fun h => ha ((hcondFirst t).mp h)) (fun h => hb ((hcondLast t).mp h)) (iblk3 V c 0 t) (iblk3 V c 1 t) (iblk3 V c 2 t) _).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverB c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) (ht : t.val ≠ 0) : (dat3 V c).Φ t ⊢ (Pipeline.ΦA spec3 c : sProp 𝕄) := by
  rw [show (dat3 V c).Φ t = PhiS3 V c t.val (Nat.le_of_lt_succ t.isLt) from rfl, PhiS3_pos V c _ _ ht, PhiA3_eq]
  iintro ⟨⟨Hs, Hr⟩, Hg⟩
  isplitl [Hs Hr]
  · isplitl [Hs]
    · iexists _; iexact Hs
    iexact Hr
  iexact Hg

theorem hout3 (c : Dev nD) : (dat3 V c).Φ (Fin.last cfg3.N) ⊢ (Pipeline.ΦA spec3 c : sProp 𝕄) :=
  Phi_out3 V c _ (by rw [Fin.val_last]; have : cfg3.N = 128 := N_3; omega)

theorem share3 (c : Dev nD) (w : Fin cfg3.W) : (dat3 V c).q w = fullShare := by dsimp only [dat3]
theorem owed3 (c : Dev nD) (t) : (dat3 V c).owed t = 0 := by dsimp only [dat3]

end Cert.Kernel.Fr

end
-- ==== Proof.KB.Ap4Runs.lean ====
/- (proof/Proof/KI/Ap4Runs.lean with the word-level program's namespace and module names put for the idealized program's; nothing else changed) -/
import proofs.«109160_j26783416057954_1_alg».proof.Proof.KB.StepCases

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl

theorem idleAt4_3_A : ∀ t : Fin cfg4.N, condFirst (grid4.coords t) → ¬condLast (grid4.coords t) → cfg4.idle 3 (grid4.coords t) = true := by decide +kernel
theorem noFlush4_3_A : ∀ t : Fin cfg4.N, condFirst (grid4.coords t) → ¬condLast (grid4.coords t) → (cfg4.win 3).flush t = false := by decide +kernel

theorem idleAt4_3_B : ∀ t : Fin cfg4.N, ¬condFirst (grid4.coords t) → ¬condLast (grid4.coords t) → cfg4.idle 3 (grid4.coords t) = true := by decide +kernel
theorem noFlush4_3_B : ∀ t : Fin cfg4.N, ¬condFirst (grid4.coords t) → ¬condLast (grid4.coords t) → (cfg4.win 3).flush t = false := by decide +kernel

theorem liveAt4_3_C : ∀ t : Fin cfg4.N, ¬condFirst (grid4.coords t) → condLast (grid4.coords t) → cfg4.idle 3 (grid4.coords t) = false := by decide +kernel

abbrev VO4_3 : View sig .tc .vmem S2048x64 .f32 := (Memref.whole cc4_stg3_0 : Memref sig .tc .vmem S2048x64 .f32).view

abbrev ms4_0 (t : Fin cfg4.N) : Memref sig .tc .vmem S2048x1024 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2048x64 .f32 := win4_3.stage (cfg4.slots t 3)
abbrev hs4_3 (t : Fin cfg4.N) : (ms4_3 t).IsWhole := hstage4_3 ((cfg4.slots t 3).cast nbuf4_3)

abbrev scM4_0 : Memref sig .tc .vmem S2048x64 .f32 := Memref.whole cc4_scratch0

abbrev VS4_0 : View sig .tc .vmem S2048x64 .f32 := scM4_0.view

theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

end Cert.Kernel.Fr

end
-- ==== Proof.KB.Ap4.lean ====
/- (proof/Proof/KI/Ap4.lean with the word-level program's namespace and module names put for the idealized program's; nothing else changed) -/
import proofs.«109160_j26783416057954_1_alg».proof.Proof.KB.Ap4Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The three cases at point `t`, on the point's input blocks.
def leaves4A (c : Dev nD) (t : Fin cfg4.N) (ha : t.val % 16 = 0) (hb : ¬t.val % 16 = 15) : Vec F S2048x64 .f32 × Vec F S2048x64 .f32 :=
  leavesA VO4_3 VS4_0 c (grid4.coords t) (ms4_0 t) (hs4_0 t) (ms4_1 t) (hs4_1 t) (ms4_2 t) (hs4_2 t) (ms4_3 t) (hs4_3 t) scM4_0 (Memref.isWhole_whole _) ((hcondFirst t).mpr ha) (fun h => hb ((hcondLast t).mp h)) (iblk4 V c 0 t) (iblk4 V c 1 t) (iblk4 V c 2 t)
def leaves4B (c : Dev nD) (t : Fin cfg4.N) (ha : ¬t.val % 16 = 0) (hb : ¬t.val % 16 = 15) (xs : Vec F S2048x64 .f32) : Vec F S2048x64 .f32 × Vec F S2048x64 .f32 :=
  leavesB VO4_3 VS4_0 c (grid4.coords t) (ms4_0 t) (hs4_0 t) (ms4_1 t) (hs4_1 t) (ms4_2 t) (hs4_2 t) (ms4_3 t) (hs4_3 t) scM4_0 (Memref.isWhole_whole _) (fun h => ha ((hcondFirst t).mp h)) (fun h => hb ((hcondLast t).mp h)) (iblk4 V c 0 t) (iblk4 V c 1 t) (iblk4 V c 2 t) xs
def leaves4C (c : Dev nD) (t : Fin cfg4.N) (ha : ¬t.val % 16 = 0) (hb : t.val % 16 = 15) (xs : Vec F S2048x64 .f32) : Vec F S2048x64 .f32 × Vec F S2048x64 .f32 :=
  leavesC VO4_3 VS4_0 c (grid4.coords t) (ms4_0 t) (hs4_0 t) (ms4_1 t) (hs4_1 t) (ms4_2 t) (hs4_2 t) (ms4_3 t) (hs4_3 t) scM4_0 (Memref.isWhole_whole _) (fun h => ha ((hcondFirst t).mp h)) ((hcondLast t).mpr hb) (iblk4 V c 0 t) (iblk4 V c 1 t) (iblk4 V c 2 t) xs

-- The accumulation along a row block: the first column block resets, each later one adds to what the point before left.
def outsAt4 (c : Dev nD) : (n : ℕ) → n < cfg4.N → Vec F S2048x64 .f32 × Vec F S2048x64 .f32
  | 0, hn => leaves4A V c ⟨0, hn⟩ (Nat.zero_mod _) (by show ¬0 % 16 = 15; omega)
  | n + 1, hn =>
    if ha : (n + 1) % 16 = 0 then
      if hb : (n + 1) % 16 = 15 then False.elim (by omega) else leaves4A V c ⟨n + 1, hn⟩ ha hb
    else
      if hb : (n + 1) % 16 = 15 then leaves4C V c ⟨n + 1, hn⟩ ha hb (outsAt4 c n (Nat.lt_of_succ_lt hn)).2
      else leaves4B V c ⟨n + 1, hn⟩ ha hb (outsAt4 c n (Nat.lt_of_succ_lt hn)).2

theorem outsAt4_A (c : Dev nD) (t : Fin cfg4.N) (ha : t.val % 16 = 0) (hb : ¬t.val % 16 = 15) :
    outsAt4 V c t.val t.isLt = leaves4A V c t ha hb := by
  obtain ⟨n, hn⟩ := t
  cases n with
  | zero => exact rfl
  | succ n => exact (dif_pos ha).trans ((dif_neg hb).trans rfl)

theorem outsAt4_B (c : Dev nD) (t : Fin cfg4.N) (ha : ¬t.val % 16 = 0) (hb : ¬t.val % 16 = 15) :
    outsAt4 V c t.val t.isLt = leaves4B V c t ha hb (outsAt4 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_neg hb).trans rfl)

theorem outsAt4_C (c : Dev nD) (t : Fin cfg4.N) (ha : ¬t.val % 16 = 0) (hb : t.val % 16 = 15) :
    outsAt4 V c t.val t.isLt = leaves4C V c t ha hb (outsAt4 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_pos hb).trans rfl)

def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hp : n = 0) : PhiS4 V c n h = Pipeline.ΦA spec4 c := by
  subst hp; rfl

theorem PhiS4_succ (c : Dev nD) (n : ℕ) (hn : n < cfg4.N) :
    PhiS4 V c (n + 1) hn = iprop(iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hp : n ≠ 0) :
    PhiS4 V c n h = iprop(iprop(owns (c : Thread nD τ) scM4_0 fullShare ((outsAt4 V c (n - 1) (by omega)).2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hp
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  have hN : t.val < 128 := lt_of_lt_of_eq t.isLt (show cfg4.N = 128 from N_4)
  by_cases ha : t.val % 16 = 0
  · by_cases hb : t.val % 16 = 15
    · exfalso; omega
    · rw [Dat.leavesExact_idle (dat4 V c) 3 t (idleAt4_3_A t ((hcondFirst t).mpr ha) (fun h => hb ((hcondLast t).mp h))) (noFlush4_3_A t ((hcondFirst t).mpr ha) (fun h => hb ((hcondLast t).mp h)))]
      rw [outsAt4_A V c t ha hb]
      unfold leaves4A leavesA; (try dsimp only)
      by_cases hp : t.val = 0
      · rw [PhiS4_castSucc V c t, PhiS4_zero V c _ _ hp, PhiA4_eq]
        iintro ⟨⟨⟨Hs, Hr⟩, Hg⟩, Hw, ⟨%da, Ha⟩, ⟨%db, Hb⟩, ⟨%dc, Hc⟩, ⟨%dd, Hd⟩⟩
        iapply ((stepRunA c (grid4.coords t) _ (hs4_0 t) _ (hs4_1 t) _ (hs4_2 t) _ (hs4_3 t) _ (Memref.isWhole_whole _) ((hcondFirst t).mpr ha) (fun h => hb ((hcondLast t).mp h)) (iblk4 V c 0 t) (iblk4 V c 1 t) (iblk4 V c 2 t)).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
      · rw [PhiS4_castSucc V c t, PhiS4_pos V c _ _ hp]
        iintro ⟨⟨⟨Hs, Hr⟩, Hg⟩, Hw, ⟨%da, Ha⟩, ⟨%db, Hb⟩, ⟨%dc, Hc⟩, ⟨%dd, Hd⟩⟩
        iapply ((stepRunA c (grid4.coords t) _ (hs4_0 t) _ (hs4_1 t) _ (hs4_2 t) _ (hs4_3 t) _ (Memref.isWhole_whole _) ((hcondFirst t).mpr ha) (fun h => hb ((hcondLast t).mp h)) (iblk4 V c 0 t) (iblk4 V c 1 t) (iblk4 V c 2 t)).2.2 _ Set.univ _)
        isplitl [Ha]; · iexact Ha
        isplitl [Hb]; · iexact Hb
        isplitl [Hc]; · iexact Hc
        isplitl [Hd]; · iexact Hd
        isplitl [Hs]; · iexists _; iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
  · by_cases hb : t.val % 16 = 15
    · rw [show (dat4 V c).leavesExact 3 t = owns (c : Thread nD τ) (ms4_3 t) fullShare ((dat4 V c).after 3 t) from by
        unfold Dat.leavesExact; rw [liveAt4_3_C t (fun h => ha ((hcondFirst t).mp h)) ((hcondLast t).mpr hb)], after4_3]
      rw [outsAt4_C V c t ha hb]
      unfold leaves4C leavesC; (try dsimp only)
      by_cases hp : t.val = 0
      · exfalso; omega
      · rw [PhiS4_castSucc V c t, PhiS4_pos V c _ _ hp]
        iintro ⟨⟨⟨Hs, Hr⟩, Hg⟩, Hw, ⟨%da, Ha⟩, ⟨%db, Hb⟩, ⟨%dc, Hc⟩, ⟨%dd, Hd⟩⟩
        iapply ((stepRunC c (grid4.coords t) _ (hs4_0 t) _ (hs4_1 t) _ (hs4_2 t) _ (hs4_3 t) _ (Memref.isWhole_whole _) (fun h => ha ((hcondFirst t).mp h)) ((hcondLast t).mpr hb) (iblk4 V c 0 t) (iblk4 V c 1 t) (iblk4 V c 2 t) _).2.2 Set.univ _)
        isplitl [Ha]; · iexact Ha
        isplitl [Hb]; · iexact Hb
        isplitl [Hc]; · iexact Hc
        isplitl [Hd]; · iexists _; iexact Hd
        isplitl [Hs]; · iexact Hs
        iintro ⟨Ha, Hb, Hc, ⟨%ed, Hd⟩, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverC c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        unfold owns; iexists _; isplitr
        swap; · iexact Hd
        ipureintro; exact View.read_writes_of_cover _ _ _ _ _ (outCoverC c _ _ _ _ _ _ _ _ _ _ _ _ _ _ _ _ _)
    · rw [Dat.leavesExact_idle (dat4 V c) 3 t (idleAt4_3_B t (fun h => ha ((hcondFirst t).mp h)) (fun h => hb ((hcondLast t).mp h))) (noFlush4_3_B t (fun h => ha ((hcondFirst t).mp h)) (fun h => hb ((hcondLast t).mp h)))]
      rw [outsAt4_B V c t ha hb]
      unfold leaves4B leavesB; (try dsimp only)
      by_cases hp : t.val = 0
      · exfalso; omega
      · rw [PhiS4_castSucc V c t, PhiS4_pos V c _ _ hp]
        iintro ⟨⟨⟨Hs, Hr⟩, Hg⟩, Hw, ⟨%da, Ha⟩, ⟨%db, Hb⟩, ⟨%dc, Hc⟩, ⟨%dd, Hd⟩⟩
        iapply ((stepRunB c (grid4.coords t) _ (hs4_0 t) _ (hs4_1 t) _ (hs4_2 t) _ (hs4_3 t) _ (Memref.isWhole_whole _) (fun h => ha ((hcondFirst t).mp h)) (fun h => hb ((hcondLast t).mp h)) (iblk4 V c 0 t) (iblk4 V c 1 t) (iblk4 V c 2 t) _).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverB c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd

theorem body_obligation4 (c : Dev nD) : BodyObligation (dat4 (F := F) V c) (defs₀ (F := F)) Variants.none () Set.univ := fun t => by
  rw [bigSep_W4, bigSep_W4]
  exact sound_body4 V c t

theorem hin4 (c : Dev nD) : (Pipeline.ΦA spec4 c : sProp 𝕄) ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ (Pipeline.ΦA spec4 c : sProp 𝕄) := by
  rw [show (dat4 V c).Φ t = PhiS4 V c t.val (Nat.le_of_lt_succ t.isLt) from rfl, PhiS4_pos V c _ _ ht, PhiA4_eq]
  iintro ⟨⟨Hs, Hr⟩, Hg⟩
  isplitl [Hs Hr]
  · isplitl [Hs]
    · iexists _; iexact Hs
    iexact Hr
  iexact Hg

theorem hout4 (c : Dev nD) : (dat4 V c).Φ (Fin.last cfg4.N) ⊢ (Pipeline.ΦA spec4 c : sProp 𝕄) :=
  Phi_out4 V c _ (by rw [Fin.val_last]; have : cfg4.N = 128 := N_4; omega)

theorem share4 (c : Dev nD) (w : Fin cfg4.W) : (dat4 V c).q w = fullShare := by dsimp only [dat4]
theorem owed4 (c : Dev nD) (t) : (dat4 V c).owed t = 0 := by dsimp only [dat4]

end Cert.Kernel.Fr

end
-- ==== Proof.KB.Ap5Runs.lean ====
/- (proof/Proof/KI/Ap5Runs.lean with the word-level program's namespace and module names put for the idealized program's; nothing else changed) -/
import proofs.«109160_j26783416057954_1_alg».proof.Proof.KB.StepCases

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem liveAt5_0 : ∀ t : Fin cfg5.N, cfg5.idle 0 (grid5.coords t) = false := fun _ => rfl
theorem liveAt5_1 : ∀ t : Fin cfg5.N, cfg5.idle 1 (grid5.coords t) = false := fun _ => rfl
theorem liveAt5_2 : ∀ t : Fin cfg5.N, cfg5.idle 2 (grid5.coords t) = false := fun _ => rfl

theorem idleAt5_3_A : ∀ t : Fin cfg5.N, condFirst (grid5.coords t) → ¬condLast (grid5.coords t) → cfg5.idle 3 (grid5.coords t) = true := by decide +kernel
theorem noFlush5_3_A : ∀ t : Fin cfg5.N, condFirst (grid5.coords t) → ¬condLast (grid5.coords t) → (cfg5.win 3).flush t = false := by decide +kernel

theorem idleAt5_3_B : ∀ t : Fin cfg5.N, ¬condFirst (grid5.coords t) → ¬condLast (grid5.coords t) → cfg5.idle 3 (grid5.coords t) = true := by decide +kernel
theorem noFlush5_3_B : ∀ t : Fin cfg5.N, ¬condFirst (grid5.coords t) → ¬condLast (grid5.coords t) → (cfg5.win 3).flush t = false := by decide +kernel

theorem liveAt5_3_C : ∀ t : Fin cfg5.N, ¬condFirst (grid5.coords t) → condLast (grid5.coords t) → cfg5.idle 3 (grid5.coords t) = false := by decide +kernel

abbrev VO5_3 : View sig .tc .vmem S2048x64 .f32 := (Memref.whole cc5_stg3_0 : Memref sig .tc .vmem S2048x64 .f32).view

abbrev ms5_0 (t : Fin cfg5.N) : Memref sig .tc .vmem S2048x1024 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1024x64 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S2048x64 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S2048x64 .f32 := win5_3.stage (cfg5.slots t 3)
abbrev hs5_3 (t : Fin cfg5.N) : (ms5_3 t).IsWhole := hstage5_3 ((cfg5.slots t 3).cast nbuf5_3)

abbrev scM5_0 : Memref sig .tc .vmem S2048x64 .f32 := Memref.whole cc5_scratch0

abbrev VS5_0 : View sig .tc .vmem S2048x64 .f32 := scM5_0.view

theorem PhiA5_eq (c : Dev nD) :
    (Pipeline.ΦA spec5 c : sProp 𝕄)
      = iprop(iprop(iprop((∃ d, owns (c : Thread nD τ) scM5_0 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

end Cert.Kernel.Fr

end
-- ==== Proof.KB.Ap5.lean ====
/- (proof/Proof/KI/Ap5.lean with the word-level program's namespace and module names put for the idealized program's; nothing else changed) -/
import proofs.«109160_j26783416057954_1_alg».proof.Proof.KB.Ap5Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The three cases at point `t`, on the point's input blocks.
def leaves5A (c : Dev nD) (t : Fin cfg5.N) (ha : t.val % 16 = 0) (hb : ¬t.val % 16 = 15) : Vec F S2048x64 .f32 × Vec F S2048x64 .f32 :=
  leavesA VO5_3 VS5_0 c (grid5.coords t) (ms5_0 t) (hs5_0 t) (ms5_1 t) (hs5_1 t) (ms5_2 t) (hs5_2 t) (ms5_3 t) (hs5_3 t) scM5_0 (Memref.isWhole_whole _) ((hcondFirst t).mpr ha) (fun h => hb ((hcondLast t).mp h)) (iblk5 V c 0 t) (iblk5 V c 1 t) (iblk5 V c 2 t)
def leaves5B (c : Dev nD) (t : Fin cfg5.N) (ha : ¬t.val % 16 = 0) (hb : ¬t.val % 16 = 15) (xs : Vec F S2048x64 .f32) : Vec F S2048x64 .f32 × Vec F S2048x64 .f32 :=
  leavesB VO5_3 VS5_0 c (grid5.coords t) (ms5_0 t) (hs5_0 t) (ms5_1 t) (hs5_1 t) (ms5_2 t) (hs5_2 t) (ms5_3 t) (hs5_3 t) scM5_0 (Memref.isWhole_whole _) (fun h => ha ((hcondFirst t).mp h)) (fun h => hb ((hcondLast t).mp h)) (iblk5 V c 0 t) (iblk5 V c 1 t) (iblk5 V c 2 t) xs
def leaves5C (c : Dev nD) (t : Fin cfg5.N) (ha : ¬t.val % 16 = 0) (hb : t.val % 16 = 15) (xs : Vec F S2048x64 .f32) : Vec F S2048x64 .f32 × Vec F S2048x64 .f32 :=
  leavesC VO5_3 VS5_0 c (grid5.coords t) (ms5_0 t) (hs5_0 t) (ms5_1 t) (hs5_1 t) (ms5_2 t) (hs5_2 t) (ms5_3 t) (hs5_3 t) scM5_0 (Memref.isWhole_whole _) (fun h => ha ((hcondFirst t).mp h)) ((hcondLast t).mpr hb) (iblk5 V c 0 t) (iblk5 V c 1 t) (iblk5 V c 2 t) xs

-- The accumulation along a row block: the first column block resets, each later one adds to what the point before left.
def outsAt5 (c : Dev nD) : (n : ℕ) → n < cfg5.N → Vec F S2048x64 .f32 × Vec F S2048x64 .f32
  | 0, hn => leaves5A V c ⟨0, hn⟩ (Nat.zero_mod _) (by show ¬0 % 16 = 15; omega)
  | n + 1, hn =>
    if ha : (n + 1) % 16 = 0 then
      if hb : (n + 1) % 16 = 15 then False.elim (by omega) else leaves5A V c ⟨n + 1, hn⟩ ha hb
    else
      if hb : (n + 1) % 16 = 15 then leaves5C V c ⟨n + 1, hn⟩ ha hb (outsAt5 c n (Nat.lt_of_succ_lt hn)).2
      else leaves5B V c ⟨n + 1, hn⟩ ha hb (outsAt5 c n (Nat.lt_of_succ_lt hn)).2

theorem outsAt5_A (c : Dev nD) (t : Fin cfg5.N) (ha : t.val % 16 = 0) (hb : ¬t.val % 16 = 15) :
    outsAt5 V c t.val t.isLt = leaves5A V c t ha hb := by
  obtain ⟨n, hn⟩ := t
  cases n with
  | zero => exact rfl
  | succ n => exact (dif_pos ha).trans ((dif_neg hb).trans rfl)

theorem outsAt5_B (c : Dev nD) (t : Fin cfg5.N) (ha : ¬t.val % 16 = 0) (hb : ¬t.val % 16 = 15) :
    outsAt5 V c t.val t.isLt = leaves5B V c t ha hb (outsAt5 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_neg hb).trans rfl)

theorem outsAt5_C (c : Dev nD) (t : Fin cfg5.N) (ha : ¬t.val % 16 = 0) (hb : t.val % 16 = 15) :
    outsAt5 V c t.val t.isLt = leaves5C V c t ha hb (outsAt5 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_pos hb).trans rfl)

def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hp : n = 0) : PhiS5 V c n h = Pipeline.ΦA spec5 c := by
  subst hp; rfl

theorem PhiS5_succ (c : Dev nD) (n : ℕ) (hn : n < cfg5.N) :
    PhiS5 V c (n + 1) hn = iprop(iprop(owns (c : Thread nD τ) scM5_0 fullShare ((outsAt5 V c n hn).2) ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hp : n ≠ 0) :
    PhiS5 V c n h = iprop(iprop(owns (c : Thread nD τ) scM5_0 fullShare ((outsAt5 V c (n - 1) (by omega)).2) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hp
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  have hN : t.val < 128 := lt_of_lt_of_eq t.isLt (show cfg5.N = 128 from N_5)
  by_cases ha : t.val % 16 = 0
  · by_cases hb : t.val % 16 = 15
    · exfalso; omega
    · rw [Dat.leavesExact_idle (dat5 V c) 3 t (idleAt5_3_A t ((hcondFirst t).mpr ha) (fun h => hb ((hcondLast t).mp h))) (noFlush5_3_A t ((hcondFirst t).mpr ha) (fun h => hb ((hcondLast t).mp h)))]
      rw [outsAt5_A V c t ha hb]
      unfold leaves5A leavesA; (try dsimp only)
      by_cases hp : t.val = 0
      · rw [PhiS5_castSucc V c t, PhiS5_zero V c _ _ hp, PhiA5_eq]
        iintro ⟨⟨⟨Hs, Hr⟩, Hg⟩, Hw, ⟨%da, Ha⟩, ⟨%db, Hb⟩, ⟨%dc, Hc⟩, ⟨%dd, Hd⟩⟩
        iapply ((stepRunA c (grid5.coords t) _ (hs5_0 t) _ (hs5_1 t) _ (hs5_2 t) _ (hs5_3 t) _ (Memref.isWhole_whole _) ((hcondFirst t).mpr ha) (fun h => hb ((hcondLast t).mp h)) (iblk5 V c 0 t) (iblk5 V c 1 t) (iblk5 V c 2 t)).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
      · rw [PhiS5_castSucc V c t, PhiS5_pos V c _ _ hp]
        iintro ⟨⟨⟨Hs, Hr⟩, Hg⟩, Hw, ⟨%da, Ha⟩, ⟨%db, Hb⟩, ⟨%dc, Hc⟩, ⟨%dd, Hd⟩⟩
        iapply ((stepRunA c (grid5.coords t) _ (hs5_0 t) _ (hs5_1 t) _ (hs5_2 t) _ (hs5_3 t) _ (Memref.isWhole_whole _) ((hcondFirst t).mpr ha) (fun h => hb ((hcondLast t).mp h)) (iblk5 V c 0 t) (iblk5 V c 1 t) (iblk5 V c 2 t)).2.2 _ Set.univ _)
        isplitl [Ha]; · iexact Ha
        isplitl [Hb]; · iexact Hb
        isplitl [Hc]; · iexact Hc
        isplitl [Hd]; · iexact Hd
        isplitl [Hs]; · iexists _; iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
  · by_cases hb : t.val % 16 = 15
    · rw [show (dat5 V c).leavesExact 3 t = owns (c : Thread nD τ) (ms5_3 t) fullShare ((dat5 V c).after 3 t) from by
        unfold Dat.leavesExact; rw [liveAt5_3_C t (fun h => ha ((hcondFirst t).mp h)) ((hcondLast t).mpr hb)], after5_3]
      rw [outsAt5_C V c t ha hb]
      unfold leaves5C leavesC; (try dsimp only)
      by_cases hp : t.val = 0
      · exfalso; omega
      · rw [PhiS5_castSucc V c t, PhiS5_pos V c _ _ hp]
        iintro ⟨⟨⟨Hs, Hr⟩, Hg⟩, Hw, ⟨%da, Ha⟩, ⟨%db, Hb⟩, ⟨%dc, Hc⟩, ⟨%dd, Hd⟩⟩
        iapply ((stepRunC c (grid5.coords t) _ (hs5_0 t) _ (hs5_1 t) _ (hs5_2 t) _ (hs5_3 t) _ (Memref.isWhole_whole _) (fun h => ha ((hcondFirst t).mp h)) ((hcondLast t).mpr hb) (iblk5 V c 0 t) (iblk5 V c 1 t) (iblk5 V c 2 t) _).2.2 Set.univ _)
        isplitl [Ha]; · iexact Ha
        isplitl [Hb]; · iexact Hb
        isplitl [Hc]; · iexact Hc
        isplitl [Hd]; · iexists _; iexact Hd
        isplitl [Hs]; · iexact Hs
        iintro ⟨Ha, Hb, Hc, ⟨%ed, Hd⟩, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverC c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        unfold owns; iexists _; isplitr
        swap; · iexact Hd
        ipureintro; exact View.read_writes_of_cover _ _ _ _ _ (outCoverC c _ _ _ _ _ _ _ _ _ _ _ _ _ _ _ _ _)
    · rw [Dat.leavesExact_idle (dat5 V c) 3 t (idleAt5_3_B t (fun h => ha ((hcondFirst t).mp h)) (fun h => hb ((hcondLast t).mp h))) (noFlush5_3_B t (fun h => ha ((hcondFirst t).mp h)) (fun h => hb ((hcondLast t).mp h)))]
      rw [outsAt5_B V c t ha hb]
      unfold leaves5B leavesB; (try dsimp only)
      by_cases hp : t.val = 0
      · exfalso; omega
      · rw [PhiS5_castSucc V c t, PhiS5_pos V c _ _ hp]
        iintro ⟨⟨⟨Hs, Hr⟩, Hg⟩, Hw, ⟨%da, Ha⟩, ⟨%db, Hb⟩, ⟨%dc, Hc⟩, ⟨%dd, Hd⟩⟩
        iapply ((stepRunB c (grid5.coords t) _ (hs5_0 t) _ (hs5_1 t) _ (hs5_2 t) _ (hs5_3 t) _ (Memref.isWhole_whole _) (fun h => ha ((hcondFirst t).mp h)) (fun h => hb ((hcondLast t).mp h)) (iblk5 V c 0 t) (iblk5 V c 1 t) (iblk5 V c 2 t) _).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverB c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd

theorem body_obligation5 (c : Dev nD) : BodyObligation (dat5 (F := F) V c) (defs₀ (F := F)) Variants.none () Set.univ := fun t => by
  rw [bigSep_W5, bigSep_W5]
  exact sound_body5 V c t

theorem hin5 (c : Dev nD) : (Pipeline.ΦA spec5 c : sProp 𝕄) ⊢ (dat5 V c).Φ 0 := by
  rw [show (dat5 V c).Φ 0 = PhiS5 V c 0 (Nat.zero_le _) from rfl, PhiS5_zero V c 0 _ rfl]
  try exact Idealize.SL.BI.Entails.refl _

theorem Phi_out5 (c : Dev nD) (t : Fin (cfg5.N + 1)) (ht : t.val ≠ 0) : (dat5 V c).Φ t ⊢ (Pipeline.ΦA spec5 c : sProp 𝕄) := by
  rw [show (dat5 V c).Φ t = PhiS5 V c t.val (Nat.le_of_lt_succ t.isLt) from rfl, PhiS5_pos V c _ _ ht, PhiA5_eq]
  iintro ⟨⟨Hs, Hr⟩, Hg⟩
  isplitl [Hs Hr]
  · isplitl [Hs]
    · iexists _; iexact Hs
    iexact Hr
  iexact Hg

theorem hout5 (c : Dev nD) : (dat5 V c).Φ (Fin.last cfg5.N) ⊢ (Pipeline.ΦA spec5 c : sProp 𝕄) :=
  Phi_out5 V c _ (by rw [Fin.val_last]; have : cfg5.N = 128 := N_5; omega)

theorem share5 (c : Dev nD) (w : Fin cfg5.W) : (dat5 V c).q w = fullShare := by dsimp only [dat5]
theorem owed5 (c : Dev nD) (t) : (dat5 V c).owed t = 0 := by dsimp only [dat5]

end Cert.Kernel.Fr

end
-- ==== Proof.KB.Ap6Runs.lean ====
/- (proof/Proof/KI/Ap6Runs.lean with the word-level program's namespace and module names put for the idealized program's; nothing else changed) -/
import proofs.«109160_j26783416057954_1_alg».proof.Proof.KB.StepCases

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem liveAt6_0 : ∀ t : Fin cfg6.N, cfg6.idle 0 (grid6.coords t) = false := fun _ => rfl
theorem liveAt6_1 : ∀ t : Fin cfg6.N, cfg6.idle 1 (grid6.coords t) = false := fun _ => rfl
theorem liveAt6_2 : ∀ t : Fin cfg6.N, cfg6.idle 2 (grid6.coords t) = false := fun _ => rfl

theorem idleAt6_3_A : ∀ t : Fin cfg6.N, condFirst (grid6.coords t) → ¬condLast (grid6.coords t) → cfg6.idle 3 (grid6.coords t) = true := by decide +kernel
theorem noFlush6_3_A : ∀ t : Fin cfg6.N, condFirst (grid6.coords t) → ¬condLast (grid6.coords t) → (cfg6.win 3).flush t = false := by decide +kernel

theorem idleAt6_3_B : ∀ t : Fin cfg6.N, ¬condFirst (grid6.coords t) → ¬condLast (grid6.coords t) → cfg6.idle 3 (grid6.coords t) = true := by decide +kernel
theorem noFlush6_3_B : ∀ t : Fin cfg6.N, ¬condFirst (grid6.coords t) → ¬condLast (grid6.coords t) → (cfg6.win 3).flush t = false := by decide +kernel

theorem liveAt6_3_C : ∀ t : Fin cfg6.N, ¬condFirst (grid6.coords t) → condLast (grid6.coords t) → cfg6.idle 3 (grid6.coords t) = false := by decide +kernel

abbrev VO6_3 : View sig .tc .vmem S2048x64 .f32 := (Memref.whole cc6_stg3_0 : Memref sig .tc .vmem S2048x64 .f32).view

abbrev ms6_0 (t : Fin cfg6.N) : Memref sig .tc .vmem S2048x1024 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1024x64 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S2048x64 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S2048x64 .f32 := win6_3.stage (cfg6.slots t 3)
abbrev hs6_3 (t : Fin cfg6.N) : (ms6_3 t).IsWhole := hstage6_3 ((cfg6.slots t 3).cast nbuf6_3)

abbrev scM6_0 : Memref sig .tc .vmem S2048x64 .f32 := Memref.whole cc6_scratch0

abbrev VS6_0 : View sig .tc .vmem S2048x64 .f32 := scM6_0.view

theorem PhiA6_eq (c : Dev nD) :
    (Pipeline.ΦA spec6 c : sProp 𝕄)
      = iprop(iprop(iprop((∃ d, owns (c : Thread nD τ) scM6_0 fullShare d))
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6_0, owns_whole]; try rfl

end Cert.Kernel.Fr

end
-- ==== Proof.KB.Ap6.lean ====
/- (proof/Proof/KI/Ap6.lean with the word-level program's namespace and module names put for the idealized program's; nothing else changed) -/
import proofs.«109160_j26783416057954_1_alg».proof.Proof.KB.Ap6Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The three cases at point `t`, on the point's input blocks.
def leaves6A (c : Dev nD) (t : Fin cfg6.N) (ha : t.val % 16 = 0) (hb : ¬t.val % 16 = 15) : Vec F S2048x64 .f32 × Vec F S2048x64 .f32 :=
  leavesA VO6_3 VS6_0 c (grid6.coords t) (ms6_0 t) (hs6_0 t) (ms6_1 t) (hs6_1 t) (ms6_2 t) (hs6_2 t) (ms6_3 t) (hs6_3 t) scM6_0 (Memref.isWhole_whole _) ((hcondFirst t).mpr ha) (fun h => hb ((hcondLast t).mp h)) (iblk6 V c 0 t) (iblk6 V c 1 t) (iblk6 V c 2 t)
def leaves6B (c : Dev nD) (t : Fin cfg6.N) (ha : ¬t.val % 16 = 0) (hb : ¬t.val % 16 = 15) (xs : Vec F S2048x64 .f32) : Vec F S2048x64 .f32 × Vec F S2048x64 .f32 :=
  leavesB VO6_3 VS6_0 c (grid6.coords t) (ms6_0 t) (hs6_0 t) (ms6_1 t) (hs6_1 t) (ms6_2 t) (hs6_2 t) (ms6_3 t) (hs6_3 t) scM6_0 (Memref.isWhole_whole _) (fun h => ha ((hcondFirst t).mp h)) (fun h => hb ((hcondLast t).mp h)) (iblk6 V c 0 t) (iblk6 V c 1 t) (iblk6 V c 2 t) xs
def leaves6C (c : Dev nD) (t : Fin cfg6.N) (ha : ¬t.val % 16 = 0) (hb : t.val % 16 = 15) (xs : Vec F S2048x64 .f32) : Vec F S2048x64 .f32 × Vec F S2048x64 .f32 :=
  leavesC VO6_3 VS6_0 c (grid6.coords t) (ms6_0 t) (hs6_0 t) (ms6_1 t) (hs6_1 t) (ms6_2 t) (hs6_2 t) (ms6_3 t) (hs6_3 t) scM6_0 (Memref.isWhole_whole _) (fun h => ha ((hcondFirst t).mp h)) ((hcondLast t).mpr hb) (iblk6 V c 0 t) (iblk6 V c 1 t) (iblk6 V c 2 t) xs

-- The accumulation along a row block: the first column block resets, each later one adds to what the point before left.
def outsAt6 (c : Dev nD) : (n : ℕ) → n < cfg6.N → Vec F S2048x64 .f32 × Vec F S2048x64 .f32
  | 0, hn => leaves6A V c ⟨0, hn⟩ (Nat.zero_mod _) (by show ¬0 % 16 = 15; omega)
  | n + 1, hn =>
    if ha : (n + 1) % 16 = 0 then
      if hb : (n + 1) % 16 = 15 then False.elim (by omega) else leaves6A V c ⟨n + 1, hn⟩ ha hb
    else
      if hb : (n + 1) % 16 = 15 then leaves6C V c ⟨n + 1, hn⟩ ha hb (outsAt6 c n (Nat.lt_of_succ_lt hn)).2
      else leaves6B V c ⟨n + 1, hn⟩ ha hb (outsAt6 c n (Nat.lt_of_succ_lt hn)).2

theorem outsAt6_A (c : Dev nD) (t : Fin cfg6.N) (ha : t.val % 16 = 0) (hb : ¬t.val % 16 = 15) :
    outsAt6 V c t.val t.isLt = leaves6A V c t ha hb := by
  obtain ⟨n, hn⟩ := t
  cases n with
  | zero => exact rfl
  | succ n => exact (dif_pos ha).trans ((dif_neg hb).trans rfl)

theorem outsAt6_B (c : Dev nD) (t : Fin cfg6.N) (ha : ¬t.val % 16 = 0) (hb : ¬t.val % 16 = 15) :
    outsAt6 V c t.val t.isLt = leaves6B V c t ha hb (outsAt6 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_neg hb).trans rfl)

theorem outsAt6_C (c : Dev nD) (t : Fin cfg6.N) (ha : ¬t.val % 16 = 0) (hb : t.val % 16 = 15) :
    outsAt6 V c t.val t.isLt = leaves6C V c t ha hb (outsAt6 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_pos hb).trans rfl)

def PhiS6 (c : Dev nD) : (n : ℕ) → n ≤ cfg6.N → sProp 𝕄
  | 0, _ => Pipeline.ΦA spec6 c
  | n + 1, hn => iprop(iprop(owns (c : Thread nD τ) scM6_0 fullShare ((outsAt6 V c n hn).2) ∗ Pipeline.scopedRestBut (Ix := Unit) (Name := ℕ) (U := UR sig nD τ) (Lvl := ℕ) (Val := Elt F) spec6 c [cc6_scratch0]) ∗ (∃ r, prngReg c r))

theorem PhiS6_zero (c : Dev nD) (n : ℕ) (h : n ≤ cfg6.N) (hp : n = 0) : PhiS6 V c n h = Pipeline.ΦA spec6 c := by
  subst hp; rfl

theorem PhiS6_succ (c : Dev nD) (n : ℕ) (hn : n < cfg6.N) :
    PhiS6 V c (n + 1) hn = iprop(iprop(owns (c : Thread nD τ) scM6_0 fullShare ((outsAt6 V c n hn).2) ∗ Pipeline.scopedRestBut (Ix := Unit) (Name := ℕ) (U := UR sig nD τ) (Lvl := ℕ) (Val := Elt F) spec6 c [cc6_scratch0]) ∗ (∃ r, prngReg c r)) := rfl

theorem PhiS6_pos (c : Dev nD) (n : ℕ) (h : n ≤ cfg6.N) (hp : n ≠ 0) :
    PhiS6 V c n h = iprop(iprop(owns (c : Thread nD τ) scM6_0 fullShare ((outsAt6 V c (n - 1) (by omega)).2) ∗ Pipeline.scopedRestBut (Ix := Unit) (Name := ℕ) (U := UR sig nD τ) (Lvl := ℕ) (Val := Elt F) spec6 c [cc6_scratch0]) ∗ (∃ r, prngReg c r)) := by
  cases n with
  | zero => exact absurd rfl hp
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = (outsAt6 V c t.val t.isLt).1 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t)

set_option maxHeartbeats 4800000 in

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  have hN : t.val < 128 := lt_of_lt_of_eq t.isLt (show cfg6.N = 128 from N_6)
  by_cases ha : t.val % 16 = 0
  · by_cases hb : t.val % 16 = 15
    · exfalso; omega
    · rw [Dat.leavesExact_idle (dat6 V c) 3 t (idleAt6_3_A t ((hcondFirst t).mpr ha) (fun h => hb ((hcondLast t).mp h))) (noFlush6_3_A t ((hcondFirst t).mpr ha) (fun h => hb ((hcondLast t).mp h)))]
      rw [outsAt6_A V c t ha hb]
      unfold leaves6A leavesA; (try dsimp only)
      by_cases hp : t.val = 0
      · rw [PhiS6_castSucc V c t, PhiS6_zero V c _ _ hp, PhiA6_eq]
        iintro ⟨⟨⟨Hs, Hr⟩, Hg⟩, Hw, ⟨%da, Ha⟩, ⟨%db, Hb⟩, ⟨%dc, Hc⟩, ⟨%dd, Hd⟩⟩
        iapply ((stepRunA c (grid6.coords t) _ (hs6_0 t) _ (hs6_1 t) _ (hs6_2 t) _ (hs6_3 t) _ (Memref.isWhole_whole _) ((hcondFirst t).mpr ha) (fun h => hb ((hcondLast t).mp h)) (iblk6 V c 0 t) (iblk6 V c 1 t) (iblk6 V c 2 t)).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
      · rw [PhiS6_castSucc V c t, PhiS6_pos V c _ _ hp]
        iintro ⟨⟨⟨Hs, Hr⟩, Hg⟩, Hw, ⟨%da, Ha⟩, ⟨%db, Hb⟩, ⟨%dc, Hc⟩, ⟨%dd, Hd⟩⟩
        iapply ((stepRunA c (grid6.coords t) _ (hs6_0 t) _ (hs6_1 t) _ (hs6_2 t) _ (hs6_3 t) _ (Memref.isWhole_whole _) ((hcondFirst t).mpr ha) (fun h => hb ((hcondLast t).mp h)) (iblk6 V c 0 t) (iblk6 V c 1 t) (iblk6 V c 2 t)).2.2 _ Set.univ _)
        isplitl [Ha]; · iexact Ha
        isplitl [Hb]; · iexact Hb
        isplitl [Hc]; · iexact Hc
        isplitl [Hd]; · iexact Hd
        isplitl [Hs]; · iexists _; iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
  · by_cases hb : t.val % 16 = 15
    · rw [show (dat6 V c).leavesExact 3 t = owns (c : Thread nD τ) (ms6_3 t) fullShare ((dat6 V c).after 3 t) from by
        unfold Dat.leavesExact; rw [liveAt6_3_C t (fun h => ha ((hcondFirst t).mp h)) ((hcondLast t).mpr hb)], after6_3]
      rw [outsAt6_C V c t ha hb]
      unfold leaves6C leavesC; (try dsimp only)
      by_cases hp : t.val = 0
      · exfalso; omega
      · rw [PhiS6_castSucc V c t, PhiS6_pos V c _ _ hp]
        iintro ⟨⟨⟨Hs, Hr⟩, Hg⟩, Hw, ⟨%da, Ha⟩, ⟨%db, Hb⟩, ⟨%dc, Hc⟩, ⟨%dd, Hd⟩⟩
        iapply ((stepRunC c (grid6.coords t) _ (hs6_0 t) _ (hs6_1 t) _ (hs6_2 t) _ (hs6_3 t) _ (Memref.isWhole_whole _) (fun h => ha ((hcondFirst t).mp h)) ((hcondLast t).mpr hb) (iblk6 V c 0 t) (iblk6 V c 1 t) (iblk6 V c 2 t) _).2.2 Set.univ _)
        isplitl [Ha]; · iexact Ha
        isplitl [Hb]; · iexact Hb
        isplitl [Hc]; · iexact Hc
        isplitl [Hd]; · iexists _; iexact Hd
        isplitl [Hs]; · iexact Hs
        iintro ⟨Ha, Hb, Hc, ⟨%ed, Hd⟩, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverC c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        unfold owns; iexists _; isplitr
        swap; · iexact Hd
        ipureintro; exact View.read_writes_of_cover _ _ _ _ _ (outCoverC c _ _ _ _ _ _ _ _ _ _ _ _ _ _ _ _ _)
    · rw [Dat.leavesExact_idle (dat6 V c) 3 t (idleAt6_3_B t (fun h => ha ((hcondFirst t).mp h)) (fun h => hb ((hcondLast t).mp h))) (noFlush6_3_B t (fun h => ha ((hcondFirst t).mp h)) (fun h => hb ((hcondLast t).mp h)))]
      rw [outsAt6_B V c t ha hb]
      unfold leaves6B leavesB; (try dsimp only)
      by_cases hp : t.val = 0
      · exfalso; omega
      · rw [PhiS6_castSucc V c t, PhiS6_pos V c _ _ hp]
        iintro ⟨⟨⟨Hs, Hr⟩, Hg⟩, Hw, ⟨%da, Ha⟩, ⟨%db, Hb⟩, ⟨%dc, Hc⟩, ⟨%dd, Hd⟩⟩
        iapply ((stepRunB c (grid6.coords t) _ (hs6_0 t) _ (hs6_1 t) _ (hs6_2 t) _ (hs6_3 t) _ (Memref.isWhole_whole _) (fun h => ha ((hcondFirst t).mp h)) (fun h => hb ((hcondLast t).mp h)) (iblk6 V c 0 t) (iblk6 V c 1 t) (iblk6 V c 2 t) _).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverB c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd

theorem body_obligation6 (c : Dev nD) : BodyObligation (dat6 (F := F) V c) (defs₀ (F := F)) Variants.none () Set.univ := fun t => by
  rw [bigSep_W6, bigSep_W6]
  exact sound_body6 V c t

theorem hin6 (c : Dev nD) : (Pipeline.ΦA spec6 c : sProp 𝕄) ⊢ (dat6 V c).Φ 0 := by
  rw [show (dat6 V c).Φ 0 = PhiS6 V c 0 (Nat.zero_le _) from rfl, PhiS6_zero V c 0 _ rfl]
  try exact Idealize.SL.BI.Entails.refl _

theorem Phi_out6 (c : Dev nD) (t : Fin (cfg6.N + 1)) (ht : t.val ≠ 0) : (dat6 V c).Φ t ⊢ (Pipeline.ΦA spec6 c : sProp 𝕄) := by
  rw [show (dat6 V c).Φ t = PhiS6 V c t.val (Nat.le_of_lt_succ t.isLt) from rfl, PhiS6_pos V c _ _ ht, PhiA6_eq]
  iintro ⟨⟨Hs, Hr⟩, Hg⟩
  isplitl [Hs Hr]
  · isplitl [Hs]
    · iexists _; iexact Hs
    iexact Hr
  iexact Hg

theorem hout6 (c : Dev nD) : (dat6 V c).Φ (Fin.last cfg6.N) ⊢ (Pipeline.ΦA spec6 c : sProp 𝕄) :=
  Phi_out6 V c _ (by rw [Fin.val_last]; have : cfg6.N = 128 := N_6; omega)

theorem share6 (c : Dev nD) (w : Fin cfg6.W) : (dat6 V c).q w = fullShare := by dsimp only [dat6]
theorem owed6 (c : Dev nD) (t) : (dat6 V c).owed t = 0 := by dsimp only [dat6]

end Cert.Kernel.Fr

end
-- ==== Proof.KB.Ap7Runs.lean ====
/- (proof/Proof/KI/Ap7Runs.lean with the word-level program's namespace and module names put for the idealized program's; nothing else changed) -/
import proofs.«109160_j26783416057954_1_alg».proof.Proof.KB.StepCases

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem liveAt7_0 : ∀ t : Fin cfg7.N, cfg7.idle 0 (grid7.coords t) = false := fun _ => rfl
theorem liveAt7_1 : ∀ t : Fin cfg7.N, cfg7.idle 1 (grid7.coords t) = false := fun _ => rfl
theorem liveAt7_2 : ∀ t : Fin cfg7.N, cfg7.idle 2 (grid7.coords t) = false := fun _ => rfl

theorem idleAt7_3_A : ∀ t : Fin cfg7.N, condFirst (grid7.coords t) → ¬condLast (grid7.coords t) → cfg7.idle 3 (grid7.coords t) = true := by decide +kernel
theorem noFlush7_3_A : ∀ t : Fin cfg7.N, condFirst (grid7.coords t) → ¬condLast (grid7.coords t) → (cfg7.win 3).flush t = false := by decide +kernel

theorem idleAt7_3_B : ∀ t : Fin cfg7.N, ¬condFirst (grid7.coords t) → ¬condLast (grid7.coords t) → cfg7.idle 3 (grid7.coords t) = true := by decide +kernel
theorem noFlush7_3_B : ∀ t : Fin cfg7.N, ¬condFirst (grid7.coords t) → ¬condLast (grid7.coords t) → (cfg7.win 3).flush t = false := by decide +kernel

theorem liveAt7_3_C : ∀ t : Fin cfg7.N, ¬condFirst (grid7.coords t) → condLast (grid7.coords t) → cfg7.idle 3 (grid7.coords t) = false := by decide +kernel

abbrev VO7_3 : View sig .tc .vmem S2048x64 .f32 := (Memref.whole cc7_stg3_0 : Memref sig .tc .vmem S2048x64 .f32).view

abbrev ms7_0 (t : Fin cfg7.N) : Memref sig .tc .vmem S2048x1024 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1024x64 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S2048x64 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S2048x64 .f32 := win7_3.stage (cfg7.slots t 3)
abbrev hs7_3 (t : Fin cfg7.N) : (ms7_3 t).IsWhole := hstage7_3 ((cfg7.slots t 3).cast nbuf7_3)

abbrev scM7_0 : Memref sig .tc .vmem S2048x64 .f32 := Memref.whole cc7_scratch0

abbrev VS7_0 : View sig .tc .vmem S2048x64 .f32 := scM7_0.view

theorem PhiA7_eq (c : Dev nD) :
    (Pipeline.ΦA spec7 c : sProp 𝕄)
      = iprop(iprop(iprop((∃ d, owns (c : Thread nD τ) scM7_0 fullShare d))
          ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7_0, owns_whole]; try rfl

end Cert.Kernel.Fr

end
-- ==== Proof.KB.Ap7.lean ====
/- (proof/Proof/KI/Ap7.lean with the word-level program's namespace and module names put for the idealized program's; nothing else changed) -/
import proofs.«109160_j26783416057954_1_alg».proof.Proof.KB.Ap7Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The three cases at point `t`, on the point's input blocks.
def leaves7A (c : Dev nD) (t : Fin cfg7.N) (ha : t.val % 16 = 0) (hb : ¬t.val % 16 = 15) : Vec F S2048x64 .f32 × Vec F S2048x64 .f32 :=
  leavesA VO7_3 VS7_0 c (grid7.coords t) (ms7_0 t) (hs7_0 t) (ms7_1 t) (hs7_1 t) (ms7_2 t) (hs7_2 t) (ms7_3 t) (hs7_3 t) scM7_0 (Memref.isWhole_whole _) ((hcondFirst t).mpr ha) (fun h => hb ((hcondLast t).mp h)) (iblk7 V c 0 t) (iblk7 V c 1 t) (iblk7 V c 2 t)
def leaves7B (c : Dev nD) (t : Fin cfg7.N) (ha : ¬t.val % 16 = 0) (hb : ¬t.val % 16 = 15) (xs : Vec F S2048x64 .f32) : Vec F S2048x64 .f32 × Vec F S2048x64 .f32 :=
  leavesB VO7_3 VS7_0 c (grid7.coords t) (ms7_0 t) (hs7_0 t) (ms7_1 t) (hs7_1 t) (ms7_2 t) (hs7_2 t) (ms7_3 t) (hs7_3 t) scM7_0 (Memref.isWhole_whole _) (fun h => ha ((hcondFirst t).mp h)) (fun h => hb ((hcondLast t).mp h)) (iblk7 V c 0 t) (iblk7 V c 1 t) (iblk7 V c 2 t) xs
def leaves7C (c : Dev nD) (t : Fin cfg7.N) (ha : ¬t.val % 16 = 0) (hb : t.val % 16 = 15) (xs : Vec F S2048x64 .f32) : Vec F S2048x64 .f32 × Vec F S2048x64 .f32 :=
  leavesC VO7_3 VS7_0 c (grid7.coords t) (ms7_0 t) (hs7_0 t) (ms7_1 t) (hs7_1 t) (ms7_2 t) (hs7_2 t) (ms7_3 t) (hs7_3 t) scM7_0 (Memref.isWhole_whole _) (fun h => ha ((hcondFirst t).mp h)) ((hcondLast t).mpr hb) (iblk7 V c 0 t) (iblk7 V c 1 t) (iblk7 V c 2 t) xs

-- The accumulation along a row block: the first column block resets, each later one adds to what the point before left.
def outsAt7 (c : Dev nD) : (n : ℕ) → n < cfg7.N → Vec F S2048x64 .f32 × Vec F S2048x64 .f32
  | 0, hn => leaves7A V c ⟨0, hn⟩ (Nat.zero_mod _) (by show ¬0 % 16 = 15; omega)
  | n + 1, hn =>
    if ha : (n + 1) % 16 = 0 then
      if hb : (n + 1) % 16 = 15 then False.elim (by omega) else leaves7A V c ⟨n + 1, hn⟩ ha hb
    else
      if hb : (n + 1) % 16 = 15 then leaves7C V c ⟨n + 1, hn⟩ ha hb (outsAt7 c n (Nat.lt_of_succ_lt hn)).2
      else leaves7B V c ⟨n + 1, hn⟩ ha hb (outsAt7 c n (Nat.lt_of_succ_lt hn)).2

theorem outsAt7_A (c : Dev nD) (t : Fin cfg7.N) (ha : t.val % 16 = 0) (hb : ¬t.val % 16 = 15) :
    outsAt7 V c t.val t.isLt = leaves7A V c t ha hb := by
  obtain ⟨n, hn⟩ := t
  cases n with
  | zero => exact rfl
  | succ n => exact (dif_pos ha).trans ((dif_neg hb).trans rfl)

theorem outsAt7_B (c : Dev nD) (t : Fin cfg7.N) (ha : ¬t.val % 16 = 0) (hb : ¬t.val % 16 = 15) :
    outsAt7 V c t.val t.isLt = leaves7B V c t ha hb (outsAt7 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_neg hb).trans rfl)

theorem outsAt7_C (c : Dev nD) (t : Fin cfg7.N) (ha : ¬t.val % 16 = 0) (hb : t.val % 16 = 15) :
    outsAt7 V c t.val t.isLt = leaves7C V c t ha hb (outsAt7 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_pos hb).trans rfl)

def PhiS7 (c : Dev nD) : (n : ℕ) → n ≤ cfg7.N → sProp 𝕄
  | 0, _ => Pipeline.ΦA spec7 c
  | n + 1, hn => iprop(iprop(owns (c : Thread nD τ) scM7_0 fullShare ((outsAt7 V c n hn).2) ∗ Pipeline.scopedRestBut (Ix := Unit) (Name := ℕ) (U := UR sig nD τ) (Lvl := ℕ) (Val := Elt F) spec7 c [cc7_scratch0]) ∗ (∃ r, prngReg c r))

theorem PhiS7_zero (c : Dev nD) (n : ℕ) (h : n ≤ cfg7.N) (hp : n = 0) : PhiS7 V c n h = Pipeline.ΦA spec7 c := by
  subst hp; rfl

theorem PhiS7_succ (c : Dev nD) (n : ℕ) (hn : n < cfg7.N) :
    PhiS7 V c (n + 1) hn = iprop(iprop(owns (c : Thread nD τ) scM7_0 fullShare ((outsAt7 V c n hn).2) ∗ Pipeline.scopedRestBut (Ix := Unit) (Name := ℕ) (U := UR sig nD τ) (Lvl := ℕ) (Val := Elt F) spec7 c [cc7_scratch0]) ∗ (∃ r, prngReg c r)) := rfl

theorem PhiS7_pos (c : Dev nD) (n : ℕ) (h : n ≤ cfg7.N) (hp : n ≠ 0) :
    PhiS7 V c n h = iprop(iprop(owns (c : Thread nD τ) scM7_0 fullShare ((outsAt7 V c (n - 1) (by omega)).2) ∗ Pipeline.scopedRestBut (Ix := Unit) (Name := ℕ) (U := UR sig nD τ) (Lvl := ℕ) (Val := Elt F) spec7 c [cc7_scratch0]) ∗ (∃ r, prngReg c r)) := by
  cases n with
  | zero => exact absurd rfl hp
  | succ n => rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => (outsAt7 V c t.val t.isLt).1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = (outsAt7 V c t.val t.isLt).1 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

set_option maxHeartbeats 4800000 in

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [show (dat7 V c).leavesExact 2 t = owns (c : Thread nD τ) (ms7_2 t) fullShare ((dat7 V c).after 2 t) from by
    unfold Dat.leavesExact; rw [liveAt7_2 t], after7_2]
  have hN : t.val < 128 := lt_of_lt_of_eq t.isLt (show cfg7.N = 128 from N_7)
  by_cases ha : t.val % 16 = 0
  · by_cases hb : t.val % 16 = 15
    · exfalso; omega
    · rw [Dat.leavesExact_idle (dat7 V c) 3 t (idleAt7_3_A t ((hcondFirst t).mpr ha) (fun h => hb ((hcondLast t).mp h))) (noFlush7_3_A t ((hcondFirst t).mpr ha) (fun h => hb ((hcondLast t).mp h)))]
      rw [outsAt7_A V c t ha hb]
      unfold leaves7A leavesA; (try dsimp only)
      by_cases hp : t.val = 0
      · rw [PhiS7_castSucc V c t, PhiS7_zero V c _ _ hp, PhiA7_eq]
        iintro ⟨⟨⟨Hs, Hr⟩, Hg⟩, Hw, ⟨%da, Ha⟩, ⟨%db, Hb⟩, ⟨%dc, Hc⟩, ⟨%dd, Hd⟩⟩
        iapply ((stepRunA c (grid7.coords t) _ (hs7_0 t) _ (hs7_1 t) _ (hs7_2 t) _ (hs7_3 t) _ (Memref.isWhole_whole _) ((hcondFirst t).mpr ha) (fun h => hb ((hcondLast t).mp h)) (iblk7 V c 0 t) (iblk7 V c 1 t) (iblk7 V c 2 t)).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
      · rw [PhiS7_castSucc V c t, PhiS7_pos V c _ _ hp]
        iintro ⟨⟨⟨Hs, Hr⟩, Hg⟩, Hw, ⟨%da, Ha⟩, ⟨%db, Hb⟩, ⟨%dc, Hc⟩, ⟨%dd, Hd⟩⟩
        iapply ((stepRunA c (grid7.coords t) _ (hs7_0 t) _ (hs7_1 t) _ (hs7_2 t) _ (hs7_3 t) _ (Memref.isWhole_whole _) ((hcondFirst t).mpr ha) (fun h => hb ((hcondLast t).mp h)) (iblk7 V c 0 t) (iblk7 V c 1 t) (iblk7 V c 2 t)).2.2 _ Set.univ _)
        isplitl [Ha]; · iexact Ha
        isplitl [Hb]; · iexact Hb
        isplitl [Hc]; · iexact Hc
        isplitl [Hd]; · iexact Hd
        isplitl [Hs]; · iexists _; iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
  · by_cases hb : t.val % 16 = 15
    · rw [show (dat7 V c).leavesExact 3 t = owns (c : Thread nD τ) (ms7_3 t) fullShare ((dat7 V c).after 3 t) from by
        unfold Dat.leavesExact; rw [liveAt7_3_C t (fun h => ha ((hcondFirst t).mp h)) ((hcondLast t).mpr hb)], after7_3]
      rw [outsAt7_C V c t ha hb]
      unfold leaves7C leavesC; (try dsimp only)
      by_cases hp : t.val = 0
      · exfalso; omega
      · rw [PhiS7_castSucc V c t, PhiS7_pos V c _ _ hp]
        iintro ⟨⟨⟨Hs, Hr⟩, Hg⟩, Hw, ⟨%da, Ha⟩, ⟨%db, Hb⟩, ⟨%dc, Hc⟩, ⟨%dd, Hd⟩⟩
        iapply ((stepRunC c (grid7.coords t) _ (hs7_0 t) _ (hs7_1 t) _ (hs7_2 t) _ (hs7_3 t) _ (Memref.isWhole_whole _) (fun h => ha ((hcondFirst t).mp h)) ((hcondLast t).mpr hb) (iblk7 V c 0 t) (iblk7 V c 1 t) (iblk7 V c 2 t) _).2.2 Set.univ _)
        isplitl [Ha]; · iexact Ha
        isplitl [Hb]; · iexact Hb
        isplitl [Hc]; · iexact Hc
        isplitl [Hd]; · iexists _; iexact Hd
        isplitl [Hs]; · iexact Hs
        iintro ⟨Ha, Hb, Hc, ⟨%ed, Hd⟩, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverC c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        unfold owns; iexists _; isplitr
        swap; · iexact Hd
        ipureintro; exact View.read_writes_of_cover _ _ _ _ _ (outCoverC c _ _ _ _ _ _ _ _ _ _ _ _ _ _ _ _ _)
    · rw [Dat.leavesExact_idle (dat7 V c) 3 t (idleAt7_3_B t (fun h => ha ((hcondFirst t).mp h)) (fun h => hb ((hcondLast t).mp h))) (noFlush7_3_B t (fun h => ha ((hcondFirst t).mp h)) (fun h => hb ((hcondLast t).mp h)))]
      rw [outsAt7_B V c t ha hb]
      unfold leaves7B leavesB; (try dsimp only)
      by_cases hp : t.val = 0
      · exfalso; omega
      · rw [PhiS7_castSucc V c t, PhiS7_pos V c _ _ hp]
        iintro ⟨⟨⟨Hs, Hr⟩, Hg⟩, Hw, ⟨%da, Ha⟩, ⟨%db, Hb⟩, ⟨%dc, Hc⟩, ⟨%dd, Hd⟩⟩
        iapply ((stepRunB c (grid7.coords t) _ (hs7_0 t) _ (hs7_1 t) _ (hs7_2 t) _ (hs7_3 t) _ (Memref.isWhole_whole _) (fun h => ha ((hcondFirst t).mp h)) (fun h => hb ((hcondLast t).mp h)) (iblk7 V c 0 t) (iblk7 V c 1 t) (iblk7 V c 2 t) _).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverB c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd

theorem body_obligation7 (c : Dev nD) : BodyObligation (dat7 (F := F) V c) (defs₀ (F := F)) Variants.none () Set.univ := fun t => by
  rw [bigSep_W7, bigSep_W7]
  exact sound_body7 V c t

theorem hin7 (c : Dev nD) : (Pipeline.ΦA spec7 c : sProp 𝕄) ⊢ (dat7 V c).Φ 0 := by
  rw [show (dat7 V c).Φ 0 = PhiS7 V c 0 (Nat.zero_le _) from rfl, PhiS7_zero V c 0 _ rfl]
  try exact Idealize.SL.BI.Entails.refl _

theorem Phi_out7 (c : Dev nD) (t : Fin (cfg7.N + 1)) (ht : t.val ≠ 0) : (dat7 V c).Φ t ⊢ (Pipeline.ΦA spec7 c : sProp 𝕄) := by
  rw [show (dat7 V c).Φ t = PhiS7 V c t.val (Nat.le_of_lt_succ t.isLt) from rfl, PhiS7_pos V c _ _ ht, PhiA7_eq]
  iintro ⟨⟨Hs, Hr⟩, Hg⟩
  isplitl [Hs Hr]
  · isplitl [Hs]
    · iexists _; iexact Hs
    iexact Hr
  iexact Hg

theorem hout7 (c : Dev nD) : (dat7 V c).Φ (Fin.last cfg7.N) ⊢ (Pipeline.ΦA spec7 c : sProp 𝕄) :=
  Phi_out7 V c _ (by rw [Fin.val_last]; have : cfg7.N = 128 := N_7; omega)

theorem share7 (c : Dev nD) (w : Fin cfg7.W) : (dat7 V c).q w = fullShare := by dsimp only [dat7]
theorem owed7 (c : Dev nD) (t) : (dat7 V c).owed t = 0 := by dsimp only [dat7]

end Cert.Kernel.Fr

end
-- ==== Proof.KB.Ap8Runs.lean ====
/- (proof/Proof/KI/Ap8Runs.lean with the word-level program's namespace and module names put for the idealized program's; nothing else changed) -/
import proofs.«109160_j26783416057954_1_alg».proof.Proof.KB.StepCases

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem liveAt8_0 : ∀ t : Fin cfg8.N, cfg8.idle 0 (grid8.coords t) = false := fun _ => rfl
theorem liveAt8_1 : ∀ t : Fin cfg8.N, cfg8.idle 1 (grid8.coords t) = false := fun _ => rfl
theorem liveAt8_2 : ∀ t : Fin cfg8.N, cfg8.idle 2 (grid8.coords t) = false := fun _ => rfl

theorem idleAt8_3_A : ∀ t : Fin cfg8.N, condFirst (grid8.coords t) → ¬condLast (grid8.coords t) → cfg8.idle 3 (grid8.coords t) = true := by decide +kernel
theorem noFlush8_3_A : ∀ t : Fin cfg8.N, condFirst (grid8.coords t) → ¬condLast (grid8.coords t) → (cfg8.win 3).flush t = false := by decide +kernel

theorem idleAt8_3_B : ∀ t : Fin cfg8.N, ¬condFirst (grid8.coords t) → ¬condLast (grid8.coords t) → cfg8.idle 3 (grid8.coords t) = true := by decide +kernel
theorem noFlush8_3_B : ∀ t : Fin cfg8.N, ¬condFirst (grid8.coords t) → ¬condLast (grid8.coords t) → (cfg8.win 3).flush t = false := by decide +kernel

theorem liveAt8_3_C : ∀ t : Fin cfg8.N, ¬condFirst (grid8.coords t) → condLast (grid8.coords t) → cfg8.idle 3 (grid8.coords t) = false := by decide +kernel

abbrev VO8_3 : View sig .tc .vmem S2048x64 .f32 := (Memref.whole cc8_stg3_0 : Memref sig .tc .vmem S2048x64 .f32).view

abbrev ms8_0 (t : Fin cfg8.N) : Memref sig .tc .vmem S2048x1024 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S1024x64 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S2048x64 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S2048x64 .f32 := win8_3.stage (cfg8.slots t 3)
abbrev hs8_3 (t : Fin cfg8.N) : (ms8_3 t).IsWhole := hstage8_3 ((cfg8.slots t 3).cast nbuf8_3)

abbrev scM8_0 : Memref sig .tc .vmem S2048x64 .f32 := Memref.whole cc8_scratch0

abbrev VS8_0 : View sig .tc .vmem S2048x64 .f32 := scM8_0.view

theorem PhiA8_eq (c : Dev nD) :
    (Pipeline.ΦA spec8 c : sProp 𝕄)
      = iprop(iprop(iprop((∃ d, owns (c : Thread nD τ) scM8_0 fullShare d))
          ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM8_0, owns_whole]; try rfl

end Cert.Kernel.Fr

end
-- ==== Proof.KB.Ap8.lean ====
/- (proof/Proof/KI/Ap8.lean with the word-level program's namespace and module names put for the idealized program's; nothing else changed) -/
import proofs.«109160_j26783416057954_1_alg».proof.Proof.KB.Ap8Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The three cases at point `t`, on the point's input blocks.
def leaves8A (c : Dev nD) (t : Fin cfg8.N) (ha : t.val % 16 = 0) (hb : ¬t.val % 16 = 15) : Vec F S2048x64 .f32 × Vec F S2048x64 .f32 :=
  leavesA VO8_3 VS8_0 c (grid8.coords t) (ms8_0 t) (hs8_0 t) (ms8_1 t) (hs8_1 t) (ms8_2 t) (hs8_2 t) (ms8_3 t) (hs8_3 t) scM8_0 (Memref.isWhole_whole _) ((hcondFirst t).mpr ha) (fun h => hb ((hcondLast t).mp h)) (iblk8 V c 0 t) (iblk8 V c 1 t) (iblk8 V c 2 t)
def leaves8B (c : Dev nD) (t : Fin cfg8.N) (ha : ¬t.val % 16 = 0) (hb : ¬t.val % 16 = 15) (xs : Vec F S2048x64 .f32) : Vec F S2048x64 .f32 × Vec F S2048x64 .f32 :=
  leavesB VO8_3 VS8_0 c (grid8.coords t) (ms8_0 t) (hs8_0 t) (ms8_1 t) (hs8_1 t) (ms8_2 t) (hs8_2 t) (ms8_3 t) (hs8_3 t) scM8_0 (Memref.isWhole_whole _) (fun h => ha ((hcondFirst t).mp h)) (fun h => hb ((hcondLast t).mp h)) (iblk8 V c 0 t) (iblk8 V c 1 t) (iblk8 V c 2 t) xs
def leaves8C (c : Dev nD) (t : Fin cfg8.N) (ha : ¬t.val % 16 = 0) (hb : t.val % 16 = 15) (xs : Vec F S2048x64 .f32) : Vec F S2048x64 .f32 × Vec F S2048x64 .f32 :=
  leavesC VO8_3 VS8_0 c (grid8.coords t) (ms8_0 t) (hs8_0 t) (ms8_1 t) (hs8_1 t) (ms8_2 t) (hs8_2 t) (ms8_3 t) (hs8_3 t) scM8_0 (Memref.isWhole_whole _) (fun h => ha ((hcondFirst t).mp h)) ((hcondLast t).mpr hb) (iblk8 V c 0 t) (iblk8 V c 1 t) (iblk8 V c 2 t) xs

-- The accumulation along a row block: the first column block resets, each later one adds to what the point before left.
def outsAt8 (c : Dev nD) : (n : ℕ) → n < cfg8.N → Vec F S2048x64 .f32 × Vec F S2048x64 .f32
  | 0, hn => leaves8A V c ⟨0, hn⟩ (Nat.zero_mod _) (by show ¬0 % 16 = 15; omega)
  | n + 1, hn =>
    if ha : (n + 1) % 16 = 0 then
      if hb : (n + 1) % 16 = 15 then False.elim (by omega) else leaves8A V c ⟨n + 1, hn⟩ ha hb
    else
      if hb : (n + 1) % 16 = 15 then leaves8C V c ⟨n + 1, hn⟩ ha hb (outsAt8 c n (Nat.lt_of_succ_lt hn)).2
      else leaves8B V c ⟨n + 1, hn⟩ ha hb (outsAt8 c n (Nat.lt_of_succ_lt hn)).2

theorem outsAt8_A (c : Dev nD) (t : Fin cfg8.N) (ha : t.val % 16 = 0) (hb : ¬t.val % 16 = 15) :
    outsAt8 V c t.val t.isLt = leaves8A V c t ha hb := by
  obtain ⟨n, hn⟩ := t
  cases n with
  | zero => exact rfl
  | succ n => exact (dif_pos ha).trans ((dif_neg hb).trans rfl)

theorem outsAt8_B (c : Dev nD) (t : Fin cfg8.N) (ha : ¬t.val % 16 = 0) (hb : ¬t.val % 16 = 15) :
    outsAt8 V c t.val t.isLt = leaves8B V c t ha hb (outsAt8 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_neg hb).trans rfl)

theorem outsAt8_C (c : Dev nD) (t : Fin cfg8.N) (ha : ¬t.val % 16 = 0) (hb : t.val % 16 = 15) :
    outsAt8 V c t.val t.isLt = leaves8C V c t ha hb (outsAt8 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_pos hb).trans rfl)

def PhiS8 (c : Dev nD) : (n : ℕ) → n ≤ cfg8.N → sProp 𝕄
  | 0, _ => Pipeline.ΦA spec8 c
  | n + 1, hn => iprop(iprop(owns (c : Thread nD τ) scM8_0 fullShare ((outsAt8 V c n hn).2) ∗ Pipeline.scopedRestBut (Ix := Unit) (Name := ℕ) (U := UR sig nD τ) (Lvl := ℕ) (Val := Elt F) spec8 c [cc8_scratch0]) ∗ (∃ r, prngReg c r))

theorem PhiS8_zero (c : Dev nD) (n : ℕ) (h : n ≤ cfg8.N) (hp : n = 0) : PhiS8 V c n h = Pipeline.ΦA spec8 c := by
  subst hp; rfl

theorem PhiS8_succ (c : Dev nD) (n : ℕ) (hn : n < cfg8.N) :
    PhiS8 V c (n + 1) hn = iprop(iprop(owns (c : Thread nD τ) scM8_0 fullShare ((outsAt8 V c n hn).2) ∗ Pipeline.scopedRestBut (Ix := Unit) (Name := ℕ) (U := UR sig nD τ) (Lvl := ℕ) (Val := Elt F) spec8 c [cc8_scratch0]) ∗ (∃ r, prngReg c r)) := rfl

theorem PhiS8_pos (c : Dev nD) (n : ℕ) (h : n ≤ cfg8.N) (hp : n ≠ 0) :
    PhiS8 V c n h = iprop(iprop(owns (c : Thread nD τ) scM8_0 fullShare ((outsAt8 V c (n - 1) (by omega)).2) ∗ Pipeline.scopedRestBut (Ix := Unit) (Name := ℕ) (U := UR sig nD τ) (Lvl := ℕ) (Val := Elt F) spec8 c [cc8_scratch0]) ∗ (∃ r, prngReg c r)) := by
  cases n with
  | zero => exact absurd rfl hp
  | succ n => rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => (outsAt8 V c t.val t.isLt).1
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem PhiS8_castSucc (c : Dev nD) (t : Fin cfg8.N) :
    (dat8 V c).Φ t.castSucc = PhiS8 V c t.val (Nat.le_of_lt t.isLt) := by
  dsimp only [dat8]; simp only [Fin.coe_castSucc]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = (outsAt8 V c t.val t.isLt).1 := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t)

set_option maxHeartbeats 4800000 in

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).owesAt () t.succ = (dat8 V c).owesAt () t.castSucc from rfl]
  rw [show (dat8 V c).Φ t.succ = PhiS8 V c (t.val + 1) t.isLt from rfl, PhiS8_succ]
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  rw [show (dat8 V c).leavesExact 2 t = owns (c : Thread nD τ) (ms8_2 t) fullShare ((dat8 V c).after 2 t) from by
    unfold Dat.leavesExact; rw [liveAt8_2 t], after8_2]
  have hN : t.val < 128 := lt_of_lt_of_eq t.isLt (show cfg8.N = 128 from N_8)
  by_cases ha : t.val % 16 = 0
  · by_cases hb : t.val % 16 = 15
    · exfalso; omega
    · rw [Dat.leavesExact_idle (dat8 V c) 3 t (idleAt8_3_A t ((hcondFirst t).mpr ha) (fun h => hb ((hcondLast t).mp h))) (noFlush8_3_A t ((hcondFirst t).mpr ha) (fun h => hb ((hcondLast t).mp h)))]
      rw [outsAt8_A V c t ha hb]
      unfold leaves8A leavesA; (try dsimp only)
      by_cases hp : t.val = 0
      · rw [PhiS8_castSucc V c t, PhiS8_zero V c _ _ hp, PhiA8_eq]
        iintro ⟨⟨⟨Hs, Hr⟩, Hg⟩, Hw, ⟨%da, Ha⟩, ⟨%db, Hb⟩, ⟨%dc, Hc⟩, ⟨%dd, Hd⟩⟩
        iapply ((stepRunA c (grid8.coords t) _ (hs8_0 t) _ (hs8_1 t) _ (hs8_2 t) _ (hs8_3 t) _ (Memref.isWhole_whole _) ((hcondFirst t).mpr ha) (fun h => hb ((hcondLast t).mp h)) (iblk8 V c 0 t) (iblk8 V c 1 t) (iblk8 V c 2 t)).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
      · rw [PhiS8_castSucc V c t, PhiS8_pos V c _ _ hp]
        iintro ⟨⟨⟨Hs, Hr⟩, Hg⟩, Hw, ⟨%da, Ha⟩, ⟨%db, Hb⟩, ⟨%dc, Hc⟩, ⟨%dd, Hd⟩⟩
        iapply ((stepRunA c (grid8.coords t) _ (hs8_0 t) _ (hs8_1 t) _ (hs8_2 t) _ (hs8_3 t) _ (Memref.isWhole_whole _) ((hcondFirst t).mpr ha) (fun h => hb ((hcondLast t).mp h)) (iblk8 V c 0 t) (iblk8 V c 1 t) (iblk8 V c 2 t)).2.2 _ Set.univ _)
        isplitl [Ha]; · iexact Ha
        isplitl [Hb]; · iexact Hb
        isplitl [Hc]; · iexact Hc
        isplitl [Hd]; · iexact Hd
        isplitl [Hs]; · iexists _; iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
  · by_cases hb : t.val % 16 = 15
    · rw [show (dat8 V c).leavesExact 3 t = owns (c : Thread nD τ) (ms8_3 t) fullShare ((dat8 V c).after 3 t) from by
        unfold Dat.leavesExact; rw [liveAt8_3_C t (fun h => ha ((hcondFirst t).mp h)) ((hcondLast t).mpr hb)], after8_3]
      rw [outsAt8_C V c t ha hb]
      unfold leaves8C leavesC; (try dsimp only)
      by_cases hp : t.val = 0
      · exfalso; omega
      · rw [PhiS8_castSucc V c t, PhiS8_pos V c _ _ hp]
        iintro ⟨⟨⟨Hs, Hr⟩, Hg⟩, Hw, ⟨%da, Ha⟩, ⟨%db, Hb⟩, ⟨%dc, Hc⟩, ⟨%dd, Hd⟩⟩
        iapply ((stepRunC c (grid8.coords t) _ (hs8_0 t) _ (hs8_1 t) _ (hs8_2 t) _ (hs8_3 t) _ (Memref.isWhole_whole _) (fun h => ha ((hcondFirst t).mp h)) ((hcondLast t).mpr hb) (iblk8 V c 0 t) (iblk8 V c 1 t) (iblk8 V c 2 t) _).2.2 Set.univ _)
        isplitl [Ha]; · iexact Ha
        isplitl [Hb]; · iexact Hb
        isplitl [Hc]; · iexact Hc
        isplitl [Hd]; · iexists _; iexact Hd
        isplitl [Hs]; · iexact Hs
        iintro ⟨Ha, Hb, Hc, ⟨%ed, Hd⟩, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverC c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        unfold owns; iexists _; isplitr
        swap; · iexact Hd
        ipureintro; exact View.read_writes_of_cover _ _ _ _ _ (outCoverC c _ _ _ _ _ _ _ _ _ _ _ _ _ _ _ _ _)
    · rw [Dat.leavesExact_idle (dat8 V c) 3 t (idleAt8_3_B t (fun h => ha ((hcondFirst t).mp h)) (fun h => hb ((hcondLast t).mp h))) (noFlush8_3_B t (fun h => ha ((hcondFirst t).mp h)) (fun h => hb ((hcondLast t).mp h)))]
      rw [outsAt8_B V c t ha hb]
      unfold leaves8B leavesB; (try dsimp only)
      by_cases hp : t.val = 0
      · exfalso; omega
      · rw [PhiS8_castSucc V c t, PhiS8_pos V c _ _ hp]
        iintro ⟨⟨⟨Hs, Hr⟩, Hg⟩, Hw, ⟨%da, Ha⟩, ⟨%db, Hb⟩, ⟨%dc, Hc⟩, ⟨%dd, Hd⟩⟩
        iapply ((stepRunB c (grid8.coords t) _ (hs8_0 t) _ (hs8_1 t) _ (hs8_2 t) _ (hs8_3 t) _ (Memref.isWhole_whole _) (fun h => ha ((hcondFirst t).mp h)) (fun h => hb ((hcondLast t).mp h)) (iblk8 V c 0 t) (iblk8 V c 1 t) (iblk8 V c 2 t) _).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverB c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd

theorem body_obligation8 (c : Dev nD) : BodyObligation (dat8 (F := F) V c) (defs₀ (F := F)) Variants.none () Set.univ := fun t => by
  rw [bigSep_W8, bigSep_W8]
  exact sound_body8 V c t

theorem hin8 (c : Dev nD) : (Pipeline.ΦA spec8 c : sProp 𝕄) ⊢ (dat8 V c).Φ 0 := by
  rw [show (dat8 V c).Φ 0 = PhiS8 V c 0 (Nat.zero_le _) from rfl, PhiS8_zero V c 0 _ rfl]
  try exact Idealize.SL.BI.Entails.refl _

theorem Phi_out8 (c : Dev nD) (t : Fin (cfg8.N + 1)) (ht : t.val ≠ 0) : (dat8 V c).Φ t ⊢ (Pipeline.ΦA spec8 c : sProp 𝕄) := by
  rw [show (dat8 V c).Φ t = PhiS8 V c t.val (Nat.le_of_lt_succ t.isLt) from rfl, PhiS8_pos V c _ _ ht, PhiA8_eq]
  iintro ⟨⟨Hs, Hr⟩, Hg⟩
  isplitl [Hs Hr]
  · isplitl [Hs]
    · iexists _; iexact Hs
    iexact Hr
  iexact Hg

theorem hout8 (c : Dev nD) : (dat8 V c).Φ (Fin.last cfg8.N) ⊢ (Pipeline.ΦA spec8 c : sProp 𝕄) :=
  Phi_out8 V c _ (by rw [Fin.val_last]; have : cfg8.N = 128 := N_8; omega)

theorem share8 (c : Dev nD) (w : Fin cfg8.W) : (dat8 V c).q w = fullShare := by dsimp only [dat8]
theorem owed8 (c : Dev nD) (t) : (dat8 V c).owed t = 0 := by dsimp only [dat8]

end Cert.Kernel.Fr

end
-- ==== Proof.KB.Ap9Runs.lean ====
/- (proof/Proof/KI/Ap9Runs.lean with the word-level program's namespace and module names put for the idealized program's; nothing else changed) -/
import proofs.«109160_j26783416057954_1_alg».proof.Proof.KB.StepCases

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

theorem liveAt9_0 : ∀ t : Fin cfg9.N, cfg9.idle 0 (grid9.coords t) = false := fun _ => rfl
theorem liveAt9_1 : ∀ t : Fin cfg9.N, cfg9.idle 1 (grid9.coords t) = false := fun _ => rfl
theorem liveAt9_2 : ∀ t : Fin cfg9.N, cfg9.idle 2 (grid9.coords t) = false := fun _ => rfl

theorem idleAt9_3_A : ∀ t : Fin cfg9.N, condFirst (grid9.coords t) → ¬condLast (grid9.coords t) → cfg9.idle 3 (grid9.coords t) = true := by decide +kernel
theorem noFlush9_3_A : ∀ t : Fin cfg9.N, condFirst (grid9.coords t) → ¬condLast (grid9.coords t) → (cfg9.win 3).flush t = false := by decide +kernel

theorem idleAt9_3_B : ∀ t : Fin cfg9.N, ¬condFirst (grid9.coords t) → ¬condLast (grid9.coords t) → cfg9.idle 3 (grid9.coords t) = true := by decide +kernel
theorem noFlush9_3_B : ∀ t : Fin cfg9.N, ¬condFirst (grid9.coords t) → ¬condLast (grid9.coords t) → (cfg9.win 3).flush t = false := by decide +kernel

theorem liveAt9_3_C : ∀ t : Fin cfg9.N, ¬condFirst (grid9.coords t) → condLast (grid9.coords t) → cfg9.idle 3 (grid9.coords t) = false := by decide +kernel

abbrev VO9_3 : View sig .tc .vmem S2048x64 .f32 := (Memref.whole cc9_stg3_0 : Memref sig .tc .vmem S2048x64 .f32).view

abbrev ms9_0 (t : Fin cfg9.N) : Memref sig .tc .vmem S2048x1024 .f32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S1024x64 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S2048x64 .f32 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S2048x64 .f32 := win9_3.stage (cfg9.slots t 3)
abbrev hs9_3 (t : Fin cfg9.N) : (ms9_3 t).IsWhole := hstage9_3 ((cfg9.slots t 3).cast nbuf9_3)

abbrev scM9_0 : Memref sig .tc .vmem S2048x64 .f32 := Memref.whole cc9_scratch0

abbrev VS9_0 : View sig .tc .vmem S2048x64 .f32 := scM9_0.view

theorem PhiA9_eq (c : Dev nD) :
    (Pipeline.ΦA spec9 c : sProp 𝕄)
      = iprop(iprop(iprop((∃ d, owns (c : Thread nD τ) scM9_0 fullShare d))
          ∗ Pipeline.scopedRestBut (Ix := Unit) (Name := ℕ) (U := UR sig nD τ) (Lvl := ℕ) (Val := Elt F) spec9 c [cc9_scratch0]) ∗ (∃ r, prngReg c r)) := by
  unfold Pipeline.ΦA; rw [scopedRest9_split]; simp only [scM9_0, owns_whole]; try rfl

end Cert.Kernel.Fr

end
-- ==== Proof.KB.Ap9.lean ====
/- (proof/Proof/KI/Ap9.lean with the word-level program's namespace and module names put for the idealized program's; nothing else changed) -/
import proofs.«109160_j26783416057954_1_alg».proof.Proof.KB.Ap9Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The three cases at point `t`, on the point's input blocks.
def leaves9A (c : Dev nD) (t : Fin cfg9.N) (ha : t.val % 16 = 0) (hb : ¬t.val % 16 = 15) : Vec F S2048x64 .f32 × Vec F S2048x64 .f32 :=
  leavesA VO9_3 VS9_0 c (grid9.coords t) (ms9_0 t) (hs9_0 t) (ms9_1 t) (hs9_1 t) (ms9_2 t) (hs9_2 t) (ms9_3 t) (hs9_3 t) scM9_0 (Memref.isWhole_whole _) ((hcondFirst t).mpr ha) (fun h => hb ((hcondLast t).mp h)) (iblk9 V c 0 t) (iblk9 V c 1 t) (iblk9 V c 2 t)
def leaves9B (c : Dev nD) (t : Fin cfg9.N) (ha : ¬t.val % 16 = 0) (hb : ¬t.val % 16 = 15) (xs : Vec F S2048x64 .f32) : Vec F S2048x64 .f32 × Vec F S2048x64 .f32 :=
  leavesB VO9_3 VS9_0 c (grid9.coords t) (ms9_0 t) (hs9_0 t) (ms9_1 t) (hs9_1 t) (ms9_2 t) (hs9_2 t) (ms9_3 t) (hs9_3 t) scM9_0 (Memref.isWhole_whole _) (fun h => ha ((hcondFirst t).mp h)) (fun h => hb ((hcondLast t).mp h)) (iblk9 V c 0 t) (iblk9 V c 1 t) (iblk9 V c 2 t) xs
def leaves9C (c : Dev nD) (t : Fin cfg9.N) (ha : ¬t.val % 16 = 0) (hb : t.val % 16 = 15) (xs : Vec F S2048x64 .f32) : Vec F S2048x64 .f32 × Vec F S2048x64 .f32 :=
  leavesC VO9_3 VS9_0 c (grid9.coords t) (ms9_0 t) (hs9_0 t) (ms9_1 t) (hs9_1 t) (ms9_2 t) (hs9_2 t) (ms9_3 t) (hs9_3 t) scM9_0 (Memref.isWhole_whole _) (fun h => ha ((hcondFirst t).mp h)) ((hcondLast t).mpr hb) (iblk9 V c 0 t) (iblk9 V c 1 t) (iblk9 V c 2 t) xs

-- The accumulation along a row block: the first column block resets, each later one adds to what the point before left.
def outsAt9 (c : Dev nD) : (n : ℕ) → n < cfg9.N → Vec F S2048x64 .f32 × Vec F S2048x64 .f32
  | 0, hn => leaves9A V c ⟨0, hn⟩ (Nat.zero_mod _) (by show ¬0 % 16 = 15; omega)
  | n + 1, hn =>
    if ha : (n + 1) % 16 = 0 then
      if hb : (n + 1) % 16 = 15 then False.elim (by omega) else leaves9A V c ⟨n + 1, hn⟩ ha hb
    else
      if hb : (n + 1) % 16 = 15 then leaves9C V c ⟨n + 1, hn⟩ ha hb (outsAt9 c n (Nat.lt_of_succ_lt hn)).2
      else leaves9B V c ⟨n + 1, hn⟩ ha hb (outsAt9 c n (Nat.lt_of_succ_lt hn)).2

theorem outsAt9_A (c : Dev nD) (t : Fin cfg9.N) (ha : t.val % 16 = 0) (hb : ¬t.val % 16 = 15) :
    outsAt9 V c t.val t.isLt = leaves9A V c t ha hb := by
  obtain ⟨n, hn⟩ := t
  cases n with
  | zero => exact rfl
  | succ n => exact (dif_pos ha).trans ((dif_neg hb).trans rfl)

theorem outsAt9_B (c : Dev nD) (t : Fin cfg9.N) (ha : ¬t.val % 16 = 0) (hb : ¬t.val % 16 = 15) :
    outsAt9 V c t.val t.isLt = leaves9B V c t ha hb (outsAt9 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_neg hb).trans rfl)

theorem outsAt9_C (c : Dev nD) (t : Fin cfg9.N) (ha : ¬t.val % 16 = 0) (hb : t.val % 16 = 15) :
    outsAt9 V c t.val t.isLt = leaves9C V c t ha hb (outsAt9 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_pos hb).trans rfl)

def PhiS9 (c : Dev nD) : (n : ℕ) → n ≤ cfg9.N → sProp 𝕄
  | 0, _ => Pipeline.ΦA spec9 c
  | n + 1, hn => iprop(iprop(owns (c : Thread nD τ) scM9_0 fullShare ((outsAt9 V c n hn).2) ∗ Pipeline.scopedRestBut (Ix := Unit) (Name := ℕ) (U := UR sig nD τ) (Lvl := ℕ) (Val := Elt F) spec9 c [cc9_scratch0]) ∗ (∃ r, prngReg c r))

theorem PhiS9_zero (c : Dev nD) (n : ℕ) (h : n ≤ cfg9.N) (hp : n = 0) : PhiS9 V c n h = Pipeline.ΦA spec9 c := by
  subst hp; rfl

theorem PhiS9_succ (c : Dev nD) (n : ℕ) (hn : n < cfg9.N) :
    PhiS9 V c (n + 1) hn = iprop(iprop(owns (c : Thread nD τ) scM9_0 fullShare ((outsAt9 V c n hn).2) ∗ Pipeline.scopedRestBut (Ix := Unit) (Name := ℕ) (U := UR sig nD τ) (Lvl := ℕ) (Val := Elt F) spec9 c [cc9_scratch0]) ∗ (∃ r, prngReg c r)) := rfl

theorem PhiS9_pos (c : Dev nD) (n : ℕ) (h : n ≤ cfg9.N) (hp : n ≠ 0) :
    PhiS9 V c n h = iprop(iprop(owns (c : Thread nD τ) scM9_0 fullShare ((outsAt9 V c (n - 1) (by omega)).2) ∗ Pipeline.scopedRestBut (Ix := Unit) (Name := ℕ) (U := UR sig nD τ) (Lvl := ℕ) (Val := Elt F) spec9 c [cc9_scratch0]) ∗ (∃ r, prngReg c r)) := by
  cases n with
  | zero => exact absurd rfl hp
  | succ n => rfl

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => (outsAt9 V c t.val t.isLt).1
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]

theorem PhiS9_castSucc (c : Dev nD) (t : Fin cfg9.N) :
    (dat9 V c).Φ t.castSucc = PhiS9 V c t.val (Nat.le_of_lt t.isLt) := by
  dsimp only [dat9]; simp only [Fin.coe_castSucc]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = (outsAt9 V c t.val t.isLt).1 := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d)))

def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t)

set_option maxHeartbeats 4800000 in

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).owesAt () t.succ = (dat9 V c).owesAt () t.castSucc from rfl]
  rw [show (dat9 V c).Φ t.succ = PhiS9 V c (t.val + 1) t.isLt from rfl, PhiS9_succ]
  rw [show (dat9 V c).leavesExact 0 t = owns (c : Thread nD τ) (ms9_0 t) fullShare ((dat9 V c).after 0 t) from by
    unfold Dat.leavesExact; rw [liveAt9_0 t], after9_0]
  rw [show (dat9 V c).leavesExact 1 t = owns (c : Thread nD τ) (ms9_1 t) fullShare ((dat9 V c).after 1 t) from by
    unfold Dat.leavesExact; rw [liveAt9_1 t], after9_1]
  rw [show (dat9 V c).leavesExact 2 t = owns (c : Thread nD τ) (ms9_2 t) fullShare ((dat9 V c).after 2 t) from by
    unfold Dat.leavesExact; rw [liveAt9_2 t], after9_2]
  have hN : t.val < 128 := lt_of_lt_of_eq t.isLt (show cfg9.N = 128 from N_9)
  by_cases ha : t.val % 16 = 0
  · by_cases hb : t.val % 16 = 15
    · exfalso; omega
    · rw [Dat.leavesExact_idle (dat9 V c) 3 t (idleAt9_3_A t ((hcondFirst t).mpr ha) (fun h => hb ((hcondLast t).mp h))) (noFlush9_3_A t ((hcondFirst t).mpr ha) (fun h => hb ((hcondLast t).mp h)))]
      rw [outsAt9_A V c t ha hb]
      unfold leaves9A leavesA; (try dsimp only)
      by_cases hp : t.val = 0
      · rw [PhiS9_castSucc V c t, PhiS9_zero V c _ _ hp, PhiA9_eq]
        iintro ⟨⟨⟨Hs, Hr⟩, Hg⟩, Hw, ⟨%da, Ha⟩, ⟨%db, Hb⟩, ⟨%dc, Hc⟩, ⟨%dd, Hd⟩⟩
        iapply ((stepRunA c (grid9.coords t) _ (hs9_0 t) _ (hs9_1 t) _ (hs9_2 t) _ (hs9_3 t) _ (Memref.isWhole_whole _) ((hcondFirst t).mpr ha) (fun h => hb ((hcondLast t).mp h)) (iblk9 V c 0 t) (iblk9 V c 1 t) (iblk9 V c 2 t)).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
      · rw [PhiS9_castSucc V c t, PhiS9_pos V c _ _ hp]
        iintro ⟨⟨⟨Hs, Hr⟩, Hg⟩, Hw, ⟨%da, Ha⟩, ⟨%db, Hb⟩, ⟨%dc, Hc⟩, ⟨%dd, Hd⟩⟩
        iapply ((stepRunA c (grid9.coords t) _ (hs9_0 t) _ (hs9_1 t) _ (hs9_2 t) _ (hs9_3 t) _ (Memref.isWhole_whole _) ((hcondFirst t).mpr ha) (fun h => hb ((hcondLast t).mp h)) (iblk9 V c 0 t) (iblk9 V c 1 t) (iblk9 V c 2 t)).2.2 _ Set.univ _)
        isplitl [Ha]; · iexact Ha
        isplitl [Hb]; · iexact Hb
        isplitl [Hc]; · iexact Hc
        isplitl [Hd]; · iexact Hd
        isplitl [Hs]; · iexists _; iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
  · by_cases hb : t.val % 16 = 15
    · rw [show (dat9 V c).leavesExact 3 t = owns (c : Thread nD τ) (ms9_3 t) fullShare ((dat9 V c).after 3 t) from by
        unfold Dat.leavesExact; rw [liveAt9_3_C t (fun h => ha ((hcondFirst t).mp h)) ((hcondLast t).mpr hb)], after9_3]
      rw [outsAt9_C V c t ha hb]
      unfold leaves9C leavesC; (try dsimp only)
      by_cases hp : t.val = 0
      · exfalso; omega
      · rw [PhiS9_castSucc V c t, PhiS9_pos V c _ _ hp]
        iintro ⟨⟨⟨Hs, Hr⟩, Hg⟩, Hw, ⟨%da, Ha⟩, ⟨%db, Hb⟩, ⟨%dc, Hc⟩, ⟨%dd, Hd⟩⟩
        iapply ((stepRunC c (grid9.coords t) _ (hs9_0 t) _ (hs9_1 t) _ (hs9_2 t) _ (hs9_3 t) _ (Memref.isWhole_whole _) (fun h => ha ((hcondFirst t).mp h)) ((hcondLast t).mpr hb) (iblk9 V c 0 t) (iblk9 V c 1 t) (iblk9 V c 2 t) _).2.2 Set.univ _)
        isplitl [Ha]; · iexact Ha
        isplitl [Hb]; · iexact Hb
        isplitl [Hc]; · iexact Hc
        isplitl [Hd]; · iexists _; iexact Hd
        isplitl [Hs]; · iexact Hs
        iintro ⟨Ha, Hb, Hc, ⟨%ed, Hd⟩, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverC c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        unfold owns; iexists _; isplitr
        swap; · iexact Hd
        ipureintro; exact View.read_writes_of_cover _ _ _ _ _ (outCoverC c _ _ _ _ _ _ _ _ _ _ _ _ _ _ _ _ _)
    · rw [Dat.leavesExact_idle (dat9 V c) 3 t (idleAt9_3_B t (fun h => ha ((hcondFirst t).mp h)) (fun h => hb ((hcondLast t).mp h))) (noFlush9_3_B t (fun h => ha ((hcondFirst t).mp h)) (fun h => hb ((hcondLast t).mp h)))]
      rw [outsAt9_B V c t ha hb]
      unfold leaves9B leavesB; (try dsimp only)
      by_cases hp : t.val = 0
      · exfalso; omega
      · rw [PhiS9_castSucc V c t, PhiS9_pos V c _ _ hp]
        iintro ⟨⟨⟨Hs, Hr⟩, Hg⟩, Hw, ⟨%da, Ha⟩, ⟨%db, Hb⟩, ⟨%dc, Hc⟩, ⟨%dd, Hd⟩⟩
        iapply ((stepRunB c (grid9.coords t) _ (hs9_0 t) _ (hs9_1 t) _ (hs9_2 t) _ (hs9_3 t) _ (Memref.isWhole_whole _) (fun h => ha ((hcondFirst t).mp h)) (fun h => hb ((hcondLast t).mp h)) (iblk9 V c 0 t) (iblk9 V c 1 t) (iblk9 V c 2 t) _).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverB c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd

theorem body_obligation9 (c : Dev nD) : BodyObligation (dat9 (F := F) V c) (defs₀ (F := F)) Variants.none () Set.univ := fun t => by
  rw [bigSep_W9, bigSep_W9]
  exact sound_body9 V c t

theorem hin9 (c : Dev nD) : (Pipeline.ΦA spec9 c : sProp 𝕄) ⊢ (dat9 V c).Φ 0 := by
  rw [show (dat9 V c).Φ 0 = PhiS9 V c 0 (Nat.zero_le _) from rfl, PhiS9_zero V c 0 _ rfl]
  try exact Idealize.SL.BI.Entails.refl _

theorem Phi_out9 (c : Dev nD) (t : Fin (cfg9.N + 1)) (ht : t.val ≠ 0) : (dat9 V c).Φ t ⊢ (Pipeline.ΦA spec9 c : sProp 𝕄) := by
  rw [show (dat9 V c).Φ t = PhiS9 V c t.val (Nat.le_of_lt_succ t.isLt) from rfl, PhiS9_pos V c _ _ ht, PhiA9_eq]
  iintro ⟨⟨Hs, Hr⟩, Hg⟩
  isplitl [Hs Hr]
  · isplitl [Hs]
    · iexists _; iexact Hs
    iexact Hr
  iexact Hg

theorem hout9 (c : Dev nD) : (dat9 V c).Φ (Fin.last cfg9.N) ⊢ (Pipeline.ΦA spec9 c : sProp 𝕄) :=
  Phi_out9 V c _ (by rw [Fin.val_last]; have : cfg9.N = 128 := N_9; omega)

theorem share9 (c : Dev nD) (w : Fin cfg9.W) : (dat9 V c).q w = fullShare := by dsimp only [dat9]
theorem owed9 (c : Dev nD) (t) : (dat9 V c).owed t = 0 := by dsimp only [dat9]

end Cert.Kernel.Fr

end
-- ==== Proof.KB.Ap10Runs.lean ====
/- (proof/Proof/KI/Ap10Runs.lean with the word-level program's namespace and module names put for the idealized program's; nothing else changed) -/
import proofs.«109160_j26783416057954_1_alg».proof.Proof.KB.StepCases

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

theorem liveAt10_0 : ∀ t : Fin cfg10.N, cfg10.idle 0 (grid10.coords t) = false := fun _ => rfl
theorem liveAt10_1 : ∀ t : Fin cfg10.N, cfg10.idle 1 (grid10.coords t) = false := fun _ => rfl
theorem liveAt10_2 : ∀ t : Fin cfg10.N, cfg10.idle 2 (grid10.coords t) = false := fun _ => rfl

theorem idleAt10_3_A : ∀ t : Fin cfg10.N, condFirst (grid10.coords t) → ¬condLast (grid10.coords t) → cfg10.idle 3 (grid10.coords t) = true := by decide +kernel
theorem noFlush10_3_A : ∀ t : Fin cfg10.N, condFirst (grid10.coords t) → ¬condLast (grid10.coords t) → (cfg10.win 3).flush t = false := by decide +kernel

theorem idleAt10_3_B : ∀ t : Fin cfg10.N, ¬condFirst (grid10.coords t) → ¬condLast (grid10.coords t) → cfg10.idle 3 (grid10.coords t) = true := by decide +kernel
theorem noFlush10_3_B : ∀ t : Fin cfg10.N, ¬condFirst (grid10.coords t) → ¬condLast (grid10.coords t) → (cfg10.win 3).flush t = false := by decide +kernel

theorem liveAt10_3_C : ∀ t : Fin cfg10.N, ¬condFirst (grid10.coords t) → condLast (grid10.coords t) → cfg10.idle 3 (grid10.coords t) = false := by decide +kernel

abbrev VO10_3 : View sig .tc .vmem S2048x64 .f32 := (Memref.whole cc10_stg3_0 : Memref sig .tc .vmem S2048x64 .f32).view

abbrev ms10_0 (t : Fin cfg10.N) : Memref sig .tc .vmem S2048x1024 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S1024x64 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S2048x64 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S2048x64 .f32 := win10_3.stage (cfg10.slots t 3)
abbrev hs10_3 (t : Fin cfg10.N) : (ms10_3 t).IsWhole := hstage10_3 ((cfg10.slots t 3).cast nbuf10_3)

abbrev scM10_0 : Memref sig .tc .vmem S2048x64 .f32 := Memref.whole cc10_scratch0

abbrev VS10_0 : View sig .tc .vmem S2048x64 .f32 := scM10_0.view

theorem PhiA10_eq (c : Dev nD) :
    (Pipeline.ΦA spec10 c : sProp 𝕄)
      = iprop(iprop(iprop((∃ d, owns (c : Thread nD τ) scM10_0 fullShare d))
          ∗ Pipeline.scopedRestBut (Ix := Unit) (Name := ℕ) (U := UR sig nD τ) (Lvl := ℕ) (Val := Elt F) spec10 c [cc10_scratch0]) ∗ (∃ r, prngReg c r)) := by
  unfold Pipeline.ΦA; rw [scopedRest10_split]; simp only [scM10_0, owns_whole]; try rfl

end Cert.Kernel.Fr

end
-- ==== Proof.KB.Ap10.lean ====
/- (proof/Proof/KI/Ap10.lean with the word-level program's namespace and module names put for the idealized program's; nothing else changed) -/
import proofs.«109160_j26783416057954_1_alg».proof.Proof.KB.Ap10Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The three cases at point `t`, on the point's input blocks.
def leaves10A (c : Dev nD) (t : Fin cfg10.N) (ha : t.val % 16 = 0) (hb : ¬t.val % 16 = 15) : Vec F S2048x64 .f32 × Vec F S2048x64 .f32 :=
  leavesA VO10_3 VS10_0 c (grid10.coords t) (ms10_0 t) (hs10_0 t) (ms10_1 t) (hs10_1 t) (ms10_2 t) (hs10_2 t) (ms10_3 t) (hs10_3 t) scM10_0 (Memref.isWhole_whole _) ((hcondFirst t).mpr ha) (fun h => hb ((hcondLast t).mp h)) (iblk10 V c 0 t) (iblk10 V c 1 t) (iblk10 V c 2 t)
def leaves10B (c : Dev nD) (t : Fin cfg10.N) (ha : ¬t.val % 16 = 0) (hb : ¬t.val % 16 = 15) (xs : Vec F S2048x64 .f32) : Vec F S2048x64 .f32 × Vec F S2048x64 .f32 :=
  leavesB VO10_3 VS10_0 c (grid10.coords t) (ms10_0 t) (hs10_0 t) (ms10_1 t) (hs10_1 t) (ms10_2 t) (hs10_2 t) (ms10_3 t) (hs10_3 t) scM10_0 (Memref.isWhole_whole _) (fun h => ha ((hcondFirst t).mp h)) (fun h => hb ((hcondLast t).mp h)) (iblk10 V c 0 t) (iblk10 V c 1 t) (iblk10 V c 2 t) xs
def leaves10C (c : Dev nD) (t : Fin cfg10.N) (ha : ¬t.val % 16 = 0) (hb : t.val % 16 = 15) (xs : Vec F S2048x64 .f32) : Vec F S2048x64 .f32 × Vec F S2048x64 .f32 :=
  leavesC VO10_3 VS10_0 c (grid10.coords t) (ms10_0 t) (hs10_0 t) (ms10_1 t) (hs10_1 t) (ms10_2 t) (hs10_2 t) (ms10_3 t) (hs10_3 t) scM10_0 (Memref.isWhole_whole _) (fun h => ha ((hcondFirst t).mp h)) ((hcondLast t).mpr hb) (iblk10 V c 0 t) (iblk10 V c 1 t) (iblk10 V c 2 t) xs

-- The accumulation along a row block: the first column block resets, each later one adds to what the point before left.
def outsAt10 (c : Dev nD) : (n : ℕ) → n < cfg10.N → Vec F S2048x64 .f32 × Vec F S2048x64 .f32
  | 0, hn => leaves10A V c ⟨0, hn⟩ (Nat.zero_mod _) (by show ¬0 % 16 = 15; omega)
  | n + 1, hn =>
    if ha : (n + 1) % 16 = 0 then
      if hb : (n + 1) % 16 = 15 then False.elim (by omega) else leaves10A V c ⟨n + 1, hn⟩ ha hb
    else
      if hb : (n + 1) % 16 = 15 then leaves10C V c ⟨n + 1, hn⟩ ha hb (outsAt10 c n (Nat.lt_of_succ_lt hn)).2
      else leaves10B V c ⟨n + 1, hn⟩ ha hb (outsAt10 c n (Nat.lt_of_succ_lt hn)).2

theorem outsAt10_A (c : Dev nD) (t : Fin cfg10.N) (ha : t.val % 16 = 0) (hb : ¬t.val % 16 = 15) :
    outsAt10 V c t.val t.isLt = leaves10A V c t ha hb := by
  obtain ⟨n, hn⟩ := t
  cases n with
  | zero => exact rfl
  | succ n => exact (dif_pos ha).trans ((dif_neg hb).trans rfl)

theorem outsAt10_B (c : Dev nD) (t : Fin cfg10.N) (ha : ¬t.val % 16 = 0) (hb : ¬t.val % 16 = 15) :
    outsAt10 V c t.val t.isLt = leaves10B V c t ha hb (outsAt10 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_neg hb).trans rfl)

theorem outsAt10_C (c : Dev nD) (t : Fin cfg10.N) (ha : ¬t.val % 16 = 0) (hb : t.val % 16 = 15) :
    outsAt10 V c t.val t.isLt = leaves10C V c t ha hb (outsAt10 V c (t.val - 1) (Nat.lt_of_le_of_lt (Nat.sub_le _ _) t.isLt)).2 := by
  obtain ⟨n, hn⟩ := t
  cases n with
  | zero => exact (by exfalso; (try dsimp only at ha); exact absurd (Nat.zero_mod _) ha)
  | succ n => exact (dif_neg ha).trans ((dif_pos hb).trans rfl)

def PhiS10 (c : Dev nD) : (n : ℕ) → n ≤ cfg10.N → sProp 𝕄
  | 0, _ => Pipeline.ΦA spec10 c
  | n + 1, hn => iprop(iprop(owns (c : Thread nD τ) scM10_0 fullShare ((outsAt10 V c n hn).2) ∗ Pipeline.scopedRestBut (Ix := Unit) (Name := ℕ) (U := UR sig nD τ) (Lvl := ℕ) (Val := Elt F) spec10 c [cc10_scratch0]) ∗ (∃ r, prngReg c r))

theorem PhiS10_zero (c : Dev nD) (n : ℕ) (h : n ≤ cfg10.N) (hp : n = 0) : PhiS10 V c n h = Pipeline.ΦA spec10 c := by
  subst hp; rfl

theorem PhiS10_succ (c : Dev nD) (n : ℕ) (hn : n < cfg10.N) :
    PhiS10 V c (n + 1) hn = iprop(iprop(owns (c : Thread nD τ) scM10_0 fullShare ((outsAt10 V c n hn).2) ∗ Pipeline.scopedRestBut (Ix := Unit) (Name := ℕ) (U := UR sig nD τ) (Lvl := ℕ) (Val := Elt F) spec10 c [cc10_scratch0]) ∗ (∃ r, prngReg c r)) := rfl

theorem PhiS10_pos (c : Dev nD) (n : ℕ) (h : n ≤ cfg10.N) (hp : n ≠ 0) :
    PhiS10 V c n h = iprop(iprop(owns (c : Thread nD τ) scM10_0 fullShare ((outsAt10 V c (n - 1) (by omega)).2) ∗ Pipeline.scopedRestBut (Ix := Unit) (Name := ℕ) (U := UR sig nD τ) (Lvl := ℕ) (Val := Elt F) spec10 c [cc10_scratch0]) ∗ (∃ r, prngReg c r)) := by
  cases n with
  | zero => exact absurd rfl hp
  | succ n => rfl

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => (outsAt10 V c t.val t.isLt).1
  Φ t := PhiS10 V c t.val (Nat.le_of_lt_succ t.isLt)
  q _ := fullShare
  owed _ := 0

theorem A_eq10 (c : Dev nD) (w : Fin cfg10.W) : (dat10 V c).A w = V c (Pipeline.arrRef spec10 w) := by
  dsimp only [dat10]

theorem PhiS10_castSucc (c : Dev nD) (t : Fin cfg10.N) :
    (dat10 V c).Φ t.castSucc = PhiS10 V c t.val (Nat.le_of_lt t.isLt) := by
  dsimp only [dat10]; simp only [Fin.coe_castSucc]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = (outsAt10 V c t.val t.isLt).1 := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d)))

def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t)

set_option maxHeartbeats 4800000 in

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).owesAt () t.succ = (dat10 V c).owesAt () t.castSucc from rfl]
  rw [show (dat10 V c).Φ t.succ = PhiS10 V c (t.val + 1) t.isLt from rfl, PhiS10_succ]
  rw [show (dat10 V c).leavesExact 0 t = owns (c : Thread nD τ) (ms10_0 t) fullShare ((dat10 V c).after 0 t) from by
    unfold Dat.leavesExact; rw [liveAt10_0 t], after10_0]
  rw [show (dat10 V c).leavesExact 1 t = owns (c : Thread nD τ) (ms10_1 t) fullShare ((dat10 V c).after 1 t) from by
    unfold Dat.leavesExact; rw [liveAt10_1 t], after10_1]
  rw [show (dat10 V c).leavesExact 2 t = owns (c : Thread nD τ) (ms10_2 t) fullShare ((dat10 V c).after 2 t) from by
    unfold Dat.leavesExact; rw [liveAt10_2 t], after10_2]
  have hN : t.val < 128 := lt_of_lt_of_eq t.isLt (show cfg10.N = 128 from N_10)
  by_cases ha : t.val % 16 = 0
  · by_cases hb : t.val % 16 = 15
    · exfalso; omega
    · rw [Dat.leavesExact_idle (dat10 V c) 3 t (idleAt10_3_A t ((hcondFirst t).mpr ha) (fun h => hb ((hcondLast t).mp h))) (noFlush10_3_A t ((hcondFirst t).mpr ha) (fun h => hb ((hcondLast t).mp h)))]
      rw [outsAt10_A V c t ha hb]
      unfold leaves10A leavesA; (try dsimp only)
      by_cases hp : t.val = 0
      · rw [PhiS10_castSucc V c t, PhiS10_zero V c _ _ hp, PhiA10_eq]
        iintro ⟨⟨⟨Hs, Hr⟩, Hg⟩, Hw, ⟨%da, Ha⟩, ⟨%db, Hb⟩, ⟨%dc, Hc⟩, ⟨%dd, Hd⟩⟩
        iapply ((stepRunA c (grid10.coords t) _ (hs10_0 t) _ (hs10_1 t) _ (hs10_2 t) _ (hs10_3 t) _ (Memref.isWhole_whole _) ((hcondFirst t).mpr ha) (fun h => hb ((hcondLast t).mp h)) (iblk10 V c 0 t) (iblk10 V c 1 t) (iblk10 V c 2 t)).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
      · rw [PhiS10_castSucc V c t, PhiS10_pos V c _ _ hp]
        iintro ⟨⟨⟨Hs, Hr⟩, Hg⟩, Hw, ⟨%da, Ha⟩, ⟨%db, Hb⟩, ⟨%dc, Hc⟩, ⟨%dd, Hd⟩⟩
        iapply ((stepRunA c (grid10.coords t) _ (hs10_0 t) _ (hs10_1 t) _ (hs10_2 t) _ (hs10_3 t) _ (Memref.isWhole_whole _) ((hcondFirst t).mpr ha) (fun h => hb ((hcondLast t).mp h)) (iblk10 V c 0 t) (iblk10 V c 1 t) (iblk10 V c 2 t)).2.2 _ Set.univ _)
        isplitl [Ha]; · iexact Ha
        isplitl [Hb]; · iexact Hb
        isplitl [Hc]; · iexact Hc
        isplitl [Hd]; · iexact Hd
        isplitl [Hs]; · iexists _; iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverA c _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd
  · by_cases hb : t.val % 16 = 15
    · rw [show (dat10 V c).leavesExact 3 t = owns (c : Thread nD τ) (ms10_3 t) fullShare ((dat10 V c).after 3 t) from by
        unfold Dat.leavesExact; rw [liveAt10_3_C t (fun h => ha ((hcondFirst t).mp h)) ((hcondLast t).mpr hb)], after10_3]
      rw [outsAt10_C V c t ha hb]
      unfold leaves10C leavesC; (try dsimp only)
      by_cases hp : t.val = 0
      · exfalso; omega
      · rw [PhiS10_castSucc V c t, PhiS10_pos V c _ _ hp]
        iintro ⟨⟨⟨Hs, Hr⟩, Hg⟩, Hw, ⟨%da, Ha⟩, ⟨%db, Hb⟩, ⟨%dc, Hc⟩, ⟨%dd, Hd⟩⟩
        iapply ((stepRunC c (grid10.coords t) _ (hs10_0 t) _ (hs10_1 t) _ (hs10_2 t) _ (hs10_3 t) _ (Memref.isWhole_whole _) (fun h => ha ((hcondFirst t).mp h)) ((hcondLast t).mpr hb) (iblk10 V c 0 t) (iblk10 V c 1 t) (iblk10 V c 2 t) _).2.2 Set.univ _)
        isplitl [Ha]; · iexact Ha
        isplitl [Hb]; · iexact Hb
        isplitl [Hc]; · iexact Hc
        isplitl [Hd]; · iexists _; iexact Hd
        isplitl [Hs]; · iexact Hs
        iintro ⟨Ha, Hb, Hc, ⟨%ed, Hd⟩, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverC c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        unfold owns; iexists _; isplitr
        swap; · iexact Hd
        ipureintro; exact View.read_writes_of_cover _ _ _ _ _ (outCoverC c _ _ _ _ _ _ _ _ _ _ _ _ _ _ _ _ _)
    · rw [Dat.leavesExact_idle (dat10 V c) 3 t (idleAt10_3_B t (fun h => ha ((hcondFirst t).mp h)) (fun h => hb ((hcondLast t).mp h))) (noFlush10_3_B t (fun h => ha ((hcondFirst t).mp h)) (fun h => hb ((hcondLast t).mp h)))]
      rw [outsAt10_B V c t ha hb]
      unfold leaves10B leavesB; (try dsimp only)
      by_cases hp : t.val = 0
      · exfalso; omega
      · rw [PhiS10_castSucc V c t, PhiS10_pos V c _ _ hp]
        iintro ⟨⟨⟨Hs, Hr⟩, Hg⟩, Hw, ⟨%da, Ha⟩, ⟨%db, Hb⟩, ⟨%dc, Hc⟩, ⟨%dd, Hd⟩⟩
        iapply ((stepRunB c (grid10.coords t) _ (hs10_0 t) _ (hs10_1 t) _ (hs10_2 t) _ (hs10_3 t) _ (Memref.isWhole_whole _) (fun h => ha ((hcondFirst t).mp h)) (fun h => hb ((hcondLast t).mp h)) (iblk10 V c 0 t) (iblk10 V c 1 t) (iblk10 V c 2 t) _).2.2 _ Set.univ _)
        isplitl [Ha]; · iexact Ha
        isplitl [Hb]; · iexact Hb
        isplitl [Hc]; · iexact Hc
        isplitl [Hd]; · iexact Hd
        isplitl [Hs]; · iexact Hs
        iintro ⟨Ha, Hb, Hc, Hd, ⟨%es, Hs⟩⟩
        isplitl [Hs Hr Hg]
        · isplitl [Hs Hr]
          · isplitl [Hs]
            · unfold owns; iexists _; isplitr
              swap; · iexact Hs
              ipureintro; exact View.read_writes_of_cover _ _ _ _ _ (accCoverB c _ _ _ _ _ _ _ _ _ _ _ _ _ _ _ _ _)
            iexact Hr
          iexact Hg
        isplitl [Hw]; · iexact Hw
        isplitl [Ha]; · iexact Ha
        isplitl [Hb]; · iexact Hb
        isplitl [Hc]; · iexact Hc
        iexists _; iexact Hd

theorem body_obligation10 (c : Dev nD) : BodyObligation (dat10 (F := F) V c) (defs₀ (F := F)) Variants.none () Set.univ := fun t => by
  rw [bigSep_W10, bigSep_W10]
  exact sound_body10 V c t

theorem hin10 (c : Dev nD) : (Pipeline.ΦA spec10 c : sProp 𝕄) ⊢ (dat10 V c).Φ 0 := by
  rw [show (dat10 V c).Φ 0 = PhiS10 V c 0 (Nat.zero_le _) from rfl, PhiS10_zero V c 0 _ rfl]
  try exact Idealize.SL.BI.Entails.refl _

theorem Phi_out10 (c : Dev nD) (t : Fin (cfg10.N + 1)) (ht : t.val ≠ 0) : (dat10 V c).Φ t ⊢ (Pipeline.ΦA spec10 c : sProp 𝕄) := by
  rw [show (dat10 V c).Φ t = PhiS10 V c t.val (Nat.le_of_lt_succ t.isLt) from rfl, PhiS10_pos V c _ _ ht, PhiA10_eq]
  iintro ⟨⟨Hs, Hr⟩, Hg⟩
  isplitl [Hs Hr]
  · isplitl [Hs]
    · iexists _; iexact Hs
    iexact Hr
  iexact Hg

theorem hout10 (c : Dev nD) : (dat10 V c).Φ (Fin.last cfg10.N) ⊢ (Pipeline.ΦA spec10 c : sProp 𝕄) :=
  Phi_out10 V c _ (by rw [Fin.val_last]; have : cfg10.N = 128 := N_10; omega)

theorem share10 (c : Dev nD) (w : Fin cfg10.W) : (dat10 V c).q w = fullShare := by dsimp only [dat10]
theorem owed10 (c : Dev nD) (t) : (dat10 V c).owed t = 0 := by dsimp only [dat10]

end Cert.Kernel.Fr

end
-- ==== Proof.KB.Pdats.lean ====
/- (proof/Proof/KI/Pdats.lean with the word-level program's namespace and module names put for the idealized program's; nothing else changed) -/
import proofs.«109160_j26783416057954_1_alg».proof.Proof.KB.Base
import proofs.«109160_j26783416057954_1_alg».proof.Proof.KB.R0
import proofs.«109160_j26783416057954_1_alg».proof.Proof.KB.Ap1s
import proofs.«109160_j26783416057954_1_alg».proof.Proof.KB.Ap2
import proofs.«109160_j26783416057954_1_alg».proof.Proof.KB.Ap3
import proofs.«109160_j26783416057954_1_alg».proof.Proof.KB.Ap4
import proofs.«109160_j26783416057954_1_alg».proof.Proof.KB.Ap5
import proofs.«109160_j26783416057954_1_alg».proof.Proof.KB.Ap6
import proofs.«109160_j26783416057954_1_alg».proof.Proof.KB.Ap7
import proofs.«109160_j26783416057954_1_alg».proof.Proof.KB.Ap8
import proofs.«109160_j26783416057954_1_alg».proof.Proof.KB.Ap9
import proofs.«109160_j26783416057954_1_alg».proof.Proof.KB.Ap10

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

noncomputable def X2 (c : Dev nD) : Valuation τ sig (Elt F) :=
  Function.update (V1 m c) main_v2 ((dat0 (fun c b => V1 m c b) c).arrAt (5 : Fin 6) cfg0.N)

noncomputable def X3 (c : Dev nD) : Valuation τ sig (Elt F) :=
  Function.update (X2 m c) main_v3 ((dat1s (fun c b => X2 m c b) c).arrAt (3 : Fin 4) cfg1.N)

noncomputable def X4 (c : Dev nD) : Valuation τ sig (Elt F) :=
  Function.update (X3 m c) main_v4 ((dat2 (fun c b => X3 m c b) c).arrAt (3 : Fin 4) cfg2.N)

noncomputable def X5 (c : Dev nD) : Valuation τ sig (Elt F) :=
  Function.update (X4 m c) main_v5 ((dat3 (fun c b => X4 m c b) c).arrAt (3 : Fin 4) cfg3.N)

noncomputable def X6 (c : Dev nD) : Valuation τ sig (Elt F) :=
  Function.update (X5 m c) main_v6 ((dat4 (fun c b => X5 m c b) c).arrAt (3 : Fin 4) cfg4.N)

noncomputable def X7 (c : Dev nD) : Valuation τ sig (Elt F) :=
  Function.update (X6 m c) main_v7 ((dat5 (fun c b => X6 m c b) c).arrAt (3 : Fin 4) cfg5.N)

noncomputable def X8 (c : Dev nD) : Valuation τ sig (Elt F) :=
  Function.update (X7 m c) main_v8 ((dat6 (fun c b => X7 m c b) c).arrAt (3 : Fin 4) cfg6.N)

noncomputable def X9 (c : Dev nD) : Valuation τ sig (Elt F) :=
  Function.update (X8 m c) main_v9 ((dat7 (fun c b => X8 m c b) c).arrAt (3 : Fin 4) cfg7.N)

noncomputable def X10 (c : Dev nD) : Valuation τ sig (Elt F) :=
  Function.update (X9 m c) main_v10 ((dat8 (fun c b => X9 m c b) c).arrAt (3 : Fin 4) cfg8.N)

noncomputable def X11 (c : Dev nD) : Valuation τ sig (Elt F) :=
  Function.update (X10 m c) main_v11 ((dat9 (fun c b => X10 m c b) c).arrAt (3 : Fin 4) cfg9.N)

noncomputable def X12 (c : Dev nD) : Valuation τ sig (Elt F) :=
  Function.update (X11 m c) main_v12 ((dat10 (fun c b => X11 m c b) c).arrAt (3 : Fin 4) cfg10.N)

noncomputable def outsM : Outs (F := F) := fun J r c =>
  match J with
  | 2 => X2 m c r
  | 3 => X3 m c r
  | 4 => X4 m c r
  | 5 => X5 m c r
  | 6 => X6 m c r
  | 7 => X7 m c r
  | 8 => X8 m c r
  | 9 => X9 m c r
  | 10 => X10 m c r
  | 11 => X11 m c r
  | 12 => X12 m c r
  | _ => V1 m c r

theorem VX2 (c : Dev nD) : V2 m (outsM m) c = X2 m c := by
  show Function.update (V1 m c) main_v2 (X2 m c main_v2) = X2 m c
  unfold X2; rw [Function.update_self]
theorem VX3 (c : Dev nD) : V3 m (outsM m) c = X3 m c := by
  show Function.update (V2 m (outsM m) c) main_v3 (X3 m c main_v3) = X3 m c
  rw [VX2]; unfold X3; rw [Function.update_self]
theorem VX4 (c : Dev nD) : V4 m (outsM m) c = X4 m c := by
  show Function.update (V3 m (outsM m) c) main_v4 (X4 m c main_v4) = X4 m c
  rw [VX3]; unfold X4; rw [Function.update_self]
theorem VX5 (c : Dev nD) : V5 m (outsM m) c = X5 m c := by
  show Function.update (V4 m (outsM m) c) main_v5 (X5 m c main_v5) = X5 m c
  rw [VX4]; unfold X5; rw [Function.update_self]
theorem VX6 (c : Dev nD) : V6 m (outsM m) c = X6 m c := by
  show Function.update (V5 m (outsM m) c) main_v6 (X6 m c main_v6) = X6 m c
  rw [VX5]; unfold X6; rw [Function.update_self]
theorem VX7 (c : Dev nD) : V7 m (outsM m) c = X7 m c := by
  show Function.update (V6 m (outsM m) c) main_v7 (X7 m c main_v7) = X7 m c
  rw [VX6]; unfold X7; rw [Function.update_self]
theorem VX8 (c : Dev nD) : V8 m (outsM m) c = X8 m c := by
  show Function.update (V7 m (outsM m) c) main_v8 (X8 m c main_v8) = X8 m c
  rw [VX7]; unfold X8; rw [Function.update_self]
theorem VX9 (c : Dev nD) : V9 m (outsM m) c = X9 m c := by
  show Function.update (V8 m (outsM m) c) main_v9 (X9 m c main_v9) = X9 m c
  rw [VX8]; unfold X9; rw [Function.update_self]
theorem VX10 (c : Dev nD) : V10 m (outsM m) c = X10 m c := by
  show Function.update (V9 m (outsM m) c) main_v10 (X10 m c main_v10) = X10 m c
  rw [VX9]; unfold X10; rw [Function.update_self]
theorem VX11 (c : Dev nD) : V11 m (outsM m) c = X11 m c := by
  show Function.update (V10 m (outsM m) c) main_v11 (X11 m c main_v11) = X11 m c
  rw [VX10]; unfold X11; rw [Function.update_self]
theorem VX12 (c : Dev nD) : V12 m (outsM m) c = X12 m c := by
  show Function.update (V11 m (outsM m) c) main_v12 (X12 m c main_v12) = X12 m c
  rw [VX11]; unfold X12; rw [Function.update_self]

theorem tcX2 : @Eq ((c : Dev nD) → (b : Ref sig .tc) → Buf (Elt F) ((c : Thread nD τ).loc b)) (fun c b => X2 m c b) (fun c b => V2 m (outsM m) c b) :=
  funext fun c => funext fun b => by rw [VX2]
theorem tcX3 : @Eq ((c : Dev nD) → (b : Ref sig .tc) → Buf (Elt F) ((c : Thread nD τ).loc b)) (fun c b => X3 m c b) (fun c b => V3 m (outsM m) c b) :=
  funext fun c => funext fun b => by rw [VX3]
theorem tcX4 : @Eq ((c : Dev nD) → (b : Ref sig .tc) → Buf (Elt F) ((c : Thread nD τ).loc b)) (fun c b => X4 m c b) (fun c b => V4 m (outsM m) c b) :=
  funext fun c => funext fun b => by rw [VX4]
theorem tcX5 : @Eq ((c : Dev nD) → (b : Ref sig .tc) → Buf (Elt F) ((c : Thread nD τ).loc b)) (fun c b => X5 m c b) (fun c b => V5 m (outsM m) c b) :=
  funext fun c => funext fun b => by rw [VX5]
theorem tcX6 : @Eq ((c : Dev nD) → (b : Ref sig .tc) → Buf (Elt F) ((c : Thread nD τ).loc b)) (fun c b => X6 m c b) (fun c b => V6 m (outsM m) c b) :=
  funext fun c => funext fun b => by rw [VX6]
theorem tcX7 : @Eq ((c : Dev nD) → (b : Ref sig .tc) → Buf (Elt F) ((c : Thread nD τ).loc b)) (fun c b => X7 m c b) (fun c b => V7 m (outsM m) c b) :=
  funext fun c => funext fun b => by rw [VX7]
theorem tcX8 : @Eq ((c : Dev nD) → (b : Ref sig .tc) → Buf (Elt F) ((c : Thread nD τ).loc b)) (fun c b => X8 m c b) (fun c b => V8 m (outsM m) c b) :=
  funext fun c => funext fun b => by rw [VX8]
theorem tcX9 : @Eq ((c : Dev nD) → (b : Ref sig .tc) → Buf (Elt F) ((c : Thread nD τ).loc b)) (fun c b => X9 m c b) (fun c b => V9 m (outsM m) c b) :=
  funext fun c => funext fun b => by rw [VX9]
theorem tcX10 : @Eq ((c : Dev nD) → (b : Ref sig .tc) → Buf (Elt F) ((c : Thread nD τ).loc b)) (fun c b => X10 m c b) (fun c b => V10 m (outsM m) c b) :=
  funext fun c => funext fun b => by rw [VX10]
theorem tcX11 : @Eq ((c : Dev nD) → (b : Ref sig .tc) → Buf (Elt F) ((c : Thread nD τ).loc b)) (fun c b => X11 m c b) (fun c b => V11 m (outsM m) c b) :=
  funext fun c => funext fun b => by rw [VX11]

noncomputable def pdatsM : (p : Fin 11) → (c : Dev nD) → Dat τ (Elt F) Unit ℕ (UR sig nD τ) ℕ (cfgs p) c
  | ⟨0, _⟩ => fun c => dat0 (fun c b => V1 m c b) c
  | ⟨1, _⟩ => fun c => dat1s (fun c b => V2 m (outsM m) c b) c
  | ⟨2, _⟩ => fun c => dat2 (fun c b => V3 m (outsM m) c b) c
  | ⟨3, _⟩ => fun c => dat3 (fun c b => V4 m (outsM m) c b) c
  | ⟨4, _⟩ => fun c => dat4 (fun c b => V5 m (outsM m) c b) c
  | ⟨5, _⟩ => fun c => dat5 (fun c b => V6 m (outsM m) c b) c
  | ⟨6, _⟩ => fun c => dat6 (fun c b => V7 m (outsM m) c b) c
  | ⟨7, _⟩ => fun c => dat7 (fun c b => V8 m (outsM m) c b) c
  | ⟨8, _⟩ => fun c => dat8 (fun c b => V9 m (outsM m) c b) c
  | ⟨9, _⟩ => fun c => dat9 (fun c b => V10 m (outsM m) c b) c
  | ⟨10, _⟩ => fun c => dat10 (fun c b => V11 m (outsM m) c b) c

theorem out_eq0 (c : Dev nD) : outsM m 2 main_v2 c = (pdatsM m 0 c).arrAt (5 : Fin 6) cfg0.N := by
  show X2 m c main_v2 = (dat0 (fun c b => V1 m c b) c).arrAt (5 : Fin 6) cfg0.N
  unfold X2; rw [Function.update_self]

theorem out_eq1 (c : Dev nD) : outsM m 3 main_v3 c = (pdatsM m 1 c).arrAt (3 : Fin 4) cfg1.N := by
  show X3 m c main_v3 = (dat1s (fun c b => V2 m (outsM m) c b) c).arrAt (3 : Fin 4) cfg1.N
  unfold X3; rw [Function.update_self]
  exact congrArg (fun W : (c : Dev nD) → (b : Ref sig .tc) → Buf (Elt F) ((c : Thread nD τ).loc b) => (dat1s W c).arrAt (3 : Fin 4) cfg1.N) (tcX2 m)

theorem out_eq2 (c : Dev nD) : outsM m 4 main_v4 c = (pdatsM m 2 c).arrAt (3 : Fin 4) cfg2.N := by
  show X4 m c main_v4 = (dat2 (fun c b => V3 m (outsM m) c b) c).arrAt (3 : Fin 4) cfg2.N
  unfold X4; rw [Function.update_self]
  exact congrArg (fun W : (c : Dev nD) → (b : Ref sig .tc) → Buf (Elt F) ((c : Thread nD τ).loc b) => (dat2 W c).arrAt (3 : Fin 4) cfg2.N) (tcX3 m)

theorem out_eq3 (c : Dev nD) : outsM m 5 main_v5 c = (pdatsM m 3 c).arrAt (3 : Fin 4) cfg3.N := by
  show X5 m c main_v5 = (dat3 (fun c b => V4 m (outsM m) c b) c).arrAt (3 : Fin 4) cfg3.N
  unfold X5; rw [Function.update_self]
  exact congrArg (fun W : (c : Dev nD) → (b : Ref sig .tc) → Buf (Elt F) ((c : Thread nD τ).loc b) => (dat3 W c).arrAt (3 : Fin 4) cfg3.N) (tcX4 m)

theorem out_eq4 (c : Dev nD) : outsM m 6 main_v6 c = (pdatsM m 4 c).arrAt (3 : Fin 4) cfg4.N := by
  show X6 m c main_v6 = (dat4 (fun c b => V5 m (outsM m) c b) c).arrAt (3 : Fin 4) cfg4.N
  unfold X6; rw [Function.update_self]
  exact congrArg (fun W : (c : Dev nD) → (b : Ref sig .tc) → Buf (Elt F) ((c : Thread nD τ).loc b) => (dat4 W c).arrAt (3 : Fin 4) cfg4.N) (tcX5 m)

theorem out_eq5 (c : Dev nD) : outsM m 7 main_v7 c = (pdatsM m 5 c).arrAt (3 : Fin 4) cfg5.N := by
  show X7 m c main_v7 = (dat5 (fun c b => V6 m (outsM m) c b) c).arrAt (3 : Fin 4) cfg5.N
  unfold X7; rw [Function.update_self]
  exact congrArg (fun W : (c : Dev nD) → (b : Ref sig .tc) → Buf (Elt F) ((c : Thread nD τ).loc b) => (dat5 W c).arrAt (3 : Fin 4) cfg5.N) (tcX6 m)

theorem out_eq6 (c : Dev nD) : outsM m 8 main_v8 c = (pdatsM m 6 c).arrAt (3 : Fin 4) cfg6.N := by
  show X8 m c main_v8 = (dat6 (fun c b => V7 m (outsM m) c b) c).arrAt (3 : Fin 4) cfg6.N
  unfold X8; rw [Function.update_self]
  exact congrArg (fun W : (c : Dev nD) → (b : Ref sig .tc) → Buf (Elt F) ((c : Thread nD τ).loc b) => (dat6 W c).arrAt (3 : Fin 4) cfg6.N) (tcX7 m)

theorem out_eq7 (c : Dev nD) : outsM m 9 main_v9 c = (pdatsM m 7 c).arrAt (3 : Fin 4) cfg7.N := by
  show X9 m c main_v9 = (dat7 (fun c b => V8 m (outsM m) c b) c).arrAt (3 : Fin 4) cfg7.N
  unfold X9; rw [Function.update_self]
  exact congrArg (fun W : (c : Dev nD) → (b : Ref sig .tc) → Buf (Elt F) ((c : Thread nD τ).loc b) => (dat7 W c).arrAt (3 : Fin 4) cfg7.N) (tcX8 m)

theorem out_eq8 (c : Dev nD) : outsM m 10 main_v10 c = (pdatsM m 8 c).arrAt (3 : Fin 4) cfg8.N := by
  show X10 m c main_v10 = (dat8 (fun c b => V9 m (outsM m) c b) c).arrAt (3 : Fin 4) cfg8.N
  unfold X10; rw [Function.update_self]
  exact congrArg (fun W : (c : Dev nD) → (b : Ref sig .tc) → Buf (Elt F) ((c : Thread nD τ).loc b) => (dat8 W c).arrAt (3 : Fin 4) cfg8.N) (tcX9 m)

theorem out_eq9 (c : Dev nD) : outsM m 11 main_v11 c = (pdatsM m 9 c).arrAt (3 : Fin 4) cfg9.N := by
  show X11 m c main_v11 = (dat9 (fun c b => V10 m (outsM m) c b) c).arrAt (3 : Fin 4) cfg9.N
  unfold X11; rw [Function.update_self]
  exact congrArg (fun W : (c : Dev nD) → (b : Ref sig .tc) → Buf (Elt F) ((c : Thread nD τ).loc b) => (dat9 W c).arrAt (3 : Fin 4) cfg9.N) (tcX10 m)

theorem out_eq10 (c : Dev nD) : outsM m 12 main_v12 c = (pdatsM m 10 c).arrAt (3 : Fin 4) cfg10.N := by
  show X12 m c main_v12 = (dat10 (fun c b => V11 m (outsM m) c b) c).arrAt (3 : Fin 4) cfg10.N
  unfold X12; rw [Function.update_self]
  exact congrArg (fun W : (c : Dev nD) → (b : Ref sig .tc) → Buf (Elt F) ((c : Thread nD τ).loc b) => (dat10 W c).arrAt (3 : Fin 4) cfg10.N) (tcX11 m)

theorem hF0 (c : Dev nD) : ∀ w : Fin 6, (pdatsM m 0 c).arrAt w cfg0.N = V2 m (outsM m) c (Pipeline.arrRef spec0 w)
  | 0 => (((pdatsM m 0 c).arrAt_in 0 rfl _).trans (A_eq0 (fun c b => V1 m c b) c 0)).trans (V2_of m (outsM m) c main_arg0 (by decide)).symm
  | 1 => (((pdatsM m 0 c).arrAt_in 1 rfl _).trans (A_eq0 (fun c b => V1 m c b) c 1)).trans (V2_of m (outsM m) c main_arg2 (by decide)).symm
  | 2 => (((pdatsM m 0 c).arrAt_in 2 rfl _).trans (A_eq0 (fun c b => V1 m c b) c 2)).trans (V2_of m (outsM m) c main_v0 (by decide)).symm
  | 3 => (((pdatsM m 0 c).arrAt_in 3 rfl _).trans (A_eq0 (fun c b => V1 m c b) c 3)).trans (V2_of m (outsM m) c main_arg4 (by decide)).symm
  | 4 => (((pdatsM m 0 c).arrAt_in 4 rfl _).trans (A_eq0 (fun c b => V1 m c b) c 4)).trans (V2_of m (outsM m) c main_v1 (by decide)).symm
  | 5 => (out_eq0 m c).symm.trans (Function.update_self (Proc.devRef .tc main_v2 : DevRef τ sig) (outsM m 2 main_v2 c) (V1 m c)).symm
  | ⟨_ + 6, h⟩ => absurd h (Nat.not_lt.2 (Nat.le_add_left _ _))

theorem hrest0 (c : Dev nD) : ∀ b : Ref sig .tc, b ∉ Finset.univ.image (Pipeline.arrRef spec0) → V2 m (outsM m) c b = V1 m c b :=
  fun b hb => V2_of m (outsM m) c b fun h => hb (by rw [List.mem_singleton.mp h]; exact Finset.mem_image.mpr ⟨(5 : Fin 6), Finset.mem_univ _, rfl⟩)

theorem hF1 (c : Dev nD) : ∀ w : Fin 4, (pdatsM m 1 c).arrAt w cfg1.N = V3 m (outsM m) c (Pipeline.arrRef spec1 w)
  | 0 => (((pdatsM m 1 c).arrAt_in 0 rfl _).trans (A_eq1s (fun c b => V2 m (outsM m) c b) c 0)).trans (V3_of m (outsM m) c main_arg1 (by decide)).symm
  | 1 => (((pdatsM m 1 c).arrAt_in 1 rfl _).trans (A_eq1s (fun c b => V2 m (outsM m) c b) c 1)).trans (V3_of m (outsM m) c main_v2 (by decide)).symm
  | 2 => (((pdatsM m 1 c).arrAt_in 2 rfl _).trans (A_eq1s (fun c b => V2 m (outsM m) c b) c 2)).trans (V3_of m (outsM m) c main_v2 (by decide)).symm
  | 3 => (out_eq1 m c).symm.trans (Function.update_self (Proc.devRef .tc main_v3 : DevRef τ sig) (outsM m 3 main_v3 c) (V2 m (outsM m) c)).symm
  | ⟨_ + 4, h⟩ => absurd h (Nat.not_lt.2 (Nat.le_add_left _ _))

theorem hrest1 (c : Dev nD) : ∀ b : Ref sig .tc, b ∉ Finset.univ.image (Pipeline.arrRef spec1) → V3 m (outsM m) c b = V2 m (outsM m) c b :=
  fun b hb => V3_of m (outsM m) c b fun h => hb (by rw [List.mem_singleton.mp h]; exact Finset.mem_image.mpr ⟨(3 : Fin 4), Finset.mem_univ _, rfl⟩)

theorem hF2 (c : Dev nD) : ∀ w : Fin 4, (pdatsM m 2 c).arrAt w cfg2.N = V4 m (outsM m) c (Pipeline.arrRef spec2 w)
  | 0 => (((pdatsM m 2 c).arrAt_in 0 rfl _).trans (A_eq2 (fun c b => V3 m (outsM m) c b) c 0)).trans (V4_of m (outsM m) c main_arg1 (by decide)).symm
  | 1 => (((pdatsM m 2 c).arrAt_in 1 rfl _).trans (A_eq2 (fun c b => V3 m (outsM m) c b) c 1)).trans (V4_of m (outsM m) c main_v3 (by decide)).symm
  | 2 => (((pdatsM m 2 c).arrAt_in 2 rfl _).trans (A_eq2 (fun c b => V3 m (outsM m) c b) c 2)).trans (V4_of m (outsM m) c main_v2 (by decide)).symm
  | 3 => (out_eq2 m c).symm.trans (Function.update_self (Proc.devRef .tc main_v4 : DevRef τ sig) (outsM m 4 main_v4 c) (V3 m (outsM m) c)).symm
  | ⟨_ + 4, h⟩ => absurd h (Nat.not_lt.2 (Nat.le_add_left _ _))

theorem hrest2 (c : Dev nD) : ∀ b : Ref sig .tc, b ∉ Finset.univ.image (Pipeline.arrRef spec2) → V4 m (outsM m) c b = V3 m (outsM m) c b :=
  fun b hb => V4_of m (outsM m) c b fun h => hb (by rw [List.mem_singleton.mp h]; exact Finset.mem_image.mpr ⟨(3 : Fin 4), Finset.mem_univ _, rfl⟩)

theorem hF3 (c : Dev nD) : ∀ w : Fin 4, (pdatsM m 3 c).arrAt w cfg3.N = V5 m (outsM m) c (Pipeline.arrRef spec3 w)
  | 0 => (((pdatsM m 3 c).arrAt_in 0 rfl _).trans (A_eq3 (fun c b => V4 m (outsM m) c b) c 0)).trans (V5_of m (outsM m) c main_arg1 (by decide)).symm
  | 1 => (((pdatsM m 3 c).arrAt_in 1 rfl _).trans (A_eq3 (fun c b => V4 m (outsM m) c b) c 1)).trans (V5_of m (outsM m) c main_v4 (by decide)).symm
  | 2 => (((pdatsM m 3 c).arrAt_in 2 rfl _).trans (A_eq3 (fun c b => V4 m (outsM m) c b) c 2)).trans (V5_of m (outsM m) c main_v2 (by decide)).symm
  | 3 => (out_eq3 m c).symm.trans (Function.update_self (Proc.devRef .tc main_v5 : DevRef τ sig) (outsM m 5 main_v5 c) (V4 m (outsM m) c)).symm
  | ⟨_ + 4, h⟩ => absurd h (Nat.not_lt.2 (Nat.le_add_left _ _))

theorem hrest3 (c : Dev nD) : ∀ b : Ref sig .tc, b ∉ Finset.univ.image (Pipeline.arrRef spec3) → V5 m (outsM m) c b = V4 m (outsM m) c b :=
  fun b hb => V5_of m (outsM m) c b fun h => hb (by rw [List.mem_singleton.mp h]; exact Finset.mem_image.mpr ⟨(3 : Fin 4), Finset.mem_univ _, rfl⟩)

theorem hF4 (c : Dev nD) : ∀ w : Fin 4, (pdatsM m 4 c).arrAt w cfg4.N = V6 m (outsM m) c (Pipeline.arrRef spec4 w)
  | 0 => (((pdatsM m 4 c).arrAt_in 0 rfl _).trans (A_eq4 (fun c b => V5 m (outsM m) c b) c 0)).trans (V6_of m (outsM m) c main_arg1 (by decide)).symm
  | 1 => (((pdatsM m 4 c).arrAt_in 1 rfl _).trans (A_eq4 (fun c b => V5 m (outsM m) c b) c 1)).trans (V6_of m (outsM m) c main_v5 (by decide)).symm
  | 2 => (((pdatsM m 4 c).arrAt_in 2 rfl _).trans (A_eq4 (fun c b => V5 m (outsM m) c b) c 2)).trans (V6_of m (outsM m) c main_v2 (by decide)).symm
  | 3 => (out_eq4 m c).symm.trans (Function.update_self (Proc.devRef .tc main_v6 : DevRef τ sig) (outsM m 6 main_v6 c) (V5 m (outsM m) c)).symm
  | ⟨_ + 4, h⟩ => absurd h (Nat.not_lt.2 (Nat.le_add_left _ _))

theorem hrest4 (c : Dev nD) : ∀ b : Ref sig .tc, b ∉ Finset.univ.image (Pipeline.arrRef spec4) → V6 m (outsM m) c b = V5 m (outsM m) c b :=
  fun b hb => V6_of m (outsM m) c b fun h => hb (by rw [List.mem_singleton.mp h]; exact Finset.mem_image.mpr ⟨(3 : Fin 4), Finset.mem_univ _, rfl⟩)

theorem hF5 (c : Dev nD) : ∀ w : Fin 4, (pdatsM m 5 c).arrAt w cfg5.N = V7 m (outsM m) c (Pipeline.arrRef spec5 w)
  | 0 => (((pdatsM m 5 c).arrAt_in 0 rfl _).trans (A_eq5 (fun c b => V6 m (outsM m) c b) c 0)).trans (V7_of m (outsM m) c main_arg1 (by decide)).symm
  | 1 => (((pdatsM m 5 c).arrAt_in 1 rfl _).trans (A_eq5 (fun c b => V6 m (outsM m) c b) c 1)).trans (V7_of m (outsM m) c main_v6 (by decide)).symm
  | 2 => (((pdatsM m 5 c).arrAt_in 2 rfl _).trans (A_eq5 (fun c b => V6 m (outsM m) c b) c 2)).trans (V7_of m (outsM m) c main_v2 (by decide)).symm
  | 3 => (out_eq5 m c).symm.trans (Function.update_self (Proc.devRef .tc main_v7 : DevRef τ sig) (outsM m 7 main_v7 c) (V6 m (outsM m) c)).symm
  | ⟨_ + 4, h⟩ => absurd h (Nat.not_lt.2 (Nat.le_add_left _ _))

theorem hrest5 (c : Dev nD) : ∀ b : Ref sig .tc, b ∉ Finset.univ.image (Pipeline.arrRef spec5) → V7 m (outsM m) c b = V6 m (outsM m) c b :=
  fun b hb => V7_of m (outsM m) c b fun h => hb (by rw [List.mem_singleton.mp h]; exact Finset.mem_image.mpr ⟨(3 : Fin 4), Finset.mem_univ _, rfl⟩)

theorem hF6 (c : Dev nD) : ∀ w : Fin 4, (pdatsM m 6 c).arrAt w cfg6.N = V8 m (outsM m) c (Pipeline.arrRef spec6 w)
  | 0 => (((pdatsM m 6 c).arrAt_in 0 rfl _).trans (A_eq6 (fun c b => V7 m (outsM m) c b) c 0)).trans (V8_of m (outsM m) c main_arg1 (by decide)).symm
  | 1 => (((pdatsM m 6 c).arrAt_in 1 rfl _).trans (A_eq6 (fun c b => V7 m (outsM m) c b) c 1)).trans (V8_of m (outsM m) c main_v7 (by decide)).symm
  | 2 => (((pdatsM m 6 c).arrAt_in 2 rfl _).trans (A_eq6 (fun c b => V7 m (outsM m) c b) c 2)).trans (V8_of m (outsM m) c main_v2 (by decide)).symm
  | 3 => (out_eq6 m c).symm.trans (Function.update_self (Proc.devRef .tc main_v8 : DevRef τ sig) (outsM m 8 main_v8 c) (V7 m (outsM m) c)).symm
  | ⟨_ + 4, h⟩ => absurd h (Nat.not_lt.2 (Nat.le_add_left _ _))

theorem hrest6 (c : Dev nD) : ∀ b : Ref sig .tc, b ∉ Finset.univ.image (Pipeline.arrRef spec6) → V8 m (outsM m) c b = V7 m (outsM m) c b :=
  fun b hb => V8_of m (outsM m) c b fun h => hb (by rw [List.mem_singleton.mp h]; exact Finset.mem_image.mpr ⟨(3 : Fin 4), Finset.mem_univ _, rfl⟩)

theorem hF7 (c : Dev nD) : ∀ w : Fin 4, (pdatsM m 7 c).arrAt w cfg7.N = V9 m (outsM m) c (Pipeline.arrRef spec7 w)
  | 0 => (((pdatsM m 7 c).arrAt_in 0 rfl _).trans (A_eq7 (fun c b => V8 m (outsM m) c b) c 0)).trans (V9_of m (outsM m) c main_arg1 (by decide)).symm
  | 1 => (((pdatsM m 7 c).arrAt_in 1 rfl _).trans (A_eq7 (fun c b => V8 m (outsM m) c b) c 1)).trans (V9_of m (outsM m) c main_v8 (by decide)).symm
  | 2 => (((pdatsM m 7 c).arrAt_in 2 rfl _).trans (A_eq7 (fun c b => V8 m (outsM m) c b) c 2)).trans (V9_of m (outsM m) c main_v2 (by decide)).symm
  | 3 => (out_eq7 m c).symm.trans (Function.update_self (Proc.devRef .tc main_v9 : DevRef τ sig) (outsM m 9 main_v9 c) (V8 m (outsM m) c)).symm
  | ⟨_ + 4, h⟩ => absurd h (Nat.not_lt.2 (Nat.le_add_left _ _))

theorem hrest7 (c : Dev nD) : ∀ b : Ref sig .tc, b ∉ Finset.univ.image (Pipeline.arrRef spec7) → V9 m (outsM m) c b = V8 m (outsM m) c b :=
  fun b hb => V9_of m (outsM m) c b fun h => hb (by rw [List.mem_singleton.mp h]; exact Finset.mem_image.mpr ⟨(3 : Fin 4), Finset.mem_univ _, rfl⟩)

theorem hF8 (c : Dev nD) : ∀ w : Fin 4, (pdatsM m 8 c).arrAt w cfg8.N = V10 m (outsM m) c (Pipeline.arrRef spec8 w)
  | 0 => (((pdatsM m 8 c).arrAt_in 0 rfl _).trans (A_eq8 (fun c b => V9 m (outsM m) c b) c 0)).trans (V10_of m (outsM m) c main_arg1 (by decide)).symm
  | 1 => (((pdatsM m 8 c).arrAt_in 1 rfl _).trans (A_eq8 (fun c b => V9 m (outsM m) c b) c 1)).trans (V10_of m (outsM m) c main_v9 (by decide)).symm
  | 2 => (((pdatsM m 8 c).arrAt_in 2 rfl _).trans (A_eq8 (fun c b => V9 m (outsM m) c b) c 2)).trans (V10_of m (outsM m) c main_v2 (by decide)).symm
  | 3 => (out_eq8 m c).symm.trans (Function.update_self (Proc.devRef .tc main_v10 : DevRef τ sig) (outsM m 10 main_v10 c) (V9 m (outsM m) c)).symm
  | ⟨_ + 4, h⟩ => absurd h (Nat.not_lt.2 (Nat.le_add_left _ _))

theorem hrest8 (c : Dev nD) : ∀ b : Ref sig .tc, b ∉ Finset.univ.image (Pipeline.arrRef spec8) → V10 m (outsM m) c b = V9 m (outsM m) c b :=
  fun b hb => V10_of m (outsM m) c b fun h => hb (by rw [List.mem_singleton.mp h]; exact Finset.mem_image.mpr ⟨(3 : Fin 4), Finset.mem_univ _, rfl⟩)

theorem hF9 (c : Dev nD) : ∀ w : Fin 4, (pdatsM m 9 c).arrAt w cfg9.N = V11 m (outsM m) c (Pipeline.arrRef spec9 w)
  | 0 => (((pdatsM m 9 c).arrAt_in 0 rfl _).trans (A_eq9 (fun c b => V10 m (outsM m) c b) c 0)).trans (V11_of m (outsM m) c main_arg1 (by decide)).symm
  | 1 => (((pdatsM m 9 c).arrAt_in 1 rfl _).trans (A_eq9 (fun c b => V10 m (outsM m) c b) c 1)).trans (V11_of m (outsM m) c main_v10 (by decide)).symm
  | 2 => (((pdatsM m 9 c).arrAt_in 2 rfl _).trans (A_eq9 (fun c b => V10 m (outsM m) c b) c 2)).trans (V11_of m (outsM m) c main_v2 (by decide)).symm
  | 3 => (out_eq9 m c).symm.trans (Function.update_self (Proc.devRef .tc main_v11 : DevRef τ sig) (outsM m 11 main_v11 c) (V10 m (outsM m) c)).symm
  | ⟨_ + 4, h⟩ => absurd h (Nat.not_lt.2 (Nat.le_add_left _ _))

theorem hrest9 (c : Dev nD) : ∀ b : Ref sig .tc, b ∉ Finset.univ.image (Pipeline.arrRef spec9) → V11 m (outsM m) c b = V10 m (outsM m) c b :=
  fun b hb => V11_of m (outsM m) c b fun h => hb (by rw [List.mem_singleton.mp h]; exact Finset.mem_image.mpr ⟨(3 : Fin 4), Finset.mem_univ _, rfl⟩)

theorem hF10 (c : Dev nD) : ∀ w : Fin 4, (pdatsM m 10 c).arrAt w cfg10.N = V12 m (outsM m) c (Pipeline.arrRef spec10 w)
  | 0 => (((pdatsM m 10 c).arrAt_in 0 rfl _).trans (A_eq10 (fun c b => V11 m (outsM m) c b) c 0)).trans (V12_of m (outsM m) c main_arg1 (by decide)).symm
  | 1 => (((pdatsM m 10 c).arrAt_in 1 rfl _).trans (A_eq10 (fun c b => V11 m (outsM m) c b) c 1)).trans (V12_of m (outsM m) c main_v11 (by decide)).symm
  | 2 => (((pdatsM m 10 c).arrAt_in 2 rfl _).trans (A_eq10 (fun c b => V11 m (outsM m) c b) c 2)).trans (V12_of m (outsM m) c main_v2 (by decide)).symm
  | 3 => (out_eq10 m c).symm.trans (Function.update_self (Proc.devRef .tc main_v12 : DevRef τ sig) (outsM m 12 main_v12 c) (V11 m (outsM m) c)).symm
  | ⟨_ + 4, h⟩ => absurd h (Nat.not_lt.2 (Nat.le_add_left _ _))

theorem hrest10 (c : Dev nD) : ∀ b : Ref sig .tc, b ∉ Finset.univ.image (Pipeline.arrRef spec10) → V12 m (outsM m) c b = V11 m (outsM m) c b :=
  fun b hb => V12_of m (outsM m) c b fun h => hb (by rw [List.mem_singleton.mp h]; exact Finset.mem_image.mpr ⟨(3 : Fin 4), Finset.mem_univ _, rfl⟩)

end Cert.Kernel.Fr

end
-- ==== Proof.KB.Reg0.lean ====
/- (proof/Proof/KI/Reg0.lean with the word-level program's namespace and module names put for the idealized program's; nothing else changed) -/
import proofs.«109160_j26783416057954_1_alg».proof.Proof.KB.Pdats

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
noncomputable def reg0 : Pipeline.RegionSeg (pcfgs (F := F)) adm (pdatsM m) () defs₀ Variants.none L lv (0 : Fin 11) where
  win := launch0.win.to₀
  block_pos := launch0.block_pos
  stage_whole := launch0.stage_whole
  K := PEmpty
  osem k := k.elim
  ho := Pipeline.OwnSemFacts.none _
  hbody c := (body_obligation0 (fun c b => V1 m c b) c).loose
  hwaits := Pipeline.hwaits_of_owed_zero _ _ _ _ L lv (0 : Fin 11) fun c t => owed0 (fun c b => V1 m c b) c t
  pre c := iprop(StableHlo.held (c : Thread nD τ) (Pipeline.ucRefs τ sig) (V1 m c) ∗ R c)
  post c := iprop(StableHlo.held (c : Thread nD τ) (Pipeline.ucRefs τ sig) (V2 m (outsM m) c) ∗ R c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := (0 : Fin 11)) (pcfgs (F := F)) adm (pdatsM m) launch0.win launch0.arr_whole c
      ((pdatsM m (0 : Fin 11) c).share_full fun w => share0 (fun c b => V1 m c b) c w) (fun b => V1 m c b)
      fun w => A_eq0 (fun c b => V1 m c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Entails.of_eq (Phi0 (fun c b => V1 m c b) c 0).symm)
    unfold Pipeline.ΦA
    iintro ⟨Hp, -, Hr⟩
    isplitl [Hr]; · iexact Hr
    iexact Hp
  hout c := by
    rw [Pipeline.ownSems0_none]
    refine BIBase.Entails.trans (Entails.of_eq (Phi0 (fun c b => V1 m c b) c (Fin.last cfg0.N))) ?_
    unfold Pipeline.ΦA
    iintro ⟨Hr, Hp⟩
    isplitl [Hp]; · iexact Hp
    isplitr; · iempintro
    iexact Hr
  hexit c := by
    have hjoin := Pipeline.unscopedBufs_of_arrays (p := (0 : Fin 11)) (pcfgs (F := F)) adm (Ix := Unit) (Name := ℕ) (U := UR sig nD τ) (Lvl := ℕ)
      launch0.win launch0.arr_whole c (pdatsM m) ((pdatsM m (0 : Fin 11) c).share_full fun w => share0 (fun c b => V1 m c b) c w)
      (fun b => V1 m c b) (fun b => V2 m (outsM m) c b) ((pdatsM m (0 : Fin 11) c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg0_pre (c : Dev nD) : (reg0 m).pre c = iprop(StableHlo.held (c : Thread nD τ) (Pipeline.ucRefs τ sig) (V1 m c) ∗ R c) := rfl

theorem reg0_post (c : Dev nD) : (reg0 m).post c = iprop(StableHlo.held (c : Thread nD τ) (Pipeline.ucRefs τ sig) (V2 m (outsM m) c) ∗ R c) := rfl

end Cert.Kernel.Fr

end
-- ==== Proof.KB.Reg1.lean ====
/- (proof/Proof/KI/Reg1.lean with the word-level program's namespace and module names put for the idealized program's; nothing else changed) -/
import proofs.«109160_j26783416057954_1_alg».proof.Proof.KB.Base
import proofs.«109160_j26783416057954_1_alg».proof.Proof.KB.Ap1s

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem arrImage1 : Finset.univ.image (Pipeline.arrRef spec1) = {main_arg1, main_v2, main_v3} := by decide

theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_v2) ↦{fullShare} V main_v2)
          ∗ (((c : Thread nD τ).loc main_v3) ↦{fullShare} V main_v3)) := by
  unfold Pipeline.arrBufs
  rw [arrImage1, bigSep_insert (by decide), bigSep_insert (by decide), bigSep_singleton]
  rfl

theorem arrays1s_eq (c : Dev nD) (d : Dat τ (Elt F) Unit ℕ (UR sig nD τ) ℕ cfg1 c) (hq : d.q = q1s)
    (G : (w : Fin cfg1.W) → Buf (Elt F) ((cfg1.win w).arr.view.loc (c : Thread nD τ))) :
    (d.arrays G : sProp 𝕄)
      = iprop((((c : Thread nD τ).loc main_arg1) ↦{fullShare} G 0) ∗ (((c : Thread nD τ).loc main_v2) ↦{fullShare.left} G 1)
          ∗ (((c : Thread nD τ).loc main_v2) ↦{fullShare.right} G 2) ∗ (((c : Thread nD τ).loc main_v3) ↦{fullShare} G 3)) := by
  unfold Dat.arrays
  rw [bigSep_W1]
  have h0 : d.share 0 = fullShare := by unfold Dat.share; rw [hq]; rfl
  have h1 : d.share 1 = fullShare.left := by unfold Dat.share; rw [hq]; rfl
  have h2 : d.share 2 = fullShare.right := by unfold Dat.share; rw [hq]; rfl
  have h3 : d.share 3 = fullShare := by unfold Dat.share; rfl
  have e : ∀ w, (cfg1.win w).arr.view.set = Finset.univ := fun w => (arr_whole1 w).set_eq_univ
  rw [h0, h1, h2, h3, e 0, e 1, e 3]

theorem arrays1s_of_unscopedBufs (c : Dev nD) (d : Dat τ (Elt F) Unit ℕ (UR sig nD τ) ℕ cfg1 c) (hq : d.q = q1s)
    (V : (b : Ref sig .tc) → Buf (Elt F) ((c : Thread nD τ).loc b)) (hA : ∀ w, d.A w = V (Pipeline.arrRef spec1 w)) :
    (unscopedBufs (Ix := Unit) (Name := ℕ) (U := UR sig nD τ) (Lvl := ℕ) c V : sProp 𝕄)
      ⊢ iprop(d.arrays (d.arrAt · 0) ∗ Pipeline.unscopedRest (Ix := Unit) (Name := ℕ) (U := UR sig nD τ) (Lvl := ℕ) spec1 c V) := by
  rw [show (unscopedBufs (Ix := Unit) (Name := ℕ) (U := UR sig nD τ) (Lvl := ℕ) c V : sProp 𝕄) = iprop(Pipeline.arrBufs spec1 c V ∗ Pipeline.unscopedRest spec1 c V)
      from Pipeline.unscopedBufs_split₀ cfgs 1 winFacts₀1.arr_unscoped c V, arrBufs1_eq, arrays1s_eq c d hq,
    show d.arrAt 0 0 = V main_arg1 from hA 0, show d.arrAt 1 0 = V main_v2 from hA 1, show d.arrAt 2 0 = V main_v2 from hA 2,
    show d.arrAt 3 0 = V main_v3 from hA 3]
  iintro ⟨⟨Ha, Hv, Ho⟩, Hr⟩
  ihave Hs := (pointsTo_share (PosShare.mem_left_op_right fullShare)).1 $$ Hv
  icases Hs with ⟨Hl, Hrt⟩
  isplitr [Hr]
  · isplitl [Ha]; · iexact Ha
    isplitl [Hl]; · iexact Hl
    isplitl [Hrt]; · iexact Hrt
    iexact Ho
  iexact Hr

theorem unscopedBufs_of_arrays1s (c : Dev nD) (d : Dat τ (Elt F) Unit ℕ (UR sig nD τ) ℕ cfg1 c) (hq : d.q = q1s)
    (V V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w))
    (hrest : ∀ b, b ∉ Finset.univ.image (Pipeline.arrRef spec1) → V' b = V b) :
    iprop(d.arrays G ∗ Pipeline.unscopedRest (Ix := Unit) (Name := ℕ) (U := UR sig nD τ) (Lvl := ℕ) spec1 c V)
      ⊢ (unscopedBufs (Ix := Unit) (Name := ℕ) (U := UR sig nD τ) (Lvl := ℕ) c V' : sProp 𝕄) := by
  have hr : (Pipeline.unscopedRest (Ix := Unit) (Name := ℕ) (U := UR sig nD τ) (Lvl := ℕ) spec1 c V : sProp 𝕄)
      = Pipeline.unscopedRest (Ix := Unit) (Name := ℕ) (U := UR sig nD τ) (Lvl := ℕ) spec1 c V' := by
    unfold Pipeline.unscopedRest
    exact bigSep_congr fun b hb => by rw [hrest b (Finset.mem_sdiff.mp hb).2]
  rw [show (unscopedBufs (Ix := Unit) (Name := ℕ) (U := UR sig nD τ) (Lvl := ℕ) c V' : sProp 𝕄) = iprop(Pipeline.arrBufs spec1 c V' ∗ Pipeline.unscopedRest spec1 c V')
      from Pipeline.unscopedBufs_split₀ cfgs 1 winFacts₀1.arr_unscoped c V', arrBufs1_eq, arrays1s_eq c d hq, hr,
    show G 0 = V' main_arg1 from hG 0, show G 1 = V' main_v2 from hG 1, show G 2 = V' main_v2 from hG 2, show G 3 = V' main_v3 from hG 3]
  iintro ⟨⟨Ha, Hl, Hrt, Ho⟩, Hr⟩
  ihave Hv := (pointsTo_share (PosShare.mem_left_op_right fullShare)).2 $$ [Hl Hrt]
  · isplitl [Hl] <;> iassumption
  isplitr [Hr]
  · isplitl [Ha]; · iexact Ha
    isplitl [Hv]; · iexact Hv
    iexact Ho
  iexact Hr

variable (m : (ℓ : Loc nD τ sig) → Buf (Elt F) ℓ) (outs : Gen.Outs (F := F))

set_option backward.isDefEq.respectTransparency.types false in

def reg1 (pdats : (p : Fin 11) → (c : Dev nD) → Dat τ (Elt F) Unit ℕ (UR sig nD τ) ℕ (cfgs p) c)
    (hp : ∀ c, pdats 1 c = dat1s (fun c b => V2 m outs c b) c)
    (ho : ∀ c, outs 3 main_v3 c = (pdats 1 c).arrAt 3 cfg1.N) :
    Pipeline.RegionSeg (pcfgs (F := F)) adm pdats () defs₀ Variants.none L lv 1 where
  win := winFacts₀1
  block_pos := block_pos1
  stage_whole := stage_whole1
  K := PEmpty
  osem k := k.elim
  ho := Pipeline.OwnSemFacts.none _
  hbody c := by rw [hp c]; exact (body_obligation1s _ c).loose
  hwaits := Pipeline.hwaits_of_owed_zero _ _ _ _ L lv 1 fun c t => by rw [hp c]; exact owed1s _ c t
  pre c := iprop(StableHlo.held (c : Thread nD τ) (Pipeline.ucRefs τ sig) (V2 m outs c) ∗ R c)
  post c := iprop(StableHlo.held (c : Thread nD τ) (Pipeline.ucRefs τ sig) (V3 m outs c) ∗ R c)
  X c := iprop(∃ r, prngReg c r)
  Y c := iprop(∃ r, prngReg c r)
  Z c := Pipeline.unscopedRest (Ix := Unit) (Name := ℕ) (U := UR sig nD τ) (Lvl := ℕ) spec1 c (fun b => V2 m outs c b)
  hentry c := by
    rw [Pipeline.ownSems0_none, hp c]
    have hsplit := arrays1s_of_unscopedBufs c (dat1s (fun c b => V2 m outs c b) c) rfl (fun b => V2 m outs c b)
      (fun w => A_eq1s (fun c b => V2 m outs c b) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hp c]
    refine BIBase.Entails.trans ?_ (hin1s (fun c b => V2 m outs c b) c)
    unfold Pipeline.ΦA
    iintro ⟨Hp, -, Hr⟩
    isplitl [Hr]; · iexact Hr
    iexact Hp
  hout c := by
    rw [Pipeline.ownSems0_none, hp c]
    refine BIBase.Entails.trans (hout1s (fun c b => V2 m outs c b) c) ?_
    unfold Pipeline.ΦA
    iintro ⟨Hr, Hp⟩
    isplitl [Hp]; · iexact Hp
    isplitr; · iempintro
    iexact Hr
  hexit c := by
    have ho' := ho c
    rw [hp c] at ho' ⊢
    have hG : ∀ w : Fin cfg1.W, (dat1s (fun c b => V2 m outs c b) c).arrAt w cfg1.N = V3 m outs c (Pipeline.arrRef spec1 w) := fun
      | 0 => (Dat.arrAt_in (dat1s (fun c b => V2 m outs c b) c) 0 rfl cfg1.N).trans
          ((A_eq1s (fun c b => V2 m outs c b) c 0).trans (V3_of m outs c main_arg1 (by decide)).symm)
      | 1 => (Dat.arrAt_in (dat1s (fun c b => V2 m outs c b) c) 1 rfl cfg1.N).trans
          ((A_eq1s (fun c b => V2 m outs c b) c 1).trans (V3_of m outs c main_v2 (by decide)).symm)
      | 2 => (Dat.arrAt_in (dat1s (fun c b => V2 m outs c b) c) 2 rfl cfg1.N).trans
          ((A_eq1s (fun c b => V2 m outs c b) c 2).trans (V3_of m outs c main_v2 (by decide)).symm)
      | 3 => ho'.symm.trans (Function.update_self (β := fun b : DevRef τ sig => b.ty.Contents (Elt F)) _ _ _).symm
      | ⟨_ + 4, h⟩ => absurd h (Nat.not_lt.2 (Nat.le_add_left _ _))
    have hrest : ∀ b, b ∉ Finset.univ.image (Pipeline.arrRef spec1) → V3 m outs c b = V2 m outs c b := fun b hb =>
      V3_of m outs c b fun h => hb (by
        rw [List.mem_singleton.mp h]; exact Finset.mem_image.mpr ⟨3, Finset.mem_univ _, rfl⟩)
    have hjoin := unscopedBufs_of_arrays1s c (dat1s (fun c b => V2 m outs c b) c) rfl (fun b => V2 m outs c b) (fun b => V3 m outs c b)
      ((dat1s (fun c b => V2 m outs c b) c).arrAt · cfg1.N) hG hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg1_pre (pdats : (p : Fin 11) → (c : Dev nD) → Dat τ (Elt F) Unit ℕ (UR sig nD τ) ℕ (cfgs p) c)
    (hp : ∀ c, pdats 1 c = dat1s (fun c b => V2 m outs c b) c) (ho : ∀ c, outs 3 main_v3 c = (pdats 1 c).arrAt 3 cfg1.N) (c : Dev nD) :
    (reg1 m outs pdats hp ho).pre c = iprop(StableHlo.held (c : Thread nD τ) (Pipeline.ucRefs τ sig) (V2 m outs c) ∗ R c) := rfl
theorem reg1_post (pdats : (p : Fin 11) → (c : Dev nD) → Dat τ (Elt F) Unit ℕ (UR sig nD τ) ℕ (cfgs p) c)
    (hp : ∀ c, pdats 1 c = dat1s (fun c b => V2 m outs c b) c) (ho : ∀ c, outs 3 main_v3 c = (pdats 1 c).arrAt 3 cfg1.N) (c : Dev nD) :
    (reg1 m outs pdats hp ho).post c = iprop(StableHlo.held (c : Thread nD τ) (Pipeline.ucRefs τ sig) (V3 m outs c) ∗ R c) := rfl

end Cert.Kernel.Fr

end
-- ==== Proof.KB.Reg2.lean ====
/- (proof/Proof/KI/Reg2.lean with the word-level program's namespace and module names put for the idealized program's; nothing else changed) -/
import proofs.«109160_j26783416057954_1_alg».proof.Proof.KB.Pdats

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
noncomputable def reg2 : Pipeline.RegionSeg (pcfgs (F := F)) adm (pdatsM m) () defs₀ Variants.none L lv (2 : Fin 11) where
  win := launch2.win.to₀
  block_pos := launch2.block_pos
  stage_whole := launch2.stage_whole
  K := PEmpty
  osem k := k.elim
  ho := Pipeline.OwnSemFacts.none _
  hbody c := (body_obligation2 (fun c b => V3 m (outsM m) c b) c).loose
  hwaits := Pipeline.hwaits_of_owed_zero _ _ _ _ L lv (2 : Fin 11) fun c t => owed2 (fun c b => V3 m (outsM m) c b) c t
  pre c := iprop(StableHlo.held (c : Thread nD τ) (Pipeline.ucRefs τ sig) (V3 m (outsM m) c) ∗ R c)
  post c := iprop(StableHlo.held (c : Thread nD τ) (Pipeline.ucRefs τ sig) (V4 m (outsM m) c) ∗ R c)
  X c := iprop(∃ r, prngReg c r)
  Y c := iprop(∃ r, prngReg c r)
  Z c := Pipeline.unscopedRest (Ix := Unit) (Name := ℕ) (U := UR sig nD τ) (Lvl := ℕ) spec2 c (fun b => V3 m (outsM m) c b)
  hentry c := by
    rw [Pipeline.ownSems0_none]
    have hsplit := Pipeline.arrays_of_unscopedBufs (p := (2 : Fin 11)) (pcfgs (F := F)) adm (pdatsM m) launch2.win launch2.arr_whole c
      ((pdatsM m (2 : Fin 11) c).share_full fun w => share2 (fun c b => V3 m (outsM m) c b) c w) (fun b => V3 m (outsM m) c b)
      fun w => A_eq2 (fun c b => V3 m (outsM m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (fun c b => V3 m (outsM m) c b) c)
    unfold Pipeline.ΦA
    iintro ⟨Hp, -, Hr⟩
    isplitl [Hr]; · iexact Hr
    iexact Hp
  hout c := by
    rw [Pipeline.ownSems0_none]
    refine BIBase.Entails.trans (hout2 (fun c b => V3 m (outsM m) c b) c) ?_
    unfold Pipeline.ΦA
    iintro ⟨Hr, Hp⟩
    isplitl [Hp]; · iexact Hp
    isplitr; · iempintro
    iexact Hr
  hexit c := by
    have hjoin := Pipeline.unscopedBufs_of_arrays (p := (2 : Fin 11)) (pcfgs (F := F)) adm (Ix := Unit) (Name := ℕ) (U := UR sig nD τ) (Lvl := ℕ)
      launch2.win launch2.arr_whole c (pdatsM m) ((pdatsM m (2 : Fin 11) c).share_full fun w => share2 (fun c b => V3 m (outsM m) c b) c w)
      (fun b => V3 m (outsM m) c b) (fun b => V4 m (outsM m) c b) ((pdatsM m (2 : Fin 11) c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg2_pre (c : Dev nD) : (reg2 m).pre c = iprop(StableHlo.held (c : Thread nD τ) (Pipeline.ucRefs τ sig) (V3 m (outsM m) c) ∗ R c) := rfl

theorem reg2_post (c : Dev nD) : (reg2 m).post c = iprop(StableHlo.held (c : Thread nD τ) (Pipeline.ucRefs τ sig) (V4 m (outsM m) c) ∗ R c) := rfl

end Cert.Kernel.Fr

end
-- ==== Proof.KB.Reg3.lean ====
/- (proof/Proof/KI/Reg3.lean with the word-level program's namespace and module names put for the idealized program's; nothing else changed) -/
import proofs.«109160_j26783416057954_1_alg».proof.Proof.KB.Pdats

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
noncomputable def reg3 : Pipeline.RegionSeg (pcfgs (F := F)) adm (pdatsM m) () defs₀ Variants.none L lv (3 : Fin 11) where
  win := launch3.win.to₀
  block_pos := launch3.block_pos
  stage_whole := launch3.stage_whole
  K := PEmpty
  osem k := k.elim
  ho := Pipeline.OwnSemFacts.none _
  hbody c := (body_obligation3 (fun c b => V4 m (outsM m) c b) c).loose
  hwaits := Pipeline.hwaits_of_owed_zero _ _ _ _ L lv (3 : Fin 11) fun c t => owed3 (fun c b => V4 m (outsM m) c b) c t
  pre c := iprop(StableHlo.held (c : Thread nD τ) (Pipeline.ucRefs τ sig) (V4 m (outsM m) c) ∗ R c)
  post c := iprop(StableHlo.held (c : Thread nD τ) (Pipeline.ucRefs τ sig) (V5 m (outsM m) c) ∗ R c)
  X c := iprop(∃ r, prngReg c r)
  Y c := iprop(∃ r, prngReg c r)
  Z c := Pipeline.unscopedRest (Ix := Unit) (Name := ℕ) (U := UR sig nD τ) (Lvl := ℕ) spec3 c (fun b => V4 m (outsM m) c b)
  hentry c := by
    rw [Pipeline.ownSems0_none]
    have hsplit := Pipeline.arrays_of_unscopedBufs (p := (3 : Fin 11)) (pcfgs (F := F)) adm (pdatsM m) launch3.win launch3.arr_whole c
      ((pdatsM m (3 : Fin 11) c).share_full fun w => share3 (fun c b => V4 m (outsM m) c b) c w) (fun b => V4 m (outsM m) c b)
      fun w => A_eq3 (fun c b => V4 m (outsM m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (fun c b => V4 m (outsM m) c b) c)
    unfold Pipeline.ΦA
    iintro ⟨Hp, -, Hr⟩
    isplitl [Hr]; · iexact Hr
    iexact Hp
  hout c := by
    rw [Pipeline.ownSems0_none]
    refine BIBase.Entails.trans (hout3 (fun c b => V4 m (outsM m) c b) c) ?_
    unfold Pipeline.ΦA
    iintro ⟨Hr, Hp⟩
    isplitl [Hp]; · iexact Hp
    isplitr; · iempintro
    iexact Hr
  hexit c := by
    have hjoin := Pipeline.unscopedBufs_of_arrays (p := (3 : Fin 11)) (pcfgs (F := F)) adm (Ix := Unit) (Name := ℕ) (U := UR sig nD τ) (Lvl := ℕ)
      launch3.win launch3.arr_whole c (pdatsM m) ((pdatsM m (3 : Fin 11) c).share_full fun w => share3 (fun c b => V4 m (outsM m) c b) c w)
      (fun b => V4 m (outsM m) c b) (fun b => V5 m (outsM m) c b) ((pdatsM m (3 : Fin 11) c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg3_pre (c : Dev nD) : (reg3 m).pre c = iprop(StableHlo.held (c : Thread nD τ) (Pipeline.ucRefs τ sig) (V4 m (outsM m) c) ∗ R c) := rfl

theorem reg3_post (c : Dev nD) : (reg3 m).post c = iprop(StableHlo.held (c : Thread nD τ) (Pipeline.ucRefs τ sig) (V5 m (outsM m) c) ∗ R c) := rfl

end Cert.Kernel.Fr

end
-- ==== Proof.KB.Reg4.lean ====
/- (proof/Proof/KI/Reg4.lean with the word-level program's namespace and module names put for the idealized program's; nothing else changed) -/
import proofs.«109160_j26783416057954_1_alg».proof.Proof.KB.Pdats

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
noncomputable def reg4 : Pipeline.RegionSeg (pcfgs (F := F)) adm (pdatsM m) () defs₀ Variants.none L lv (4 : Fin 11) where
  win := launch4.win.to₀
  block_pos := launch4.block_pos
  stage_whole := launch4.stage_whole
  K := PEmpty
  osem k := k.elim
  ho := Pipeline.OwnSemFacts.none _
  hbody c := (body_obligation4 (fun c b => V5 m (outsM m) c b) c).loose
  hwaits := Pipeline.hwaits_of_owed_zero _ _ _ _ L lv (4 : Fin 11) fun c t => owed4 (fun c b => V5 m (outsM m) c b) c t
  pre c := iprop(StableHlo.held (c : Thread nD τ) (Pipeline.ucRefs τ sig) (V5 m (outsM m) c) ∗ R c)
  post c := iprop(StableHlo.held (c : Thread nD τ) (Pipeline.ucRefs τ sig) (V6 m (outsM m) c) ∗ R c)
  X c := iprop(∃ r, prngReg c r)
  Y c := iprop(∃ r, prngReg c r)
  Z c := Pipeline.unscopedRest (Ix := Unit) (Name := ℕ) (U := UR sig nD τ) (Lvl := ℕ) spec4 c (fun b => V5 m (outsM m) c b)
  hentry c := by
    rw [Pipeline.ownSems0_none]
    have hsplit := Pipeline.arrays_of_unscopedBufs (p := (4 : Fin 11)) (pcfgs (F := F)) adm (pdatsM m) launch4.win launch4.arr_whole c
      ((pdatsM m (4 : Fin 11) c).share_full fun w => share4 (fun c b => V5 m (outsM m) c b) c w) (fun b => V5 m (outsM m) c b)
      fun w => A_eq4 (fun c b => V5 m (outsM m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (fun c b => V5 m (outsM m) c b) c)
    unfold Pipeline.ΦA
    iintro ⟨Hp, -, Hr⟩
    isplitl [Hr]; · iexact Hr
    iexact Hp
  hout c := by
    rw [Pipeline.ownSems0_none]
    refine BIBase.Entails.trans (hout4 (fun c b => V5 m (outsM m) c b) c) ?_
    unfold Pipeline.ΦA
    iintro ⟨Hr, Hp⟩
    isplitl [Hp]; · iexact Hp
    isplitr; · iempintro
    iexact Hr
  hexit c := by
    have hjoin := Pipeline.unscopedBufs_of_arrays (p := (4 : Fin 11)) (pcfgs (F := F)) adm (Ix := Unit) (Name := ℕ) (U := UR sig nD τ) (Lvl := ℕ)
      launch4.win launch4.arr_whole c (pdatsM m) ((pdatsM m (4 : Fin 11) c).share_full fun w => share4 (fun c b => V5 m (outsM m) c b) c w)
      (fun b => V5 m (outsM m) c b) (fun b => V6 m (outsM m) c b) ((pdatsM m (4 : Fin 11) c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg4_pre (c : Dev nD) : (reg4 m).pre c = iprop(StableHlo.held (c : Thread nD τ) (Pipeline.ucRefs τ sig) (V5 m (outsM m) c) ∗ R c) := rfl

theorem reg4_post (c : Dev nD) : (reg4 m).post c = iprop(StableHlo.held (c : Thread nD τ) (Pipeline.ucRefs τ sig) (V6 m (outsM m) c) ∗ R c) := rfl

end Cert.Kernel.Fr

end
-- ==== Proof.KB.Reg5.lean ====
/- (proof/Proof/KI/Reg5.lean with the word-level program's namespace and module names put for the idealized program's; nothing else changed) -/
import proofs.«109160_j26783416057954_1_alg».proof.Proof.KB.Pdats

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
noncomputable def reg5 : Pipeline.RegionSeg (pcfgs (F := F)) adm (pdatsM m) () defs₀ Variants.none L lv (5 : Fin 11) where
  win := launch5.win.to₀
  block_pos := launch5.block_pos
  stage_whole := launch5.stage_whole
  K := PEmpty
  osem k := k.elim
  ho := Pipeline.OwnSemFacts.none _
  hbody c := (body_obligation5 (fun c b => V6 m (outsM m) c b) c).loose
  hwaits := Pipeline.hwaits_of_owed_zero _ _ _ _ L lv (5 : Fin 11) fun c t => owed5 (fun c b => V6 m (outsM m) c b) c t
  pre c := iprop(StableHlo.held (c : Thread nD τ) (Pipeline.ucRefs τ sig) (V6 m (outsM m) c) ∗ R c)
  post c := iprop(StableHlo.held (c : Thread nD τ) (Pipeline.ucRefs τ sig) (V7 m (outsM m) c) ∗ R c)
  X c := iprop(∃ r, prngReg c r)
  Y c := iprop(∃ r, prngReg c r)
  Z c := Pipeline.unscopedRest (Ix := Unit) (Name := ℕ) (U := UR sig nD τ) (Lvl := ℕ) spec5 c (fun b => V6 m (outsM m) c b)
  hentry c := by
    rw [Pipeline.ownSems0_none]
    have hsplit := Pipeline.arrays_of_unscopedBufs (p := (5 : Fin 11)) (pcfgs (F := F)) adm (pdatsM m) launch5.win launch5.arr_whole c
      ((pdatsM m (5 : Fin 11) c).share_full fun w => share5 (fun c b => V6 m (outsM m) c b) c w) (fun b => V6 m (outsM m) c b)
      fun w => A_eq5 (fun c b => V6 m (outsM m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (fun c b => V6 m (outsM m) c b) c)
    unfold Pipeline.ΦA
    iintro ⟨Hp, -, Hr⟩
    isplitl [Hr]; · iexact Hr
    iexact Hp
  hout c := by
    rw [Pipeline.ownSems0_none]
    refine BIBase.Entails.trans (hout5 (fun c b => V6 m (outsM m) c b) c) ?_
    unfold Pipeline.ΦA
    iintro ⟨Hr, Hp⟩
    isplitl [Hp]; · iexact Hp
    isplitr; · iempintro
    iexact Hr
  hexit c := by
    have hjoin := Pipeline.unscopedBufs_of_arrays (p := (5 : Fin 11)) (pcfgs (F := F)) adm (Ix := Unit) (Name := ℕ) (U := UR sig nD τ) (Lvl := ℕ)
      launch5.win launch5.arr_whole c (pdatsM m) ((pdatsM m (5 : Fin 11) c).share_full fun w => share5 (fun c b => V6 m (outsM m) c b) c w)
      (fun b => V6 m (outsM m) c b) (fun b => V7 m (outsM m) c b) ((pdatsM m (5 : Fin 11) c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg5_pre (c : Dev nD) : (reg5 m).pre c = iprop(StableHlo.held (c : Thread nD τ) (Pipeline.ucRefs τ sig) (V6 m (outsM m) c) ∗ R c) := rfl

theorem reg5_post (c : Dev nD) : (reg5 m).post c = iprop(StableHlo.held (c : Thread nD τ) (Pipeline.ucRefs τ sig) (V7 m (outsM m) c) ∗ R c) := rfl

end Cert.Kernel.Fr

end
-- ==== Proof.KB.Reg6.lean ====
/- (proof/Proof/KI/Reg6.lean with the word-level program's namespace and module names put for the idealized program's; nothing else changed) -/
import proofs.«109160_j26783416057954_1_alg».proof.Proof.KB.Pdats

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
noncomputable def reg6 : Pipeline.RegionSeg (pcfgs (F := F)) adm (pdatsM m) () defs₀ Variants.none L lv (6 : Fin 11) where
  win := launch6.win.to₀
  block_pos := launch6.block_pos
  stage_whole := launch6.stage_whole
  K := PEmpty
  osem k := k.elim
  ho := Pipeline.OwnSemFacts.none _
  hbody c := (body_obligation6 (fun c b => V7 m (outsM m) c b) c).loose
  hwaits := Pipeline.hwaits_of_owed_zero _ _ _ _ L lv (6 : Fin 11) fun c t => owed6 (fun c b => V7 m (outsM m) c b) c t
  pre c := iprop(StableHlo.held (c : Thread nD τ) (Pipeline.ucRefs τ sig) (V7 m (outsM m) c) ∗ R c)
  post c := iprop(StableHlo.held (c : Thread nD τ) (Pipeline.ucRefs τ sig) (V8 m (outsM m) c) ∗ R c)
  X c := iprop(∃ r, prngReg c r)
  Y c := iprop(∃ r, prngReg c r)
  Z c := Pipeline.unscopedRest (Ix := Unit) (Name := ℕ) (U := UR sig nD τ) (Lvl := ℕ) spec6 c (fun b => V7 m (outsM m) c b)
  hentry c := by
    rw [Pipeline.ownSems0_none]
    have hsplit := Pipeline.arrays_of_unscopedBufs (p := (6 : Fin 11)) (pcfgs (F := F)) adm (pdatsM m) launch6.win launch6.arr_whole c
      ((pdatsM m (6 : Fin 11) c).share_full fun w => share6 (fun c b => V7 m (outsM m) c b) c w) (fun b => V7 m (outsM m) c b)
      fun w => A_eq6 (fun c b => V7 m (outsM m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin6 (fun c b => V7 m (outsM m) c b) c)
    unfold Pipeline.ΦA
    iintro ⟨Hp, -, Hr⟩
    isplitl [Hr]; · iexact Hr
    iexact Hp
  hout c := by
    rw [Pipeline.ownSems0_none]
    refine BIBase.Entails.trans (hout6 (fun c b => V7 m (outsM m) c b) c) ?_
    unfold Pipeline.ΦA
    iintro ⟨Hr, Hp⟩
    isplitl [Hp]; · iexact Hp
    isplitr; · iempintro
    iexact Hr
  hexit c := by
    have hjoin := Pipeline.unscopedBufs_of_arrays (p := (6 : Fin 11)) (pcfgs (F := F)) adm (Ix := Unit) (Name := ℕ) (U := UR sig nD τ) (Lvl := ℕ)
      launch6.win launch6.arr_whole c (pdatsM m) ((pdatsM m (6 : Fin 11) c).share_full fun w => share6 (fun c b => V7 m (outsM m) c b) c w)
      (fun b => V7 m (outsM m) c b) (fun b => V8 m (outsM m) c b) ((pdatsM m (6 : Fin 11) c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg6_pre (c : Dev nD) : (reg6 m).pre c = iprop(StableHlo.held (c : Thread nD τ) (Pipeline.ucRefs τ sig) (V7 m (outsM m) c) ∗ R c) := rfl

theorem reg6_post (c : Dev nD) : (reg6 m).post c = iprop(StableHlo.held (c : Thread nD τ) (Pipeline.ucRefs τ sig) (V8 m (outsM m) c) ∗ R c) := rfl

end Cert.Kernel.Fr

end
-- ==== Proof.KB.Reg7.lean ====
/- (proof/Proof/KI/Reg7.lean with the word-level program's namespace and module names put for the idealized program's; nothing else changed) -/
import proofs.«109160_j26783416057954_1_alg».proof.Proof.KB.Pdats

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
noncomputable def reg7 : Pipeline.RegionSeg (pcfgs (F := F)) adm (pdatsM m) () defs₀ Variants.none L lv (7 : Fin 11) where
  win := launch7.win.to₀
  block_pos := launch7.block_pos
  stage_whole := launch7.stage_whole
  K := PEmpty
  osem k := k.elim
  ho := Pipeline.OwnSemFacts.none _
  hbody c := (body_obligation7 (fun c b => V8 m (outsM m) c b) c).loose
  hwaits := Pipeline.hwaits_of_owed_zero _ _ _ _ L lv (7 : Fin 11) fun c t => owed7 (fun c b => V8 m (outsM m) c b) c t
  pre c := iprop(StableHlo.held (c : Thread nD τ) (Pipeline.ucRefs τ sig) (V8 m (outsM m) c) ∗ R c)
  post c := iprop(StableHlo.held (c : Thread nD τ) (Pipeline.ucRefs τ sig) (V9 m (outsM m) c) ∗ R c)
  X c := iprop(∃ r, prngReg c r)
  Y c := iprop(∃ r, prngReg c r)
  Z c := Pipeline.unscopedRest (Ix := Unit) (Name := ℕ) (U := UR sig nD τ) (Lvl := ℕ) spec7 c (fun b => V8 m (outsM m) c b)
  hentry c := by
    rw [Pipeline.ownSems0_none]
    have hsplit := Pipeline.arrays_of_unscopedBufs (p := (7 : Fin 11)) (pcfgs (F := F)) adm (pdatsM m) launch7.win launch7.arr_whole c
      ((pdatsM m (7 : Fin 11) c).share_full fun w => share7 (fun c b => V8 m (outsM m) c b) c w) (fun b => V8 m (outsM m) c b)
      fun w => A_eq7 (fun c b => V8 m (outsM m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin7 (fun c b => V8 m (outsM m) c b) c)
    unfold Pipeline.ΦA
    iintro ⟨Hp, -, Hr⟩
    isplitl [Hr]; · iexact Hr
    iexact Hp
  hout c := by
    rw [Pipeline.ownSems0_none]
    refine BIBase.Entails.trans (hout7 (fun c b => V8 m (outsM m) c b) c) ?_
    unfold Pipeline.ΦA
    iintro ⟨Hr, Hp⟩
    isplitl [Hp]; · iexact Hp
    isplitr; · iempintro
    iexact Hr
  hexit c := by
    have hjoin := Pipeline.unscopedBufs_of_arrays (p := (7 : Fin 11)) (pcfgs (F := F)) adm (Ix := Unit) (Name := ℕ) (U := UR sig nD τ) (Lvl := ℕ)
      launch7.win launch7.arr_whole c (pdatsM m) ((pdatsM m (7 : Fin 11) c).share_full fun w => share7 (fun c b => V8 m (outsM m) c b) c w)
      (fun b => V8 m (outsM m) c b) (fun b => V9 m (outsM m) c b) ((pdatsM m (7 : Fin 11) c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg7_pre (c : Dev nD) : (reg7 m).pre c = iprop(StableHlo.held (c : Thread nD τ) (Pipeline.ucRefs τ sig) (V8 m (outsM m) c) ∗ R c) := rfl

theorem reg7_post (c : Dev nD) : (reg7 m).post c = iprop(StableHlo.held (c : Thread nD τ) (Pipeline.ucRefs τ sig) (V9 m (outsM m) c) ∗ R c) := rfl

end Cert.Kernel.Fr

end
-- ==== Proof.KB.Reg8.lean ====
/- (proof/Proof/KI/Reg8.lean with the word-level program's namespace and module names put for the idealized program's; nothing else changed) -/
import proofs.«109160_j26783416057954_1_alg».proof.Proof.KB.Pdats

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
noncomputable def reg8 : Pipeline.RegionSeg (pcfgs (F := F)) adm (pdatsM m) () defs₀ Variants.none L lv (8 : Fin 11) where
  win := launch8.win.to₀
  block_pos := launch8.block_pos
  stage_whole := launch8.stage_whole
  K := PEmpty
  osem k := k.elim
  ho := Pipeline.OwnSemFacts.none _
  hbody c := (body_obligation8 (fun c b => V9 m (outsM m) c b) c).loose
  hwaits := Pipeline.hwaits_of_owed_zero _ _ _ _ L lv (8 : Fin 11) fun c t => owed8 (fun c b => V9 m (outsM m) c b) c t
  pre c := iprop(StableHlo.held (c : Thread nD τ) (Pipeline.ucRefs τ sig) (V9 m (outsM m) c) ∗ R c)
  post c := iprop(StableHlo.held (c : Thread nD τ) (Pipeline.ucRefs τ sig) (V10 m (outsM m) c) ∗ R c)
  X c := iprop(∃ r, prngReg c r)
  Y c := iprop(∃ r, prngReg c r)
  Z c := Pipeline.unscopedRest (Ix := Unit) (Name := ℕ) (U := UR sig nD τ) (Lvl := ℕ) spec8 c (fun b => V9 m (outsM m) c b)
  hentry c := by
    rw [Pipeline.ownSems0_none]
    have hsplit := Pipeline.arrays_of_unscopedBufs (p := (8 : Fin 11)) (pcfgs (F := F)) adm (pdatsM m) launch8.win launch8.arr_whole c
      ((pdatsM m (8 : Fin 11) c).share_full fun w => share8 (fun c b => V9 m (outsM m) c b) c w) (fun b => V9 m (outsM m) c b)
      fun w => A_eq8 (fun c b => V9 m (outsM m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin8 (fun c b => V9 m (outsM m) c b) c)
    unfold Pipeline.ΦA
    iintro ⟨Hp, -, Hr⟩
    isplitl [Hr]; · iexact Hr
    iexact Hp
  hout c := by
    rw [Pipeline.ownSems0_none]
    refine BIBase.Entails.trans (hout8 (fun c b => V9 m (outsM m) c b) c) ?_
    unfold Pipeline.ΦA
    iintro ⟨Hr, Hp⟩
    isplitl [Hp]; · iexact Hp
    isplitr; · iempintro
    iexact Hr
  hexit c := by
    have hjoin := Pipeline.unscopedBufs_of_arrays (p := (8 : Fin 11)) (pcfgs (F := F)) adm (Ix := Unit) (Name := ℕ) (U := UR sig nD τ) (Lvl := ℕ)
      launch8.win launch8.arr_whole c (pdatsM m) ((pdatsM m (8 : Fin 11) c).share_full fun w => share8 (fun c b => V9 m (outsM m) c b) c w)
      (fun b => V9 m (outsM m) c b) (fun b => V10 m (outsM m) c b) ((pdatsM m (8 : Fin 11) c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg8_pre (c : Dev nD) : (reg8 m).pre c = iprop(StableHlo.held (c : Thread nD τ) (Pipeline.ucRefs τ sig) (V9 m (outsM m) c) ∗ R c) := rfl

theorem reg8_post (c : Dev nD) : (reg8 m).post c = iprop(StableHlo.held (c : Thread nD τ) (Pipeline.ucRefs τ sig) (V10 m (outsM m) c) ∗ R c) := rfl

end Cert.Kernel.Fr

end
-- ==== Proof.KB.Reg9.lean ====
/- (proof/Proof/KI/Reg9.lean with the word-level program's namespace and module names put for the idealized program's; nothing else changed) -/
import proofs.«109160_j26783416057954_1_alg».proof.Proof.KB.Pdats

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
noncomputable def reg9 : Pipeline.RegionSeg (pcfgs (F := F)) adm (pdatsM m) () defs₀ Variants.none L lv (9 : Fin 11) where
  win := launch9.win.to₀
  block_pos := launch9.block_pos
  stage_whole := launch9.stage_whole
  K := PEmpty
  osem k := k.elim
  ho := Pipeline.OwnSemFacts.none _
  hbody c := (body_obligation9 (fun c b => V10 m (outsM m) c b) c).loose
  hwaits := Pipeline.hwaits_of_owed_zero _ _ _ _ L lv (9 : Fin 11) fun c t => owed9 (fun c b => V10 m (outsM m) c b) c t
  pre c := iprop(StableHlo.held (c : Thread nD τ) (Pipeline.ucRefs τ sig) (V10 m (outsM m) c) ∗ R c)
  post c := iprop(StableHlo.held (c : Thread nD τ) (Pipeline.ucRefs τ sig) (V11 m (outsM m) c) ∗ R c)
  X c := iprop(∃ r, prngReg c r)
  Y c := iprop(∃ r, prngReg c r)
  Z c := Pipeline.unscopedRest (Ix := Unit) (Name := ℕ) (U := UR sig nD τ) (Lvl := ℕ) spec9 c (fun b => V10 m (outsM m) c b)
  hentry c := by
    rw [Pipeline.ownSems0_none]
    have hsplit := Pipeline.arrays_of_unscopedBufs (p := (9 : Fin 11)) (pcfgs (F := F)) adm (pdatsM m) launch9.win launch9.arr_whole c
      ((pdatsM m (9 : Fin 11) c).share_full fun w => share9 (fun c b => V10 m (outsM m) c b) c w) (fun b => V10 m (outsM m) c b)
      fun w => A_eq9 (fun c b => V10 m (outsM m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin9 (fun c b => V10 m (outsM m) c b) c)
    unfold Pipeline.ΦA
    iintro ⟨Hp, -, Hr⟩
    isplitl [Hr]; · iexact Hr
    iexact Hp
  hout c := by
    rw [Pipeline.ownSems0_none]
    refine BIBase.Entails.trans (hout9 (fun c b => V10 m (outsM m) c b) c) ?_
    unfold Pipeline.ΦA
    iintro ⟨Hr, Hp⟩
    isplitl [Hp]; · iexact Hp
    isplitr; · iempintro
    iexact Hr
  hexit c := by
    have hjoin := Pipeline.unscopedBufs_of_arrays (p := (9 : Fin 11)) (pcfgs (F := F)) adm (Ix := Unit) (Name := ℕ) (U := UR sig nD τ) (Lvl := ℕ)
      launch9.win launch9.arr_whole c (pdatsM m) ((pdatsM m (9 : Fin 11) c).share_full fun w => share9 (fun c b => V10 m (outsM m) c b) c w)
      (fun b => V10 m (outsM m) c b) (fun b => V11 m (outsM m) c b) ((pdatsM m (9 : Fin 11) c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg9_pre (c : Dev nD) : (reg9 m).pre c = iprop(StableHlo.held (c : Thread nD τ) (Pipeline.ucRefs τ sig) (V10 m (outsM m) c) ∗ R c) := rfl

theorem reg9_post (c : Dev nD) : (reg9 m).post c = iprop(StableHlo.held (c : Thread nD τ) (Pipeline.ucRefs τ sig) (V11 m (outsM m) c) ∗ R c) := rfl

end Cert.Kernel.Fr

end
-- ==== Proof.KB.Reg10.lean ====
/- (proof/Proof/KI/Reg10.lean with the word-level program's namespace and module names put for the idealized program's; nothing else changed) -/
import proofs.«109160_j26783416057954_1_alg».proof.Proof.KB.Pdats

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
noncomputable def reg10 : Pipeline.RegionSeg (pcfgs (F := F)) adm (pdatsM m) () defs₀ Variants.none L lv (10 : Fin 11) where
  win := launch10.win.to₀
  block_pos := launch10.block_pos
  stage_whole := launch10.stage_whole
  K := PEmpty
  osem k := k.elim
  ho := Pipeline.OwnSemFacts.none _
  hbody c := (body_obligation10 (fun c b => V11 m (outsM m) c b) c).loose
  hwaits := Pipeline.hwaits_of_owed_zero _ _ _ _ L lv (10 : Fin 11) fun c t => owed10 (fun c b => V11 m (outsM m) c b) c t
  pre c := iprop(StableHlo.held (c : Thread nD τ) (Pipeline.ucRefs τ sig) (V11 m (outsM m) c) ∗ R c)
  post c := iprop(StableHlo.held (c : Thread nD τ) (Pipeline.ucRefs τ sig) (V12 m (outsM m) c) ∗ R c)
  X c := iprop(∃ r, prngReg c r)
  Y c := iprop(∃ r, prngReg c r)
  Z c := Pipeline.unscopedRest (Ix := Unit) (Name := ℕ) (U := UR sig nD τ) (Lvl := ℕ) spec10 c (fun b => V11 m (outsM m) c b)
  hentry c := by
    rw [Pipeline.ownSems0_none]
    have hsplit := Pipeline.arrays_of_unscopedBufs (p := (10 : Fin 11)) (pcfgs (F := F)) adm (pdatsM m) launch10.win launch10.arr_whole c
      ((pdatsM m (10 : Fin 11) c).share_full fun w => share10 (fun c b => V11 m (outsM m) c b) c w) (fun b => V11 m (outsM m) c b)
      fun w => A_eq10 (fun c b => V11 m (outsM m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin10 (fun c b => V11 m (outsM m) c b) c)
    unfold Pipeline.ΦA
    iintro ⟨Hp, -, Hr⟩
    isplitl [Hr]; · iexact Hr
    iexact Hp
  hout c := by
    rw [Pipeline.ownSems0_none]
    refine BIBase.Entails.trans (hout10 (fun c b => V11 m (outsM m) c b) c) ?_
    unfold Pipeline.ΦA
    iintro ⟨Hr, Hp⟩
    isplitl [Hp]; · iexact Hp
    isplitr; · iempintro
    iexact Hr
  hexit c := by
    have hjoin := Pipeline.unscopedBufs_of_arrays (p := (10 : Fin 11)) (pcfgs (F := F)) adm (Ix := Unit) (Name := ℕ) (U := UR sig nD τ) (Lvl := ℕ)
      launch10.win launch10.arr_whole c (pdatsM m) ((pdatsM m (10 : Fin 11) c).share_full fun w => share10 (fun c b => V11 m (outsM m) c b) c w)
      (fun b => V11 m (outsM m) c b) (fun b => V12 m (outsM m) c b) ((pdatsM m (10 : Fin 11) c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg10_pre (c : Dev nD) : (reg10 m).pre c = iprop(StableHlo.held (c : Thread nD τ) (Pipeline.ucRefs τ sig) (V11 m (outsM m) c) ∗ R c) := rfl

theorem reg10_post (c : Dev nD) : (reg10 m).post c = iprop(StableHlo.held (c : Thread nD τ) (Pipeline.ucRefs τ sig) (V12 m (outsM m) c) ∗ R c) := rfl

end Cert.Kernel.Fr

end
-- ==== Proof.KB.Run.lean ====
/- (proof/Proof/KI/Run.lean with the word-level program's namespace and module names put for the idealized program's; nothing else changed) -/
import proofs.«109160_j26783416057954_1_alg».proof.Proof.KB.RunInst
import proofs.«109160_j26783416057954_1_alg».proof.Proof.KB.Pdats
import proofs.«109160_j26783416057954_1_alg».proof.Proof.KB.Reg0
import proofs.«109160_j26783416057954_1_alg».proof.Proof.KB.Reg1
import proofs.«109160_j26783416057954_1_alg».proof.Proof.KB.Reg2
import proofs.«109160_j26783416057954_1_alg».proof.Proof.KB.Reg3
import proofs.«109160_j26783416057954_1_alg».proof.Proof.KB.Reg4
import proofs.«109160_j26783416057954_1_alg».proof.Proof.KB.Reg5
import proofs.«109160_j26783416057954_1_alg».proof.Proof.KB.Reg6
import proofs.«109160_j26783416057954_1_alg».proof.Proof.KB.Reg7
import proofs.«109160_j26783416057954_1_alg».proof.Proof.KB.Reg8
import proofs.«109160_j26783416057954_1_alg».proof.Proof.KB.Reg9
import proofs.«109160_j26783416057954_1_alg».proof.Proof.KB.Reg10

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

theorem run_main (m : (ℓ : Loc nD τ sig) → Buf (Elt F) ℓ) (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V13 m (outsM m) c b) :=
  run_inst m ρ (outsM m) (pdatsM m)
    (reg0 m) (fun _ => .rfl) (fun _ => .rfl)
    (reg1 m (outsM m) (pdatsM m) (fun _ => rfl) (out_eq1 m)) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)
    (reg7 m) (fun _ => .rfl) (fun _ => .rfl)
    (reg8 m) (fun _ => .rfl) (fun _ => .rfl)
    (reg9 m) (fun _ => .rfl) (fun _ => .rfl)
    (reg10 m) (fun _ => .rfl) (fun _ => .rfl)

theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (V13_main_arg0 m _ c),
      (h c _ (mem_uc main_arg1 (by decide))).trans (V13_main_arg1 m _ c),
      (h c _ (mem_uc main_arg2 (by decide))).trans (V13_main_arg2 m _ c),
      (h c _ (mem_uc main_arg3 (by decide))).trans (V13_main_arg3 m _ c),
      (h c _ (mem_uc main_arg4 (by decide))).trans (V13_main_arg4 m _ c),
      (h c _ (mem_uc main_arg5 (by decide))).trans (V13_main_arg5 m _ c)⟩) (run_main m ρ)

end Cert.Kernel.Fr

end
-- ==== Proof.Spec.lean ====
import Idealize.ShloMosaic.PureOps.Ideal
import Idealize.ShloMosaic.Lib.ValueIdx
import Mathlib.Algebra.BigOperators.Group.Finset.Basic

noncomputable section

namespace Cert.Spec

open Idealize.ShloMosaic Idealize.ShloMosaic.ValueIdx

abbrev Arr2 (a b : Nat) : Type := FVec Ideal ⟨2, ![a, b]⟩ .f32
abbrev Arr1 (a : Nat) : Type := FVec Ideal ⟨1, ![a]⟩ .f32

def cur2 {a b : Nat} (x : Arr2 a b) (r : Fin a) (c : Fin b) : EReal := x (ix2 r c)

def cur1 {a : Nat} (x : Arr1 a) (k : Fin a) : EReal := x (ix1 k)

def arr2 {a b : Nat} (f : Fin a → Fin b → EReal) : Arr2 a b := fun i => f (i 0) (i 1)
theorem arr2_apply {a b : Nat} (f : Fin a → Fin b → EReal) (r : Fin a) (c : Fin b) : arr2 f (ix2 r c) = f r c := rfl
theorem cur2_arr2 {a b : Nat} (f : Fin a → Fin b → EReal) : cur2 (arr2 f) = f := rfl
theorem arr2_cur2 {a b : Nat} (x : Arr2 a b) : arr2 (cur2 x) = x := by
  funext i; exact congrArg x (eq_ix2 i).symm

def w9 : EReal := Scalar.ofBits (F := Ideal) .f32 0x3F666666#32

def w1 : EReal := Scalar.ofBits (F := Ideal) .f32 0x3DCCCCCD#32

def head (h : Fin 16384 → Fin 512 → EReal) (W1 : Fin 512 → Fin 256 → EReal) (b1 : Fin 256 → EReal)
    (W2 : Fin 256 → Fin 64 → EReal) (b2 : Fin 64 → EReal) (r : Fin 16384) (c : Fin 64) : EReal :=
  (∑ k : Fin 256, ((∑ j : Fin 512, h r j * W1 j k) + b1 k) * W2 k c) + b2 c

def step (adj : Fin 16384 → Fin 16384 → EReal) (z0 z : Fin 16384 → Fin 64 → EReal) (r : Fin 16384) (c : Fin 64) : EReal :=
  w9 * (∑ k : Fin 16384, adj r k * z k c) + w1 * z0 r c

def prop10 (adj : Fin 16384 → Fin 16384 → EReal) (z0 : Fin 16384 → Fin 64 → EReal) : Fin 16384 → Fin 64 → EReal :=
  (step adj z0)^[10] z0

end Cert.Spec

end
-- ==== Proof.KI.R0Val.lean ====
import proofs.«109160_j26783416057954_1_alg».proof.Proof.KI.R0
import proofs.«109160_j26783416057954_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

abbrev D₁ := dot_S2048x512_S512x256_S2048x256_1_0_0_1_n_n

abbrev D₂ := dot_S2048x256_S256x64_S2048x64_1_0_0_1_n_n

theorem lhs₁_0 (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide),
    dif_pos (show (0 : Fin S2048x512.rank) ∈ dot_S2048x512_S512x256_S2048x256_1_0_0_1_n_n.lhsNonContracting by decide)]
  rfl
theorem lhs₁_1 (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q
theorem rhs₁_0 (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q
theorem rhs₁_1 (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide),
    dif_pos (show (1 : Fin S512x256.rank) ∈ dot_S2048x512_S512x256_S2048x256_1_0_0_1_n_n.rhsNonContracting by decide)]
  rfl

theorem lhs₂_0 (i : S2048x64.Idx) (q : dot_S2048x256_S256x64_S2048x64_1_0_0_1_n_n.contr.Idx) :
    (dot_S2048x256_S256x64_S2048x64_1_0_0_1_n_n.lhsIdx i q 0).val = (i 0).val := by
  unfold DotDims.lhsIdx
  rw [dif_neg (show ¬(0 : Fin S2048x256.rank) ∈ dot_S2048x256_S256x64_S2048x64_1_0_0_1_n_n.lhsBatch by decide),
    dif_pos (show (0 : Fin S2048x256.rank) ∈ dot_S2048x256_S256x64_S2048x64_1_0_0_1_n_n.lhsNonContracting by decide)]
  rfl
theorem lhs₂_1 (i : S2048x64.Idx) (q : dot_S2048x256_S256x64_S2048x64_1_0_0_1_n_n.contr.Idx) :
    (dot_S2048x256_S256x64_S2048x64_1_0_0_1_n_n.lhsIdx i q 1).val = (q ⟨0, by decide⟩).val :=
  dot_S2048x256_S256x64_S2048x64_1_0_0_1_n_n.lhsIdx_val_of_single rfl i q
theorem rhs₂_0 (i : S2048x64.Idx) (q : dot_S2048x256_S256x64_S2048x64_1_0_0_1_n_n.contr.Idx) :
    (dot_S2048x256_S256x64_S2048x64_1_0_0_1_n_n.rhsIdx i q 0).val = (q ⟨0, by decide⟩).val :=
  dot_S2048x256_S256x64_S2048x64_1_0_0_1_n_n.rhsIdx_val_of_single rfl i q
theorem rhs₂_1 (i : S2048x64.Idx) (q : dot_S2048x256_S256x64_S2048x64_1_0_0_1_n_n.contr.Idx) :
    (dot_S2048x256_S256x64_S2048x64_1_0_0_1_n_n.rhsIdx i q 1).val = (i 1).val := by
  unfold DotDims.rhsIdx
  rw [dif_neg (show ¬(1 : Fin S256x64.rank) ∈ dot_S2048x256_S256x64_S2048x64_1_0_0_1_n_n.rhsBatch by decide),
    dif_pos (show (1 : Fin S256x64.rank) ∈ dot_S2048x256_S256x64_S2048x64_1_0_0_1_n_n.rhsNonContracting by decide)]
  rfl

theorem mm₁_apply {φ₁ φ₂ : FTy} (x : FVec Ideal S2048x512 φ₁) (w : FVec Ideal S512x256 φ₂) (p : Fin 2048) (q : Fin 256) :
    matmul dot_S2048x512_S512x256_S2048x256_1_0_0_1_n_n none x w (constant (F := Ideal) S2048x256 .f32 0x00000000#32) (ix2 p q)
      = ∑ k : Fin 512, x (ix2 p k) * w (ix2 k q) := by
  simp only [matmul]
  rw [Ideal.matmul_constant_zero_apply, ← Equiv.sum_comp (contrEquiv1 dot_S2048x512_S512x256_S2048x256_1_0_0_1_n_n 512 rfl rfl).symm]
  refine Finset.sum_congr rfl fun k _ => ?_
  have hk := contrEquiv1_symm_val dot_S2048x512_S512x256_S2048x256_1_0_0_1_n_n 512 rfl rfl k
  have el : dot_S2048x512_S512x256_S2048x256_1_0_0_1_n_n.lhsIdx (ix2 p q) ((contrEquiv1 dot_S2048x512_S512x256_S2048x256_1_0_0_1_n_n 512 rfl rfl).symm k) = ix2 p k :=
    funext fun a => Fin.ext (by
      match a with
      | ⟨0, _⟩ => exact lhs₁_0 _ _
      | ⟨1, _⟩ => exact (lhs₁_1 _ _).trans hk)
  have er : dot_S2048x512_S512x256_S2048x256_1_0_0_1_n_n.rhsIdx (ix2 p q) ((contrEquiv1 dot_S2048x512_S512x256_S2048x256_1_0_0_1_n_n 512 rfl rfl).symm k) = ix2 k q :=
    funext fun a => Fin.ext (by
      match a with
      | ⟨0, _⟩ => exact (rhs₁_0 _ _).trans hk
      | ⟨1, _⟩ => exact rhs₁_1 _ _)
  rw [el, er]

theorem mm₂_apply {φ₁ φ₂ : FTy} (x : FVec Ideal S2048x256 φ₁) (w : FVec Ideal S256x64 φ₂) (p : Fin 2048) (n : Fin 64) :
    matmul dot_S2048x256_S256x64_S2048x64_1_0_0_1_n_n none x w (constant (F := Ideal) S2048x64 .f32 0x00000000#32) (ix2 p n)
      = ∑ k : Fin 256, x (ix2 p k) * w (ix2 k n) := by
  simp only [matmul]
  rw [Ideal.matmul_constant_zero_apply, ← Equiv.sum_comp (contrEquiv1 dot_S2048x256_S256x64_S2048x64_1_0_0_1_n_n 256 rfl rfl).symm]
  refine Finset.sum_congr rfl fun k _ => ?_
  have hk := contrEquiv1_symm_val dot_S2048x256_S256x64_S2048x64_1_0_0_1_n_n 256 rfl rfl k
  have el : dot_S2048x256_S256x64_S2048x64_1_0_0_1_n_n.lhsIdx (ix2 p n) ((contrEquiv1 dot_S2048x256_S256x64_S2048x64_1_0_0_1_n_n 256 rfl rfl).symm k) = ix2 p k :=
    funext fun a => Fin.ext (by
      match a with
      | ⟨0, _⟩ => exact lhs₂_0 _ _
      | ⟨1, _⟩ => exact (lhs₂_1 _ _).trans hk)
  have er : dot_S2048x256_S256x64_S2048x64_1_0_0_1_n_n.rhsIdx (ix2 p n) ((contrEquiv1 dot_S2048x256_S256x64_S2048x64_1_0_0_1_n_n 256 rfl rfl).symm k) = ix2 k n :=
    funext fun a => Fin.ext (by
      match a with
      | ⟨0, _⟩ => exact (rhs₂_0 _ _).trans hk
      | ⟨1, _⟩ => exact rhs₂_1 _ _)
  rw [el, er]

theorem pay0_apply (x0 : Vec Ideal S2048x512 .f32) (x1 : Vec Ideal S512x256 .f32) (x2 : Vec Ideal S1x256 .f32)
    (x3 : Vec Ideal S256x64 .f32) (x4 : Vec Ideal S1x64 .f32) (p : Fin 2048) (n : Fin 64) :
    k0_pay1 x0 x1 x2 x3 x4 (ix2 p n)
      = (∑ k : Fin 256, ((∑ j : Fin 512, x0 (ix2 p j) * x1 (ix2 j k)) + x2 (ix2 (0 : Fin 1) k)) * x3 (ix2 k n)) + x4 (ix2 (0 : Fin 1) n) := by
  unfold k0_pay1
  simp only [shapeCast_self]
  rw [addf_apply, mm₂_apply, broadcastTo_1b_ab_apply]
  refine congrArg (· + x4 (ix2 (0 : Fin 1) n)) (Finset.sum_congr rfl fun k _ => ?_)
  rw [truncf_apply, truncf_apply, addf_apply, mm₁_apply, broadcastTo_1b_ab_apply]
  refine congrArg (fun s => (s + x2 (ix2 (0 : Fin 1) k)) * x3 (ix2 k n)) (Finset.sum_congr rfl fun j _ => ?_)
  rw [truncf_apply, truncf_apply]

theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

def rowOf (t : Fin cfg0.N) (p : Fin 2048) : Fin 16384 :=
  ⟨t.val * 2048 + p.val, by have h := t.isLt; have hN : cfg0.N = 8 := N_0; have := p.isLt; omega⟩

theorem blk0_0_read (X : Vec Ideal S16384x512 .f32) (t : Fin cfg0.N) (p : Fin 2048) (j : Fin 512) :
    ((cfg0.win 0).blk t).view.read (Elt Ideal) X (ix2 p j) = X (ix2 (rowOf t p) j) := by
  obtain ⟨e0, e1, -⟩ := idx0 t
  rw [View.read_apply]
  refine congrArg X (funext fun a => Fin.ext ?_)
  match a with
  | ⟨0, _⟩ => show win0_0.index t (0 : Fin 2) * 2048 + 1 * p.val = t.val * 2048 + p.val; omega
  | ⟨1, _⟩ => show win0_0.index t (1 : Fin 2) * 512 + 1 * j.val = j.val; omega

theorem blk0_1_read (X : Vec Ideal S512x256 .f32) (t : Fin cfg0.N) (j : Fin 512) (k : Fin 256) :
    ((cfg0.win 1).blk t).view.read (Elt Ideal) X (ix2 j k) = X (ix2 j k) := by
  obtain ⟨-, -, e0, e1, -⟩ := idx0 t
  rw [View.read_apply]
  refine congrArg X (funext fun a => Fin.ext ?_)
  match a with
  | ⟨0, _⟩ => show win0_1.index t (0 : Fin 2) * 512 + 1 * j.val = j.val; omega
  | ⟨1, _⟩ => show win0_1.index t (1 : Fin 2) * 256 + 1 * k.val = k.val; omega
theorem blk0_2_read (X : Vec Ideal S1x256 .f32) (t : Fin cfg0.N) (z : Fin 1) (k : Fin 256) :
    ((cfg0.win 2).blk t).view.read (Elt Ideal) X (ix2 z k) = X (ix2 z k) := by
  obtain ⟨-, -, -, -, e0, e1, -⟩ := idx0 t
  rw [View.read_apply]
  refine congrArg X (funext fun a => Fin.ext ?_)
  match a with
  | ⟨0, _⟩ => show win0_2.index t (0 : Fin 2) * 1 + 1 * z.val = z.val; omega
  | ⟨1, _⟩ => show win0_2.index t (1 : Fin 2) * 256 + 1 * k.val = k.val; omega
theorem blk0_3_read (X : Vec Ideal S256x64 .f32) (t : Fin cfg0.N) (k : Fin 256) (n : Fin 64) :
    ((cfg0.win 3).blk t).view.read (Elt Ideal) X (ix2 k n) = X (ix2 k n) := by
  obtain ⟨-, -, -, -, -, -, e0, e1, -⟩ := idx0 t
  rw [View.read_apply]
  refine congrArg X (funext fun a => Fin.ext ?_)
  match a with
  | ⟨0, _⟩ => show win0_3.index t (0 : Fin 2) * 256 + 1 * k.val = k.val; omega
  | ⟨1, _⟩ => show win0_3.index t (1 : Fin 2) * 64 + 1 * n.val = n.val; omega
theorem blk0_4_read (X : Vec Ideal S1x64 .f32) (t : Fin cfg0.N) (z : Fin 1) (n : Fin 64) :
    ((cfg0.win 4).blk t).view.read (Elt Ideal) X (ix2 z n) = X (ix2 z n) := by
  obtain ⟨-, -, -, -, -, -, -, -, e0, e1, -⟩ := idx0 t
  rw [View.read_apply]
  refine congrArg X (funext fun a => Fin.ext ?_)
  match a with
  | ⟨0, _⟩ => show win0_4.index t (0 : Fin 2) * 1 + 1 * z.val = z.val; omega
  | ⟨1, _⟩ => show win0_4.index t (1 : Fin 2) * 64 + 1 * n.val = n.val; omega

theorem blk0_5_read (X : Vec Ideal S16384x64 .f32) (t : Fin cfg0.N) (p : Fin 2048) (n : Fin 64) :
    ((cfg0.win 5).blk t).view.read (Elt Ideal) X (ix2 p n) = X (ix2 (rowOf t p) n) := by
  obtain ⟨-, -, -, -, -, -, -, -, -, -, e0, e1⟩ := idx0 t
  rw [View.read_apply]
  refine congrArg X (funext fun a => Fin.ext ?_)
  match a with
  | ⟨0, _⟩ => show win0_5.index t (0 : Fin 2) * 2048 + 1 * p.val = t.val * 2048 + p.val; omega
  | ⟨1, _⟩ => show win0_5.index t (1 : Fin 2) * 64 + 1 * n.val = n.val; omega

theorem mem_blk0_5 (t : Fin cfg0.N) (i : S16384x64.Idx) :
    i ∈ ((cfg0.win 5).blk t).view.set ↔ ∀ a : Fin 2, win0_5.index t a * S2048x64.size a ≤ (i a).val ∧ (i a).val < win0_5.index t a * S2048x64.size a + S2048x64.size a := by
  show i ∈ ((View.whole main_v2).slice (win0_5.rect t)).set ↔ _
  rw [View.set_slice_whole, Rect.mem_set_unit]
  exact Iff.rfl

theorem cover0_5_arr (i : S16384x64.Idx) : ∃ t : Fin cfg0.N, (cfg0.win 5).flush t = true ∧ i ∈ ((cfg0.win 5).blk t).view.set := by
  have hi0 : (i 0).val < 16384 := (i 0).isLt
  have hi1 : (i 1).val < 64 := (i 1).isLt
  have hN : cfg0.N = 8 := N_0
  have ht : (i 0).val / 2048 < cfg0.N := by omega
  obtain ⟨-, -, -, -, -, -, -, -, -, -, e0, e1⟩ := idx0 ⟨(i 0).val / 2048, ht⟩
  refine ⟨⟨(i 0).val / 2048, ht⟩, flush0_5 _, ?_⟩
  rw [mem_blk0_5]
  intro a
  match a with
  | ⟨0, _⟩ =>
    show win0_5.index ⟨(i 0).val / 2048, ht⟩ (0 : Fin 2) * 2048 ≤ (i 0).val ∧ (i 0).val < win0_5.index ⟨(i 0).val / 2048, ht⟩ (0 : Fin 2) * 2048 + 2048
    rw [e0]; show (i 0).val / 2048 * 2048 ≤ (i 0).val ∧ (i 0).val < (i 0).val / 2048 * 2048 + 2048; omega
  | ⟨1, _⟩ =>
    show win0_5.index ⟨(i 0).val / 2048, ht⟩ (1 : Fin 2) * 64 ≤ (i 1).val ∧ (i 1).val < win0_5.index ⟨(i 0).val / 2048, ht⟩ (1 : Fin 2) * 64 + 64
    omega

variable (V : (c : Dev nD) → (b : Ref sig .tc) → Buf (Elt Ideal) ((c : Thread nD τ).loc b))

def Z0 (c : Dev nD) : Fin 16384 → Fin 64 → EReal :=
  Cert.Spec.head (fun r j => (V c main_arg0 : Vec Ideal S16384x512 .f32) (ix2 r j)) (fun j k => (V c main_arg2 : Vec Ideal S512x256 .f32) (ix2 j k))
    (fun k => (V c main_v0 : Vec Ideal S1x256 .f32) (ix2 0 k)) (fun k n => (V c main_arg4 : Vec Ideal S256x64 .f32) (ix2 k n))
    (fun n => (V c main_v1 : Vec Ideal S1x64 .f32) (ix2 0 n))

def G0 (c : Dev nD) : Vec Ideal S16384x64 .f32 := fun i => Z0 V c (i 0) (i 1)

theorem G0_apply (c : Dev nD) (r : Fin 16384) (n : Fin 64) : G0 V c (ix2 r n) = Z0 V c r n := rfl

theorem ext0_5 (t : Fin cfg0.N) {f g : ((cfg0.win 5).xblock (cfg0.grid.coords t)).Idx → Elt Ideal (cfg0.win 5).elt}
    (h : ∀ (p : Fin 2048) (n : Fin 64), f (ix2 p n) = g (ix2 p n)) : f = g :=
  funext fun y => by rw [eq_ix2 y]; exact h _ _

theorem cut0_5_apply (X : Vec Ideal S2048x64 .f32) (t : Fin cfg0.N) (p : Fin 2048) (n : Fin 64) :
    (cfg0.win 5).cut (grid0.coords t) X (ix2 p n) = X (ix2 p n) := rfl

theorem iblk0_0_apply (c : Dev nD) (t : Fin cfg0.N) (p : Fin 2048) (j : Fin 512) :
    (iblk0 V c 0 t : Vec Ideal S2048x512 .f32) (ix2 p j) = (V c main_arg0 : Vec Ideal S16384x512 .f32) (ix2 (rowOf t p) j) :=
  blk0_0_read (V c main_arg0) t p j
theorem iblk0_1_apply (c : Dev nD) (t : Fin cfg0.N) (j : Fin 512) (k : Fin 256) :
    (iblk0 V c 1 t : Vec Ideal S512x256 .f32) (ix2 j k) = (V c main_arg2 : Vec Ideal S512x256 .f32) (ix2 j k) :=
  blk0_1_read (V c main_arg2) t j k
theorem iblk0_2_apply (c : Dev nD) (t : Fin cfg0.N) (z : Fin 1) (k : Fin 256) :
    (iblk0 V c 2 t : Vec Ideal S1x256 .f32) (ix2 z k) = (V c main_v0 : Vec Ideal S1x256 .f32) (ix2 z k) :=
  blk0_2_read (V c main_v0) t z k
theorem iblk0_3_apply (c : Dev nD) (t : Fin cfg0.N) (k : Fin 256) (n : Fin 64) :
    (iblk0 V c 3 t : Vec Ideal S256x64 .f32) (ix2 k n) = (V c main_arg4 : Vec Ideal S256x64 .f32) (ix2 k n) :=
  blk0_3_read (V c main_arg4) t k n
theorem iblk0_4_apply (c : Dev nD) (t : Fin cfg0.N) (z : Fin 1) (n : Fin 64) :
    (iblk0 V c 4 t : Vec Ideal S1x64 .f32) (ix2 z n) = (V c main_v1 : Vec Ideal S1x64 .f32) (ix2 z n) :=
  blk0_4_read (V c main_v1) t z n

theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  refine ext0_5 t fun p n => ?_
  rw [cut0_5_apply, blk0_5_read, G0_apply, pay0_apply]
  unfold Z0 Cert.Spec.head
  simp only [iblk0_0_apply, iblk0_1_apply, iblk0_2_apply, iblk0_3_apply, iblk0_4_apply]

theorem arr0_5 (c : Dev nD) : (dat0 V c).arrAt 5 cfg0.N = G0 V c :=
  (dat0 V c).arrAt_eq_of_cover 5 (G0 V c) (fun t _ => flushed0_eq V c t) cover0_5_arr

theorem final0 (c : Dev nD) (r : Fin 16384) (k : Fin 64) :
    (dat0 V c).arrAt 5 cfg0.N (ix2 r k)
      = Cert.Spec.head (fun r j => (V c main_arg0 : Vec Ideal S16384x512 .f32) (ix2 r j)) (fun j k => (V c main_arg2 : Vec Ideal S512x256 .f32) (ix2 j k))
          (fun k => (V c main_v0 : Vec Ideal S1x256 .f32) (ix2 0 k)) (fun k n => (V c main_arg4 : Vec Ideal S256x64 .f32) (ix2 k n))
          (fun n => (V c main_v1 : Vec Ideal S1x64 .f32) (ix2 0 n)) r k := by
  rw [arr0_5]
  rfl

end Cert.KernelIdeal.Fr
-- ==== Proof.LibSums.lean ====
import Idealize.ShloMosaic.Lib.ValueIdx

noncomputable section

open scoped BigOperators

namespace Cert.LibSums

def hi {N a b : Nat} (hN : N = a * b) (q : Fin N) : Fin a :=
  ⟨q.val / b, by have := q.isLt; subst hN; exact Nat.div_lt_of_lt_mul (by have h := Nat.mul_comm a b; omega)⟩

def lo {N : Nat} (b : Nat) (hb : 0 < b) (q : Fin N) : Fin b := ⟨q.val % b, Nat.mod_lt _ hb⟩

def flat {N a b : Nat} (hN : N = a * b) (k : Fin a) (p : Fin b) : Fin N :=
  ⟨k.val * b + p.val, by
    have hk := k.isLt; have hp := p.isLt; subst hN
    calc k.val * b + p.val < k.val * b + b := by omega
      _ = (k.val + 1) * b := by ring
      _ ≤ a * b := Nat.mul_le_mul_right b hk⟩

def pairEquiv (a b : Nat) (hb : 0 < b) : Fin (a * b) ≃ Fin a × Fin b where
  toFun q := (hi rfl q, lo b hb q)
  invFun x := flat rfl x.1 x.2
  left_inv q := by
    apply Fin.ext
    show q.val / b * b + q.val % b = q.val
    exact Nat.div_add_mod' q.val b
  right_inv x := by
    obtain ⟨k, p⟩ := x
    apply Prod.ext
    · apply Fin.ext
      show (k.val * b + p.val) / b = k.val
      rw [Nat.add_comm, Nat.add_mul_div_right _ _ hb, Nat.div_eq_of_lt p.isLt, Nat.zero_add]
    · apply Fin.ext
      show (k.val * b + p.val) % b = p.val
      rw [Nat.add_comm, Nat.add_mul_mod_self_right, Nat.mod_eq_of_lt p.isLt]

theorem sum_filter_flat {M : Type} [AddCommMonoid M] {N a b : Nat} (hN : N = a * b) (hb : 0 < b)
    (P : Fin a → Fin b → Prop) [∀ k p, Decidable (P k p)] (f : Fin a → Fin b → M) :
    ∑ q ∈ Finset.univ.filter (fun q : Fin N => P (hi hN q) (lo b hb q)), f (hi hN q) (lo b hb q)
      = ∑ k : Fin a, ∑ p ∈ Finset.univ.filter (fun p : Fin b => P k p), f k p := by
  subst hN
  rw [Finset.sum_filter]
  refine (Fintype.sum_equiv (pairEquiv a b hb)
    (fun q : Fin (a * b) => if P (hi rfl q) (lo b hb q) then f (hi rfl q) (lo b hb q) else 0)
    (fun x : Fin a × Fin b => if P x.1 x.2 then f x.1 x.2 else 0) (fun _ => rfl)).trans ?_
  rw [Fintype.sum_prod_type]
  refine Finset.sum_congr rfl (fun k _ => ?_)
  rw [Finset.sum_filter]

theorem sum_tiles {M : Type} [AddCommMonoid M] {N a b : Nat} (hN : N = a * b) (f : Fin N → M) :
    ∑ r : Fin N, f r = ∑ t : Fin a, ∑ i : Fin b, f (flat hN t i) := by
  subst hN
  rcases Nat.eq_zero_or_pos b with hb | hb
  · subst hb
    haveI : IsEmpty (Fin (a * 0)) := ⟨fun q => absurd q.isLt (by simp)⟩
    rw [Fintype.sum_empty]
    exact (Finset.sum_eq_zero (fun t _ => Fintype.sum_empty _)).symm
  · refine ((pairEquiv a b hb).symm.sum_comp f).symm.trans ?_
    rw [Fintype.sum_prod_type]
    rfl

end Cert.LibSums

end
-- ==== Proof.KI.ApMath.lean ====
import Idealize.ShloMosaic.PureOps.Ideal.Laws
import Idealize.ShloMosaic.Lib.ValueIdx
import Idealize.ShloMosaic.Lib.Pipeline.Value
import Mathlib.Algebra.BigOperators.Fin
import proofs.«109160_j26783416057954_1_alg».proof.Proof.Gen.KernelIdeal.Skeleton
import proofs.«109160_j26783416057954_1_alg».proof.Proof.Spec
import proofs.«109160_j26783416057954_1_alg».proof.Proof.LibSums

noncomputable section

open scoped BigOperators

namespace Cert.KernelIdeal.Fr

open Idealize.ShloMosaic Idealize.ShloMosaic.ValueIdx
open Cert.KernelIdeal Cert.KernelIdeal.Gen

theorem chain_eq_sum {M : Type} [AddCommMonoid M] {N : ℕ} (d : Fin (N + 1) → M) (acc : ℕ → M)
    (h0 : acc 0 = 0 + d 0) (hs : ∀ (j : ℕ) (h : j + 1 < N + 1), acc (j + 1) = acc j + d ⟨j + 1, h⟩) :
    acc N = ∑ j, d j := by
  have key : ∀ (n : ℕ) (hn : n < N + 1), acc n = ∑ j : Fin (n + 1), d (Fin.castLE hn j) := by
    intro n
    induction n with
    | zero =>
      intro hn
      rw [h0, zero_add, Fin.sum_univ_one]
      rfl
    | succ n ih =>
      intro hn
      rw [hs n hn, ih (Nat.lt_of_succ_lt hn), Fin.sum_univ_castSucc (n := n + 1)]
      rfl
  rw [key N (Nat.lt_succ_self N)]
  exact Finset.sum_congr rfl fun j _ => congrArg d (Fin.ext rfl)

theorem chain16_eq_sum {M : Type} [AddCommMonoid M] (d : Fin 16 → M) (acc : ℕ → M)
    (h0 : acc 0 = 0 + d 0) (hs : ∀ (j : ℕ) (h : j + 1 < 16), acc (j + 1) = acc j + d ⟨j + 1, h⟩) :
    acc 15 = ∑ j, d j :=
  chain_eq_sum (N := 15) d acc h0 hs

abbrev rowAt (i : Fin 8) (p : Fin 2048) : Fin 16384 := Cert.LibSums.flat (a := 8) (b := 2048) (by decide) i p

theorem rowAt_val (i : Fin 8) (p : Fin 2048) : (rowAt i p).val = i.val * 2048 + p.val := rfl

abbrev colAt (j : Fin 16) (k : Fin 1024) : Fin 16384 := Cert.LibSums.flat (a := 16) (b := 1024) (by decide) j k

theorem colAt_val (j : Fin 16) (k : Fin 1024) : (colAt j k).val = j.val * 1024 + k.val := rfl

theorem sum_cols {M : Type} [AddCommMonoid M] (f : Fin 16384 → M) :
    ∑ k : Fin 16384, f k = ∑ j : Fin 16, ∑ k : Fin 1024, f (colAt j k) :=
  Cert.LibSums.sum_tiles (a := 16) (b := 1024) (by decide) f

theorem lhs_blockdot_0 (i : S2048x64.Idx) (q : dot_S2048x1024_S1024x64_S2048x64_1_0_0_1_n_n.contr.Idx) :
    (dot_S2048x1024_S1024x64_S2048x64_1_0_0_1_n_n.lhsIdx i q 0).val = (i 0).val := by
  unfold DotDims.lhsIdx
  rw [dif_neg (show ¬(0 : Fin S2048x1024.rank) ∈ dot_S2048x1024_S1024x64_S2048x64_1_0_0_1_n_n.lhsBatch by decide), dif_pos (show (0 : Fin S2048x1024.rank) ∈ dot_S2048x1024_S1024x64_S2048x64_1_0_0_1_n_n.lhsNonContracting by decide)]
  rfl

theorem lhs_blockdot_1 (i : S2048x64.Idx) (q : dot_S2048x1024_S1024x64_S2048x64_1_0_0_1_n_n.contr.Idx) :
    (dot_S2048x1024_S1024x64_S2048x64_1_0_0_1_n_n.lhsIdx i q 1).val = (q ⟨0, by decide⟩).val :=
  dot_S2048x1024_S1024x64_S2048x64_1_0_0_1_n_n.lhsIdx_val_of_single rfl i q

theorem rhs_blockdot_0 (i : S2048x64.Idx) (q : dot_S2048x1024_S1024x64_S2048x64_1_0_0_1_n_n.contr.Idx) :
    (dot_S2048x1024_S1024x64_S2048x64_1_0_0_1_n_n.rhsIdx i q 0).val = (q ⟨0, by decide⟩).val :=
  dot_S2048x1024_S1024x64_S2048x64_1_0_0_1_n_n.rhsIdx_val_of_single rfl i q

theorem rhs_blockdot_1 (i : S2048x64.Idx) (q : dot_S2048x1024_S1024x64_S2048x64_1_0_0_1_n_n.contr.Idx) :
    (dot_S2048x1024_S1024x64_S2048x64_1_0_0_1_n_n.rhsIdx i q 1).val = (i 1).val := by
  unfold DotDims.rhsIdx
  rw [dif_neg (show ¬(1 : Fin S1024x64.rank) ∈ dot_S2048x1024_S1024x64_S2048x64_1_0_0_1_n_n.rhsBatch by decide), dif_pos (show (1 : Fin S1024x64.rank) ∈ dot_S2048x1024_S1024x64_S2048x64_1_0_0_1_n_n.rhsNonContracting by decide)]
  rfl

theorem blockdot_apply (a : Vec Ideal S2048x1024 .f32) (z : Vec Ideal S1024x64 .f32) (p : Fin 2048) (q : Fin 64) :
    matmul dot_S2048x1024_S1024x64_S2048x64_1_0_0_1_n_n none (truncf .bf16 a bitsLt_bf16_f32)
        (truncf .bf16 (shapeCast S1024x64 z shapeCasts_S1024x64_S1024x64) bitsLt_bf16_f32)
        (constant (F := Ideal) S2048x64 .f32 0x00000000#32) (ix2 p q)
      = ∑ k : Fin 1024, a (ix2 p k) * z (ix2 k q) := by
  rw [shapeCast_self]
  simp only [matmul]
  rw [Ideal.matmul_constant_zero_apply,
    ← Equiv.sum_comp (contrEquiv1 dot_S2048x1024_S1024x64_S2048x64_1_0_0_1_n_n 1024 rfl rfl).symm]
  refine Finset.sum_congr rfl fun k _ => ?_
  have hk := contrEquiv1_symm_val dot_S2048x1024_S1024x64_S2048x64_1_0_0_1_n_n 1024 rfl rfl k
  have el : dot_S2048x1024_S1024x64_S2048x64_1_0_0_1_n_n.lhsIdx (ix2 p q)
      ((contrEquiv1 dot_S2048x1024_S1024x64_S2048x64_1_0_0_1_n_n 1024 rfl rfl).symm k) = ix2 p k :=
    funext fun ax => Fin.ext (by
      match ax with
      | ⟨0, _⟩ => exact lhs_blockdot_0 _ _
      | ⟨1, _⟩ => exact (lhs_blockdot_1 _ _).trans hk)
  have er : dot_S2048x1024_S1024x64_S2048x64_1_0_0_1_n_n.rhsIdx (ix2 p q)
      ((contrEquiv1 dot_S2048x1024_S1024x64_S2048x64_1_0_0_1_n_n 1024 rfl rfl).symm k) = ix2 k q :=
    funext fun ax => Fin.ext (by
      match ax with
      | ⟨0, _⟩ => exact (rhs_blockdot_0 _ _).trans hk
      | ⟨1, _⟩ => exact rhs_blockdot_1 _ _)
  rw [truncf_apply, truncf_apply, el, er]

theorem update_apply (a : Vec Ideal S2048x1024 .f32) (z : Vec Ideal S1024x64 .f32) (acc : Vec Ideal S2048x64 .f32)
    (p : Fin 2048) (q : Fin 64) :
    shapeCast S2048x64 (addf acc (matmul dot_S2048x1024_S1024x64_S2048x64_1_0_0_1_n_n none (truncf .bf16 a bitsLt_bf16_f32)
        (truncf .bf16 (shapeCast S1024x64 z shapeCasts_S1024x64_S1024x64) bitsLt_bf16_f32)
        (constant (F := Ideal) S2048x64 .f32 0x00000000#32))) shapeCasts_S2048x64_S2048x64 (ix2 p q)
      = acc (ix2 p q) + ∑ k : Fin 1024, a (ix2 p k) * z (ix2 k q) := by
  rw [shapeCast_self, addf_apply, blockdot_apply]

theorem reset_apply (i : S2048x64.Idx) :
    shapeCast S2048x64 (broadcast S2048x64 (Scalar.ofBits (F := Ideal) .f32 0x00000000#32)) shapeCasts_S2048x64_S2048x64 i = 0 := by
  rw [shapeCast_self]
  exact Ideal.ofBits_zero_f32

theorem zeroblock_apply (i : S2048x64.Idx) :
    (broadcast S2048x64 (Scalar.ofBits (F := Ideal) .f32 0x00000000#32) : FVec Ideal S2048x64 .f32) i = 0 :=
  Ideal.ofBits_zero_f32

def finishOf (acc z0 : EReal) : EReal := Cert.Spec.w9 * acc + Cert.Spec.w1 * z0

theorem step_eq_finishOf (adj : Fin 16384 → Fin 16384 → EReal) (z0 z : Fin 16384 → Fin 64 → EReal) (r : Fin 16384) (c : Fin 64) :
    Cert.Spec.step adj z0 z r c = finishOf (∑ k : Fin 16384, adj r k * z k c) (z0 r c) := rfl

theorem finish_apply (acc z0 : Vec Ideal S2048x64 .f32) (i : S2048x64.Idx) :
    addf (mulf (broadcast S2048x64 (Scalar.ofBits (F := Ideal) .f32 0x3F666666#32)) acc)
        (mulf (broadcast S2048x64 (Scalar.ofBits (F := Ideal) .f32 0x3DCCCCCD#32)) (shapeCast S2048x64 z0 shapeCasts_S2048x64_S2048x64)) i
      = finishOf (acc i) (z0 i) := by
  rw [shapeCast_self]
  rfl

end Cert.KernelIdeal.Fr

end
-- ==== Proof.KI.StepPieces.lean ====
import proofs.«109160_j26783416057954_1_alg».proof.Proof.KI.StepCases
import proofs.«109160_j26783416057954_1_alg».proof.Proof.KI.ApMath
import Idealize.ShloMosaic.Lib.Pipeline.Value

set_option maxRecDepth 16384

noncomputable section

open scoped BigOperators

namespace Cert.KernelIdeal.Fr

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (VO VS : View sig .tc .vmem S2048x64 .f32) (c : Dev nD) (i : grid1.Coords)
  (arg2 : Memref sig .tc .vmem S2048x1024 .f32) (harg2 : arg2.IsWhole) (arg3 : Memref sig .tc .vmem S1024x64 .f32) (harg3 : arg3.IsWhole)
  (arg4 : Memref sig .tc .vmem S2048x64 .f32) (harg4 : arg4.IsWhole) (arg5 : Memref sig .tc .vmem S2048x64 .f32) (harg5 : arg5.IsWhole)
  (arg6 : Memref sig .tc .vmem S2048x64 .f32) (harg6 : arg6.IsWhole)

theorem hz : (![0, 0] : Fin 2 → Nat) = fun _ => 0 := funext fun a => by fin_cases a <;> rfl

-- Each case's pair is the body's arithmetic of its inputs: a reset plus a block product, one more block product, the weighted sum.
theorem accA_eq (hca : condFirst i) (hcb : ¬condLast i) (xa : Vec F S2048x1024 .f32) (xb : Vec F S1024x64 .f32) (xc : Vec F S2048x64 .f32) :
    (leavesA VO VS c i arg2 harg2 arg3 harg3 arg4 harg4 arg5 harg5 arg6 harg6 hca hcb xa xb xc).2 = k1_pay2 xa xb (k1_pay1 (F := F)) := by
  unfold leavesA; dsimp only
  rw [View.read_writes_eq_canon _ _ _ (accCoverA c i arg2 harg2 arg3 harg3 arg4 harg4 arg5 harg5 arg6 harg6 hca hcb xa xb xc)]
  unfold stepRunA
  dsimp only
  sl_unfold_words
  rw [View.canon_cons_unit_zero (S := S2048x64) hz, View.readCov_unit_zero (S := S2048x64) _ hz]
  simp only [View.readAt_eq_ld, harg2.read_unread, harg3.read_unread, View.ld_unit_zero (S := S2048x1024) hz,
    View.ld_unit_zero (S := S1024x64) hz]

theorem accB_eq (hca : ¬condFirst i) (hcb : ¬condLast i) (xa : Vec F S2048x1024 .f32) (xb : Vec F S1024x64 .f32) (xc : Vec F S2048x64 .f32) (xs : Vec F S2048x64 .f32) :
    (leavesB VO VS c i arg2 harg2 arg3 harg3 arg4 harg4 arg5 harg5 arg6 harg6 hca hcb xa xb xc xs).2 = k1_pay2 xa xb xs := by
  unfold leavesB; dsimp only
  rw [View.read_writes_eq_canon _ _ _ (accCoverB c i arg2 harg2 arg3 harg3 arg4 harg4 arg5 harg5 arg6 harg6 hca hcb xa xb xc xs)]
  unfold stepRunB
  dsimp only
  sl_unfold_words
  rw [View.canon_unit_zero hz]
  simp only [View.readAt_eq_ld, harg2.read_unread, harg3.read_unread, harg6.read_unread,
    View.ld_unit_zero (S := S2048x1024) hz, View.ld_unit_zero (S := S1024x64) hz, View.ld_unit_zero (S := S2048x64) hz]

theorem accC_eq (hca : ¬condFirst i) (hcb : condLast i) (xa : Vec F S2048x1024 .f32) (xb : Vec F S1024x64 .f32) (xc : Vec F S2048x64 .f32) (xs : Vec F S2048x64 .f32) :
    (leavesC VO VS c i arg2 harg2 arg3 harg3 arg4 harg4 arg5 harg5 arg6 harg6 hca hcb xa xb xc xs).2 = k1_pay2 xa xb xs := by
  unfold leavesC; dsimp only
  rw [View.read_writes_eq_canon _ _ _ (accCoverC c i arg2 harg2 arg3 harg3 arg4 harg4 arg5 harg5 arg6 harg6 hca hcb xa xb xc xs)]
  unfold stepRunC
  dsimp only
  sl_unfold_words
  rw [View.canon_unit_zero hz]
  simp only [View.readAt_eq_ld, harg2.read_unread, harg3.read_unread, harg6.read_unread,
    View.ld_unit_zero (S := S2048x1024) hz, View.ld_unit_zero (S := S1024x64) hz, View.ld_unit_zero (S := S2048x64) hz]

theorem outC_eq (hca : ¬condFirst i) (hcb : condLast i) (xa : Vec F S2048x1024 .f32) (xb : Vec F S1024x64 .f32) (xc : Vec F S2048x64 .f32) (xs : Vec F S2048x64 .f32) :
    (leavesC VO VS c i arg2 harg2 arg3 harg3 arg4 harg4 arg5 harg5 arg6 harg6 hca hcb xa xb xc xs).1 = k1_pay3 (leavesC VO VS c i arg2 harg2 arg3 harg3 arg4 harg4 arg5 harg5 arg6 harg6 hca hcb xa xb xc xs).2 xc := by
  rw [accC_eq]
  unfold leavesC; dsimp only
  rw [View.read_writes_eq_canon _ _ _ (outCoverC c i arg2 harg2 arg3 harg3 arg4 harg4 arg5 harg5 arg6 harg6 hca hcb xa xb xc xs)]
  unfold stepRunC
  dsimp only
  sl_unfold_words
  rw [View.canon_unit_zero hz, View.readCov_unit_zero (S := S2048x64) _ hz]
  simp only [View.readAt_eq_ld, harg2.read_unread, harg3.read_unread, harg4.read_unread, harg6.read_unread,
    View.ld_unit_zero (S := S2048x1024) hz, View.ld_unit_zero (S := S1024x64) hz, View.ld_unit_zero (S := S2048x64) hz]

theorem k1_pay1_apply (y : S2048x64.Idx) : k1_pay1 (F := Ideal) y = 0 := reset_apply y
theorem k1_pay2_apply (a : Vec Ideal S2048x1024 .f32) (z : Vec Ideal S1024x64 .f32) (acc : Vec Ideal S2048x64 .f32)
    (p : Fin 2048) (q : Fin 64) :
    k1_pay2 a z acc (ix2 p q) = acc (ix2 p q) + ∑ k : Fin 1024, a (ix2 p k) * z (ix2 k q) := update_apply a z acc p q
theorem k1_pay3_apply (acc z0 : Vec Ideal S2048x64 .f32) (y : S2048x64.Idx) :
    k1_pay3 acc z0 y = finishOf (acc y) (z0 y) := finish_apply acc z0 y

end Cert.KernelIdeal.Fr

end
-- ==== Proof.KI.Ap1Val.lean ====
import proofs.«109160_j26783416057954_1_alg».proof.Proof.KI.Ap1
import proofs.«109160_j26783416057954_1_alg».proof.Proof.KI.StepPieces

set_option maxRecDepth 16384

noncomputable section

open scoped BigOperators

namespace Cert.KernelIdeal.Fr

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

section Steps

variable {F : FTy → Type} [FloatOps F]
variable (V : (c : Dev nD) → (b : Ref sig .tc) → Buf (Elt F) ((c : Thread nD τ).loc b))

abbrev arrA1 (c : Dev nD) : Vec F S16384x16384 .f32 := V c (Pipeline.arrRef spec1 0)
abbrev arrZ1 (c : Dev nD) : Vec F S16384x64 .f32 := V c (Pipeline.arrRef spec1 1)
abbrev arrT1 (c : Dev nD) : Vec F S16384x64 .f32 := V c (Pipeline.arrRef spec1 2)

abbrev blkA1 (c : Dev nD) (t : Fin cfg1.N) : Vec F S2048x1024 .f32 := iblk1 V c 0 t
abbrev blkZ1 (c : Dev nD) (t : Fin cfg1.N) : Vec F S1024x64 .f32 := iblk1 V c 1 t
abbrev blkT1 (c : Dev nD) (t : Fin cfg1.N) : Vec F S2048x64 .f32 := iblk1 V c 2 t

theorem outsAt1_congr (c : Dev nD) {n n' : ℕ} (e : n = n') (h : n < cfg1.N) (h' : n' < cfg1.N) :
    outsAt1 V c n h = outsAt1 V c n' h' := by subst e; rfl

theorem scr1_first (c : Dev nD) (t : Fin cfg1.N) (ha : t.val % 16 = 0) :
    (outsAt1 V c t.val t.isLt).2 = k1_pay2 (blkA1 V c t) (blkZ1 V c t) (k1_pay1 (F := F)) := by
  have hb : ¬t.val % 16 = 15 := by omega
  rw [outsAt1_A V c t ha hb]
  exact accA_eq VO1_3 VS1_0 c (grid1.coords t) (ms1_0 t) (hs1_0 t) (ms1_1 t) (hs1_1 t) (ms1_2 t) (hs1_2 t) (ms1_3 t) (hs1_3 t) scM1_0 (Memref.isWhole_whole _) ((hcondFirst t).mpr ha) (fun h => hb ((hcondLast t).mp h)) (iblk1 V c 0 t) (iblk1 V c 1 t) (iblk1 V c 2 t)

theorem scr1_step (c : Dev nD) (t : Fin cfg1.N) (ha : ¬t.val % 16 = 0) :
    (outsAt1 V c t.val t.isLt).2
      = k1_pay2 (blkA1 V c t) (blkZ1 V c t) (outsAt1 V c (t.val - 1) (Nat.lt_of_le_of_lt (Nat.sub_le _ _) t.isLt)).2 := by
  by_cases hb : t.val % 16 = 15
  · rw [outsAt1_C V c t ha hb]
    exact accC_eq VO1_3 VS1_0 c (grid1.coords t) (ms1_0 t) (hs1_0 t) (ms1_1 t) (hs1_1 t) (ms1_2 t) (hs1_2 t) (ms1_3 t) (hs1_3 t) scM1_0 (Memref.isWhole_whole _) (fun h => ha ((hcondFirst t).mp h)) ((hcondLast t).mpr hb) (iblk1 V c 0 t) (iblk1 V c 1 t) (iblk1 V c 2 t) (outsAt1 V c (t.val - 1) (Nat.lt_of_le_of_lt (Nat.sub_le _ _) t.isLt)).2
  · rw [outsAt1_B V c t ha hb]
    exact accB_eq VO1_3 VS1_0 c (grid1.coords t) (ms1_0 t) (hs1_0 t) (ms1_1 t) (hs1_1 t) (ms1_2 t) (hs1_2 t) (ms1_3 t) (hs1_3 t) scM1_0 (Memref.isWhole_whole _) (fun h => ha ((hcondFirst t).mp h)) (fun h => hb ((hcondLast t).mp h)) (iblk1 V c 0 t) (iblk1 V c 1 t) (iblk1 V c 2 t) (outsAt1 V c (t.val - 1) (Nat.lt_of_le_of_lt (Nat.sub_le _ _) t.isLt)).2

theorem out1_last (c : Dev nD) (t : Fin cfg1.N) (hb : t.val % 16 = 15) :
    (outsAt1 V c t.val t.isLt).1 = k1_pay3 (outsAt1 V c t.val t.isLt).2 (blkT1 V c t) := by
  have ha : ¬t.val % 16 = 0 := by omega
  rw [outsAt1_C V c t ha hb]
  exact outC_eq VO1_3 VS1_0 c (grid1.coords t) (ms1_0 t) (hs1_0 t) (ms1_1 t) (hs1_1 t) (ms1_2 t) (hs1_2 t) (ms1_3 t) (hs1_3 t) scM1_0 (Memref.isWhole_whole _) (fun h => ha ((hcondFirst t).mp h)) ((hcondLast t).mpr hb) (iblk1 V c 0 t) (iblk1 V c 1 t) (iblk1 V c 2 t) (outsAt1 V c (t.val - 1) (Nat.lt_of_le_of_lt (Nat.sub_le _ _) t.isLt)).2

theorem points1_facts : ∀ t : Fin cfg1.N,
    win1_0.index t (0 : Fin 2) = t.val / 16 ∧ win1_0.index t (1 : Fin 2) = t.val % 16
    ∧ win1_1.index t (0 : Fin 2) = t.val % 16 ∧ win1_1.index t (1 : Fin 2) = 0
    ∧ win1_2.index t (0 : Fin 2) = t.val / 16 ∧ win1_2.index t (1 : Fin 2) = 0
    ∧ win1_3.index t (0 : Fin 2) = t.val / 16 ∧ win1_3.index t (1 : Fin 2) = 0 :=
  (by decide +kernel : ∀ t : Fin grid1.N, _)

theorem blkA1_apply (c : Dev nD) (t : Fin cfg1.N) (i : Fin 8) (j : Fin 16) (ht : t.val = 16 * i.val + j.val)
    (p : Fin 2048) (k : Fin 1024) :
    blkA1 V c t (ix2 p k) = arrA1 V c (ix2 (rowAt i p) (colAt j k)) := by
  obtain ⟨ea, eb, -⟩ := points1_facts t
  unfold blkA1 iblk1
  rw [View.read_apply]
  show V c (Pipeline.arrRef spec1 0) _ = V c (Pipeline.arrRef spec1 0) _
  congr 1
  funext a
  apply Fin.ext
  match a with
  | ⟨0, _⟩ => show win1_0.index t 0 * 2048 + 1 * p.val = i.val * 2048 + p.val; rw [ea]; omega
  | ⟨1, _⟩ => show win1_0.index t 1 * 1024 + 1 * k.val = j.val * 1024 + k.val; rw [eb]; omega

theorem blkZ1_apply (c : Dev nD) (t : Fin cfg1.N) (i : Fin 8) (j : Fin 16) (ht : t.val = 16 * i.val + j.val)
    (k : Fin 1024) (q : Fin 64) :
    blkZ1 V c t (ix2 k q) = arrZ1 V c (ix2 (colAt j k) q) := by
  obtain ⟨-, -, e2, e3, -⟩ := points1_facts t
  unfold blkZ1 iblk1
  rw [View.read_apply]
  show V c (Pipeline.arrRef spec1 1) _ = V c (Pipeline.arrRef spec1 1) _
  congr 1
  funext a
  apply Fin.ext
  match a with
  | ⟨0, _⟩ => show win1_1.index t 0 * 1024 + 1 * k.val = j.val * 1024 + k.val; rw [e2]; omega
  | ⟨1, _⟩ => show win1_1.index t 1 * 64 + 1 * q.val = q.val; rw [e3]; omega

theorem blkT1_apply (c : Dev nD) (t : Fin cfg1.N) (i : Fin 8) (j : Fin 16) (ht : t.val = 16 * i.val + j.val)
    (p : Fin 2048) (q : Fin 64) :
    blkT1 V c t (ix2 p q) = arrT1 V c (ix2 (rowAt i p) q) := by
  obtain ⟨-, -, -, -, e4, e5, -⟩ := points1_facts t
  unfold blkT1 iblk1
  rw [View.read_apply]
  show V c (Pipeline.arrRef spec1 2) _ = V c (Pipeline.arrRef spec1 2) _
  congr 1
  funext a
  apply Fin.ext
  match a with
  | ⟨0, _⟩ => show win1_2.index t 0 * 2048 + 1 * p.val = i.val * 2048 + p.val; rw [e4]; omega
  | ⟨1, _⟩ => show win1_2.index t 1 * 64 + 1 * q.val = q.val; rw [e5]; omega

end Steps

section Value

variable (V : (c : Dev nD) → (b : Ref sig .tc) → Buf (Elt Ideal) ((c : Thread nD τ).loc b))

theorem scr1_last (c : Dev nD) (i : Fin 8) (h : 16 * i.val + 15 < cfg1.N) (p : Fin 2048) (q : Fin 64) :
    (outsAt1 V c (16 * i.val + 15) h).2 (ix2 p q)
      = ∑ k : Fin 16384, arrA1 V c (ix2 (rowAt i p) k) * arrZ1 V c (ix2 k q) := by
  have hN : cfg1.N = 128 := N_1
  have hi : i.val < 8 := i.isLt
  rw [sum_cols]
  refine (dif_pos h).symm.trans (chain16_eq_sum
    (fun j : Fin 16 => ∑ k : Fin 1024, arrA1 V c (ix2 (rowAt i p) (colAt j k)) * arrZ1 V c (ix2 (colAt j k) q))
    (fun n : ℕ => if hn : 16 * i.val + n < cfg1.N then (outsAt1 V c (16 * i.val + n) hn).2 (ix2 p q) else 0) ?_ ?_)
  · have h0 : 16 * i.val + 0 < cfg1.N := by omega
    show (if hn : 16 * i.val + 0 < cfg1.N then (outsAt1 V c (16 * i.val + 0) hn).2 (ix2 p q) else 0)
      = 0 + ∑ k : Fin 1024, arrA1 V c (ix2 (rowAt i p) (colAt 0 k)) * arrZ1 V c (ix2 (colAt 0 k) q)
    rw [dif_pos h0]
    refine (congrFun (scr1_first V c ⟨16 * i.val + 0, h0⟩ (by show (16 * i.val + 0) % 16 = 0; omega)) (ix2 p q)).trans ?_
    rw [k1_pay2_apply, k1_pay1_apply]
    refine congrArg (0 + ·) (Finset.sum_congr rfl fun k _ => ?_)
    rw [blkA1_apply V c ⟨16 * i.val + 0, h0⟩ i 0 rfl p k, blkZ1_apply V c ⟨16 * i.val + 0, h0⟩ i 0 rfl k q]
  · intro n hn
    have hsuc : 16 * i.val + (n + 1) < cfg1.N := by omega
    have hpre : 16 * i.val + n < cfg1.N := by omega
    show (if hn : 16 * i.val + (n + 1) < cfg1.N then (outsAt1 V c (16 * i.val + (n + 1)) hn).2 (ix2 p q) else 0)
      = (if hn : 16 * i.val + n < cfg1.N then (outsAt1 V c (16 * i.val + n) hn).2 (ix2 p q) else 0)
        + ∑ k : Fin 1024, arrA1 V c (ix2 (rowAt i p) (colAt ⟨n + 1, hn⟩ k)) * arrZ1 V c (ix2 (colAt ⟨n + 1, hn⟩ k) q)
    rw [dif_pos hsuc, dif_pos hpre]
    refine (congrFun (scr1_step V c ⟨16 * i.val + (n + 1), hsuc⟩ (by show ¬(16 * i.val + (n + 1)) % 16 = 0; omega)) (ix2 p q)).trans ?_
    rw [k1_pay2_apply]
    rw [outsAt1_congr V c (show 16 * i.val + (n + 1) - 1 = 16 * i.val + n by omega) _ hpre]
    refine congrArg (_ + ·) (Finset.sum_congr rfl fun k _ => ?_)
    rw [blkA1_apply V c ⟨16 * i.val + (n + 1), hsuc⟩ i ⟨n + 1, hn⟩ rfl p k, blkZ1_apply V c ⟨16 * i.val + (n + 1), hsuc⟩ i ⟨n + 1, hn⟩ rfl k q]

abbrev G1 (c : Dev nD) : Vec Ideal S16384x64 .f32 := fun y =>
  Cert.Spec.step (fun r j => arrA1 V c (ix2 r j)) (fun r n => arrT1 V c (ix2 r n)) (fun r n => arrZ1 V c (ix2 r n)) (y 0) (y 1)

theorem flushed1_eq (c : Dev nD) (t : Fin cfg1.N) (hf : (cfg1.win 3).flush t = true) :
    (dat1 V c).flushed 3 t = ((cfg1.win 3).blk t).view.read (Elt Ideal) (G1 V c) := by
  have hN : cfg1.N = 128 := N_1
  have hb : t.val % 16 = 15 := (flush1_3 t).mp hf
  have ht : t.val < cfg1.N := t.isLt
  obtain ⟨-, -, -, -, -, -, e6, e7⟩ := points1_facts t
  have hi : t.val / 16 < 8 := by omega
  have hti : 16 * (t.val / 16) + 15 < cfg1.N := by omega
  show (cfg1.win 3).cut (grid1.coords t) ((dat1 V c).after 3 t) = _
  rw [after1_3, out1_last V c t hb]
  funext y
  have hyr : (y 0).val < 2048 := (y 0).isLt
  have hyc : (y 1).val < 64 := (y 1).isLt
  have hx : (cfg1.win 3).xinj (grid1.coords t) y = ix2 (⟨(y 0).val, hyr⟩ : Fin 2048) (⟨(y 1).val, hyc⟩ : Fin 64) := by
    funext a
    match a with
    | ⟨0, _⟩ => rfl
    | ⟨1, _⟩ => rfl
  have he : ((cfg1.win 3).blk t).view.emb y = ix2 (rowAt ⟨t.val / 16, hi⟩ ⟨(y 0).val, hyr⟩) (⟨(y 1).val, hyc⟩ : Fin 64) := by
    funext a
    apply Fin.ext
    match a with
    | ⟨0, _⟩ => show win1_3.index t 0 * 2048 + 1 * (y 0).val = t.val / 16 * 2048 + (y 0).val; rw [e6]; omega
    | ⟨1, _⟩ => show win1_3.index t 1 * 64 + 1 * (y 1).val = (y 1).val; rw [e7]; omega
  show k1_pay3 (outsAt1 V c t.val t.isLt).2 (blkT1 V c t) ((cfg1.win 3).xinj (grid1.coords t) y) = G1 V c (((cfg1.win 3).blk t).view.emb y)
  rw [hx, he, k1_pay3_apply, outsAt1_congr V c (show t.val = 16 * (t.val / 16) + 15 by omega) t.isLt hti,
    scr1_last V c ⟨t.val / 16, hi⟩ hti, blkT1_apply V c t ⟨t.val / 16, hi⟩ 15 (by show t.val = 16 * (t.val / 16) + 15; omega)]
  rfl

theorem cover1 (y : S16384x64.Idx) :
    ∃ t : Fin cfg1.N, (cfg1.win 3).flush t = true ∧ y ∈ ((cfg1.win 3).blk t).view.set := by
  have hN : cfg1.N = 128 := N_1
  have hyr : (y 0).val < 16384 := (y 0).isLt
  have hyc : (y 1).val < 64 := (y 1).isLt
  have ht : 16 * ((y 0).val / 2048) + 15 < cfg1.N := by omega
  obtain ⟨-, -, -, -, -, -, e6, e7⟩ := points1_facts ⟨16 * ((y 0).val / 2048) + 15, ht⟩
  have e6' : win1_3.index ⟨16 * ((y 0).val / 2048) + 15, ht⟩ 0 = (16 * ((y 0).val / 2048) + 15) / 16 := e6
  refine ⟨⟨16 * ((y 0).val / 2048) + 15, ht⟩, (flush1_3 _).mpr (by show (16 * ((y 0).val / 2048) + 15) % 16 = 15; omega), ?_⟩
  show y ∈ ((View.whole (Pipeline.arrRef spec1 3)).slice (win1_3.rect ⟨16 * ((y 0).val / 2048) + 15, ht⟩)).set
  rw [View.set_slice_whole, Rect.mem_set_unit]
  intro a
  match a with
  | ⟨0, _⟩ =>
    show win1_3.index ⟨16 * ((y 0).val / 2048) + 15, ht⟩ 0 * 2048 ≤ (y 0).val
      ∧ (y 0).val < win1_3.index ⟨16 * ((y 0).val / 2048) + 15, ht⟩ 0 * 2048 + 2048
    rw [e6']; omega
  | ⟨1, _⟩ =>
    show win1_3.index ⟨16 * ((y 0).val / 2048) + 15, ht⟩ 1 * 64 ≤ (y 1).val
      ∧ (y 1).val < win1_3.index ⟨16 * ((y 0).val / 2048) + 15, ht⟩ 1 * 64 + 64
    rw [e7]; omega

theorem final1 (c : Dev nD) (r : Fin 16384) (k : Fin 64) :
    (dat1 V c).arrAt 3 cfg1.N (ix2 r k)
      = Cert.Spec.step (fun r j => (V c (Pipeline.arrRef spec1 0) : Vec Ideal S16384x16384 .f32) (ix2 r j))
          (fun r n => (V c (Pipeline.arrRef spec1 2) : Vec Ideal S16384x64 .f32) (ix2 r n))
          (fun r n => (V c (Pipeline.arrRef spec1 1) : Vec Ideal S16384x64 .f32) (ix2 r n)) r k :=
  congrFun ((dat1 V c).arrAt_eq_of_cover 3 (G1 V c) (flushed1_eq V c) cover1) (ix2 r k)

end Value

end Cert.KernelIdeal.Fr

end
-- ==== Proof.KI.Ap2Val.lean ====
/- (proof/Proof/KI/Ap1Val.lean with region 2's names put for region 1's; nothing else changed) -/
import proofs.«109160_j26783416057954_1_alg».proof.Proof.KI.Ap2
import proofs.«109160_j26783416057954_1_alg».proof.Proof.KI.StepPieces

set_option maxRecDepth 16384

noncomputable section

open scoped BigOperators

namespace Cert.KernelIdeal.Fr

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

section Steps

variable {F : FTy → Type} [FloatOps F]
variable (V : (c : Dev nD) → (b : Ref sig .tc) → Buf (Elt F) ((c : Thread nD τ).loc b))

abbrev arrA2 (c : Dev nD) : Vec F S16384x16384 .f32 := V c (Pipeline.arrRef spec2 0)
abbrev arrZ2 (c : Dev nD) : Vec F S16384x64 .f32 := V c (Pipeline.arrRef spec2 1)
abbrev arrT2 (c : Dev nD) : Vec F S16384x64 .f32 := V c (Pipeline.arrRef spec2 2)

abbrev blkA2 (c : Dev nD) (t : Fin cfg2.N) : Vec F S2048x1024 .f32 := iblk2 V c 0 t
abbrev blkZ2 (c : Dev nD) (t : Fin cfg2.N) : Vec F S1024x64 .f32 := iblk2 V c 1 t
abbrev blkT2 (c : Dev nD) (t : Fin cfg2.N) : Vec F S2048x64 .f32 := iblk2 V c 2 t

theorem outsAt2_congr (c : Dev nD) {n n' : ℕ} (e : n = n') (h : n < cfg2.N) (h' : n' < cfg2.N) :
    outsAt2 V c n h = outsAt2 V c n' h' := by subst e; rfl

theorem scr2_first (c : Dev nD) (t : Fin cfg2.N) (ha : t.val % 16 = 0) :
    (outsAt2 V c t.val t.isLt).2 = k1_pay2 (blkA2 V c t) (blkZ2 V c t) (k1_pay1 (F := F)) := by
  have hb : ¬t.val % 16 = 15 := by omega
  rw [outsAt2_A V c t ha hb]
  exact accA_eq VO2_3 VS2_0 c (grid2.coords t) (ms2_0 t) (hs2_0 t) (ms2_1 t) (hs2_1 t) (ms2_2 t) (hs2_2 t) (ms2_3 t) (hs2_3 t) scM2_0 (Memref.isWhole_whole _) ((hcondFirst t).mpr ha) (fun h => hb ((hcondLast t).mp h)) (iblk2 V c 0 t) (iblk2 V c 1 t) (iblk2 V c 2 t)

theorem scr2_step (c : Dev nD) (t : Fin cfg2.N) (ha : ¬t.val % 16 = 0) :
    (outsAt2 V c t.val t.isLt).2
      = k1_pay2 (blkA2 V c t) (blkZ2 V c t) (outsAt2 V c (t.val - 1) (Nat.lt_of_le_of_lt (Nat.sub_le _ _) t.isLt)).2 := by
  by_cases hb : t.val % 16 = 15
  · rw [outsAt2_C V c t ha hb]
    exact accC_eq VO2_3 VS2_0 c (grid2.coords t) (ms2_0 t) (hs2_0 t) (ms2_1 t) (hs2_1 t) (ms2_2 t) (hs2_2 t) (ms2_3 t) (hs2_3 t) scM2_0 (Memref.isWhole_whole _) (fun h => ha ((hcondFirst t).mp h)) ((hcondLast t).mpr hb) (iblk2 V c 0 t) (iblk2 V c 1 t) (iblk2 V c 2 t) (outsAt2 V c (t.val - 1) (Nat.lt_of_le_of_lt (Nat.sub_le _ _) t.isLt)).2
  · rw [outsAt2_B V c t ha hb]
    exact accB_eq VO2_3 VS2_0 c (grid2.coords t) (ms2_0 t) (hs2_0 t) (ms2_1 t) (hs2_1 t) (ms2_2 t) (hs2_2 t) (ms2_3 t) (hs2_3 t) scM2_0 (Memref.isWhole_whole _) (fun h => ha ((hcondFirst t).mp h)) (fun h => hb ((hcondLast t).mp h)) (iblk2 V c 0 t) (iblk2 V c 1 t) (iblk2 V c 2 t) (outsAt2 V c (t.val - 1) (Nat.lt_of_le_of_lt (Nat.sub_le _ _) t.isLt)).2

theorem out2_last (c : Dev nD) (t : Fin cfg2.N) (hb : t.val % 16 = 15) :
    (outsAt2 V c t.val t.isLt).1 = k1_pay3 (outsAt2 V c t.val t.isLt).2 (blkT2 V c t) := by
  have ha : ¬t.val % 16 = 0 := by omega
  rw [outsAt2_C V c t ha hb]
  exact outC_eq VO2_3 VS2_0 c (grid2.coords t) (ms2_0 t) (hs2_0 t) (ms2_1 t) (hs2_1 t) (ms2_2 t) (hs2_2 t) (ms2_3 t) (hs2_3 t) scM2_0 (Memref.isWhole_whole _) (fun h => ha ((hcondFirst t).mp h)) ((hcondLast t).mpr hb) (iblk2 V c 0 t) (iblk2 V c 1 t) (iblk2 V c 2 t) (outsAt2 V c (t.val - 1) (Nat.lt_of_le_of_lt (Nat.sub_le _ _) t.isLt)).2

theorem points2_facts : ∀ t : Fin cfg2.N,
    win2_0.index t (0 : Fin 2) = t.val / 16 ∧ win2_0.index t (1 : Fin 2) = t.val % 16
    ∧ win2_1.index t (0 : Fin 2) = t.val % 16 ∧ win2_1.index t (1 : Fin 2) = 0
    ∧ win2_2.index t (0 : Fin 2) = t.val / 16 ∧ win2_2.index t (1 : Fin 2) = 0
    ∧ win2_3.index t (0 : Fin 2) = t.val / 16 ∧ win2_3.index t (1 : Fin 2) = 0 :=
  (by decide +kernel : ∀ t : Fin grid2.N, _)

theorem blkA2_apply (c : Dev nD) (t : Fin cfg2.N) (i : Fin 8) (j : Fin 16) (ht : t.val = 16 * i.val + j.val)
    (p : Fin 2048) (k : Fin 1024) :
    blkA2 V c t (ix2 p k) = arrA2 V c (ix2 (rowAt i p) (colAt j k)) := by
  obtain ⟨ea, eb, -⟩ := points2_facts t
  unfold blkA2 iblk2
  rw [View.read_apply]
  show V c (Pipeline.arrRef spec2 0) _ = V c (Pipeline.arrRef spec2 0) _
  congr 1
  funext a
  apply Fin.ext
  match a with
  | ⟨0, _⟩ => show win2_0.index t 0 * 2048 + 1 * p.val = i.val * 2048 + p.val; rw [ea]; omega
  | ⟨1, _⟩ => show win2_0.index t 1 * 1024 + 1 * k.val = j.val * 1024 + k.val; rw [eb]; omega

theorem blkZ2_apply (c : Dev nD) (t : Fin cfg2.N) (i : Fin 8) (j : Fin 16) (ht : t.val = 16 * i.val + j.val)
    (k : Fin 1024) (q : Fin 64) :
    blkZ2 V c t (ix2 k q) = arrZ2 V c (ix2 (colAt j k) q) := by
  obtain ⟨-, -, e2, e3, -⟩ := points2_facts t
  unfold blkZ2 iblk2
  rw [View.read_apply]
  show V c (Pipeline.arrRef spec2 1) _ = V c (Pipeline.arrRef spec2 1) _
  congr 1
  funext a
  apply Fin.ext
  match a with
  | ⟨0, _⟩ => show win2_1.index t 0 * 1024 + 1 * k.val = j.val * 1024 + k.val; rw [e2]; omega
  | ⟨1, _⟩ => show win2_1.index t 1 * 64 + 1 * q.val = q.val; rw [e3]; omega

theorem blkT2_apply (c : Dev nD) (t : Fin cfg2.N) (i : Fin 8) (j : Fin 16) (ht : t.val = 16 * i.val + j.val)
    (p : Fin 2048) (q : Fin 64) :
    blkT2 V c t (ix2 p q) = arrT2 V c (ix2 (rowAt i p) q) := by
  obtain ⟨-, -, -, -, e4, e5, -⟩ := points2_facts t
  unfold blkT2 iblk2
  rw [View.read_apply]
  show V c (Pipeline.arrRef spec2 2) _ = V c (Pipeline.arrRef spec2 2) _
  congr 1
  funext a
  apply Fin.ext
  match a with
  | ⟨0, _⟩ => show win2_2.index t 0 * 2048 + 1 * p.val = i.val * 2048 + p.val; rw [e4]; omega
  | ⟨1, _⟩ => show win2_2.index t 1 * 64 + 1 * q.val = q.val; rw [e5]; omega

end Steps

section Value

variable (V : (c : Dev nD) → (b : Ref sig .tc) → Buf (Elt Ideal) ((c : Thread nD τ).loc b))

theorem scr2_last (c : Dev nD) (i : Fin 8) (h : 16 * i.val + 15 < cfg2.N) (p : Fin 2048) (q : Fin 64) :
    (outsAt2 V c (16 * i.val + 15) h).2 (ix2 p q)
      = ∑ k : Fin 16384, arrA2 V c (ix2 (rowAt i p) k) * arrZ2 V c (ix2 k q) := by
  have hN : cfg2.N = 128 := N_2
  have hi : i.val < 8 := i.isLt
  rw [sum_cols]
  refine (dif_pos h).symm.trans (chain16_eq_sum
    (fun j : Fin 16 => ∑ k : Fin 1024, arrA2 V c (ix2 (rowAt i p) (colAt j k)) * arrZ2 V c (ix2 (colAt j k) q))
    (fun n : ℕ => if hn : 16 * i.val + n < cfg2.N then (outsAt2 V c (16 * i.val + n) hn).2 (ix2 p q) else 0) ?_ ?_)
  · have h0 : 16 * i.val + 0 < cfg2.N := by omega
    show (if hn : 16 * i.val + 0 < cfg2.N then (outsAt2 V c (16 * i.val + 0) hn).2 (ix2 p q) else 0)
      = 0 + ∑ k : Fin 1024, arrA2 V c (ix2 (rowAt i p) (colAt 0 k)) * arrZ2 V c (ix2 (colAt 0 k) q)
    rw [dif_pos h0]
    refine (congrFun (scr2_first V c ⟨16 * i.val + 0, h0⟩ (by show (16 * i.val + 0) % 16 = 0; omega)) (ix2 p q)).trans ?_
    rw [k1_pay2_apply, k1_pay1_apply]
    refine congrArg (0 + ·) (Finset.sum_congr rfl fun k _ => ?_)
    rw [blkA2_apply V c ⟨16 * i.val + 0, h0⟩ i 0 rfl p k, blkZ2_apply V c ⟨16 * i.val + 0, h0⟩ i 0 rfl k q]
  · intro n hn
    have hsuc : 16 * i.val + (n + 1) < cfg2.N := by omega
    have hpre : 16 * i.val + n < cfg2.N := by omega
    show (if hn : 16 * i.val + (n + 1) < cfg2.N then (outsAt2 V c (16 * i.val + (n + 1)) hn).2 (ix2 p q) else 0)
      = (if hn : 16 * i.val + n < cfg2.N then (outsAt2 V c (16 * i.val + n) hn).2 (ix2 p q) else 0)
        + ∑ k : Fin 1024, arrA2 V c (ix2 (rowAt i p) (colAt ⟨n + 1, hn⟩ k)) * arrZ2 V c (ix2 (colAt ⟨n + 1, hn⟩ k) q)
    rw [dif_pos hsuc, dif_pos hpre]
    refine (congrFun (scr2_step V c ⟨16 * i.val + (n + 1), hsuc⟩ (by show ¬(16 * i.val + (n + 1)) % 16 = 0; omega)) (ix2 p q)).trans ?_
    rw [k1_pay2_apply]
    rw [outsAt2_congr V c (show 16 * i.val + (n + 1) - 1 = 16 * i.val + n by omega) _ hpre]
    refine congrArg (_ + ·) (Finset.sum_congr rfl fun k _ => ?_)
    rw [blkA2_apply V c ⟨16 * i.val + (n + 1), hsuc⟩ i ⟨n + 1, hn⟩ rfl p k, blkZ2_apply V c ⟨16 * i.val + (n + 1), hsuc⟩ i ⟨n + 1, hn⟩ rfl k q]

abbrev G2 (c : Dev nD) : Vec Ideal S16384x64 .f32 := fun y =>
  Cert.Spec.step (fun r j => arrA2 V c (ix2 r j)) (fun r n => arrT2 V c (ix2 r n)) (fun r n => arrZ2 V c (ix2 r n)) (y 0) (y 1)

theorem flushed2_eq (c : Dev nD) (t : Fin cfg2.N) (hf : (cfg2.win 3).flush t = true) :
    (dat2 V c).flushed 3 t = ((cfg2.win 3).blk t).view.read (Elt Ideal) (G2 V c) := by
  have hN : cfg2.N = 128 := N_2
  have hb : t.val % 16 = 15 := (flush2_3 t).mp hf
  have ht : t.val < cfg2.N := t.isLt
  obtain ⟨-, -, -, -, -, -, e6, e7⟩ := points2_facts t
  have hi : t.val / 16 < 8 := by omega
  have hti : 16 * (t.val / 16) + 15 < cfg2.N := by omega
  show (cfg2.win 3).cut (grid2.coords t) ((dat2 V c).after 3 t) = _
  rw [after2_3, out2_last V c t hb]
  funext y
  have hyr : (y 0).val < 2048 := (y 0).isLt
  have hyc : (y 1).val < 64 := (y 1).isLt
  have hx : (cfg2.win 3).xinj (grid2.coords t) y = ix2 (⟨(y 0).val, hyr⟩ : Fin 2048) (⟨(y 1).val, hyc⟩ : Fin 64) := by
    funext a
    match a with
    | ⟨0, _⟩ => rfl
    | ⟨1, _⟩ => rfl
  have he : ((cfg2.win 3).blk t).view.emb y = ix2 (rowAt ⟨t.val / 16, hi⟩ ⟨(y 0).val, hyr⟩) (⟨(y 1).val, hyc⟩ : Fin 64) := by
    funext a
    apply Fin.ext
    match a with
    | ⟨0, _⟩ => show win2_3.index t 0 * 2048 + 1 * (y 0).val = t.val / 16 * 2048 + (y 0).val; rw [e6]; omega
    | ⟨1, _⟩ => show win2_3.index t 1 * 64 + 1 * (y 1).val = (y 1).val; rw [e7]; omega
  show k1_pay3 (outsAt2 V c t.val t.isLt).2 (blkT2 V c t) ((cfg2.win 3).xinj (grid2.coords t) y) = G2 V c (((cfg2.win 3).blk t).view.emb y)
  rw [hx, he, k1_pay3_apply, outsAt2_congr V c (show t.val = 16 * (t.val / 16) + 15 by omega) t.isLt hti,
    scr2_last V c ⟨t.val / 16, hi⟩ hti, blkT2_apply V c t ⟨t.val / 16, hi⟩ 15 (by show t.val = 16 * (t.val / 16) + 15; omega)]
  rfl

theorem cover2 (y : S16384x64.Idx) :
    ∃ t : Fin cfg2.N, (cfg2.win 3).flush t = true ∧ y ∈ ((cfg2.win 3).blk t).view.set := by
  have hN : cfg2.N = 128 := N_2
  have hyr : (y 0).val < 16384 := (y 0).isLt
  have hyc : (y 1).val < 64 := (y 1).isLt
  have ht : 16 * ((y 0).val / 2048) + 15 < cfg2.N := by omega
  obtain ⟨-, -, -, -, -, -, e6, e7⟩ := points2_facts ⟨16 * ((y 0).val / 2048) + 15, ht⟩
  have e6' : win2_3.index ⟨16 * ((y 0).val / 2048) + 15, ht⟩ 0 = (16 * ((y 0).val / 2048) + 15) / 16 := e6
  refine ⟨⟨16 * ((y 0).val / 2048) + 15, ht⟩, (flush2_3 _).mpr (by show (16 * ((y 0).val / 2048) + 15) % 16 = 15; omega), ?_⟩
  show y ∈ ((View.whole (Pipeline.arrRef spec2 3)).slice (win2_3.rect ⟨16 * ((y 0).val / 2048) + 15, ht⟩)).set
  rw [View.set_slice_whole, Rect.mem_set_unit]
  intro a
  match a with
  | ⟨0, _⟩ =>
    show win2_3.index ⟨16 * ((y 0).val / 2048) + 15, ht⟩ 0 * 2048 ≤ (y 0).val
      ∧ (y 0).val < win2_3.index ⟨16 * ((y 0).val / 2048) + 15, ht⟩ 0 * 2048 + 2048
    rw [e6']; omega
  | ⟨1, _⟩ =>
    show win2_3.index ⟨16 * ((y 0).val / 2048) + 15, ht⟩ 1 * 64 ≤ (y 1).val
      ∧ (y 1).val < win2_3.index ⟨16 * ((y 0).val / 2048) + 15, ht⟩ 1 * 64 + 64
    rw [e7]; omega

theorem final2 (c : Dev nD) (r : Fin 16384) (k : Fin 64) :
    (dat2 V c).arrAt 3 cfg2.N (ix2 r k)
      = Cert.Spec.step (fun r j => (V c (Pipeline.arrRef spec2 0) : Vec Ideal S16384x16384 .f32) (ix2 r j))
          (fun r n => (V c (Pipeline.arrRef spec2 2) : Vec Ideal S16384x64 .f32) (ix2 r n))
          (fun r n => (V c (Pipeline.arrRef spec2 1) : Vec Ideal S16384x64 .f32) (ix2 r n)) r k :=
  congrFun ((dat2 V c).arrAt_eq_of_cover 3 (G2 V c) (flushed2_eq V c) cover2) (ix2 r k)

end Value

end Cert.KernelIdeal.Fr

end
-- ==== Proof.KI.Ap3Val.lean ====
/- (proof/Proof/KI/Ap1Val.lean with region 3's names put for region 1's; nothing else changed) -/
import proofs.«109160_j26783416057954_1_alg».proof.Proof.KI.Ap3
import proofs.«109160_j26783416057954_1_alg».proof.Proof.KI.StepPieces

set_option maxRecDepth 16384

noncomputable section

open scoped BigOperators

namespace Cert.KernelIdeal.Fr

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

section Steps

variable {F : FTy → Type} [FloatOps F]
variable (V : (c : Dev nD) → (b : Ref sig .tc) → Buf (Elt F) ((c : Thread nD τ).loc b))

abbrev arrA3 (c : Dev nD) : Vec F S16384x16384 .f32 := V c (Pipeline.arrRef spec3 0)
abbrev arrZ3 (c : Dev nD) : Vec F S16384x64 .f32 := V c (Pipeline.arrRef spec3 1)
abbrev arrT3 (c : Dev nD) : Vec F S16384x64 .f32 := V c (Pipeline.arrRef spec3 2)

abbrev blkA3 (c : Dev nD) (t : Fin cfg3.N) : Vec F S2048x1024 .f32 := iblk3 V c 0 t
abbrev blkZ3 (c : Dev nD) (t : Fin cfg3.N) : Vec F S1024x64 .f32 := iblk3 V c 1 t
abbrev blkT3 (c : Dev nD) (t : Fin cfg3.N) : Vec F S2048x64 .f32 := iblk3 V c 2 t

theorem outsAt3_congr (c : Dev nD) {n n' : ℕ} (e : n = n') (h : n < cfg3.N) (h' : n' < cfg3.N) :
    outsAt3 V c n h = outsAt3 V c n' h' := by subst e; rfl

theorem scr3_first (c : Dev nD) (t : Fin cfg3.N) (ha : t.val % 16 = 0) :
    (outsAt3 V c t.val t.isLt).2 = k1_pay2 (blkA3 V c t) (blkZ3 V c t) (k1_pay1 (F := F)) := by
  have hb : ¬t.val % 16 = 15 := by omega
  rw [outsAt3_A V c t ha hb]
  exact accA_eq VO3_3 VS3_0 c (grid3.coords t) (ms3_0 t) (hs3_0 t) (ms3_1 t) (hs3_1 t) (ms3_2 t) (hs3_2 t) (ms3_3 t) (hs3_3 t) scM3_0 (Memref.isWhole_whole _) ((hcondFirst t).mpr ha) (fun h => hb ((hcondLast t).mp h)) (iblk3 V c 0 t) (iblk3 V c 1 t) (iblk3 V c 2 t)

theorem scr3_step (c : Dev nD) (t : Fin cfg3.N) (ha : ¬t.val % 16 = 0) :
    (outsAt3 V c t.val t.isLt).2
      = k1_pay2 (blkA3 V c t) (blkZ3 V c t) (outsAt3 V c (t.val - 1) (Nat.lt_of_le_of_lt (Nat.sub_le _ _) t.isLt)).2 := by
  by_cases hb : t.val % 16 = 15
  · rw [outsAt3_C V c t ha hb]
    exact accC_eq VO3_3 VS3_0 c (grid3.coords t) (ms3_0 t) (hs3_0 t) (ms3_1 t) (hs3_1 t) (ms3_2 t) (hs3_2 t) (ms3_3 t) (hs3_3 t) scM3_0 (Memref.isWhole_whole _) (fun h => ha ((hcondFirst t).mp h)) ((hcondLast t).mpr hb) (iblk3 V c 0 t) (iblk3 V c 1 t) (iblk3 V c 2 t) (outsAt3 V c (t.val - 1) (Nat.lt_of_le_of_lt (Nat.sub_le _ _) t.isLt)).2
  · rw [outsAt3_B V c t ha hb]
    exact accB_eq VO3_3 VS3_0 c (grid3.coords t) (ms3_0 t) (hs3_0 t) (ms3_1 t) (hs3_1 t) (ms3_2 t) (hs3_2 t) (ms3_3 t) (hs3_3 t) scM3_0 (Memref.isWhole_whole _) (fun h => ha ((hcondFirst t).mp h)) (fun h => hb ((hcondLast t).mp h)) (iblk3 V c 0 t) (iblk3 V c 1 t) (iblk3 V c 2 t) (outsAt3 V c (t.val - 1) (Nat.lt_of_le_of_lt (Nat.sub_le _ _) t.isLt)).2

theorem out3_last (c : Dev nD) (t : Fin cfg3.N) (hb : t.val % 16 = 15) :
    (outsAt3 V c t.val t.isLt).1 = k1_pay3 (outsAt3 V c t.val t.isLt).2 (blkT3 V c t) := by
  have ha : ¬t.val % 16 = 0 := by omega
  rw [outsAt3_C V c t ha hb]
  exact outC_eq VO3_3 VS3_0 c (grid3.coords t) (ms3_0 t) (hs3_0 t) (ms3_1 t) (hs3_1 t) (ms3_2 t) (hs3_2 t) (ms3_3 t) (hs3_3 t) scM3_0 (Memref.isWhole_whole _) (fun h => ha ((hcondFirst t).mp h)) ((hcondLast t).mpr hb) (iblk3 V c 0 t) (iblk3 V c 1 t) (iblk3 V c 2 t) (outsAt3 V c (t.val - 1) (Nat.lt_of_le_of_lt (Nat.sub_le _ _) t.isLt)).2

theorem points3_facts : ∀ t : Fin cfg3.N,
    win3_0.index t (0 : Fin 2) = t.val / 16 ∧ win3_0.index t (1 : Fin 2) = t.val % 16
    ∧ win3_1.index t (0 : Fin 2) = t.val % 16 ∧ win3_1.index t (1 : Fin 2) = 0
    ∧ win3_2.index t (0 : Fin 2) = t.val / 16 ∧ win3_2.index t (1 : Fin 2) = 0
    ∧ win3_3.index t (0 : Fin 2) = t.val / 16 ∧ win3_3.index t (1 : Fin 2) = 0 :=
  (by decide +kernel : ∀ t : Fin grid3.N, _)

theorem blkA3_apply (c : Dev nD) (t : Fin cfg3.N) (i : Fin 8) (j : Fin 16) (ht : t.val = 16 * i.val + j.val)
    (p : Fin 2048) (k : Fin 1024) :
    blkA3 V c t (ix2 p k) = arrA3 V c (ix2 (rowAt i p) (colAt j k)) := by
  obtain ⟨ea, eb, -⟩ := points3_facts t
  unfold blkA3 iblk3
  rw [View.read_apply]
  show V c (Pipeline.arrRef spec3 0) _ = V c (Pipeline.arrRef spec3 0) _
  congr 1
  funext a
  apply Fin.ext
  match a with
  | ⟨0, _⟩ => show win3_0.index t 0 * 2048 + 1 * p.val = i.val * 2048 + p.val; rw [ea]; omega
  | ⟨1, _⟩ => show win3_0.index t 1 * 1024 + 1 * k.val = j.val * 1024 + k.val; rw [eb]; omega

theorem blkZ3_apply (c : Dev nD) (t : Fin cfg3.N) (i : Fin 8) (j : Fin 16) (ht : t.val = 16 * i.val + j.val)
    (k : Fin 1024) (q : Fin 64) :
    blkZ3 V c t (ix2 k q) = arrZ3 V c (ix2 (colAt j k) q) := by
  obtain ⟨-, -, e2, e3, -⟩ := points3_facts t
  unfold blkZ3 iblk3
  rw [View.read_apply]
  show V c (Pipeline.arrRef spec3 1) _ = V c (Pipeline.arrRef spec3 1) _
  congr 1
  funext a
  apply Fin.ext
  match a with
  | ⟨0, _⟩ => show win3_1.index t 0 * 1024 + 1 * k.val = j.val * 1024 + k.val; rw [e2]; omega
  | ⟨1, _⟩ => show win3_1.index t 1 * 64 + 1 * q.val = q.val; rw [e3]; omega

theorem blkT3_apply (c : Dev nD) (t : Fin cfg3.N) (i : Fin 8) (j : Fin 16) (ht : t.val = 16 * i.val + j.val)
    (p : Fin 2048) (q : Fin 64) :
    blkT3 V c t (ix2 p q) = arrT3 V c (ix2 (rowAt i p) q) := by
  obtain ⟨-, -, -, -, e4, e5, -⟩ := points3_facts t
  unfold blkT3 iblk3
  rw [View.read_apply]
  show V c (Pipeline.arrRef spec3 2) _ = V c (Pipeline.arrRef spec3 2) _
  congr 1
  funext a
  apply Fin.ext
  match a with
  | ⟨0, _⟩ => show win3_2.index t 0 * 2048 + 1 * p.val = i.val * 2048 + p.val; rw [e4]; omega
  | ⟨1, _⟩ => show win3_2.index t 1 * 64 + 1 * q.val = q.val; rw [e5]; omega

end Steps

section Value

variable (V : (c : Dev nD) → (b : Ref sig .tc) → Buf (Elt Ideal) ((c : Thread nD τ).loc b))

theorem scr3_last (c : Dev nD) (i : Fin 8) (h : 16 * i.val + 15 < cfg3.N) (p : Fin 2048) (q : Fin 64) :
    (outsAt3 V c (16 * i.val + 15) h).2 (ix2 p q)
      = ∑ k : Fin 16384, arrA3 V c (ix2 (rowAt i p) k) * arrZ3 V c (ix2 k q) := by
  have hN : cfg3.N = 128 := N_3
  have hi : i.val < 8 := i.isLt
  rw [sum_cols]
  refine (dif_pos h).symm.trans (chain16_eq_sum
    (fun j : Fin 16 => ∑ k : Fin 1024, arrA3 V c (ix2 (rowAt i p) (colAt j k)) * arrZ3 V c (ix2 (colAt j k) q))
    (fun n : ℕ => if hn : 16 * i.val + n < cfg3.N then (outsAt3 V c (16 * i.val + n) hn).2 (ix2 p q) else 0) ?_ ?_)
  · have h0 : 16 * i.val + 0 < cfg3.N := by omega
    show (if hn : 16 * i.val + 0 < cfg3.N then (outsAt3 V c (16 * i.val + 0) hn).2 (ix2 p q) else 0)
      = 0 + ∑ k : Fin 1024, arrA3 V c (ix2 (rowAt i p) (colAt 0 k)) * arrZ3 V c (ix2 (colAt 0 k) q)
    rw [dif_pos h0]
    refine (congrFun (scr3_first V c ⟨16 * i.val + 0, h0⟩ (by show (16 * i.val + 0) % 16 = 0; omega)) (ix2 p q)).trans ?_
    rw [k1_pay2_apply, k1_pay1_apply]
    refine congrArg (0 + ·) (Finset.sum_congr rfl fun k _ => ?_)
    rw [blkA3_apply V c ⟨16 * i.val + 0, h0⟩ i 0 rfl p k, blkZ3_apply V c ⟨16 * i.val + 0, h0⟩ i 0 rfl k q]
  · intro n hn
    have hsuc : 16 * i.val + (n + 1) < cfg3.N := by omega
    have hpre : 16 * i.val + n < cfg3.N := by omega
    show (if hn : 16 * i.val + (n + 1) < cfg3.N then (outsAt3 V c (16 * i.val + (n + 1)) hn).2 (ix2 p q) else 0)
      = (if hn : 16 * i.val + n < cfg3.N then (outsAt3 V c (16 * i.val + n) hn).2 (ix2 p q) else 0)
        + ∑ k : Fin 1024, arrA3 V c (ix2 (rowAt i p) (colAt ⟨n + 1, hn⟩ k)) * arrZ3 V c (ix2 (colAt ⟨n + 1, hn⟩ k) q)
    rw [dif_pos hsuc, dif_pos hpre]
    refine (congrFun (scr3_step V c ⟨16 * i.val + (n + 1), hsuc⟩ (by show ¬(16 * i.val + (n + 1)) % 16 = 0; omega)) (ix2 p q)).trans ?_
    rw [k1_pay2_apply]
    rw [outsAt3_congr V c (show 16 * i.val + (n + 1) - 1 = 16 * i.val + n by omega) _ hpre]
    refine congrArg (_ + ·) (Finset.sum_congr rfl fun k _ => ?_)
    rw [blkA3_apply V c ⟨16 * i.val + (n + 1), hsuc⟩ i ⟨n + 1, hn⟩ rfl p k, blkZ3_apply V c ⟨16 * i.val + (n + 1), hsuc⟩ i ⟨n + 1, hn⟩ rfl k q]

abbrev G3 (c : Dev nD) : Vec Ideal S16384x64 .f32 := fun y =>
  Cert.Spec.step (fun r j => arrA3 V c (ix2 r j)) (fun r n => arrT3 V c (ix2 r n)) (fun r n => arrZ3 V c (ix2 r n)) (y 0) (y 1)

theorem flushed3_eq (c : Dev nD) (t : Fin cfg3.N) (hf : (cfg3.win 3).flush t = true) :
    (dat3 V c).flushed 3 t = ((cfg3.win 3).blk t).view.read (Elt Ideal) (G3 V c) := by
  have hN : cfg3.N = 128 := N_3
  have hb : t.val % 16 = 15 := (flush3_3 t).mp hf
  have ht : t.val < cfg3.N := t.isLt
  obtain ⟨-, -, -, -, -, -, e6, e7⟩ := points3_facts t
  have hi : t.val / 16 < 8 := by omega
  have hti : 16 * (t.val / 16) + 15 < cfg3.N := by omega
  show (cfg3.win 3).cut (grid3.coords t) ((dat3 V c).after 3 t) = _
  rw [after3_3, out3_last V c t hb]
  funext y
  have hyr : (y 0).val < 2048 := (y 0).isLt
  have hyc : (y 1).val < 64 := (y 1).isLt
  have hx : (cfg3.win 3).xinj (grid3.coords t) y = ix2 (⟨(y 0).val, hyr⟩ : Fin 2048) (⟨(y 1).val, hyc⟩ : Fin 64) := by
    funext a
    match a with
    | ⟨0, _⟩ => rfl
    | ⟨1, _⟩ => rfl
  have he : ((cfg3.win 3).blk t).view.emb y = ix2 (rowAt ⟨t.val / 16, hi⟩ ⟨(y 0).val, hyr⟩) (⟨(y 1).val, hyc⟩ : Fin 64) := by
    funext a
    apply Fin.ext
    match a with
    | ⟨0, _⟩ => show win3_3.index t 0 * 2048 + 1 * (y 0).val = t.val / 16 * 2048 + (y 0).val; rw [e6]; omega
    | ⟨1, _⟩ => show win3_3.index t 1 * 64 + 1 * (y 1).val = (y 1).val; rw [e7]; omega
  show k1_pay3 (outsAt3 V c t.val t.isLt).2 (blkT3 V c t) ((cfg3.win 3).xinj (grid3.coords t) y) = G3 V c (((cfg3.win 3).blk t).view.emb y)
  rw [hx, he, k1_pay3_apply, outsAt3_congr V c (show t.val = 16 * (t.val / 16) + 15 by omega) t.isLt hti,
    scr3_last V c ⟨t.val / 16, hi⟩ hti, blkT3_apply V c t ⟨t.val / 16, hi⟩ 15 (by show t.val = 16 * (t.val / 16) + 15; omega)]
  rfl

theorem cover3 (y : S16384x64.Idx) :
    ∃ t : Fin cfg3.N, (cfg3.win 3).flush t = true ∧ y ∈ ((cfg3.win 3).blk t).view.set := by
  have hN : cfg3.N = 128 := N_3
  have hyr : (y 0).val < 16384 := (y 0).isLt
  have hyc : (y 1).val < 64 := (y 1).isLt
  have ht : 16 * ((y 0).val / 2048) + 15 < cfg3.N := by omega
  obtain ⟨-, -, -, -, -, -, e6, e7⟩ := points3_facts ⟨16 * ((y 0).val / 2048) + 15, ht⟩
  have e6' : win3_3.index ⟨16 * ((y 0).val / 2048) + 15, ht⟩ 0 = (16 * ((y 0).val / 2048) + 15) / 16 := e6
  refine ⟨⟨16 * ((y 0).val / 2048) + 15, ht⟩, (flush3_3 _).mpr (by show (16 * ((y 0).val / 2048) + 15) % 16 = 15; omega), ?_⟩
  show y ∈ ((View.whole (Pipeline.arrRef spec3 3)).slice (win3_3.rect ⟨16 * ((y 0).val / 2048) + 15, ht⟩)).set
  rw [View.set_slice_whole, Rect.mem_set_unit]
  intro a
  match a with
  | ⟨0, _⟩ =>
    show win3_3.index ⟨16 * ((y 0).val / 2048) + 15, ht⟩ 0 * 2048 ≤ (y 0).val
      ∧ (y 0).val < win3_3.index ⟨16 * ((y 0).val / 2048) + 15, ht⟩ 0 * 2048 + 2048
    rw [e6']; omega
  | ⟨1, _⟩ =>
    show win3_3.index ⟨16 * ((y 0).val / 2048) + 15, ht⟩ 1 * 64 ≤ (y 1).val
      ∧ (y 1).val < win3_3.index ⟨16 * ((y 0).val / 2048) + 15, ht⟩ 1 * 64 + 64
    rw [e7]; omega

theorem final3 (c : Dev nD) (r : Fin 16384) (k : Fin 64) :
    (dat3 V c).arrAt 3 cfg3.N (ix2 r k)
      = Cert.Spec.step (fun r j => (V c (Pipeline.arrRef spec3 0) : Vec Ideal S16384x16384 .f32) (ix2 r j))
          (fun r n => (V c (Pipeline.arrRef spec3 2) : Vec Ideal S16384x64 .f32) (ix2 r n))
          (fun r n => (V c (Pipeline.arrRef spec3 1) : Vec Ideal S16384x64 .f32) (ix2 r n)) r k :=
  congrFun ((dat3 V c).arrAt_eq_of_cover 3 (G3 V c) (flushed3_eq V c) cover3) (ix2 r k)

end Value

end Cert.KernelIdeal.Fr

end
-- ==== Proof.KI.Ap4Val.lean ====
/- (proof/Proof/KI/Ap1Val.lean with region 4's names put for region 1's; nothing else changed) -/
import proofs.«109160_j26783416057954_1_alg».proof.Proof.KI.Ap4
import proofs.«109160_j26783416057954_1_alg».proof.Proof.KI.StepPieces

set_option maxRecDepth 16384

noncomputable section

open scoped BigOperators

namespace Cert.KernelIdeal.Fr

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

section Steps

variable {F : FTy → Type} [FloatOps F]
variable (V : (c : Dev nD) → (b : Ref sig .tc) → Buf (Elt F) ((c : Thread nD τ).loc b))

abbrev arrA4 (c : Dev nD) : Vec F S16384x16384 .f32 := V c (Pipeline.arrRef spec4 0)
abbrev arrZ4 (c : Dev nD) : Vec F S16384x64 .f32 := V c (Pipeline.arrRef spec4 1)
abbrev arrT4 (c : Dev nD) : Vec F S16384x64 .f32 := V c (Pipeline.arrRef spec4 2)

abbrev blkA4 (c : Dev nD) (t : Fin cfg4.N) : Vec F S2048x1024 .f32 := iblk4 V c 0 t
abbrev blkZ4 (c : Dev nD) (t : Fin cfg4.N) : Vec F S1024x64 .f32 := iblk4 V c 1 t
abbrev blkT4 (c : Dev nD) (t : Fin cfg4.N) : Vec F S2048x64 .f32 := iblk4 V c 2 t

theorem outsAt4_congr (c : Dev nD) {n n' : ℕ} (e : n = n') (h : n < cfg4.N) (h' : n' < cfg4.N) :
    outsAt4 V c n h = outsAt4 V c n' h' := by subst e; rfl

theorem scr4_first (c : Dev nD) (t : Fin cfg4.N) (ha : t.val % 16 = 0) :
    (outsAt4 V c t.val t.isLt).2 = k1_pay2 (blkA4 V c t) (blkZ4 V c t) (k1_pay1 (F := F)) := by
  have hb : ¬t.val % 16 = 15 := by omega
  rw [outsAt4_A V c t ha hb]
  exact accA_eq VO4_3 VS4_0 c (grid4.coords t) (ms4_0 t) (hs4_0 t) (ms4_1 t) (hs4_1 t) (ms4_2 t) (hs4_2 t) (ms4_3 t) (hs4_3 t) scM4_0 (Memref.isWhole_whole _) ((hcondFirst t).mpr ha) (fun h => hb ((hcondLast t).mp h)) (iblk4 V c 0 t) (iblk4 V c 1 t) (iblk4 V c 2 t)

theorem scr4_step (c : Dev nD) (t : Fin cfg4.N) (ha : ¬t.val % 16 = 0) :
    (outsAt4 V c t.val t.isLt).2
      = k1_pay2 (blkA4 V c t) (blkZ4 V c t) (outsAt4 V c (t.val - 1) (Nat.lt_of_le_of_lt (Nat.sub_le _ _) t.isLt)).2 := by
  by_cases hb : t.val % 16 = 15
  · rw [outsAt4_C V c t ha hb]
    exact accC_eq VO4_3 VS4_0 c (grid4.coords t) (ms4_0 t) (hs4_0 t) (ms4_1 t) (hs4_1 t) (ms4_2 t) (hs4_2 t) (ms4_3 t) (hs4_3 t) scM4_0 (Memref.isWhole_whole _) (fun h => ha ((hcondFirst t).mp h)) ((hcondLast t).mpr hb) (iblk4 V c 0 t) (iblk4 V c 1 t) (iblk4 V c 2 t) (outsAt4 V c (t.val - 1) (Nat.lt_of_le_of_lt (Nat.sub_le _ _) t.isLt)).2
  · rw [outsAt4_B V c t ha hb]
    exact accB_eq VO4_3 VS4_0 c (grid4.coords t) (ms4_0 t) (hs4_0 t) (ms4_1 t) (hs4_1 t) (ms4_2 t) (hs4_2 t) (ms4_3 t) (hs4_3 t) scM4_0 (Memref.isWhole_whole _) (fun h => ha ((hcondFirst t).mp h)) (fun h => hb ((hcondLast t).mp h)) (iblk4 V c 0 t) (iblk4 V c 1 t) (iblk4 V c 2 t) (outsAt4 V c (t.val - 1) (Nat.lt_of_le_of_lt (Nat.sub_le _ _) t.isLt)).2

theorem out4_last (c : Dev nD) (t : Fin cfg4.N) (hb : t.val % 16 = 15) :
    (outsAt4 V c t.val t.isLt).1 = k1_pay3 (outsAt4 V c t.val t.isLt).2 (blkT4 V c t) := by
  have ha : ¬t.val % 16 = 0 := by omega
  rw [outsAt4_C V c t ha hb]
  exact outC_eq VO4_3 VS4_0 c (grid4.coords t) (ms4_0 t) (hs4_0 t) (ms4_1 t) (hs4_1 t) (ms4_2 t) (hs4_2 t) (ms4_3 t) (hs4_3 t) scM4_0 (Memref.isWhole_whole _) (fun h => ha ((hcondFirst t).mp h)) ((hcondLast t).mpr hb) (iblk4 V c 0 t) (iblk4 V c 1 t) (iblk4 V c 2 t) (outsAt4 V c (t.val - 1) (Nat.lt_of_le_of_lt (Nat.sub_le _ _) t.isLt)).2

theorem points4_facts : ∀ t : Fin cfg4.N,
    win4_0.index t (0 : Fin 2) = t.val / 16 ∧ win4_0.index t (1 : Fin 2) = t.val % 16
    ∧ win4_1.index t (0 : Fin 2) = t.val % 16 ∧ win4_1.index t (1 : Fin 2) = 0
    ∧ win4_2.index t (0 : Fin 2) = t.val / 16 ∧ win4_2.index t (1 : Fin 2) = 0
    ∧ win4_3.index t (0 : Fin 2) = t.val / 16 ∧ win4_3.index t (1 : Fin 2) = 0 :=
  (by decide +kernel : ∀ t : Fin grid4.N, _)

theorem blkA4_apply (c : Dev nD) (t : Fin cfg4.N) (i : Fin 8) (j : Fin 16) (ht : t.val = 16 * i.val + j.val)
    (p : Fin 2048) (k : Fin 1024) :
    blkA4 V c t (ix2 p k) = arrA4 V c (ix2 (rowAt i p) (colAt j k)) := by
  obtain ⟨ea, eb, -⟩ := points4_facts t
  unfold blkA4 iblk4
  rw [View.read_apply]
  show V c (Pipeline.arrRef spec4 0) _ = V c (Pipeline.arrRef spec4 0) _
  congr 1
  funext a
  apply Fin.ext
  match a with
  | ⟨0, _⟩ => show win4_0.index t 0 * 2048 + 1 * p.val = i.val * 2048 + p.val; rw [ea]; omega
  | ⟨1, _⟩ => show win4_0.index t 1 * 1024 + 1 * k.val = j.val * 1024 + k.val; rw [eb]; omega

theorem blkZ4_apply (c : Dev nD) (t : Fin cfg4.N) (i : Fin 8) (j : Fin 16) (ht : t.val = 16 * i.val + j.val)
    (k : Fin 1024) (q : Fin 64) :
    blkZ4 V c t (ix2 k q) = arrZ4 V c (ix2 (colAt j k) q) := by
  obtain ⟨-, -, e2, e3, -⟩ := points4_facts t
  unfold blkZ4 iblk4
  rw [View.read_apply]
  show V c (Pipeline.arrRef spec4 1) _ = V c (Pipeline.arrRef spec4 1) _
  congr 1
  funext a
  apply Fin.ext
  match a with
  | ⟨0, _⟩ => show win4_1.index t 0 * 1024 + 1 * k.val = j.val * 1024 + k.val; rw [e2]; omega
  | ⟨1, _⟩ => show win4_1.index t 1 * 64 + 1 * q.val = q.val; rw [e3]; omega

theorem blkT4_apply (c : Dev nD) (t : Fin cfg4.N) (i : Fin 8) (j : Fin 16) (ht : t.val = 16 * i.val + j.val)
    (p : Fin 2048) (q : Fin 64) :
    blkT4 V c t (ix2 p q) = arrT4 V c (ix2 (rowAt i p) q) := by
  obtain ⟨-, -, -, -, e4, e5, -⟩ := points4_facts t
  unfold blkT4 iblk4
  rw [View.read_apply]
  show V c (Pipeline.arrRef spec4 2) _ = V c (Pipeline.arrRef spec4 2) _
  congr 1
  funext a
  apply Fin.ext
  match a with
  | ⟨0, _⟩ => show win4_2.index t 0 * 2048 + 1 * p.val = i.val * 2048 + p.val; rw [e4]; omega
  | ⟨1, _⟩ => show win4_2.index t 1 * 64 + 1 * q.val = q.val; rw [e5]; omega

end Steps

section Value

variable (V : (c : Dev nD) → (b : Ref sig .tc) → Buf (Elt Ideal) ((c : Thread nD τ).loc b))

theorem scr4_last (c : Dev nD) (i : Fin 8) (h : 16 * i.val + 15 < cfg4.N) (p : Fin 2048) (q : Fin 64) :
    (outsAt4 V c (16 * i.val + 15) h).2 (ix2 p q)
      = ∑ k : Fin 16384, arrA4 V c (ix2 (rowAt i p) k) * arrZ4 V c (ix2 k q) := by
  have hN : cfg4.N = 128 := N_4
  have hi : i.val < 8 := i.isLt
  rw [sum_cols]
  refine (dif_pos h).symm.trans (chain16_eq_sum
    (fun j : Fin 16 => ∑ k : Fin 1024, arrA4 V c (ix2 (rowAt i p) (colAt j k)) * arrZ4 V c (ix2 (colAt j k) q))
    (fun n : ℕ => if hn : 16 * i.val + n < cfg4.N then (outsAt4 V c (16 * i.val + n) hn).2 (ix2 p q) else 0) ?_ ?_)
  · have h0 : 16 * i.val + 0 < cfg4.N := by omega
    show (if hn : 16 * i.val + 0 < cfg4.N then (outsAt4 V c (16 * i.val + 0) hn).2 (ix2 p q) else 0)
      = 0 + ∑ k : Fin 1024, arrA4 V c (ix2 (rowAt i p) (colAt 0 k)) * arrZ4 V c (ix2 (colAt 0 k) q)
    rw [dif_pos h0]
    refine (congrFun (scr4_first V c ⟨16 * i.val + 0, h0⟩ (by show (16 * i.val + 0) % 16 = 0; omega)) (ix2 p q)).trans ?_
    rw [k1_pay2_apply, k1_pay1_apply]
    refine congrArg (0 + ·) (Finset.sum_congr rfl fun k _ => ?_)
    rw [blkA4_apply V c ⟨16 * i.val + 0, h0⟩ i 0 rfl p k, blkZ4_apply V c ⟨16 * i.val + 0, h0⟩ i 0 rfl k q]
  · intro n hn
    have hsuc : 16 * i.val + (n + 1) < cfg4.N := by omega
    have hpre : 16 * i.val + n < cfg4.N := by omega
    show (if hn : 16 * i.val + (n + 1) < cfg4.N then (outsAt4 V c (16 * i.val + (n + 1)) hn).2 (ix2 p q) else 0)
      = (if hn : 16 * i.val + n < cfg4.N then (outsAt4 V c (16 * i.val + n) hn).2 (ix2 p q) else 0)
        + ∑ k : Fin 1024, arrA4 V c (ix2 (rowAt i p) (colAt ⟨n + 1, hn⟩ k)) * arrZ4 V c (ix2 (colAt ⟨n + 1, hn⟩ k) q)
    rw [dif_pos hsuc, dif_pos hpre]
    refine (congrFun (scr4_step V c ⟨16 * i.val + (n + 1), hsuc⟩ (by show ¬(16 * i.val + (n + 1)) % 16 = 0; omega)) (ix2 p q)).trans ?_
    rw [k1_pay2_apply]
    rw [outsAt4_congr V c (show 16 * i.val + (n + 1) - 1 = 16 * i.val + n by omega) _ hpre]
    refine congrArg (_ + ·) (Finset.sum_congr rfl fun k _ => ?_)
    rw [blkA4_apply V c ⟨16 * i.val + (n + 1), hsuc⟩ i ⟨n + 1, hn⟩ rfl p k, blkZ4_apply V c ⟨16 * i.val + (n + 1), hsuc⟩ i ⟨n + 1, hn⟩ rfl k q]

abbrev G4 (c : Dev nD) : Vec Ideal S16384x64 .f32 := fun y =>
  Cert.Spec.step (fun r j => arrA4 V c (ix2 r j)) (fun r n => arrT4 V c (ix2 r n)) (fun r n => arrZ4 V c (ix2 r n)) (y 0) (y 1)

theorem flushed4_eq (c : Dev nD) (t : Fin cfg4.N) (hf : (cfg4.win 3).flush t = true) :
    (dat4 V c).flushed 3 t = ((cfg4.win 3).blk t).view.read (Elt Ideal) (G4 V c) := by
  have hN : cfg4.N = 128 := N_4
  have hb : t.val % 16 = 15 := (flush4_3 t).mp hf
  have ht : t.val < cfg4.N := t.isLt
  obtain ⟨-, -, -, -, -, -, e6, e7⟩ := points4_facts t
  have hi : t.val / 16 < 8 := by omega
  have hti : 16 * (t.val / 16) + 15 < cfg4.N := by omega
  show (cfg4.win 3).cut (grid4.coords t) ((dat4 V c).after 3 t) = _
  rw [after4_3, out4_last V c t hb]
  funext y
  have hyr : (y 0).val < 2048 := (y 0).isLt
  have hyc : (y 1).val < 64 := (y 1).isLt
  have hx : (cfg4.win 3).xinj (grid4.coords t) y = ix2 (⟨(y 0).val, hyr⟩ : Fin 2048) (⟨(y 1).val, hyc⟩ : Fin 64) := by
    funext a
    match a with
    | ⟨0, _⟩ => rfl
    | ⟨1, _⟩ => rfl
  have he : ((cfg4.win 3).blk t).view.emb y = ix2 (rowAt ⟨t.val / 16, hi⟩ ⟨(y 0).val, hyr⟩) (⟨(y 1).val, hyc⟩ : Fin 64) := by
    funext a
    apply Fin.ext
    match a with
    | ⟨0, _⟩ => show win4_3.index t 0 * 2048 + 1 * (y 0).val = t.val / 16 * 2048 + (y 0).val; rw [e6]; omega
    | ⟨1, _⟩ => show win4_3.index t 1 * 64 + 1 * (y 1).val = (y 1).val; rw [e7]; omega
  show k1_pay3 (outsAt4 V c t.val t.isLt).2 (blkT4 V c t) ((cfg4.win 3).xinj (grid4.coords t) y) = G4 V c (((cfg4.win 3).blk t).view.emb y)
  rw [hx, he, k1_pay3_apply, outsAt4_congr V c (show t.val = 16 * (t.val / 16) + 15 by omega) t.isLt hti,
    scr4_last V c ⟨t.val / 16, hi⟩ hti, blkT4_apply V c t ⟨t.val / 16, hi⟩ 15 (by show t.val = 16 * (t.val / 16) + 15; omega)]
  rfl

theorem cover4 (y : S16384x64.Idx) :
    ∃ t : Fin cfg4.N, (cfg4.win 3).flush t = true ∧ y ∈ ((cfg4.win 3).blk t).view.set := by
  have hN : cfg4.N = 128 := N_4
  have hyr : (y 0).val < 16384 := (y 0).isLt
  have hyc : (y 1).val < 64 := (y 1).isLt
  have ht : 16 * ((y 0).val / 2048) + 15 < cfg4.N := by omega
  obtain ⟨-, -, -, -, -, -, e6, e7⟩ := points4_facts ⟨16 * ((y 0).val / 2048) + 15, ht⟩
  have e6' : win4_3.index ⟨16 * ((y 0).val / 2048) + 15, ht⟩ 0 = (16 * ((y 0).val / 2048) + 15) / 16 := e6
  refine ⟨⟨16 * ((y 0).val / 2048) + 15, ht⟩, (flush4_3 _).mpr (by show (16 * ((y 0).val / 2048) + 15) % 16 = 15; omega), ?_⟩
  show y ∈ ((View.whole (Pipeline.arrRef spec4 3)).slice (win4_3.rect ⟨16 * ((y 0).val / 2048) + 15, ht⟩)).set
  rw [View.set_slice_whole, Rect.mem_set_unit]
  intro a
  match a with
  | ⟨0, _⟩ =>
    show win4_3.index ⟨16 * ((y 0).val / 2048) + 15, ht⟩ 0 * 2048 ≤ (y 0).val
      ∧ (y 0).val < win4_3.index ⟨16 * ((y 0).val / 2048) + 15, ht⟩ 0 * 2048 + 2048
    rw [e6']; omega
  | ⟨1, _⟩ =>
    show win4_3.index ⟨16 * ((y 0).val / 2048) + 15, ht⟩ 1 * 64 ≤ (y 1).val
      ∧ (y 1).val < win4_3.index ⟨16 * ((y 0).val / 2048) + 15, ht⟩ 1 * 64 + 64
    rw [e7]; omega

theorem final4 (c : Dev nD) (r : Fin 16384) (k : Fin 64) :
    (dat4 V c).arrAt 3 cfg4.N (ix2 r k)
      = Cert.Spec.step (fun r j => (V c (Pipeline.arrRef spec4 0) : Vec Ideal S16384x16384 .f32) (ix2 r j))
          (fun r n => (V c (Pipeline.arrRef spec4 2) : Vec Ideal S16384x64 .f32) (ix2 r n))
          (fun r n => (V c (Pipeline.arrRef spec4 1) : Vec Ideal S16384x64 .f32) (ix2 r n)) r k :=
  congrFun ((dat4 V c).arrAt_eq_of_cover 3 (G4 V c) (flushed4_eq V c) cover4) (ix2 r k)

end Value

end Cert.KernelIdeal.Fr

end
-- ==== Proof.KI.Ap5Val.lean ====
/- (proof/Proof/KI/Ap1Val.lean with region 5's names put for region 1's; nothing else changed) -/
import proofs.«109160_j26783416057954_1_alg».proof.Proof.KI.Ap5
import proofs.«109160_j26783416057954_1_alg».proof.Proof.KI.StepPieces

set_option maxRecDepth 16384

noncomputable section

open scoped BigOperators

namespace Cert.KernelIdeal.Fr

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

section Steps

variable {F : FTy → Type} [FloatOps F]
variable (V : (c : Dev nD) → (b : Ref sig .tc) → Buf (Elt F) ((c : Thread nD τ).loc b))

abbrev arrA5 (c : Dev nD) : Vec F S16384x16384 .f32 := V c (Pipeline.arrRef spec5 0)
abbrev arrZ5 (c : Dev nD) : Vec F S16384x64 .f32 := V c (Pipeline.arrRef spec5 1)
abbrev arrT5 (c : Dev nD) : Vec F S16384x64 .f32 := V c (Pipeline.arrRef spec5 2)

abbrev blkA5 (c : Dev nD) (t : Fin cfg5.N) : Vec F S2048x1024 .f32 := iblk5 V c 0 t
abbrev blkZ5 (c : Dev nD) (t : Fin cfg5.N) : Vec F S1024x64 .f32 := iblk5 V c 1 t
abbrev blkT5 (c : Dev nD) (t : Fin cfg5.N) : Vec F S2048x64 .f32 := iblk5 V c 2 t

theorem outsAt5_congr (c : Dev nD) {n n' : ℕ} (e : n = n') (h : n < cfg5.N) (h' : n' < cfg5.N) :
    outsAt5 V c n h = outsAt5 V c n' h' := by subst e; rfl

theorem scr5_first (c : Dev nD) (t : Fin cfg5.N) (ha : t.val % 16 = 0) :
    (outsAt5 V c t.val t.isLt).2 = k1_pay2 (blkA5 V c t) (blkZ5 V c t) (k1_pay1 (F := F)) := by
  have hb : ¬t.val % 16 = 15 := by omega
  rw [outsAt5_A V c t ha hb]
  exact accA_eq VO5_3 VS5_0 c (grid5.coords t) (ms5_0 t) (hs5_0 t) (ms5_1 t) (hs5_1 t) (ms5_2 t) (hs5_2 t) (ms5_3 t) (hs5_3 t) scM5_0 (Memref.isWhole_whole _) ((hcondFirst t).mpr ha) (fun h => hb ((hcondLast t).mp h)) (iblk5 V c 0 t) (iblk5 V c 1 t) (iblk5 V c 2 t)

theorem scr5_step (c : Dev nD) (t : Fin cfg5.N) (ha : ¬t.val % 16 = 0) :
    (outsAt5 V c t.val t.isLt).2
      = k1_pay2 (blkA5 V c t) (blkZ5 V c t) (outsAt5 V c (t.val - 1) (Nat.lt_of_le_of_lt (Nat.sub_le _ _) t.isLt)).2 := by
  by_cases hb : t.val % 16 = 15
  · rw [outsAt5_C V c t ha hb]
    exact accC_eq VO5_3 VS5_0 c (grid5.coords t) (ms5_0 t) (hs5_0 t) (ms5_1 t) (hs5_1 t) (ms5_2 t) (hs5_2 t) (ms5_3 t) (hs5_3 t) scM5_0 (Memref.isWhole_whole _) (fun h => ha ((hcondFirst t).mp h)) ((hcondLast t).mpr hb) (iblk5 V c 0 t) (iblk5 V c 1 t) (iblk5 V c 2 t) (outsAt5 V c (t.val - 1) (Nat.lt_of_le_of_lt (Nat.sub_le _ _) t.isLt)).2
  · rw [outsAt5_B V c t ha hb]
    exact accB_eq VO5_3 VS5_0 c (grid5.coords t) (ms5_0 t) (hs5_0 t) (ms5_1 t) (hs5_1 t) (ms5_2 t) (hs5_2 t) (ms5_3 t) (hs5_3 t) scM5_0 (Memref.isWhole_whole _) (fun h => ha ((hcondFirst t).mp h)) (fun h => hb ((hcondLast t).mp h)) (iblk5 V c 0 t) (iblk5 V c 1 t) (iblk5 V c 2 t) (outsAt5 V c (t.val - 1) (Nat.lt_of_le_of_lt (Nat.sub_le _ _) t.isLt)).2

theorem out5_last (c : Dev nD) (t : Fin cfg5.N) (hb : t.val % 16 = 15) :
    (outsAt5 V c t.val t.isLt).1 = k1_pay3 (outsAt5 V c t.val t.isLt).2 (blkT5 V c t) := by
  have ha : ¬t.val % 16 = 0 := by omega
  rw [outsAt5_C V c t ha hb]
  exact outC_eq VO5_3 VS5_0 c (grid5.coords t) (ms5_0 t) (hs5_0 t) (ms5_1 t) (hs5_1 t) (ms5_2 t) (hs5_2 t) (ms5_3 t) (hs5_3 t) scM5_0 (Memref.isWhole_whole _) (fun h => ha ((hcondFirst t).mp h)) ((hcondLast t).mpr hb) (iblk5 V c 0 t) (iblk5 V c 1 t) (iblk5 V c 2 t) (outsAt5 V c (t.val - 1) (Nat.lt_of_le_of_lt (Nat.sub_le _ _) t.isLt)).2

theorem points5_facts : ∀ t : Fin cfg5.N,
    win5_0.index t (0 : Fin 2) = t.val / 16 ∧ win5_0.index t (1 : Fin 2) = t.val % 16
    ∧ win5_1.index t (0 : Fin 2) = t.val % 16 ∧ win5_1.index t (1 : Fin 2) = 0
    ∧ win5_2.index t (0 : Fin 2) = t.val / 16 ∧ win5_2.index t (1 : Fin 2) = 0
    ∧ win5_3.index t (0 : Fin 2) = t.val / 16 ∧ win5_3.index t (1 : Fin 2) = 0 :=
  (by decide +kernel : ∀ t : Fin grid5.N, _)

theorem blkA5_apply (c : Dev nD) (t : Fin cfg5.N) (i : Fin 8) (j : Fin 16) (ht : t.val = 16 * i.val + j.val)
    (p : Fin 2048) (k : Fin 1024) :
    blkA5 V c t (ix2 p k) = arrA5 V c (ix2 (rowAt i p) (colAt j k)) := by
  obtain ⟨ea, eb, -⟩ := points5_facts t
  unfold blkA5 iblk5
  rw [View.read_apply]
  show V c (Pipeline.arrRef spec5 0) _ = V c (Pipeline.arrRef spec5 0) _
  congr 1
  funext a
  apply Fin.ext
  match a with
  | ⟨0, _⟩ => show win5_0.index t 0 * 2048 + 1 * p.val = i.val * 2048 + p.val; rw [ea]; omega
  | ⟨1, _⟩ => show win5_0.index t 1 * 1024 + 1 * k.val = j.val * 1024 + k.val; rw [eb]; omega

theorem blkZ5_apply (c : Dev nD) (t : Fin cfg5.N) (i : Fin 8) (j : Fin 16) (ht : t.val = 16 * i.val + j.val)
    (k : Fin 1024) (q : Fin 64) :
    blkZ5 V c t (ix2 k q) = arrZ5 V c (ix2 (colAt j k) q) := by
  obtain ⟨-, -, e2, e3, -⟩ := points5_facts t
  unfold blkZ5 iblk5
  rw [View.read_apply]
  show V c (Pipeline.arrRef spec5 1) _ = V c (Pipeline.arrRef spec5 1) _
  congr 1
  funext a
  apply Fin.ext
  match a with
  | ⟨0, _⟩ => show win5_1.index t 0 * 1024 + 1 * k.val = j.val * 1024 + k.val; rw [e2]; omega
  | ⟨1, _⟩ => show win5_1.index t 1 * 64 + 1 * q.val = q.val; rw [e3]; omega

theorem blkT5_apply (c : Dev nD) (t : Fin cfg5.N) (i : Fin 8) (j : Fin 16) (ht : t.val = 16 * i.val + j.val)
    (p : Fin 2048) (q : Fin 64) :
    blkT5 V c t (ix2 p q) = arrT5 V c (ix2 (rowAt i p) q) := by
  obtain ⟨-, -, -, -, e4, e5, -⟩ := points5_facts t
  unfold blkT5 iblk5
  rw [View.read_apply]
  show V c (Pipeline.arrRef spec5 2) _ = V c (Pipeline.arrRef spec5 2) _
  congr 1
  funext a
  apply Fin.ext
  match a with
  | ⟨0, _⟩ => show win5_2.index t 0 * 2048 + 1 * p.val = i.val * 2048 + p.val; rw [e4]; omega
  | ⟨1, _⟩ => show win5_2.index t 1 * 64 + 1 * q.val = q.val; rw [e5]; omega

end Steps

section Value

variable (V : (c : Dev nD) → (b : Ref sig .tc) → Buf (Elt Ideal) ((c : Thread nD τ).loc b))

theorem scr5_last (c : Dev nD) (i : Fin 8) (h : 16 * i.val + 15 < cfg5.N) (p : Fin 2048) (q : Fin 64) :
    (outsAt5 V c (16 * i.val + 15) h).2 (ix2 p q)
      = ∑ k : Fin 16384, arrA5 V c (ix2 (rowAt i p) k) * arrZ5 V c (ix2 k q) := by
  have hN : cfg5.N = 128 := N_5
  have hi : i.val < 8 := i.isLt
  rw [sum_cols]
  refine (dif_pos h).symm.trans (chain16_eq_sum
    (fun j : Fin 16 => ∑ k : Fin 1024, arrA5 V c (ix2 (rowAt i p) (colAt j k)) * arrZ5 V c (ix2 (colAt j k) q))
    (fun n : ℕ => if hn : 16 * i.val + n < cfg5.N then (outsAt5 V c (16 * i.val + n) hn).2 (ix2 p q) else 0) ?_ ?_)
  · have h0 : 16 * i.val + 0 < cfg5.N := by omega
    show (if hn : 16 * i.val + 0 < cfg5.N then (outsAt5 V c (16 * i.val + 0) hn).2 (ix2 p q) else 0)
      = 0 + ∑ k : Fin 1024, arrA5 V c (ix2 (rowAt i p) (colAt 0 k)) * arrZ5 V c (ix2 (colAt 0 k) q)
    rw [dif_pos h0]
    refine (congrFun (scr5_first V c ⟨16 * i.val + 0, h0⟩ (by show (16 * i.val + 0) % 16 = 0; omega)) (ix2 p q)).trans ?_
    rw [k1_pay2_apply, k1_pay1_apply]
    refine congrArg (0 + ·) (Finset.sum_congr rfl fun k _ => ?_)
    rw [blkA5_apply V c ⟨16 * i.val + 0, h0⟩ i 0 rfl p k, blkZ5_apply V c ⟨16 * i.val + 0, h0⟩ i 0 rfl k q]
  · intro n hn
    have hsuc : 16 * i.val + (n + 1) < cfg5.N := by omega
    have hpre : 16 * i.val + n < cfg5.N := by omega
    show (if hn : 16 * i.val + (n + 1) < cfg5.N then (outsAt5 V c (16 * i.val + (n + 1)) hn).2 (ix2 p q) else 0)
      = (if hn : 16 * i.val + n < cfg5.N then (outsAt5 V c (16 * i.val + n) hn).2 (ix2 p q) else 0)
        + ∑ k : Fin 1024, arrA5 V c (ix2 (rowAt i p) (colAt ⟨n + 1, hn⟩ k)) * arrZ5 V c (ix2 (colAt ⟨n + 1, hn⟩ k) q)
    rw [dif_pos hsuc, dif_pos hpre]
    refine (congrFun (scr5_step V c ⟨16 * i.val + (n + 1), hsuc⟩ (by show ¬(16 * i.val + (n + 1)) % 16 = 0; omega)) (ix2 p q)).trans ?_
    rw [k1_pay2_apply]
    rw [outsAt5_congr V c (show 16 * i.val + (n + 1) - 1 = 16 * i.val + n by omega) _ hpre]
    refine congrArg (_ + ·) (Finset.sum_congr rfl fun k _ => ?_)
    rw [blkA5_apply V c ⟨16 * i.val + (n + 1), hsuc⟩ i ⟨n + 1, hn⟩ rfl p k, blkZ5_apply V c ⟨16 * i.val + (n + 1), hsuc⟩ i ⟨n + 1, hn⟩ rfl k q]

abbrev G5 (c : Dev nD) : Vec Ideal S16384x64 .f32 := fun y =>
  Cert.Spec.step (fun r j => arrA5 V c (ix2 r j)) (fun r n => arrT5 V c (ix2 r n)) (fun r n => arrZ5 V c (ix2 r n)) (y 0) (y 1)

theorem flushed5_eq (c : Dev nD) (t : Fin cfg5.N) (hf : (cfg5.win 3).flush t = true) :
    (dat5 V c).flushed 3 t = ((cfg5.win 3).blk t).view.read (Elt Ideal) (G5 V c) := by
  have hN : cfg5.N = 128 := N_5
  have hb : t.val % 16 = 15 := (flush5_3 t).mp hf
  have ht : t.val < cfg5.N := t.isLt
  obtain ⟨-, -, -, -, -, -, e6, e7⟩ := points5_facts t
  have hi : t.val / 16 < 8 := by omega
  have hti : 16 * (t.val / 16) + 15 < cfg5.N := by omega
  show (cfg5.win 3).cut (grid5.coords t) ((dat5 V c).after 3 t) = _
  rw [after5_3, out5_last V c t hb]
  funext y
  have hyr : (y 0).val < 2048 := (y 0).isLt
  have hyc : (y 1).val < 64 := (y 1).isLt
  have hx : (cfg5.win 3).xinj (grid5.coords t) y = ix2 (⟨(y 0).val, hyr⟩ : Fin 2048) (⟨(y 1).val, hyc⟩ : Fin 64) := by
    funext a
    match a with
    | ⟨0, _⟩ => rfl
    | ⟨1, _⟩ => rfl
  have he : ((cfg5.win 3).blk t).view.emb y = ix2 (rowAt ⟨t.val / 16, hi⟩ ⟨(y 0).val, hyr⟩) (⟨(y 1).val, hyc⟩ : Fin 64) := by
    funext a
    apply Fin.ext
    match a with
    | ⟨0, _⟩ => show win5_3.index t 0 * 2048 + 1 * (y 0).val = t.val / 16 * 2048 + (y 0).val; rw [e6]; omega
    | ⟨1, _⟩ => show win5_3.index t 1 * 64 + 1 * (y 1).val = (y 1).val; rw [e7]; omega
  show k1_pay3 (outsAt5 V c t.val t.isLt).2 (blkT5 V c t) ((cfg5.win 3).xinj (grid5.coords t) y) = G5 V c (((cfg5.win 3).blk t).view.emb y)
  rw [hx, he, k1_pay3_apply, outsAt5_congr V c (show t.val = 16 * (t.val / 16) + 15 by omega) t.isLt hti,
    scr5_last V c ⟨t.val / 16, hi⟩ hti, blkT5_apply V c t ⟨t.val / 16, hi⟩ 15 (by show t.val = 16 * (t.val / 16) + 15; omega)]
  rfl

theorem cover5 (y : S16384x64.Idx) :
    ∃ t : Fin cfg5.N, (cfg5.win 3).flush t = true ∧ y ∈ ((cfg5.win 3).blk t).view.set := by
  have hN : cfg5.N = 128 := N_5
  have hyr : (y 0).val < 16384 := (y 0).isLt
  have hyc : (y 1).val < 64 := (y 1).isLt
  have ht : 16 * ((y 0).val / 2048) + 15 < cfg5.N := by omega
  obtain ⟨-, -, -, -, -, -, e6, e7⟩ := points5_facts ⟨16 * ((y 0).val / 2048) + 15, ht⟩
  have e6' : win5_3.index ⟨16 * ((y 0).val / 2048) + 15, ht⟩ 0 = (16 * ((y 0).val / 2048) + 15) / 16 := e6
  refine ⟨⟨16 * ((y 0).val / 2048) + 15, ht⟩, (flush5_3 _).mpr (by show (16 * ((y 0).val / 2048) + 15) % 16 = 15; omega), ?_⟩
  show y ∈ ((View.whole (Pipeline.arrRef spec5 3)).slice (win5_3.rect ⟨16 * ((y 0).val / 2048) + 15, ht⟩)).set
  rw [View.set_slice_whole, Rect.mem_set_unit]
  intro a
  match a with
  | ⟨0, _⟩ =>
    show win5_3.index ⟨16 * ((y 0).val / 2048) + 15, ht⟩ 0 * 2048 ≤ (y 0).val
      ∧ (y 0).val < win5_3.index ⟨16 * ((y 0).val / 2048) + 15, ht⟩ 0 * 2048 + 2048
    rw [e6']; omega
  | ⟨1, _⟩ =>
    show win5_3.index ⟨16 * ((y 0).val / 2048) + 15, ht⟩ 1 * 64 ≤ (y 1).val
      ∧ (y 1).val < win5_3.index ⟨16 * ((y 0).val / 2048) + 15, ht⟩ 1 * 64 + 64
    rw [e7]; omega

theorem final5 (c : Dev nD) (r : Fin 16384) (k : Fin 64) :
    (dat5 V c).arrAt 3 cfg5.N (ix2 r k)
      = Cert.Spec.step (fun r j => (V c (Pipeline.arrRef spec5 0) : Vec Ideal S16384x16384 .f32) (ix2 r j))
          (fun r n => (V c (Pipeline.arrRef spec5 2) : Vec Ideal S16384x64 .f32) (ix2 r n))
          (fun r n => (V c (Pipeline.arrRef spec5 1) : Vec Ideal S16384x64 .f32) (ix2 r n)) r k :=
  congrFun ((dat5 V c).arrAt_eq_of_cover 3 (G5 V c) (flushed5_eq V c) cover5) (ix2 r k)

end Value

end Cert.KernelIdeal.Fr

end
-- ==== Proof.KI.Ap6Val.lean ====
/- (proof/Proof/KI/Ap1Val.lean with region 6's names put for region 1's; nothing else changed) -/
import proofs.«109160_j26783416057954_1_alg».proof.Proof.KI.Ap6
import proofs.«109160_j26783416057954_1_alg».proof.Proof.KI.StepPieces

set_option maxRecDepth 16384

noncomputable section

open scoped BigOperators

namespace Cert.KernelIdeal.Fr

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

section Steps

variable {F : FTy → Type} [FloatOps F]
variable (V : (c : Dev nD) → (b : Ref sig .tc) → Buf (Elt F) ((c : Thread nD τ).loc b))

abbrev arrA6 (c : Dev nD) : Vec F S16384x16384 .f32 := V c (Pipeline.arrRef spec6 0)
abbrev arrZ6 (c : Dev nD) : Vec F S16384x64 .f32 := V c (Pipeline.arrRef spec6 1)
abbrev arrT6 (c : Dev nD) : Vec F S16384x64 .f32 := V c (Pipeline.arrRef spec6 2)

abbrev blkA6 (c : Dev nD) (t : Fin cfg6.N) : Vec F S2048x1024 .f32 := iblk6 V c 0 t
abbrev blkZ6 (c : Dev nD) (t : Fin cfg6.N) : Vec F S1024x64 .f32 := iblk6 V c 1 t
abbrev blkT6 (c : Dev nD) (t : Fin cfg6.N) : Vec F S2048x64 .f32 := iblk6 V c 2 t

theorem outsAt6_congr (c : Dev nD) {n n' : ℕ} (e : n = n') (h : n < cfg6.N) (h' : n' < cfg6.N) :
    outsAt6 V c n h = outsAt6 V c n' h' := by subst e; rfl

theorem scr6_first (c : Dev nD) (t : Fin cfg6.N) (ha : t.val % 16 = 0) :
    (outsAt6 V c t.val t.isLt).2 = k1_pay2 (blkA6 V c t) (blkZ6 V c t) (k1_pay1 (F := F)) := by
  have hb : ¬t.val % 16 = 15 := by omega
  rw [outsAt6_A V c t ha hb]
  exact accA_eq VO6_3 VS6_0 c (grid6.coords t) (ms6_0 t) (hs6_0 t) (ms6_1 t) (hs6_1 t) (ms6_2 t) (hs6_2 t) (ms6_3 t) (hs6_3 t) scM6_0 (Memref.isWhole_whole _) ((hcondFirst t).mpr ha) (fun h => hb ((hcondLast t).mp h)) (iblk6 V c 0 t) (iblk6 V c 1 t) (iblk6 V c 2 t)

theorem scr6_step (c : Dev nD) (t : Fin cfg6.N) (ha : ¬t.val % 16 = 0) :
    (outsAt6 V c t.val t.isLt).2
      = k1_pay2 (blkA6 V c t) (blkZ6 V c t) (outsAt6 V c (t.val - 1) (Nat.lt_of_le_of_lt (Nat.sub_le _ _) t.isLt)).2 := by
  by_cases hb : t.val % 16 = 15
  · rw [outsAt6_C V c t ha hb]
    exact accC_eq VO6_3 VS6_0 c (grid6.coords t) (ms6_0 t) (hs6_0 t) (ms6_1 t) (hs6_1 t) (ms6_2 t) (hs6_2 t) (ms6_3 t) (hs6_3 t) scM6_0 (Memref.isWhole_whole _) (fun h => ha ((hcondFirst t).mp h)) ((hcondLast t).mpr hb) (iblk6 V c 0 t) (iblk6 V c 1 t) (iblk6 V c 2 t) (outsAt6 V c (t.val - 1) (Nat.lt_of_le_of_lt (Nat.sub_le _ _) t.isLt)).2
  · rw [outsAt6_B V c t ha hb]
    exact accB_eq VO6_3 VS6_0 c (grid6.coords t) (ms6_0 t) (hs6_0 t) (ms6_1 t) (hs6_1 t) (ms6_2 t) (hs6_2 t) (ms6_3 t) (hs6_3 t) scM6_0 (Memref.isWhole_whole _) (fun h => ha ((hcondFirst t).mp h)) (fun h => hb ((hcondLast t).mp h)) (iblk6 V c 0 t) (iblk6 V c 1 t) (iblk6 V c 2 t) (outsAt6 V c (t.val - 1) (Nat.lt_of_le_of_lt (Nat.sub_le _ _) t.isLt)).2

theorem out6_last (c : Dev nD) (t : Fin cfg6.N) (hb : t.val % 16 = 15) :
    (outsAt6 V c t.val t.isLt).1 = k1_pay3 (outsAt6 V c t.val t.isLt).2 (blkT6 V c t) := by
  have ha : ¬t.val % 16 = 0 := by omega
  rw [outsAt6_C V c t ha hb]
  exact outC_eq VO6_3 VS6_0 c (grid6.coords t) (ms6_0 t) (hs6_0 t) (ms6_1 t) (hs6_1 t) (ms6_2 t) (hs6_2 t) (ms6_3 t) (hs6_3 t) scM6_0 (Memref.isWhole_whole _) (fun h => ha ((hcondFirst t).mp h)) ((hcondLast t).mpr hb) (iblk6 V c 0 t) (iblk6 V c 1 t) (iblk6 V c 2 t) (outsAt6 V c (t.val - 1) (Nat.lt_of_le_of_lt (Nat.sub_le _ _) t.isLt)).2

theorem points6_facts : ∀ t : Fin cfg6.N,
    win6_0.index t (0 : Fin 2) = t.val / 16 ∧ win6_0.index t (1 : Fin 2) = t.val % 16
    ∧ win6_1.index t (0 : Fin 2) = t.val % 16 ∧ win6_1.index t (1 : Fin 2) = 0
    ∧ win6_2.index t (0 : Fin 2) = t.val / 16 ∧ win6_2.index t (1 : Fin 2) = 0
    ∧ win6_3.index t (0 : Fin 2) = t.val / 16 ∧ win6_3.index t (1 : Fin 2) = 0 :=
  (by decide +kernel : ∀ t : Fin grid6.N, _)

theorem blkA6_apply (c : Dev nD) (t : Fin cfg6.N) (i : Fin 8) (j : Fin 16) (ht : t.val = 16 * i.val + j.val)
    (p : Fin 2048) (k : Fin 1024) :
    blkA6 V c t (ix2 p k) = arrA6 V c (ix2 (rowAt i p) (colAt j k)) := by
  obtain ⟨ea, eb, -⟩ := points6_facts t
  unfold blkA6 iblk6
  rw [View.read_apply]
  show V c (Pipeline.arrRef spec6 0) _ = V c (Pipeline.arrRef spec6 0) _
  congr 1
  funext a
  apply Fin.ext
  match a with
  | ⟨0, _⟩ => show win6_0.index t 0 * 2048 + 1 * p.val = i.val * 2048 + p.val; rw [ea]; omega
  | ⟨1, _⟩ => show win6_0.index t 1 * 1024 + 1 * k.val = j.val * 1024 + k.val; rw [eb]; omega

theorem blkZ6_apply (c : Dev nD) (t : Fin cfg6.N) (i : Fin 8) (j : Fin 16) (ht : t.val = 16 * i.val + j.val)
    (k : Fin 1024) (q : Fin 64) :
    blkZ6 V c t (ix2 k q) = arrZ6 V c (ix2 (colAt j k) q) := by
  obtain ⟨-, -, e2, e3, -⟩ := points6_facts t
  unfold blkZ6 iblk6
  rw [View.read_apply]
  show V c (Pipeline.arrRef spec6 1) _ = V c (Pipeline.arrRef spec6 1) _
  congr 1
  funext a
  apply Fin.ext
  match a with
  | ⟨0, _⟩ => show win6_1.index t 0 * 1024 + 1 * k.val = j.val * 1024 + k.val; rw [e2]; omega
  | ⟨1, _⟩ => show win6_1.index t 1 * 64 + 1 * q.val = q.val; rw [e3]; omega

theorem blkT6_apply (c : Dev nD) (t : Fin cfg6.N) (i : Fin 8) (j : Fin 16) (ht : t.val = 16 * i.val + j.val)
    (p : Fin 2048) (q : Fin 64) :
    blkT6 V c t (ix2 p q) = arrT6 V c (ix2 (rowAt i p) q) := by
  obtain ⟨-, -, -, -, e4, e5, -⟩ := points6_facts t
  unfold blkT6 iblk6
  rw [View.read_apply]
  show V c (Pipeline.arrRef spec6 2) _ = V c (Pipeline.arrRef spec6 2) _
  congr 1
  funext a
  apply Fin.ext
  match a with
  | ⟨0, _⟩ => show win6_2.index t 0 * 2048 + 1 * p.val = i.val * 2048 + p.val; rw [e4]; omega
  | ⟨1, _⟩ => show win6_2.index t 1 * 64 + 1 * q.val = q.val; rw [e5]; omega

end Steps

section Value

variable (V : (c : Dev nD) → (b : Ref sig .tc) → Buf (Elt Ideal) ((c : Thread nD τ).loc b))

theorem scr6_last (c : Dev nD) (i : Fin 8) (h : 16 * i.val + 15 < cfg6.N) (p : Fin 2048) (q : Fin 64) :
    (outsAt6 V c (16 * i.val + 15) h).2 (ix2 p q)
      = ∑ k : Fin 16384, arrA6 V c (ix2 (rowAt i p) k) * arrZ6 V c (ix2 k q) := by
  have hN : cfg6.N = 128 := N_6
  have hi : i.val < 8 := i.isLt
  rw [sum_cols]
  refine (dif_pos h).symm.trans (chain16_eq_sum
    (fun j : Fin 16 => ∑ k : Fin 1024, arrA6 V c (ix2 (rowAt i p) (colAt j k)) * arrZ6 V c (ix2 (colAt j k) q))
    (fun n : ℕ => if hn : 16 * i.val + n < cfg6.N then (outsAt6 V c (16 * i.val + n) hn).2 (ix2 p q) else 0) ?_ ?_)
  · have h0 : 16 * i.val + 0 < cfg6.N := by omega
    show (if hn : 16 * i.val + 0 < cfg6.N then (outsAt6 V c (16 * i.val + 0) hn).2 (ix2 p q) else 0)
      = 0 + ∑ k : Fin 1024, arrA6 V c (ix2 (rowAt i p) (colAt 0 k)) * arrZ6 V c (ix2 (colAt 0 k) q)
    rw [dif_pos h0]
    refine (congrFun (scr6_first V c ⟨16 * i.val + 0, h0⟩ (by show (16 * i.val + 0) % 16 = 0; omega)) (ix2 p q)).trans ?_
    rw [k1_pay2_apply, k1_pay1_apply]
    refine congrArg (0 + ·) (Finset.sum_congr rfl fun k _ => ?_)
    rw [blkA6_apply V c ⟨16 * i.val + 0, h0⟩ i 0 rfl p k, blkZ6_apply V c ⟨16 * i.val + 0, h0⟩ i 0 rfl k q]
  · intro n hn
    have hsuc : 16 * i.val + (n + 1) < cfg6.N := by omega
    have hpre : 16 * i.val + n < cfg6.N := by omega
    show (if hn : 16 * i.val + (n + 1) < cfg6.N then (outsAt6 V c (16 * i.val + (n + 1)) hn).2 (ix2 p q) else 0)
      = (if hn : 16 * i.val + n < cfg6.N then (outsAt6 V c (16 * i.val + n) hn).2 (ix2 p q) else 0)
        + ∑ k : Fin 1024, arrA6 V c (ix2 (rowAt i p) (colAt ⟨n + 1, hn⟩ k)) * arrZ6 V c (ix2 (colAt ⟨n + 1, hn⟩ k) q)
    rw [dif_pos hsuc, dif_pos hpre]
    refine (congrFun (scr6_step V c ⟨16 * i.val + (n + 1), hsuc⟩ (by show ¬(16 * i.val + (n + 1)) % 16 = 0; omega)) (ix2 p q)).trans ?_
    rw [k1_pay2_apply]
    rw [outsAt6_congr V c (show 16 * i.val + (n + 1) - 1 = 16 * i.val + n by omega) _ hpre]
    refine congrArg (_ + ·) (Finset.sum_congr rfl fun k _ => ?_)
    rw [blkA6_apply V c ⟨16 * i.val + (n + 1), hsuc⟩ i ⟨n + 1, hn⟩ rfl p k, blkZ6_apply V c ⟨16 * i.val + (n + 1), hsuc⟩ i ⟨n + 1, hn⟩ rfl k q]

abbrev G6 (c : Dev nD) : Vec Ideal S16384x64 .f32 := fun y =>
  Cert.Spec.step (fun r j => arrA6 V c (ix2 r j)) (fun r n => arrT6 V c (ix2 r n)) (fun r n => arrZ6 V c (ix2 r n)) (y 0) (y 1)

theorem flushed6_eq (c : Dev nD) (t : Fin cfg6.N) (hf : (cfg6.win 3).flush t = true) :
    (dat6 V c).flushed 3 t = ((cfg6.win 3).blk t).view.read (Elt Ideal) (G6 V c) := by
  have hN : cfg6.N = 128 := N_6
  have hb : t.val % 16 = 15 := (flush6_3 t).mp hf
  have ht : t.val < cfg6.N := t.isLt
  obtain ⟨-, -, -, -, -, -, e6, e7⟩ := points6_facts t
  have hi : t.val / 16 < 8 := by omega
  have hti : 16 * (t.val / 16) + 15 < cfg6.N := by omega
  show (cfg6.win 3).cut (grid6.coords t) ((dat6 V c).after 3 t) = _
  rw [after6_3, out6_last V c t hb]
  funext y
  have hyr : (y 0).val < 2048 := (y 0).isLt
  have hyc : (y 1).val < 64 := (y 1).isLt
  have hx : (cfg6.win 3).xinj (grid6.coords t) y = ix2 (⟨(y 0).val, hyr⟩ : Fin 2048) (⟨(y 1).val, hyc⟩ : Fin 64) := by
    funext a
    match a with
    | ⟨0, _⟩ => rfl
    | ⟨1, _⟩ => rfl
  have he : ((cfg6.win 3).blk t).view.emb y = ix2 (rowAt ⟨t.val / 16, hi⟩ ⟨(y 0).val, hyr⟩) (⟨(y 1).val, hyc⟩ : Fin 64) := by
    funext a
    apply Fin.ext
    match a with
    | ⟨0, _⟩ => show win6_3.index t 0 * 2048 + 1 * (y 0).val = t.val / 16 * 2048 + (y 0).val; rw [e6]; omega
    | ⟨1, _⟩ => show win6_3.index t 1 * 64 + 1 * (y 1).val = (y 1).val; rw [e7]; omega
  show k1_pay3 (outsAt6 V c t.val t.isLt).2 (blkT6 V c t) ((cfg6.win 3).xinj (grid6.coords t) y) = G6 V c (((cfg6.win 3).blk t).view.emb y)
  rw [hx, he, k1_pay3_apply, outsAt6_congr V c (show t.val = 16 * (t.val / 16) + 15 by omega) t.isLt hti,
    scr6_last V c ⟨t.val / 16, hi⟩ hti, blkT6_apply V c t ⟨t.val / 16, hi⟩ 15 (by show t.val = 16 * (t.val / 16) + 15; omega)]
  rfl

theorem cover6 (y : S16384x64.Idx) :
    ∃ t : Fin cfg6.N, (cfg6.win 3).flush t = true ∧ y ∈ ((cfg6.win 3).blk t).view.set := by
  have hN : cfg6.N = 128 := N_6
  have hyr : (y 0).val < 16384 := (y 0).isLt
  have hyc : (y 1).val < 64 := (y 1).isLt
  have ht : 16 * ((y 0).val / 2048) + 15 < cfg6.N := by omega
  obtain ⟨-, -, -, -, -, -, e6, e7⟩ := points6_facts ⟨16 * ((y 0).val / 2048) + 15, ht⟩
  have e6' : win6_3.index ⟨16 * ((y 0).val / 2048) + 15, ht⟩ 0 = (16 * ((y 0).val / 2048) + 15) / 16 := e6
  refine ⟨⟨16 * ((y 0).val / 2048) + 15, ht⟩, (flush6_3 _).mpr (by show (16 * ((y 0).val / 2048) + 15) % 16 = 15; omega), ?_⟩
  show y ∈ ((View.whole (Pipeline.arrRef spec6 3)).slice (win6_3.rect ⟨16 * ((y 0).val / 2048) + 15, ht⟩)).set
  rw [View.set_slice_whole, Rect.mem_set_unit]
  intro a
  match a with
  | ⟨0, _⟩ =>
    show win6_3.index ⟨16 * ((y 0).val / 2048) + 15, ht⟩ 0 * 2048 ≤ (y 0).val
      ∧ (y 0).val < win6_3.index ⟨16 * ((y 0).val / 2048) + 15, ht⟩ 0 * 2048 + 2048
    rw [e6']; omega
  | ⟨1, _⟩ =>
    show win6_3.index ⟨16 * ((y 0).val / 2048) + 15, ht⟩ 1 * 64 ≤ (y 1).val
      ∧ (y 1).val < win6_3.index ⟨16 * ((y 0).val / 2048) + 15, ht⟩ 1 * 64 + 64
    rw [e7]; omega

theorem final6 (c : Dev nD) (r : Fin 16384) (k : Fin 64) :
    (dat6 V c).arrAt 3 cfg6.N (ix2 r k)
      = Cert.Spec.step (fun r j => (V c (Pipeline.arrRef spec6 0) : Vec Ideal S16384x16384 .f32) (ix2 r j))
          (fun r n => (V c (Pipeline.arrRef spec6 2) : Vec Ideal S16384x64 .f32) (ix2 r n))
          (fun r n => (V c (Pipeline.arrRef spec6 1) : Vec Ideal S16384x64 .f32) (ix2 r n)) r k :=
  congrFun ((dat6 V c).arrAt_eq_of_cover 3 (G6 V c) (flushed6_eq V c) cover6) (ix2 r k)

end Value

end Cert.KernelIdeal.Fr

end
-- ==== Proof.KI.Ap7Val.lean ====
/- (proof/Proof/KI/Ap1Val.lean with region 7's names put for region 1's; nothing else changed) -/
import proofs.«109160_j26783416057954_1_alg».proof.Proof.KI.Ap7
import proofs.«109160_j26783416057954_1_alg».proof.Proof.KI.StepPieces

set_option maxRecDepth 16384

noncomputable section

open scoped BigOperators

namespace Cert.KernelIdeal.Fr

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

section Steps

variable {F : FTy → Type} [FloatOps F]
variable (V : (c : Dev nD) → (b : Ref sig .tc) → Buf (Elt F) ((c : Thread nD τ).loc b))

abbrev arrA7 (c : Dev nD) : Vec F S16384x16384 .f32 := V c (Pipeline.arrRef spec7 0)
abbrev arrZ7 (c : Dev nD) : Vec F S16384x64 .f32 := V c (Pipeline.arrRef spec7 1)
abbrev arrT7 (c : Dev nD) : Vec F S16384x64 .f32 := V c (Pipeline.arrRef spec7 2)

abbrev blkA7 (c : Dev nD) (t : Fin cfg7.N) : Vec F S2048x1024 .f32 := iblk7 V c 0 t
abbrev blkZ7 (c : Dev nD) (t : Fin cfg7.N) : Vec F S1024x64 .f32 := iblk7 V c 1 t
abbrev blkT7 (c : Dev nD) (t : Fin cfg7.N) : Vec F S2048x64 .f32 := iblk7 V c 2 t

theorem outsAt7_congr (c : Dev nD) {n n' : ℕ} (e : n = n') (h : n < cfg7.N) (h' : n' < cfg7.N) :
    outsAt7 V c n h = outsAt7 V c n' h' := by subst e; rfl

theorem scr7_first (c : Dev nD) (t : Fin cfg7.N) (ha : t.val % 16 = 0) :
    (outsAt7 V c t.val t.isLt).2 = k1_pay2 (blkA7 V c t) (blkZ7 V c t) (k1_pay1 (F := F)) := by
  have hb : ¬t.val % 16 = 15 := by omega
  rw [outsAt7_A V c t ha hb]
  exact accA_eq VO7_3 VS7_0 c (grid7.coords t) (ms7_0 t) (hs7_0 t) (ms7_1 t) (hs7_1 t) (ms7_2 t) (hs7_2 t) (ms7_3 t) (hs7_3 t) scM7_0 (Memref.isWhole_whole _) ((hcondFirst t).mpr ha) (fun h => hb ((hcondLast t).mp h)) (iblk7 V c 0 t) (iblk7 V c 1 t) (iblk7 V c 2 t)

theorem scr7_step (c : Dev nD) (t : Fin cfg7.N) (ha : ¬t.val % 16 = 0) :
    (outsAt7 V c t.val t.isLt).2
      = k1_pay2 (blkA7 V c t) (blkZ7 V c t) (outsAt7 V c (t.val - 1) (Nat.lt_of_le_of_lt (Nat.sub_le _ _) t.isLt)).2 := by
  by_cases hb : t.val % 16 = 15
  · rw [outsAt7_C V c t ha hb]
    exact accC_eq VO7_3 VS7_0 c (grid7.coords t) (ms7_0 t) (hs7_0 t) (ms7_1 t) (hs7_1 t) (ms7_2 t) (hs7_2 t) (ms7_3 t) (hs7_3 t) scM7_0 (Memref.isWhole_whole _) (fun h => ha ((hcondFirst t).mp h)) ((hcondLast t).mpr hb) (iblk7 V c 0 t) (iblk7 V c 1 t) (iblk7 V c 2 t) (outsAt7 V c (t.val - 1) (Nat.lt_of_le_of_lt (Nat.sub_le _ _) t.isLt)).2
  · rw [outsAt7_B V c t ha hb]
    exact accB_eq VO7_3 VS7_0 c (grid7.coords t) (ms7_0 t) (hs7_0 t) (ms7_1 t) (hs7_1 t) (ms7_2 t) (hs7_2 t) (ms7_3 t) (hs7_3 t) scM7_0 (Memref.isWhole_whole _) (fun h => ha ((hcondFirst t).mp h)) (fun h => hb ((hcondLast t).mp h)) (iblk7 V c 0 t) (iblk7 V c 1 t) (iblk7 V c 2 t) (outsAt7 V c (t.val - 1) (Nat.lt_of_le_of_lt (Nat.sub_le _ _) t.isLt)).2

theorem out7_last (c : Dev nD) (t : Fin cfg7.N) (hb : t.val % 16 = 15) :
    (outsAt7 V c t.val t.isLt).1 = k1_pay3 (outsAt7 V c t.val t.isLt).2 (blkT7 V c t) := by
  have ha : ¬t.val % 16 = 0 := by omega
  rw [outsAt7_C V c t ha hb]
  exact outC_eq VO7_3 VS7_0 c (grid7.coords t) (ms7_0 t) (hs7_0 t) (ms7_1 t) (hs7_1 t) (ms7_2 t) (hs7_2 t) (ms7_3 t) (hs7_3 t) scM7_0 (Memref.isWhole_whole _) (fun h => ha ((hcondFirst t).mp h)) ((hcondLast t).mpr hb) (iblk7 V c 0 t) (iblk7 V c 1 t) (iblk7 V c 2 t) (outsAt7 V c (t.val - 1) (Nat.lt_of_le_of_lt (Nat.sub_le _ _) t.isLt)).2

theorem points7_facts : ∀ t : Fin cfg7.N,
    win7_0.index t (0 : Fin 2) = t.val / 16 ∧ win7_0.index t (1 : Fin 2) = t.val % 16
    ∧ win7_1.index t (0 : Fin 2) = t.val % 16 ∧ win7_1.index t (1 : Fin 2) = 0
    ∧ win7_2.index t (0 : Fin 2) = t.val / 16 ∧ win7_2.index t (1 : Fin 2) = 0
    ∧ win7_3.index t (0 : Fin 2) = t.val / 16 ∧ win7_3.index t (1 : Fin 2) = 0 :=
  (by decide +kernel : ∀ t : Fin grid7.N, _)

theorem blkA7_apply (c : Dev nD) (t : Fin cfg7.N) (i : Fin 8) (j : Fin 16) (ht : t.val = 16 * i.val + j.val)
    (p : Fin 2048) (k : Fin 1024) :
    blkA7 V c t (ix2 p k) = arrA7 V c (ix2 (rowAt i p) (colAt j k)) := by
  obtain ⟨ea, eb, -⟩ := points7_facts t
  unfold blkA7 iblk7
  rw [View.read_apply]
  show V c (Pipeline.arrRef spec7 0) _ = V c (Pipeline.arrRef spec7 0) _
  congr 1
  funext a
  apply Fin.ext
  match a with
  | ⟨0, _⟩ => show win7_0.index t 0 * 2048 + 1 * p.val = i.val * 2048 + p.val; rw [ea]; omega
  | ⟨1, _⟩ => show win7_0.index t 1 * 1024 + 1 * k.val = j.val * 1024 + k.val; rw [eb]; omega

theorem blkZ7_apply (c : Dev nD) (t : Fin cfg7.N) (i : Fin 8) (j : Fin 16) (ht : t.val = 16 * i.val + j.val)
    (k : Fin 1024) (q : Fin 64) :
    blkZ7 V c t (ix2 k q) = arrZ7 V c (ix2 (colAt j k) q) := by
  obtain ⟨-, -, e2, e3, -⟩ := points7_facts t
  unfold blkZ7 iblk7
  rw [View.read_apply]
  show V c (Pipeline.arrRef spec7 1) _ = V c (Pipeline.arrRef spec7 1) _
  congr 1
  funext a
  apply Fin.ext
  match a with
  | ⟨0, _⟩ => show win7_1.index t 0 * 1024 + 1 * k.val = j.val * 1024 + k.val; rw [e2]; omega
  | ⟨1, _⟩ => show win7_1.index t 1 * 64 + 1 * q.val = q.val; rw [e3]; omega

theorem blkT7_apply (c : Dev nD) (t : Fin cfg7.N) (i : Fin 8) (j : Fin 16) (ht : t.val = 16 * i.val + j.val)
    (p : Fin 2048) (q : Fin 64) :
    blkT7 V c t (ix2 p q) = arrT7 V c (ix2 (rowAt i p) q) := by
  obtain ⟨-, -, -, -, e4, e5, -⟩ := points7_facts t
  unfold blkT7 iblk7
  rw [View.read_apply]
  show V c (Pipeline.arrRef spec7 2) _ = V c (Pipeline.arrRef spec7 2) _
  congr 1
  funext a
  apply Fin.ext
  match a with
  | ⟨0, _⟩ => show win7_2.index t 0 * 2048 + 1 * p.val = i.val * 2048 + p.val; rw [e4]; omega
  | ⟨1, _⟩ => show win7_2.index t 1 * 64 + 1 * q.val = q.val; rw [e5]; omega

end Steps

section Value

variable (V : (c : Dev nD) → (b : Ref sig .tc) → Buf (Elt Ideal) ((c : Thread nD τ).loc b))

theorem scr7_last (c : Dev nD) (i : Fin 8) (h : 16 * i.val + 15 < cfg7.N) (p : Fin 2048) (q : Fin 64) :
    (outsAt7 V c (16 * i.val + 15) h).2 (ix2 p q)
      = ∑ k : Fin 16384, arrA7 V c (ix2 (rowAt i p) k) * arrZ7 V c (ix2 k q) := by
  have hN : cfg7.N = 128 := N_7
  have hi : i.val < 8 := i.isLt
  rw [sum_cols]
  refine (dif_pos h).symm.trans (chain16_eq_sum
    (fun j : Fin 16 => ∑ k : Fin 1024, arrA7 V c (ix2 (rowAt i p) (colAt j k)) * arrZ7 V c (ix2 (colAt j k) q))
    (fun n : ℕ => if hn : 16 * i.val + n < cfg7.N then (outsAt7 V c (16 * i.val + n) hn).2 (ix2 p q) else 0) ?_ ?_)
  · have h0 : 16 * i.val + 0 < cfg7.N := by omega
    show (if hn : 16 * i.val + 0 < cfg7.N then (outsAt7 V c (16 * i.val + 0) hn).2 (ix2 p q) else 0)
      = 0 + ∑ k : Fin 1024, arrA7 V c (ix2 (rowAt i p) (colAt 0 k)) * arrZ7 V c (ix2 (colAt 0 k) q)
    rw [dif_pos h0]
    refine (congrFun (scr7_first V c ⟨16 * i.val + 0, h0⟩ (by show (16 * i.val + 0) % 16 = 0; omega)) (ix2 p q)).trans ?_
    rw [k1_pay2_apply, k1_pay1_apply]
    refine congrArg (0 + ·) (Finset.sum_congr rfl fun k _ => ?_)
    rw [blkA7_apply V c ⟨16 * i.val + 0, h0⟩ i 0 rfl p k, blkZ7_apply V c ⟨16 * i.val + 0, h0⟩ i 0 rfl k q]
  · intro n hn
    have hsuc : 16 * i.val + (n + 1) < cfg7.N := by omega
    have hpre : 16 * i.val + n < cfg7.N := by omega
    show (if hn : 16 * i.val + (n + 1) < cfg7.N then (outsAt7 V c (16 * i.val + (n + 1)) hn).2 (ix2 p q) else 0)
      = (if hn : 16 * i.val + n < cfg7.N then (outsAt7 V c (16 * i.val + n) hn).2 (ix2 p q) else 0)
        + ∑ k : Fin 1024, arrA7 V c (ix2 (rowAt i p) (colAt ⟨n + 1, hn⟩ k)) * arrZ7 V c (ix2 (colAt ⟨n + 1, hn⟩ k) q)
    rw [dif_pos hsuc, dif_pos hpre]
    refine (congrFun (scr7_step V c ⟨16 * i.val + (n + 1), hsuc⟩ (by show ¬(16 * i.val + (n + 1)) % 16 = 0; omega)) (ix2 p q)).trans ?_
    rw [k1_pay2_apply]
    rw [outsAt7_congr V c (show 16 * i.val + (n + 1) - 1 = 16 * i.val + n by omega) _ hpre]
    refine congrArg (_ + ·) (Finset.sum_congr rfl fun k _ => ?_)
    rw [blkA7_apply V c ⟨16 * i.val + (n + 1), hsuc⟩ i ⟨n + 1, hn⟩ rfl p k, blkZ7_apply V c ⟨16 * i.val + (n + 1), hsuc⟩ i ⟨n + 1, hn⟩ rfl k q]

abbrev G7 (c : Dev nD) : Vec Ideal S16384x64 .f32 := fun y =>
  Cert.Spec.step (fun r j => arrA7 V c (ix2 r j)) (fun r n => arrT7 V c (ix2 r n)) (fun r n => arrZ7 V c (ix2 r n)) (y 0) (y 1)

theorem flushed7_eq (c : Dev nD) (t : Fin cfg7.N) (hf : (cfg7.win 3).flush t = true) :
    (dat7 V c).flushed 3 t = ((cfg7.win 3).blk t).view.read (Elt Ideal) (G7 V c) := by
  have hN : cfg7.N = 128 := N_7
  have hb : t.val % 16 = 15 := (flush7_3 t).mp hf
  have ht : t.val < cfg7.N := t.isLt
  obtain ⟨-, -, -, -, -, -, e6, e7⟩ := points7_facts t
  have hi : t.val / 16 < 8 := by omega
  have hti : 16 * (t.val / 16) + 15 < cfg7.N := by omega
  show (cfg7.win 3).cut (grid7.coords t) ((dat7 V c).after 3 t) = _
  rw [after7_3, out7_last V c t hb]
  funext y
  have hyr : (y 0).val < 2048 := (y 0).isLt
  have hyc : (y 1).val < 64 := (y 1).isLt
  have hx : (cfg7.win 3).xinj (grid7.coords t) y = ix2 (⟨(y 0).val, hyr⟩ : Fin 2048) (⟨(y 1).val, hyc⟩ : Fin 64) := by
    funext a
    match a with
    | ⟨0, _⟩ => rfl
    | ⟨1, _⟩ => rfl
  have he : ((cfg7.win 3).blk t).view.emb y = ix2 (rowAt ⟨t.val / 16, hi⟩ ⟨(y 0).val, hyr⟩) (⟨(y 1).val, hyc⟩ : Fin 64) := by
    funext a
    apply Fin.ext
    match a with
    | ⟨0, _⟩ => show win7_3.index t 0 * 2048 + 1 * (y 0).val = t.val / 16 * 2048 + (y 0).val; rw [e6]; omega
    | ⟨1, _⟩ => show win7_3.index t 1 * 64 + 1 * (y 1).val = (y 1).val; rw [e7]; omega
  show k1_pay3 (outsAt7 V c t.val t.isLt).2 (blkT7 V c t) ((cfg7.win 3).xinj (grid7.coords t) y) = G7 V c (((cfg7.win 3).blk t).view.emb y)
  rw [hx, he, k1_pay3_apply, outsAt7_congr V c (show t.val = 16 * (t.val / 16) + 15 by omega) t.isLt hti,
    scr7_last V c ⟨t.val / 16, hi⟩ hti, blkT7_apply V c t ⟨t.val / 16, hi⟩ 15 (by show t.val = 16 * (t.val / 16) + 15; omega)]
  rfl

theorem cover7 (y : S16384x64.Idx) :
    ∃ t : Fin cfg7.N, (cfg7.win 3).flush t = true ∧ y ∈ ((cfg7.win 3).blk t).view.set := by
  have hN : cfg7.N = 128 := N_7
  have hyr : (y 0).val < 16384 := (y 0).isLt
  have hyc : (y 1).val < 64 := (y 1).isLt
  have ht : 16 * ((y 0).val / 2048) + 15 < cfg7.N := by omega
  obtain ⟨-, -, -, -, -, -, e6, e7⟩ := points7_facts ⟨16 * ((y 0).val / 2048) + 15, ht⟩
  have e6' : win7_3.index ⟨16 * ((y 0).val / 2048) + 15, ht⟩ 0 = (16 * ((y 0).val / 2048) + 15) / 16 := e6
  refine ⟨⟨16 * ((y 0).val / 2048) + 15, ht⟩, (flush7_3 _).mpr (by show (16 * ((y 0).val / 2048) + 15) % 16 = 15; omega), ?_⟩
  show y ∈ ((View.whole (Pipeline.arrRef spec7 3)).slice (win7_3.rect ⟨16 * ((y 0).val / 2048) + 15, ht⟩)).set
  rw [View.set_slice_whole, Rect.mem_set_unit]
  intro a
  match a with
  | ⟨0, _⟩ =>
    show win7_3.index ⟨16 * ((y 0).val / 2048) + 15, ht⟩ 0 * 2048 ≤ (y 0).val
      ∧ (y 0).val < win7_3.index ⟨16 * ((y 0).val / 2048) + 15, ht⟩ 0 * 2048 + 2048
    rw [e6']; omega
  | ⟨1, _⟩ =>
    show win7_3.index ⟨16 * ((y 0).val / 2048) + 15, ht⟩ 1 * 64 ≤ (y 1).val
      ∧ (y 1).val < win7_3.index ⟨16 * ((y 0).val / 2048) + 15, ht⟩ 1 * 64 + 64
    rw [e7]; omega

theorem final7 (c : Dev nD) (r : Fin 16384) (k : Fin 64) :
    (dat7 V c).arrAt 3 cfg7.N (ix2 r k)
      = Cert.Spec.step (fun r j => (V c (Pipeline.arrRef spec7 0) : Vec Ideal S16384x16384 .f32) (ix2 r j))
          (fun r n => (V c (Pipeline.arrRef spec7 2) : Vec Ideal S16384x64 .f32) (ix2 r n))
          (fun r n => (V c (Pipeline.arrRef spec7 1) : Vec Ideal S16384x64 .f32) (ix2 r n)) r k :=
  congrFun ((dat7 V c).arrAt_eq_of_cover 3 (G7 V c) (flushed7_eq V c) cover7) (ix2 r k)

end Value

end Cert.KernelIdeal.Fr

end
-- ==== Proof.KI.Ap8Val.lean ====
/- (proof/Proof/KI/Ap1Val.lean with region 8's names put for region 1's; nothing else changed) -/
import proofs.«109160_j26783416057954_1_alg».proof.Proof.KI.Ap8
import proofs.«109160_j26783416057954_1_alg».proof.Proof.KI.StepPieces

set_option maxRecDepth 16384

noncomputable section

open scoped BigOperators

namespace Cert.KernelIdeal.Fr

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

section Steps

variable {F : FTy → Type} [FloatOps F]
variable (V : (c : Dev nD) → (b : Ref sig .tc) → Buf (Elt F) ((c : Thread nD τ).loc b))

abbrev arrA8 (c : Dev nD) : Vec F S16384x16384 .f32 := V c (Pipeline.arrRef spec8 0)
abbrev arrZ8 (c : Dev nD) : Vec F S16384x64 .f32 := V c (Pipeline.arrRef spec8 1)
abbrev arrT8 (c : Dev nD) : Vec F S16384x64 .f32 := V c (Pipeline.arrRef spec8 2)

abbrev blkA8 (c : Dev nD) (t : Fin cfg8.N) : Vec F S2048x1024 .f32 := iblk8 V c 0 t
abbrev blkZ8 (c : Dev nD) (t : Fin cfg8.N) : Vec F S1024x64 .f32 := iblk8 V c 1 t
abbrev blkT8 (c : Dev nD) (t : Fin cfg8.N) : Vec F S2048x64 .f32 := iblk8 V c 2 t

theorem outsAt8_congr (c : Dev nD) {n n' : ℕ} (e : n = n') (h : n < cfg8.N) (h' : n' < cfg8.N) :
    outsAt8 V c n h = outsAt8 V c n' h' := by subst e; rfl

theorem scr8_first (c : Dev nD) (t : Fin cfg8.N) (ha : t.val % 16 = 0) :
    (outsAt8 V c t.val t.isLt).2 = k1_pay2 (blkA8 V c t) (blkZ8 V c t) (k1_pay1 (F := F)) := by
  have hb : ¬t.val % 16 = 15 := by omega
  rw [outsAt8_A V c t ha hb]
  exact accA_eq VO8_3 VS8_0 c (grid8.coords t) (ms8_0 t) (hs8_0 t) (ms8_1 t) (hs8_1 t) (ms8_2 t) (hs8_2 t) (ms8_3 t) (hs8_3 t) scM8_0 (Memref.isWhole_whole _) ((hcondFirst t).mpr ha) (fun h => hb ((hcondLast t).mp h)) (iblk8 V c 0 t) (iblk8 V c 1 t) (iblk8 V c 2 t)

theorem scr8_step (c : Dev nD) (t : Fin cfg8.N) (ha : ¬t.val % 16 = 0) :
    (outsAt8 V c t.val t.isLt).2
      = k1_pay2 (blkA8 V c t) (blkZ8 V c t) (outsAt8 V c (t.val - 1) (Nat.lt_of_le_of_lt (Nat.sub_le _ _) t.isLt)).2 := by
  by_cases hb : t.val % 16 = 15
  · rw [outsAt8_C V c t ha hb]
    exact accC_eq VO8_3 VS8_0 c (grid8.coords t) (ms8_0 t) (hs8_0 t) (ms8_1 t) (hs8_1 t) (ms8_2 t) (hs8_2 t) (ms8_3 t) (hs8_3 t) scM8_0 (Memref.isWhole_whole _) (fun h => ha ((hcondFirst t).mp h)) ((hcondLast t).mpr hb) (iblk8 V c 0 t) (iblk8 V c 1 t) (iblk8 V c 2 t) (outsAt8 V c (t.val - 1) (Nat.lt_of_le_of_lt (Nat.sub_le _ _) t.isLt)).2
  · rw [outsAt8_B V c t ha hb]
    exact accB_eq VO8_3 VS8_0 c (grid8.coords t) (ms8_0 t) (hs8_0 t) (ms8_1 t) (hs8_1 t) (ms8_2 t) (hs8_2 t) (ms8_3 t) (hs8_3 t) scM8_0 (Memref.isWhole_whole _) (fun h => ha ((hcondFirst t).mp h)) (fun h => hb ((hcondLast t).mp h)) (iblk8 V c 0 t) (iblk8 V c 1 t) (iblk8 V c 2 t) (outsAt8 V c (t.val - 1) (Nat.lt_of_le_of_lt (Nat.sub_le _ _) t.isLt)).2

theorem out8_last (c : Dev nD) (t : Fin cfg8.N) (hb : t.val % 16 = 15) :
    (outsAt8 V c t.val t.isLt).1 = k1_pay3 (outsAt8 V c t.val t.isLt).2 (blkT8 V c t) := by
  have ha : ¬t.val % 16 = 0 := by omega
  rw [outsAt8_C V c t ha hb]
  exact outC_eq VO8_3 VS8_0 c (grid8.coords t) (ms8_0 t) (hs8_0 t) (ms8_1 t) (hs8_1 t) (ms8_2 t) (hs8_2 t) (ms8_3 t) (hs8_3 t) scM8_0 (Memref.isWhole_whole _) (fun h => ha ((hcondFirst t).mp h)) ((hcondLast t).mpr hb) (iblk8 V c 0 t) (iblk8 V c 1 t) (iblk8 V c 2 t) (outsAt8 V c (t.val - 1) (Nat.lt_of_le_of_lt (Nat.sub_le _ _) t.isLt)).2

theorem points8_facts : ∀ t : Fin cfg8.N,
    win8_0.index t (0 : Fin 2) = t.val / 16 ∧ win8_0.index t (1 : Fin 2) = t.val % 16
    ∧ win8_1.index t (0 : Fin 2) = t.val % 16 ∧ win8_1.index t (1 : Fin 2) = 0
    ∧ win8_2.index t (0 : Fin 2) = t.val / 16 ∧ win8_2.index t (1 : Fin 2) = 0
    ∧ win8_3.index t (0 : Fin 2) = t.val / 16 ∧ win8_3.index t (1 : Fin 2) = 0 :=
  (by decide +kernel : ∀ t : Fin grid8.N, _)

theorem blkA8_apply (c : Dev nD) (t : Fin cfg8.N) (i : Fin 8) (j : Fin 16) (ht : t.val = 16 * i.val + j.val)
    (p : Fin 2048) (k : Fin 1024) :
    blkA8 V c t (ix2 p k) = arrA8 V c (ix2 (rowAt i p) (colAt j k)) := by
  obtain ⟨ea, eb, -⟩ := points8_facts t
  unfold blkA8 iblk8
  rw [View.read_apply]
  show V c (Pipeline.arrRef spec8 0) _ = V c (Pipeline.arrRef spec8 0) _
  congr 1
  funext a
  apply Fin.ext
  match a with
  | ⟨0, _⟩ => show win8_0.index t 0 * 2048 + 1 * p.val = i.val * 2048 + p.val; rw [ea]; omega
  | ⟨1, _⟩ => show win8_0.index t 1 * 1024 + 1 * k.val = j.val * 1024 + k.val; rw [eb]; omega

theorem blkZ8_apply (c : Dev nD) (t : Fin cfg8.N) (i : Fin 8) (j : Fin 16) (ht : t.val = 16 * i.val + j.val)
    (k : Fin 1024) (q : Fin 64) :
    blkZ8 V c t (ix2 k q) = arrZ8 V c (ix2 (colAt j k) q) := by
  obtain ⟨-, -, e2, e3, -⟩ := points8_facts t
  unfold blkZ8 iblk8
  rw [View.read_apply]
  show V c (Pipeline.arrRef spec8 1) _ = V c (Pipeline.arrRef spec8 1) _
  congr 1
  funext a
  apply Fin.ext
  match a with
  | ⟨0, _⟩ => show win8_1.index t 0 * 1024 + 1 * k.val = j.val * 1024 + k.val; rw [e2]; omega
  | ⟨1, _⟩ => show win8_1.index t 1 * 64 + 1 * q.val = q.val; rw [e3]; omega

theorem blkT8_apply (c : Dev nD) (t : Fin cfg8.N) (i : Fin 8) (j : Fin 16) (ht : t.val = 16 * i.val + j.val)
    (p : Fin 2048) (q : Fin 64) :
    blkT8 V c t (ix2 p q) = arrT8 V c (ix2 (rowAt i p) q) := by
  obtain ⟨-, -, -, -, e4, e5, -⟩ := points8_facts t
  unfold blkT8 iblk8
  rw [View.read_apply]
  show V c (Pipeline.arrRef spec8 2) _ = V c (Pipeline.arrRef spec8 2) _
  congr 1
  funext a
  apply Fin.ext
  match a with
  | ⟨0, _⟩ => show win8_2.index t 0 * 2048 + 1 * p.val = i.val * 2048 + p.val; rw [e4]; omega
  | ⟨1, _⟩ => show win8_2.index t 1 * 64 + 1 * q.val = q.val; rw [e5]; omega

end Steps

section Value

variable (V : (c : Dev nD) → (b : Ref sig .tc) → Buf (Elt Ideal) ((c : Thread nD τ).loc b))

theorem scr8_last (c : Dev nD) (i : Fin 8) (h : 16 * i.val + 15 < cfg8.N) (p : Fin 2048) (q : Fin 64) :
    (outsAt8 V c (16 * i.val + 15) h).2 (ix2 p q)
      = ∑ k : Fin 16384, arrA8 V c (ix2 (rowAt i p) k) * arrZ8 V c (ix2 k q) := by
  have hN : cfg8.N = 128 := N_8
  have hi : i.val < 8 := i.isLt
  rw [sum_cols]
  refine (dif_pos h).symm.trans (chain16_eq_sum
    (fun j : Fin 16 => ∑ k : Fin 1024, arrA8 V c (ix2 (rowAt i p) (colAt j k)) * arrZ8 V c (ix2 (colAt j k) q))
    (fun n : ℕ => if hn : 16 * i.val + n < cfg8.N then (outsAt8 V c (16 * i.val + n) hn).2 (ix2 p q) else 0) ?_ ?_)
  · have h0 : 16 * i.val + 0 < cfg8.N := by omega
    show (if hn : 16 * i.val + 0 < cfg8.N then (outsAt8 V c (16 * i.val + 0) hn).2 (ix2 p q) else 0)
      = 0 + ∑ k : Fin 1024, arrA8 V c (ix2 (rowAt i p) (colAt 0 k)) * arrZ8 V c (ix2 (colAt 0 k) q)
    rw [dif_pos h0]
    refine (congrFun (scr8_first V c ⟨16 * i.val + 0, h0⟩ (by show (16 * i.val + 0) % 16 = 0; omega)) (ix2 p q)).trans ?_
    rw [k1_pay2_apply, k1_pay1_apply]
    refine congrArg (0 + ·) (Finset.sum_congr rfl fun k _ => ?_)
    rw [blkA8_apply V c ⟨16 * i.val + 0, h0⟩ i 0 rfl p k, blkZ8_apply V c ⟨16 * i.val + 0, h0⟩ i 0 rfl k q]
  · intro n hn
    have hsuc : 16 * i.val + (n + 1) < cfg8.N := by omega
    have hpre : 16 * i.val + n < cfg8.N := by omega
    show (if hn : 16 * i.val + (n + 1) < cfg8.N then (outsAt8 V c (16 * i.val + (n + 1)) hn).2 (ix2 p q) else 0)
      = (if hn : 16 * i.val + n < cfg8.N then (outsAt8 V c (16 * i.val + n) hn).2 (ix2 p q) else 0)
        + ∑ k : Fin 1024, arrA8 V c (ix2 (rowAt i p) (colAt ⟨n + 1, hn⟩ k)) * arrZ8 V c (ix2 (colAt ⟨n + 1, hn⟩ k) q)
    rw [dif_pos hsuc, dif_pos hpre]
    refine (congrFun (scr8_step V c ⟨16 * i.val + (n + 1), hsuc⟩ (by show ¬(16 * i.val + (n + 1)) % 16 = 0; omega)) (ix2 p q)).trans ?_
    rw [k1_pay2_apply]
    rw [outsAt8_congr V c (show 16 * i.val + (n + 1) - 1 = 16 * i.val + n by omega) _ hpre]
    refine congrArg (_ + ·) (Finset.sum_congr rfl fun k _ => ?_)
    rw [blkA8_apply V c ⟨16 * i.val + (n + 1), hsuc⟩ i ⟨n + 1, hn⟩ rfl p k, blkZ8_apply V c ⟨16 * i.val + (n + 1), hsuc⟩ i ⟨n + 1, hn⟩ rfl k q]

abbrev G8 (c : Dev nD) : Vec Ideal S16384x64 .f32 := fun y =>
  Cert.Spec.step (fun r j => arrA8 V c (ix2 r j)) (fun r n => arrT8 V c (ix2 r n)) (fun r n => arrZ8 V c (ix2 r n)) (y 0) (y 1)

theorem flushed8_eq (c : Dev nD) (t : Fin cfg8.N) (hf : (cfg8.win 3).flush t = true) :
    (dat8 V c).flushed 3 t = ((cfg8.win 3).blk t).view.read (Elt Ideal) (G8 V c) := by
  have hN : cfg8.N = 128 := N_8
  have hb : t.val % 16 = 15 := (flush8_3 t).mp hf
  have ht : t.val < cfg8.N := t.isLt
  obtain ⟨-, -, -, -, -, -, e6, e7⟩ := points8_facts t
  have hi : t.val / 16 < 8 := by omega
  have hti : 16 * (t.val / 16) + 15 < cfg8.N := by omega
  show (cfg8.win 3).cut (grid8.coords t) ((dat8 V c).after 3 t) = _
  rw [after8_3, out8_last V c t hb]
  funext y
  have hyr : (y 0).val < 2048 := (y 0).isLt
  have hyc : (y 1).val < 64 := (y 1).isLt
  have hx : (cfg8.win 3).xinj (grid8.coords t) y = ix2 (⟨(y 0).val, hyr⟩ : Fin 2048) (⟨(y 1).val, hyc⟩ : Fin 64) := by
    funext a
    match a with
    | ⟨0, _⟩ => rfl
    | ⟨1, _⟩ => rfl
  have he : ((cfg8.win 3).blk t).view.emb y = ix2 (rowAt ⟨t.val / 16, hi⟩ ⟨(y 0).val, hyr⟩) (⟨(y 1).val, hyc⟩ : Fin 64) := by
    funext a
    apply Fin.ext
    match a with
    | ⟨0, _⟩ => show win8_3.index t 0 * 2048 + 1 * (y 0).val = t.val / 16 * 2048 + (y 0).val; rw [e6]; omega
    | ⟨1, _⟩ => show win8_3.index t 1 * 64 + 1 * (y 1).val = (y 1).val; rw [e7]; omega
  show k1_pay3 (outsAt8 V c t.val t.isLt).2 (blkT8 V c t) ((cfg8.win 3).xinj (grid8.coords t) y) = G8 V c (((cfg8.win 3).blk t).view.emb y)
  rw [hx, he, k1_pay3_apply, outsAt8_congr V c (show t.val = 16 * (t.val / 16) + 15 by omega) t.isLt hti,
    scr8_last V c ⟨t.val / 16, hi⟩ hti, blkT8_apply V c t ⟨t.val / 16, hi⟩ 15 (by show t.val = 16 * (t.val / 16) + 15; omega)]
  rfl

theorem cover8 (y : S16384x64.Idx) :
    ∃ t : Fin cfg8.N, (cfg8.win 3).flush t = true ∧ y ∈ ((cfg8.win 3).blk t).view.set := by
  have hN : cfg8.N = 128 := N_8
  have hyr : (y 0).val < 16384 := (y 0).isLt
  have hyc : (y 1).val < 64 := (y 1).isLt
  have ht : 16 * ((y 0).val / 2048) + 15 < cfg8.N := by omega
  obtain ⟨-, -, -, -, -, -, e6, e7⟩ := points8_facts ⟨16 * ((y 0).val / 2048) + 15, ht⟩
  have e6' : win8_3.index ⟨16 * ((y 0).val / 2048) + 15, ht⟩ 0 = (16 * ((y 0).val / 2048) + 15) / 16 := e6
  refine ⟨⟨16 * ((y 0).val / 2048) + 15, ht⟩, (flush8_3 _).mpr (by show (16 * ((y 0).val / 2048) + 15) % 16 = 15; omega), ?_⟩
  show y ∈ ((View.whole (Pipeline.arrRef spec8 3)).slice (win8_3.rect ⟨16 * ((y 0).val / 2048) + 15, ht⟩)).set
  rw [View.set_slice_whole, Rect.mem_set_unit]
  intro a
  match a with
  | ⟨0, _⟩ =>
    show win8_3.index ⟨16 * ((y 0).val / 2048) + 15, ht⟩ 0 * 2048 ≤ (y 0).val
      ∧ (y 0).val < win8_3.index ⟨16 * ((y 0).val / 2048) + 15, ht⟩ 0 * 2048 + 2048
    rw [e6']; omega
  | ⟨1, _⟩ =>
    show win8_3.index ⟨16 * ((y 0).val / 2048) + 15, ht⟩ 1 * 64 ≤ (y 1).val
      ∧ (y 1).val < win8_3.index ⟨16 * ((y 0).val / 2048) + 15, ht⟩ 1 * 64 + 64
    rw [e7]; omega

theorem final8 (c : Dev nD) (r : Fin 16384) (k : Fin 64) :
    (dat8 V c).arrAt 3 cfg8.N (ix2 r k)
      = Cert.Spec.step (fun r j => (V c (Pipeline.arrRef spec8 0) : Vec Ideal S16384x16384 .f32) (ix2 r j))
          (fun r n => (V c (Pipeline.arrRef spec8 2) : Vec Ideal S16384x64 .f32) (ix2 r n))
          (fun r n => (V c (Pipeline.arrRef spec8 1) : Vec Ideal S16384x64 .f32) (ix2 r n)) r k :=
  congrFun ((dat8 V c).arrAt_eq_of_cover 3 (G8 V c) (flushed8_eq V c) cover8) (ix2 r k)

end Value

end Cert.KernelIdeal.Fr

end
-- ==== Proof.KI.Ap9Val.lean ====
/- (proof/Proof/KI/Ap1Val.lean with region 9's names put for region 1's; nothing else changed) -/
import proofs.«109160_j26783416057954_1_alg».proof.Proof.KI.Ap9
import proofs.«109160_j26783416057954_1_alg».proof.Proof.KI.StepPieces

set_option maxRecDepth 16384

noncomputable section

open scoped BigOperators

namespace Cert.KernelIdeal.Fr

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

section Steps

variable {F : FTy → Type} [FloatOps F]
variable (V : (c : Dev nD) → (b : Ref sig .tc) → Buf (Elt F) ((c : Thread nD τ).loc b))

abbrev arrA9 (c : Dev nD) : Vec F S16384x16384 .f32 := V c (Pipeline.arrRef spec9 0)
abbrev arrZ9 (c : Dev nD) : Vec F S16384x64 .f32 := V c (Pipeline.arrRef spec9 1)
abbrev arrT9 (c : Dev nD) : Vec F S16384x64 .f32 := V c (Pipeline.arrRef spec9 2)

abbrev blkA9 (c : Dev nD) (t : Fin cfg9.N) : Vec F S2048x1024 .f32 := iblk9 V c 0 t
abbrev blkZ9 (c : Dev nD) (t : Fin cfg9.N) : Vec F S1024x64 .f32 := iblk9 V c 1 t
abbrev blkT9 (c : Dev nD) (t : Fin cfg9.N) : Vec F S2048x64 .f32 := iblk9 V c 2 t

theorem outsAt9_congr (c : Dev nD) {n n' : ℕ} (e : n = n') (h : n < cfg9.N) (h' : n' < cfg9.N) :
    outsAt9 V c n h = outsAt9 V c n' h' := by subst e; rfl

theorem scr9_first (c : Dev nD) (t : Fin cfg9.N) (ha : t.val % 16 = 0) :
    (outsAt9 V c t.val t.isLt).2 = k1_pay2 (blkA9 V c t) (blkZ9 V c t) (k1_pay1 (F := F)) := by
  have hb : ¬t.val % 16 = 15 := by omega
  rw [outsAt9_A V c t ha hb]
  exact accA_eq VO9_3 VS9_0 c (grid9.coords t) (ms9_0 t) (hs9_0 t) (ms9_1 t) (hs9_1 t) (ms9_2 t) (hs9_2 t) (ms9_3 t) (hs9_3 t) scM9_0 (Memref.isWhole_whole _) ((hcondFirst t).mpr ha) (fun h => hb ((hcondLast t).mp h)) (iblk9 V c 0 t) (iblk9 V c 1 t) (iblk9 V c 2 t)

theorem scr9_step (c : Dev nD) (t : Fin cfg9.N) (ha : ¬t.val % 16 = 0) :
    (outsAt9 V c t.val t.isLt).2
      = k1_pay2 (blkA9 V c t) (blkZ9 V c t) (outsAt9 V c (t.val - 1) (Nat.lt_of_le_of_lt (Nat.sub_le _ _) t.isLt)).2 := by
  by_cases hb : t.val % 16 = 15
  · rw [outsAt9_C V c t ha hb]
    exact accC_eq VO9_3 VS9_0 c (grid9.coords t) (ms9_0 t) (hs9_0 t) (ms9_1 t) (hs9_1 t) (ms9_2 t) (hs9_2 t) (ms9_3 t) (hs9_3 t) scM9_0 (Memref.isWhole_whole _) (fun h => ha ((hcondFirst t).mp h)) ((hcondLast t).mpr hb) (iblk9 V c 0 t) (iblk9 V c 1 t) (iblk9 V c 2 t) (outsAt9 V c (t.val - 1) (Nat.lt_of_le_of_lt (Nat.sub_le _ _) t.isLt)).2
  · rw [outsAt9_B V c t ha hb]
    exact accB_eq VO9_3 VS9_0 c (grid9.coords t) (ms9_0 t) (hs9_0 t) (ms9_1 t) (hs9_1 t) (ms9_2 t) (hs9_2 t) (ms9_3 t) (hs9_3 t) scM9_0 (Memref.isWhole_whole _) (fun h => ha ((hcondFirst t).mp h)) (fun h => hb ((hcondLast t).mp h)) (iblk9 V c 0 t) (iblk9 V c 1 t) (iblk9 V c 2 t) (outsAt9 V c (t.val - 1) (Nat.lt_of_le_of_lt (Nat.sub_le _ _) t.isLt)).2

theorem out9_last (c : Dev nD) (t : Fin cfg9.N) (hb : t.val % 16 = 15) :
    (outsAt9 V c t.val t.isLt).1 = k1_pay3 (outsAt9 V c t.val t.isLt).2 (blkT9 V c t) := by
  have ha : ¬t.val % 16 = 0 := by omega
  rw [outsAt9_C V c t ha hb]
  exact outC_eq VO9_3 VS9_0 c (grid9.coords t) (ms9_0 t) (hs9_0 t) (ms9_1 t) (hs9_1 t) (ms9_2 t) (hs9_2 t) (ms9_3 t) (hs9_3 t) scM9_0 (Memref.isWhole_whole _) (fun h => ha ((hcondFirst t).mp h)) ((hcondLast t).mpr hb) (iblk9 V c 0 t) (iblk9 V c 1 t) (iblk9 V c 2 t) (outsAt9 V c (t.val - 1) (Nat.lt_of_le_of_lt (Nat.sub_le _ _) t.isLt)).2

theorem points9_facts : ∀ t : Fin cfg9.N,
    win9_0.index t (0 : Fin 2) = t.val / 16 ∧ win9_0.index t (1 : Fin 2) = t.val % 16
    ∧ win9_1.index t (0 : Fin 2) = t.val % 16 ∧ win9_1.index t (1 : Fin 2) = 0
    ∧ win9_2.index t (0 : Fin 2) = t.val / 16 ∧ win9_2.index t (1 : Fin 2) = 0
    ∧ win9_3.index t (0 : Fin 2) = t.val / 16 ∧ win9_3.index t (1 : Fin 2) = 0 :=
  (by decide +kernel : ∀ t : Fin grid9.N, _)

theorem blkA9_apply (c : Dev nD) (t : Fin cfg9.N) (i : Fin 8) (j : Fin 16) (ht : t.val = 16 * i.val + j.val)
    (p : Fin 2048) (k : Fin 1024) :
    blkA9 V c t (ix2 p k) = arrA9 V c (ix2 (rowAt i p) (colAt j k)) := by
  obtain ⟨ea, eb, -⟩ := points9_facts t
  unfold blkA9 iblk9
  rw [View.read_apply]
  show V c (Pipeline.arrRef spec9 0) _ = V c (Pipeline.arrRef spec9 0) _
  congr 1
  funext a
  apply Fin.ext
  match a with
  | ⟨0, _⟩ => show win9_0.index t 0 * 2048 + 1 * p.val = i.val * 2048 + p.val; rw [ea]; omega
  | ⟨1, _⟩ => show win9_0.index t 1 * 1024 + 1 * k.val = j.val * 1024 + k.val; rw [eb]; omega

theorem blkZ9_apply (c : Dev nD) (t : Fin cfg9.N) (i : Fin 8) (j : Fin 16) (ht : t.val = 16 * i.val + j.val)
    (k : Fin 1024) (q : Fin 64) :
    blkZ9 V c t (ix2 k q) = arrZ9 V c (ix2 (colAt j k) q) := by
  obtain ⟨-, -, e2, e3, -⟩ := points9_facts t
  unfold blkZ9 iblk9
  rw [View.read_apply]
  show V c (Pipeline.arrRef spec9 1) _ = V c (Pipeline.arrRef spec9 1) _
  congr 1
  funext a
  apply Fin.ext
  match a with
  | ⟨0, _⟩ => show win9_1.index t 0 * 1024 + 1 * k.val = j.val * 1024 + k.val; rw [e2]; omega
  | ⟨1, _⟩ => show win9_1.index t 1 * 64 + 1 * q.val = q.val; rw [e3]; omega

theorem blkT9_apply (c : Dev nD) (t : Fin cfg9.N) (i : Fin 8) (j : Fin 16) (ht : t.val = 16 * i.val + j.val)
    (p : Fin 2048) (q : Fin 64) :
    blkT9 V c t (ix2 p q) = arrT9 V c (ix2 (rowAt i p) q) := by
  obtain ⟨-, -, -, -, e4, e5, -⟩ := points9_facts t
  unfold blkT9 iblk9
  rw [View.read_apply]
  show V c (Pipeline.arrRef spec9 2) _ = V c (Pipeline.arrRef spec9 2) _
  congr 1
  funext a
  apply Fin.ext
  match a with
  | ⟨0, _⟩ => show win9_2.index t 0 * 2048 + 1 * p.val = i.val * 2048 + p.val; rw [e4]; omega
  | ⟨1, _⟩ => show win9_2.index t 1 * 64 + 1 * q.val = q.val; rw [e5]; omega

end Steps

section Value

variable (V : (c : Dev nD) → (b : Ref sig .tc) → Buf (Elt Ideal) ((c : Thread nD τ).loc b))

theorem scr9_last (c : Dev nD) (i : Fin 8) (h : 16 * i.val + 15 < cfg9.N) (p : Fin 2048) (q : Fin 64) :
    (outsAt9 V c (16 * i.val + 15) h).2 (ix2 p q)
      = ∑ k : Fin 16384, arrA9 V c (ix2 (rowAt i p) k) * arrZ9 V c (ix2 k q) := by
  have hN : cfg9.N = 128 := N_9
  have hi : i.val < 8 := i.isLt
  rw [sum_cols]
  refine (dif_pos h).symm.trans (chain16_eq_sum
    (fun j : Fin 16 => ∑ k : Fin 1024, arrA9 V c (ix2 (rowAt i p) (colAt j k)) * arrZ9 V c (ix2 (colAt j k) q))
    (fun n : ℕ => if hn : 16 * i.val + n < cfg9.N then (outsAt9 V c (16 * i.val + n) hn).2 (ix2 p q) else 0) ?_ ?_)
  · have h0 : 16 * i.val + 0 < cfg9.N := by omega
    show (if hn : 16 * i.val + 0 < cfg9.N then (outsAt9 V c (16 * i.val + 0) hn).2 (ix2 p q) else 0)
      = 0 + ∑ k : Fin 1024, arrA9 V c (ix2 (rowAt i p) (colAt 0 k)) * arrZ9 V c (ix2 (colAt 0 k) q)
    rw [dif_pos h0]
    refine (congrFun (scr9_first V c ⟨16 * i.val + 0, h0⟩ (by show (16 * i.val + 0) % 16 = 0; omega)) (ix2 p q)).trans ?_
    rw [k1_pay2_apply, k1_pay1_apply]
    refine congrArg (0 + ·) (Finset.sum_congr rfl fun k _ => ?_)
    rw [blkA9_apply V c ⟨16 * i.val + 0, h0⟩ i 0 rfl p k, blkZ9_apply V c ⟨16 * i.val + 0, h0⟩ i 0 rfl k q]
  · intro n hn
    have hsuc : 16 * i.val + (n + 1) < cfg9.N := by omega
    have hpre : 16 * i.val + n < cfg9.N := by omega
    show (if hn : 16 * i.val + (n + 1) < cfg9.N then (outsAt9 V c (16 * i.val + (n + 1)) hn).2 (ix2 p q) else 0)
      = (if hn : 16 * i.val + n < cfg9.N then (outsAt9 V c (16 * i.val + n) hn).2 (ix2 p q) else 0)
        + ∑ k : Fin 1024, arrA9 V c (ix2 (rowAt i p) (colAt ⟨n + 1, hn⟩ k)) * arrZ9 V c (ix2 (colAt ⟨n + 1, hn⟩ k) q)
    rw [dif_pos hsuc, dif_pos hpre]
    refine (congrFun (scr9_step V c ⟨16 * i.val + (n + 1), hsuc⟩ (by show ¬(16 * i.val + (n + 1)) % 16 = 0; omega)) (ix2 p q)).trans ?_
    rw [k1_pay2_apply]
    rw [outsAt9_congr V c (show 16 * i.val + (n + 1) - 1 = 16 * i.val + n by omega) _ hpre]
    refine congrArg (_ + ·) (Finset.sum_congr rfl fun k _ => ?_)
    rw [blkA9_apply V c ⟨16 * i.val + (n + 1), hsuc⟩ i ⟨n + 1, hn⟩ rfl p k, blkZ9_apply V c ⟨16 * i.val + (n + 1), hsuc⟩ i ⟨n + 1, hn⟩ rfl k q]

abbrev G9 (c : Dev nD) : Vec Ideal S16384x64 .f32 := fun y =>
  Cert.Spec.step (fun r j => arrA9 V c (ix2 r j)) (fun r n => arrT9 V c (ix2 r n)) (fun r n => arrZ9 V c (ix2 r n)) (y 0) (y 1)

theorem flushed9_eq (c : Dev nD) (t : Fin cfg9.N) (hf : (cfg9.win 3).flush t = true) :
    (dat9 V c).flushed 3 t = ((cfg9.win 3).blk t).view.read (Elt Ideal) (G9 V c) := by
  have hN : cfg9.N = 128 := N_9
  have hb : t.val % 16 = 15 := (flush9_3 t).mp hf
  have ht : t.val < cfg9.N := t.isLt
  obtain ⟨-, -, -, -, -, -, e6, e7⟩ := points9_facts t
  have hi : t.val / 16 < 8 := by omega
  have hti : 16 * (t.val / 16) + 15 < cfg9.N := by omega
  show (cfg9.win 3).cut (grid9.coords t) ((dat9 V c).after 3 t) = _
  rw [after9_3, out9_last V c t hb]
  funext y
  have hyr : (y 0).val < 2048 := (y 0).isLt
  have hyc : (y 1).val < 64 := (y 1).isLt
  have hx : (cfg9.win 3).xinj (grid9.coords t) y = ix2 (⟨(y 0).val, hyr⟩ : Fin 2048) (⟨(y 1).val, hyc⟩ : Fin 64) := by
    funext a
    match a with
    | ⟨0, _⟩ => rfl
    | ⟨1, _⟩ => rfl
  have he : ((cfg9.win 3).blk t).view.emb y = ix2 (rowAt ⟨t.val / 16, hi⟩ ⟨(y 0).val, hyr⟩) (⟨(y 1).val, hyc⟩ : Fin 64) := by
    funext a
    apply Fin.ext
    match a with
    | ⟨0, _⟩ => show win9_3.index t 0 * 2048 + 1 * (y 0).val = t.val / 16 * 2048 + (y 0).val; rw [e6]; omega
    | ⟨1, _⟩ => show win9_3.index t 1 * 64 + 1 * (y 1).val = (y 1).val; rw [e7]; omega
  show k1_pay3 (outsAt9 V c t.val t.isLt).2 (blkT9 V c t) ((cfg9.win 3).xinj (grid9.coords t) y) = G9 V c (((cfg9.win 3).blk t).view.emb y)
  rw [hx, he, k1_pay3_apply, outsAt9_congr V c (show t.val = 16 * (t.val / 16) + 15 by omega) t.isLt hti,
    scr9_last V c ⟨t.val / 16, hi⟩ hti, blkT9_apply V c t ⟨t.val / 16, hi⟩ 15 (by show t.val = 16 * (t.val / 16) + 15; omega)]
  rfl

theorem cover9 (y : S16384x64.Idx) :
    ∃ t : Fin cfg9.N, (cfg9.win 3).flush t = true ∧ y ∈ ((cfg9.win 3).blk t).view.set := by
  have hN : cfg9.N = 128 := N_9
  have hyr : (y 0).val < 16384 := (y 0).isLt
  have hyc : (y 1).val < 64 := (y 1).isLt
  have ht : 16 * ((y 0).val / 2048) + 15 < cfg9.N := by omega
  obtain ⟨-, -, -, -, -, -, e6, e7⟩ := points9_facts ⟨16 * ((y 0).val / 2048) + 15, ht⟩
  have e6' : win9_3.index ⟨16 * ((y 0).val / 2048) + 15, ht⟩ 0 = (16 * ((y 0).val / 2048) + 15) / 16 := e6
  refine ⟨⟨16 * ((y 0).val / 2048) + 15, ht⟩, (flush9_3 _).mpr (by show (16 * ((y 0).val / 2048) + 15) % 16 = 15; omega), ?_⟩
  show y ∈ ((View.whole (Pipeline.arrRef spec9 3)).slice (win9_3.rect ⟨16 * ((y 0).val / 2048) + 15, ht⟩)).set
  rw [View.set_slice_whole, Rect.mem_set_unit]
  intro a
  match a with
  | ⟨0, _⟩ =>
    show win9_3.index ⟨16 * ((y 0).val / 2048) + 15, ht⟩ 0 * 2048 ≤ (y 0).val
      ∧ (y 0).val < win9_3.index ⟨16 * ((y 0).val / 2048) + 15, ht⟩ 0 * 2048 + 2048
    rw [e6']; omega
  | ⟨1, _⟩ =>
    show win9_3.index ⟨16 * ((y 0).val / 2048) + 15, ht⟩ 1 * 64 ≤ (y 1).val
      ∧ (y 1).val < win9_3.index ⟨16 * ((y 0).val / 2048) + 15, ht⟩ 1 * 64 + 64
    rw [e7]; omega

theorem final9 (c : Dev nD) (r : Fin 16384) (k : Fin 64) :
    (dat9 V c).arrAt 3 cfg9.N (ix2 r k)
      = Cert.Spec.step (fun r j => (V c (Pipeline.arrRef spec9 0) : Vec Ideal S16384x16384 .f32) (ix2 r j))
          (fun r n => (V c (Pipeline.arrRef spec9 2) : Vec Ideal S16384x64 .f32) (ix2 r n))
          (fun r n => (V c (Pipeline.arrRef spec9 1) : Vec Ideal S16384x64 .f32) (ix2 r n)) r k :=
  congrFun ((dat9 V c).arrAt_eq_of_cover 3 (G9 V c) (flushed9_eq V c) cover9) (ix2 r k)

end Value

end Cert.KernelIdeal.Fr

end
-- ==== Proof.KI.Ap10Val.lean ====
/- (proof/Proof/KI/Ap1Val.lean with region 10's names put for region 1's; nothing else changed) -/
import proofs.«109160_j26783416057954_1_alg».proof.Proof.KI.Ap10
import proofs.«109160_j26783416057954_1_alg».proof.Proof.KI.StepPieces

set_option maxRecDepth 16384

noncomputable section

open scoped BigOperators

namespace Cert.KernelIdeal.Fr

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

section Steps

variable {F : FTy → Type} [FloatOps F]
variable (V : (c : Dev nD) → (b : Ref sig .tc) → Buf (Elt F) ((c : Thread nD τ).loc b))

abbrev arrA10 (c : Dev nD) : Vec F S16384x16384 .f32 := V c (Pipeline.arrRef spec10 0)
abbrev arrZ10 (c : Dev nD) : Vec F S16384x64 .f32 := V c (Pipeline.arrRef spec10 1)
abbrev arrT10 (c : Dev nD) : Vec F S16384x64 .f32 := V c (Pipeline.arrRef spec10 2)

abbrev blkA10 (c : Dev nD) (t : Fin cfg10.N) : Vec F S2048x1024 .f32 := iblk10 V c 0 t
abbrev blkZ10 (c : Dev nD) (t : Fin cfg10.N) : Vec F S1024x64 .f32 := iblk10 V c 1 t
abbrev blkT10 (c : Dev nD) (t : Fin cfg10.N) : Vec F S2048x64 .f32 := iblk10 V c 2 t

theorem outsAt10_congr (c : Dev nD) {n n' : ℕ} (e : n = n') (h : n < cfg10.N) (h' : n' < cfg10.N) :
    outsAt10 V c n h = outsAt10 V c n' h' := by subst e; rfl

theorem scr10_first (c : Dev nD) (t : Fin cfg10.N) (ha : t.val % 16 = 0) :
    (outsAt10 V c t.val t.isLt).2 = k1_pay2 (blkA10 V c t) (blkZ10 V c t) (k1_pay1 (F := F)) := by
  have hb : ¬t.val % 16 = 15 := by omega
  rw [outsAt10_A V c t ha hb]
  exact accA_eq VO10_3 VS10_0 c (grid10.coords t) (ms10_0 t) (hs10_0 t) (ms10_1 t) (hs10_1 t) (ms10_2 t) (hs10_2 t) (ms10_3 t) (hs10_3 t) scM10_0 (Memref.isWhole_whole _) ((hcondFirst t).mpr ha) (fun h => hb ((hcondLast t).mp h)) (iblk10 V c 0 t) (iblk10 V c 1 t) (iblk10 V c 2 t)

theorem scr10_step (c : Dev nD) (t : Fin cfg10.N) (ha : ¬t.val % 16 = 0) :
    (outsAt10 V c t.val t.isLt).2
      = k1_pay2 (blkA10 V c t) (blkZ10 V c t) (outsAt10 V c (t.val - 1) (Nat.lt_of_le_of_lt (Nat.sub_le _ _) t.isLt)).2 := by
  by_cases hb : t.val % 16 = 15
  · rw [outsAt10_C V c t ha hb]
    exact accC_eq VO10_3 VS10_0 c (grid10.coords t) (ms10_0 t) (hs10_0 t) (ms10_1 t) (hs10_1 t) (ms10_2 t) (hs10_2 t) (ms10_3 t) (hs10_3 t) scM10_0 (Memref.isWhole_whole _) (fun h => ha ((hcondFirst t).mp h)) ((hcondLast t).mpr hb) (iblk10 V c 0 t) (iblk10 V c 1 t) (iblk10 V c 2 t) (outsAt10 V c (t.val - 1) (Nat.lt_of_le_of_lt (Nat.sub_le _ _) t.isLt)).2
  · rw [outsAt10_B V c t ha hb]
    exact accB_eq VO10_3 VS10_0 c (grid10.coords t) (ms10_0 t) (hs10_0 t) (ms10_1 t) (hs10_1 t) (ms10_2 t) (hs10_2 t) (ms10_3 t) (hs10_3 t) scM10_0 (Memref.isWhole_whole _) (fun h => ha ((hcondFirst t).mp h)) (fun h => hb ((hcondLast t).mp h)) (iblk10 V c 0 t) (iblk10 V c 1 t) (iblk10 V c 2 t) (outsAt10 V c (t.val - 1) (Nat.lt_of_le_of_lt (Nat.sub_le _ _) t.isLt)).2

theorem out10_last (c : Dev nD) (t : Fin cfg10.N) (hb : t.val % 16 = 15) :
    (outsAt10 V c t.val t.isLt).1 = k1_pay3 (outsAt10 V c t.val t.isLt).2 (blkT10 V c t) := by
  have ha : ¬t.val % 16 = 0 := by omega
  rw [outsAt10_C V c t ha hb]
  exact outC_eq VO10_3 VS10_0 c (grid10.coords t) (ms10_0 t) (hs10_0 t) (ms10_1 t) (hs10_1 t) (ms10_2 t) (hs10_2 t) (ms10_3 t) (hs10_3 t) scM10_0 (Memref.isWhole_whole _) (fun h => ha ((hcondFirst t).mp h)) ((hcondLast t).mpr hb) (iblk10 V c 0 t) (iblk10 V c 1 t) (iblk10 V c 2 t) (outsAt10 V c (t.val - 1) (Nat.lt_of_le_of_lt (Nat.sub_le _ _) t.isLt)).2

theorem points10_facts : ∀ t : Fin cfg10.N,
    win10_0.index t (0 : Fin 2) = t.val / 16 ∧ win10_0.index t (1 : Fin 2) = t.val % 16
    ∧ win10_1.index t (0 : Fin 2) = t.val % 16 ∧ win10_1.index t (1 : Fin 2) = 0
    ∧ win10_2.index t (0 : Fin 2) = t.val / 16 ∧ win10_2.index t (1 : Fin 2) = 0
    ∧ win10_3.index t (0 : Fin 2) = t.val / 16 ∧ win10_3.index t (1 : Fin 2) = 0 :=
  (by decide +kernel : ∀ t : Fin grid10.N, _)

theorem blkA10_apply (c : Dev nD) (t : Fin cfg10.N) (i : Fin 8) (j : Fin 16) (ht : t.val = 16 * i.val + j.val)
    (p : Fin 2048) (k : Fin 1024) :
    blkA10 V c t (ix2 p k) = arrA10 V c (ix2 (rowAt i p) (colAt j k)) := by
  obtain ⟨ea, eb, -⟩ := points10_facts t
  unfold blkA10 iblk10
  rw [View.read_apply]
  show V c (Pipeline.arrRef spec10 0) _ = V c (Pipeline.arrRef spec10 0) _
  congr 1
  funext a
  apply Fin.ext
  match a with
  | ⟨0, _⟩ => show win10_0.index t 0 * 2048 + 1 * p.val = i.val * 2048 + p.val; rw [ea]; omega
  | ⟨1, _⟩ => show win10_0.index t 1 * 1024 + 1 * k.val = j.val * 1024 + k.val; rw [eb]; omega

theorem blkZ10_apply (c : Dev nD) (t : Fin cfg10.N) (i : Fin 8) (j : Fin 16) (ht : t.val = 16 * i.val + j.val)
    (k : Fin 1024) (q : Fin 64) :
    blkZ10 V c t (ix2 k q) = arrZ10 V c (ix2 (colAt j k) q) := by
  obtain ⟨-, -, e2, e3, -⟩ := points10_facts t
  unfold blkZ10 iblk10
  rw [View.read_apply]
  show V c (Pipeline.arrRef spec10 1) _ = V c (Pipeline.arrRef spec10 1) _
  congr 1
  funext a
  apply Fin.ext
  match a with
  | ⟨0, _⟩ => show win10_1.index t 0 * 1024 + 1 * k.val = j.val * 1024 + k.val; rw [e2]; omega
  | ⟨1, _⟩ => show win10_1.index t 1 * 64 + 1 * q.val = q.val; rw [e3]; omega

theorem blkT10_apply (c : Dev nD) (t : Fin cfg10.N) (i : Fin 8) (j : Fin 16) (ht : t.val = 16 * i.val + j.val)
    (p : Fin 2048) (q : Fin 64) :
    blkT10 V c t (ix2 p q) = arrT10 V c (ix2 (rowAt i p) q) := by
  obtain ⟨-, -, -, -, e4, e5, -⟩ := points10_facts t
  unfold blkT10 iblk10
  rw [View.read_apply]
  show V c (Pipeline.arrRef spec10 2) _ = V c (Pipeline.arrRef spec10 2) _
  congr 1
  funext a
  apply Fin.ext
  match a with
  | ⟨0, _⟩ => show win10_2.index t 0 * 2048 + 1 * p.val = i.val * 2048 + p.val; rw [e4]; omega
  | ⟨1, _⟩ => show win10_2.index t 1 * 64 + 1 * q.val = q.val; rw [e5]; omega

end Steps

section Value

variable (V : (c : Dev nD) → (b : Ref sig .tc) → Buf (Elt Ideal) ((c : Thread nD τ).loc b))

theorem scr10_last (c : Dev nD) (i : Fin 8) (h : 16 * i.val + 15 < cfg10.N) (p : Fin 2048) (q : Fin 64) :
    (outsAt10 V c (16 * i.val + 15) h).2 (ix2 p q)
      = ∑ k : Fin 16384, arrA10 V c (ix2 (rowAt i p) k) * arrZ10 V c (ix2 k q) := by
  have hN : cfg10.N = 128 := N_10
  have hi : i.val < 8 := i.isLt
  rw [sum_cols]
  refine (dif_pos h).symm.trans (chain16_eq_sum
    (fun j : Fin 16 => ∑ k : Fin 1024, arrA10 V c (ix2 (rowAt i p) (colAt j k)) * arrZ10 V c (ix2 (colAt j k) q))
    (fun n : ℕ => if hn : 16 * i.val + n < cfg10.N then (outsAt10 V c (16 * i.val + n) hn).2 (ix2 p q) else 0) ?_ ?_)
  · have h0 : 16 * i.val + 0 < cfg10.N := by omega
    show (if hn : 16 * i.val + 0 < cfg10.N then (outsAt10 V c (16 * i.val + 0) hn).2 (ix2 p q) else 0)
      = 0 + ∑ k : Fin 1024, arrA10 V c (ix2 (rowAt i p) (colAt 0 k)) * arrZ10 V c (ix2 (colAt 0 k) q)
    rw [dif_pos h0]
    refine (congrFun (scr10_first V c ⟨16 * i.val + 0, h0⟩ (by show (16 * i.val + 0) % 16 = 0; omega)) (ix2 p q)).trans ?_
    rw [k1_pay2_apply, k1_pay1_apply]
    refine congrArg (0 + ·) (Finset.sum_congr rfl fun k _ => ?_)
    rw [blkA10_apply V c ⟨16 * i.val + 0, h0⟩ i 0 rfl p k, blkZ10_apply V c ⟨16 * i.val + 0, h0⟩ i 0 rfl k q]
  · intro n hn
    have hsuc : 16 * i.val + (n + 1) < cfg10.N := by omega
    have hpre : 16 * i.val + n < cfg10.N := by omega
    show (if hn : 16 * i.val + (n + 1) < cfg10.N then (outsAt10 V c (16 * i.val + (n + 1)) hn).2 (ix2 p q) else 0)
      = (if hn : 16 * i.val + n < cfg10.N then (outsAt10 V c (16 * i.val + n) hn).2 (ix2 p q) else 0)
        + ∑ k : Fin 1024, arrA10 V c (ix2 (rowAt i p) (colAt ⟨n + 1, hn⟩ k)) * arrZ10 V c (ix2 (colAt ⟨n + 1, hn⟩ k) q)
    rw [dif_pos hsuc, dif_pos hpre]
    refine (congrFun (scr10_step V c ⟨16 * i.val + (n + 1), hsuc⟩ (by show ¬(16 * i.val + (n + 1)) % 16 = 0; omega)) (ix2 p q)).trans ?_
    rw [k1_pay2_apply]
    rw [outsAt10_congr V c (show 16 * i.val + (n + 1) - 1 = 16 * i.val + n by omega) _ hpre]
    refine congrArg (_ + ·) (Finset.sum_congr rfl fun k _ => ?_)
    rw [blkA10_apply V c ⟨16 * i.val + (n + 1), hsuc⟩ i ⟨n + 1, hn⟩ rfl p k, blkZ10_apply V c ⟨16 * i.val + (n + 1), hsuc⟩ i ⟨n + 1, hn⟩ rfl k q]

abbrev G10 (c : Dev nD) : Vec Ideal S16384x64 .f32 := fun y =>
  Cert.Spec.step (fun r j => arrA10 V c (ix2 r j)) (fun r n => arrT10 V c (ix2 r n)) (fun r n => arrZ10 V c (ix2 r n)) (y 0) (y 1)

theorem flushed10_eq (c : Dev nD) (t : Fin cfg10.N) (hf : (cfg10.win 3).flush t = true) :
    (dat10 V c).flushed 3 t = ((cfg10.win 3).blk t).view.read (Elt Ideal) (G10 V c) := by
  have hN : cfg10.N = 128 := N_10
  have hb : t.val % 16 = 15 := (flush10_3 t).mp hf
  have ht : t.val < cfg10.N := t.isLt
  obtain ⟨-, -, -, -, -, -, e6, e7⟩ := points10_facts t
  have hi : t.val / 16 < 8 := by omega
  have hti : 16 * (t.val / 16) + 15 < cfg10.N := by omega
  show (cfg10.win 3).cut (grid10.coords t) ((dat10 V c).after 3 t) = _
  rw [after10_3, out10_last V c t hb]
  funext y
  have hyr : (y 0).val < 2048 := (y 0).isLt
  have hyc : (y 1).val < 64 := (y 1).isLt
  have hx : (cfg10.win 3).xinj (grid10.coords t) y = ix2 (⟨(y 0).val, hyr⟩ : Fin 2048) (⟨(y 1).val, hyc⟩ : Fin 64) := by
    funext a
    match a with
    | ⟨0, _⟩ => rfl
    | ⟨1, _⟩ => rfl
  have he : ((cfg10.win 3).blk t).view.emb y = ix2 (rowAt ⟨t.val / 16, hi⟩ ⟨(y 0).val, hyr⟩) (⟨(y 1).val, hyc⟩ : Fin 64) := by
    funext a
    apply Fin.ext
    match a with
    | ⟨0, _⟩ => show win10_3.index t 0 * 2048 + 1 * (y 0).val = t.val / 16 * 2048 + (y 0).val; rw [e6]; omega
    | ⟨1, _⟩ => show win10_3.index t 1 * 64 + 1 * (y 1).val = (y 1).val; rw [e7]; omega
  show k1_pay3 (outsAt10 V c t.val t.isLt).2 (blkT10 V c t) ((cfg10.win 3).xinj (grid10.coords t) y) = G10 V c (((cfg10.win 3).blk t).view.emb y)
  rw [hx, he, k1_pay3_apply, outsAt10_congr V c (show t.val = 16 * (t.val / 16) + 15 by omega) t.isLt hti,
    scr10_last V c ⟨t.val / 16, hi⟩ hti, blkT10_apply V c t ⟨t.val / 16, hi⟩ 15 (by show t.val = 16 * (t.val / 16) + 15; omega)]
  rfl

theorem cover10 (y : S16384x64.Idx) :
    ∃ t : Fin cfg10.N, (cfg10.win 3).flush t = true ∧ y ∈ ((cfg10.win 3).blk t).view.set := by
  have hN : cfg10.N = 128 := N_10
  have hyr : (y 0).val < 16384 := (y 0).isLt
  have hyc : (y 1).val < 64 := (y 1).isLt
  have ht : 16 * ((y 0).val / 2048) + 15 < cfg10.N := by omega
  obtain ⟨-, -, -, -, -, -, e6, e7⟩ := points10_facts ⟨16 * ((y 0).val / 2048) + 15, ht⟩
  have e6' : win10_3.index ⟨16 * ((y 0).val / 2048) + 15, ht⟩ 0 = (16 * ((y 0).val / 2048) + 15) / 16 := e6
  refine ⟨⟨16 * ((y 0).val / 2048) + 15, ht⟩, (flush10_3 _).mpr (by show (16 * ((y 0).val / 2048) + 15) % 16 = 15; omega), ?_⟩
  show y ∈ ((View.whole (Pipeline.arrRef spec10 3)).slice (win10_3.rect ⟨16 * ((y 0).val / 2048) + 15, ht⟩)).set
  rw [View.set_slice_whole, Rect.mem_set_unit]
  intro a
  match a with
  | ⟨0, _⟩ =>
    show win10_3.index ⟨16 * ((y 0).val / 2048) + 15, ht⟩ 0 * 2048 ≤ (y 0).val
      ∧ (y 0).val < win10_3.index ⟨16 * ((y 0).val / 2048) + 15, ht⟩ 0 * 2048 + 2048
    rw [e6']; omega
  | ⟨1, _⟩ =>
    show win10_3.index ⟨16 * ((y 0).val / 2048) + 15, ht⟩ 1 * 64 ≤ (y 1).val
      ∧ (y 1).val < win10_3.index ⟨16 * ((y 0).val / 2048) + 15, ht⟩ 1 * 64 + 64
    rw [e7]; omega

theorem final10 (c : Dev nD) (r : Fin 16384) (k : Fin 64) :
    (dat10 V c).arrAt 3 cfg10.N (ix2 r k)
      = Cert.Spec.step (fun r j => (V c (Pipeline.arrRef spec10 0) : Vec Ideal S16384x16384 .f32) (ix2 r j))
          (fun r n => (V c (Pipeline.arrRef spec10 2) : Vec Ideal S16384x64 .f32) (ix2 r n))
          (fun r n => (V c (Pipeline.arrRef spec10 1) : Vec Ideal S16384x64 .f32) (ix2 r n)) r k :=
  congrFun ((dat10 V c).arrAt_eq_of_cover 3 (G10 V c) (flushed10_eq V c) cover10) (ix2 r k)

end Value

end Cert.KernelIdeal.Fr

end
-- ==== Proof.KI.HostVal.lean ====
import proofs.«109160_j26783416057954_1_alg».proof.Proof.Gen.KernelIdeal.Regions
import Idealize.ShloMosaic.Lib.StableHlo.Run
import Idealize.ShloMosaic.Lib.Pipeline.Value
import Idealize.ShloMosaic.Lib.ValueLayout

set_option maxRecDepth 16384

noncomputable section

namespace Cert.KernelIdeal.Fr

open Idealize.ShloMosaic Idealize.ShloMosaic.TcCoe
open Idealize.ShloMosaic.StableHlo Idealize.ShloMosaic.ValueIdx
open Cert.KernelIdeal Cert.KernelIdeal.Gen

variable {F : FTy → Type} [FloatOps F]

variable (m : (ℓ : Loc nD τ sig) → Buf (Elt F) ℓ) (outs : Outs (F := F))

theorem V1_v0_eq (c : Dev nD) :
    (V1 m c main_v0 : Vec F S1x256 .f32)
      = shapeCast S1x256 (m ((c : Thread nD τ).loc main_arg3) : Vec F S256 .f32) shapeCasts_S256_S1x256 := by
  dsimp only [Gen.V1, Gen.hostOps0]
  after_results
  rfl

theorem V1_v1_eq (c : Dev nD) :
    (V1 m c main_v1 : Vec F S1x64 .f32)
      = shapeCast S1x64 (m ((c : Thread nD τ).loc main_arg5) : Vec F S64 .f32) shapeCasts_S64_S1x64 := by
  dsimp only [Gen.V1, Gen.hostOps0]
  after_results
  rfl

theorem V1_v0 (c : Dev nD) (k : Fin 256) :
    (V1 m c main_v0 : Vec F S1x256 .f32) (ix2 0 k) = (m ((c : Thread nD τ).loc main_arg3) : Vec F S256 .f32) (ix1 k) := by
  rw [V1_v0_eq]; exact shapeCast_a_1a_apply _ _ 0 k

theorem V1_v1 (c : Dev nD) (k : Fin 64) :
    (V1 m c main_v1 : Vec F S1x64 .f32) (ix2 0 k) = (m ((c : Thread nD τ).loc main_arg5) : Vec F S64 .f32) (ix1 k) := by
  rw [V1_v1_eq]; exact shapeCast_a_1a_apply _ _ 0 k

theorem V1_arg0 (c : Dev nD) : V1 m c main_arg0 = m ((c : Thread nD τ).loc main_arg0) := V1_of m c main_arg0 (by decide)
theorem V1_arg1 (c : Dev nD) : V1 m c main_arg1 = m ((c : Thread nD τ).loc main_arg1) := V1_of m c main_arg1 (by decide)
theorem V1_arg2 (c : Dev nD) : V1 m c main_arg2 = m ((c : Thread nD τ).loc main_arg2) := V1_of m c main_arg2 (by decide)
theorem V1_arg3 (c : Dev nD) : V1 m c main_arg3 = m ((c : Thread nD τ).loc main_arg3) := V1_of m c main_arg3 (by decide)
theorem V1_arg4 (c : Dev nD) : V1 m c main_arg4 = m ((c : Thread nD τ).loc main_arg4) := V1_of m c main_arg4 (by decide)
theorem V1_arg5 (c : Dev nD) : V1 m c main_arg5 = m ((c : Thread nD τ).loc main_arg5) := V1_of m c main_arg5 (by decide)

def lsK (x : Vec F S16384x64 .f32) : Vec F S16384x64 .f32 :=
  let mx : Vec F S16384 .f32 :=
    maximumf (broadcastInDim S16384 ![] bcast_S_S16384 (constant (F := F) S_ .f32 0xFF800000#32))
      (Host.reduce FloatOps.maximumf x (constant (F := F) S_ .f32 0xFF800000#32) reducesTo_S16384x64_S16384_d1 h_S_)
  let d : Vec F S16384x64 .f32 :=
    subf x (broadcastInDim S16384x64 ![0, 1] bcast_S16384x1_S16384x64_0_1
      (broadcastInDim S16384x1 ![0] bcast_S16384_S16384x1_0 mx))
  let s : Vec F S16384 .f32 :=
    Host.reduceAdd (Host.exp d) (constant (F := F) S_ .f32 0x00000000#32) reducesTo_S16384x64_S16384_d1 h_S_
  subf d (broadcastInDim S16384x64 ![0, 1] bcast_S16384x1_S16384x64_0_1
    (Host.log (broadcastInDim S16384x1 ![0] bcast_S16384_S16384x1_0 s)))

private abbrev tailOps : List (HloOp τ sig (Elt F)) :=
  [ StableHlo.nullary main_call0_cst (constant (F := F) S_ .f32 0xFF800000#32),
    StableHlo.binary main_v12 main_call0_cst main_call0_v0
      (fun x v => Host.reduce FloatOps.maximumf x v reducesTo_S16384x64_S16384_d1 h_S_),
    StableHlo.nullary main_call0_cst_0 (constant (F := F) S_ .f32 0xFF800000#32),
    StableHlo.unary main_call0_cst_0 main_call0_v1 (broadcastInDim S16384 ![] bcast_S_S16384),
    StableHlo.binary main_call0_v1 main_call0_v0 main_call0_v2 maximumf,
    StableHlo.unary main_call0_v2 main_call0_v3 (broadcastInDim S16384x1 ![0] bcast_S16384_S16384x1_0),
    StableHlo.unary main_call0_v3 main_call0_v4 (broadcastInDim S16384x64 ![0, 1] bcast_S16384x1_S16384x64_0_1),
    StableHlo.binary main_v12 main_call0_v4 main_call0_v5 subf,
    StableHlo.unary main_call0_v5 main_call0_v6 Host.exp,
    StableHlo.nullary main_call0_cst_1 (constant (F := F) S_ .f32 0x00000000#32),
    StableHlo.binary main_call0_v6 main_call0_cst_1 main_call0_v7
      (fun x v => Host.reduceAdd x v reducesTo_S16384x64_S16384_d1 h_S_),
    StableHlo.unary main_call0_v7 main_call0_v8 (broadcastInDim S16384x1 ![0] bcast_S16384_S16384x1_0),
    StableHlo.unary main_call0_v8 main_call0_v9 Host.log,
    StableHlo.unary main_call0_v9 main_call0_v10 (broadcastInDim S16384x64 ![0, 1] bcast_S16384x1_S16384x64_0_1),
    StableHlo.binary main_call0_v5 main_call0_v10 main_v13 subf ]

attribute [local irreducible] Host.reduce Host.reduceAdd in

private theorem hostOps11_eq : (hostOps11 : List (HloOp τ sig (Elt F))) = tailOps := rfl

attribute [local irreducible] Host.reduce Host.reduceAdd in

theorem tail_v13 (V : Valuation τ sig (Elt F)) :
    (StableHlo.after hostOps11 V main_v13 : Vec F S16384x64 .f32) = lsK (V main_v12 : Vec F S16384x64 .f32) := by
  rw [hostOps11_eq]
  dsimp only [tailOps]
  after_results
  rfl

theorem V13_v13 (c : Dev nD) :
    (V13 m outs c main_v13 : Vec F S16384x64 .f32) = lsK (V12 m outs c main_v12 : Vec F S16384x64 .f32) :=
  tail_v13 (V12 m outs c)

end Cert.KernelIdeal.Fr

end
-- ==== Proof.KI.Chain.lean ====
import proofs.«109160_j26783416057954_1_alg».proof.Proof.KI.Pdats
import proofs.«109160_j26783416057954_1_alg».proof.Proof.KI.R0Val
import proofs.«109160_j26783416057954_1_alg».proof.Proof.KI.Ap1Val
import proofs.«109160_j26783416057954_1_alg».proof.Proof.KI.Ap2Val
import proofs.«109160_j26783416057954_1_alg».proof.Proof.KI.Ap3Val
import proofs.«109160_j26783416057954_1_alg».proof.Proof.KI.Ap4Val
import proofs.«109160_j26783416057954_1_alg».proof.Proof.KI.Ap5Val
import proofs.«109160_j26783416057954_1_alg».proof.Proof.KI.Ap6Val
import proofs.«109160_j26783416057954_1_alg».proof.Proof.KI.Ap7Val
import proofs.«109160_j26783416057954_1_alg».proof.Proof.KI.Ap8Val
import proofs.«109160_j26783416057954_1_alg».proof.Proof.KI.Ap9Val
import proofs.«109160_j26783416057954_1_alg».proof.Proof.KI.Ap10Val
import proofs.«109160_j26783416057954_1_alg».proof.Proof.KI.HostVal
import proofs.«109160_j26783416057954_1_alg».proof.Proof.Spec
import Idealize.ShloMosaic.Lib.ValueIdx

set_option maxRecDepth 16384

noncomputable section

namespace Cert.KernelIdeal.Fr

open Idealize.ShloMosaic Idealize.ShloMosaic.TcCoe Idealize.ShloMosaic.ValueIdx
open Idealize.ShloMosaic.Pipeline (Dat Cfg Window)
open Cert.KernelIdeal Cert.KernelIdeal.Gen

variable (m : (ℓ : Loc nD τ sig) → Buf (Elt Ideal) ℓ)

def adjM (c : Dev nD) : Fin 16384 → Fin 16384 → EReal := fun r j => (m ((c : Thread nD τ).loc main_arg1) : Vec Ideal S16384x16384 .f32) (ix2 r j)

def headM (c : Dev nD) : Fin 16384 → Fin 64 → EReal :=
  Cert.Spec.head (fun r j => (m ((c : Thread nD τ).loc main_arg0) : Vec Ideal S16384x512 .f32) (ix2 r j))
    (fun j k => (m ((c : Thread nD τ).loc main_arg2) : Vec Ideal S512x256 .f32) (ix2 j k))
    (fun k => (m ((c : Thread nD τ).loc main_arg3) : Vec Ideal S256 .f32) (ix1 k))
    (fun k n => (m ((c : Thread nD τ).loc main_arg4) : Vec Ideal S256x64 .f32) (ix2 k n))
    (fun n => (m ((c : Thread nD τ).loc main_arg5) : Vec Ideal S64 .f32) (ix1 n))

theorem V2_adj (c : Dev nD) : V2 m (outsM m) c main_arg1 = m ((c : Thread nD τ).loc main_arg1) :=
  (V2_of m (outsM m) c main_arg1 (by decide)).trans (V1_arg1 m c)
theorem V3_adj (c : Dev nD) : V3 m (outsM m) c main_arg1 = m ((c : Thread nD τ).loc main_arg1) :=
  (V3_of m (outsM m) c main_arg1 (by decide)).trans (V2_adj m c)
theorem V4_adj (c : Dev nD) : V4 m (outsM m) c main_arg1 = m ((c : Thread nD τ).loc main_arg1) :=
  (V4_of m (outsM m) c main_arg1 (by decide)).trans (V3_adj m c)
theorem V5_adj (c : Dev nD) : V5 m (outsM m) c main_arg1 = m ((c : Thread nD τ).loc main_arg1) :=
  (V5_of m (outsM m) c main_arg1 (by decide)).trans (V4_adj m c)
theorem V6_adj (c : Dev nD) : V6 m (outsM m) c main_arg1 = m ((c : Thread nD τ).loc main_arg1) :=
  (V6_of m (outsM m) c main_arg1 (by decide)).trans (V5_adj m c)
theorem V7_adj (c : Dev nD) : V7 m (outsM m) c main_arg1 = m ((c : Thread nD τ).loc main_arg1) :=
  (V7_of m (outsM m) c main_arg1 (by decide)).trans (V6_adj m c)
theorem V8_adj (c : Dev nD) : V8 m (outsM m) c main_arg1 = m ((c : Thread nD τ).loc main_arg1) :=
  (V8_of m (outsM m) c main_arg1 (by decide)).trans (V7_adj m c)
theorem V9_adj (c : Dev nD) : V9 m (outsM m) c main_arg1 = m ((c : Thread nD τ).loc main_arg1) :=
  (V9_of m (outsM m) c main_arg1 (by decide)).trans (V8_adj m c)
theorem V10_adj (c : Dev nD) : V10 m (outsM m) c main_arg1 = m ((c : Thread nD τ).loc main_arg1) :=
  (V10_of m (outsM m) c main_arg1 (by decide)).trans (V9_adj m c)
theorem V11_adj (c : Dev nD) : V11 m (outsM m) c main_arg1 = m ((c : Thread nD τ).loc main_arg1) :=
  (V11_of m (outsM m) c main_arg1 (by decide)).trans (V10_adj m c)

theorem V3_head (c : Dev nD) : V3 m (outsM m) c main_v2 = V2 m (outsM m) c main_v2 :=
  V3_of m (outsM m) c main_v2 (by decide)
theorem V4_head (c : Dev nD) : V4 m (outsM m) c main_v2 = V2 m (outsM m) c main_v2 :=
  (V4_of m (outsM m) c main_v2 (by decide)).trans (V3_head m c)
theorem V5_head (c : Dev nD) : V5 m (outsM m) c main_v2 = V2 m (outsM m) c main_v2 :=
  (V5_of m (outsM m) c main_v2 (by decide)).trans (V4_head m c)
theorem V6_head (c : Dev nD) : V6 m (outsM m) c main_v2 = V2 m (outsM m) c main_v2 :=
  (V6_of m (outsM m) c main_v2 (by decide)).trans (V5_head m c)
theorem V7_head (c : Dev nD) : V7 m (outsM m) c main_v2 = V2 m (outsM m) c main_v2 :=
  (V7_of m (outsM m) c main_v2 (by decide)).trans (V6_head m c)
theorem V8_head (c : Dev nD) : V8 m (outsM m) c main_v2 = V2 m (outsM m) c main_v2 :=
  (V8_of m (outsM m) c main_v2 (by decide)).trans (V7_head m c)
theorem V9_head (c : Dev nD) : V9 m (outsM m) c main_v2 = V2 m (outsM m) c main_v2 :=
  (V9_of m (outsM m) c main_v2 (by decide)).trans (V8_head m c)
theorem V10_head (c : Dev nD) : V10 m (outsM m) c main_v2 = V2 m (outsM m) c main_v2 :=
  (V10_of m (outsM m) c main_v2 (by decide)).trans (V9_head m c)
theorem V11_head (c : Dev nD) : V11 m (outsM m) c main_v2 = V2 m (outsM m) c main_v2 :=
  (V11_of m (outsM m) c main_v2 (by decide)).trans (V10_head m c)

def zAt0 (c : Dev nD) : Fin 16384 → Fin 64 → EReal := fun r k => (V2 m (outsM m) c main_v2 : Vec Ideal S16384x64 .f32) (ix2 r k)
def zAt1 (c : Dev nD) : Fin 16384 → Fin 64 → EReal := fun r k => (V3 m (outsM m) c main_v3 : Vec Ideal S16384x64 .f32) (ix2 r k)
def zAt2 (c : Dev nD) : Fin 16384 → Fin 64 → EReal := fun r k => (V4 m (outsM m) c main_v4 : Vec Ideal S16384x64 .f32) (ix2 r k)
def zAt3 (c : Dev nD) : Fin 16384 → Fin 64 → EReal := fun r k => (V5 m (outsM m) c main_v5 : Vec Ideal S16384x64 .f32) (ix2 r k)
def zAt4 (c : Dev nD) : Fin 16384 → Fin 64 → EReal := fun r k => (V6 m (outsM m) c main_v6 : Vec Ideal S16384x64 .f32) (ix2 r k)
def zAt5 (c : Dev nD) : Fin 16384 → Fin 64 → EReal := fun r k => (V7 m (outsM m) c main_v7 : Vec Ideal S16384x64 .f32) (ix2 r k)
def zAt6 (c : Dev nD) : Fin 16384 → Fin 64 → EReal := fun r k => (V8 m (outsM m) c main_v8 : Vec Ideal S16384x64 .f32) (ix2 r k)
def zAt7 (c : Dev nD) : Fin 16384 → Fin 64 → EReal := fun r k => (V9 m (outsM m) c main_v9 : Vec Ideal S16384x64 .f32) (ix2 r k)
def zAt8 (c : Dev nD) : Fin 16384 → Fin 64 → EReal := fun r k => (V10 m (outsM m) c main_v10 : Vec Ideal S16384x64 .f32) (ix2 r k)
def zAt9 (c : Dev nD) : Fin 16384 → Fin 64 → EReal := fun r k => (V11 m (outsM m) c main_v11 : Vec Ideal S16384x64 .f32) (ix2 r k)
def zAt10 (c : Dev nD) : Fin 16384 → Fin 64 → EReal := fun r k => (V12 m (outsM m) c main_v12 : Vec Ideal S16384x64 .f32) (ix2 r k)

theorem zeq0 (c : Dev nD) : zAt0 m c = headM m c := by
  funext r k
  unfold zAt0 headM
  rw [show V2 m (outsM m) c main_v2 = outsM m 2 main_v2 c from Function.update_self _ _ _, out_eq0]
  rw [show (pdatsM m 0 c) = dat0 (fun c b => V1 m c b) c from rfl, final0]
  show Cert.Spec.head (fun r j => (V1 m c main_arg0 : Vec Ideal S16384x512 .f32) (ix2 r j))
      (fun j k => (V1 m c main_arg2 : Vec Ideal S512x256 .f32) (ix2 j k))
      (fun k => (V1 m c main_v0 : Vec Ideal S1x256 .f32) (ix2 0 k))
      (fun k n => (V1 m c main_arg4 : Vec Ideal S256x64 .f32) (ix2 k n))
      (fun n => (V1 m c main_v1 : Vec Ideal S1x64 .f32) (ix2 0 n)) r k = _
  have hb : (fun k => (V1 m c main_v0 : Vec Ideal S1x256 .f32) (ix2 0 k))
      = fun k => (m ((c : Thread nD τ).loc main_arg3) : Vec Ideal S256 .f32) (ix1 k) := funext (V1_v0 m c)
  have hd : (fun n => (V1 m c main_v1 : Vec Ideal S1x64 .f32) (ix2 0 n))
      = fun n => (m ((c : Thread nD τ).loc main_arg5) : Vec Ideal S64 .f32) (ix1 n) := funext (V1_v1 m c)
  rw [hb, hd, V1_arg0 m c, V1_arg2 m c, V1_arg4 m c]

theorem zeq1 (c : Dev nD) : zAt1 m c = Cert.Spec.step (adjM m c) (zAt0 m c) (zAt0 m c) := by
  funext r k
  unfold zAt1
  rw [show V3 m (outsM m) c main_v3 = outsM m 3 main_v3 c from Function.update_self _ _ _, out_eq1]
  rw [show (pdatsM m 1 c) = dat1s (fun c b => V2 m (outsM m) c b) c from rfl, arrAt1s, final1]
  show Cert.Spec.step (fun r j => (V2 m (outsM m) c main_arg1 : Vec Ideal S16384x16384 .f32) (ix2 r j))
      (fun r n => (V2 m (outsM m) c main_v2 : Vec Ideal S16384x64 .f32) (ix2 r n))
      (fun r n => (V2 m (outsM m) c main_v2 : Vec Ideal S16384x64 .f32) (ix2 r n)) r k = _
  rw [V2_adj]
  rfl

theorem zeq2 (c : Dev nD) : zAt2 m c = Cert.Spec.step (adjM m c) (zAt0 m c) (zAt1 m c) := by
  funext r k
  unfold zAt2
  rw [show V4 m (outsM m) c main_v4 = outsM m 4 main_v4 c from Function.update_self _ _ _, out_eq2]
  rw [show (pdatsM m 2 c) = dat2 (fun c b => V3 m (outsM m) c b) c from rfl, final2]
  show Cert.Spec.step (fun r j => (V3 m (outsM m) c main_arg1 : Vec Ideal S16384x16384 .f32) (ix2 r j))
      (fun r n => (V3 m (outsM m) c main_v2 : Vec Ideal S16384x64 .f32) (ix2 r n))
      (fun r n => (V3 m (outsM m) c main_v3 : Vec Ideal S16384x64 .f32) (ix2 r n)) r k = _
  rw [V3_adj, V3_head]
  rfl

theorem zeq3 (c : Dev nD) : zAt3 m c = Cert.Spec.step (adjM m c) (zAt0 m c) (zAt2 m c) := by
  funext r k
  unfold zAt3
  rw [show V5 m (outsM m) c main_v5 = outsM m 5 main_v5 c from Function.update_self _ _ _, out_eq3]
  rw [show (pdatsM m 3 c) = dat3 (fun c b => V4 m (outsM m) c b) c from rfl, final3]
  show Cert.Spec.step (fun r j => (V4 m (outsM m) c main_arg1 : Vec Ideal S16384x16384 .f32) (ix2 r j))
      (fun r n => (V4 m (outsM m) c main_v2 : Vec Ideal S16384x64 .f32) (ix2 r n))
      (fun r n => (V4 m (outsM m) c main_v4 : Vec Ideal S16384x64 .f32) (ix2 r n)) r k = _
  rw [V4_adj, V4_head]
  rfl

theorem zeq4 (c : Dev nD) : zAt4 m c = Cert.Spec.step (adjM m c) (zAt0 m c) (zAt3 m c) := by
  funext r k
  unfold zAt4
  rw [show V6 m (outsM m) c main_v6 = outsM m 6 main_v6 c from Function.update_self _ _ _, out_eq4]
  rw [show (pdatsM m 4 c) = dat4 (fun c b => V5 m (outsM m) c b) c from rfl, final4]
  show Cert.Spec.step (fun r j => (V5 m (outsM m) c main_arg1 : Vec Ideal S16384x16384 .f32) (ix2 r j))
      (fun r n => (V5 m (outsM m) c main_v2 : Vec Ideal S16384x64 .f32) (ix2 r n))
      (fun r n => (V5 m (outsM m) c main_v5 : Vec Ideal S16384x64 .f32) (ix2 r n)) r k = _
  rw [V5_adj, V5_head]
  rfl

theorem zeq5 (c : Dev nD) : zAt5 m c = Cert.Spec.step (adjM m c) (zAt0 m c) (zAt4 m c) := by
  funext r k
  unfold zAt5
  rw [show V7 m (outsM m) c main_v7 = outsM m 7 main_v7 c from Function.update_self _ _ _, out_eq5]
  rw [show (pdatsM m 5 c) = dat5 (fun c b => V6 m (outsM m) c b) c from rfl, final5]
  show Cert.Spec.step (fun r j => (V6 m (outsM m) c main_arg1 : Vec Ideal S16384x16384 .f32) (ix2 r j))
      (fun r n => (V6 m (outsM m) c main_v2 : Vec Ideal S16384x64 .f32) (ix2 r n))
      (fun r n => (V6 m (outsM m) c main_v6 : Vec Ideal S16384x64 .f32) (ix2 r n)) r k = _
  rw [V6_adj, V6_head]
  rfl

theorem zeq6 (c : Dev nD) : zAt6 m c = Cert.Spec.step (adjM m c) (zAt0 m c) (zAt5 m c) := by
  funext r k
  unfold zAt6
  rw [show V8 m (outsM m) c main_v8 = outsM m 8 main_v8 c from Function.update_self _ _ _, out_eq6]
  rw [show (pdatsM m 6 c) = dat6 (fun c b => V7 m (outsM m) c b) c from rfl, final6]
  show Cert.Spec.step (fun r j => (V7 m (outsM m) c main_arg1 : Vec Ideal S16384x16384 .f32) (ix2 r j))
      (fun r n => (V7 m (outsM m) c main_v2 : Vec Ideal S16384x64 .f32) (ix2 r n))
      (fun r n => (V7 m (outsM m) c main_v7 : Vec Ideal S16384x64 .f32) (ix2 r n)) r k = _
  rw [V7_adj, V7_head]
  rfl

theorem zeq7 (c : Dev nD) : zAt7 m c = Cert.Spec.step (adjM m c) (zAt0 m c) (zAt6 m c) := by
  funext r k
  unfold zAt7
  rw [show V9 m (outsM m) c main_v9 = outsM m 9 main_v9 c from Function.update_self _ _ _, out_eq7]
  rw [show (pdatsM m 7 c) = dat7 (fun c b => V8 m (outsM m) c b) c from rfl, final7]
  show Cert.Spec.step (fun r j => (V8 m (outsM m) c main_arg1 : Vec Ideal S16384x16384 .f32) (ix2 r j))
      (fun r n => (V8 m (outsM m) c main_v2 : Vec Ideal S16384x64 .f32) (ix2 r n))
      (fun r n => (V8 m (outsM m) c main_v8 : Vec Ideal S16384x64 .f32) (ix2 r n)) r k = _
  rw [V8_adj, V8_head]
  rfl

theorem zeq8 (c : Dev nD) : zAt8 m c = Cert.Spec.step (adjM m c) (zAt0 m c) (zAt7 m c) := by
  funext r k
  unfold zAt8
  rw [show V10 m (outsM m) c main_v10 = outsM m 10 main_v10 c from Function.update_self _ _ _, out_eq8]
  rw [show (pdatsM m 8 c) = dat8 (fun c b => V9 m (outsM m) c b) c from rfl, final8]
  show Cert.Spec.step (fun r j => (V9 m (outsM m) c main_arg1 : Vec Ideal S16384x16384 .f32) (ix2 r j))
      (fun r n => (V9 m (outsM m) c main_v2 : Vec Ideal S16384x64 .f32) (ix2 r n))
      (fun r n => (V9 m (outsM m) c main_v9 : Vec Ideal S16384x64 .f32) (ix2 r n)) r k = _
  rw [V9_adj, V9_head]
  rfl

theorem zeq9 (c : Dev nD) : zAt9 m c = Cert.Spec.step (adjM m c) (zAt0 m c) (zAt8 m c) := by
  funext r k
  unfold zAt9
  rw [show V11 m (outsM m) c main_v11 = outsM m 11 main_v11 c from Function.update_self _ _ _, out_eq9]
  rw [show (pdatsM m 9 c) = dat9 (fun c b => V10 m (outsM m) c b) c from rfl, final9]
  show Cert.Spec.step (fun r j => (V10 m (outsM m) c main_arg1 : Vec Ideal S16384x16384 .f32) (ix2 r j))
      (fun r n => (V10 m (outsM m) c main_v2 : Vec Ideal S16384x64 .f32) (ix2 r n))
      (fun r n => (V10 m (outsM m) c main_v10 : Vec Ideal S16384x64 .f32) (ix2 r n)) r k = _
  rw [V10_adj, V10_head]
  rfl

theorem zeq10 (c : Dev nD) : zAt10 m c = Cert.Spec.step (adjM m c) (zAt0 m c) (zAt9 m c) := by
  funext r k
  unfold zAt10
  rw [show V12 m (outsM m) c main_v12 = outsM m 12 main_v12 c from Function.update_self _ _ _, out_eq10]
  rw [show (pdatsM m 10 c) = dat10 (fun c b => V11 m (outsM m) c b) c from rfl, final10]
  show Cert.Spec.step (fun r j => (V11 m (outsM m) c main_arg1 : Vec Ideal S16384x16384 .f32) (ix2 r j))
      (fun r n => (V11 m (outsM m) c main_v2 : Vec Ideal S16384x64 .f32) (ix2 r n))
      (fun r n => (V11 m (outsM m) c main_v11 : Vec Ideal S16384x64 .f32) (ix2 r n)) r k = _
  rw [V11_adj, V11_head]
  rfl

theorem ziter0 (c : Dev nD) : zAt0 m c = (Cert.Spec.step (adjM m c) (headM m c))^[0] (headM m c) := zeq0 m c
theorem ziter1 (c : Dev nD) : zAt1 m c = (Cert.Spec.step (adjM m c) (headM m c))^[1] (headM m c) := by
  rw [Function.iterate_succ_apply', ← ziter0, zeq1, zeq0]
theorem ziter2 (c : Dev nD) : zAt2 m c = (Cert.Spec.step (adjM m c) (headM m c))^[2] (headM m c) := by
  rw [Function.iterate_succ_apply', ← ziter1, zeq2, zeq0]
theorem ziter3 (c : Dev nD) : zAt3 m c = (Cert.Spec.step (adjM m c) (headM m c))^[3] (headM m c) := by
  rw [Function.iterate_succ_apply', ← ziter2, zeq3, zeq0]
theorem ziter4 (c : Dev nD) : zAt4 m c = (Cert.Spec.step (adjM m c) (headM m c))^[4] (headM m c) := by
  rw [Function.iterate_succ_apply', ← ziter3, zeq4, zeq0]
theorem ziter5 (c : Dev nD) : zAt5 m c = (Cert.Spec.step (adjM m c) (headM m c))^[5] (headM m c) := by
  rw [Function.iterate_succ_apply', ← ziter4, zeq5, zeq0]
theorem ziter6 (c : Dev nD) : zAt6 m c = (Cert.Spec.step (adjM m c) (headM m c))^[6] (headM m c) := by
  rw [Function.iterate_succ_apply', ← ziter5, zeq6, zeq0]
theorem ziter7 (c : Dev nD) : zAt7 m c = (Cert.Spec.step (adjM m c) (headM m c))^[7] (headM m c) := by
  rw [Function.iterate_succ_apply', ← ziter6, zeq7, zeq0]
theorem ziter8 (c : Dev nD) : zAt8 m c = (Cert.Spec.step (adjM m c) (headM m c))^[8] (headM m c) := by
  rw [Function.iterate_succ_apply', ← ziter7, zeq8, zeq0]
theorem ziter9 (c : Dev nD) : zAt9 m c = (Cert.Spec.step (adjM m c) (headM m c))^[9] (headM m c) := by
  rw [Function.iterate_succ_apply', ← ziter8, zeq9, zeq0]
theorem ziter10 (c : Dev nD) : zAt10 m c = (Cert.Spec.step (adjM m c) (headM m c))^[10] (headM m c) := by
  rw [Function.iterate_succ_apply', ← ziter9, zeq10, zeq0]

theorem kernel_value (c : Dev nD) :
    (V13 m (outsM m) c main_v13 : Vec Ideal S16384x64 .f32) = lsK (Cert.Spec.arr2 (Cert.Spec.prop10
      (fun r j => (m ((c : Thread nD τ).loc main_arg1) : Vec Ideal S16384x16384 .f32) (ix2 r j))
      (Cert.Spec.head (fun r j => (m ((c : Thread nD τ).loc main_arg0) : Vec Ideal S16384x512 .f32) (ix2 r j))
        (fun j k => (m ((c : Thread nD τ).loc main_arg2) : Vec Ideal S512x256 .f32) (ix2 j k))
        (fun k => (m ((c : Thread nD τ).loc main_arg3) : Vec Ideal S256 .f32) (ix1 k))
        (fun k n => (m ((c : Thread nD τ).loc main_arg4) : Vec Ideal S256x64 .f32) (ix2 k n))
        (fun n => (m ((c : Thread nD τ).loc main_arg5) : Vec Ideal S64 .f32) (ix1 n))))) := by
  have h : (V12 m (outsM m) c main_v12 : Vec Ideal S16384x64 .f32) = Cert.Spec.arr2 (zAt10 m c) := (Cert.Spec.arr2_cur2 _).symm
  rw [V13_v13, h, ziter10]
  rfl

theorem kernel_arg0 (c : Dev nD) : V13 m (outsM m) c main_arg0 = m ((c : Thread nD τ).loc main_arg0) := V13_main_arg0 m (outsM m) c
theorem kernel_arg1 (c : Dev nD) : V13 m (outsM m) c main_arg1 = m ((c : Thread nD τ).loc main_arg1) := V13_main_arg1 m (outsM m) c
theorem kernel_arg2 (c : Dev nD) : V13 m (outsM m) c main_arg2 = m ((c : Thread nD τ).loc main_arg2) := V13_main_arg2 m (outsM m) c
theorem kernel_arg3 (c : Dev nD) : V13 m (outsM m) c main_arg3 = m ((c : Thread nD τ).loc main_arg3) := V13_main_arg3 m (outsM m) c
theorem kernel_arg4 (c : Dev nD) : V13 m (outsM m) c main_arg4 = m ((c : Thread nD τ).loc main_arg4) := V13_main_arg4 m (outsM m) c
theorem kernel_arg5 (c : Dev nD) : V13 m (outsM m) c main_arg5 = m ((c : Thread nD τ).loc main_arg5) := V13_main_arg5 m (outsM m) c

end Cert.KernelIdeal.Fr

end
-- ==== Proof.RefTail.lean ====
import proofs.«109160_j26783416057954_1_alg».proof.Proof.Gen.ReferenceIdeal

noncomputable section

namespace Cert.ReferenceIdeal.RefValue

open Cert.ReferenceIdeal Cert.ReferenceIdeal.Gen Idealize.ShloMosaic

def lsR {F : FTy → Type} [FloatOps F] (x : Vec F S16384x64 .f32) : Vec F S16384x64 .f32 :=
  let m : Vec F S16384 .f32 :=
    maximumf (broadcastInDim S16384 ![] bcast_S_S16384 (constant (F := F) S_ .f32 0xFF800000#32))
      (Host.reduce FloatOps.maximumf x (constant (F := F) S_ .f32 0xFF800000#32) reducesTo_S16384x64_S16384_d1 h_S_)
  let d : Vec F S16384x64 .f32 :=
    subf x (broadcastInDim S16384x64 ![0, 1] bcast_S16384x1_S16384x64_0_1
      (broadcastInDim S16384x1 ![0] bcast_S16384_S16384x1_0 m))
  let s : Vec F S16384 .f32 :=
    Host.reduceAdd (Host.exp d) (constant (F := F) S_ .f32 0x00000000#32) reducesTo_S16384x64_S16384_d1 h_S_
  subf d (broadcastInDim S16384x64 ![0, 1] bcast_S16384x1_S16384x64_0_1
    (Host.log (broadcastInDim S16384x1 ![0] bcast_S16384_S16384x1_0 s)))

end Cert.ReferenceIdeal.RefValue

end
-- ==== Proof.RefPre.lean ====
import proofs.«109160_j26783416057954_1_alg».proof.Proof.RefRead
import proofs.«109160_j26783416057954_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

section Entries
variable (a0 : Vec Ideal S16384x512 .f32) (a1 : Vec Ideal S16384x16384 .f32) (a2 : Vec Ideal S512x256 .f32)
  (a3 : Vec Ideal S256 .f32) (a4 : Vec Ideal S256x64 .f32) (a5 : Vec Ideal S64 .f32)

local macro "idx_eq" : tactic =>
  `(tactic| exact fun _ => funext fun a => Fin.ext (by match a with | ⟨0, _⟩ => rfl | ⟨1, _⟩ => rfl))

theorem lin1_close (r : Fin 16384) (k : Fin 256) (l0 : Fin 512 → S16384x512.Idx) (r0 : Fin 512 → S512x256.Idx)
    (i1 : S256.Idx) (hl : ∀ j, l0 j = ix2 r j) (hr : ∀ j, r0 j = ix2 j k) (hi : i1 = ix1 k) :
    FloatOps.addf (F := Ideal) (φ := .f32) (∑ j : Fin 512, a0 (l0 j) * a2 (r0 j)) (a3 i1)
      = (∑ j : Fin 512, a0 (ix2 r j) * a2 (ix2 j k)) + a3 (ix1 k) := by
  simp only [hl, hr, hi]
  rfl

theorem lin1_read (r : Fin 16384) (k : Fin 256) :
    ReadP.val_main_v3 (F := Ideal) a0 a2 a3 (ix2 r k) = (∑ j : Fin 512, a0 (ix2 r j) * a2 (ix2 j k)) + a3 (ix1 k) := by
  rw [ReadP.val_main_v3_apply, ReadP.val_main_v0_apply, ReadP.val_main_v2_apply, ReadP.val_main_v1_apply]
  exact lin1_close a0 a2 a3 r k _ _ _ (by idx_eq) (by idx_eq)
    (funext fun a => Fin.ext (by match a with | ⟨0, _⟩ => rfl))

theorem head_close (y : Vec Ideal S16384x256 .f32) (Y : Fin 16384 → Fin 256 → EReal) (r : Fin 16384) (c : Fin 64)
    (l4 : Fin 256 → S16384x256.Idx) (r4 : Fin 256 → S256x64.Idx) (i6 : S64.Idx)
    (hl : ∀ k, l4 k = ix2 r k) (hr : ∀ k, r4 k = ix2 k c) (hi : i6 = ix1 c) (hy : ∀ r k, y (ix2 r k) = Y r k) :
    FloatOps.addf (F := Ideal) (φ := .f32) (∑ k : Fin 256, y (l4 k) * a4 (r4 k)) (a5 i6) = (∑ k : Fin 256, Y r k * a4 (ix2 k c)) + a5 (ix1 c) := by
  simp only [hl, hr, hi, hy]
  rfl

theorem head_read (r : Fin 16384) (c : Fin 64) :
    ReadP.val_main_v7 (F := Ideal) a0 a2 a3 a4 a5 (ix2 r c)
      = Cert.Spec.head (fun r j => a0 (ix2 r j)) (fun j k => a2 (ix2 j k)) (fun k => a3 (ix1 k))
          (fun k n => a4 (ix2 k n)) (fun n => a5 (ix1 n)) r c := by
  rw [ReadP.val_main_v7_apply, ReadP.val_main_v4_apply, ReadP.val_main_v6_apply, ReadP.val_main_v5_apply]
  exact head_close a4 a5 _ (fun r k => (∑ j : Fin 512, a0 (ix2 r j) * a2 (ix2 j k)) + a3 (ix1 k)) r c _ _ _ (by idx_eq) (by idx_eq)
    (funext fun a => Fin.ext (by match a with | ⟨0, _⟩ => rfl)) (lin1_read a0 a2 a3)

theorem step_close (z0 z : Vec Ideal S16384x64 .f32)
    (li : Fin 16384 → S16384x16384.Idx) (ri : Fin 16384 → S16384x64.Idx) (r : Fin 16384) (c : Fin 64)
    (Z0 Z : Fin 16384 → Fin 64 → EReal)
    (hl : ∀ k, li k = ix2 r k) (hr : ∀ k, ri k = ix2 k c)
    (hz0 : ∀ r c, z0 (ix2 r c) = Z0 r c) (hz : ∀ r c, z (ix2 r c) = Z r c) :
    FloatOps.addf (FloatOps.mulf (FloatOps.ofBits (F := Ideal) .f32 0x3F666666#32) (∑ k : Fin 16384, a1 (li k) * z (ri k)))
        (FloatOps.mulf (FloatOps.ofBits (F := Ideal) .f32 0x3DCCCCCD#32) (z0 (ix2 r c)))
      = Cert.Spec.step (fun r j => a1 (ix2 r j)) Z0 Z r c := by
  simp only [hl, hr, hz0, hz]
  rfl

theorem stage_v13 (Z0 Z : Fin 16384 → Fin 64 → EReal)
    (h0 : ∀ r c, ReadP.val_main_v7 (F := Ideal) a0 a2 a3 a4 a5 (ix2 r c) = Z0 r c)
    (h : ∀ r c, ReadP.val_main_v7 (F := Ideal) a0 a2 a3 a4 a5 (ix2 r c) = Z r c) (r : Fin 16384) (c : Fin 64) :
    ReadP.val_main_v13 (F := Ideal) a0 a1 a2 a3 a4 a5 (ix2 r c) = Cert.Spec.step (fun r j => a1 (ix2 r j)) Z0 Z r c := by
  rw [ReadP.val_main_v13_apply, ReadP.val_main_v10_apply, ReadP.val_main_v9_apply, ReadP.val_main_cst_apply,
    ReadP.val_main_v8_apply, ReadP.val_main_v12_apply, ReadP.val_main_v11_apply, ReadP.val_main_cst_0_apply]
  exact step_close a1 _ _ _ _ r c Z0 Z (by idx_eq) (by idx_eq) h0 h

theorem stage_v19 (Z0 Z : Fin 16384 → Fin 64 → EReal)
    (h0 : ∀ r c, ReadP.val_main_v7 (F := Ideal) a0 a2 a3 a4 a5 (ix2 r c) = Z0 r c)
    (h : ∀ r c, ReadP.val_main_v13 (F := Ideal) a0 a1 a2 a3 a4 a5 (ix2 r c) = Z r c) (r : Fin 16384) (c : Fin 64) :
    ReadP.val_main_v19 (F := Ideal) a0 a1 a2 a3 a4 a5 (ix2 r c) = Cert.Spec.step (fun r j => a1 (ix2 r j)) Z0 Z r c := by
  rw [ReadP.val_main_v19_apply, ReadP.val_main_v16_apply, ReadP.val_main_v15_apply, ReadP.val_main_cst_1_apply,
    ReadP.val_main_v14_apply, ReadP.val_main_v18_apply, ReadP.val_main_v17_apply, ReadP.val_main_cst_2_apply]
  exact step_close a1 _ _ _ _ r c Z0 Z (by idx_eq) (by idx_eq) h0 h

theorem stage_v25 (Z0 Z : Fin 16384 → Fin 64 → EReal)
    (h0 : ∀ r c, ReadP.val_main_v7 (F := Ideal) a0 a2 a3 a4 a5 (ix2 r c) = Z0 r c)
    (h : ∀ r c, ReadP.val_main_v19 (F := Ideal) a0 a1 a2 a3 a4 a5 (ix2 r c) = Z r c) (r : Fin 16384) (c : Fin 64) :
    ReadP.val_main_v25 (F := Ideal) a0 a1 a2 a3 a4 a5 (ix2 r c) = Cert.Spec.step (fun r j => a1 (ix2 r j)) Z0 Z r c := by
  rw [ReadP.val_main_v25_apply, ReadP.val_main_v22_apply, ReadP.val_main_v21_apply, ReadP.val_main_cst_3_apply,
    ReadP.val_main_v20_apply, ReadP.val_main_v24_apply, ReadP.val_main_v23_apply, ReadP.val_main_cst_4_apply]
  exact step_close a1 _ _ _ _ r c Z0 Z (by idx_eq) (by idx_eq) h0 h

theorem stage_v31 (Z0 Z : Fin 16384 → Fin 64 → EReal)
    (h0 : ∀ r c, ReadP.val_main_v7 (F := Ideal) a0 a2 a3 a4 a5 (ix2 r c) = Z0 r c)
    (h : ∀ r c, ReadP.val_main_v25 (F := Ideal) a0 a1 a2 a3 a4 a5 (ix2 r c) = Z r c) (r : Fin 16384) (c : Fin 64) :
    ReadP.val_main_v31 (F := Ideal) a0 a1 a2 a3 a4 a5 (ix2 r c) = Cert.Spec.step (fun r j => a1 (ix2 r j)) Z0 Z r c := by
  rw [ReadP.val_main_v31_apply, ReadP.val_main_v28_apply, ReadP.val_main_v27_apply, ReadP.val_main_cst_5_apply,
    ReadP.val_main_v26_apply, ReadP.val_main_v30_apply, ReadP.val_main_v29_apply, ReadP.val_main_cst_6_apply]
  exact step_close a1 _ _ _ _ r c Z0 Z (by idx_eq) (by idx_eq) h0 h

theorem stage_v37 (Z0 Z : Fin 16384 → Fin 64 → EReal)
    (h0 : ∀ r c, ReadP.val_main_v7 (F := Ideal) a0 a2 a3 a4 a5 (ix2 r c) = Z0 r c)
    (h : ∀ r c, ReadP.val_main_v31 (F := Ideal) a0 a1 a2 a3 a4 a5 (ix2 r c) = Z r c) (r : Fin 16384) (c : Fin 64) :
    ReadP.val_main_v37 (F := Ideal) a0 a1 a2 a3 a4 a5 (ix2 r c) = Cert.Spec.step (fun r j => a1 (ix2 r j)) Z0 Z r c := by
  rw [ReadP.val_main_v37_apply, ReadP.val_main_v34_apply, ReadP.val_main_v33_apply, ReadP.val_main_cst_7_apply,
    ReadP.val_main_v32_apply, ReadP.val_main_v36_apply, ReadP.val_main_v35_apply, ReadP.val_main_cst_8_apply]
  exact step_close a1 _ _ _ _ r c Z0 Z (by idx_eq) (by idx_eq) h0 h

theorem stage_v43 (Z0 Z : Fin 16384 → Fin 64 → EReal)
    (h0 : ∀ r c, ReadP.val_main_v7 (F := Ideal) a0 a2 a3 a4 a5 (ix2 r c) = Z0 r c)
    (h : ∀ r c, ReadP.val_main_v37 (F := Ideal) a0 a1 a2 a3 a4 a5 (ix2 r c) = Z r c) (r : Fin 16384) (c : Fin 64) :
    ReadP.val_main_v43 (F := Ideal) a0 a1 a2 a3 a4 a5 (ix2 r c) = Cert.Spec.step (fun r j => a1 (ix2 r j)) Z0 Z r c := by
  rw [ReadP.val_main_v43_apply, ReadP.val_main_v40_apply, ReadP.val_main_v39_apply, ReadP.val_main_cst_9_apply,
    ReadP.val_main_v38_apply, ReadP.val_main_v42_apply, ReadP.val_main_v41_apply, ReadP.val_main_cst_10_apply]
  exact step_close a1 _ _ _ _ r c Z0 Z (by idx_eq) (by idx_eq) h0 h

theorem stage_v49 (Z0 Z : Fin 16384 → Fin 64 → EReal)
    (h0 : ∀ r c, ReadP.val_main_v7 (F := Ideal) a0 a2 a3 a4 a5 (ix2 r c) = Z0 r c)
    (h : ∀ r c, ReadP.val_main_v43 (F := Ideal) a0 a1 a2 a3 a4 a5 (ix2 r c) = Z r c) (r : Fin 16384) (c : Fin 64) :
    ReadP.val_main_v49 (F := Ideal) a0 a1 a2 a3 a4 a5 (ix2 r c) = Cert.Spec.step (fun r j => a1 (ix2 r j)) Z0 Z r c := by
  rw [ReadP.val_main_v49_apply, ReadP.val_main_v46_apply, ReadP.val_main_v45_apply, ReadP.val_main_cst_11_apply,
    ReadP.val_main_v44_apply, ReadP.val_main_v48_apply, ReadP.val_main_v47_apply, ReadP.val_main_cst_12_apply]
  exact step_close a1 _ _ _ _ r c Z0 Z (by idx_eq) (by idx_eq) h0 h

theorem stage_v55 (Z0 Z : Fin 16384 → Fin 64 → EReal)
    (h0 : ∀ r c, ReadP.val_main_v7 (F := Ideal) a0 a2 a3 a4 a5 (ix2 r c) = Z0 r c)
    (h : ∀ r c, ReadP.val_main_v49 (F := Ideal) a0 a1 a2 a3 a4 a5 (ix2 r c) = Z r c) (r : Fin 16384) (c : Fin 64) :
    ReadP.val_main_v55 (F := Ideal) a0 a1 a2 a3 a4 a5 (ix2 r c) = Cert.Spec.step (fun r j => a1 (ix2 r j)) Z0 Z r c := by
  rw [ReadP.val_main_v55_apply, ReadP.val_main_v52_apply, ReadP.val_main_v51_apply, ReadP.val_main_cst_13_apply,
    ReadP.val_main_v50_apply, ReadP.val_main_v54_apply, ReadP.val_main_v53_apply, ReadP.val_main_cst_14_apply]
  exact step_close a1 _ _ _ _ r c Z0 Z (by idx_eq) (by idx_eq) h0 h

theorem stage_v61 (Z0 Z : Fin 16384 → Fin 64 → EReal)
    (h0 : ∀ r c, ReadP.val_main_v7 (F := Ideal) a0 a2 a3 a4 a5 (ix2 r c) = Z0 r c)
    (h : ∀ r c, ReadP.val_main_v55 (F := Ideal) a0 a1 a2 a3 a4 a5 (ix2 r c) = Z r c) (r : Fin 16384) (c : Fin 64) :
    ReadP.val_main_v61 (F := Ideal) a0 a1 a2 a3 a4 a5 (ix2 r c) = Cert.Spec.step (fun r j => a1 (ix2 r j)) Z0 Z r c := by
  rw [ReadP.val_main_v61_apply, ReadP.val_main_v58_apply, ReadP.val_main_v57_apply, ReadP.val_main_cst_15_apply,
    ReadP.val_main_v56_apply, ReadP.val_main_v60_apply, ReadP.val_main_v59_apply, ReadP.val_main_cst_16_apply]
  exact step_close a1 _ _ _ _ r c Z0 Z (by idx_eq) (by idx_eq) h0 h

theorem stage_v67 (Z0 Z : Fin 16384 → Fin 64 → EReal)
    (h0 : ∀ r c, ReadP.val_main_v7 (F := Ideal) a0 a2 a3 a4 a5 (ix2 r c) = Z0 r c)
    (h : ∀ r c, ReadP.val_main_v61 (F := Ideal) a0 a1 a2 a3 a4 a5 (ix2 r c) = Z r c) (r : Fin 16384) (c : Fin 64) :
    ReadP.val_main_v67 (F := Ideal) a0 a1 a2 a3 a4 a5 (ix2 r c) = Cert.Spec.step (fun r j => a1 (ix2 r j)) Z0 Z r c := by
  rw [ReadP.val_main_v67_apply, ReadP.val_main_v64_apply, ReadP.val_main_v63_apply, ReadP.val_main_cst_17_apply,
    ReadP.val_main_v62_apply, ReadP.val_main_v66_apply, ReadP.val_main_v65_apply, ReadP.val_main_cst_18_apply]
  exact step_close a1 _ _ _ _ r c Z0 Z (by idx_eq) (by idx_eq) h0 h

theorem prop10_eq (adj : Fin 16384 → Fin 16384 → EReal) (H : Fin 16384 → Fin 64 → EReal) :
    Cert.Spec.prop10 adj H = Cert.Spec.step adj H (Cert.Spec.step adj H (Cert.Spec.step adj H (Cert.Spec.step adj H
      (Cert.Spec.step adj H (Cert.Spec.step adj H (Cert.Spec.step adj H (Cert.Spec.step adj H (Cert.Spec.step adj H
      (Cert.Spec.step adj H H))))))))) := rfl

theorem pre_tail (r : Fin 16384) (k : Fin 64) :
    ReadP.val_main_v67 (F := Ideal) a0 a1 a2 a3 a4 a5 (ix2 r k)
      = Cert.Spec.prop10 (fun r j => a1 (ix2 r j))
          (Cert.Spec.head (fun r j => a0 (ix2 r j)) (fun j k => a2 (ix2 j k)) (fun k => a3 (ix1 k))
            (fun k n => a4 (ix2 k n)) (fun n => a5 (ix1 n))) r k := by
  have h0 := head_read a0 a2 a3 a4 a5
  have h1 := stage_v13 a0 a1 a2 a3 a4 a5 _ _ h0 h0
  have h2 := stage_v19 a0 a1 a2 a3 a4 a5 _ _ h0 h1
  have h3 := stage_v25 a0 a1 a2 a3 a4 a5 _ _ h0 h2
  have h4 := stage_v31 a0 a1 a2 a3 a4 a5 _ _ h0 h3
  have h5 := stage_v37 a0 a1 a2 a3 a4 a5 _ _ h0 h4
  have h6 := stage_v43 a0 a1 a2 a3 a4 a5 _ _ h0 h5
  have h7 := stage_v49 a0 a1 a2 a3 a4 a5 _ _ h0 h6
  have h8 := stage_v55 a0 a1 a2 a3 a4 a5 _ _ h0 h7
  have h9 := stage_v61 a0 a1 a2 a3 a4 a5 _ _ h0 h8
  have h10 := stage_v67 a0 a1 a2 a3 a4 a5 _ _ h0 h9
  rw [prop10_eq]
  exact h10 r k

end Entries

end Cert.ReferenceIdeal.RefValue

end
-- ==== Proof.RefVal.lean ====
import proofs.«109160_j26783416057954_1_alg».proof.Proof.RefTail
import proofs.«109160_j26783416057954_1_alg».proof.Proof.RefRun
import proofs.«109160_j26783416057954_1_alg».proof.Proof.RefRead
import proofs.«109160_j26783416057954_1_alg».proof.Proof.RefPre
import proofs.«109160_j26783416057954_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

section Tail
variable {F : FTy → Type} [FloatOps F]
variable (x0 : Vec F S16384x512 .f32) (x1 : Vec F S16384x16384 .f32) (x2 : Vec F S512x256 .f32)
  (x3 : Vec F S256 .f32) (x4 : Vec F S256x64 .f32) (x5 : Vec F S64 .f32)

theorem tail_eq :
    ReadP.val_main_v68 (F := F) x0 x1 x2 x3 x4 x5 = lsR (ReadP.val_main_v67 (F := F) x0 x1 x2 x3 x4 x5) := by
  unfold ReadP.val_main_v68 ReadP.val_main_call0_v10 ReadP.val_main_call0_v9 ReadP.val_main_call0_v8
    ReadP.val_main_call0_v7 ReadP.val_main_call0_v6 ReadP.val_main_call0_cst_1 ReadP.val_main_call0_v5
    ReadP.val_main_call0_v4 ReadP.val_main_call0_v3 ReadP.val_main_call0_v2 ReadP.val_main_call0_v1
    ReadP.val_main_call0_cst_0 ReadP.val_main_call0_v0 ReadP.val_main_call0_cst
  generalize ReadP.val_main_v67 (F := F) x0 x1 x2 x3 x4 x5 = y
  rfl

end Tail

theorem res_eq (m : (ℓ : Loc nD τ sig) → Buf (Elt Ideal) ℓ) (c : Dev nD) :
    ValueP.res_main_v68 (F := Ideal) m c
      = lsR (F := Ideal) (Cert.Spec.arr2 (Cert.Spec.prop10 (fun r j => m ((c.tc : Thread nD τ).loc main_arg1) (ix2 r j))
          (Cert.Spec.head (fun r j => m ((c.tc : Thread nD τ).loc main_arg0) (ix2 r j)) (fun j k => m ((c.tc : Thread nD τ).loc main_arg2) (ix2 j k))
            (fun k => m ((c.tc : Thread nD τ).loc main_arg3) (ix1 k)) (fun k n => m ((c.tc : Thread nD τ).loc main_arg4) (ix2 k n))
            (fun n => m ((c.tc : Thread nD τ).loc main_arg5) (ix1 n))))) := by
  rw [ReadP.val_main_v68_eq, tail_eq]
  refine congrArg (lsR (F := Ideal)) (funext fun i => ?_)
  obtain ⟨r, k, rfl⟩ : ∃ (r : Fin 16384) (k : Fin 64), i = ix2 r k := ⟨i 0, i 1, eq_ix2 i⟩
  rw [pre_tail]
  rfl

theorem run_ref (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v68)
        = lsR (F := Ideal) (Cert.Spec.arr2 (Cert.Spec.prop10 (fun r j => m' ((c.tc : Thread nD τ).loc main_arg1) (ix2 r j))
          (Cert.Spec.head (fun r j => m' ((c.tc : Thread nD τ).loc main_arg0) (ix2 r j)) (fun j k => m' ((c.tc : Thread nD τ).loc main_arg2) (ix2 j k))
            (fun k => m' ((c.tc : Thread nD τ).loc main_arg3) (ix1 k)) (fun k n => m' ((c.tc : Thread nD τ).loc main_arg4) (ix2 k n))
            (fun n => m' ((c.tc : Thread nD τ).loc main_arg5) (ix1 n)))))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5) :=
  (θ_run defs _ _).mono (fun _ h c => ⟨(h c).1.trans (res_eq m' c), (h c).2⟩) (ValueP.run (F := Ideal) m' ρ')

end Cert.ReferenceIdeal.RefValue

end
-- ==== Proof.TailEq.lean ====
import proofs.«109160_j26783416057954_1_alg».proof.Proof.KI.HostVal
import proofs.«109160_j26783416057954_1_alg».proof.Proof.RefTail

set_option maxRecDepth 16384

noncomputable section

namespace Cert.Proof.TailEq

open Idealize.ShloMosaic

theorem ls_eq {F : FTy → Type} [FloatOps F] (x : Vec F Cert.KernelIdeal.S16384x64 .f32) :
    Cert.KernelIdeal.Fr.lsK x = Cert.ReferenceIdeal.RefValue.lsR x := rfl

end Cert.Proof.TailEq

end
-- ==== Proof.Claims.lean ====
import proofs.«109160_j26783416057954_1_alg».proof.Defs
import proofs.«109160_j26783416057954_1_alg».proof.Proof.Gen.Kernel
import proofs.«109160_j26783416057954_1_alg».proof.Proof.Gen.KernelIdeal
import proofs.«109160_j26783416057954_1_alg».proof.Proof.Gen.ReferenceIdeal
import proofs.«109160_j26783416057954_1_alg».proof.Proof.Gen.Pre_finite_inputs
import proofs.«109160_j26783416057954_1_alg».proof.Proof.KI.Run
import proofs.«109160_j26783416057954_1_alg».proof.Proof.KB.Run
import proofs.«109160_j26783416057954_1_alg».proof.Proof.KI.Chain
import proofs.«109160_j26783416057954_1_alg».proof.Proof.RefVal
import proofs.«109160_j26783416057954_1_alg».proof.Proof.TailEq

set_option maxRecDepth 16384

noncomputable section

namespace Cert.Proof.Claims

open Idealize.ShloMosaic Idealize.ShloMosaic.TcCoe Idealize.SL.Sem Idealize.ShloMosaic.ValueIdx

theorem frame_k : Cert.frame_Kernel := fun m ρ _ => Cert.Kernel.Fr.frame (F := Bits) m ρ

theorem frame_ki : Cert.frame_KernelIdeal := fun m ρ _ => Cert.KernelIdeal.Fr.frame (F := Ideal) m ρ

theorem frame_ri : Cert.frame_ReferenceIdeal := fun m ρ _ =>
  (θ_run Cert.ReferenceIdeal.defs _ _).mono (fun _ h c => (h c).2) (Cert.ReferenceIdeal.RefValue.run_ref m ρ)

theorem preserves : Cert.preserves_Kernel_KernelIdeal := trivial

section Value

open Cert.KernelIdeal Cert.KernelIdeal.Gen Cert.KernelIdeal.Fr

abbrev common (m : (ℓ : Loc nD τ sig) → Buf (Elt Ideal) ℓ) (c : Dev nD) : Vec Ideal S16384x64 .f32 :=
  lsK (Cert.Spec.arr2 (Cert.Spec.prop10
      (fun r j => (m ((c : Thread nD τ).loc main_arg1) : Vec Ideal S16384x16384 .f32) (ix2 r j))
      (Cert.Spec.head (fun r j => (m ((c : Thread nD τ).loc main_arg0) : Vec Ideal S16384x512 .f32) (ix2 r j))
        (fun j k => (m ((c : Thread nD τ).loc main_arg2) : Vec Ideal S512x256 .f32) (ix2 j k))
        (fun k => (m ((c : Thread nD τ).loc main_arg3) : Vec Ideal S256 .f32) (ix1 k))
        (fun k n => (m ((c : Thread nD τ).loc main_arg4) : Vec Ideal S256x64 .f32) (ix2 k n))
        (fun n => (m ((c : Thread nD τ).loc main_arg5) : Vec Ideal S64 .f32) (ix1 n)))))

theorem algebraic : Cert.algebraic_KernelIdeal_ReferenceIdeal := by
  intro m ρ m' ρ' _ hagree
  refine ⟨fun c => common m c, ?_, ?_⟩
  · exact (θ_run Cert.KernelIdeal.defs _ _).mono (fun r h c =>
      ⟨(h c _ (mem_uc main_v13 (by decide))).trans (kernel_value m c),
        (h c _ (mem_uc main_arg0 (by decide))).trans (V13_main_arg0 m _ c),
        (h c _ (mem_uc main_arg1 (by decide))).trans (V13_main_arg1 m _ c),
        (h c _ (mem_uc main_arg2 (by decide))).trans (V13_main_arg2 m _ c),
        (h c _ (mem_uc main_arg3 (by decide))).trans (V13_main_arg3 m _ c),
        (h c _ (mem_uc main_arg4 (by decide))).trans (V13_main_arg4 m _ c),
        (h c _ (mem_uc main_arg5 (by decide))).trans (V13_main_arg5 m _ c)⟩)
      (run_main (F := Ideal) m ρ)
  · refine (θ_run Cert.ReferenceIdeal.defs _ _).mono (fun r h c => ⟨(h c).1.trans ?_, (h c).2⟩)
      (Cert.ReferenceIdeal.RefValue.run_ref m' ρ')
    obtain ⟨h0, h1, h2, h3, h4, h5⟩ := hagree c
    rw [h0, h1, h2, h3, h4, h5]
    exact (Cert.Proof.TailEq.ls_eq _).symm

end Value

end Cert.Proof.Claims

end
-- ==== Proof.lean ====
import proofs.«109160_j26783416057954_1_alg».proof.Defs
import proofs.«109160_j26783416057954_1_alg».proof.Proof.Gen.Kernel
import proofs.«109160_j26783416057954_1_alg».proof.Proof.Gen.KernelIdeal
import proofs.«109160_j26783416057954_1_alg».proof.Proof.Gen.ReferenceIdeal
import proofs.«109160_j26783416057954_1_alg».proof.Proof.Gen.Pre_finite_inputs
import proofs.«109160_j26783416057954_1_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
